-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  IdealRules.truncf_extf.Statement Cert.KernelIdeal.S2944x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v179)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v179) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v351) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x20 : Shape := ⟨2, ![50000, 20]⟩
abbrev S2x800000 : Shape := ⟨2, ![2, 800000]⟩
abbrev S800000 : Shape := ⟨1, ![800000]⟩
abbrev S50000 : Shape := ⟨1, ![50000]⟩
abbrev S512 : Shape := ⟨1, ![512]⟩
abbrev S20x32 : Shape := ⟨2, ![20, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x20 : S_.BroadcastsInDim S50000x20 (![] : Fin 0 → Fin S50000x20.rank)
  reducesTo_S50000x20_S_d0_1 : S50000x20.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512 : S_.BroadcastsInDim S512 (![] : Fin 0 → Fin S512.rank)
  reducesTo_S512_S_d0 : S512.ReducesTo [0] S_
  bcast_S_S20x32 : S_.BroadcastsInDim S20x32 (![] : Fin 0 → Fin S20x32.rank)
  reducesTo_S20x32_S_d0_1 : S20x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg27 : FVec F S128x1 .f32) (main_arg28 : FVec F S1 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x1 .f32 := Host.absf main_arg27
  let main_cst_48 : FVec F S_ .f32 := constant S_ .f32 0x7F800000#32
  let main_v125 : FVec F S128x1 .f32 := broadcastInDim S128x1 ![] bcast_S_S128x1 main_cst_48
  let main_v126 : IVec S128x1 1 := cmpf .olt main_v124 main_v125
  let main_c_49 : IVec S_ 1 := constantI S_ 1 1#1
  let main_v127 : IVec S_ 1 := (fun x v => Host.reduce IntOp.andi x v reducesTo_S128x1_S_d0_1 h_S_) main_v126 main_c_49
  let main_v128 : IVec S_ 1 := andi main_v123 main_v127
  let main_v129 : FVec F S1 .f32 := Host.absf main_arg28
  let main_cst_50 : FVec F S_ .f32 := constant S_ .f32 0x7F800000#32
  let main_v130 : FVec F S1 .f32 := broadcastInDim S1 ![] bcast_S_S1 main_cst_50
  let main_v131 : IVec S1 1 := cmpf .olt main_v129 main_v130
  let main_c_51 : IVec S_ 1 := constantI S_ 1 1#1
  let main_v132 : IVec S_ 1 := (fun x v => Host.reduce IntOp.andi x v reducesTo_S1_S_d0 h_S_) main_v131 main_c_51
  let main_v133 : IVec S_ 1 := andi main_v128 main_v132
  main_v133

def fn_part6 {F : FTy → Type} [FloatOps F] (main_arg23 : FVec F S256 .f32) (main_arg24 : FVec F S256 .f32) (main_arg25 : FVec F S256x128 .f32) (main_arg26 : FVec F S128 .f32) (main_arg27 : FVec F S128x1 .f32) (main_arg28 : FVec F S1 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256 .f32 := Host.absf main_arg23
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256 .f32 := Host.absf main_arg24
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256x128 .f32 := Host.absf main_arg25
  let main_cst_44 : FVec F S_ .f32 := constant S_ .f32 0x7F800000#32
  let main_v115 : FVec F S256x128 .f32 := broadcastInDim S256x128 ![] bcast_S_S256x128 main_cst_44
  let main_v116 : IVec S256x128 1 := cmpf .olt main_v114 main_v115
  let main_c_45 : IVec S_ 1 := constantI S_ 1 1#1
  let main_v117 : IVec S_ 1 := (fun x v => Host.reduce IntOp.andi x v reducesTo_S256x128_S_d0_1 h_S_) main_v116 main_c_45
  let main_v118 : IVec S_ 1 := andi main_v113 main_v117
  let main_v119 : FVec F S128 .f32 := Host.absf main_arg26
  fn_part7 (F := F) main_arg27 main_arg28 main_v118 main_v119

def fn_part5 {F : FTy → Type} [FloatOps F] (main_arg20 : FVec F S128 .f32) (main_arg21 : FVec F S128x256 .f32) (main_arg22 : FVec F S256 .f32) (main_arg23 : FVec F S256 .f32) (main_arg24 : FVec F S256 .f32) (main_arg25 : FVec F S256x128 .f32) (main_arg26 : FVec F S128 .f32) (main_arg27 : FVec F S128x1 .f32) (main_arg28 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x256 .f32 := Host.absf main_arg21
  let main_cst_36 : FVec F S_ .f32 := constant S_ .f32 0x7F800000#32
  let main_v95 : FVec F S128x256 .f32 := broadcastInDim S128x256 ![] bcast_S_S128x256 main_cst_36
  let main_v96 : IVec S128x256 1 := cmpf .olt main_v94 main_v95
  let main_c_37 : IVec S_ 1 := constantI S_ 1 1#1
  let main_v97 : IVec S_ 1 := (fun x v => Host.reduce IntOp.andi x v reducesTo_S128x256_S_d0_1 h_S_) main_v96 main_c_37
  let main_v98 : IVec S_ 1 := andi main_v93 main_v97
  let main_v99 : FVec F S256 .f32 := Host.absf main_arg22
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg23 main_arg24 main_arg25 main_arg26 main_arg27 main_arg28 main_v98 main_v101 main_c_39

def fn_part4 {F : FTy → Type} [FloatOps F] (main_arg16 : FVec F S128 .f32) (main_arg17 : FVec F S128x128 .f32) (main_arg18 : FVec F S128 .f32) (main_arg19 : FVec F S128 .f32) (main_arg20 : FVec F S128 .f32) (main_arg21 : FVec F S128x256 .f32) (main_arg22 : FVec F S256 .f32) (main_arg23 : FVec F S256 .f32) (main_arg24 : FVec F S256 .f32) (main_arg25 : FVec F S256x128 .f32) (main_arg26 : FVec F S128 .f32) (main_arg27 : FVec F S128x1 .f32) (main_arg28 : FVec F S1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_v83 main_v84 main_cst_32

def fn_part3 {F : FTy → Type} [FloatOps F] (main_arg13 : FVec F S64x128 .f32) (main_arg14 : FVec F S128 .f32) (main_arg15 : FVec F S128 .f32) (main_arg16 : FVec F S128 .f32) (main_arg17 : FVec F S128x128 .f32) (main_arg18 : FVec F S128 .f32) (main_arg19 : FVec F S128 .f32) (main_arg20 : FVec F S128 .f32) (main_arg21 : FVec F S128x256 .f32) (main_arg22 : FVec F S256 .f32) (main_arg23 : FVec F S256 .f32) (main_arg24 : FVec F S256 .f32) (main_arg25 : FVec F S256x128 .f32) (main_arg26 : FVec F S128 .f32) (main_arg27 : FVec F S128x1 .f32) (main_arg28 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x128 .f32 := Host.absf main_arg13
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_arg25 main_arg26 main_arg27 main_arg28 main_v63 main_v67

def fn_part2 {F : FTy → Type} [FloatOps F] (main_arg9 : FVec F S32x64 .f32) (main_arg10 : FVec F S64 .f32) (main_arg11 : FVec F S64 .f32) (main_arg12 : FVec F S64 .f32) (main_arg13 : FVec F S64x128 .f32) (main_arg14 : FVec F S128 .f32) (main_arg15 : FVec F S128 .f32) (main_arg16 : FVec F S128 .f32) (main_arg17 : FVec F S128x128 .f32) (main_arg18 : FVec F S128 .f32) (main_arg19 : FVec F S128 .f32) (main_arg20 : FVec F S128 .f32) (main_arg21 : FVec F S128x256 .f32) (main_arg22 : FVec F S256 .f32) (main_arg23 : FVec F S256 .f32) (main_arg24 : FVec F S256 .f32) (main_arg25 : FVec F S256x128 .f32) (main_arg26 : FVec F S128 .f32) (main_arg27 : FVec F S128x1 .f32) (main_arg28 : FVec F S1 .f32) (main_v33 : IVec S_ 1) : IVec S_ 1 :=
  let main_v34 : FVec F S32x64 .f32 := Host.absf main_arg9
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg6 : FVec F S32 .f32) (main_arg7 : FVec F S32 .f32) (main_arg8 : FVec F S32 .f32) (main_arg9 : FVec F S32x64 .f32) (main_arg10 : FVec F S64 .f32) (main_arg11 : FVec F S64 .f32) (main_arg12 : FVec F S64 .f32) (main_arg13 : FVec F S64x128 .f32) (main_arg14 : FVec F S128 .f32) (main_arg15 : FVec F S128 .f32) (main_arg16 : FVec F S128 .f32) (main_arg17 : FVec F S128x128 .f32) (main_arg18 : FVec F S128 .f32) (main_arg19 : FVec F S128 .f32) (main_arg20 : FVec F S128 .f32) (main_arg21 : FVec F S128x256 .f32) (main_arg22 : FVec F S256 .f32) (main_arg23 : FVec F S256 .f32) (main_arg24 : FVec F S256 .f32) (main_arg25 : FVec F S256x128 .f32) (main_arg26 : FVec F S128 .f32) (main_arg27 : FVec F S128x1 .f32) (main_arg28 : FVec F S1 .f32) (main_v13 : IVec S_ 1) (main_v16 : IVec S20x32 1) : IVec S_ 1 :=
  let main_c_5 : IVec S_ 1 := constantI S_ 1 1#1
  let main_v17 : IVec S_ 1 := (fun x v => Host.reduce IntOp.andi x v reducesTo_S20x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S50000x20 .f32) (main_arg1 : IVec S2x800000 32) (main_arg2 : FVec F S800000 .f32) (main_arg3 : IVec S50000 32) (main_arg4 : FVec F S512 .f32) (main_arg5 : FVec F S20x32 .f32) (main_arg6 : FVec F S32 .f32) (main_arg7 : FVec F S32 .f32) (main_arg8 : FVec F S32 .f32) (main_arg9 : FVec F S32x64 .f32) (main_arg10 : FVec F S64 .f32) (main_arg11 : FVec F S64 .f32) (main_arg12 : FVec F S64 .f32) (main_arg13 : FVec F S64x128 .f32) (main_arg14 : FVec F S128 .f32) (main_arg15 : FVec F S128 .f32) (main_arg16 : FVec F S128 .f32) (main_arg17 : FVec F S128x128 .f32) (main_arg18 : FVec F S128 .f32) (main_arg19 : FVec F S128 .f32) (main_arg20 : FVec F S128 .f32) (main_arg21 : FVec F S128x256 .f32) (main_arg22 : FVec F S256 .f32) (main_arg23 : FVec F S256 .f32) (main_arg24 : FVec F S256 .f32) (main_arg25 : FVec F S256x128 .f32) (main_arg26 : FVec F S128 .f32) (main_arg27 : FVec F S128x1 .f32) (main_arg28 : FVec F S1 .f32) : IVec S_ 1 :=
  let main_v0 : FVec F S50000x20 .f32 := Host.absf main_arg0
  let main_cst : FVec F S_ .f32 := constant S_ .f32 0x7F800000#32
  let main_v1 : FVec F S50000x20 .f32 := broadcastInDim S50000x20 ![] bcast_S_S50000x20 main_cst
  let main_v2 : IVec S50000x20 1 := cmpf .olt main_v0 main_v1
  let main_c : IVec S_ 1 := constantI S_ 1 1#1
  let main_v3 : IVec S_ 1 := (fun x v => Host.reduce IntOp.andi x v reducesTo_S50000x20_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S20x32 .f32 := Host.absf main_arg5
  let main_cst_4 : FVec F S_ .f32 := constant S_ .f32 0x7F800000#32
  let main_v15 : FVec F S20x32 .f32 := broadcastInDim S20x32 ![] bcast_S_S20x32 main_cst_4
  let main_v16 : IVec S20x32 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S50000x20 : Shape := ⟨2, ![50000, 20]⟩
abbrev S2x800000 : Shape := ⟨2, ![2, 800000]⟩
abbrev S800000 : Shape := ⟨1, ![800000]⟩
abbrev S50000 : Shape := ⟨1, ![50000]⟩
abbrev S512 : Shape := ⟨1, ![512]⟩
abbrev S20x32 : Shape := ⟨2, ![20, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x32 : Shape := ⟨2, ![50000, 32]⟩
abbrev S5000x20 : Shape := ⟨2, ![5000, 20]⟩
abbrev S5000x32 : Shape := ⟨2, ![5000, 32]⟩
abbrev S850000x32 : Shape := ⟨2, ![850000, 32]⟩
abbrev S1x32 : Shape := ⟨2, ![1, 32]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S50000x128 : Shape := ⟨2, ![50000, 128]⟩
abbrev S5000x128 : Shape := ⟨2, ![5000, 128]⟩
abbrev S850000x128 : Shape := ⟨2, ![850000, 128]⟩
abbrev S1x128 : Shape := ⟨2, ![1, 128]⟩
abbrev S50000x256 : Shape := ⟨2, ![50000, 256]⟩
abbrev S5000x256 : Shape := ⟨2, ![5000, 256]⟩
abbrev S850000x256 : Shape := ⟨2, ![850000, 256]⟩
abbrev S1x256 : Shape := ⟨2, ![1, 256]⟩
abbrev S50048x256 : Shape := ⟨2, ![50048, 256]⟩
abbrev S50048 : Shape := ⟨1, ![50048]⟩
abbrev S1x50048 : Shape := ⟨2, ![1, 50048]⟩
abbrev S512x256 : Shape := ⟨2, ![512, 256]⟩
abbrev S1x2944 : Shape := ⟨2, ![1, 2944]⟩
abbrev S2944x256 : Shape := ⟨2, ![2944, 256]⟩
abbrev S512x2944 : Shape := ⟨2, ![512, 2944]⟩
abbrev S1x1 : Shape := ⟨2, ![1, 1]⟩
abbrev S512x1 : Shape := ⟨2, ![512, 1]⟩
abbrev S512x128 : Shape := ⟨2, ![512, 128]⟩

abbrev nBuf : Space → Nat
  | .hbm => 258
  | .vmem => 137
  | .smem => 0
  | _ => 0

abbrev hbmTy0_0 (i : Nat) : BufTy := match i % 128 with
  | 0 => ⟨S50000x20, .f32⟩
  | 1 => ⟨S2x800000, .i32⟩
  | 2 => ⟨S800000, .f32⟩
  | 3 => ⟨S50000, .i32⟩
  | 4 => ⟨S512, .f32⟩
  | 5 => ⟨S20x32, .f32⟩
  | 6 => ⟨S32, .f32⟩
  | 7 => ⟨S32, .f32⟩
  | 8 => ⟨S32, .f32⟩
  | 9 => ⟨S32x64, .f32⟩
  | 10 => ⟨S64, .f32⟩
  | 11 => ⟨S64, .f32⟩
  | 12 => ⟨S64, .f32⟩
  | 13 => ⟨S64x128, .f32⟩
  | 14 => ⟨S128, .f32⟩
  | 15 => ⟨S128, .f32⟩
  | 16 => ⟨S128, .f32⟩
  | 17 => ⟨S128x128, .f32⟩
  | 18 => ⟨S128, .f32⟩
  | 19 => ⟨S128, .f32⟩
  | 20 => ⟨S128, .f32⟩
  | 21 => ⟨S128x256, .f32⟩
  | 22 => ⟨S256, .f32⟩
  | 23 => ⟨S256, .f32⟩
  | 24 => ⟨S256, .f32⟩
  | 25 => ⟨S256x128, .f32⟩
  | 26 => ⟨S128, .f32⟩
  | 27 => ⟨S128x1, .f32⟩
  | 28 => ⟨S1, .f32⟩
  | 29 => ⟨S50000, .i32⟩
  | 30 => ⟨S1x800000, .i32⟩
  | 31 => ⟨S800000, .i32⟩
  | 32 => ⟨S850000, .i32⟩
  | 33 => ⟨S1x800000, .i32⟩
  | 34 => ⟨S800000, .i32⟩
  | 35 => ⟨S850000, .i32⟩
  | 36 => ⟨S_, .f32⟩
  | 37 => ⟨S50000, .f32⟩
  | 38 => ⟨S850000, .f32⟩
  | 39 => ⟨S_, .f32⟩
  | 40 => ⟨S50000, .f32⟩
  | 41 => ⟨S850000x1, .i32⟩
  | 42 => ⟨S50000, .f32⟩
  | 43 => ⟨S_, .f32⟩
  | 44 => ⟨S50000, .f32⟩
  | 45 => ⟨S50000, .i1⟩
  | 46 => ⟨S50000, .f32⟩
  | 47 => ⟨S_, .f32⟩
  | 48 => ⟨S_, .f32⟩
  | 49 => ⟨S50000, .f32⟩
  | 50 => ⟨S50000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000, .f32⟩
  | 60 => ⟨S850000, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000, .f32⟩
  | 70 => ⟨S850000, .f32⟩
  | 71 => ⟨S50000x32, .bf16⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000x32, .bf16⟩
  | 81 => ⟨S850000x32, .f32⟩
  | 82 => ⟨S850000x1, .f32⟩
  | 83 => ⟨S850000x32, .f32⟩
  | 84 => ⟨S850000x32, .f32⟩
  | 85 => ⟨S_, .f32⟩
  | 86 => ⟨S50000x32, .f32⟩
  | 87 => ⟨S850000x1, .i32⟩
  | 88 => ⟨S50000x32, .f32⟩
  | 89 => ⟨S1x32, .f32⟩
  | 90 => ⟨S50000x32, .f32⟩
  | 91 => ⟨S1x32, .f32⟩
  | 92 => ⟨S_, .f32⟩
  | 93 => ⟨S1x32, .f32⟩
  | 94 => ⟨S1x32, .f32⟩
  | 95 => ⟨S1x32, .f32⟩
  | 96 => ⟨S_, .f32⟩
  | 97 => ⟨S1x32, .f32⟩
  | 98 => ⟨S1x32, .f32⟩
  | 99 => ⟨S_, .f32⟩
  | 100 => ⟨S1x32, .f32⟩
  | 101 => ⟨S1x32, .f32⟩
  | 102 => ⟨S1x32, .f32⟩
  | 103 => ⟨S1x32, .f32⟩
  | 104 => ⟨S1x32, .f32⟩
  | 105 => ⟨S50000x32, .f32⟩
  | 106 => ⟨S50000x64, .bf16⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000x64, .bf16⟩
  | 116 => ⟨S850000x64, .f32⟩
  | 117 => ⟨S850000x1, .f32⟩
  | 118 => ⟨S850000x64, .f32⟩
  | 119 => ⟨S850000x64, .f32⟩
  | 120 => ⟨S_, .f32⟩
  | 121 => ⟨S50000x64, .f32⟩
  | 122 => ⟨S850000x1, .i32⟩
  | 123 => ⟨S50000x64, .f32⟩
  | 124 => ⟨S1x64, .f32⟩
  | 125 => ⟨S50000x64, .f32⟩
  | 126 => ⟨S1x64, .f32⟩
  | 127 => ⟨S_, .f32⟩
  | _ => ⟨S50000x20, .f32⟩

abbrev hbmTy0_1 (i : Nat) : BufTy := match i % 128 with
  | 0 => ⟨S1x64, .f32⟩
  | 1 => ⟨S1x64, .f32⟩
  | 2 => ⟨S1x64, .f32⟩
  | 3 => ⟨S_, .f32⟩
  | 4 => ⟨S1x64, .f32⟩
  | 5 => ⟨S1x64, .f32⟩
  | 6 => ⟨S_, .f32⟩
  | 7 => ⟨S1x64, .f32⟩
  | 8 => ⟨S1x64, .f32⟩
  | 9 => ⟨S1x64, .f32⟩
  | 10 => ⟨S1x64, .f32⟩
  | 11 => ⟨S1x64, .f32⟩
  | 12 => ⟨S50000x64, .f32⟩
  | 13 => ⟨S50000x128, .bf16⟩
  | 14 => ⟨S_, .i32⟩
  | 15 => ⟨S850000, .i32⟩
  | 16 => ⟨S850000, .i1⟩
  | 17 => ⟨S_, .i32⟩
  | 18 => ⟨S850000, .i32⟩
  | 19 => ⟨S850000, .i32⟩
  | 20 => ⟨S850000, .i32⟩
  | 21 => ⟨S850000x1, .i32⟩
  | 22 => ⟨S850000x128, .bf16⟩
  | 23 => ⟨S850000x128, .f32⟩
  | 24 => ⟨S850000x1, .f32⟩
  | 25 => ⟨S850000x128, .f32⟩
  | 26 => ⟨S850000x128, .f32⟩
  | 27 => ⟨S_, .f32⟩
  | 28 => ⟨S50000x128, .f32⟩
  | 29 => ⟨S850000x1, .i32⟩
  | 30 => ⟨S50000x128, .f32⟩
  | 31 => ⟨S1x128, .f32⟩
  | 32 => ⟨S50000x128, .f32⟩
  | 33 => ⟨S1x128, .f32⟩
  | 34 => ⟨S_, .f32⟩
  | 35 => ⟨S1x128, .f32⟩
  | 36 => ⟨S1x128, .f32⟩
  | 37 => ⟨S1x128, .f32⟩
  | 38 => ⟨S_, .f32⟩
  | 39 => ⟨S1x128, .f32⟩
  | 40 => ⟨S1x128, .f32⟩
  | 41 => ⟨S_, .f32⟩
  | 42 => ⟨S1x128, .f32⟩
  | 43 => ⟨S1x128, .f32⟩
  | 44 => ⟨S1x128, .f32⟩
  | 45 => ⟨S1x128, .f32⟩
  | 46 => ⟨S1x128, .f32⟩
  | 47 => ⟨S50000x128, .f32⟩
  | 48 => ⟨S50000x128, .bf16⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x128, .bf16⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S1x128, .f32⟩
  | 69 => ⟨S_, .f32⟩
  | 70 => ⟨S1x128, .f32⟩
  | 71 => ⟨S1x128, .f32⟩
  | 72 => ⟨S1x128, .f32⟩
  | 73 => ⟨S_, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S50000x128, .f32⟩
  | 83 => ⟨S50000x256, .bf16⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000x256, .bf16⟩
  | 93 => ⟨S850000x256, .f32⟩
  | 94 => ⟨S850000x1, .f32⟩
  | 95 => ⟨S850000x256, .f32⟩
  | 96 => ⟨S850000x256, .f32⟩
  | 97 => ⟨S_, .f32⟩
  | 98 => ⟨S50000x256, .f32⟩
  | 99 => ⟨S850000x1, .i32⟩
  | 100 => ⟨S50000x256, .f32⟩
  | 101 => ⟨S1x256, .f32⟩
  | 102 => ⟨S50000x256, .f32⟩
  | 103 => ⟨S1x256, .f32⟩
  | 104 => ⟨S_, .f32⟩
  | 105 => ⟨S1x256, .f32⟩
  | 106 => ⟨S1x256, .f32⟩
  | 107 => ⟨S1x256, .f32⟩
  | 108 => ⟨S_, .f32⟩
  | 109 => ⟨S1x256, .f32⟩
  | 110 => ⟨S1x256, .f32⟩
  | 111 => ⟨S_, .f32⟩
  | 112 => ⟨S1x256, .f32⟩
  | 113 => ⟨S1x256, .f32⟩
  | 114 => ⟨S1x256, .f32⟩
  | 115 => ⟨S1x256, .f32⟩
  | 116 => ⟨S1x256, .f32⟩
  | 117 => ⟨S50000x256, .f32⟩
  | 118 => ⟨S_, .i32⟩
  | 119 => ⟨S_, .f32⟩
  | 120 => ⟨S50048x256, .f32⟩
  | 121 => ⟨S_, .i32⟩
  | 122 => ⟨S_, .i32⟩
  | 123 => ⟨S50048, .i32⟩
  | 124 => ⟨S1x50048, .i32⟩
  | 125 => ⟨S512x256, .f32⟩
  | 126 => ⟨S1x128, .f32⟩
  | 127 => ⟨S1x1, .f32⟩
  | _ => ⟨S50000x20, .f32⟩

abbrev hbmTy0_2 (i : Nat) : BufTy := match i % 128 with
  | 0 => ⟨S512x1, .f32⟩
  | 1 => ⟨S512, .f32⟩
  | _ => ⟨S50000x20, .f32⟩

abbrev hbmTy (i : Nat) : BufTy := match i / 128 with
  | 0 => hbmTy0_0 i
  | 1 => hbmTy0_1 i
  | 2 => hbmTy0_2 i
  | _ => ⟨S50000x20, .f32⟩

abbrev vmemTy0_0 (i : Nat) : BufTy := match i % 128 with
  | 0 => ⟨S5000x20, .f32⟩
  | 1 => ⟨S5000x20, .f32⟩
  | 2 => ⟨S20x32, .f32⟩
  | 3 => ⟨S5000x32, .bf16⟩
  | 4 => ⟨S5000x32, .bf16⟩
  | 5 => ⟨S5000x32, .f32⟩
  | 6 => ⟨S5000x32, .f32⟩
  | 7 => ⟨S1x32, .f32⟩
  | 8 => ⟨S5000x32, .f32⟩
  | 9 => ⟨S5000x32, .f32⟩
  | 10 => ⟨S1x32, .f32⟩
  | 11 => ⟨S1x32, .f32⟩
  | 12 => ⟨S5000x32, .f32⟩
  | 13 => ⟨S5000x32, .f32⟩
  | 14 => ⟨S1x32, .f32⟩
  | 15 => ⟨S1x32, .f32⟩
  | 16 => ⟨S1x32, .f32⟩
  | 17 => ⟨S5000x32, .f32⟩
  | 18 => ⟨S5000x32, .f32⟩
  | 19 => ⟨S1x32, .f32⟩
  | 20 => ⟨S1x32, .f32⟩
  | 21 => ⟨S1x32, .f32⟩
  | 22 => ⟨S1x32, .f32⟩
  | 23 => ⟨S5000x32, .f32⟩
  | 24 => ⟨S5000x32, .f32⟩
  | 25 => ⟨S5000x32, .f32⟩
  | 26 => ⟨S5000x32, .f32⟩
  | 27 => ⟨S32x64, .f32⟩
  | 28 => ⟨S5000x64, .bf16⟩
  | 29 => ⟨S5000x64, .bf16⟩
  | 30 => ⟨S5000x64, .f32⟩
  | 31 => ⟨S5000x64, .f32⟩
  | 32 => ⟨S1x64, .f32⟩
  | 33 => ⟨S5000x64, .f32⟩
  | 34 => ⟨S5000x64, .f32⟩
  | 35 => ⟨S1x64, .f32⟩
  | 36 => ⟨S1x64, .f32⟩
  | 37 => ⟨S5000x64, .f32⟩
  | 38 => ⟨S5000x64, .f32⟩
  | 39 => ⟨S1x64, .f32⟩
  | 40 => ⟨S1x64, .f32⟩
  | 41 => ⟨S1x64, .f32⟩
  | 42 => ⟨S5000x64, .f32⟩
  | 43 => ⟨S5000x64, .f32⟩
  | 44 => ⟨S1x64, .f32⟩
  | 45 => ⟨S1x64, .f32⟩
  | 46 => ⟨S1x64, .f32⟩
  | 47 => ⟨S1x64, .f32⟩
  | 48 => ⟨S5000x64, .f32⟩
  | 49 => ⟨S5000x64, .f32⟩
  | 50 => ⟨S5000x64, .f32⟩
  | 51 => ⟨S5000x64, .f32⟩
  | 52 => ⟨S64x128, .f32⟩
  | 53 => ⟨S5000x128, .bf16⟩
  | 54 => ⟨S5000x128, .bf16⟩
  | 55 => ⟨S5000x128, .f32⟩
  | 56 => ⟨S5000x128, .f32⟩
  | 57 => ⟨S1x128, .f32⟩
  | 58 => ⟨S5000x128, .f32⟩
  | 59 => ⟨S5000x128, .f32⟩
  | 60 => ⟨S1x128, .f32⟩
  | 61 => ⟨S1x128, .f32⟩
  | 62 => ⟨S5000x128, .f32⟩
  | 63 => ⟨S5000x128, .f32⟩
  | 64 => ⟨S1x128, .f32⟩
  | 65 => ⟨S1x128, .f32⟩
  | 66 => ⟨S1x128, .f32⟩
  | 67 => ⟨S5000x128, .f32⟩
  | 68 => ⟨S5000x128, .f32⟩
  | 69 => ⟨S1x128, .f32⟩
  | 70 => ⟨S1x128, .f32⟩
  | 71 => ⟨S1x128, .f32⟩
  | 72 => ⟨S1x128, .f32⟩
  | 73 => ⟨S5000x128, .f32⟩
  | 74 => ⟨S5000x128, .f32⟩
  | 75 => ⟨S5000x128, .f32⟩
  | 76 => ⟨S5000x128, .f32⟩
  | 77 => ⟨S128x128, .f32⟩
  | 78 => ⟨S5000x128, .bf16⟩
  | 79 => ⟨S5000x128, .bf16⟩
  | 80 => ⟨S5000x128, .f32⟩
  | 81 => ⟨S5000x128, .f32⟩
  | 82 => ⟨S1x128, .f32⟩
  | 83 => ⟨S5000x128, .f32⟩
  | 84 => ⟨S5000x128, .f32⟩
  | 85 => ⟨S1x128, .f32⟩
  | 86 => ⟨S1x128, .f32⟩
  | 87 => ⟨S5000x128, .f32⟩
  | 88 => ⟨S5000x128, .f32⟩
  | 89 => ⟨S1x128, .f32⟩
  | 90 => ⟨S1x128, .f32⟩
  | 91 => ⟨S1x128, .f32⟩
  | 92 => ⟨S5000x128, .f32⟩
  | 93 => ⟨S5000x128, .f32⟩
  | 94 => ⟨S1x128, .f32⟩
  | 95 => ⟨S1x128, .f32⟩
  | 96 => ⟨S1x128, .f32⟩
  | 97 => ⟨S1x128, .f32⟩
  | 98 => ⟨S5000x128, .f32⟩
  | 99 => ⟨S5000x128, .f32⟩
  | 100 => ⟨S5000x128, .f32⟩
  | 101 => ⟨S5000x128, .f32⟩
  | 102 => ⟨S128x256, .f32⟩
  | 103 => ⟨S5000x256, .bf16⟩
  | 104 => ⟨S5000x256, .bf16⟩
  | 105 => ⟨S5000x256, .f32⟩
  | 106 => ⟨S5000x256, .f32⟩
  | 107 => ⟨S1x256, .f32⟩
  | 108 => ⟨S5000x256, .f32⟩
  | 109 => ⟨S5000x256, .f32⟩
  | 110 => ⟨S1x256, .f32⟩
  | 111 => ⟨S1x256, .f32⟩
  | 112 => ⟨S5000x256, .f32⟩
  | 113 => ⟨S5000x256, .f32⟩
  | 114 => ⟨S1x256, .f32⟩
  | 115 => ⟨S1x256, .f32⟩
  | 116 => ⟨S1x256, .f32⟩
  | 117 => ⟨S5000x256, .f32⟩
  | 118 => ⟨S5000x256, .f32⟩
  | 119 => ⟨S1x256, .f32⟩
  | 120 => ⟨S1x256, .f32⟩
  | 121 => ⟨S1x256, .f32⟩
  | 122 => ⟨S1x256, .f32⟩
  | 123 => ⟨S5000x256, .f32⟩
  | 124 => ⟨S5000x256, .f32⟩
  | 125 => ⟨S1x2944, .i32⟩
  | 126 => ⟨S1x2944, .i32⟩
  | 127 => ⟨S2944x256, .f32⟩
  | _ => ⟨S50000x20, .f32⟩

abbrev vmemTy0_1 (i : Nat) : BufTy := match i % 128 with
  | 0 => ⟨S2944x256, .f32⟩
  | 1 => ⟨S512x256, .f32⟩
  | 2 => ⟨S512x256, .f32⟩
  | 3 => ⟨S512x256, .f32⟩
  | 4 => ⟨S256x128, .f32⟩
  | 5 => ⟨S1x128, .f32⟩
  | 6 => ⟨S128x1, .f32⟩
  | 7 => ⟨S1x1, .f32⟩
  | 8 => ⟨S512x1, .f32⟩
  | _ => ⟨S50000x20, .f32⟩

abbrev vmemTy (i : Nat) : BufTy := match i / 128 with
  | 0 => vmemTy0_0 i
  | 1 => vmemTy0_1 i
  | _ => ⟨S50000x20, .f32⟩

abbrev bufTy : (tb : Table) → Fin (tcTables nBuf tb) → BufTy
  | .hbm, ⟨i, _⟩ => hbmTy i
  | .local _ .vmem, ⟨i, _⟩ => vmemTy i
  | _, _ => ⟨S50000x20, .f32⟩

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 126 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | _ => false

abbrev sig : RefSig :=
  ofTc nBuf bufTy 0 126 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_v8 : Ref sig .tc := ⟨.hbm, 38, rfl⟩
abbrev main_cst_0 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst_1 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst_2 : Ref sig .tc := ⟨.hbm, 47, rfl⟩
abbrev main_call0_v0 : Ref sig .tc := ⟨.hbm, 48, rfl⟩
abbrev main_call0_v1 : Ref sig .tc := ⟨.hbm, 49, rfl⟩
abbrev main_v15 : Ref sig .tc := ⟨.hbm, 50, rfl⟩
abbrev main_c : Ref sig .tc := ⟨.hbm, 51, rfl⟩
abbrev main_v16 : Ref sig .tc := ⟨.hbm, 52, rfl⟩
abbrev main_v17 : Ref sig .tc := ⟨.hbm, 53, rfl⟩
abbrev main_c_3 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_c_4 : Ref sig .tc := ⟨.hbm, 61, rfl⟩
abbrev main_v24 : Ref sig .tc := ⟨.hbm, 62, rfl⟩
abbrev main_v25 : Ref sig .tc := ⟨.hbm, 63, rfl⟩
abbrev main_c_5 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_c_6 : Ref sig .tc := ⟨.hbm, 72, rfl⟩
abbrev main_v33 : Ref sig .tc := ⟨.hbm, 73, rfl⟩
abbrev main_v34 : Ref sig .tc := ⟨.hbm, 74, rfl⟩
abbrev main_c_7 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_8 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48_0 : Ref sig .tc := ⟨.hbm, 90, rfl⟩
abbrev main_v48_1 : Ref sig .tc := ⟨.hbm, 91, rfl⟩
abbrev main_cst_9 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_10 : Ref sig .tc := ⟨.hbm, 96, rfl⟩
abbrev main_v52 : Ref sig .tc := ⟨.hbm, 97, rfl⟩
abbrev main_v53 : Ref sig .tc := ⟨.hbm, 98, rfl⟩
abbrev main_cst_11 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_c_12 : Ref sig .tc := ⟨.hbm, 107, rfl⟩
abbrev main_v61 : Ref sig .tc := ⟨.hbm, 108, rfl⟩
abbrev main_v62 : Ref sig .tc := ⟨.hbm, 109, rfl⟩
abbrev main_c_13 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_14 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76_0 : Ref sig .tc := ⟨.hbm, 125, rfl⟩
abbrev main_v76_1 : Ref sig .tc := ⟨.hbm, 126, rfl⟩
abbrev main_cst_15 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_16 : Ref sig .tc := ⟨.hbm, 131, rfl⟩
abbrev main_v80 : Ref sig .tc := ⟨.hbm, 132, rfl⟩
abbrev main_v81 : Ref sig .tc := ⟨.hbm, 133, rfl⟩
abbrev main_cst_17 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_c_18 : Ref sig .tc := ⟨.hbm, 142, rfl⟩
abbrev main_v89 : Ref sig .tc := ⟨.hbm, 143, rfl⟩
abbrev main_v90 : Ref sig .tc := ⟨.hbm, 144, rfl⟩
abbrev main_c_19 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_cst_20 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104_0 : Ref sig .tc := ⟨.hbm, 160, rfl⟩
abbrev main_v104_1 : Ref sig .tc := ⟨.hbm, 161, rfl⟩
abbrev main_cst_21 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_cst_22 : Ref sig .tc := ⟨.hbm, 166, rfl⟩
abbrev main_v108 : Ref sig .tc := ⟨.hbm, 167, rfl⟩
abbrev main_v109 : Ref sig .tc := ⟨.hbm, 168, rfl⟩
abbrev main_cst_23 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_c_24 : Ref sig .tc := ⟨.hbm, 177, rfl⟩
abbrev main_v117 : Ref sig .tc := ⟨.hbm, 178, rfl⟩
abbrev main_v118 : Ref sig .tc := ⟨.hbm, 179, rfl⟩
abbrev main_c_25 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_cst_26 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132_0 : Ref sig .tc := ⟨.hbm, 195, rfl⟩
abbrev main_v132_1 : Ref sig .tc := ⟨.hbm, 196, rfl⟩
abbrev main_cst_27 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_cst_28 : Ref sig .tc := ⟨.hbm, 201, rfl⟩
abbrev main_v136 : Ref sig .tc := ⟨.hbm, 202, rfl⟩
abbrev main_v137 : Ref sig .tc := ⟨.hbm, 203, rfl⟩
abbrev main_cst_29 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_c_30 : Ref sig .tc := ⟨.hbm, 212, rfl⟩
abbrev main_v145 : Ref sig .tc := ⟨.hbm, 213, rfl⟩
abbrev main_v146 : Ref sig .tc := ⟨.hbm, 214, rfl⟩
abbrev main_c_31 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_cst_32 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160_0 : Ref sig .tc := ⟨.hbm, 230, rfl⟩
abbrev main_v160_1 : Ref sig .tc := ⟨.hbm, 231, rfl⟩
abbrev main_cst_33 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_cst_34 : Ref sig .tc := ⟨.hbm, 236, rfl⟩
abbrev main_v164 : Ref sig .tc := ⟨.hbm, 237, rfl⟩
abbrev main_v165 : Ref sig .tc := ⟨.hbm, 238, rfl⟩
abbrev main_cst_35 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_c_36 : Ref sig .tc := ⟨.hbm, 246, rfl⟩
abbrev main_call1_v0 : Ref sig .tc := ⟨.hbm, 247, rfl⟩
abbrev main_v172 : Ref sig .tc := ⟨.hbm, 248, rfl⟩
abbrev main_c_37 : Ref sig .tc := ⟨.hbm, 249, rfl⟩
abbrev main_call2_v0 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_scratch0 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg5_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg2_1 : Ref sig .tc := ⟨.vmem, 34, rfl⟩
abbrev cc5_stg3_0 : Ref sig .tc := ⟨.vmem, 35, rfl⟩
abbrev cc5_scratch0 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg2_0 : Ref sig .tc := ⟨.vmem, 40, rfl⟩
abbrev cc6_scratch0 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg4_0 : Ref sig .tc := ⟨.vmem, 47, rfl⟩
abbrev cc7_stg5_0 : Ref sig .tc := ⟨.vmem, 48, rfl⟩
abbrev cc7_stg5_1 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg2_0 : Ref sig .tc := ⟨.vmem, 53, rfl⟩
abbrev cc8_stg2_1 : Ref sig .tc := ⟨.vmem, 54, rfl⟩
abbrev cc9_stg0_0 : Ref sig .tc := ⟨.vmem, 55, rfl⟩
abbrev cc9_stg0_1 : Ref sig .tc := ⟨.vmem, 56, rfl⟩
abbrev cc9_stg1_0 : Ref sig .tc := ⟨.vmem, 57, rfl⟩
abbrev cc9_stg2_0 : Ref sig .tc := ⟨.vmem, 58, rfl⟩
abbrev cc9_stg2_1 : Ref sig .tc := ⟨.vmem, 59, rfl⟩
abbrev cc9_stg3_0 : Ref sig .tc := ⟨.vmem, 60, rfl⟩
abbrev cc9_scratch0 : Ref sig .tc := ⟨.vmem, 61, rfl⟩
abbrev cc10_stg0_0 : Ref sig .tc := ⟨.vmem, 62, rfl⟩
abbrev cc10_stg0_1 : Ref sig .tc := ⟨.vmem, 63, rfl⟩
abbrev cc10_stg1_0 : Ref sig .tc := ⟨.vmem, 64, rfl⟩
abbrev cc10_stg2_0 : Ref sig .tc := ⟨.vmem, 65, rfl⟩
abbrev cc10_scratch0 : Ref sig .tc := ⟨.vmem, 66, rfl⟩
abbrev cc11_stg0_0 : Ref sig .tc := ⟨.vmem, 67, rfl⟩
abbrev cc11_stg0_1 : Ref sig .tc := ⟨.vmem, 68, rfl⟩
abbrev cc11_stg1_0 : Ref sig .tc := ⟨.vmem, 69, rfl⟩
abbrev cc11_stg2_0 : Ref sig .tc := ⟨.vmem, 70, rfl⟩
abbrev cc11_stg3_0 : Ref sig .tc := ⟨.vmem, 71, rfl⟩
abbrev cc11_stg4_0 : Ref sig .tc := ⟨.vmem, 72, rfl⟩
abbrev cc11_stg5_0 : Ref sig .tc := ⟨.vmem, 73, rfl⟩
abbrev cc11_stg5_1 : Ref sig .tc := ⟨.vmem, 74, rfl⟩
abbrev cc12_stg0_0 : Ref sig .tc := ⟨.vmem, 75, rfl⟩
abbrev cc12_stg0_1 : Ref sig .tc := ⟨.vmem, 76, rfl⟩
abbrev cc12_stg1_0 : Ref sig .tc := ⟨.vmem, 77, rfl⟩
abbrev cc12_stg2_0 : Ref sig .tc := ⟨.vmem, 78, rfl⟩
abbrev cc12_stg2_1 : Ref sig .tc := ⟨.vmem, 79, rfl⟩
abbrev cc13_stg0_0 : Ref sig .tc := ⟨.vmem, 80, rfl⟩
abbrev cc13_stg0_1 : Ref sig .tc := ⟨.vmem, 81, rfl⟩
abbrev cc13_stg1_0 : Ref sig .tc := ⟨.vmem, 82, rfl⟩
abbrev cc13_stg2_0 : Ref sig .tc := ⟨.vmem, 83, rfl⟩
abbrev cc13_stg2_1 : Ref sig .tc := ⟨.vmem, 84, rfl⟩
abbrev cc13_stg3_0 : Ref sig .tc := ⟨.vmem, 85, rfl⟩
abbrev cc13_scratch0 : Ref sig .tc := ⟨.vmem, 86, rfl⟩
abbrev cc14_stg0_0 : Ref sig .tc := ⟨.vmem, 87, rfl⟩
abbrev cc14_stg0_1 : Ref sig .tc := ⟨.vmem, 88, rfl⟩
abbrev cc14_stg1_0 : Ref sig .tc := ⟨.vmem, 89, rfl⟩
abbrev cc14_stg2_0 : Ref sig .tc := ⟨.vmem, 90, rfl⟩
abbrev cc14_scratch0 : Ref sig .tc := ⟨.vmem, 91, rfl⟩
abbrev cc15_stg0_0 : Ref sig .tc := ⟨.vmem, 92, rfl⟩
abbrev cc15_stg0_1 : Ref sig .tc := ⟨.vmem, 93, rfl⟩
abbrev cc15_stg1_0 : Ref sig .tc := ⟨.vmem, 94, rfl⟩
abbrev cc15_stg2_0 : Ref sig .tc := ⟨.vmem, 95, rfl⟩
abbrev cc15_stg3_0 : Ref sig .tc := ⟨.vmem, 96, rfl⟩
abbrev cc15_stg4_0 : Ref sig .tc := ⟨.vmem, 97, rfl⟩
abbrev cc15_stg5_0 : Ref sig .tc := ⟨.vmem, 98, rfl⟩
abbrev cc15_stg5_1 : Ref sig .tc := ⟨.vmem, 99, rfl⟩
abbrev cc16_stg0_0 : Ref sig .tc := ⟨.vmem, 100, rfl⟩
abbrev cc16_stg0_1 : Ref sig .tc := ⟨.vmem, 101, rfl⟩
abbrev cc16_stg1_0 : Ref sig .tc := ⟨.vmem, 102, rfl⟩
abbrev cc16_stg2_0 : Ref sig .tc := ⟨.vmem, 103, rfl⟩
abbrev cc16_stg2_1 : Ref sig .tc := ⟨.vmem, 104, rfl⟩
abbrev cc17_stg0_0 : Ref sig .tc := ⟨.vmem, 105, rfl⟩
abbrev cc17_stg0_1 : Ref sig .tc := ⟨.vmem, 106, rfl⟩
abbrev cc17_stg1_0 : Ref sig .tc := ⟨.vmem, 107, rfl⟩
abbrev cc17_stg2_0 : Ref sig .tc := ⟨.vmem, 108, rfl⟩
abbrev cc17_stg2_1 : Ref sig .tc := ⟨.vmem, 109, rfl⟩
abbrev cc17_stg3_0 : Ref sig .tc := ⟨.vmem, 110, rfl⟩
abbrev cc17_scratch0 : Ref sig .tc := ⟨.vmem, 111, rfl⟩
abbrev cc18_stg0_0 : Ref sig .tc := ⟨.vmem, 112, rfl⟩
abbrev cc18_stg0_1 : Ref sig .tc := ⟨.vmem, 113, rfl⟩
abbrev cc18_stg1_0 : Ref sig .tc := ⟨.vmem, 114, rfl⟩
abbrev cc18_stg2_0 : Ref sig .tc := ⟨.vmem, 115, rfl⟩
abbrev cc18_scratch0 : Ref sig .tc := ⟨.vmem, 116, rfl⟩
abbrev cc19_stg0_0 : Ref sig .tc := ⟨.vmem, 117, rfl⟩
abbrev cc19_stg0_1 : Ref sig .tc := ⟨.vmem, 118, rfl⟩
abbrev cc19_stg1_0 : Ref sig .tc := ⟨.vmem, 119, rfl⟩
abbrev cc19_stg2_0 : Ref sig .tc := ⟨.vmem, 120, rfl⟩
abbrev cc19_stg3_0 : Ref sig .tc := ⟨.vmem, 121, rfl⟩
abbrev cc19_stg4_0 : Ref sig .tc := ⟨.vmem, 122, rfl⟩
abbrev cc19_stg5_0 : Ref sig .tc := ⟨.vmem, 123, rfl⟩
abbrev cc19_stg5_1 : Ref sig .tc := ⟨.vmem, 124, rfl⟩
abbrev cc20_stg0_0 : Ref sig .tc := ⟨.vmem, 125, rfl⟩
abbrev cc20_stg0_1 : Ref sig .tc := ⟨.vmem, 126, rfl⟩
abbrev cc20_stg1_0 : Ref sig .tc := ⟨.vmem, 127, rfl⟩
abbrev cc20_stg1_1 : Ref sig .tc := ⟨.vmem, 128, rfl⟩
abbrev cc20_stg2_0 : Ref sig .tc := ⟨.vmem, 129, rfl⟩
abbrev cc20_scratch0 : Ref sig .tc := ⟨.vmem, 130, rfl⟩
abbrev cc21_stg0_0 : Ref sig .tc := ⟨.vmem, 131, rfl⟩
abbrev cc21_stg1_0 : Ref sig .tc := ⟨.vmem, 132, rfl⟩
abbrev cc21_stg2_0 : Ref sig .tc := ⟨.vmem, 133, rfl⟩
abbrev cc21_stg3_0 : Ref sig .tc := ⟨.vmem, 134, rfl⟩
abbrev cc21_stg4_0 : Ref sig .tc := ⟨.vmem, 135, rfl⟩
abbrev cc21_stg5_0 : Ref sig .tc := ⟨.vmem, 136, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem5_0 : DmaSem sig := 21
abbrev cc3_sem5_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc5_sem3_0 : DmaSem sig := 33
abbrev cc6_sem0_0 : DmaSem sig := 34
abbrev cc6_sem0_1 : DmaSem sig := 35
abbrev cc6_sem1_0 : DmaSem sig := 36
abbrev cc6_sem2_0 : DmaSem sig := 37
abbrev cc7_sem0_0 : DmaSem sig := 38
abbrev cc7_sem0_1 : DmaSem sig := 39
abbrev cc7_sem1_0 : DmaSem sig := 40
abbrev cc7_sem2_0 : DmaSem sig := 41
abbrev cc7_sem3_0 : DmaSem sig := 42
abbrev cc7_sem4_0 : DmaSem sig := 43
abbrev cc7_sem5_0 : DmaSem sig := 44
abbrev cc7_sem5_1 : DmaSem sig := 45
abbrev cc8_sem0_0 : DmaSem sig := 46
abbrev cc8_sem0_1 : DmaSem sig := 47
abbrev cc8_sem1_0 : DmaSem sig := 48
abbrev cc8_sem2_0 : DmaSem sig := 49
abbrev cc8_sem2_1 : DmaSem sig := 50
abbrev cc9_sem0_0 : DmaSem sig := 51
abbrev cc9_sem0_1 : DmaSem sig := 52
abbrev cc9_sem1_0 : DmaSem sig := 53
abbrev cc9_sem2_0 : DmaSem sig := 54
abbrev cc9_sem2_1 : DmaSem sig := 55
abbrev cc9_sem3_0 : DmaSem sig := 56
abbrev cc10_sem0_0 : DmaSem sig := 57
abbrev cc10_sem0_1 : DmaSem sig := 58
abbrev cc10_sem1_0 : DmaSem sig := 59
abbrev cc10_sem2_0 : DmaSem sig := 60
abbrev cc11_sem0_0 : DmaSem sig := 61
abbrev cc11_sem0_1 : DmaSem sig := 62
abbrev cc11_sem1_0 : DmaSem sig := 63
abbrev cc11_sem2_0 : DmaSem sig := 64
abbrev cc11_sem3_0 : DmaSem sig := 65
abbrev cc11_sem4_0 : DmaSem sig := 66
abbrev cc11_sem5_0 : DmaSem sig := 67
abbrev cc11_sem5_1 : DmaSem sig := 68
abbrev cc12_sem0_0 : DmaSem sig := 69
abbrev cc12_sem0_1 : DmaSem sig := 70
abbrev cc12_sem1_0 : DmaSem sig := 71
abbrev cc12_sem2_0 : DmaSem sig := 72
abbrev cc12_sem2_1 : DmaSem sig := 73
abbrev cc13_sem0_0 : DmaSem sig := 74
abbrev cc13_sem0_1 : DmaSem sig := 75
abbrev cc13_sem1_0 : DmaSem sig := 76
abbrev cc13_sem2_0 : DmaSem sig := 77
abbrev cc13_sem2_1 : DmaSem sig := 78
abbrev cc13_sem3_0 : DmaSem sig := 79
abbrev cc14_sem0_0 : DmaSem sig := 80
abbrev cc14_sem0_1 : DmaSem sig := 81
abbrev cc14_sem1_0 : DmaSem sig := 82
abbrev cc14_sem2_0 : DmaSem sig := 83
abbrev cc15_sem0_0 : DmaSem sig := 84
abbrev cc15_sem0_1 : DmaSem sig := 85
abbrev cc15_sem1_0 : DmaSem sig := 86
abbrev cc15_sem2_0 : DmaSem sig := 87
abbrev cc15_sem3_0 : DmaSem sig := 88
abbrev cc15_sem4_0 : DmaSem sig := 89
abbrev cc15_sem5_0 : DmaSem sig := 90
abbrev cc15_sem5_1 : DmaSem sig := 91
abbrev cc16_sem0_0 : DmaSem sig := 92
abbrev cc16_sem0_1 : DmaSem sig := 93
abbrev cc16_sem1_0 : DmaSem sig := 94
abbrev cc16_sem2_0 : DmaSem sig := 95
abbrev cc16_sem2_1 : DmaSem sig := 96
abbrev cc17_sem0_0 : DmaSem sig := 97
abbrev cc17_sem0_1 : DmaSem sig := 98
abbrev cc17_sem1_0 : DmaSem sig := 99
abbrev cc17_sem2_0 : DmaSem sig := 100
abbrev cc17_sem2_1 : DmaSem sig := 101
abbrev cc17_sem3_0 : DmaSem sig := 102
abbrev cc18_sem0_0 : DmaSem sig := 103
abbrev cc18_sem0_1 : DmaSem sig := 104
abbrev cc18_sem1_0 : DmaSem sig := 105
abbrev cc18_sem2_0 : DmaSem sig := 106
abbrev cc19_sem0_0 : DmaSem sig := 107
abbrev cc19_sem0_1 : DmaSem sig := 108
abbrev cc19_sem1_0 : DmaSem sig := 109
abbrev cc19_sem2_0 : DmaSem sig := 110
abbrev cc19_sem3_0 : DmaSem sig := 111
abbrev cc19_sem4_0 : DmaSem sig := 112
abbrev cc19_sem5_0 : DmaSem sig := 113
abbrev cc19_sem5_1 : DmaSem sig := 114
abbrev cc20_sem0_0 : DmaSem sig := 115
abbrev cc20_sem0_1 : DmaSem sig := 116
abbrev cc20_sem1_0 : DmaSem sig := 117
abbrev cc20_sem1_1 : DmaSem sig := 118
abbrev cc20_sem2_0 : DmaSem sig := 119
abbrev cc21_sem0_0 : DmaSem sig := 120
abbrev cc21_sem1_0 : DmaSem sig := 121
abbrev cc21_sem2_0 : DmaSem sig := 122
abbrev cc21_sem3_0 : DmaSem sig := 123
abbrev cc21_sem4_0 : DmaSem sig := 124
abbrev cc21_sem5_0 : DmaSem sig := 125

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v19 : BitVec 1 := Scalar.cmpi .eq arg0 c9_i32
  let v20 : BitVec 32 := Scalar.extui v19
  let c0_i32_11 : BitVec 32 := 0#32
  let v21 : BitVec 1 := Scalar.cmpi .ne v20 c0_i32_11
  v21

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v17 : BitVec 1 := Scalar.cmpi .eq arg0 c9_i32
  let v18 : BitVec 32 := Scalar.extui v17
  let c0_i32_8 : BitVec 32 := 0#32
  let v19 : BitVec 1 := Scalar.cmpi .ne v18 c0_i32_8
  v19

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def k5_cond2 (i : grid5.Coords) : BitVec 1 :=
  let arg0 : BitVec 32 := BitVec.ofNat 32 (i 0).val
  let c9_i32 : BitVec 32 := 9#32
  let v19 : BitVec 1 := Scalar.cmpi .eq arg0 c9_i32
  let v20 : BitVec 32 := Scalar.extui v19
  let c0_i32_11 : BitVec 32 := 0#32
  let v21 : BitVec 1 := Scalar.cmpi .ne v20 c0_i32_11
  v21

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v17 : BitVec 1 := Scalar.cmpi .eq arg0 c9_i32
  let v18 : BitVec 32 := Scalar.extui v17
  let c0_i32_8 : BitVec 32 := 0#32
  let v19 : BitVec 1 := Scalar.cmpi .ne v18 c0_i32_8
  v19

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def k9_cond2 (i : grid9.Coords) : BitVec 1 :=
  let arg0 : BitVec 32 := BitVec.ofNat 32 (i 0).val
  let c9_i32 : BitVec 32 := 9#32
  let v19 : BitVec 1 := Scalar.cmpi .eq arg0 c9_i32
  let v20 : BitVec 32 := Scalar.extui v19
  let c0_i32_11 : BitVec 32 := 0#32
  let v21 : BitVec 1 := Scalar.cmpi .ne v20 c0_i32_11
  v21

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev grid10 : Pipeline.Grid := ⟨1, ![10], ![false]⟩

def k10_cond2 (i : grid10.Coords) : BitVec 1 :=
  let arg0 : BitVec 32 := BitVec.ofNat 32 (i 0).val
  let c9_i32 : BitVec 32 := 9#32
  let v17 : BitVec 1 := Scalar.cmpi .eq arg0 c9_i32
  let v18 : BitVec 32 := Scalar.extui v17
  let c0_i32_8 : BitVec 32 := 0#32
  let v19 : BitVec 1 := Scalar.cmpi .ne v18 c0_i32_8
  v19

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S5000x128 .bf16 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![10], ![false]⟩

def k13_cond2 (i : grid13.Coords) : BitVec 1 :=
  let arg0 : BitVec 32 := BitVec.ofNat 32 (i 0).val
  let c9_i32 : BitVec 32 := 9#32
  let v17 : BitVec 1 := Scalar.cmpi .eq arg0 c9_i32
  let v18 : BitVec 32 := Scalar.extui v17
  let c0_i32_10 : BitVec 32 := 0#32
  let v19 : BitVec 1 := Scalar.cmpi .ne v18 c0_i32_10
  v19

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S5000x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev grid14 : Pipeline.Grid := ⟨1, ![10], ![false]⟩

def k14_cond2 (i : grid14.Coords) : BitVec 1 :=
  let arg0 : BitVec 32 := BitVec.ofNat 32 (i 0).val
  let c9_i32 : BitVec 32 := 9#32
  let v17 : BitVec 1 := Scalar.cmpi .eq arg0 c9_i32
  let v18 : BitVec 32 := Scalar.extui v17
  let c0_i32_8 : BitVec 32 := 0#32
  let v19 : BitVec 1 := Scalar.cmpi .ne v18 c0_i32_8
  v19

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x128 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 2 → Memref sig .tc .vmem S5000x128 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S5000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S128x256 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 2 → Memref sig .tc .vmem S5000x256 .bf16 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev grid17 : Pipeline.Grid := ⟨1, ![10], ![false]⟩

def k17_cond2 (i : grid17.Coords) : BitVec 1 :=
  let arg0 : BitVec 32 := BitVec.ofNat 32 (i 0).val
  let c9_i32 : BitVec 32 := 9#32
  let v17 : BitVec 1 := Scalar.cmpi .eq arg0 c9_i32
  let v18 : BitVec 32 := Scalar.extui v17
  let c0_i32_10 : BitVec 32 := 0#32
  let v19 : BitVec 1 := Scalar.cmpi .ne v18 c0_i32_10
  v19

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage17_0 : Fin 2 → Memref sig .tc .vmem S5000x256 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S1x256 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 2 → Memref sig .tc .vmem S5000x256 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev stage17_3 : Fin 1 → Memref sig .tc .vmem S1x256 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev grid18 : Pipeline.Grid := ⟨1, ![10], ![false]⟩

def k18_cond2 (i : grid18.Coords) : BitVec 1 :=
  let arg0 : BitVec 32 := BitVec.ofNat 32 (i 0).val
  let c9_i32 : BitVec 32 := 9#32
  let v17 : BitVec 1 := Scalar.cmpi .eq arg0 c9_i32
  let v18 : BitVec 32 := Scalar.extui v17
  let c0_i32_8 : BitVec 32 := 0#32
  let v19 : BitVec 1 := Scalar.cmpi .ne v18 c0_i32_8
  v19

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage18_0 : Fin 2 → Memref sig .tc .vmem S5000x256 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S1x256 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S1x256 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev grid19 : Pipeline.Grid := ⟨1, ![10], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_4 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_5 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S5000x256 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S1x256 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 1 → Memref sig .tc .vmem S1x256 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S1x256 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 1 → Memref sig .tc .vmem S1x256 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))
abbrev reads19_4 : Fin grid19.rank → Bool := ![false]

abbrev stage19_5 : Fin 2 → Memref sig .tc .vmem S5000x256 .f32 := fun | 0 => Memref.whole cc19_stg5_0 | 1 => Memref.whole cc19_stg5_1 | ⟨_ + 2, h⟩ => absurd h (Nat.not_lt.2 (Nat.le_add_left _ _))
abbrev sem19_5 : Fin 2 → DmaSem sig := fun | 0 => cc19_sem5_0 | 1 => cc19_sem5_1 | ⟨_ + 2, h⟩ => absurd h (Nat.not_lt.2 (Nat.le_add_left _ _))
abbrev reads19_5 : Fin grid19.rank → Bool := ![true]

abbrev grid20 : Pipeline.Grid := ⟨1, ![17], ![false]⟩

def k20_cond2 (i : grid20.Coords) : BitVec 1 :=
  let arg0 : BitVec 32 := BitVec.ofNat 32 (i 0).val
  let c16_i32 : BitVec 32 := 16#32
  let v29 : BitVec 1 := Scalar.cmpi .eq arg0 c16_i32
  let v30 : BitVec 32 := Scalar.extui v29
  let c0_i32_13 : BitVec 32 := 0#32
  let v31 : BitVec 1 := Scalar.cmpi .ne v30 c0_i32_13
  v31

def cc20_transform_0 (i : grid20.Coords) : Fin 2 → Nat :=
  let arg0 : BitVec 32 := BitVec.ofNat 32 (i 0).val
  let c0_i32 : BitVec 32 := 0#32
  let c0_i32_0 : BitVec 32 := 0#32
  ![c0_i32.toNat, arg0.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage20_0 : Fin 2 → Memref sig .tc .vmem S1x2944 .i32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S2944x256 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 1 → Memref sig .tc .vmem S512x256 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev grid21 : Pipeline.Grid := ⟨1, ![1], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_3 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_4 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_5 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage21_0 : Fin 1 → Memref sig .tc .vmem S512x256 .f32 := fun | 0 => Memref.whole cc21_stg0_0 | ⟨_ + 1, h⟩ => absurd h (Nat.not_lt.2 (Nat.le_add_left _ _))
abbrev sem21_0 : Fin 1 → DmaSem sig := fun | 0 => cc21_sem0_0 | ⟨_ + 1, h⟩ => absurd h (Nat.not_lt.2 (Nat.le_add_left _ _))
abbrev reads21_0 : Fin grid21.rank → Bool := ![false]

abbrev stage21_1 : Fin 1 → Memref sig .tc .vmem S256x128 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 1 → Memref sig .tc .vmem S1x128 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 1 → Memref sig .tc .vmem S128x1 .f32 := fun | 0 => Memref.whole cc21_stg3_0 | ⟨_ + 1, h⟩ => absurd h (Nat.not_lt.2 (Nat.le_add_left _ _))
abbrev sem21_3 : Fin 1 → DmaSem sig := fun | 0 => cc21_sem3_0 | ⟨_ + 1, h⟩ => absurd h (Nat.not_lt.2 (Nat.le_add_left _ _))
abbrev reads21_3 : Fin grid21.rank → Bool := ![false]

abbrev stage21_4 : Fin 1 → Memref sig .tc .vmem S1x1 .f32 := fun | 0 => Memref.whole cc21_stg4_0 | ⟨_ + 1, h⟩ => absurd h (Nat.not_lt.2 (Nat.le_add_left _ _))
abbrev sem21_4 : Fin 1 → DmaSem sig := fun | 0 => cc21_sem4_0 | ⟨_ + 1, h⟩ => absurd h (Nat.not_lt.2 (Nat.le_add_left _ _))
abbrev reads21_4 : Fin grid21.rank → Bool := ![false]

abbrev stage21_5 : Fin 1 → Memref sig .tc .vmem S512x1 .f32 := fun | 0 => Memref.whole cc21_stg5_0 | ⟨_ + 1, h⟩ => absurd h (Nat.not_lt.2 (Nat.le_add_left _ _))
abbrev sem21_5 : Fin 1 → DmaSem sig := fun | 0 => cc21_sem5_0 | ⟨_ + 1, h⟩ => absurd h (Nat.not_lt.2 (Nat.le_add_left _ _))
abbrev reads21_5 : Fin grid21.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x20_S5000x20_0_0 : ∀ a, (![0, 0] : Fin 2 → Nat) a + S5000x20.size a ≤ S5000x20.size a
  h_S5000x20 : 0 < S5000x20.numel
  bitsLt_bf16_f32 : FTy.bits .bf16 < FTy.bits .f32
  inb_S20x32_S20x32_0_0 : ∀ a, (![0, 0] : Fin 2 → Nat) a + S20x32.size a ≤ S20x32.size a
  h_S20x32 : 0 < S20x32.numel
  inb_S5000x32_S5000x32_0_0 : ∀ a, (![0, 0] : Fin 2 → Nat) a + S5000x32.size a ≤ S5000x32.size a
  h_S5000x32 : 0 < S5000x32.numel
  packedbf16_S5000x32_S5000x32_0_0 : (Rect.unit (s := S5000x32) ![0, 0] S5000x32.size inb_S5000x32_S5000x32_0_0).PackedRows (EltTy.packing .bf16)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  shapeCasts_S5000x32_S5000x32 : S5000x32.ShapeCasts S5000x32
  broadcasts_S1x32_S5000x32 : S1x32.Broadcasts S5000x32
  reduces_S5000x32_S32 : S5000x32.Reduces [0] S32
  bcast_S_S1x32 : S_.BroadcastsInDim S1x32 (![] : Fin 0 → Fin S1x32.rank)
  inb_S32x64_S32x64_0_0 : ∀ a, (![0, 0] : Fin 2 → Nat) a + S32x64.size a ≤ S32x64.size a
  h_S32x64 : 0 < S32x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x64_S5000x64 : S5000x64.ShapeCasts S5000x64
  broadcasts_S1x64_S5000x64 : S1x64.Broadcasts S5000x64
  reduces_S5000x64_S64 : S5000x64.Reduces [0] S64
  bcast_S_S1x64 : S_.BroadcastsInDim S1x64 (![] : Fin 0 → Fin S1x64.rank)
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  broadcasts_S1x128_S5000x128 : S1x128.Broadcasts S5000x128
  reduces_S5000x128_S128 : S5000x128.Reduces [0] S128
  bcast_S_S1x128 : S_.BroadcastsInDim S1x128 (![] : Fin 0 → Fin S1x128.rank)
  inb_S128x128_S128x128_0_0 : ∀ a, (![0, 0] : Fin 2 → Nat) a + S128x128.size a ≤ S128x128.size a
  h_S128x128 : 0 < S128x128.numel
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  packedbf16_S5000x256_S5000x256_0_0 : (Rect.unit (s := S5000x256) ![0, 0] S5000x256.size inb_S5000x256_S5000x256_0_0).PackedRows (EltTy.packing .bf16)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S5000x256_S5000x256 : S5000x256.ShapeCasts S5000x256
  broadcasts_S1x256_S5000x256 : S1x256.Broadcasts S5000x256
  reduces_S5000x256_S256 : S5000x256.Reduces [0] S256
  bcast_S_S1x256 : S_.BroadcastsInDim S1x256 (![] : Fin 0 → Fin S1x256.rank)
  pads_S50000x256_S50048x256_0480_000 : S50000x256.Pads (![0, 0] : Fin 2 → Nat) ![48, 0] ![0, 0] S50048x256
  h_S_ : 0 < S_.numel
  pads_S50000_S50048_0480 : S50000.Pads (![0] : Fin 1 → Nat) ![48] ![0] S50048
  shapeCasts_S50048_S1x50048 : S50048.ShapeCasts S1x50048
  inb_S512x256_S512x256_0_0 : ∀ a, (![0, 0] : Fin 2 → Nat) a + S512x256.size a ≤ S512x256.size a
  h_S512x256 : 0 < S512x256.numel
  shapeCasts_S512x256_S512x256 : S512x256.ShapeCasts S512x256
  iota_S512x2944_d0_w32 : S512x2944.Iotas .tc 32 [0]
  inb_S1x2944_S1x2944_0_0 : ∀ a, (![0, 0] : Fin 2 → Nat) a + S1x2944.size a ≤ S1x2944.size a
  h_S1x2944 : 0 < S1x2944.numel
  shapeCasts_S1x2944_S1x2944 : S1x2944.ShapeCasts S1x2944
  broadcasts_S1x2944_S512x2944 : S1x2944.Broadcasts S512x2944
  natLt_1_32 : 1 < 32
  inb_S2944x256_S2944x256_0_0 : ∀ a, (![0, 0] : Fin 2 → Nat) a + S2944x256.size a ≤ S2944x256.size a
  h_S2944x256 : 0 < S2944x256.numel
  shapeCasts_S2944x256_S2944x256 : S2944x256.ShapeCasts S2944x256
  shapeCasts_S1_S1x1 : S1.ShapeCasts S1x1
  inb_S256x128_S256x128_0_0 : ∀ a, (![0, 0] : Fin 2 → Nat) a + S256x128.size a ≤ S256x128.size a
  h_S256x128 : 0 < S256x128.numel
  broadcasts_S1x128_S512x128 : S1x128.Broadcasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  shapeCasts_S512x1_S512 : S512x1.ShapeCasts S512
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x20_S20x32_S5000x32_1_0_0_1_n_n_wf : DotDims.WF S5000x20 S20x32 S5000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S5000x32_S32x64_S5000x64_1_0_0_1_n_n_wf : DotDims.WF S5000x32 S32x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x128_S5000x128_1_0_0_1_n_n_wf : DotDims.WF S5000x64 S64x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S512x2944_S2944x256_S512x256_1_0_0_1_n_n_wf : DotDims.WF S512x2944 S2944x256 S512x256 [1] [0] [0] [1] [] []
  dot_S512x256_S256x128_S512x128_1_0_0_1_n_n_wf : DotDims.WF S512x256 S256x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x20.size a ≤ S50000x20.size a
  hwx0_0 : ∀ i : grid0.Coords, EltTy.bits .f32 = 32 ∨ (Rect.block (s := S50000x20) S5000x20.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x32.size a ≤ S20x32.size a
  hwx0_1 : ∀ i : grid0.Coords, EltTy.bits .f32 = 32 ∨ (Rect.block (s := S20x32) S20x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S50000x32.size a
  hwx0_2 : ∀ i : grid0.Coords, EltTy.bits .bf16 = 32 ∨ (Rect.block (s := S50000x32) S5000x32.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S50000x32.size a
  hwx1_0 : ∀ i : grid1.Coords, EltTy.bits .f32 = 32 ∨ (Rect.block (s := S50000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S50000x32.size a
  hwx1_2 : ∀ i : grid1.Coords, EltTy.bits .f32 = 32 ∨ (Rect.block (s := S50000x32) S5000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S50000x32.size a
  hwx2_0 : ∀ i : grid2.Coords, EltTy.bits .f32 = 32 ∨ (Rect.block (s := S50000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S50000x32.size a
  hwx3_0 : ∀ i : grid3.Coords, EltTy.bits .f32 = 32 ∨ (Rect.block (s := S50000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x32.size a ≤ S50000x32.size a
  hwx3_5 : ∀ i : grid3.Coords, EltTy.bits .f32 = 32 ∨ (Rect.block (s := S50000x32) S5000x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S50000x32.size a
  hwx4_0 : ∀ i : grid4.Coords, EltTy.bits .f32 = 32 ∨ (Rect.block (s := S50000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x64.size a ≤ S32x64.size a
  hwx4_1 : ∀ i : grid4.Coords, EltTy.bits .f32 = 32 ∨ (Rect.block (s := S32x64) S32x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .bf16 = 32 ∨ (Rect.block (s := S50000x64) S5000x64.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S50000x64.size a
  hwx7_5 : ∀ i : grid7.Coords, EltTy.bits .f32 = 32 ∨ (Rect.block (s := S50000x64) S5000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x128.size a ≤ S64x128.size a
  hwx8_1 : ∀ i : grid8.Coords, EltTy.bits .f32 = 32 ∨ (Rect.block (s := S64x128) S64x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S50000x128.size a
  hwx8_2 : ∀ i : grid8.Coords, EltTy.bits .bf16 = 32 ∨ (Rect.block (s := S50000x128) S5000x128.size (cc8_transform_2 i) (hinb8_2 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S50000x128.size a
  hwx9_2 : ∀ i : grid9.Coords, EltTy.bits .f32 = 32 ∨ (Rect.block (s := S50000x128) S5000x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x128.size a ≤ S50000x128.size a
  hwx11_5 : ∀ i : grid11.Coords, EltTy.bits .f32 = 32 ∨ (Rect.block (s := S50000x128) S5000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S50000x128.size a
  hwx12_0 : ∀ i : grid12.Coords, EltTy.bits .f32 = 32 ∨ (Rect.block (s := S50000x128) S5000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S5000x128.size a ≤ S50000x128.size a
  hwx12_2 : ∀ i : grid12.Coords, EltTy.bits .bf16 = 32 ∨ (Rect.block (s := S50000x128) S5000x128.size (cc12_transform_2 i) (hinb12_2 i)).WholeWords (EltTy.packing .bf16)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S50000x128.size a
  hwx13_0 : ∀ i : grid13.Coords, EltTy.bits .f32 = 32 ∨ (Rect.block (s := S50000x128) S5000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S5000x128.size a ≤ S50000x128.size a
  hwx13_2 : ∀ i : grid13.Coords, EltTy.bits .f32 = 32 ∨ (Rect.block (s := S50000x128) S5000x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S50000x128.size a
  hwx14_0 : ∀ i : grid14.Coords, EltTy.bits .f32 = 32 ∨ (Rect.block (s := S50000x128) S5000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x128.size a ≤ S1x128.size a
  hwx14_1 : ∀ i : grid14.Coords, EltTy.bits .f32 = 32 ∨ (Rect.block (s := S1x128) S1x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x128.size a ≤ S50000x128.size a
  hwx15_0 : ∀ i : grid15.Coords, EltTy.bits .f32 = 32 ∨ (Rect.block (s := S50000x128) S5000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x128.size a ≤ S1x128.size a
  hwx15_1 : ∀ i : grid15.Coords, EltTy.bits .f32 = 32 ∨ (Rect.block (s := S1x128) S1x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x128.size a ≤ S1x128.size a
  hwx15_3 : ∀ i : grid15.Coords, EltTy.bits .f32 = 32 ∨ (Rect.block (s := S1x128) S1x128.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x128.size a ≤ S1x128.size a
  hwx15_4 : ∀ i : grid15.Coords, EltTy.bits .f32 = 32 ∨ (Rect.block (s := S1x128) S1x128.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S5000x128.size a ≤ S50000x128.size a
  hwx15_5 : ∀ i : grid15.Coords, EltTy.bits .f32 = 32 ∨ (Rect.block (s := S50000x128) S5000x128.size (cc15_transform_5 i) (hinb15_5 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x128.size a ≤ S50000x128.size a
  hwx16_0 : ∀ i : grid16.Coords, EltTy.bits .f32 = 32 ∨ (Rect.block (s := S50000x128) S5000x128.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S128x256.size a ≤ S128x256.size a
  hwx16_1 : ∀ i : grid16.Coords, EltTy.bits .f32 = 32 ∨ (Rect.block (s := S128x256) S128x256.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S5000x256.size a ≤ S50000x256.size a
  hwx16_2 : ∀ i : grid16.Coords, EltTy.bits .bf16 = 32 ∨ (Rect.block (s := S50000x256) S5000x256.size (cc16_transform_2 i) (hinb16_2 i)).WholeWords (EltTy.packing .bf16)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S5000x256.size a ≤ S50000x256.size a
  hwx17_0 : ∀ i : grid17.Coords, EltTy.bits .f32 = 32 ∨ (Rect.block (s := S50000x256) S5000x256.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S1x256.size a ≤ S1x256.size a
  hwx17_1 : ∀ i : grid17.Coords, EltTy.bits .f32 = 32 ∨ (Rect.block (s := S1x256) S1x256.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S5000x256.size a ≤ S50000x256.size a
  hwx17_2 : ∀ i : grid17.Coords, EltTy.bits .f32 = 32 ∨ (Rect.block (s := S50000x256) S5000x256.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S1x256.size a ≤ S1x256.size a
  hwx17_3 : ∀ i : grid17.Coords, EltTy.bits .f32 = 32 ∨ (Rect.block (s := S1x256) S1x256.size (cc17_transform_3 i) (hinb17_3 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S5000x256.size a ≤ S50000x256.size a
  hwx18_0 : ∀ i : grid18.Coords, EltTy.bits .f32 = 32 ∨ (Rect.block (s := S50000x256) S5000x256.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S1x256.size a ≤ S1x256.size a
  hwx18_1 : ∀ i : grid18.Coords, EltTy.bits .f32 = 32 ∨ (Rect.block (s := S1x256) S1x256.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1x256.size a ≤ S1x256.size a
  hwx18_2 : ∀ i : grid18.Coords, EltTy.bits .f32 = 32 ∨ (Rect.block (s := S1x256) S1x256.size (cc18_transform_2 i) (hinb18_2 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S5000x256.size a ≤ S50000x256.size a
  hwx19_0 : ∀ i : grid19.Coords, EltTy.bits .f32 = 32 ∨ (Rect.block (s := S50000x256) S5000x256.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S1x256.size a ≤ S1x256.size a
  hwx19_1 : ∀ i : grid19.Coords, EltTy.bits .f32 = 32 ∨ (Rect.block (s := S1x256) S1x256.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S1x256.size a ≤ S1x256.size a
  hwx19_2 : ∀ i : grid19.Coords, EltTy.bits .f32 = 32 ∨ (Rect.block (s := S1x256) S1x256.size (cc19_transform_2 i) (hinb19_2 i)).WholeWords (EltTy.packing .f32)
  hstage19_3 : ∀ j, (stage19_3 j).IsWhole
  nbuf19_3 : grid19.bufCount reads19_3 true = 1
  hreads19_3 : ∀ i i' : grid19.Coords, (∀ a, reads19_3 a = true → i a = i' a) → cc19_transform_3 i = cc19_transform_3 i'
  hinb19_3 : ∀ (i : grid19.Coords) a, (cc19_transform_3 i a + 1) * S1x256.size a ≤ S1x256.size a
  hwx19_3 : ∀ i : grid19.Coords, EltTy.bits .f32 = 32 ∨ (Rect.block (s := S1x256) S1x256.size (cc19_transform_3 i) (hinb19_3 i)).WholeWords (EltTy.packing .f32)
  hstage19_4 : ∀ j, (stage19_4 j).IsWhole
  nbuf19_4 : grid19.bufCount reads19_4 true = 1
  hreads19_4 : ∀ i i' : grid19.Coords, (∀ a, reads19_4 a = true → i a = i' a) → cc19_transform_4 i = cc19_transform_4 i'
  hinb19_4 : ∀ (i : grid19.Coords) a, (cc19_transform_4 i a + 1) * S1x256.size a ≤ S1x256.size a
  hwx19_4 : ∀ i : grid19.Coords, EltTy.bits .f32 = 32 ∨ (Rect.block (s := S1x256) S1x256.size (cc19_transform_4 i) (hinb19_4 i)).WholeWords (EltTy.packing .f32)
  hstage19_5 : ∀ j, (stage19_5 j).IsWhole
  nbuf19_5 : grid19.bufCount reads19_5 false = 2
  hreads19_5 : ∀ i i' : grid19.Coords, (∀ a, reads19_5 a = true → i a = i' a) → cc19_transform_5 i = cc19_transform_5 i'
  hinb19_5 : ∀ (i : grid19.Coords) a, (cc19_transform_5 i a + 1) * S5000x256.size a ≤ S50000x256.size a
  hwx19_5 : ∀ i : grid19.Coords, EltTy.bits .f32 = 32 ∨ (Rect.block (s := S50000x256) S5000x256.size (cc19_transform_5 i) (hinb19_5 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S1x2944.size a ≤ S1x50048.size a
  hwx20_0 : ∀ i : grid20.Coords, EltTy.bits .i32 = 32 ∨ (Rect.block (s := S1x50048) S1x2944.size (cc20_transform_0 i) (hinb20_0 i)).WholeWords (EltTy.packing .i32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S2944x256.size a ≤ S50048x256.size a
  hwx20_1 : ∀ i : grid20.Coords, EltTy.bits .f32 = 32 ∨ (Rect.block (s := S50048x256) S2944x256.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S512x256.size a ≤ S512x256.size a
  hwx20_2 : ∀ i : grid20.Coords, EltTy.bits .f32 = 32 ∨ (Rect.block (s := S512x256) S512x256.size (cc20_transform_2 i) (hinb20_2 i)).WholeWords (EltTy.packing .f32)
  hrank21 : 0 < grid21.rank
  hstage21_0 : ∀ j, (stage21_0 j).IsWhole
  nbuf21_0 : grid21.bufCount reads21_0 true = 1
  hreads21_0 : ∀ i i' : grid21.Coords, (∀ a, reads21_0 a = true → i a = i' a) → cc21_transform_0 i = cc21_transform_0 i'
  hinb21_0 : ∀ (i : grid21.Coords) a, (cc21_transform_0 i a + 1) * S512x256.size a ≤ S512x256.size a
  hwx21_0 : ∀ i : grid21.Coords, EltTy.bits .f32 = 32 ∨ (Rect.block (s := S512x256) S512x256.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S256x128.size a ≤ S256x128.size a
  hwx21_1 : ∀ i : grid21.Coords, EltTy.bits .f32 = 32 ∨ (Rect.block (s := S256x128) S256x128.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S1x128.size a ≤ S1x128.size a
  hwx21_2 : ∀ i : grid21.Coords, EltTy.bits .f32 = 32 ∨ (Rect.block (s := S1x128) S1x128.size (cc21_transform_2 i) (hinb21_2 i)).WholeWords (EltTy.packing .f32)
  hstage21_3 : ∀ j, (stage21_3 j).IsWhole
  nbuf21_3 : grid21.bufCount reads21_3 true = 1
  hreads21_3 : ∀ i i' : grid21.Coords, (∀ a, reads21_3 a = true → i a = i' a) → cc21_transform_3 i = cc21_transform_3 i'
  hinb21_3 : ∀ (i : grid21.Coords) a, (cc21_transform_3 i a + 1) * S128x1.size a ≤ S128x1.size a
  hwx21_3 : ∀ i : grid21.Coords, EltTy.bits .f32 = 32 ∨ (Rect.block (s := S128x1) S128x1.size (cc21_transform_3 i) (hinb21_3 i)).WholeWords (EltTy.packing .f32)
  hstage21_4 : ∀ j, (stage21_4 j).IsWhole
  nbuf21_4 : grid21.bufCount reads21_4 true = 1
  hreads21_4 : ∀ i i' : grid21.Coords, (∀ a, reads21_4 a = true → i a = i' a) → cc21_transform_4 i = cc21_transform_4 i'
  hinb21_4 : ∀ (i : grid21.Coords) a, (cc21_transform_4 i a + 1) * S1x1.size a ≤ S1x1.size a
  hwx21_4 : ∀ i : grid21.Coords, EltTy.bits .f32 = 32 ∨ (Rect.block (s := S1x1) S1x1.size (cc21_transform_4 i) (hinb21_4 i)).WholeWords (EltTy.packing .f32)
  hstage21_5 : ∀ j, (stage21_5 j).IsWhole
  nbuf21_5 : grid21.bufCount reads21_5 true = 1
  hreads21_5 : ∀ i i' : grid21.Coords, (∀ a, reads21_5 a = true → i a = i' a) → cc21_transform_5 i = cc21_transform_5 i'
  hinb21_5 : ∀ (i : grid21.Coords) a, (cc21_transform_5 i a + 1) * S512x1.size a ≤ S512x1.size a
  hwx21_5 : ∀ i : grid21.Coords, EltTy.bits .f32 = 32 ∨ (Rect.block (s := S512x1) S512x1.size (cc21_transform_5 i) (hinb21_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x20_S20x32_S5000x32_1_0_0_1_n_n : DotDims S5000x20 S20x32 S5000x32 where
  lhsContracting := [1]
  rhsContracting := [0]
  lhsNonContracting := [0]
  rhsNonContracting := [1]
  lhsBatch := []
  rhsBatch := []
  wf := dot_S5000x20_S20x32_S5000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S512x2944_S2944x256_S512x256_1_0_0_1_n_n : DotDims S512x2944 S2944x256 S512x256 where
  lhsContracting := [1]
  rhsContracting := [0]
  lhsNonContracting := [0]
  rhsNonContracting := [1]
  lhsBatch := []
  rhsBatch := []
  wf := dot_S512x2944_S2944x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S5000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S20x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48_0) S5000x32.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48_1) S1x32.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v48_0) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x32.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v48_0) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S5000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v59) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S32x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76_0) S5000x64.size cc5_transform_2 reads5_2 true false 2 stage5_2 sem5_2
    hrank5 hreads5_2 hinb5_2 nbuf5_2 (Memref.isWhole_whole _) hwx5_2 hstage5_2

abbrev win5_3 : Pipeline.Window sig grid5 :=
  Pipeline.Window.ofSpec (Memref.whole main_v76_1) S1x64.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v76_0) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v78) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S1x64.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v76_0) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v78) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v84) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v85) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v86) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v87) S5000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v87) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg13) S64x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v88) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v102) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v103) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v104_0) S5000x128.size cc9_transform_2 reads9_2 true false 2 stage9_2 sem9_2
    hrank9 hreads9_2 hinb9_2 nbuf9_2 (Memref.isWhole_whole _) hwx9_2 hstage9_2

abbrev win9_3 : Pipeline.Window sig grid9 :=
  Pipeline.Window.ofSpec (Memref.whole main_v104_1) S1x128.size cc9_transform_3 reads9_3 true true 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev idle9 : Fin 4 → grid9.Coords → Bool := fun | 0 => fun _ => false | 1 => fun _ => false | 2 => fun _ => false | 3 => fun i => !(k9_cond2 i == 1#1) | ⟨_ + 4, h⟩ => absurd h (Nat.not_lt.2 (Nat.le_add_left _ _))

abbrev win10_0 : Pipeline.Window sig grid10 :=
  Pipeline.Window.ofSpec (Memref.whole main_v104_0) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v106) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v107) S1x128.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev idle10 : Fin 3 → grid10.Coords → Bool := fun | 0 => fun _ => false | 1 => fun _ => false | 2 => fun i => !(k10_cond2 i == 1#1) | ⟨_ + 3, h⟩ => absurd h (Nat.not_lt.2 (Nat.le_add_left _ _))

abbrev win11_0 : Pipeline.Window sig grid11 :=
  Pipeline.Window.ofSpec (Memref.whole main_v104_0) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v106) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v112) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v113) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v114) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v115) S5000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v115) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg17) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v116) S5000x128.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v130) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v131) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v132_0) S5000x128.size cc13_transform_2 reads13_2 true false 2 stage13_2 sem13_2
    hrank13 hreads13_2 hinb13_2 nbuf13_2 (Memref.isWhole_whole _) hwx13_2 hstage13_2

abbrev win13_3 : Pipeline.Window sig grid13 :=
  Pipeline.Window.ofSpec (Memref.whole main_v132_1) S1x128.size cc13_transform_3 reads13_3 true true 1 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev idle13 : Fin 4 → grid13.Coords → Bool := fun | 0 => fun _ => false | 1 => fun _ => false | 2 => fun _ => false | 3 => fun i => !(k13_cond2 i == 1#1) | ⟨_ + 4, h⟩ => absurd h (Nat.not_lt.2 (Nat.le_add_left _ _))

abbrev win14_0 : Pipeline.Window sig grid14 :=
  Pipeline.Window.ofSpec (Memref.whole main_v132_0) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v134) S1x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v135) S1x128.size cc14_transform_2 reads14_2 true true 1 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev idle14 : Fin 3 → grid14.Coords → Bool := fun | 0 => fun _ => false | 1 => fun _ => false | 2 => fun i => !(k14_cond2 i == 1#1) | ⟨_ + 3, h⟩ => absurd h (Nat.not_lt.2 (Nat.le_add_left _ _))

abbrev win15_0 : Pipeline.Window sig grid15 :=
  Pipeline.Window.ofSpec (Memref.whole main_v132_0) S5000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v134) S1x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v140) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v141) S1x128.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v142) S1x128.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v143) S5000x128.size cc15_transform_5 reads15_5 true false 2 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

abbrev win16_0 : Pipeline.Window sig grid16 :=
  Pipeline.Window.ofSpec (Memref.whole main_v143) S5000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_arg21) S128x256.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v144) S5000x256.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v158) S5000x256.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v159) S1x256.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v160_0) S5000x256.size cc17_transform_2 reads17_2 true false 2 stage17_2 sem17_2
    hrank17 hreads17_2 hinb17_2 nbuf17_2 (Memref.isWhole_whole _) hwx17_2 hstage17_2

abbrev win17_3 : Pipeline.Window sig grid17 :=
  Pipeline.Window.ofSpec (Memref.whole main_v160_1) S1x256.size cc17_transform_3 reads17_3 true true 1 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

abbrev idle17 : Fin 4 → grid17.Coords → Bool := fun | 0 => fun _ => false | 1 => fun _ => false | 2 => fun _ => false | 3 => fun i => !(k17_cond2 i == 1#1) | ⟨_ + 4, h⟩ => absurd h (Nat.not_lt.2 (Nat.le_add_left _ _))

abbrev win18_0 : Pipeline.Window sig grid18 :=
  Pipeline.Window.ofSpec (Memref.whole main_v160_0) S5000x256.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v162) S1x256.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v163) S1x256.size cc18_transform_2 reads18_2 true true 1 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev idle18 : Fin 3 → grid18.Coords → Bool := fun | 0 => fun _ => false | 1 => fun _ => false | 2 => fun i => !(k18_cond2 i == 1#1) | ⟨_ + 3, h⟩ => absurd h (Nat.not_lt.2 (Nat.le_add_left _ _))

abbrev win19_0 : Pipeline.Window sig grid19 :=
  Pipeline.Window.ofSpec (Memref.whole main_v160_0) S5000x256.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v162) S1x256.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v168) S1x256.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v169) S1x256.size cc19_transform_3 reads19_3 false true 1 stage19_3 sem19_3
    hrank19 hreads19_3 hinb19_3 nbuf19_3 (Memref.isWhole_whole _) hwx19_3 hstage19_3

abbrev win19_4 : Pipeline.Window sig grid19 :=
  Pipeline.Window.ofSpec (Memref.whole main_v170) S1x256.size cc19_transform_4 reads19_4 false true 1 stage19_4 sem19_4
    hrank19 hreads19_4 hinb19_4 nbuf19_4 (Memref.isWhole_whole _) hwx19_4 hstage19_4

abbrev win19_5 : Pipeline.Window sig grid19 :=
  Pipeline.Window.ofSpec (Memref.whole main_v171) S5000x256.size cc19_transform_5 reads19_5 true false 2 stage19_5 sem19_5
    hrank19 hreads19_5 hinb19_5 nbuf19_5 (Memref.isWhole_whole _) hwx19_5 hstage19_5

abbrev win19 : Fin 6 → Pipeline.Window sig grid19 := fun | 0 => win19_0 | 1 => win19_1 | 2 => win19_2 | 3 => win19_3 | 4 => win19_4 | 5 => win19_5 | ⟨_ + 6, h⟩ => absurd h (Nat.not_lt.2 (Nat.le_add_left _ _))
abbrev spec19 : Fin 6 → Pipeline.WinSpec sig grid19.rank := fun w => (win19 w).toWinSpec

abbrev win20_0 : Pipeline.Window sig grid20 :=
  Pipeline.Window.ofSpec (Memref.whole main_v174) S1x2944.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v172) S2944x256.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v175) S512x256.size cc20_transform_2 reads20_2 true true 1 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

abbrev idle20 : Fin 3 → grid20.Coords → Bool := fun | 0 => fun _ => false | 1 => fun _ => false | 2 => fun i => !(k20_cond2 i == 1#1) | ⟨_ + 3, h⟩ => absurd h (Nat.not_lt.2 (Nat.le_add_left _ _))

abbrev win21_0 : Pipeline.Window sig grid21 :=
  Pipeline.Window.ofSpec (Memref.whole main_v175) S512x256.size cc21_transform_0 reads21_0 false true 1 stage21_0 sem21_0
    hrank21 hreads21_0 hinb21_0 nbuf21_0 (Memref.isWhole_whole _) hwx21_0 hstage21_0

abbrev win21_1 : Pipeline.Window sig grid21 :=
  Pipeline.Window.ofSpec (Memref.whole main_arg25) S256x128.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_v176) S1x128.size cc21_transform_2 reads21_2 false true 1 stage21_2 sem21_2
    hrank21 hreads21_2 hinb21_2 nbuf21_2 (Memref.isWhole_whole _) hwx21_2 hstage21_2

abbrev win21_3 : Pipeline.Window sig grid21 :=
  Pipeline.Window.ofSpec (Memref.whole main_arg27) S128x1.size cc21_transform_3 reads21_3 false true 1 stage21_3 sem21_3
    hrank21 hreads21_3 hinb21_3 nbuf21_3 (Memref.isWhole_whole _) hwx21_3 hstage21_3

abbrev win21_4 : Pipeline.Window sig grid21 :=
  Pipeline.Window.ofSpec (Memref.whole main_v177) S1x1.size cc21_transform_4 reads21_4 false true 1 stage21_4 sem21_4
    hrank21 hreads21_4 hinb21_4 nbuf21_4 (Memref.isWhole_whole _) hwx21_4 hstage21_4

abbrev win21_5 : Pipeline.Window sig grid21 :=
  Pipeline.Window.ofSpec (Memref.whole main_v178) S512x1.size cc21_transform_5 reads21_5 true true 1 stage21_5 sem21_5
    hrank21 hreads21_5 hinb21_5 nbuf21_5 (Memref.isWhole_whole _) hwx21_5 hstage21_5

abbrev win21 : Fin 6 → Pipeline.Window sig grid21 := fun | 0 => win21_0 | 1 => win21_1 | 2 => win21_2 | 3 => win21_3 | 4 => win21_4 | 5 => win21_5 | ⟨_ + 6, h⟩ => absurd h (Nat.not_lt.2 (Nat.le_add_left _ _))
abbrev spec21 : Fin 6 → Pipeline.WinSpec sig grid21.rank := fun w => (win21 w).toWinSpec

class Facts : Prop extends Facts₀ where

variable [Facts]
-- ==== ReferenceIdeal.lean ====
abbrev S50000x20 : Shape := ⟨2, ![50000, 20]⟩
abbrev S2x800000 : Shape := ⟨2, ![2, 800000]⟩
abbrev S800000 : Shape := ⟨1, ![800000]⟩
abbrev S50000 : Shape := ⟨1, ![50000]⟩
abbrev S512 : Shape := ⟨1, ![512]⟩
abbrev S20x32 : Shape := ⟨2, ![20, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S850000 : Shape := ⟨1, ![850000]⟩
abbrev S_ : Shape := ⟨0, ![]⟩
abbrev S50000x32 : Shape := ⟨2, ![50000, 32]⟩
abbrev S850000x1 : Shape := ⟨2, ![850000, 1]⟩
abbrev S850000x32 : Shape := ⟨2, ![850000, 32]⟩
abbrev S1x32 : Shape := ⟨2, ![1, 32]⟩
abbrev S50000x64 : Shape := ⟨2, ![50000, 64]⟩
abbrev S850000x64 : Shape := ⟨2, ![850000, 64]⟩
abbrev S1x64 : Shape := ⟨2, ![1, 64]⟩
abbrev S50000x128 : Shape := ⟨2, ![50000, 128]⟩
abbrev S850000x128 : Shape := ⟨2, ![850000, 128]⟩
abbrev S1x128 : Shape := ⟨2, ![1, 128]⟩
abbrev S50000x256 : Shape := ⟨2, ![50000, 256]⟩
abbrev S850000x256 : Shape := ⟨2, ![850000, 256]⟩
abbrev S1x256 : Shape := ⟨2, ![1, 256]⟩
abbrev S512x256 : Shape := ⟨2, ![512, 256]⟩
abbrev S50000x1 : Shape := ⟨2, ![50000, 1]⟩
abbrev S512x128 : Shape := ⟨2, ![512, 128]⟩
abbrev S512x1 : Shape := ⟨2, ![512, 1]⟩
abbrev S1x1 : Shape := ⟨2, ![1, 1]⟩

abbrev nBuf : Space → Nat
  | .hbm => 480
  | .vmem => 0
  | .smem => 0
  | _ => 0

abbrev hbmTy0_0 (i : Nat) : BufTy := match i % 128 with
  | 0 => ⟨S50000x20, .f32⟩
  | 1 => ⟨S2x800000, .i32⟩
  | 2 => ⟨S800000, .f32⟩
  | 3 => ⟨S50000, .i32⟩
  | 4 => ⟨S512, .f32⟩
  | 5 => ⟨S20x32, .f32⟩
  | 6 => ⟨S32, .f32⟩
  | 7 => ⟨S32, .f32⟩
  | 8 => ⟨S32, .f32⟩
  | 9 => ⟨S32x64, .f32⟩
  | 10 => ⟨S64, .f32⟩
  | 11 => ⟨S64, .f32⟩
  | 12 => ⟨S64, .f32⟩
  | 13 => ⟨S64x128, .f32⟩
  | 14 => ⟨S128, .f32⟩
  | 15 => ⟨S128, .f32⟩
  | 16 => ⟨S128, .f32⟩
  | 17 => ⟨S128x128, .f32⟩
  | 18 => ⟨S128, .f32⟩
  | 19 => ⟨S128, .f32⟩
  | 20 => ⟨S128, .f32⟩
  | 21 => ⟨S128x256, .f32⟩
  | 22 => ⟨S256, .f32⟩
  | 23 => ⟨S256, .f32⟩
  | 24 => ⟨S256, .f32⟩
  | 25 => ⟨S256x128, .f32⟩
  | 26 => ⟨S128, .f32⟩
  | 27 => ⟨S128x1, .f32⟩
  | 28 => ⟨S1, .f32⟩
  | 29 => ⟨S50000, .i32⟩
  | 30 => ⟨S1x800000, .i32⟩
  | 31 => ⟨S800000, .i32⟩
  | 32 => ⟨S850000, .i32⟩
  | 33 => ⟨S1x800000, .i32⟩
  | 34 => ⟨S800000, .i32⟩
  | 35 => ⟨S850000, .i32⟩
  | 36 => ⟨S_, .f32⟩
  | 37 => ⟨S50000, .f32⟩
  | 38 => ⟨S850000, .f32⟩
  | 39 => ⟨S50000x32, .f32⟩
  | 40 => ⟨S_, .f32⟩
  | 41 => ⟨S50000, .f32⟩
  | 42 => ⟨S850000x1, .i32⟩
  | 43 => ⟨S50000, .f32⟩
  | 44 => ⟨S_, .f32⟩
  | 45 => ⟨S50000, .f32⟩
  | 46 => ⟨S50000, .i1⟩
  | 47 => ⟨S50000, .f32⟩
  | 48 => ⟨S_, .f32⟩
  | 49 => ⟨S_, .f32⟩
  | 50 => ⟨S50000, .f32⟩
  | 51 => ⟨S50000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000, .f32⟩
  | 61 => ⟨S850000, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000, .f32⟩
  | 71 => ⟨S850000, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000x32, .f32⟩
  | 81 => ⟨S850000x1, .f32⟩
  | 82 => ⟨S850000x32, .f32⟩
  | 83 => ⟨S850000x32, .f32⟩
  | 84 => ⟨S_, .f32⟩
  | 85 => ⟨S50000x32, .f32⟩
  | 86 => ⟨S850000x1, .i32⟩
  | 87 => ⟨S50000x32, .f32⟩
  | 88 => ⟨S1x32, .f32⟩
  | 89 => ⟨S50000x32, .f32⟩
  | 90 => ⟨S50000x32, .f32⟩
  | 91 => ⟨S_, .f32⟩
  | 92 => ⟨S50000x32, .f32⟩
  | 93 => ⟨S50000x32, .f32⟩
  | 94 => ⟨S_, .f32⟩
  | 95 => ⟨S32, .f32⟩
  | 96 => ⟨S_, .f32⟩
  | 97 => ⟨S32, .f32⟩
  | 98 => ⟨S32, .f32⟩
  | 99 => ⟨S1x32, .f32⟩
  | 100 => ⟨S50000x32, .f32⟩
  | 101 => ⟨S50000x32, .f32⟩
  | 102 => ⟨S50000x32, .f32⟩
  | 103 => ⟨S_, .f32⟩
  | 104 => ⟨S32, .f32⟩
  | 105 => ⟨S_, .f32⟩
  | 106 => ⟨S32, .f32⟩
  | 107 => ⟨S32, .f32⟩
  | 108 => ⟨S1x32, .f32⟩
  | 109 => ⟨S50000x32, .f32⟩
  | 110 => ⟨S50000x32, .f32⟩
  | 111 => ⟨S1x32, .f32⟩
  | 112 => ⟨S50000x32, .f32⟩
  | 113 => ⟨S50000x32, .f32⟩
  | 114 => ⟨S_, .f32⟩
  | 115 => ⟨S32, .f32⟩
  | 116 => ⟨S32, .f32⟩
  | 117 => ⟨S32, .f32⟩
  | 118 => ⟨S1x32, .f32⟩
  | 119 => ⟨S50000x32, .f32⟩
  | 120 => ⟨S50000x32, .f32⟩
  | 121 => ⟨S1x32, .f32⟩
  | 122 => ⟨S50000x32, .f32⟩
  | 123 => ⟨S50000x32, .f32⟩
  | 124 => ⟨S50000x64, .f32⟩
  | 125 => ⟨S_, .f32⟩
  | 126 => ⟨S50000, .f32⟩
  | 127 => ⟨S850000x1, .i32⟩
  | _ => ⟨S50000x20, .f32⟩

abbrev hbmTy0_1 (i : Nat) : BufTy := match i % 128 with
  | 0 => ⟨S50000, .f32⟩
  | 1 => ⟨S_, .f32⟩
  | 2 => ⟨S50000, .f32⟩
  | 3 => ⟨S50000, .i1⟩
  | 4 => ⟨S50000, .f32⟩
  | 5 => ⟨S_, .f32⟩
  | 6 => ⟨S_, .f32⟩
  | 7 => ⟨S50000, .f32⟩
  | 8 => ⟨S50000, .f32⟩
  | 9 => ⟨S_, .i32⟩
  | 10 => ⟨S850000, .i32⟩
  | 11 => ⟨S850000, .i1⟩
  | 12 => ⟨S_, .i32⟩
  | 13 => ⟨S850000, .i32⟩
  | 14 => ⟨S850000, .i32⟩
  | 15 => ⟨S850000, .i32⟩
  | 16 => ⟨S850000x1, .i32⟩
  | 17 => ⟨S850000, .f32⟩
  | 18 => ⟨S850000, .f32⟩
  | 19 => ⟨S_, .i32⟩
  | 20 => ⟨S850000, .i32⟩
  | 21 => ⟨S850000, .i1⟩
  | 22 => ⟨S_, .i32⟩
  | 23 => ⟨S850000, .i32⟩
  | 24 => ⟨S850000, .i32⟩
  | 25 => ⟨S850000, .i32⟩
  | 26 => ⟨S850000x1, .i32⟩
  | 27 => ⟨S850000, .f32⟩
  | 28 => ⟨S850000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000x64, .f32⟩
  | 38 => ⟨S850000x1, .f32⟩
  | 39 => ⟨S850000x64, .f32⟩
  | 40 => ⟨S850000x64, .f32⟩
  | 41 => ⟨S_, .f32⟩
  | 42 => ⟨S50000x64, .f32⟩
  | 43 => ⟨S850000x1, .i32⟩
  | 44 => ⟨S50000x64, .f32⟩
  | 45 => ⟨S1x64, .f32⟩
  | 46 => ⟨S50000x64, .f32⟩
  | 47 => ⟨S50000x64, .f32⟩
  | 48 => ⟨S_, .f32⟩
  | 49 => ⟨S50000x64, .f32⟩
  | 50 => ⟨S50000x64, .f32⟩
  | 51 => ⟨S_, .f32⟩
  | 52 => ⟨S64, .f32⟩
  | 53 => ⟨S_, .f32⟩
  | 54 => ⟨S64, .f32⟩
  | 55 => ⟨S64, .f32⟩
  | 56 => ⟨S1x64, .f32⟩
  | 57 => ⟨S50000x64, .f32⟩
  | 58 => ⟨S50000x64, .f32⟩
  | 59 => ⟨S50000x64, .f32⟩
  | 60 => ⟨S_, .f32⟩
  | 61 => ⟨S64, .f32⟩
  | 62 => ⟨S_, .f32⟩
  | 63 => ⟨S64, .f32⟩
  | 64 => ⟨S64, .f32⟩
  | 65 => ⟨S1x64, .f32⟩
  | 66 => ⟨S50000x64, .f32⟩
  | 67 => ⟨S50000x64, .f32⟩
  | 68 => ⟨S1x64, .f32⟩
  | 69 => ⟨S50000x64, .f32⟩
  | 70 => ⟨S50000x64, .f32⟩
  | 71 => ⟨S_, .f32⟩
  | 72 => ⟨S64, .f32⟩
  | 73 => ⟨S64, .f32⟩
  | 74 => ⟨S64, .f32⟩
  | 75 => ⟨S1x64, .f32⟩
  | 76 => ⟨S50000x64, .f32⟩
  | 77 => ⟨S50000x64, .f32⟩
  | 78 => ⟨S1x64, .f32⟩
  | 79 => ⟨S50000x64, .f32⟩
  | 80 => ⟨S50000x64, .f32⟩
  | 81 => ⟨S50000x128, .f32⟩
  | 82 => ⟨S_, .f32⟩
  | 83 => ⟨S50000, .f32⟩
  | 84 => ⟨S850000x1, .i32⟩
  | 85 => ⟨S50000, .f32⟩
  | 86 => ⟨S_, .f32⟩
  | 87 => ⟨S50000, .f32⟩
  | 88 => ⟨S50000, .i1⟩
  | 89 => ⟨S50000, .f32⟩
  | 90 => ⟨S_, .f32⟩
  | 91 => ⟨S_, .f32⟩
  | 92 => ⟨S50000, .f32⟩
  | 93 => ⟨S50000, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000, .f32⟩
  | 103 => ⟨S850000, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000, .f32⟩
  | 113 => ⟨S850000, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x128, .f32⟩
  | 123 => ⟨S850000x1, .f32⟩
  | 124 => ⟨S850000x128, .f32⟩
  | 125 => ⟨S850000x128, .f32⟩
  | 126 => ⟨S_, .f32⟩
  | 127 => ⟨S50000x128, .f32⟩
  | _ => ⟨S50000x20, .f32⟩

abbrev hbmTy0_2 (i : Nat) : BufTy := match i % 128 with
  | 0 => ⟨S850000x1, .i32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S_, .f32⟩
  | 9 => ⟨S128, .f32⟩
  | 10 => ⟨S_, .f32⟩
  | 11 => ⟨S128, .f32⟩
  | 12 => ⟨S128, .f32⟩
  | 13 => ⟨S1x128, .f32⟩
  | 14 => ⟨S50000x128, .f32⟩
  | 15 => ⟨S50000x128, .f32⟩
  | 16 => ⟨S50000x128, .f32⟩
  | 17 => ⟨S_, .f32⟩
  | 18 => ⟨S128, .f32⟩
  | 19 => ⟨S_, .f32⟩
  | 20 => ⟨S128, .f32⟩
  | 21 => ⟨S128, .f32⟩
  | 22 => ⟨S1x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S_, .f32⟩
  | 29 => ⟨S128, .f32⟩
  | 30 => ⟨S128, .f32⟩
  | 31 => ⟨S128, .f32⟩
  | 32 => ⟨S1x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S50000x128, .f32⟩
  | 39 => ⟨S_, .f32⟩
  | 40 => ⟨S50000, .f32⟩
  | 41 => ⟨S850000x1, .i32⟩
  | 42 => ⟨S50000, .f32⟩
  | 43 => ⟨S_, .f32⟩
  | 44 => ⟨S50000, .f32⟩
  | 45 => ⟨S50000, .i1⟩
  | 46 => ⟨S50000, .f32⟩
  | 47 => ⟨S_, .f32⟩
  | 48 => ⟨S_, .f32⟩
  | 49 => ⟨S50000, .f32⟩
  | 50 => ⟨S50000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000, .f32⟩
  | 60 => ⟨S850000, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000, .f32⟩
  | 70 => ⟨S850000, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000x128, .f32⟩
  | 80 => ⟨S850000x1, .f32⟩
  | 81 => ⟨S850000x128, .f32⟩
  | 82 => ⟨S850000x128, .f32⟩
  | 83 => ⟨S_, .f32⟩
  | 84 => ⟨S50000x128, .f32⟩
  | 85 => ⟨S850000x1, .i32⟩
  | 86 => ⟨S50000x128, .f32⟩
  | 87 => ⟨S1x128, .f32⟩
  | 88 => ⟨S50000x128, .f32⟩
  | 89 => ⟨S50000x128, .f32⟩
  | 90 => ⟨S_, .f32⟩
  | 91 => ⟨S128, .f32⟩
  | 92 => ⟨S_, .f32⟩
  | 93 => ⟨S128, .f32⟩
  | 94 => ⟨S128, .f32⟩
  | 95 => ⟨S1x128, .f32⟩
  | 96 => ⟨S50000x128, .f32⟩
  | 97 => ⟨S50000x128, .f32⟩
  | 98 => ⟨S50000x128, .f32⟩
  | 99 => ⟨S_, .f32⟩
  | 100 => ⟨S128, .f32⟩
  | 101 => ⟨S_, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S128, .f32⟩
  | 112 => ⟨S128, .f32⟩
  | 113 => ⟨S128, .f32⟩
  | 114 => ⟨S1x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S50000x256, .f32⟩
  | 124 => ⟨S_, .f32⟩
  | 125 => ⟨S50000, .f32⟩
  | 126 => ⟨S850000x1, .i32⟩
  | 127 => ⟨S50000, .f32⟩
  | _ => ⟨S50000x20, .f32⟩

abbrev hbmTy0_3 (i : Nat) : BufTy := match i % 128 with
  | 0 => ⟨S_, .f32⟩
  | 1 => ⟨S50000, .f32⟩
  | 2 => ⟨S50000, .i1⟩
  | 3 => ⟨S50000, .f32⟩
  | 4 => ⟨S_, .f32⟩
  | 5 => ⟨S_, .f32⟩
  | 6 => ⟨S50000, .f32⟩
  | 7 => ⟨S50000, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000, .f32⟩
  | 17 => ⟨S850000, .f32⟩
  | 18 => ⟨S_, .i32⟩
  | 19 => ⟨S850000, .i32⟩
  | 20 => ⟨S850000, .i1⟩
  | 21 => ⟨S_, .i32⟩
  | 22 => ⟨S850000, .i32⟩
  | 23 => ⟨S850000, .i32⟩
  | 24 => ⟨S850000, .i32⟩
  | 25 => ⟨S850000x1, .i32⟩
  | 26 => ⟨S850000, .f32⟩
  | 27 => ⟨S850000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000x256, .f32⟩
  | 37 => ⟨S850000x1, .f32⟩
  | 38 => ⟨S850000x256, .f32⟩
  | 39 => ⟨S850000x256, .f32⟩
  | 40 => ⟨S_, .f32⟩
  | 41 => ⟨S50000x256, .f32⟩
  | 42 => ⟨S850000x1, .i32⟩
  | 43 => ⟨S50000x256, .f32⟩
  | 44 => ⟨S1x256, .f32⟩
  | 45 => ⟨S50000x256, .f32⟩
  | 46 => ⟨S50000x256, .f32⟩
  | 47 => ⟨S_, .f32⟩
  | 48 => ⟨S256, .f32⟩
  | 49 => ⟨S_, .f32⟩
  | 50 => ⟨S256, .f32⟩
  | 51 => ⟨S256, .f32⟩
  | 52 => ⟨S1x256, .f32⟩
  | 53 => ⟨S50000x256, .f32⟩
  | 54 => ⟨S50000x256, .f32⟩
  | 55 => ⟨S50000x256, .f32⟩
  | 56 => ⟨S_, .f32⟩
  | 57 => ⟨S256, .f32⟩
  | 58 => ⟨S_, .f32⟩
  | 59 => ⟨S256, .f32⟩
  | 60 => ⟨S256, .f32⟩
  | 61 => ⟨S1x256, .f32⟩
  | 62 => ⟨S50000x256, .f32⟩
  | 63 => ⟨S50000x256, .f32⟩
  | 64 => ⟨S1x256, .f32⟩
  | 65 => ⟨S50000x256, .f32⟩
  | 66 => ⟨S50000x256, .f32⟩
  | 67 => ⟨S_, .f32⟩
  | 68 => ⟨S256, .f32⟩
  | 69 => ⟨S256, .f32⟩
  | 70 => ⟨S256, .f32⟩
  | 71 => ⟨S1x256, .f32⟩
  | 72 => ⟨S50000x256, .f32⟩
  | 73 => ⟨S50000x256, .f32⟩
  | 74 => ⟨S1x256, .f32⟩
  | 75 => ⟨S50000x256, .f32⟩
  | 76 => ⟨S50000x256, .f32⟩
  | 77 => ⟨S_, .f32⟩
  | 78 => ⟨S512x256, .f32⟩
  | 79 => ⟨S50000x1, .i32⟩
  | 80 => ⟨S512x256, .f32⟩
  | 81 => ⟨S_, .f32⟩
  | 82 => ⟨S512x256, .f32⟩
  | 83 => ⟨S512x256, .f32⟩
  | 84 => ⟨S512x128, .f32⟩
  | 85 => ⟨S1x128, .f32⟩
  | 86 => ⟨S512x128, .f32⟩
  | 87 => ⟨S512x128, .f32⟩
  | 88 => ⟨S_, .f32⟩
  | 89 => ⟨S512x128, .f32⟩
  | 90 => ⟨S512x128, .f32⟩
  | 91 => ⟨S512x1, .f32⟩
  | 92 => ⟨S1x1, .f32⟩
  | 93 => ⟨S512x1, .f32⟩
  | 94 => ⟨S512x1, .f32⟩
  | 95 => ⟨S512, .f32⟩
  | _ => ⟨S50000x20, .f32⟩

abbrev hbmTy (i : Nat) : BufTy := match i / 128 with
  | 0 => hbmTy0_0 i
  | 1 => hbmTy0_1 i
  | 2 => hbmTy0_2 i
  | 3 => hbmTy0_3 i
  | _ => ⟨S50000x20, .f32⟩

abbrev bufTy : (tb : Table) → Fin (tcTables nBuf tb) → BufTy
  | .hbm, ⟨i, _⟩ => hbmTy i
  | _, _ => ⟨S50000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst_0 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_cst_1 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_cst_2 : Ref sig .tc := ⟨.hbm, 48, rfl⟩
abbrev main_call0_v0 : Ref sig .tc := ⟨.hbm, 49, rfl⟩
abbrev main_call0_v1 : Ref sig .tc := ⟨.hbm, 50, rfl⟩
abbrev main_v16 : Ref sig .tc := ⟨.hbm, 51, rfl⟩
abbrev main_c : Ref sig .tc := ⟨.hbm, 52, rfl⟩
abbrev main_v17 : Ref sig .tc := ⟨.hbm, 53, rfl⟩
abbrev main_v18 : Ref sig .tc := ⟨.hbm, 54, rfl⟩
abbrev main_c_3 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_c_4 : Ref sig .tc := ⟨.hbm, 62, rfl⟩
abbrev main_v25 : Ref sig .tc := ⟨.hbm, 63, rfl⟩
abbrev main_v26 : Ref sig .tc := ⟨.hbm, 64, rfl⟩
abbrev main_c_5 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_c_6 : Ref sig .tc := ⟨.hbm, 72, rfl⟩
abbrev main_v33 : Ref sig .tc := ⟨.hbm, 73, rfl⟩
abbrev main_v34 : Ref sig .tc := ⟨.hbm, 74, rfl⟩
abbrev main_c_7 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_8 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_call1_cst : Ref sig .tc := ⟨.hbm, 91, rfl⟩
abbrev main_call1_v0 : Ref sig .tc := ⟨.hbm, 92, rfl⟩
abbrev main_v49 : Ref sig .tc := ⟨.hbm, 93, rfl⟩
abbrev main_cst_9 : Ref sig .tc := ⟨.hbm, 94, rfl⟩
abbrev main_v50 : Ref sig .tc := ⟨.hbm, 95, rfl⟩
abbrev main_cst_10 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_cst_11 : Ref sig .tc := ⟨.hbm, 103, rfl⟩
abbrev main_v57 : Ref sig .tc := ⟨.hbm, 104, rfl⟩
abbrev main_cst_12 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_13 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_cst_14 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_cst_15 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_cst_16 : Ref sig .tc := ⟨.hbm, 133, rfl⟩
abbrev main_call2_v0 : Ref sig .tc := ⟨.hbm, 134, rfl⟩
abbrev main_call2_v1 : Ref sig .tc := ⟨.hbm, 135, rfl⟩
abbrev main_v82 : Ref sig .tc := ⟨.hbm, 136, rfl⟩
abbrev main_c_17 : Ref sig .tc := ⟨.hbm, 137, rfl⟩
abbrev main_v83 : Ref sig .tc := ⟨.hbm, 138, rfl⟩
abbrev main_v84 : Ref sig .tc := ⟨.hbm, 139, rfl⟩
abbrev main_c_18 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_c_19 : Ref sig .tc := ⟨.hbm, 147, rfl⟩
abbrev main_v91 : Ref sig .tc := ⟨.hbm, 148, rfl⟩
abbrev main_v92 : Ref sig .tc := ⟨.hbm, 149, rfl⟩
abbrev main_c_20 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_c_21 : Ref sig .tc := ⟨.hbm, 157, rfl⟩
abbrev main_v99 : Ref sig .tc := ⟨.hbm, 158, rfl⟩
abbrev main_v100 : Ref sig .tc := ⟨.hbm, 159, rfl⟩
abbrev main_c_22 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_cst_23 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_call3_cst : Ref sig .tc := ⟨.hbm, 176, rfl⟩
abbrev main_call3_v0 : Ref sig .tc := ⟨.hbm, 177, rfl⟩
abbrev main_v115 : Ref sig .tc := ⟨.hbm, 178, rfl⟩
abbrev main_cst_24 : Ref sig .tc := ⟨.hbm, 179, rfl⟩
abbrev main_v116 : Ref sig .tc := ⟨.hbm, 180, rfl⟩
abbrev main_cst_25 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_cst_26 : Ref sig .tc := ⟨.hbm, 188, rfl⟩
abbrev main_v123 : Ref sig .tc := ⟨.hbm, 189, rfl⟩
abbrev main_cst_27 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_cst_28 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_cst_29 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_cst_30 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_cst_31 : Ref sig .tc := ⟨.hbm, 218, rfl⟩
abbrev main_call4_v0 : Ref sig .tc := ⟨.hbm, 219, rfl⟩
abbrev main_call4_v1 : Ref sig .tc := ⟨.hbm, 220, rfl⟩
abbrev main_v148 : Ref sig .tc := ⟨.hbm, 221, rfl⟩
abbrev main_c_32 : Ref sig .tc := ⟨.hbm, 222, rfl⟩
abbrev main_v149 : Ref sig .tc := ⟨.hbm, 223, rfl⟩
abbrev main_v150 : Ref sig .tc := ⟨.hbm, 224, rfl⟩
abbrev main_c_33 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_c_34 : Ref sig .tc := ⟨.hbm, 232, rfl⟩
abbrev main_v157 : Ref sig .tc := ⟨.hbm, 233, rfl⟩
abbrev main_v158 : Ref sig .tc := ⟨.hbm, 234, rfl⟩
abbrev main_c_35 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_c_36 : Ref sig .tc := ⟨.hbm, 242, rfl⟩
abbrev main_v165 : Ref sig .tc := ⟨.hbm, 243, rfl⟩
abbrev main_v166 : Ref sig .tc := ⟨.hbm, 244, rfl⟩
abbrev main_c_37 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_cst_38 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_call5_cst : Ref sig .tc := ⟨.hbm, 261, rfl⟩
abbrev main_call5_v0 : Ref sig .tc := ⟨.hbm, 262, rfl⟩
abbrev main_v181 : Ref sig .tc := ⟨.hbm, 263, rfl⟩
abbrev main_cst_39 : Ref sig .tc := ⟨.hbm, 264, rfl⟩
abbrev main_v182 : Ref sig .tc := ⟨.hbm, 265, rfl⟩
abbrev main_cst_40 : Ref sig .tc := ⟨.hbm, 266, rfl⟩
abbrev main_v183 : Ref sig .tc := ⟨.hbm, 267, rfl⟩
abbrev main_v184 : Ref sig .tc := ⟨.hbm, 268, rfl⟩
abbrev main_v185 : Ref sig .tc := ⟨.hbm, 269, rfl⟩
abbrev main_v186 : Ref sig .tc := ⟨.hbm, 270, rfl⟩
abbrev main_v187 : Ref sig .tc := ⟨.hbm, 271, rfl⟩
abbrev main_v188 : Ref sig .tc := ⟨.hbm, 272, rfl⟩
abbrev main_cst_41 : Ref sig .tc := ⟨.hbm, 273, rfl⟩
abbrev main_v189 : Ref sig .tc := ⟨.hbm, 274, rfl⟩
abbrev main_cst_42 : Ref sig .tc := ⟨.hbm, 275, rfl⟩
abbrev main_v190 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_v194 : Ref sig .tc := ⟨.hbm, 280, rfl⟩
abbrev main_v195 : Ref sig .tc := ⟨.hbm, 281, rfl⟩
abbrev main_v196 : Ref sig .tc := ⟨.hbm, 282, rfl⟩
abbrev main_v197 : Ref sig .tc := ⟨.hbm, 283, rfl⟩
abbrev main_cst_43 : Ref sig .tc := ⟨.hbm, 284, rfl⟩
abbrev main_v198 : Ref sig .tc := ⟨.hbm, 285, rfl⟩
abbrev main_v199 : Ref sig .tc := ⟨.hbm, 286, rfl⟩
abbrev main_v200 : Ref sig .tc := ⟨.hbm, 287, rfl⟩
abbrev main_v201 : Ref sig .tc := ⟨.hbm, 288, rfl⟩
abbrev main_v202 : Ref sig .tc := ⟨.hbm, 289, rfl⟩
abbrev main_v203 : Ref sig .tc := ⟨.hbm, 290, rfl⟩
abbrev main_v204 : Ref sig .tc := ⟨.hbm, 291, rfl⟩
abbrev main_v205 : Ref sig .tc := ⟨.hbm, 292, rfl⟩
abbrev main_v206 : Ref sig .tc := ⟨.hbm, 293, rfl⟩
abbrev main_v207 : Ref sig .tc := ⟨.hbm, 294, rfl⟩
abbrev main_cst_44 : Ref sig .tc := ⟨.hbm, 295, rfl⟩
abbrev main_v208 : Ref sig .tc := ⟨.hbm, 296, rfl⟩
abbrev main_v209 : Ref sig .tc := ⟨.hbm, 297, rfl⟩
abbrev main_v210 : Ref sig .tc := ⟨.hbm, 298, rfl⟩
abbrev main_cst_45 : Ref sig .tc := ⟨.hbm, 299, rfl⟩
abbrev main_v211 : Ref sig .tc := ⟨.hbm, 300, rfl⟩
abbrev main_v212 : Ref sig .tc := ⟨.hbm, 301, rfl⟩
abbrev main_v213 : Ref sig .tc := ⟨.hbm, 302, rfl⟩
abbrev main_cst_46 : Ref sig .tc := ⟨.hbm, 303, rfl⟩
abbrev main_call6_v0 : Ref sig .tc := ⟨.hbm, 304, rfl⟩
abbrev main_call6_v1 : Ref sig .tc := ⟨.hbm, 305, rfl⟩
abbrev main_v214 : Ref sig .tc := ⟨.hbm, 306, rfl⟩
abbrev main_c_47 : Ref sig .tc := ⟨.hbm, 307, rfl⟩
abbrev main_v215 : Ref sig .tc := ⟨.hbm, 308, rfl⟩
abbrev main_v216 : Ref sig .tc := ⟨.hbm, 309, rfl⟩
abbrev main_c_48 : Ref sig .tc := ⟨.hbm, 310, rfl⟩
abbrev main_v217 : Ref sig .tc := ⟨.hbm, 311, rfl⟩
abbrev main_v218 : Ref sig .tc := ⟨.hbm, 312, rfl⟩
abbrev main_v219 : Ref sig .tc := ⟨.hbm, 313, rfl⟩
abbrev main_v220 : Ref sig .tc := ⟨.hbm, 314, rfl⟩
abbrev main_v221 : Ref sig .tc := ⟨.hbm, 315, rfl⟩
abbrev main_v222 : Ref sig .tc := ⟨.hbm, 316, rfl⟩
abbrev main_c_49 : Ref sig .tc := ⟨.hbm, 317, rfl⟩
abbrev main_v223 : Ref sig .tc := ⟨.hbm, 318, rfl⟩
abbrev main_v224 : Ref sig .tc := ⟨.hbm, 319, rfl⟩
abbrev main_c_50 : Ref sig .tc := ⟨.hbm, 320, rfl⟩
abbrev main_v225 : Ref sig .tc := ⟨.hbm, 321, rfl⟩
abbrev main_v226 : Ref sig .tc := ⟨.hbm, 322, rfl⟩
abbrev main_v227 : Ref sig .tc := ⟨.hbm, 323, rfl⟩
abbrev main_v228 : Ref sig .tc := ⟨.hbm, 324, rfl⟩
abbrev main_v229 : Ref sig .tc := ⟨.hbm, 325, rfl⟩
abbrev main_v230 : Ref sig .tc := ⟨.hbm, 326, rfl⟩
abbrev main_c_51 : Ref sig .tc := ⟨.hbm, 327, rfl⟩
abbrev main_v231 : Ref sig .tc := ⟨.hbm, 328, rfl⟩
abbrev main_v232 : Ref sig .tc := ⟨.hbm, 329, rfl⟩
abbrev main_c_52 : Ref sig .tc := ⟨.hbm, 330, rfl⟩
abbrev main_v233 : Ref sig .tc := ⟨.hbm, 331, rfl⟩
abbrev main_v234 : Ref sig .tc := ⟨.hbm, 332, rfl⟩
abbrev main_v235 : Ref sig .tc := ⟨.hbm, 333, rfl⟩
abbrev main_v236 : Ref sig .tc := ⟨.hbm, 334, rfl⟩
abbrev main_v237 : Ref sig .tc := ⟨.hbm, 335, rfl⟩
abbrev main_v238 : Ref sig .tc := ⟨.hbm, 336, rfl⟩
abbrev main_v239 : Ref sig .tc := ⟨.hbm, 337, rfl⟩
abbrev main_v240 : Ref sig .tc := ⟨.hbm, 338, rfl⟩
abbrev main_cst_53 : Ref sig .tc := ⟨.hbm, 339, rfl⟩
abbrev main_v241 : Ref sig .tc := ⟨.hbm, 340, rfl⟩
abbrev main_v242 : Ref sig .tc := ⟨.hbm, 341, rfl⟩
abbrev main_v243 : Ref sig .tc := ⟨.hbm, 342, rfl⟩
abbrev main_v244 : Ref sig .tc := ⟨.hbm, 343, rfl⟩
abbrev main_v245 : Ref sig .tc := ⟨.hbm, 344, rfl⟩
abbrev main_v246 : Ref sig .tc := ⟨.hbm, 345, rfl⟩
abbrev main_cst_54 : Ref sig .tc := ⟨.hbm, 346, rfl⟩
abbrev main_v247 : Ref sig .tc := ⟨.hbm, 347, rfl⟩
abbrev main_cst_55 : Ref sig .tc := ⟨.hbm, 348, rfl⟩
abbrev main_v248 : Ref sig .tc := ⟨.hbm, 349, rfl⟩
abbrev main_v249 : Ref sig .tc := ⟨.hbm, 350, rfl⟩
abbrev main_v250 : Ref sig .tc := ⟨.hbm, 351, rfl⟩
abbrev main_v251 : Ref sig .tc := ⟨.hbm, 352, rfl⟩
abbrev main_v252 : Ref sig .tc := ⟨.hbm, 353, rfl⟩
abbrev main_v253 : Ref sig .tc := ⟨.hbm, 354, rfl⟩
abbrev main_cst_56 : Ref sig .tc := ⟨.hbm, 355, rfl⟩
abbrev main_v254 : Ref sig .tc := ⟨.hbm, 356, rfl⟩
abbrev main_cst_57 : Ref sig .tc := ⟨.hbm, 357, rfl⟩
abbrev main_v255 : Ref sig .tc := ⟨.hbm, 358, rfl⟩
abbrev main_v256 : Ref sig .tc := ⟨.hbm, 359, rfl⟩
abbrev main_v257 : Ref sig .tc := ⟨.hbm, 360, rfl⟩
abbrev main_v258 : Ref sig .tc := ⟨.hbm, 361, rfl⟩
abbrev main_v259 : Ref sig .tc := ⟨.hbm, 362, rfl⟩
abbrev main_v260 : Ref sig .tc := ⟨.hbm, 363, rfl⟩
abbrev main_v261 : Ref sig .tc := ⟨.hbm, 364, rfl⟩
abbrev main_v262 : Ref sig .tc := ⟨.hbm, 365, rfl⟩
abbrev main_cst_58 : Ref sig .tc := ⟨.hbm, 366, rfl⟩
abbrev main_v263 : Ref sig .tc := ⟨.hbm, 367, rfl⟩
abbrev main_v264 : Ref sig .tc := ⟨.hbm, 368, rfl⟩
abbrev main_v265 : Ref sig .tc := ⟨.hbm, 369, rfl⟩
abbrev main_v266 : Ref sig .tc := ⟨.hbm, 370, rfl⟩
abbrev main_v267 : Ref sig .tc := ⟨.hbm, 371, rfl⟩
abbrev main_v268 : Ref sig .tc := ⟨.hbm, 372, rfl⟩
abbrev main_v269 : Ref sig .tc := ⟨.hbm, 373, rfl⟩
abbrev main_v270 : Ref sig .tc := ⟨.hbm, 374, rfl⟩
abbrev main_v271 : Ref sig .tc := ⟨.hbm, 375, rfl⟩
abbrev main_call7_cst : Ref sig .tc := ⟨.hbm, 376, rfl⟩
abbrev main_call7_v0 : Ref sig .tc := ⟨.hbm, 377, rfl⟩
abbrev main_v272 : Ref sig .tc := ⟨.hbm, 378, rfl⟩
abbrev main_v273 : Ref sig .tc := ⟨.hbm, 379, rfl⟩
abbrev main_cst_59 : Ref sig .tc := ⟨.hbm, 380, rfl⟩
abbrev main_v274 : Ref sig .tc := ⟨.hbm, 381, rfl⟩
abbrev main_v275 : Ref sig .tc := ⟨.hbm, 382, rfl⟩
abbrev main_v276 : Ref sig .tc := ⟨.hbm, 383, rfl⟩
abbrev main_cst_60 : Ref sig .tc := ⟨.hbm, 384, rfl⟩
abbrev main_v277 : Ref sig .tc := ⟨.hbm, 385, rfl⟩
abbrev main_v278 : Ref sig .tc := ⟨.hbm, 386, rfl⟩
abbrev main_v279 : Ref sig .tc := ⟨.hbm, 387, rfl⟩
abbrev main_cst_61 : Ref sig .tc := ⟨.hbm, 388, rfl⟩
abbrev main_call8_v0 : Ref sig .tc := ⟨.hbm, 389, rfl⟩
abbrev main_call8_v1 : Ref sig .tc := ⟨.hbm, 390, rfl⟩
abbrev main_v280 : Ref sig .tc := ⟨.hbm, 391, rfl⟩
abbrev main_c_62 : Ref sig .tc := ⟨.hbm, 392, rfl⟩
abbrev main_v281 : Ref sig .tc := ⟨.hbm, 393, rfl⟩
abbrev main_v282 : Ref sig .tc := ⟨.hbm, 394, rfl⟩
abbrev main_c_63 : Ref sig .tc := ⟨.hbm, 395, rfl⟩
abbrev main_v283 : Ref sig .tc := ⟨.hbm, 396, rfl⟩
abbrev main_v284 : Ref sig .tc := ⟨.hbm, 397, rfl⟩
abbrev main_v285 : Ref sig .tc := ⟨.hbm, 398, rfl⟩
abbrev main_v286 : Ref sig .tc := ⟨.hbm, 399, rfl⟩
abbrev main_v287 : Ref sig .tc := ⟨.hbm, 400, rfl⟩
abbrev main_v288 : Ref sig .tc := ⟨.hbm, 401, rfl⟩
abbrev main_c_64 : Ref sig .tc := ⟨.hbm, 402, rfl⟩
abbrev main_v289 : Ref sig .tc := ⟨.hbm, 403, rfl⟩
abbrev main_v290 : Ref sig .tc := ⟨.hbm, 404, rfl⟩
abbrev main_c_65 : Ref sig .tc := ⟨.hbm, 405, rfl⟩
abbrev main_v291 : Ref sig .tc := ⟨.hbm, 406, rfl⟩
abbrev main_v292 : Ref sig .tc := ⟨.hbm, 407, rfl⟩
abbrev main_v293 : Ref sig .tc := ⟨.hbm, 408, rfl⟩
abbrev main_v294 : Ref sig .tc := ⟨.hbm, 409, rfl⟩
abbrev main_v295 : Ref sig .tc := ⟨.hbm, 410, rfl⟩
abbrev main_v296 : Ref sig .tc := ⟨.hbm, 411, rfl⟩
abbrev main_c_66 : Ref sig .tc := ⟨.hbm, 412, rfl⟩
abbrev main_v297 : Ref sig .tc := ⟨.hbm, 413, rfl⟩
abbrev main_v298 : Ref sig .tc := ⟨.hbm, 414, rfl⟩
abbrev main_c_67 : Ref sig .tc := ⟨.hbm, 415, rfl⟩
abbrev main_v299 : Ref sig .tc := ⟨.hbm, 416, rfl⟩
abbrev main_v300 : Ref sig .tc := ⟨.hbm, 417, rfl⟩
abbrev main_v301 : Ref sig .tc := ⟨.hbm, 418, rfl⟩
abbrev main_v302 : Ref sig .tc := ⟨.hbm, 419, rfl⟩
abbrev main_v303 : Ref sig .tc := ⟨.hbm, 420, rfl⟩
abbrev main_v304 : Ref sig .tc := ⟨.hbm, 421, rfl⟩
abbrev main_v305 : Ref sig .tc := ⟨.hbm, 422, rfl⟩
abbrev main_v306 : Ref sig .tc := ⟨.hbm, 423, rfl⟩
abbrev main_cst_68 : Ref sig .tc := ⟨.hbm, 424, rfl⟩
abbrev main_v307 : Ref sig .tc := ⟨.hbm, 425, rfl⟩
abbrev main_v308 : Ref sig .tc := ⟨.hbm, 426, rfl⟩
abbrev main_v309 : Ref sig .tc := ⟨.hbm, 427, rfl⟩
abbrev main_v310 : Ref sig .tc := ⟨.hbm, 428, rfl⟩
abbrev main_v311 : Ref sig .tc := ⟨.hbm, 429, rfl⟩
abbrev main_v312 : Ref sig .tc := ⟨.hbm, 430, rfl⟩
abbrev main_cst_69 : Ref sig .tc := ⟨.hbm, 431, rfl⟩
abbrev main_v313 : Ref sig .tc := ⟨.hbm, 432, rfl⟩
abbrev main_cst_70 : Ref sig .tc := ⟨.hbm, 433, rfl⟩
abbrev main_v314 : Ref sig .tc := ⟨.hbm, 434, rfl⟩
abbrev main_v315 : Ref sig .tc := ⟨.hbm, 435, rfl⟩
abbrev main_v316 : Ref sig .tc := ⟨.hbm, 436, rfl⟩
abbrev main_v317 : Ref sig .tc := ⟨.hbm, 437, rfl⟩
abbrev main_v318 : Ref sig .tc := ⟨.hbm, 438, rfl⟩
abbrev main_v319 : Ref sig .tc := ⟨.hbm, 439, rfl⟩
abbrev main_cst_71 : Ref sig .tc := ⟨.hbm, 440, rfl⟩
abbrev main_v320 : Ref sig .tc := ⟨.hbm, 441, rfl⟩
abbrev main_cst_72 : Ref sig .tc := ⟨.hbm, 442, rfl⟩
abbrev main_v321 : Ref sig .tc := ⟨.hbm, 443, rfl⟩
abbrev main_v322 : Ref sig .tc := ⟨.hbm, 444, rfl⟩
abbrev main_v323 : Ref sig .tc := ⟨.hbm, 445, rfl⟩
abbrev main_v324 : Ref sig .tc := ⟨.hbm, 446, rfl⟩
abbrev main_v325 : Ref sig .tc := ⟨.hbm, 447, rfl⟩
abbrev main_v326 : Ref sig .tc := ⟨.hbm, 448, rfl⟩
abbrev main_v327 : Ref sig .tc := ⟨.hbm, 449, rfl⟩
abbrev main_v328 : Ref sig .tc := ⟨.hbm, 450, rfl⟩
abbrev main_cst_73 : Ref sig .tc := ⟨.hbm, 451, rfl⟩
abbrev main_v329 : Ref sig .tc := ⟨.hbm, 452, rfl⟩
abbrev main_v330 : Ref sig .tc := ⟨.hbm, 453, rfl⟩
abbrev main_v331 : Ref sig .tc := ⟨.hbm, 454, rfl⟩
abbrev main_v332 : Ref sig .tc := ⟨.hbm, 455, rfl⟩
abbrev main_v333 : Ref sig .tc := ⟨.hbm, 456, rfl⟩
abbrev main_v334 : Ref sig .tc := ⟨.hbm, 457, rfl⟩
abbrev main_v335 : Ref sig .tc := ⟨.hbm, 458, rfl⟩
abbrev main_v336 : Ref sig .tc := ⟨.hbm, 459, rfl⟩
abbrev main_v337 : Ref sig .tc := ⟨.hbm, 460, rfl⟩
abbrev main_cst_74 : Ref sig .tc := ⟨.hbm, 461, rfl⟩
abbrev main_v338 : Ref sig .tc := ⟨.hbm, 462, rfl⟩
abbrev main_v339 : Ref sig .tc := ⟨.hbm, 463, rfl⟩
abbrev main_v340 : Ref sig .tc := ⟨.hbm, 464, rfl⟩
abbrev main_call9_cst : Ref sig .tc := ⟨.hbm, 465, rfl⟩
abbrev main_call9_v0 : Ref sig .tc := ⟨.hbm, 466, rfl⟩
abbrev main_v341 : Ref sig .tc := ⟨.hbm, 467, rfl⟩
abbrev main_v342 : Ref sig .tc := ⟨.hbm, 468, rfl⟩
abbrev main_v343 : Ref sig .tc := ⟨.hbm, 469, rfl⟩
abbrev main_v344 : Ref sig .tc := ⟨.hbm, 470, rfl⟩
abbrev main_v345 : Ref sig .tc := ⟨.hbm, 471, rfl⟩
abbrev main_call10_cst : Ref sig .tc := ⟨.hbm, 472, rfl⟩
abbrev main_call10_v0 : Ref sig .tc := ⟨.hbm, 473, rfl⟩
abbrev main_v346 : Ref sig .tc := ⟨.hbm, 474, rfl⟩
abbrev main_v347 : Ref sig .tc := ⟨.hbm, 475, rfl⟩
abbrev main_v348 : Ref sig .tc := ⟨.hbm, 476, rfl⟩
abbrev main_v349 : Ref sig .tc := ⟨.hbm, 477, rfl⟩
abbrev main_v350 : Ref sig .tc := ⟨.hbm, 478, rfl⟩
abbrev main_v351 : Ref sig .tc := ⟨.hbm, 479, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S32_d0 : S50000x32.ReducesTo [0] S32
  h_S_ : 0 < S_.numel
  bcast_S_S32 : S_.BroadcastsInDim S32 (![] : Fin 0 → Fin S32.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  bcast_S_S64 : S_.BroadcastsInDim S64 (![] : Fin 0 → Fin S64.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  bcast_S_S256 : S_.BroadcastsInDim S256 (![] : Fin 0 → Fin S256.rank)
  bcast_S_S512x256 : S_.BroadcastsInDim S512x256 (![] : Fin 0 → Fin S512x256.rank)
  bcast_S50000_S50000x1_0 : S50000.BroadcastsInDim S50000x1 (![0] : Fin 1 → Fin S50000x1.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  dot_S50000x20_S20x32_S50000x32_1_0_0_1_n_n_wf : DotDims.WF S50000x20 S20x32 S50000x32 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S50000x32_S32x64_S50000x64_1_0_0_1_n_n_wf : DotDims.WF S50000x32 S32x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S512x256_S50000x1_S50000x256_1_0_0_1_wf : ScatterDims.WF S512x256 S50000x1 S50000x256 [1] [0] [0] 1
  dot_S512x256_S256x128_S512x128_1_0_0_1_n_n_wf : DotDims.WF S512x256 S256x128 S512x128 [1] [0] [0] [1] [] []
  dot_S512x128_S128x1_S512x1_1_0_0_1_n_n_wf : DotDims.WF S512x128 S128x1 S512x1 [1] [0] [0] [1] [] []

variable [Facts₀]

def dot_S50000x20_S20x32_S50000x32_1_0_0_1_n_n : DotDims S50000x20 S20x32 S50000x32 where
  lhsContracting := [1]
  rhsContracting := [0]
  lhsNonContracting := [0]
  rhsNonContracting := [1]
  lhsBatch := []
  rhsBatch := []
  wf := dot_S50000x20_S20x32_S50000x32_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KI.RegionsP.lean ====
import proofs.«411449_j51797305589934_2_alg».proof.Proof.Gen.KernelIdeal.Launch
import Idealize.ShloMosaic.Lib.Pipeline.Frame
import Idealize.ShloMosaic.Lib.Pipeline.Regions

set_option maxRecDepth 2092

noncomputable section

namespace Cert.KernelIdeal.GenP

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)

abbrev V1 (c : Dev nD) : Valuation τ sig (Elt F) := StableHlo.after hostOps0 (V0 m c)

abbrev V2 (c : Dev nD) : Valuation τ sig (Elt F) := StableHlo.after hostOps0_1 (V1 m c)

abbrev V3 (c : Dev nD) : Valuation τ sig (Elt F) := StableHlo.after hostOps0_2 (V2 m c)

abbrev V4 (c : Dev nD) : Valuation τ sig (Elt F) := Function.update (V3 m c) main_v32 (outs 4 main_v32 c)

abbrev V5 (c : Dev nD) : Valuation τ sig (Elt F) := StableHlo.after hostOps1 (V4 m outs c)

abbrev V6 (c : Dev nD) : Valuation τ sig (Elt F) := Function.update (Function.update (V5 m outs c) main_v48_0 (outs 6 main_v48_0 c)) main_v48_1 (outs 6 main_v48_1 c)

abbrev V7 (c : Dev nD) : Valuation τ sig (Elt F) := StableHlo.after hostOps2 (V6 m outs c)

abbrev V8 (c : Dev nD) : Valuation τ sig (Elt F) := Function.update (V7 m outs c) main_v51 (outs 8 main_v51 c)

abbrev V9 (c : Dev nD) : Valuation τ sig (Elt F) := StableHlo.after hostOps3 (V8 m outs c)

abbrev V10 (c : Dev nD) : Valuation τ sig (Elt F) := Function.update (V9 m outs c) main_v59 (outs 10 main_v59 c)

abbrev V11 (c : Dev nD) : Valuation τ sig (Elt F) := Function.update (V10 m outs c) main_v60 (outs 11 main_v60 c)

abbrev V12 (c : Dev nD) : Valuation τ sig (Elt F) := StableHlo.after hostOps5 (V11 m outs c)

abbrev V13 (c : Dev nD) : Valuation τ sig (Elt F) := Function.update (Function.update (V12 m outs c) main_v76_0 (outs 13 main_v76_0 c)) main_v76_1 (outs 13 main_v76_1 c)

abbrev V14 (c : Dev nD) : Valuation τ sig (Elt F) := StableHlo.after hostOps6 (V13 m outs c)

abbrev V15 (c : Dev nD) : Valuation τ sig (Elt F) := Function.update (V14 m outs c) main_v79 (outs 15 main_v79 c)

abbrev V16 (c : Dev nD) : Valuation τ sig (Elt F) := StableHlo.after hostOps7 (V15 m outs c)

abbrev V17 (c : Dev nD) : Valuation τ sig (Elt F) := Function.update (V16 m outs c) main_v87 (outs 17 main_v87 c)

abbrev V18 (c : Dev nD) : Valuation τ sig (Elt F) := Function.update (V17 m outs c) main_v88 (outs 18 main_v88 c)

abbrev V19 (c : Dev nD) : Valuation τ sig (Elt F) := StableHlo.after hostOps9 (V18 m outs c)

abbrev V20 (c : Dev nD) : Valuation τ sig (Elt F) := Function.update (Function.update (V19 m outs c) main_v104_0 (outs 20 main_v104_0 c)) main_v104_1 (outs 20 main_v104_1 c)

abbrev V21 (c : Dev nD) : Valuation τ sig (Elt F) := StableHlo.after hostOps10 (V20 m outs c)

abbrev V22 (c : Dev nD) : Valuation τ sig (Elt F) := Function.update (V21 m outs c) main_v107 (outs 22 main_v107 c)

abbrev V23 (c : Dev nD) : Valuation τ sig (Elt F) := StableHlo.after hostOps11 (V22 m outs c)

abbrev V24 (c : Dev nD) : Valuation τ sig (Elt F) := Function.update (V23 m outs c) main_v115 (outs 24 main_v115 c)

abbrev V25 (c : Dev nD) : Valuation τ sig (Elt F) := Function.update (V24 m outs c) main_v116 (outs 25 main_v116 c)

abbrev V26 (c : Dev nD) : Valuation τ sig (Elt F) := StableHlo.after hostOps13 (V25 m outs c)

abbrev V27 (c : Dev nD) : Valuation τ sig (Elt F) := Function.update (Function.update (V26 m outs c) main_v132_0 (outs 27 main_v132_0 c)) main_v132_1 (outs 27 main_v132_1 c)

abbrev V28 (c : Dev nD) : Valuation τ sig (Elt F) := StableHlo.after hostOps14 (V27 m outs c)

abbrev V29 (c : Dev nD) : Valuation τ sig (Elt F) := Function.update (V28 m outs c) main_v135 (outs 29 main_v135 c)

abbrev V30 (c : Dev nD) : Valuation τ sig (Elt F) := StableHlo.after hostOps15 (V29 m outs c)

abbrev V31 (c : Dev nD) : Valuation τ sig (Elt F) := Function.update (V30 m outs c) main_v143 (outs 31 main_v143 c)

abbrev V32 (c : Dev nD) : Valuation τ sig (Elt F) := Function.update (V31 m outs c) main_v144 (outs 32 main_v144 c)

abbrev V33 (c : Dev nD) : Valuation τ sig (Elt F) := StableHlo.after hostOps17 (V32 m outs c)

abbrev V34 (c : Dev nD) : Valuation τ sig (Elt F) := Function.update (Function.update (V33 m outs c) main_v160_0 (outs 34 main_v160_0 c)) main_v160_1 (outs 34 main_v160_1 c)

abbrev V35 (c : Dev nD) : Valuation τ sig (Elt F) := StableHlo.after hostOps18 (V34 m outs c)

abbrev V36 (c : Dev nD) : Valuation τ sig (Elt F) := Function.update (V35 m outs c) main_v163 (outs 36 main_v163 c)

abbrev V37 (c : Dev nD) : Valuation τ sig (Elt F) := StableHlo.after hostOps19 (V36 m outs c)

abbrev V38 (c : Dev nD) : Valuation τ sig (Elt F) := Function.update (V37 m outs c) main_v171 (outs 38 main_v171 c)

abbrev V39 (c : Dev nD) : Valuation τ sig (Elt F) := StableHlo.after hostOps20 (V38 m outs c)

abbrev V40 (c : Dev nD) : Valuation τ sig (Elt F) := StableHlo.after hostOps20_1 (V39 m outs c)

abbrev V41 (c : Dev nD) : Valuation τ sig (Elt F) := StableHlo.after hostOps20_2 (V40 m outs c)

abbrev V42 (c : Dev nD) : Valuation τ sig (Elt F) := StableHlo.after hostOps20_3 (V41 m outs c)

abbrev V43 (c : Dev nD) : Valuation τ sig (Elt F) := StableHlo.after hostOps20_4 (V42 m outs c)

abbrev V44 (c : Dev nD) : Valuation τ sig (Elt F) := Function.update (V43 m outs c) main_v175 (outs 44 main_v175 c)

abbrev V45 (c : Dev nD) : Valuation τ sig (Elt F) := StableHlo.after hostOps21 (V44 m outs c)

abbrev V46 (c : Dev nD) : Valuation τ sig (Elt F) := Function.update (V45 m outs c) main_v178 (outs 46 main_v178 c)

abbrev V47 (c : Dev nD) : Valuation τ sig (Elt F) := StableHlo.after hostOps22 (V46 m outs c)

theorem hostOps0_fresh : (hostOps0 : List (HloOp τ sig (Elt F))).Forall fun op => op.fresh = ∅ := by
  simp only [List.Forall]; repeat' constructor

abbrev hostOps0_W : List (Ref sig .tc) := [main_v0, main_v1, main_v2, main_v3, main_v4, main_v5, main_v6, main_cst, main_v7, main_v8, main_cst_0, main_v9, main_v10, main_v11, main_cst_1, main_v12, main_v13, main_v14, main_cst_2]
theorem hostOps0_writes : (hostOps0 : List (HloOp τ sig (Elt F))).Forall fun op => op.writes ⊆ (hostOps0_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_1_fresh : (hostOps0_1 : List (HloOp τ sig (Elt F))).Forall fun op => op.fresh = ∅ := by
  simp only [List.Forall]; repeat' constructor

abbrev hostOps0_1_W : List (Ref sig .tc) := [main_call0_v0, main_call0_v1, main_v15]
theorem hostOps0_1_writes : (hostOps0_1 : List (HloOp τ sig (Elt F))).Forall fun op => op.writes ⊆ (hostOps0_1_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_2_fresh : (hostOps0_2 : List (HloOp τ sig (Elt F))).Forall fun op => op.fresh = ∅ := by
  simp only [List.Forall]; repeat' constructor

abbrev hostOps0_2_W : List (Ref sig .tc) := [main_c, main_v16, main_v17, main_c_3, main_v18, main_v19, main_v20, main_v21, main_v22, main_v23, main_c_4, main_v24, main_v25, main_c_5, main_v26, main_v27, main_v28, main_v29, main_v30, main_v31]
theorem hostOps0_2_writes : (hostOps0_2 : List (HloOp τ sig (Elt F))).Forall fun op => op.writes ⊆ (hostOps0_2_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor

abbrev hostOps1_W : List (Ref sig .tc) := [main_c_6, main_v33, main_v34, main_c_7, main_v35, main_v36, main_v37, main_v38, main_v39, main_v40, main_v41, main_v42, main_v43, main_cst_8, main_v44, main_v45, main_v46, main_v47]
theorem hostOps1_writes : (hostOps1 : List (HloOp τ sig (Elt F))).Forall fun op => op.writes ⊆ (hostOps1_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor

abbrev hostOps2_W : List (Ref sig .tc) := [main_cst_9, main_v49, main_v50]
theorem hostOps2_writes : (hostOps2 : List (HloOp τ sig (Elt F))).Forall fun op => op.writes ⊆ (hostOps2_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor

abbrev hostOps3_W : List (Ref sig .tc) := [main_cst_10, main_v52, main_v53, main_cst_11, main_v54, main_v55, main_v56, main_v57, main_v58]
theorem hostOps3_writes : (hostOps3 : List (HloOp τ sig (Elt F))).Forall fun op => op.writes ⊆ (hostOps3_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_fresh : (hostOps5 : List (HloOp τ sig (Elt F))).Forall fun op => op.fresh = ∅ := by
  simp only [List.Forall]; repeat' constructor

abbrev hostOps5_W : List (Ref sig .tc) := [main_c_12, main_v61, main_v62, main_c_13, main_v63, main_v64, main_v65, main_v66, main_v67, main_v68, main_v69, main_v70, main_v71, main_cst_14, main_v72, main_v73, main_v74, main_v75]
theorem hostOps5_writes : (hostOps5 : List (HloOp τ sig (Elt F))).Forall fun op => op.writes ⊆ (hostOps5_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps6_fresh : (hostOps6 : List (HloOp τ sig (Elt F))).Forall fun op => op.fresh = ∅ := by
  simp only [List.Forall]; repeat' constructor

abbrev hostOps6_W : List (Ref sig .tc) := [main_cst_15, main_v77, main_v78]
theorem hostOps6_writes : (hostOps6 : List (HloOp τ sig (Elt F))).Forall fun op => op.writes ⊆ (hostOps6_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_fresh : (hostOps7 : List (HloOp τ sig (Elt F))).Forall fun op => op.fresh = ∅ := by
  simp only [List.Forall]; repeat' constructor

abbrev hostOps7_W : List (Ref sig .tc) := [main_cst_16, main_v80, main_v81, main_cst_17, main_v82, main_v83, main_v84, main_v85, main_v86]
theorem hostOps7_writes : (hostOps7 : List (HloOp τ sig (Elt F))).Forall fun op => op.writes ⊆ (hostOps7_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps9_fresh : (hostOps9 : List (HloOp τ sig (Elt F))).Forall fun op => op.fresh = ∅ := by
  simp only [List.Forall]; repeat' constructor

abbrev hostOps9_W : List (Ref sig .tc) := [main_c_18, main_v89, main_v90, main_c_19, main_v91, main_v92, main_v93, main_v94, main_v95, main_v96, main_v97, main_v98, main_v99, main_cst_20, main_v100, main_v101, main_v102, main_v103]
theorem hostOps9_writes : (hostOps9 : List (HloOp τ sig (Elt F))).Forall fun op => op.writes ⊆ (hostOps9_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps10_fresh : (hostOps10 : List (HloOp τ sig (Elt F))).Forall fun op => op.fresh = ∅ := by
  simp only [List.Forall]; repeat' constructor

abbrev hostOps10_W : List (Ref sig .tc) := [main_cst_21, main_v105, main_v106]
theorem hostOps10_writes : (hostOps10 : List (HloOp τ sig (Elt F))).Forall fun op => op.writes ⊆ (hostOps10_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps11_fresh : (hostOps11 : List (HloOp τ sig (Elt F))).Forall fun op => op.fresh = ∅ := by
  simp only [List.Forall]; repeat' constructor

abbrev hostOps11_W : List (Ref sig .tc) := [main_cst_22, main_v108, main_v109, main_cst_23, main_v110, main_v111, main_v112, main_v113, main_v114]
theorem hostOps11_writes : (hostOps11 : List (HloOp τ sig (Elt F))).Forall fun op => op.writes ⊆ (hostOps11_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps13_fresh : (hostOps13 : List (HloOp τ sig (Elt F))).Forall fun op => op.fresh = ∅ := by
  simp only [List.Forall]; repeat' constructor

abbrev hostOps13_W : List (Ref sig .tc) := [main_c_24, main_v117, main_v118, main_c_25, main_v119, main_v120, main_v121, main_v122, main_v123, main_v124, main_v125, main_v126, main_v127, main_cst_26, main_v128, main_v129, main_v130, main_v131]
theorem hostOps13_writes : (hostOps13 : List (HloOp τ sig (Elt F))).Forall fun op => op.writes ⊆ (hostOps13_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps14_fresh : (hostOps14 : List (HloOp τ sig (Elt F))).Forall fun op => op.fresh = ∅ := by
  simp only [List.Forall]; repeat' constructor

abbrev hostOps14_W : List (Ref sig .tc) := [main_cst_27, main_v133, main_v134]
theorem hostOps14_writes : (hostOps14 : List (HloOp τ sig (Elt F))).Forall fun op => op.writes ⊆ (hostOps14_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps15_fresh : (hostOps15 : List (HloOp τ sig (Elt F))).Forall fun op => op.fresh = ∅ := by
  simp only [List.Forall]; repeat' constructor

abbrev hostOps15_W : List (Ref sig .tc) := [main_cst_28, main_v136, main_v137, main_cst_29, main_v138, main_v139, main_v140, main_v141, main_v142]
theorem hostOps15_writes : (hostOps15 : List (HloOp τ sig (Elt F))).Forall fun op => op.writes ⊆ (hostOps15_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps17_fresh : (hostOps17 : List (HloOp τ sig (Elt F))).Forall fun op => op.fresh = ∅ := by
  simp only [List.Forall]; repeat' constructor

abbrev hostOps17_W : List (Ref sig .tc) := [main_c_30, main_v145, main_v146, main_c_31, main_v147, main_v148, main_v149, main_v150, main_v151, main_v152, main_v153, main_v154, main_v155, main_cst_32, main_v156, main_v157, main_v158, main_v159]
theorem hostOps17_writes : (hostOps17 : List (HloOp τ sig (Elt F))).Forall fun op => op.writes ⊆ (hostOps17_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps18_fresh : (hostOps18 : List (HloOp τ sig (Elt F))).Forall fun op => op.fresh = ∅ := by
  simp only [List.Forall]; repeat' constructor

abbrev hostOps18_W : List (Ref sig .tc) := [main_cst_33, main_v161, main_v162]
theorem hostOps18_writes : (hostOps18 : List (HloOp τ sig (Elt F))).Forall fun op => op.writes ⊆ (hostOps18_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps19_fresh : (hostOps19 : List (HloOp τ sig (Elt F))).Forall fun op => op.fresh = ∅ := by
  simp only [List.Forall]; repeat' constructor

abbrev hostOps19_W : List (Ref sig .tc) := [main_cst_34, main_v164, main_v165, main_cst_35, main_v166, main_v167, main_v168, main_v169, main_v170]
theorem hostOps19_writes : (hostOps19 : List (HloOp τ sig (Elt F))).Forall fun op => op.writes ⊆ (hostOps19_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps20_fresh : (hostOps20 : List (HloOp τ sig (Elt F))).Forall fun op => op.fresh = ∅ := by
  simp only [List.Forall]; repeat' constructor

abbrev hostOps20_W : List (Ref sig .tc) := [main_c_36]
theorem hostOps20_writes : (hostOps20 : List (HloOp τ sig (Elt F))).Forall fun op => op.writes ⊆ (hostOps20_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps20_1_fresh : (hostOps20_1 : List (HloOp τ sig (Elt F))).Forall fun op => op.fresh = ∅ := by
  simp only [List.Forall]; repeat' constructor

abbrev hostOps20_1_W : List (Ref sig .tc) := [main_call1_v0, main_v172]
theorem hostOps20_1_writes : (hostOps20_1 : List (HloOp τ sig (Elt F))).Forall fun op => op.writes ⊆ (hostOps20_1_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps20_2_fresh : (hostOps20_2 : List (HloOp τ sig (Elt F))).Forall fun op => op.fresh = ∅ := by
  simp only [List.Forall]; repeat' constructor

abbrev hostOps20_2_W : List (Ref sig .tc) := [main_c_37]
theorem hostOps20_2_writes : (hostOps20_2 : List (HloOp τ sig (Elt F))).Forall fun op => op.writes ⊆ (hostOps20_2_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps20_3_fresh : (hostOps20_3 : List (HloOp τ sig (Elt F))).Forall fun op => op.fresh = ∅ := by
  simp only [List.Forall]; repeat' constructor

abbrev hostOps20_3_W : List (Ref sig .tc) := [main_call2_v0, main_v173]
theorem hostOps20_3_writes : (hostOps20_3 : List (HloOp τ sig (Elt F))).Forall fun op => op.writes ⊆ (hostOps20_3_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps20_4_fresh : (hostOps20_4 : List (HloOp τ sig (Elt F))).Forall fun op => op.fresh = ∅ := by
  simp only [List.Forall]; repeat' constructor

abbrev hostOps20_4_W : List (Ref sig .tc) := [main_v174]
theorem hostOps20_4_writes : (hostOps20_4 : List (HloOp τ sig (Elt F))).Forall fun op => op.writes ⊆ (hostOps20_4_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps21_fresh : (hostOps21 : List (HloOp τ sig (Elt F))).Forall fun op => op.fresh = ∅ := by
  simp only [List.Forall]; repeat' constructor

abbrev hostOps21_W : List (Ref sig .tc) := [main_v176, main_v177]
theorem hostOps21_writes : (hostOps21 : List (HloOp τ sig (Elt F))).Forall fun op => op.writes ⊆ (hostOps21_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps22_fresh : (hostOps22 : List (HloOp τ sig (Elt F))).Forall fun op => op.fresh = ∅ := by
  simp only [List.Forall]; repeat' constructor

abbrev hostOps22_W : List (Ref sig .tc) := [main_v179]
theorem hostOps22_writes : (hostOps22 : List (HloOp τ sig (Elt F))).Forall fun op => op.writes ⊆ (hostOps22_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ hostOps0_1_W) : V2 m c r = V1 m c r :=
  StableHlo.after_of_writes_sub hostOps0_1 _ hostOps0_1_writes h
theorem V3_of (c : Dev nD) (r : Ref sig .tc) (h : r ∉ hostOps0_2_W) : V3 m c r = V2 m c r :=
  StableHlo.after_of_writes_sub hostOps0_2 _ hostOps0_2_writes h
theorem V4_of (c : Dev nD) (r : Ref sig .tc) (h : r ∉ ([main_v32] : List (Ref sig .tc))) : V4 m outs c r = V3 m c r := by
  simp only [V4, Function.update_of_ne (StableHlo.devRef_ne_of_ne (List.ne_of_not_mem_cons h) : (Proc.devRef .tc r : DevRef τ sig) ≠ Proc.devRef .tc main_v32)]
theorem V5_of (c : Dev nD) (r : Ref sig .tc) (h : r ∉ hostOps1_W) : V5 m outs c r = V4 m outs c r :=
  StableHlo.after_of_writes_sub hostOps1 _ hostOps1_writes h
theorem V6_of (c : Dev nD) (r : Ref sig .tc) (h : r ∉ ([main_v48_0, main_v48_1] : List (Ref sig .tc))) : V6 m outs c r = V5 m outs c r := by
  simp only [V6, Function.update_of_ne (StableHlo.devRef_ne_of_ne (List.ne_of_not_mem_cons h) : (Proc.devRef .tc r : DevRef τ sig) ≠ Proc.devRef .tc main_v48_0), Function.update_of_ne (StableHlo.devRef_ne_of_ne (List.ne_of_not_mem_cons (List.not_mem_of_not_mem_cons h)) : (Proc.devRef .tc r : DevRef τ sig) ≠ Proc.devRef .tc main_v48_1)]
theorem V7_of (c : Dev nD) (r : Ref sig .tc) (h : r ∉ hostOps2_W) : V7 m outs c r = V6 m outs c r :=
  StableHlo.after_of_writes_sub hostOps2 _ hostOps2_writes h
theorem V8_of (c : Dev nD) (r : Ref sig .tc) (h : r ∉ ([main_v51] : List (Ref sig .tc))) : V8 m outs c r = V7 m outs c r := by
  simp only [V8, Function.update_of_ne (StableHlo.devRef_ne_of_ne (List.ne_of_not_mem_cons h) : (Proc.devRef .tc r : DevRef τ sig) ≠ Proc.devRef .tc main_v51)]
theorem V9_of (c : Dev nD) (r : Ref sig .tc) (h : r ∉ hostOps3_W) : V9 m outs c r = V8 m outs c r :=
  StableHlo.after_of_writes_sub hostOps3 _ hostOps3_writes h
theorem V10_of (c : Dev nD) (r : Ref sig .tc) (h : r ∉ ([main_v59] : List (Ref sig .tc))) : V10 m outs c r = V9 m outs c r := by
  simp only [V10, Function.update_of_ne (StableHlo.devRef_ne_of_ne (List.ne_of_not_mem_cons h) : (Proc.devRef .tc r : DevRef τ sig) ≠ Proc.devRef .tc main_v59)]
theorem V11_of (c : Dev nD) (r : Ref sig .tc) (h : r ∉ ([main_v60] : List (Ref sig .tc))) : V11 m outs c r = V10 m outs c r := by
  simp only [V11, Function.update_of_ne (StableHlo.devRef_ne_of_ne (List.ne_of_not_mem_cons h) : (Proc.devRef .tc r : DevRef τ sig) ≠ Proc.devRef .tc main_v60)]
theorem V12_of (c : Dev nD) (r : Ref sig .tc) (h : r ∉ hostOps5_W) : V12 m outs c r = V11 m outs c r :=
  StableHlo.after_of_writes_sub hostOps5 _ hostOps5_writes h
theorem V13_of (c : Dev nD) (r : Ref sig .tc) (h : r ∉ ([main_v76_0, main_v76_1] : List (Ref sig .tc))) : V13 m outs c r = V12 m outs c r := by
  simp only [V13, Function.update_of_ne (StableHlo.devRef_ne_of_ne (List.ne_of_not_mem_cons h) : (Proc.devRef .tc r : DevRef τ sig) ≠ Proc.devRef .tc main_v76_0), Function.update_of_ne (StableHlo.devRef_ne_of_ne (List.ne_of_not_mem_cons (List.not_mem_of_not_mem_cons h)) : (Proc.devRef .tc r : DevRef τ sig) ≠ Proc.devRef .tc main_v76_1)]
theorem V14_of (c : Dev nD) (r : Ref sig .tc) (h : r ∉ hostOps6_W) : V14 m outs c r = V13 m outs c r :=
  StableHlo.after_of_writes_sub hostOps6 _ hostOps6_writes h
theorem V15_of (c : Dev nD) (r : Ref sig .tc) (h : r ∉ ([main_v79] : List (Ref sig .tc))) : V15 m outs c r = V14 m outs c r := by
  simp only [V15, Function.update_of_ne (StableHlo.devRef_ne_of_ne (List.ne_of_not_mem_cons h) : (Proc.devRef .tc r : DevRef τ sig) ≠ Proc.devRef .tc main_v79)]
theorem V16_of (c : Dev nD) (r : Ref sig .tc) (h : r ∉ hostOps7_W) : V16 m outs c r = V15 m outs c r :=
  StableHlo.after_of_writes_sub hostOps7 _ hostOps7_writes h
theorem V17_of (c : Dev nD) (r : Ref sig .tc) (h : r ∉ ([main_v87] : List (Ref sig .tc))) : V17 m outs c r = V16 m outs c r := by
  simp only [V17, Function.update_of_ne (StableHlo.devRef_ne_of_ne (List.ne_of_not_mem_cons h) : (Proc.devRef .tc r : DevRef τ sig) ≠ Proc.devRef .tc main_v87)]
theorem V18_of (c : Dev nD) (r : Ref sig .tc) (h : r ∉ ([main_v88] : List (Ref sig .tc))) : V18 m outs c r = V17 m outs c r := by
  simp only [V18, Function.update_of_ne (StableHlo.devRef_ne_of_ne (List.ne_of_not_mem_cons h) : (Proc.devRef .tc r : DevRef τ sig) ≠ Proc.devRef .tc main_v88)]
theorem V19_of (c : Dev nD) (r : Ref sig .tc) (h : r ∉ hostOps9_W) : V19 m outs c r = V18 m outs c r :=
  StableHlo.after_of_writes_sub hostOps9 _ hostOps9_writes h
theorem V20_of (c : Dev nD) (r : Ref sig .tc) (h : r ∉ ([main_v104_0, main_v104_1] : List (Ref sig .tc))) : V20 m outs c r = V19 m outs c r := by
  simp only [V20, Function.update_of_ne (StableHlo.devRef_ne_of_ne (List.ne_of_not_mem_cons h) : (Proc.devRef .tc r : DevRef τ sig) ≠ Proc.devRef .tc main_v104_0), Function.update_of_ne (StableHlo.devRef_ne_of_ne (List.ne_of_not_mem_cons (List.not_mem_of_not_mem_cons h)) : (Proc.devRef .tc r : DevRef τ sig) ≠ Proc.devRef .tc main_v104_1)]
theorem V21_of (c : Dev nD) (r : Ref sig .tc) (h : r ∉ hostOps10_W) : V21 m outs c r = V20 m outs c r :=
  StableHlo.after_of_writes_sub hostOps10 _ hostOps10_writes h
theorem V22_of (c : Dev nD) (r : Ref sig .tc) (h : r ∉ ([main_v107] : List (Ref sig .tc))) : V22 m outs c r = V21 m outs c r := by
  simp only [V22, Function.update_of_ne (StableHlo.devRef_ne_of_ne (List.ne_of_not_mem_cons h) : (Proc.devRef .tc r : DevRef τ sig) ≠ Proc.devRef .tc main_v107)]
theorem V23_of (c : Dev nD) (r : Ref sig .tc) (h : r ∉ hostOps11_W) : V23 m outs c r = V22 m outs c r :=
  StableHlo.after_of_writes_sub hostOps11 _ hostOps11_writes h
theorem V24_of (c : Dev nD) (r : Ref sig .tc) (h : r ∉ ([main_v115] : List (Ref sig .tc))) : V24 m outs c r = V23 m outs c r := by
  simp only [V24, Function.update_of_ne (StableHlo.devRef_ne_of_ne (List.ne_of_not_mem_cons h) : (Proc.devRef .tc r : DevRef τ sig) ≠ Proc.devRef .tc main_v115)]
theorem V25_of (c : Dev nD) (r : Ref sig .tc) (h : r ∉ ([main_v116] : List (Ref sig .tc))) : V25 m outs c r = V24 m outs c r := by
  simp only [V25, Function.update_of_ne (StableHlo.devRef_ne_of_ne (List.ne_of_not_mem_cons h) : (Proc.devRef .tc r : DevRef τ sig) ≠ Proc.devRef .tc main_v116)]
theorem V26_of (c : Dev nD) (r : Ref sig .tc) (h : r ∉ hostOps13_W) : V26 m outs c r = V25 m outs c r :=
  StableHlo.after_of_writes_sub hostOps13 _ hostOps13_writes h
theorem V27_of (c : Dev nD) (r : Ref sig .tc) (h : r ∉ ([main_v132_0, main_v132_1] : List (Ref sig .tc))) : V27 m outs c r = V26 m outs c r := by
  simp only [V27, Function.update_of_ne (StableHlo.devRef_ne_of_ne (List.ne_of_not_mem_cons h) : (Proc.devRef .tc r : DevRef τ sig) ≠ Proc.devRef .tc main_v132_0), Function.update_of_ne (StableHlo.devRef_ne_of_ne (List.ne_of_not_mem_cons (List.not_mem_of_not_mem_cons h)) : (Proc.devRef .tc r : DevRef τ sig) ≠ Proc.devRef .tc main_v132_1)]
theorem V28_of (c : Dev nD) (r : Ref sig .tc) (h : r ∉ hostOps14_W) : V28 m outs c r = V27 m outs c r :=
  StableHlo.after_of_writes_sub hostOps14 _ hostOps14_writes h
theorem V29_of (c : Dev nD) (r : Ref sig .tc) (h : r ∉ ([main_v135] : List (Ref sig .tc))) : V29 m outs c r = V28 m outs c r := by
  simp only [V29, Function.update_of_ne (StableHlo.devRef_ne_of_ne (List.ne_of_not_mem_cons h) : (Proc.devRef .tc r : DevRef τ sig) ≠ Proc.devRef .tc main_v135)]
theorem V30_of (c : Dev nD) (r : Ref sig .tc) (h : r ∉ hostOps15_W) : V30 m outs c r = V29 m outs c r :=
  StableHlo.after_of_writes_sub hostOps15 _ hostOps15_writes h
theorem V31_of (c : Dev nD) (r : Ref sig .tc) (h : r ∉ ([main_v143] : List (Ref sig .tc))) : V31 m outs c r = V30 m outs c r := by
  simp only [V31, Function.update_of_ne (StableHlo.devRef_ne_of_ne (List.ne_of_not_mem_cons h) : (Proc.devRef .tc r : DevRef τ sig) ≠ Proc.devRef .tc main_v143)]
theorem V32_of (c : Dev nD) (r : Ref sig .tc) (h : r ∉ ([main_v144] : List (Ref sig .tc))) : V32 m outs c r = V31 m outs c r := by
  simp only [V32, Function.update_of_ne (StableHlo.devRef_ne_of_ne (List.ne_of_not_mem_cons h) : (Proc.devRef .tc r : DevRef τ sig) ≠ Proc.devRef .tc main_v144)]
theorem V33_of (c : Dev nD) (r : Ref sig .tc) (h : r ∉ hostOps17_W) : V33 m outs c r = V32 m outs c r :=
  StableHlo.after_of_writes_sub hostOps17 _ hostOps17_writes h
theorem V34_of (c : Dev nD) (r : Ref sig .tc) (h : r ∉ ([main_v160_0, main_v160_1] : List (Ref sig .tc))) : V34 m outs c r = V33 m outs c r := by
  simp only [V34, Function.update_of_ne (StableHlo.devRef_ne_of_ne (List.ne_of_not_mem_cons h) : (Proc.devRef .tc r : DevRef τ sig) ≠ Proc.devRef .tc main_v160_0), Function.update_of_ne (StableHlo.devRef_ne_of_ne (List.ne_of_not_mem_cons (List.not_mem_of_not_mem_cons h)) : (Proc.devRef .tc r : DevRef τ sig) ≠ Proc.devRef .tc main_v160_1)]
theorem V35_of (c : Dev nD) (r : Ref sig .tc) (h : r ∉ hostOps18_W) : V35 m outs c r = V34 m outs c r :=
  StableHlo.after_of_writes_sub hostOps18 _ hostOps18_writes h
theorem V36_of (c : Dev nD) (r : Ref sig .tc) (h : r ∉ ([main_v163] : List (Ref sig .tc))) : V36 m outs c r = V35 m outs c r := by
  simp only [V36, Function.update_of_ne (StableHlo.devRef_ne_of_ne (List.ne_of_not_mem_cons h) : (Proc.devRef .tc r : DevRef τ sig) ≠ Proc.devRef .tc main_v163)]
theorem V37_of (c : Dev nD) (r : Ref sig .tc) (h : r ∉ hostOps19_W) : V37 m outs c r = V36 m outs c r :=
  StableHlo.after_of_writes_sub hostOps19 _ hostOps19_writes h
theorem V38_of (c : Dev nD) (r : Ref sig .tc) (h : r ∉ ([main_v171] : List (Ref sig .tc))) : V38 m outs c r = V37 m outs c r := by
  simp only [V38, Function.update_of_ne (StableHlo.devRef_ne_of_ne (List.ne_of_not_mem_cons h) : (Proc.devRef .tc r : DevRef τ sig) ≠ Proc.devRef .tc main_v171)]
theorem V39_of (c : Dev nD) (r : Ref sig .tc) (h : r ∉ hostOps20_W) : V39 m outs c r = V38 m outs c r :=
  StableHlo.after_of_writes_sub hostOps20 _ hostOps20_writes h
theorem V40_of (c : Dev nD) (r : Ref sig .tc) (h : r ∉ hostOps20_1_W) : V40 m outs c r = V39 m outs c r :=
  StableHlo.after_of_writes_sub hostOps20_1 _ hostOps20_1_writes h
theorem V41_of (c : Dev nD) (r : Ref sig .tc) (h : r ∉ hostOps20_2_W) : V41 m outs c r = V40 m outs c r :=
  StableHlo.after_of_writes_sub hostOps20_2 _ hostOps20_2_writes h
theorem V42_of (c : Dev nD) (r : Ref sig .tc) (h : r ∉ hostOps20_3_W) : V42 m outs c r = V41 m outs c r :=
  StableHlo.after_of_writes_sub hostOps20_3 _ hostOps20_3_writes h
theorem V43_of (c : Dev nD) (r : Ref sig .tc) (h : r ∉ hostOps20_4_W) : V43 m outs c r = V42 m outs c r :=
  StableHlo.after_of_writes_sub hostOps20_4 _ hostOps20_4_writes h
theorem V44_of (c : Dev nD) (r : Ref sig .tc) (h : r ∉ ([main_v175] : List (Ref sig .tc))) : V44 m outs c r = V43 m outs c r := by
  simp only [V44, Function.update_of_ne (StableHlo.devRef_ne_of_ne (List.ne_of_not_mem_cons h) : (Proc.devRef .tc r : DevRef τ sig) ≠ Proc.devRef .tc main_v175)]
theorem V45_of (c : Dev nD) (r : Ref sig .tc) (h : r ∉ hostOps21_W) : V45 m outs c r = V44 m outs c r :=
  StableHlo.after_of_writes_sub hostOps21 _ hostOps21_writes h
theorem V46_of (c : Dev nD) (r : Ref sig .tc) (h : r ∉ ([main_v178] : List (Ref sig .tc))) : V46 m outs c r = V45 m outs c r := by
  simp only [V46, Function.update_of_ne (StableHlo.devRef_ne_of_ne (List.ne_of_not_mem_cons h) : (Proc.devRef .tc r : DevRef τ sig) ≠ Proc.devRef .tc main_v178)]
theorem V47_of (c : Dev nD) (r : Ref sig .tc) (h : r ∉ hostOps22_W) : V47 m outs c r = V46 m outs c r :=
  StableHlo.after_of_writes_sub hostOps22 _ hostOps22_writes h

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28]
/-- No item of @main writes an argument: it reaches the end as launched. -/
theorem V47_arg (c : Dev nD) (r : Ref sig .tc) (hr : r ∈ args) : V47 m outs c r = m ((c : Thread nD τ).loc r) :=
  have hn : ∀ W : List (Ref sig .tc), (∀ a ∈ args, a ∉ W) → r ∉ W := fun _ hW => hW r hr
  (V47_of m outs c r (hn _ (by decide))).trans <| (V46_of m outs c r (hn _ (by decide))).trans <| (V45_of m outs c r (hn _ (by decide))).trans <| (V44_of m outs c r (hn _ (by decide))).trans <| (V43_of m outs c r (hn _ (by decide))).trans <| (V42_of m outs c r (hn _ (by decide))).trans <| (V41_of m outs c r (hn _ (by decide))).trans <| (V40_of m outs c r (hn _ (by decide))).trans <| (V39_of m outs c r (hn _ (by decide))).trans <| (V38_of m outs c r (hn _ (by decide))).trans <| (V37_of m outs c r (hn _ (by decide))).trans <| (V36_of m outs c r (hn _ (by decide))).trans <| (V35_of m outs c r (hn _ (by decide))).trans <| (V34_of m outs c r (hn _ (by decide))).trans <| (V33_of m outs c r (hn _ (by decide))).trans <| (V32_of m outs c r (hn _ (by decide))).trans <| (V31_of m outs c r (hn _ (by decide))).trans <| (V30_of m outs c r (hn _ (by decide))).trans <| (V29_of m outs c r (hn _ (by decide))).trans <| (V28_of m outs c r (hn _ (by decide))).trans <| (V27_of m outs c r (hn _ (by decide))).trans <| (V26_of m outs c r (hn _ (by decide))).trans <| (V25_of m outs c r (hn _ (by decide))).trans <| (V24_of m outs c r (hn _ (by decide))).trans <| (V23_of m outs c r (hn _ (by decide))).trans <| (V22_of m outs c r (hn _ (by decide))).trans <| (V21_of m outs c r (hn _ (by decide))).trans <| (V20_of m outs c r (hn _ (by decide))).trans <| (V19_of m outs c r (hn _ (by decide))).trans <| (V18_of m outs c r (hn _ (by decide))).trans <| (V17_of m outs c r (hn _ (by decide))).trans <| (V16_of m outs c r (hn _ (by decide))).trans <| (V15_of m outs c r (hn _ (by decide))).trans <| (V14_of m outs c r (hn _ (by decide))).trans <| (V13_of m outs c r (hn _ (by decide))).trans <| (V12_of m outs c r (hn _ (by decide))).trans <| (V11_of m outs c r (hn _ (by decide))).trans <| (V10_of m outs c r (hn _ (by decide))).trans <| (V9_of m outs c r (hn _ (by decide))).trans <| (V8_of m outs c r (hn _ (by decide))).trans <| (V7_of m outs c r (hn _ (by decide))).trans <| (V6_of m outs c r (hn _ (by decide))).trans <| (V5_of m outs c r (hn _ (by decide))).trans <| (V4_of m outs c r (hn _ (by decide))).trans <| (V3_of m c r (hn _ (by decide))).trans <| (V2_of m c r (hn _ (by decide))).trans <| (V1_of m c r (hn _ (by decide))).trans rfl

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 23 → Dev nD → sProp (MT nD τ sig Ix (Elt F) ℕ U Lvl))

/-- A host stretch as a segment: its operations run over the unscoped buffers held whole at `V`, the rest riding along. -/
def hseg (ops : List (HloOp τ sig (Elt F))) (hsub : ops.Forall fun op => op.bufs ⊆ StableHlo.tcRefs τ sig)
    (hfresh : ops.Forall fun op => op.fresh = ∅) (V : Dev nD → Valuation τ sig (Elt F)) (R : Dev nD → sProp (MT nD τ sig Ix (Elt F) ℕ U Lvl)) :
    HostSeg (Ix := Ix) (Name := ℕ) (U := U) (Lvl := Lvl) (pcfgs (F := F)) defs₀ 𝒱₀ L lv :=
  HostSeg.ofOps _ _ _ _ _ (Pipeline.ucRefs τ sig) ops (fun op h => Pipeline.sub_ucRefs op (List.forall_iff_forall_mem.mp hsub op h))
    (List.forall_iff_forall_mem.mp hfresh) V R
def seg0 := hseg 𝒱₀ L lv hostOps0 hostOps0_sub hostOps0_fresh (V0 m) (E 0)

def seg1 := hseg 𝒱₀ L lv hostOps0_1 hostOps0_1_sub hostOps0_1_fresh (V1 m) (E 0)

def seg2 := hseg 𝒱₀ L lv hostOps0_2 hostOps0_2_sub hostOps0_2_fresh (V2 m) (E 0)

def seg4 := hseg 𝒱₀ L lv hostOps1 hostOps1_sub hostOps1_fresh (V4 m outs) (E 1)

def seg6 := hseg 𝒱₀ L lv hostOps2 hostOps2_sub hostOps2_fresh (V6 m outs) (E 2)

def seg8 := hseg 𝒱₀ L lv hostOps3 hostOps3_sub hostOps3_fresh (V8 m outs) (E 3)

def seg11 := hseg 𝒱₀ L lv hostOps5 hostOps5_sub hostOps5_fresh (V11 m outs) (E 5)

def seg13 := hseg 𝒱₀ L lv hostOps6 hostOps6_sub hostOps6_fresh (V13 m outs) (E 6)

def seg15 := hseg 𝒱₀ L lv hostOps7 hostOps7_sub hostOps7_fresh (V15 m outs) (E 7)

def seg18 := hseg 𝒱₀ L lv hostOps9 hostOps9_sub hostOps9_fresh (V18 m outs) (E 9)

def seg20 := hseg 𝒱₀ L lv hostOps10 hostOps10_sub hostOps10_fresh (V20 m outs) (E 10)

def seg22 := hseg 𝒱₀ L lv hostOps11 hostOps11_sub hostOps11_fresh (V22 m outs) (E 11)

def seg25 := hseg 𝒱₀ L lv hostOps13 hostOps13_sub hostOps13_fresh (V25 m outs) (E 13)

def seg27 := hseg 𝒱₀ L lv hostOps14 hostOps14_sub hostOps14_fresh (V27 m outs) (E 14)

def seg29 := hseg 𝒱₀ L lv hostOps15 hostOps15_sub hostOps15_fresh (V29 m outs) (E 15)

def seg32 := hseg 𝒱₀ L lv hostOps17 hostOps17_sub hostOps17_fresh (V32 m outs) (E 17)

def seg34 := hseg 𝒱₀ L lv hostOps18 hostOps18_sub hostOps18_fresh (V34 m outs) (E 18)

def seg36 := hseg 𝒱₀ L lv hostOps19 hostOps19_sub hostOps19_fresh (V36 m outs) (E 19)

def seg38 := hseg 𝒱₀ L lv hostOps20 hostOps20_sub hostOps20_fresh (V38 m outs) (E 20)

def seg39 := hseg 𝒱₀ L lv hostOps20_1 hostOps20_1_sub hostOps20_1_fresh (V39 m outs) (E 20)

def seg40 := hseg 𝒱₀ L lv hostOps20_2 hostOps20_2_sub hostOps20_2_fresh (V40 m outs) (E 20)

def seg41 := hseg 𝒱₀ L lv hostOps20_3 hostOps20_3_sub hostOps20_3_fresh (V41 m outs) (E 20)

def seg42 := hseg 𝒱₀ L lv hostOps20_4 hostOps20_4_sub hostOps20_4_fresh (V42 m outs) (E 20)

def seg44 := hseg 𝒱₀ L lv hostOps21 hostOps21_sub hostOps21_fresh (V44 m outs) (E 21)

def seg46 := hseg 𝒱₀ L lv hostOps22 hostOps22_sub hostOps22_fresh (V46 m outs) (E 22)

end Segs

section

variable {Ix : Type} [DecidableEq Ix] {U : Type} [URA U] {Lvl : Type} [Preorder Lvl]

abbrev adm : (p : Fin 22) → (pcfgs (F := F) p).Adm := fun p => (cfgs p).toPCfg_adm

abbrev segs (𝒱₀ : Variants) (L : GSem nD τ sig → Finset Ix) (lv : GSem nD τ sig → Ix → Lvl) (E : Fin 23 → Dev nD → sProp (MT nD τ sig Ix (Elt F) ℕ U Lvl)) (ι : Ix)
    (pdats : (p : Fin 22) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (R5 : RegionSeg (pcfgs (F := F)) adm pdats ι defs₀ 𝒱₀ L lv 5) (R6 : RegionSeg (pcfgs (F := F)) adm pdats ι defs₀ 𝒱₀ L lv 6) (R7 : RegionSeg (pcfgs (F := F)) adm pdats ι defs₀ 𝒱₀ L lv 7) (R8 : RegionSeg (pcfgs (F := F)) adm pdats ι defs₀ 𝒱₀ L lv 8) (R9 : RegionSeg (pcfgs (F := F)) adm pdats ι defs₀ 𝒱₀ L lv 9) (R10 : RegionSeg (pcfgs (F := F)) adm pdats ι defs₀ 𝒱₀ L lv 10) (R11 : RegionSeg (pcfgs (F := F)) adm pdats ι defs₀ 𝒱₀ L lv 11) (R12 : RegionSeg (pcfgs (F := F)) adm pdats ι defs₀ 𝒱₀ L lv 12) (R13 : RegionSeg (pcfgs (F := F)) adm pdats ι defs₀ 𝒱₀ L lv 13) (R14 : RegionSeg (pcfgs (F := F)) adm pdats ι defs₀ 𝒱₀ L lv 14) (R15 : RegionSeg (pcfgs (F := F)) adm pdats ι defs₀ 𝒱₀ L lv 15) (R16 : RegionSeg (pcfgs (F := F)) adm pdats ι defs₀ 𝒱₀ L lv 16) (R17 : RegionSeg (pcfgs (F := F)) adm pdats ι defs₀ 𝒱₀ L lv 17) (R18 : RegionSeg (pcfgs (F := F)) adm pdats ι defs₀ 𝒱₀ L lv 18) (R19 : RegionSeg (pcfgs (F := F)) adm pdats ι defs₀ 𝒱₀ L lv 19) (R20 : RegionSeg (pcfgs (F := F)) adm pdats ι defs₀ 𝒱₀ L lv 20) (R21 : RegionSeg (pcfgs (F := F)) adm pdats ι defs₀ 𝒱₀ L lv 21) (c : Dev nD) :
    List (Seg (pcfgs (F := F)) adm pdats ι defs₀ 𝒱₀ L lv) :=
  [.host (seg0 m 𝒱₀ L lv E), .host (seg1 m 𝒱₀ L lv E), .host (seg2 m 𝒱₀ L lv E), .region R0, .host (seg4 m outs 𝒱₀ L lv E), .region R1, .host (seg6 m outs 𝒱₀ L lv E), .region R2, .host (seg8 m outs 𝒱₀ L lv E), .region R3, .region R4, .host (seg11 m outs 𝒱₀ L lv E), .region R5, .host (seg13 m outs 𝒱₀ L lv E), .region R6, .host (seg15 m outs 𝒱₀ L lv E), .region R7, .region R8, .host (seg18 m outs 𝒱₀ L lv E), .region R9, .host (seg20 m outs 𝒱₀ L lv E), .region R10, .host (seg22 m outs 𝒱₀ L lv E), .region R11, .region R12, .host (seg25 m outs 𝒱₀ L lv E), .region R13, .host (seg27 m outs 𝒱₀ L lv E), .region R14, .host (seg29 m outs 𝒱₀ L lv E), .region R15, .region R16, .host (seg32 m outs 𝒱₀ L lv E), .region R17, .host (seg34 m outs 𝒱₀ L lv E), .region R18, .host (seg36 m outs 𝒱₀ L lv E), .region R19, .host (seg38 m outs 𝒱₀ L lv E), .host (seg39 m outs 𝒱₀ L lv E), .host (seg40 m outs 𝒱₀ L lv E), .host (seg41 m outs 𝒱₀ L lv E), .host (seg42 m outs 𝒱₀ L lv E), .region R20, .host (seg44 m outs 𝒱₀ L lv E), .region R21, .host (seg46 m outs 𝒱₀ L lv E)]

end

end Cert.KernelIdeal.GenP

end
-- ==== Proof.KI.RunCond.lean ====
import proofs.«411449_j51797305589934_2_alg».proof.Proof.KI.RegionsP

set_option maxRecDepth 2092

noncomputable section

namespace Cert.KernelIdeal.GenP

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ) (outs : Outs (F := F))

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 22) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 23 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE22 : ∀ c : Dev nD, E 22 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V10 m outs c) ∗ E 4 c) ⊢ R4.pre c)
    (hpost4 : ∀ c : Dev nD, R4.post c ⊢ iprop(StableHlo.held (c : Thread nD τ) (Pipeline.ucRefs τ sig) (V11 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V12 m outs c) ∗ E 5 c) ⊢ R5.pre c)
    (hpost5 : ∀ c : Dev nD, R5.post c ⊢ iprop(StableHlo.held (c : Thread nD τ) (Pipeline.ucRefs τ sig) (V13 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V14 m outs c) ∗ E 6 c) ⊢ R6.pre c)
    (hpost6 : ∀ c : Dev nD, R6.post c ⊢ iprop(StableHlo.held (c : Thread nD τ) (Pipeline.ucRefs τ sig) (V15 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V16 m outs c) ∗ E 7 c) ⊢ R7.pre c)
    (hpost7 : ∀ c : Dev nD, R7.post c ⊢ iprop(StableHlo.held (c : Thread nD τ) (Pipeline.ucRefs τ sig) (V17 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V21 m outs c) ∗ E 10 c) ⊢ R10.pre c)
    (hpost10 : ∀ c : Dev nD, R10.post c ⊢ iprop(StableHlo.held (c : Thread nD τ) (Pipeline.ucRefs τ sig) (V22 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V23 m outs c) ∗ E 11 c) ⊢ R11.pre c)
    (hpost11 : ∀ c : Dev nD, R11.post c ⊢ iprop(StableHlo.held (c : Thread nD τ) (Pipeline.ucRefs τ sig) (V24 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V24 m outs c) ∗ E 12 c) ⊢ R12.pre c)
    (hpost12 : ∀ c : Dev nD, R12.post c ⊢ iprop(StableHlo.held (c : Thread nD τ) (Pipeline.ucRefs τ sig) (V25 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V26 m outs c) ∗ E 13 c) ⊢ R13.pre c)
    (hpost13 : ∀ c : Dev nD, R13.post c ⊢ iprop(StableHlo.held (c : Thread nD τ) (Pipeline.ucRefs τ sig) (V27 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V28 m outs c) ∗ E 14 c) ⊢ R14.pre c)
    (hpost14 : ∀ c : Dev nD, R14.post c ⊢ iprop(StableHlo.held (c : Thread nD τ) (Pipeline.ucRefs τ sig) (V29 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V30 m outs c) ∗ E 15 c) ⊢ R15.pre c)
    (hpost15 : ∀ c : Dev nD, R15.post c ⊢ iprop(StableHlo.held (c : Thread nD τ) (Pipeline.ucRefs τ sig) (V31 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V31 m outs c) ∗ E 16 c) ⊢ R16.pre c)
    (hpost16 : ∀ c : Dev nD, R16.post c ⊢ iprop(StableHlo.held (c : Thread nD τ) (Pipeline.ucRefs τ sig) (V32 m outs c) ∗ E 17 c))
    (R17 : RegionSeg (pcfgs (F := F)) adm pdats ι defs₀ 𝒱₀ L lv 17)
    (hpre17 : ∀ c : Dev nD, iprop(StableHlo.held (c : Thread nD τ) (Pipeline.ucRefs τ sig) (V33 m outs c) ∗ E 17 c) ⊢ R17.pre c)
    (hpost17 : ∀ c : Dev nD, R17.post c ⊢ iprop(StableHlo.held (c : Thread nD τ) (Pipeline.ucRefs τ sig) (V34 m outs c) ∗ E 18 c))
    (R18 : RegionSeg (pcfgs (F := F)) adm pdats ι defs₀ 𝒱₀ L lv 18)
    (hpre18 : ∀ c : Dev nD, iprop(StableHlo.held (c : Thread nD τ) (Pipeline.ucRefs τ sig) (V35 m outs c) ∗ E 18 c) ⊢ R18.pre c)
    (hpost18 : ∀ c : Dev nD, R18.post c ⊢ iprop(StableHlo.held (c : Thread nD τ) (Pipeline.ucRefs τ sig) (V36 m outs c) ∗ E 19 c))
    (R19 : RegionSeg (pcfgs (F := F)) adm pdats ι defs₀ 𝒱₀ L lv 19)
    (hpre19 : ∀ c : Dev nD, iprop(StableHlo.held (c : Thread nD τ) (Pipeline.ucRefs τ sig) (V37 m outs c) ∗ E 19 c) ⊢ R19.pre c)
    (hpost19 : ∀ c : Dev nD, R19.post c ⊢ iprop(StableHlo.held (c : Thread nD τ) (Pipeline.ucRefs τ sig) (V38 m outs c) ∗ E 20 c))
    (R20 : RegionSeg (pcfgs (F := F)) adm pdats ι defs₀ 𝒱₀ L lv 20)
    (hpre20 : ∀ c : Dev nD, iprop(StableHlo.held (c : Thread nD τ) (Pipeline.ucRefs τ sig) (V43 m outs c) ∗ E 20 c) ⊢ R20.pre c)
    (hpost20 : ∀ c : Dev nD, R20.post c ⊢ iprop(StableHlo.held (c : Thread nD τ) (Pipeline.ucRefs τ sig) (V44 m outs c) ∗ E 21 c))
    (R21 : RegionSeg (pcfgs (F := F)) adm pdats ι defs₀ 𝒱₀ L lv 21)
    (hpre21 : ∀ c : Dev nD, iprop(StableHlo.held (c : Thread nD τ) (Pipeline.ucRefs τ sig) (V45 m outs c) ∗ E 21 c) ⊢ R21.pre c)
    (hpost21 : ∀ c : Dev nD, R21.post c ⊢ iprop(StableHlo.held (c : Thread nD τ) (Pipeline.ucRefs τ sig) (V46 m outs c) ∗ E 22 c)) :
    θ_run defs (onTc (τ := τ) (main (F := F))) ⟨m, fun _ => 0, ρ⟩ (fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28))
      ∧ r.2.mem ((c.tc : Thread nD τ).loc main_v179) = V47 m outs c main_v179) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15 R16 R17 R18 R19 R20 R21)
    (fun c Q => by
      rewrite [main_chain c, Seg.run_eq_chain,
        show (segs m outs 𝒱₀ L lv E ι pdats R0 R1 R2 R3 R4 R5 R6 R7 R8 R9 R10 R11 R12 R13 R14 R15 R16 R17 R18 R19 R20 R21 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          Prog.lift (.customCall (Pipeline.entry 16) ()),
          StableHlo.seq hostOps17,
          Prog.lift (.customCall (Pipeline.entry 17) ()),
          StableHlo.seq hostOps18,
          Prog.lift (.customCall (Pipeline.entry 18) ()),
          StableHlo.seq hostOps19,
          Prog.lift (.customCall (Pipeline.entry 19) ()),
          StableHlo.seq hostOps20,
          StableHlo.seq hostOps20_1,
          StableHlo.seq hostOps20_2,
          StableHlo.seq hostOps20_3,
          StableHlo.seq hostOps20_4,
          Prog.lift (.customCall (Pipeline.entry 20) ()),
          StableHlo.seq hostOps21,
          Prog.lift (.customCall (Pipeline.entry 21) ()),
          StableHlo.seq hostOps22 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V47 m outs c))
    (hch := fun c => ⟨.rfl, .rfl, .rfl, hpre0 c, hpost0 c, hpre1 c, hpost1 c, hpre2 c, hpost2 c, hpre3 c, (hpost3 c).trans (hpre4 c), hpost4 c, hpre5 c, hpost5 c, hpre6 c, hpost6 c, hpre7 c, (hpost7 c).trans (hpre8 c), hpost8 c, hpre9 c, hpost9 c, hpre10 c, hpost10 c, hpre11 c, (hpost11 c).trans (hpre12 c), hpost12 c, hpre13 c, hpost13 c, hpre14 c, hpost14 c, hpre15 c, (hpost15 c).trans (hpre16 c), hpost16 c, hpre17 c, hpost17 c, hpre18 c, hpost18 c, hpre19 c, hpost19 c, .rfl, .rfl, .rfl, .rfl, hpre20 c, hpost20 c, hpre21 c, hpost21 c, sep_mono .rfl (hE22 c)⟩)
    (hinit := ?_) (QY := fun c s => (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23) ∧ s.mem ((c.tc : Thread nD τ).loc main_arg24) = m ((c.tc : Thread nD τ).loc main_arg24) ∧ s.mem ((c.tc : Thread nD τ).loc main_arg25) = m ((c.tc : Thread nD τ).loc main_arg25) ∧ s.mem ((c.tc : Thread nD τ).loc main_arg26) = m ((c.tc : Thread nD τ).loc main_arg26) ∧ s.mem ((c.tc : Thread nD τ).loc main_arg27) = m ((c.tc : Thread nD τ).loc main_arg27) ∧ s.mem ((c.tc : Thread nD τ).loc main_arg28) = m ((c.tc : Thread nD τ).loc main_arg28)) ∧ s.mem ((c.tc : Thread nD τ).loc main_v179) = V47 m outs c main_v179)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V47 m outs c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V47_arg m outs c main_arg0 (by decide)),
        (h (Proc.devRef .tc main_arg1) (Finset.mem_filter.mpr ⟨StableHlo.devRef_mem_tcRefs main_arg1, by decide⟩)).trans (V47_arg m outs c main_arg1 (by decide)),
        (h (Proc.devRef .tc main_arg2) (Finset.mem_filter.mpr ⟨StableHlo.devRef_mem_tcRefs main_arg2, by decide⟩)).trans (V47_arg m outs c main_arg2 (by decide)),
        (h (Proc.devRef .tc main_arg3) (Finset.mem_filter.mpr ⟨StableHlo.devRef_mem_tcRefs main_arg3, by decide⟩)).trans (V47_arg m outs c main_arg3 (by decide)),
        (h (Proc.devRef .tc main_arg4) (Finset.mem_filter.mpr ⟨StableHlo.devRef_mem_tcRefs main_arg4, by decide⟩)).trans (V47_arg m outs c main_arg4 (by decide)),
        (h (Proc.devRef .tc main_arg5) (Finset.mem_filter.mpr ⟨StableHlo.devRef_mem_tcRefs main_arg5, by decide⟩)).trans (V47_arg m outs c main_arg5 (by decide)),
        (h (Proc.devRef .tc main_arg6) (Finset.mem_filter.mpr ⟨StableHlo.devRef_mem_tcRefs main_arg6, by decide⟩)).trans (V47_arg m outs c main_arg6 (by decide)),
        (h (Proc.devRef .tc main_arg7) (Finset.mem_filter.mpr ⟨StableHlo.devRef_mem_tcRefs main_arg7, by decide⟩)).trans (V47_arg m outs c main_arg7 (by decide)),
        (h (Proc.devRef .tc main_arg8) (Finset.mem_filter.mpr ⟨StableHlo.devRef_mem_tcRefs main_arg8, by decide⟩)).trans (V47_arg m outs c main_arg8 (by decide)),
        (h (Proc.devRef .tc main_arg9) (Finset.mem_filter.mpr ⟨StableHlo.devRef_mem_tcRefs main_arg9, by decide⟩)).trans (V47_arg m outs c main_arg9 (by decide)),
        (h (Proc.devRef .tc main_arg10) (Finset.mem_filter.mpr ⟨StableHlo.devRef_mem_tcRefs main_arg10, by decide⟩)).trans (V47_arg m outs c main_arg10 (by decide)),
        (h (Proc.devRef .tc main_arg11) (Finset.mem_filter.mpr ⟨StableHlo.devRef_mem_tcRefs main_arg11, by decide⟩)).trans (V47_arg m outs c main_arg11 (by decide)),
        (h (Proc.devRef .tc main_arg12) (Finset.mem_filter.mpr ⟨StableHlo.devRef_mem_tcRefs main_arg12, by decide⟩)).trans (V47_arg m outs c main_arg12 (by decide)),
        (h (Proc.devRef .tc main_arg13) (Finset.mem_filter.mpr ⟨StableHlo.devRef_mem_tcRefs main_arg13, by decide⟩)).trans (V47_arg m outs c main_arg13 (by decide)),
        (h (Proc.devRef .tc main_arg14) (Finset.mem_filter.mpr ⟨StableHlo.devRef_mem_tcRefs main_arg14, by decide⟩)).trans (V47_arg m outs c main_arg14 (by decide)),
        (h (Proc.devRef .tc main_arg15) (Finset.mem_filter.mpr ⟨StableHlo.devRef_mem_tcRefs main_arg15, by decide⟩)).trans (V47_arg m outs c main_arg15 (by decide)),
        (h (Proc.devRef .tc main_arg16) (Finset.mem_filter.mpr ⟨StableHlo.devRef_mem_tcRefs main_arg16, by decide⟩)).trans (V47_arg m outs c main_arg16 (by decide)),
        (h (Proc.devRef .tc main_arg17) (Finset.mem_filter.mpr ⟨StableHlo.devRef_mem_tcRefs main_arg17, by decide⟩)).trans (V47_arg m outs c main_arg17 (by decide)),
        (h (Proc.devRef .tc main_arg18) (Finset.mem_filter.mpr ⟨StableHlo.devRef_mem_tcRefs main_arg18, by decide⟩)).trans (V47_arg m outs c main_arg18 (by decide)),
        (h (Proc.devRef .tc main_arg19) (Finset.mem_filter.mpr ⟨StableHlo.devRef_mem_tcRefs main_arg19, by decide⟩)).trans (V47_arg m outs c main_arg19 (by decide)),
        (h (Proc.devRef .tc main_arg20) (Finset.mem_filter.mpr ⟨StableHlo.devRef_mem_tcRefs main_arg20, by decide⟩)).trans (V47_arg m outs c main_arg20 (by decide)),
        (h (Proc.devRef .tc main_arg21) (Finset.mem_filter.mpr ⟨StableHlo.devRef_mem_tcRefs main_arg21, by decide⟩)).trans (V47_arg m outs c main_arg21 (by decide)),
        (h (Proc.devRef .tc main_arg22) (Finset.mem_filter.mpr ⟨StableHlo.devRef_mem_tcRefs main_arg22, by decide⟩)).trans (V47_arg m outs c main_arg22 (by decide)),
        (h (Proc.devRef .tc main_arg23) (Finset.mem_filter.mpr ⟨StableHlo.devRef_mem_tcRefs main_arg23, by decide⟩)).trans (V47_arg m outs c main_arg23 (by decide)),
        (h (Proc.devRef .tc main_arg24) (Finset.mem_filter.mpr ⟨StableHlo.devRef_mem_tcRefs main_arg24, by decide⟩)).trans (V47_arg m outs c main_arg24 (by decide)),
        (h (Proc.devRef .tc main_arg25) (Finset.mem_filter.mpr ⟨StableHlo.devRef_mem_tcRefs main_arg25, by decide⟩)).trans (V47_arg m outs c main_arg25 (by decide)),
        (h (Proc.devRef .tc main_arg26) (Finset.mem_filter.mpr ⟨StableHlo.devRef_mem_tcRefs main_arg26, by decide⟩)).trans (V47_arg m outs c main_arg26 (by decide)),
        (h (Proc.devRef .tc main_arg27) (Finset.mem_filter.mpr ⟨StableHlo.devRef_mem_tcRefs main_arg27, by decide⟩)).trans (V47_arg m outs c main_arg27 (by decide)),
        (h (Proc.devRef .tc main_arg28) (Finset.mem_filter.mpr ⟨StableHlo.devRef_mem_tcRefs main_arg28, by decide⟩)).trans (V47_arg m outs c main_arg28 (by decide))⟩,
        h (Proc.devRef .tc main_v179) (Finset.mem_filter.mpr ⟨StableHlo.devRef_mem_tcRefs main_v179, by decide⟩)⟩
    · iexact HSI

end Cert.KernelIdeal.GenP

end
-- ==== Proof.KI.R0.lean ====
import proofs.«411449_j51797305589934_2_alg».proof.Proof.Gen.KernelIdeal.Launch
import proofs.«411449_j51797305589934_2_alg».proof.Proof.Gen.KernelIdeal.Points
import proofs.«411449_j51797305589934_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x20 := Rect.unit (s := S5000x20) ![0, 0] S5000x20.size inb_S5000x20_S5000x20_0_0
abbrev r0_1 : Rect S20x32 := Rect.unit (s := S20x32) ![0, 0] S20x32.size inb_S20x32_S20x32_0_0
abbrev r0_2 : Rect S5000x32 := Rect.unit (s := S5000x32) ![0, 0] S5000x32.size inb_S5000x32_S5000x32_0_0

def out0_2 (x0 : Vec F S5000x20 .f32) (x1 : Vec F S20x32 .f32) : Vec F S5000x32 .bf16 :=
  View.canon [⟨r0_2, k0_pay1 (View.ld x0 r0_0) (View.ld x1 r0_1)⟩]

theorem cover0_2 (p0 : Vec F S5000x32 .bf16) (y : S5000x32.Idx) :
    ∃ pc ∈ ([⟨r0_2, p0⟩] : List (View.Piece (Elt F) S5000x32 .bf16)), y ∈ pc.1.set :=
  View.cover_of_tiled [⟨r0_2, p0⟩] S5000x32.size (by rfl) y

set_option maxHeartbeats 1000000 in
theorem sound_kernel0 (c : Dev nD) (E : Set ℕ) (i : grid0.Coords) (arg1 : Memref sig .tc .vmem S5000x20 .f32) (harg1 : arg1.IsWhole) (arg2 : Memref sig .tc .vmem S20x32 .f32) (harg2 : arg2.IsWhole) (arg3 : Memref sig .tc .vmem S5000x32 .bf16) (harg3 : arg3.IsWhole)
    (x0 : Vec F S5000x20 .f32) (x1 : Vec F S20x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem hin0 (c : Dev nD) : Pipeline.ΦA spec0 c ⊢ (dat0 V c).Φ 0 := by
  dsimp only [dat0]; exact .rfl
theorem hout0 (c : Dev nD) : (dat0 V c).Φ (Fin.last cfg0.N) ⊢ Pipeline.ΦA spec0 c := by
  dsimp only [dat0]; exact .rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Reg
-- ==== Proof.KI.R1.lean ====
import proofs.«411449_j51797305589934_2_alg».proof.Proof.Gen.KernelIdeal.Launch
import proofs.«411449_j51797305589934_2_alg».proof.Proof.Gen.KernelIdeal.Points
import proofs.«411449_j51797305589934_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop := k1_cond2 i = 1#1
theorem hcond1_1 : ∀ t : Fin cfg1.N, cond1_1 (grid1.coords t) ↔ t.val = 9 :=
  (by decide +kernel : ∀ t : Fin grid1.N, cond1_1 (grid1.coords t) ↔ t.val = 9)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel

theorem liveAt1_3_C : ∀ t : Fin cfg1.N, ¬cond1_0 (grid1.coords t) → cond1_1 (grid1.coords t) → cfg1.idle 3 (grid1.coords t) = false := by decide +kernel

abbrev VO1_2 : View sig .tc .vmem S5000x32 .f32 := (Memref.whole cc1_stg2_0 : Memref sig .tc .vmem S5000x32 .f32).view
abbrev VO1_3 : View sig .tc .vmem S1x32 .f32 := (Memref.whole cc1_stg3_0 : Memref sig .tc .vmem S1x32 .f32).view

abbrev ms1_0 (t : Fin cfg1.N) : Memref sig .tc .vmem S5000x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x32 .f32 := win1_3.stage (cfg1.slots t 3)
abbrev hs1_3 (t : Fin cfg1.N) : (ms1_3 t).IsWhole := hstage1_3 ((cfg1.slots t 3).cast nbuf1_3)

abbrev scM1_0 : Memref sig .tc .vmem S1x32 .f32 := Memref.whole cc1_scratch0
abbrev VS1_0 : View sig .tc .vmem S1x32 .f32 := scM1_0.view

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop(∃ d, owns (c : Thread nD τ) scM1_0 fullShare d) ∗ restBut1 (F := F) c) ∗ (∃ r, prngReg c r)) := by
  unfold Pipeline.ΦA; rw [scopedRest1_split]; simp only [scM1_0, owns_whole]; try rfl

section Cases

variable (c : Dev nD) (i : grid1.Coords)
  (arg1 : Memref sig .tc .vmem S5000x32 .f32) (harg1 : arg1.IsWhole) (arg2 : Memref sig .tc .vmem S1x32 .f32) (harg2 : arg2.IsWhole)
  (arg3 : Memref sig .tc .vmem S5000x32 .f32) (harg3 : arg3.IsWhole) (arg4 : Memref sig .tc .vmem S1x32 .f32) (harg4 : arg4.IsWhole)
  (arg5 : Memref sig .tc .vmem S1x32 .f32) (harg5 : arg5.IsWhole)

set_option maxHeartbeats 1000000 in
noncomputable def kernelRun1_A (hc0 : cond1_0 i) (hc1 : ¬cond1_1 i) (x0 : Vec F S5000x32 .f32) (x1 : Vec F S1x32 .f32) :
    Σ' (L2 : List (View.Piece (Elt F) S5000x32 .f32)) (L3 : List (View.Piece (Elt F) S1x32 .f32)), { LS0 : List (View.Piece (Elt F) S1x32 .f32) //
      ∀ (xi3 : Vec F S1x32 .f32) (E : Set ℕ) (K : PUnit → sProp 𝕄),
        iprop(owns (c : Thread nD τ) arg1 fullShare x0 ∗ owns (c : Thread nD τ) arg2 fullShare x1
            ∗ (∃ d, owns (c : Thread nD τ) arg3 fullShare d) ∗ owns (c : Thread nD τ) arg4 fullShare xi3
            ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ owns (c : Thread nD τ) arg4 fullShare xi3
                ∗ (∃ f, arg5.view.loc (c : Thread nD τ) ↦[arg5.view.set]{fullShare} arg5.view.writes (Elt F) f LS0)) -∗ K ⟨⟩))
          ⊢ wp frame (wpE (defs₀ (F := F)) Variants.none c none) E (cc1__pass1_kernel i arg1 harg1 arg2 harg2 arg3 harg3 arg4 harg4 arg5 harg5) K } := by
  refine ⟨?_, [], ?_, fun xi3 E K => ?run⟩
  case run =>
    simp only [cc1__pass1_kernel_eq_skeleton]; unfold cc1__pass1_kernel_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg1.eq_unread hf0; obtain rfl := harg2.eq_unread hf1; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

set_option maxHeartbeats 1000000 in
noncomputable def kernelRun1_B (hc0 : ¬cond1_0 i) (hc1 : ¬cond1_1 i) (x0 : Vec F S5000x32 .f32) (x1 : Vec F S1x32 .f32) (xs0 : Vec F S1x32 .f32) :
    Σ' (L2 : List (View.Piece (Elt F) S5000x32 .f32)) (L3 : List (View.Piece (Elt F) S1x32 .f32)), { LS0 : List (View.Piece (Elt F) S1x32 .f32) //
      ∀ (xi3 : Vec F S1x32 .f32) (E : Set ℕ) (K : PUnit → sProp 𝕄),
        iprop(owns (c : Thread nD τ) arg1 fullShare x0 ∗ owns (c : Thread nD τ) arg2 fullShare x1
            ∗ (∃ d, owns (c : Thread nD τ) arg3 fullShare d) ∗ owns (c : Thread nD τ) arg4 fullShare xi3
            ∗ owns (c : Thread nD τ) arg5 fullShare xs0
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ owns (c : Thread nD τ) arg4 fullShare xi3
                ∗ (∃ f, arg5.view.loc (c : Thread nD τ) ↦[arg5.view.set]{fullShare} arg5.view.writes (Elt F) f LS0)) -∗ K ⟨⟩))
          ⊢ wp frame (wpE (defs₀ (F := F)) Variants.none c none) E (cc1__pass1_kernel i arg1 harg1 arg2 harg2 arg3 harg3 arg4 harg4 arg5 harg5) K } := by
  refine ⟨?_, [], ?_, fun xi3 E K => ?run⟩
  case run =>
    simp only [cc1__pass1_kernel_eq_skeleton]; unfold cc1__pass1_kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3
    obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

set_option maxHeartbeats 1000000 in
noncomputable def kernelRun1_C (hc0 : ¬cond1_0 i) (hc1 : cond1_1 i) (x0 : Vec F S5000x32 .f32) (x1 : Vec F S1x32 .f32) (xs0 : Vec F S1x32 .f32) :
    Σ' (L2 : List (View.Piece (Elt F) S5000x32 .f32)) (L3 : List (View.Piece (Elt F) S1x32 .f32)), { LS0 : List (View.Piece (Elt F) S1x32 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ owns (c : Thread nD τ) arg5 fullShare xs0
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc1__pass1_kernel i arg1 harg1 arg2 harg2 arg3 harg3 arg4 harg4 arg5 harg5) K } := by
  refine ⟨?_, ?_, ?_, fun E K => ?run⟩
  case run =>
    simp only [cc1__pass1_kernel_eq_skeleton]; unfold cc1__pass1_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1
    obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

section A
variable (hc0 : cond1_0 i) (hc1 : ¬cond1_1 i) (x0 : Vec F S5000x32 .f32) (x1 : Vec F S1x32 .f32)

theorem cover1_A_2 (y : S5000x32.Idx) :
    ∃ pc ∈ (kernelRun1_A c i arg1 harg1 arg2 harg2 arg3 harg3 arg4 harg4 arg5 harg5 hc0 hc1 x0 x1).1, y ∈ pc.1.set :=
  View.cover_of_tiledL (kernelRun1_A c i arg1 harg1 arg2 harg2 arg3 harg3 arg4 harg4 arg5 harg5 hc0 hc1 x0 x1).1 S5000x32.size (by sl_kernel_rfl) y

def out1_A_2 : Vec F S5000x32 .f32 :=
  VO1_2.read (Elt F) (VO1_2.writes (Elt F) VO1_2.junk (kernelRun1_A c i arg1 harg1 arg2 harg2 arg3 harg3 arg4 harg4 arg5 harg5 hc0 hc1 x0 x1).1)

def out1_A_3 : Vec F S1x32 .f32 :=
  VO1_3.read (Elt F) (VO1_3.writes (Elt F) VO1_3.junk (kernelRun1_A c i arg1 harg1 arg2 harg2 arg3 harg3 arg4 harg4 arg5 harg5 hc0 hc1 x0 x1).2.1)

theorem scover1_A_0 (y : S1x32.Idx) :
    ∃ pc ∈ (kernelRun1_A c i arg1 harg1 arg2 harg2 arg3 harg3 arg4 harg4 arg5 harg5 hc0 hc1 x0 x1).2.2.1, y ∈ pc.1.set :=
  View.cover_of_tiledL (kernelRun1_A c i arg1 harg1 arg2 harg2 arg3 harg3 arg4 harg4 arg5 harg5 hc0 hc1 x0 x1).2.2.1 S1x32.size (by sl_kernel_rfl) y

def sout1_A_0 : Vec F S1x32 .f32 :=
  VS1_0.read (Elt F) (VS1_0.writes (Elt F) VS1_0.junk (kernelRun1_A c i arg1 harg1 arg2 harg2 arg3 harg3 arg4 harg4 arg5 harg5 hc0 hc1 x0 x1).2.2.1)

end A

section B
variable (hc0 : ¬cond1_0 i) (hc1 : ¬cond1_1 i) (x0 : Vec F S5000x32 .f32) (x1 : Vec F S1x32 .f32) (xs0 : Vec F S1x32 .f32)

theorem cover1_B_2 (y : S5000x32.Idx) :
    ∃ pc ∈ (kernelRun1_B c i arg1 harg1 arg2 harg2 arg3 harg3 arg4 harg4 arg5 harg5 hc0 hc1 x0 x1 xs0).1, y ∈ pc.1.set :=
  View.cover_of_tiledL (kernelRun1_B c i arg1 harg1 arg2 harg2 arg3 harg3 arg4 harg4 arg5 harg5 hc0 hc1 x0 x1 xs0).1 S5000x32.size (by sl_kernel_rfl) y

def out1_B_2 : Vec F S5000x32 .f32 :=
  VO1_2.read (Elt F) (VO1_2.writes (Elt F) VO1_2.junk (kernelRun1_B c i arg1 harg1 arg2 harg2 arg3 harg3 arg4 harg4 arg5 harg5 hc0 hc1 x0 x1 xs0).1)

def out1_B_3 : Vec F S1x32 .f32 :=
  VO1_3.read (Elt F) (VO1_3.writes (Elt F) VO1_3.junk (kernelRun1_B c i arg1 harg1 arg2 harg2 arg3 harg3 arg4 harg4 arg5 harg5 hc0 hc1 x0 x1 xs0).2.1)

theorem scover1_B_0 (y : S1x32.Idx) :
    ∃ pc ∈ (kernelRun1_B c i arg1 harg1 arg2 harg2 arg3 harg3 arg4 harg4 arg5 harg5 hc0 hc1 x0 x1 xs0).2.2.1, y ∈ pc.1.set :=
  View.cover_of_tiledL (kernelRun1_B c i arg1 harg1 arg2 harg2 arg3 harg3 arg4 harg4 arg5 harg5 hc0 hc1 x0 x1 xs0).2.2.1 S1x32.size (by sl_kernel_rfl) y

def sout1_B_0 : Vec F S1x32 .f32 :=
  VS1_0.read (Elt F) (VS1_0.writes (Elt F) VS1_0.junk (kernelRun1_B c i arg1 harg1 arg2 harg2 arg3 harg3 arg4 harg4 arg5 harg5 hc0 hc1 x0 x1 xs0).2.2.1)

end B

section C
variable (hc0 : ¬cond1_0 i) (hc1 : cond1_1 i) (x0 : Vec F S5000x32 .f32) (x1 : Vec F S1x32 .f32) (xs0 : Vec F S1x32 .f32)

theorem cover1_C_2 (y : S5000x32.Idx) :
    ∃ pc ∈ (kernelRun1_C c i arg1 harg1 arg2 harg2 arg3 harg3 arg4 harg4 arg5 harg5 hc0 hc1 x0 x1 xs0).1, y ∈ pc.1.set :=
  View.cover_of_tiledL (kernelRun1_C c i arg1 harg1 arg2 harg2 arg3 harg3 arg4 harg4 arg5 harg5 hc0 hc1 x0 x1 xs0).1 S5000x32.size (by sl_kernel_rfl) y

def out1_C_2 : Vec F S5000x32 .f32 :=
  VO1_2.read (Elt F) (VO1_2.writes (Elt F) VO1_2.junk (kernelRun1_C c i arg1 harg1 arg2 harg2 arg3 harg3 arg4 harg4 arg5 harg5 hc0 hc1 x0 x1 xs0).1)

theorem cover1_C_3 (y : S1x32.Idx) :
    ∃ pc ∈ (kernelRun1_C c i arg1 harg1 arg2 harg2 arg3 harg3 arg4 harg4 arg5 harg5 hc0 hc1 x0 x1 xs0).2.1, y ∈ pc.1.set :=
  View.cover_of_tiledL (kernelRun1_C c i arg1 harg1 arg2 harg2 arg3 harg3 arg4 harg4 arg5 harg5 hc0 hc1 x0 x1 xs0).2.1 S1x32.size (by sl_kernel_rfl) y

def out1_C_3 : Vec F S1x32 .f32 :=
  VO1_3.read (Elt F) (VO1_3.writes (Elt F) VO1_3.junk (kernelRun1_C c i arg1 harg1 arg2 harg2 arg3 harg3 arg4 harg4 arg5 harg5 hc0 hc1 x0 x1 xs0).2.1)

theorem scover1_C_0 (y : S1x32.Idx) :
    ∃ pc ∈ (kernelRun1_C c i arg1 harg1 arg2 harg2 arg3 harg3 arg4 harg4 arg5 harg5 hc0 hc1 x0 x1 xs0).2.2.1, y ∈ pc.1.set :=
  View.cover_of_tiledL (kernelRun1_C c i arg1 harg1 arg2 harg2 arg3 harg3 arg4 harg4 arg5 harg5 hc0 hc1 x0 x1 xs0).2.2.1 S1x32.size (by sl_kernel_rfl) y

def sout1_C_0 : Vec F S1x32 .f32 :=
  VS1_0.read (Elt F) (VS1_0.writes (Elt F) VS1_0.junk (kernelRun1_C c i arg1 harg1 arg2 harg2 arg3 harg3 arg4 harg4 arg5 harg5 hc0 hc1 x0 x1 xs0).2.2.1)

end C

end Cases

def outsAt1 (c : Dev nD) : (n : ℕ) → n < cfg1.N → Vec F S5000x32 .f32 × Vec F S1x32 .f32 × Vec F S1x32 .f32
  | 0, hn =>
    (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _)
        ((hcond1_0 ⟨0, hn⟩).mpr rfl) (fun h => (fun h' => by (try dsimp only at h'); omega) ((hcond1_1 ⟨0, hn⟩).mp h)) (iblk1 V c 0 ⟨0, hn⟩) (iblk1 V c 1 ⟨0, hn⟩),
     out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _)
        ((hcond1_0 ⟨0, hn⟩).mpr rfl) (fun h => (fun h' => by (try dsimp only at h'); omega) ((hcond1_1 ⟨0, hn⟩).mp h)) (iblk1 V c 0 ⟨0, hn⟩) (iblk1 V c 1 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _)
        ((hcond1_0 ⟨0, hn⟩).mpr rfl) (fun h => (fun h' => by (try dsimp only at h'); omega) ((hcond1_1 ⟨0, hn⟩).mp h)) (iblk1 V c 0 ⟨0, hn⟩) (iblk1 V c 1 ⟨0, hn⟩))
  | n + 1, hn =>
    if h1 : n + 1 = 9 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _)
          (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2,
       out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _)
          (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _)
          (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2)
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _)
          (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2,
       out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _)
          (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _)
          (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2)

theorem outsAt1_A (c : Dev nD) (t : Fin cfg1.N) (h0 : t.val = 0) (h1 : ¬t.val = 9) :
    outsAt1 V c t.val t.isLt =
      (out1_A_2 c (grid1.coords t) (ms1_0 t) (hs1_0 t) (ms1_1 t) (hs1_1 t) (ms1_2 t) (hs1_2 t) (ms1_3 t) (hs1_3 t) scM1_0 (Memref.isWhole_whole _)
          ((hcond1_0 t).mpr h0) (fun h => h1 ((hcond1_1 t).mp h)) (iblk1 V c 0 t) (iblk1 V c 1 t),
       out1_A_3 c (grid1.coords t) (ms1_0 t) (hs1_0 t) (ms1_1 t) (hs1_1 t) (ms1_2 t) (hs1_2 t) (ms1_3 t) (hs1_3 t) scM1_0 (Memref.isWhole_whole _)
          ((hcond1_0 t).mpr h0) (fun h => h1 ((hcond1_1 t).mp h)) (iblk1 V c 0 t) (iblk1 V c 1 t),
       sout1_A_0 c (grid1.coords t) (ms1_0 t) (hs1_0 t) (ms1_1 t) (hs1_1 t) (ms1_2 t) (hs1_2 t) (ms1_3 t) (hs1_3 t) scM1_0 (Memref.isWhole_whole _)
          ((hcond1_0 t).mpr h0) (fun h => h1 ((hcond1_1 t).mp h)) (iblk1 V c 0 t) (iblk1 V c 1 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 9) :
    outsAt1 V c t.val t.isLt =
      (out1_B_2 c (grid1.coords t) (ms1_0 t) (hs1_0 t) (ms1_1 t) (hs1_1 t) (ms1_2 t) (hs1_2 t) (ms1_3 t) (hs1_3 t) scM1_0 (Memref.isWhole_whole _)
          (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2,
       out1_B_3 c (grid1.coords t) (ms1_0 t) (hs1_0 t) (ms1_1 t) (hs1_1 t) (ms1_2 t) (hs1_2 t) (ms1_3 t) (hs1_3 t) scM1_0 (Memref.isWhole_whole _)
          (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2,
       sout1_B_0 c (grid1.coords t) (ms1_0 t) (hs1_0 t) (ms1_1 t) (hs1_1 t) (ms1_2 t) (hs1_2 t) (ms1_3 t) (hs1_3 t) scM1_0 (Memref.isWhole_whole _)
          (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 9) :
    outsAt1 V c t.val t.isLt =
      (out1_C_2 c (grid1.coords t) (ms1_0 t) (hs1_0 t) (ms1_1 t) (hs1_1 t) (ms1_2 t) (hs1_2 t) (ms1_3 t) (hs1_3 t) scM1_0 (Memref.isWhole_whole _)
          (fun h => h0 ((hcond1_0 t).mp h)) ((hcond1_1 t).mpr h1) (iblk1 V c 0 t) (iblk1 V c 1 t) (outsAt1 V c (t.val - 1) (Nat.lt_of_le_of_lt (Nat.sub_le _ _) t.isLt)).2.2,
       out1_C_3 c (grid1.coords t) (ms1_0 t) (hs1_0 t) (ms1_1 t) (hs1_1 t) (ms1_2 t) (hs1_2 t) (ms1_3 t) (hs1_3 t) scM1_0 (Memref.isWhole_whole _)
          (fun h => h0 ((hcond1_0 t).mp h)) ((hcond1_1 t).mpr h1) (iblk1 V c 0 t) (iblk1 V c 1 t) (outsAt1 V c (t.val - 1) (Nat.lt_of_le_of_lt (Nat.sub_le _ _) t.isLt)).2.2,
       sout1_C_0 c (grid1.coords t) (ms1_0 t) (hs1_0 t) (ms1_1 t) (hs1_1 t) (ms1_2 t) (hs1_2 t) (ms1_3 t) (hs1_3 t) scM1_0 (Memref.isWhole_whole _)
          (fun h => h0 ((hcond1_0 t).mp h)) ((hcond1_1 t).mpr h1) (iblk1 V c 0 t) (iblk1 V c 1 t) (outsAt1 V c (t.val - 1) (Nat.lt_of_le_of_lt (Nat.sub_le _ _) t.isLt)).2.2) := by
  obtain ⟨n, hn⟩ := t
  cases n with
  | zero => exact absurd rfl h0
  | succ n => exact (dif_pos h1).trans rfl

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.2) ∗ restBut1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ restBut1 (F := F) c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val = 0
  · have h1 : ¬t.val = 9 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold out1_A_2 sout1_A_0; (try dsimp only)
    rw [PhiS1_castSucc V c t, PhiS1_zero V c _ _ h0, PhiA1_eq]
    iintro ⟨⟨⟨HS0, Hr⟩, Hg⟩, Ho, ⟨%d0, H0⟩, ⟨%d1, H1⟩, ⟨%d2, H2⟩, ⟨%d3, H3⟩⟩
    iapply ((kernelRun1_A c (grid1.coords t) _ _ _ _ _ _ _ _ _ _ ((hcond1_0 t).mpr h0) (fun h => h1 ((hcond1_1 t).mp h)) (iblk1 V c 0 t) (iblk1 V c 1 t)).2.2.2 _ Set.univ _)
    isplitl [H0]; · iexact H0
    isplitl [H1]; · iexact H1
    isplitl [H2]; · iexists _; iexact H2
    isplitl [H3]; · iexact H3
    isplitl [HS0]; · iexact HS0
    iintro ⟨H0, H1, ⟨%e2, H2⟩, H3, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover1_A_0 c _ _ _ _ _ _ _ _ _ _ _ _ _ _ _)
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _ _ _ _)
    iexists _; iexact H3
  · by_cases h1 : t.val = 9
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_2 out1_C_3 sout1_C_0; (try dsimp only)
      rw [PhiS1_castSucc V c t, PhiS1_pos V c _ _ h0]
      iintro ⟨⟨⟨HS0, Hr⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _ _ _)
          iexact Hr
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold out1_B_2 sout1_B_0; (try dsimp only)
      rw [PhiS1_castSucc V c t, PhiS1_pos V c _ _ h0]
      iintro ⟨⟨⟨HS0, Hr⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) _).2.2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _)
          iexact Hr
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_B_2 c _ _ _ _ _ _ _ _ _ _ _ _ _ _ _ _)
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

theorem hout1 (c : Dev nD) : (dat1 V c).Φ (Fin.last cfg1.N) ⊢ Pipeline.ΦA spec1 c :=
  Phi_out1 V c _ (by rw [Fin.val_last]; have : cfg1.N = 10 := N_1; omega)

end Cert.KernelIdeal.Reg

end
-- ==== Proof.KI.R2.lean ====
import proofs.«411449_j51797305589934_2_alg».proof.Proof.Gen.KernelIdeal.Launch
import proofs.«411449_j51797305589934_2_alg».proof.Proof.Gen.KernelIdeal.Points
import proofs.«411449_j51797305589934_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1

theorem hcond2_1 : ∀ t : Fin cfg2.N, cond2_1 (grid2.coords t) ↔ t.val = 9 :=
  (by decide +kernel : ∀ t : Fin grid2.N, cond2_1 (grid2.coords t) ↔ t.val = 9)

theorem liveAt2_0 : ∀ t : Fin cfg2.N, cfg2.idle 0 (grid2.coords t) = false := by decide +kernel
theorem liveAt2_1 : ∀ t : Fin cfg2.N, cfg2.idle 1 (grid2.coords t) = false := by decide +kernel

theorem idleAt2_2 : ∀ t : Fin cfg2.N, ¬cond2_1 (grid2.coords t) → cfg2.idle 2 (grid2.coords t) = true := by decide +kernel

theorem noFlush2_2 : ∀ t : Fin cfg2.N, ¬cond2_1 (grid2.coords t) → (cfg2.win 2).flush t = false := by decide +kernel

theorem liveAt2_2 : ∀ t : Fin cfg2.N, cond2_1 (grid2.coords t) → cfg2.idle 2 (grid2.coords t) = false := by decide +kernel

abbrev VO2_2 : View sig .tc .vmem S1x32 .f32 := (Memref.whole cc2_stg2_0 : Memref sig .tc .vmem S1x32 .f32).view
abbrev ms2_0 (t : Fin cfg2.N) : Memref sig .tc .vmem S5000x32 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x32 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x32 .f32 := win2_2.stage (cfg2.slots t 2)
abbrev hs2_2 (t : Fin cfg2.N) : (ms2_2 t).IsWhole := hstage2_2 ((cfg2.slots t 2).cast nbuf2_2)

abbrev scM2_0 : Memref sig .tc .vmem S1x32 .f32 := Memref.whole cc2_scratch0
abbrev VS2_0 : View sig .tc .vmem S1x32 .f32 := scM2_0.view

theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

set_option maxHeartbeats 1000000 in
noncomputable def kernelRun2_A (c : Dev nD) (i : grid2.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : cond2_0 i) (hc1 : ¬cond2_1 i)
    (x0 : Vec F S5000x32 .f32) (x1 : Vec F S1x32 .f32) :
    Σ' (L2 : List (View.Piece (Elt F) S1x32 .f32)), { LS0 : List (View.Piece (Elt F) S1x32 .f32) //
      ∀ (xi2 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__stats_kernel i arg1 harg1 arg2 harg2 arg3 harg3 arg4 harg4) K } := by
  refine ⟨[], ?_, fun xi2 E K => ?run⟩
  case run =>
    simp only [cc2__stats_kernel_eq_skeleton]; unfold cc2__stats_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
noncomputable def kernelRun2_B (c : Dev nD) (i : grid2.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond2_0 i) (hc1 : ¬cond2_1 i)
    (x0 : Vec F S5000x32 .f32) (x1 : Vec F S1x32 .f32) (xs0 : Vec F S1x32 .f32) :
    Σ' (L2 : List (View.Piece (Elt F) S1x32 .f32)), { LS0 : List (View.Piece (Elt F) S1x32 .f32) //
      ∀ (xi2 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__stats_kernel i arg1 harg1 arg2 harg2 arg3 harg3 arg4 harg4) K } := by
  refine ⟨[], ?_, fun xi2 E K => ?run⟩
  case run =>
    simp only [cc2__stats_kernel_eq_skeleton]; unfold cc2__stats_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
noncomputable def kernelRun2_C (c : Dev nD) (i : grid2.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond2_0 i) (hc1 : cond2_1 i)
    (x0 : Vec F S5000x32 .f32) (x1 : Vec F S1x32 .f32) (xs0 : Vec F S1x32 .f32) :
    Σ' (L2 : List (View.Piece (Elt F) S1x32 .f32)), { LS0 : List (View.Piece (Elt F) S1x32 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc2__stats_kernel i arg1 harg1 arg2 harg2 arg3 harg3 arg4 harg4) K } := by
  refine ⟨?_, ?_, fun E K => ?run⟩
  case run =>
    simp only [cc2__stats_kernel_eq_skeleton]; unfold cc2__stats_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

def out2_A_2 (c : Dev nD) (i : grid2.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : cond2_0 i) (hc1 : ¬cond2_1 i)
    (x0 : Vec F S5000x32 .f32) (x1 : Vec F S1x32 .f32) : Vec F S1x32 .f32 :=
  VO2_2.read (Elt F) (VO2_2.writes (Elt F) VO2_2.junk (kernelRun2_A c i arg1 harg1 arg2 harg2 arg3 harg3 arg4 harg4 hc0 hc1 x0 x1).1)

theorem scover2_A_0 (c : Dev nD) (i : grid2.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : cond2_0 i) (hc1 : ¬cond2_1 i)
    (x0 : Vec F S5000x32 .f32) (x1 : Vec F S1x32 .f32) (y : S1x32.Idx) :
    ∃ pc ∈ (kernelRun2_A c i arg1 harg1 arg2 harg2 arg3 harg3 arg4 harg4 hc0 hc1 x0 x1).2.1, y ∈ pc.1.set :=
  View.cover_of_tiledL (kernelRun2_A c i arg1 harg1 arg2 harg2 arg3 harg3 arg4 harg4 hc0 hc1 x0 x1).2.1 S1x32.size (by sl_kernel_rfl) y

def sout2_A_0 (c : Dev nD) (i : grid2.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : cond2_0 i) (hc1 : ¬cond2_1 i)
    (x0 : Vec F S5000x32 .f32) (x1 : Vec F S1x32 .f32) : Vec F S1x32 .f32 :=
  VS2_0.read (Elt F) (VS2_0.writes (Elt F) VS2_0.junk (kernelRun2_A c i arg1 harg1 arg2 harg2 arg3 harg3 arg4 harg4 hc0 hc1 x0 x1).2.1)

def out2_B_2 (c : Dev nD) (i : grid2.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond2_0 i) (hc1 : ¬cond2_1 i)
    (x0 : Vec F S5000x32 .f32) (x1 : Vec F S1x32 .f32) (xs0 : Vec F S1x32 .f32) : Vec F S1x32 .f32 :=
  VO2_2.read (Elt F) (VO2_2.writes (Elt F) VO2_2.junk (kernelRun2_B c i arg1 harg1 arg2 harg2 arg3 harg3 arg4 harg4 hc0 hc1 x0 x1 xs0).1)

theorem scover2_B_0 (c : Dev nD) (i : grid2.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond2_0 i) (hc1 : ¬cond2_1 i)
    (x0 : Vec F S5000x32 .f32) (x1 : Vec F S1x32 .f32) (xs0 : Vec F S1x32 .f32) (y : S1x32.Idx) :
    ∃ pc ∈ (kernelRun2_B c i arg1 harg1 arg2 harg2 arg3 harg3 arg4 harg4 hc0 hc1 x0 x1 xs0).2.1, y ∈ pc.1.set :=
  View.cover_of_tiledL (kernelRun2_B c i arg1 harg1 arg2 harg2 arg3 harg3 arg4 harg4 hc0 hc1 x0 x1 xs0).2.1 S1x32.size (by sl_kernel_rfl) y

def sout2_B_0 (c : Dev nD) (i : grid2.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond2_0 i) (hc1 : ¬cond2_1 i)
    (x0 : Vec F S5000x32 .f32) (x1 : Vec F S1x32 .f32) (xs0 : Vec F S1x32 .f32) : Vec F S1x32 .f32 :=
  VS2_0.read (Elt F) (VS2_0.writes (Elt F) VS2_0.junk (kernelRun2_B c i arg1 harg1 arg2 harg2 arg3 harg3 arg4 harg4 hc0 hc1 x0 x1 xs0).2.1)

theorem cover2_C_2 (c : Dev nD) (i : grid2.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond2_0 i) (hc1 : cond2_1 i)
    (x0 : Vec F S5000x32 .f32) (x1 : Vec F S1x32 .f32) (xs0 : Vec F S1x32 .f32) (y : S1x32.Idx) :
    ∃ pc ∈ (kernelRun2_C c i arg1 harg1 arg2 harg2 arg3 harg3 arg4 harg4 hc0 hc1 x0 x1 xs0).1, y ∈ pc.1.set :=
  View.cover_of_tiledL (kernelRun2_C c i arg1 harg1 arg2 harg2 arg3 harg3 arg4 harg4 hc0 hc1 x0 x1 xs0).1 S1x32.size (by sl_kernel_rfl) y

def out2_C_2 (c : Dev nD) (i : grid2.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond2_0 i) (hc1 : cond2_1 i)
    (x0 : Vec F S5000x32 .f32) (x1 : Vec F S1x32 .f32) (xs0 : Vec F S1x32 .f32) : Vec F S1x32 .f32 :=
  VO2_2.read (Elt F) (VO2_2.writes (Elt F) VO2_2.junk (kernelRun2_C c i arg1 harg1 arg2 harg2 arg3 harg3 arg4 harg4 hc0 hc1 x0 x1 xs0).1)

theorem scover2_C_0 (c : Dev nD) (i : grid2.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond2_0 i) (hc1 : cond2_1 i)
    (x0 : Vec F S5000x32 .f32) (x1 : Vec F S1x32 .f32) (xs0 : Vec F S1x32 .f32) (y : S1x32.Idx) :
    ∃ pc ∈ (kernelRun2_C c i arg1 harg1 arg2 harg2 arg3 harg3 arg4 harg4 hc0 hc1 x0 x1 xs0).2.1, y ∈ pc.1.set :=
  View.cover_of_tiledL (kernelRun2_C c i arg1 harg1 arg2 harg2 arg3 harg3 arg4 harg4 hc0 hc1 x0 x1 xs0).2.1 S1x32.size (by sl_kernel_rfl) y

def sout2_C_0 (c : Dev nD) (i : grid2.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond2_0 i) (hc1 : cond2_1 i)
    (x0 : Vec F S5000x32 .f32) (x1 : Vec F S1x32 .f32) (xs0 : Vec F S1x32 .f32) : Vec F S1x32 .f32 :=
  VS2_0.read (Elt F) (VS2_0.writes (Elt F) VS2_0.junk (kernelRun2_C c i arg1 harg1 arg2 harg2 arg3 harg3 arg4 harg4 hc0 hc1 x0 x1 xs0).2.1)

def outsAt2 (c : Dev nD) : (n : ℕ) → n < cfg2.N → Vec F S1x32 .f32 × Vec F S1x32 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩))
  | n + 1, hn =>
    if h1 : n + 1 = 9 then
      (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
    else
      (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val = 0) (h1 : ¬t.val = 9) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact absurd h0 (Nat.succ_ne_zero n)

theorem outsAt2_B (c : Dev nD) (t : Fin cfg2.N) (h0 : ¬t.val = 0) (h1 : ¬t.val = 9) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

theorem outsAt2_C (c : Dev nD) (t : Fin cfg2.N) (h0 : ¬t.val = 0) (h1 : t.val = 9) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  by_cases h0 : t.val = 0
  · have h1 : ¬t.val = 9 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [Dat.leavesExact_idle (dat2 V c) 2 t (idleAt2_2 t (fun h => h1 ((hcond2_1 t).mp h))) (noFlush2_2 t (fun h => h1 ((hcond2_1 t).mp h)))]
    rw [outsAt2_A V c t h0 h1]
    unfold sout2_A_0; (try dsimp only)
    rw [PhiS2_castSucc V c t, PhiS2_zero V c _ _ h0, PhiA2_eq]
    iintro ⟨⟨⟨HS0, Hr⟩, Hg⟩, Ho, ⟨%d0, H0⟩, ⟨%d1, H1⟩, ⟨%d2, H2⟩⟩
    iapply ((kernelRun2_A c (grid2.coords t) _ _ _ _ _ _ _ _ ((hcond2_0 t).mpr h0) (fun h => h1 ((hcond2_1 t).mp h)) (iblk2 V c 0 t) (iblk2 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover2_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 9
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C_2 sout2_C_0; (try dsimp only)
      rw [PhiS2_castSucc V c t, PhiS2_pos V c _ _ h0]
      iintro ⟨⟨⟨HS0, Hr⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B_0; (try dsimp only)
      rw [PhiS2_castSucc V c t, PhiS2_pos V c _ _ h0]
      iintro ⟨⟨⟨HS0, Hr⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_B_0 c _ _ _ _ _ _ _ _ _ _ _ _ _ _)
          iexact Hr
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

theorem hout2 (c : Dev nD) : (dat2 V c).Φ (Fin.last cfg2.N) ⊢ Pipeline.ΦA spec2 c :=
  Phi_out2 V c _ (by rw [Fin.val_last]; have : cfg2.N = 10 := N_2; omega)

end Cert.KernelIdeal.Reg

end
-- ==== Proof.KI.R3.lean ====
import proofs.«411449_j51797305589934_2_alg».proof.Proof.Gen.KernelIdeal.Launch
import proofs.«411449_j51797305589934_2_alg».proof.Proof.Gen.KernelIdeal.Points
import proofs.«411449_j51797305589934_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S5000x32 := Rect.unit (s := S5000x32) ![0, 0] S5000x32.size inb_S5000x32_S5000x32_0_0
abbrev r3_1 : Rect S1x32 := Rect.unit (s := S1x32) ![0, 0] S1x32.size inb_S1x32_S1x32_0_0

def out3_5 (x0 : Vec F S5000x32 .f32) (x1 : Vec F S1x32 .f32) (x2 : Vec F S1x32 .f32) (x3 : Vec F S1x32 .f32) (x4 : Vec F S1x32 .f32) :
    Vec F S5000x32 .f32 :=
  View.canon [⟨r3_0, k3_pay1 (View.ld x0 r3_0) (View.ld x1 r3_1) (View.ld x2 r3_1) (View.ld x3 r3_1) (View.ld x4 r3_1)⟩]

theorem cover3_5 (p0 : Vec F S5000x32 .f32) (y : S5000x32.Idx) :
    ∃ pc ∈ ([⟨r3_0, p0⟩] : List (View.Piece (Elt F) S5000x32 .f32)), y ∈ pc.1.set :=
  View.cover_of_tiled [⟨r3_0, p0⟩] S5000x32.size (by rfl) y

set_option maxHeartbeats 1000000 in
theorem sound_kernel3 (c : Dev nD) (E : Set ℕ) (i : grid3.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S5000x32 .f32) (harg6 : arg6.IsWhole)
    (x0 : Vec F S5000x32 .f32) (x1 : Vec F S1x32 .f32) (x2 : Vec F S1x32 .f32) (x3 : Vec F S1x32 .f32) (x4 : Vec F S1x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__pass2_kernel i arg1 harg1 arg2 harg2 arg3 harg3 arg4 harg4 arg5 harg5 arg6 harg6) K := by
  simp only [cc3__pass2_kernel_eq_skeleton]; unfold cc3__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 :=
  show Pipeline.ΦA spec3 c ⊢ Pipeline.ΦA spec3 c from .rfl

theorem hout3 (c : Dev nD) : (dat3 V c).Φ (Fin.last cfg3.N) ⊢ Pipeline.ΦA spec3 c :=
  show Pipeline.ΦA spec3 c ⊢ Pipeline.ΦA spec3 c from .rfl

end Cert.KernelIdeal.Reg
-- ==== Proof.KI.R20.lean ====
import proofs.«411449_j51797305589934_2_alg».proof.Proof.Gen.KernelIdeal.Launch
import proofs.«411449_j51797305589934_2_alg».proof.Proof.Gen.KernelIdeal.Points
import proofs.«411449_j51797305589934_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)

theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)

abbrev cond20_0 (i : grid20.Coords) : Prop := (Scalar.cmpi .ne (Scalar.extui (Scalar.cmpi .eq (BitVec.ofNat 32 (i 0).val) 0#32)) 0#32) = 1#1
theorem hcond20_0 : ∀ t : Fin cfg20.N, cond20_0 (grid20.coords t) ↔ t.val = 0 :=
  (by decide +kernel : ∀ t : Fin grid20.N, cond20_0 (grid20.coords t) ↔ t.val = 0)

abbrev cond20_1 (i : grid20.Coords) : Prop := k20_cond2 i = 1#1
theorem hcond20_1 : ∀ t : Fin cfg20.N, cond20_1 (grid20.coords t) ↔ t.val = 16 :=
  (by decide +kernel : ∀ t : Fin grid20.N, cond20_1 (grid20.coords t) ↔ t.val = 16)

theorem liveAt20_0 : ∀ t : Fin cfg20.N, cfg20.idle 0 (grid20.coords t) = false := by decide +kernel
theorem liveAt20_1 : ∀ t : Fin cfg20.N, cfg20.idle 1 (grid20.coords t) = false := by decide +kernel

theorem idleAt20_2 : ∀ t : Fin cfg20.N, ¬cond20_1 (grid20.coords t) → cfg20.idle 2 (grid20.coords t) = true := by decide +kernel
theorem noFlush20_2 : ∀ t : Fin cfg20.N, ¬cond20_1 (grid20.coords t) → (cfg20.win 2).flush t = false := by decide +kernel

theorem liveAt20_2 : ∀ t : Fin cfg20.N, cond20_1 (grid20.coords t) → cfg20.idle 2 (grid20.coords t) = false := by decide +kernel

abbrev VO20_2 : View sig .tc .vmem S512x256 .f32 := (Memref.whole cc20_stg2_0 : Memref sig .tc .vmem S512x256 .f32).view
abbrev ms20_0 (t : Fin cfg20.N) : Memref sig .tc .vmem S1x2944 .i32 := win20_0.stage (cfg20.slots t 0)
abbrev hs20_0 (t : Fin cfg20.N) : (ms20_0 t).IsWhole := hstage20_0 ((cfg20.slots t 0).cast nbuf20_0)
abbrev ms20_1 (t : Fin cfg20.N) : Memref sig .tc .vmem S2944x256 .f32 := win20_1.stage (cfg20.slots t 1)
abbrev hs20_1 (t : Fin cfg20.N) : (ms20_1 t).IsWhole := hstage20_1 ((cfg20.slots t 1).cast nbuf20_1)
abbrev ms20_2 (t : Fin cfg20.N) : Memref sig .tc .vmem S512x256 .f32 := win20_2.stage (cfg20.slots t 2)
abbrev hs20_2 (t : Fin cfg20.N) : (ms20_2 t).IsWhole := hstage20_2 ((cfg20.slots t 2).cast nbuf20_2)

abbrev scM20_0 : Memref sig .tc .vmem S512x256 .f32 := Memref.whole cc20_scratch0
abbrev VS20_0 : View sig .tc .vmem S512x256 .f32 := scM20_0.view

abbrev rest20 (c : Dev nD) : sProp 𝕄 :=
  Pipeline.scopedRestBut (Ix := Unit) (Name := ℕ) (U := UR sig nD τ) (Lvl := ℕ) (Val := Elt F) spec20 c [cc20_scratch0]

theorem PhiA20_eq (c : Dev nD) :
    (Pipeline.ΦA spec20 c : sProp 𝕄)
      = iprop(iprop(iprop((∃ d, owns (c : Thread nD τ) scM20_0 fullShare d)) ∗ rest20 (F := F) c) ∗ (∃ r, prngReg c r)) := by
  unfold Pipeline.ΦA; rw [scopedRest20_split]; simp only [scM20_0, owns_whole]; try rfl

set_option maxHeartbeats 4000000 in
noncomputable def kernelRun20_A (c : Dev nD) (i : grid20.Coords) (arg1 : Memref sig .tc .vmem S1x2944 .i32) (harg1 : arg1.IsWhole) (arg2 : Memref sig .tc .vmem S2944x256 .f32) (harg2 : arg2.IsWhole) (arg3 : Memref sig .tc .vmem S512x256 .f32) (harg3 : arg3.IsWhole) (arg4 : Memref sig .tc .vmem S512x256 .f32) (harg4 : arg4.IsWhole) (hc0 : cond20_0 i) (hc1 : ¬cond20_1 i)
    (x0 : Vec F S1x2944 .i32) (x1 : Vec F S2944x256 .f32) :
    Σ' (L2 : List (View.Piece (Elt F) S512x256 .f32)), { LS0 : List (View.Piece (Elt F) S512x256 .f32) //
      ∀ (xi2 : Vec F S512x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc20__pool_kernel i arg1 harg1 arg2 harg2 arg3 harg3 arg4 harg4) K } := by
  refine ⟨[], ?_, fun xi2 E K => ?run⟩
  case run =>
    simp only [cc20__pool_kernel_eq_skeleton]; unfold cc20__pool_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 4000000 in
noncomputable def kernelRun20_B (c : Dev nD) (i : grid20.Coords) (arg1 : Memref sig .tc .vmem S1x2944 .i32) (harg1 : arg1.IsWhole) (arg2 : Memref sig .tc .vmem S2944x256 .f32) (harg2 : arg2.IsWhole) (arg3 : Memref sig .tc .vmem S512x256 .f32) (harg3 : arg3.IsWhole) (arg4 : Memref sig .tc .vmem S512x256 .f32) (harg4 : arg4.IsWhole) (hc0 : ¬cond20_0 i) (hc1 : ¬cond20_1 i)
    (x0 : Vec F S1x2944 .i32) (x1 : Vec F S2944x256 .f32) (xs0 : Vec F S512x256 .f32) :
    Σ' (L2 : List (View.Piece (Elt F) S512x256 .f32)), { LS0 : List (View.Piece (Elt F) S512x256 .f32) //
      ∀ (xi2 : Vec F S512x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc20__pool_kernel i arg1 harg1 arg2 harg2 arg3 harg3 arg4 harg4) K } := by
  refine ⟨[], ?_, fun xi2 E K => ?run⟩
  case run =>
    simp only [cc20__pool_kernel_eq_skeleton]; unfold cc20__pool_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 4000000 in
noncomputable def kernelRun20_C (c : Dev nD) (i : grid20.Coords) (arg1 : Memref sig .tc .vmem S1x2944 .i32) (harg1 : arg1.IsWhole) (arg2 : Memref sig .tc .vmem S2944x256 .f32) (harg2 : arg2.IsWhole) (arg3 : Memref sig .tc .vmem S512x256 .f32) (harg3 : arg3.IsWhole) (arg4 : Memref sig .tc .vmem S512x256 .f32) (harg4 : arg4.IsWhole) (hc0 : ¬cond20_0 i) (hc1 : cond20_1 i)
    (x0 : Vec F S1x2944 .i32) (x1 : Vec F S2944x256 .f32) (xs0 : Vec F S512x256 .f32) :
    Σ' (L2 : List (View.Piece (Elt F) S512x256 .f32)), { LS0 : List (View.Piece (Elt F) S512x256 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc20__pool_kernel i arg1 harg1 arg2 harg2 arg3 harg3 arg4 harg4) K } := by
  refine ⟨?_, ?_, fun E K => ?run⟩
  case run =>
    simp only [cc20__pool_kernel_eq_skeleton]; unfold cc20__pool_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

def out20_A_2 (c : Dev nD) (i : grid20.Coords) (arg1 : Memref sig .tc .vmem S1x2944 .i32) (harg1 : arg1.IsWhole) (arg2 : Memref sig .tc .vmem S2944x256 .f32) (harg2 : arg2.IsWhole) (arg3 : Memref sig .tc .vmem S512x256 .f32) (harg3 : arg3.IsWhole) (arg4 : Memref sig .tc .vmem S512x256 .f32) (harg4 : arg4.IsWhole) (hc0 : cond20_0 i) (hc1 : ¬cond20_1 i)
    (x0 : Vec F S1x2944 .i32) (x1 : Vec F S2944x256 .f32) : Vec F S512x256 .f32 :=
  VO20_2.read (Elt F) (VO20_2.writes (Elt F) VO20_2.junk (kernelRun20_A c i arg1 harg1 arg2 harg2 arg3 harg3 arg4 harg4 hc0 hc1 x0 x1).1)

theorem scover20_A_0 (c : Dev nD) (i : grid20.Coords) (arg1 : Memref sig .tc .vmem S1x2944 .i32) (harg1 : arg1.IsWhole) (arg2 : Memref sig .tc .vmem S2944x256 .f32) (harg2 : arg2.IsWhole) (arg3 : Memref sig .tc .vmem S512x256 .f32) (harg3 : arg3.IsWhole) (arg4 : Memref sig .tc .vmem S512x256 .f32) (harg4 : arg4.IsWhole) (hc0 : cond20_0 i) (hc1 : ¬cond20_1 i)
    (x0 : Vec F S1x2944 .i32) (x1 : Vec F S2944x256 .f32) (y : S512x256.Idx) :
    ∃ pc ∈ (kernelRun20_A c i arg1 harg1 arg2 harg2 arg3 harg3 arg4 harg4 hc0 hc1 x0 x1).2.1, y ∈ pc.1.set :=
  View.cover_of_tiledL (kernelRun20_A c i arg1 harg1 arg2 harg2 arg3 harg3 arg4 harg4 hc0 hc1 x0 x1).2.1 S512x256.size (by sl_kernel_rfl) y

def sout20_A_0 (c : Dev nD) (i : grid20.Coords) (arg1 : Memref sig .tc .vmem S1x2944 .i32) (harg1 : arg1.IsWhole) (arg2 : Memref sig .tc .vmem S2944x256 .f32) (harg2 : arg2.IsWhole) (arg3 : Memref sig .tc .vmem S512x256 .f32) (harg3 : arg3.IsWhole) (arg4 : Memref sig .tc .vmem S512x256 .f32) (harg4 : arg4.IsWhole) (hc0 : cond20_0 i) (hc1 : ¬cond20_1 i)
    (x0 : Vec F S1x2944 .i32) (x1 : Vec F S2944x256 .f32) : Vec F S512x256 .f32 :=
  VS20_0.read (Elt F) (VS20_0.writes (Elt F) VS20_0.junk (kernelRun20_A c i arg1 harg1 arg2 harg2 arg3 harg3 arg4 harg4 hc0 hc1 x0 x1).2.1)

def out20_B_2 (c : Dev nD) (i : grid20.Coords) (arg1 : Memref sig .tc .vmem S1x2944 .i32) (harg1 : arg1.IsWhole) (arg2 : Memref sig .tc .vmem S2944x256 .f32) (harg2 : arg2.IsWhole) (arg3 : Memref sig .tc .vmem S512x256 .f32) (harg3 : arg3.IsWhole) (arg4 : Memref sig .tc .vmem S512x256 .f32) (harg4 : arg4.IsWhole) (hc0 : ¬cond20_0 i) (hc1 : ¬cond20_1 i)
    (x0 : Vec F S1x2944 .i32) (x1 : Vec F S2944x256 .f32) (xs0 : Vec F S512x256 .f32) : Vec F S512x256 .f32 :=
  VO20_2.read (Elt F) (VO20_2.writes (Elt F) VO20_2.junk (kernelRun20_B c i arg1 harg1 arg2 harg2 arg3 harg3 arg4 harg4 hc0 hc1 x0 x1 xs0).1)

theorem scover20_B_0 (c : Dev nD) (i : grid20.Coords) (arg1 : Memref sig .tc .vmem S1x2944 .i32) (harg1 : arg1.IsWhole) (arg2 : Memref sig .tc .vmem S2944x256 .f32) (harg2 : arg2.IsWhole) (arg3 : Memref sig .tc .vmem S512x256 .f32) (harg3 : arg3.IsWhole) (arg4 : Memref sig .tc .vmem S512x256 .f32) (harg4 : arg4.IsWhole) (hc0 : ¬cond20_0 i) (hc1 : ¬cond20_1 i)
    (x0 : Vec F S1x2944 .i32) (x1 : Vec F S2944x256 .f32) (xs0 : Vec F S512x256 .f32) (y : S512x256.Idx) :
    ∃ pc ∈ (kernelRun20_B c i arg1 harg1 arg2 harg2 arg3 harg3 arg4 harg4 hc0 hc1 x0 x1 xs0).2.1, y ∈ pc.1.set :=
  View.cover_of_tiledL (kernelRun20_B c i arg1 harg1 arg2 harg2 arg3 harg3 arg4 harg4 hc0 hc1 x0 x1 xs0).2.1 S512x256.size (by sl_kernel_rfl) y

def sout20_B_0 (c : Dev nD) (i : grid20.Coords) (arg1 : Memref sig .tc .vmem S1x2944 .i32) (harg1 : arg1.IsWhole) (arg2 : Memref sig .tc .vmem S2944x256 .f32) (harg2 : arg2.IsWhole) (arg3 : Memref sig .tc .vmem S512x256 .f32) (harg3 : arg3.IsWhole) (arg4 : Memref sig .tc .vmem S512x256 .f32) (harg4 : arg4.IsWhole) (hc0 : ¬cond20_0 i) (hc1 : ¬cond20_1 i)
    (x0 : Vec F S1x2944 .i32) (x1 : Vec F S2944x256 .f32) (xs0 : Vec F S512x256 .f32) : Vec F S512x256 .f32 :=
  VS20_0.read (Elt F) (VS20_0.writes (Elt F) VS20_0.junk (kernelRun20_B c i arg1 harg1 arg2 harg2 arg3 harg3 arg4 harg4 hc0 hc1 x0 x1 xs0).2.1)

theorem cover20_C_2 (c : Dev nD) (i : grid20.Coords) (arg1 : Memref sig .tc .vmem S1x2944 .i32) (harg1 : arg1.IsWhole) (arg2 : Memref sig .tc .vmem S2944x256 .f32) (harg2 : arg2.IsWhole) (arg3 : Memref sig .tc .vmem S512x256 .f32) (harg3 : arg3.IsWhole) (arg4 : Memref sig .tc .vmem S512x256 .f32) (harg4 : arg4.IsWhole) (hc0 : ¬cond20_0 i) (hc1 : cond20_1 i)
    (x0 : Vec F S1x2944 .i32) (x1 : Vec F S2944x256 .f32) (xs0 : Vec F S512x256 .f32) (y : S512x256.Idx) :
    ∃ pc ∈ (kernelRun20_C c i arg1 harg1 arg2 harg2 arg3 harg3 arg4 harg4 hc0 hc1 x0 x1 xs0).1, y ∈ pc.1.set :=
  View.cover_of_tiledL (kernelRun20_C c i arg1 harg1 arg2 harg2 arg3 harg3 arg4 harg4 hc0 hc1 x0 x1 xs0).1 S512x256.size (by sl_kernel_rfl) y

def out20_C_2 (c : Dev nD) (i : grid20.Coords) (arg1 : Memref sig .tc .vmem S1x2944 .i32) (harg1 : arg1.IsWhole) (arg2 : Memref sig .tc .vmem S2944x256 .f32) (harg2 : arg2.IsWhole) (arg3 : Memref sig .tc .vmem S512x256 .f32) (harg3 : arg3.IsWhole) (arg4 : Memref sig .tc .vmem S512x256 .f32) (harg4 : arg4.IsWhole) (hc0 : ¬cond20_0 i) (hc1 : cond20_1 i)
    (x0 : Vec F S1x2944 .i32) (x1 : Vec F S2944x256 .f32) (xs0 : Vec F S512x256 .f32) : Vec F S512x256 .f32 :=
  VO20_2.read (Elt F) (VO20_2.writes (Elt F) VO20_2.junk (kernelRun20_C c i arg1 harg1 arg2 harg2 arg3 harg3 arg4 harg4 hc0 hc1 x0 x1 xs0).1)

theorem scover20_C_0 (c : Dev nD) (i : grid20.Coords) (arg1 : Memref sig .tc .vmem S1x2944 .i32) (harg1 : arg1.IsWhole) (arg2 : Memref sig .tc .vmem S2944x256 .f32) (harg2 : arg2.IsWhole) (arg3 : Memref sig .tc .vmem S512x256 .f32) (harg3 : arg3.IsWhole) (arg4 : Memref sig .tc .vmem S512x256 .f32) (harg4 : arg4.IsWhole) (hc0 : ¬cond20_0 i) (hc1 : cond20_1 i)
    (x0 : Vec F S1x2944 .i32) (x1 : Vec F S2944x256 .f32) (xs0 : Vec F S512x256 .f32) (y : S512x256.Idx) :
    ∃ pc ∈ (kernelRun20_C c i arg1 harg1 arg2 harg2 arg3 harg3 arg4 harg4 hc0 hc1 x0 x1 xs0).2.1, y ∈ pc.1.set :=
  View.cover_of_tiledL (kernelRun20_C c i arg1 harg1 arg2 harg2 arg3 harg3 arg4 harg4 hc0 hc1 x0 x1 xs0).2.1 S512x256.size (by sl_kernel_rfl) y

def sout20_C_0 (c : Dev nD) (i : grid20.Coords) (arg1 : Memref sig .tc .vmem S1x2944 .i32) (harg1 : arg1.IsWhole) (arg2 : Memref sig .tc .vmem S2944x256 .f32) (harg2 : arg2.IsWhole) (arg3 : Memref sig .tc .vmem S512x256 .f32) (harg3 : arg3.IsWhole) (arg4 : Memref sig .tc .vmem S512x256 .f32) (harg4 : arg4.IsWhole) (hc0 : ¬cond20_0 i) (hc1 : cond20_1 i)
    (x0 : Vec F S1x2944 .i32) (x1 : Vec F S2944x256 .f32) (xs0 : Vec F S512x256 .f32) : Vec F S512x256 .f32 :=
  VS20_0.read (Elt F) (VS20_0.writes (Elt F) VS20_0.junk (kernelRun20_C c i arg1 harg1 arg2 harg2 arg3 harg3 arg4 harg4 hc0 hc1 x0 x1 xs0).2.1)

def outsAt20 (c : Dev nD) : (n : ℕ) → n < cfg20.N → Vec F S512x256 .f32 × Vec F S512x256 .f32
  | 0, hn =>
      (out20_A_2 c (grid20.coords ⟨0, hn⟩) (ms20_0 ⟨0, hn⟩) (hs20_0 ⟨0, hn⟩) (ms20_1 ⟨0, hn⟩) (hs20_1 ⟨0, hn⟩) (ms20_2 ⟨0, hn⟩) (hs20_2 ⟨0, hn⟩) scM20_0 (Memref.isWhole_whole _) ((hcond20_0 ⟨0, hn⟩).mpr rfl) (fun h => (fun h => by (try dsimp only at h); omega) ((hcond20_1 ⟨0, hn⟩).mp h)) (iblk20 V c 0 ⟨0, hn⟩) (iblk20 V c 1 ⟨0, hn⟩),
       sout20_A_0 c (grid20.coords ⟨0, hn⟩) (ms20_0 ⟨0, hn⟩) (hs20_0 ⟨0, hn⟩) (ms20_1 ⟨0, hn⟩) (hs20_1 ⟨0, hn⟩) (ms20_2 ⟨0, hn⟩) (hs20_2 ⟨0, hn⟩) scM20_0 (Memref.isWhole_whole _) ((hcond20_0 ⟨0, hn⟩).mpr rfl) (fun h => (fun h => by (try dsimp only at h); omega) ((hcond20_1 ⟨0, hn⟩).mp h)) (iblk20 V c 0 ⟨0, hn⟩) (iblk20 V c 1 ⟨0, hn⟩))
  | n + 1, hn =>
    if h1 : n + 1 = 16 then
      (out20_C_2 c (grid20.coords ⟨n + 1, hn⟩) (ms20_0 ⟨n + 1, hn⟩) (hs20_0 ⟨n + 1, hn⟩) (ms20_1 ⟨n + 1, hn⟩) (hs20_1 ⟨n + 1, hn⟩) (ms20_2 ⟨n + 1, hn⟩) (hs20_2 ⟨n + 1, hn⟩) scM20_0 (Memref.isWhole_whole _) (fun h => Nat.succ_ne_zero n ((hcond20_0 ⟨n + 1, hn⟩).mp h)) ((hcond20_1 ⟨n + 1, hn⟩).mpr h1) (iblk20 V c 0 ⟨n + 1, hn⟩) (iblk20 V c 1 ⟨n + 1, hn⟩) (outsAt20 c n (Nat.lt_of_succ_lt hn)).2,
       sout20_C_0 c (grid20.coords ⟨n + 1, hn⟩) (ms20_0 ⟨n + 1, hn⟩) (hs20_0 ⟨n + 1, hn⟩) (ms20_1 ⟨n + 1, hn⟩) (hs20_1 ⟨n + 1, hn⟩) (ms20_2 ⟨n + 1, hn⟩) (hs20_2 ⟨n + 1, hn⟩) scM20_0 (Memref.isWhole_whole _) (fun h => Nat.succ_ne_zero n ((hcond20_0 ⟨n + 1, hn⟩).mp h)) ((hcond20_1 ⟨n + 1, hn⟩).mpr h1) (iblk20 V c 0 ⟨n + 1, hn⟩) (iblk20 V c 1 ⟨n + 1, hn⟩) (outsAt20 c n (Nat.lt_of_succ_lt hn)).2)
    else
      (out20_B_2 c (grid20.coords ⟨n + 1, hn⟩) (ms20_0 ⟨n + 1, hn⟩) (hs20_0 ⟨n + 1, hn⟩) (ms20_1 ⟨n + 1, hn⟩) (hs20_1 ⟨n + 1, hn⟩) (ms20_2 ⟨n + 1, hn⟩) (hs20_2 ⟨n + 1, hn⟩) scM20_0 (Memref.isWhole_whole _) (fun h => Nat.succ_ne_zero n ((hcond20_0 ⟨n + 1, hn⟩).mp h)) (fun h => h1 ((hcond20_1 ⟨n + 1, hn⟩).mp h)) (iblk20 V c 0 ⟨n + 1, hn⟩) (iblk20 V c 1 ⟨n + 1, hn⟩) (outsAt20 c n (Nat.lt_of_succ_lt hn)).2,
       sout20_B_0 c (grid20.coords ⟨n + 1, hn⟩) (ms20_0 ⟨n + 1, hn⟩) (hs20_0 ⟨n + 1, hn⟩) (ms20_1 ⟨n + 1, hn⟩) (hs20_1 ⟨n + 1, hn⟩) (ms20_2 ⟨n + 1, hn⟩) (hs20_2 ⟨n + 1, hn⟩) scM20_0 (Memref.isWhole_whole _) (fun h => Nat.succ_ne_zero n ((hcond20_0 ⟨n + 1, hn⟩).mp h)) (fun h => h1 ((hcond20_1 ⟨n + 1, hn⟩).mp h)) (iblk20 V c 0 ⟨n + 1, hn⟩) (iblk20 V c 1 ⟨n + 1, hn⟩) (outsAt20 c n (Nat.lt_of_succ_lt hn)).2)

theorem outsAt20_A (c : Dev nD) (t : Fin cfg20.N) (h0 : t.val = 0) (h1 : ¬t.val = 16) :
    outsAt20 V c t.val t.isLt =
      (out20_A_2 c (grid20.coords t) (ms20_0 t) (hs20_0 t) (ms20_1 t) (hs20_1 t) (ms20_2 t) (hs20_2 t) scM20_0 (Memref.isWhole_whole _) ((hcond20_0 t).mpr h0) (fun h => h1 ((hcond20_1 t).mp h)) (iblk20 V c 0 t) (iblk20 V c 1 t),
       sout20_A_0 c (grid20.coords t) (ms20_0 t) (hs20_0 t) (ms20_1 t) (hs20_1 t) (ms20_2 t) (hs20_2 t) scM20_0 (Memref.isWhole_whole _) ((hcond20_0 t).mpr h0) (fun h => h1 ((hcond20_1 t).mp h)) (iblk20 V c 0 t) (iblk20 V c 1 t)) := by
  obtain ⟨n, hn⟩ := t
  cases n with
  | zero => exact rfl
  | succ n => exact absurd h0 (Nat.succ_ne_zero n)

theorem outsAt20_B (c : Dev nD) (t : Fin cfg20.N) (h0 : ¬t.val = 0) (h1 : ¬t.val = 16) :
    outsAt20 V c t.val t.isLt =
      (out20_B_2 c (grid20.coords t) (ms20_0 t) (hs20_0 t) (ms20_1 t) (hs20_1 t) (ms20_2 t) (hs20_2 t) scM20_0 (Memref.isWhole_whole _) (fun h => h0 ((hcond20_0 t).mp h)) (fun h => h1 ((hcond20_1 t).mp h)) (iblk20 V c 0 t) (iblk20 V c 1 t) (outsAt20 V c (t.val - 1) (Nat.lt_of_le_of_lt (Nat.sub_le _ _) t.isLt)).2,
       sout20_B_0 c (grid20.coords t) (ms20_0 t) (hs20_0 t) (ms20_1 t) (hs20_1 t) (ms20_2 t) (hs20_2 t) scM20_0 (Memref.isWhole_whole _) (fun h => h0 ((hcond20_0 t).mp h)) (fun h => h1 ((hcond20_1 t).mp h)) (iblk20 V c 0 t) (iblk20 V c 1 t) (outsAt20 V c (t.val - 1) (Nat.lt_of_le_of_lt (Nat.sub_le _ _) t.isLt)).2) := by
  obtain ⟨n, hn⟩ := t
  cases n with
  | zero => exact absurd rfl h0
  | succ n => exact (dif_neg h1).trans rfl

theorem outsAt20_C (c : Dev nD) (t : Fin cfg20.N) (h0 : ¬t.val = 0) (h1 : t.val = 16) :
    outsAt20 V c t.val t.isLt =
      (out20_C_2 c (grid20.coords t) (ms20_0 t) (hs20_0 t) (ms20_1 t) (hs20_1 t) (ms20_2 t) (hs20_2 t) scM20_0 (Memref.isWhole_whole _) (fun h => h0 ((hcond20_0 t).mp h)) ((hcond20_1 t).mpr h1) (iblk20 V c 0 t) (iblk20 V c 1 t) (outsAt20 V c (t.val - 1) (Nat.lt_of_le_of_lt (Nat.sub_le _ _) t.isLt)).2,
       sout20_C_0 c (grid20.coords t) (ms20_0 t) (hs20_0 t) (ms20_1 t) (hs20_1 t) (ms20_2 t) (hs20_2 t) scM20_0 (Memref.isWhole_whole _) (fun h => h0 ((hcond20_0 t).mp h)) ((hcond20_1 t).mpr h1) (iblk20 V c 0 t) (iblk20 V c 1 t) (outsAt20 V c (t.val - 1) (Nat.lt_of_le_of_lt (Nat.sub_le _ _) t.isLt)).2) := by
  obtain ⟨n, hn⟩ := t
  cases n with
  | zero => exact absurd rfl h0
  | succ n => exact (dif_pos h1).trans rfl

def PhiS20 (c : Dev nD) : (n : ℕ) → n ≤ cfg20.N → sProp 𝕄
  | 0, _ => Pipeline.ΦA spec20 c
  | n + 1, hn => iprop(iprop(owns (c : Thread nD τ) scM20_0 fullShare ((outsAt20 V c n hn).2) ∗ rest20 (F := F) c) ∗ (∃ r, prngReg c r))

theorem PhiS20_zero (c : Dev nD) (n : ℕ) (h : n ≤ cfg20.N) (hz : n = 0) : PhiS20 V c n h = Pipeline.ΦA spec20 c := by
  subst hz; rfl

theorem PhiS20_succ (c : Dev nD) (n : ℕ) (hn : n < cfg20.N) :
    PhiS20 V c (n + 1) hn = iprop(iprop(owns (c : Thread nD τ) scM20_0 fullShare ((outsAt20 V c n hn).2) ∗ rest20 (F := F) c) ∗ (∃ r, prngReg c r)) := rfl

theorem PhiS20_pos (c : Dev nD) (n : ℕ) (h : n ≤ cfg20.N) (hz : n ≠ 0) :
    PhiS20 V c n h = iprop(iprop(owns (c : Thread nD τ) scM20_0 fullShare ((outsAt20 V c (n - 1) (by omega)).2) ∗ rest20 (F := F) c) ∗ (∃ r, prngReg c r)) := by
  cases n with
  | zero => exact absurd rfl hz
  | succ n => rfl

def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => (outsAt20 V c t.val t.isLt).1
  Φ t := PhiS20 V c t.val (Nat.le_of_lt_succ t.isLt)
  q _ := fullShare
  owed _ := 0

theorem A_eq20 (c : Dev nD) (w : Fin cfg20.W) : (dat20 V c).A w = V c (Pipeline.arrRef spec20 w) := by
  dsimp only [dat20]

theorem PhiS20_castSucc (c : Dev nD) (t : Fin cfg20.N) :
    (dat20 V c).Φ t.castSucc = PhiS20 V c t.val (Nat.le_of_lt t.isLt) := by
  dsimp only [dat20]; simp only [Fin.coe_castSucc]

theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = (outsAt20 V c t.val t.isLt).1 := by dsimp only [dat20]

theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d

def bodyPre20 (c : Dev nD) (t : Fin cfg20.N) : sProp 𝕄 :=
  iprop((dat20 V c).Φ t.castSucc ∗ (dat20 V c).owesAt () t.castSucc
    ∗ (∃ d, owns (c : Thread nD τ) (ms20_0 t) fullShare ((dat20 V c).before 0 t d))
    ∗ (∃ d, owns (c : Thread nD τ) (ms20_1 t) fullShare ((dat20 V c).before 1 t d))
    ∗ (∃ d, owns (c : Thread nD τ) (ms20_2 t) fullShare ((dat20 V c).before 2 t d)))

def bodyPost20 (c : Dev nD) (t : Fin cfg20.N) : sProp 𝕄 :=
  iprop((dat20 V c).Φ t.succ ∗ (dat20 V c).owesAt () t.succ
    ∗ (dat20 V c).leavesExact 0 t
    ∗ (dat20 V c).leavesExact 1 t
    ∗ (dat20 V c).leavesExact 2 t)

set_option maxHeartbeats 4800000 in
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1]
  rw [show (dat20 V c).owesAt () t.succ = (dat20 V c).owesAt () t.castSucc from rfl]
  rw [show (dat20 V c).Φ t.succ = PhiS20 V c (t.val + 1) t.isLt from rfl, PhiS20_succ]
  have hN : t.val < 17 := lt_of_lt_of_eq t.isLt (show cfg20.N = 17 from N_20)
  rw [show (dat20 V c).leavesExact 0 t = owns (c : Thread nD τ) (ms20_0 t) fullShare ((dat20 V c).after 0 t) from by
    unfold Dat.leavesExact; rw [liveAt20_0 t], after20_0]
  rw [show (dat20 V c).leavesExact 1 t = owns (c : Thread nD τ) (ms20_1 t) fullShare ((dat20 V c).after 1 t) from by
    unfold Dat.leavesExact; rw [liveAt20_1 t], after20_1]
  by_cases h0 : t.val = 0
  · have h1 : ¬t.val = 16 := by omega
    rw [Dat.leavesExact_idle (dat20 V c) 2 t (idleAt20_2 t (fun h => h1 ((hcond20_1 t).mp h))) (noFlush20_2 t (fun h => h1 ((hcond20_1 t).mp h)))]
    rw [outsAt20_A V c t h0 h1]
    unfold sout20_A_0; (try dsimp only)
    rw [PhiS20_castSucc V c t, PhiS20_zero V c _ _ h0, PhiA20_eq]
    iintro ⟨⟨⟨HS0, Hr⟩, Hg⟩, Ho, ⟨%d0, H0⟩, ⟨%d1, H1⟩, ⟨%d2, H2⟩⟩
    iapply ((kernelRun20_A c (grid20.coords t) _ _ _ _ _ _ _ _ ((hcond20_0 t).mpr h0) (fun h => h1 ((hcond20_1 t).mp h)) (iblk20 V c 0 t) (iblk20 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover20_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 16
    · rw [show (dat20 V c).leavesExact 2 t = owns (c : Thread nD τ) (ms20_2 t) fullShare ((dat20 V c).after 2 t) from by
    unfold Dat.leavesExact; rw [liveAt20_2 t ((hcond20_1 t).mpr h1)], after20_2]
      rw [outsAt20_C V c t h0 h1]
      unfold out20_C_2 sout20_C_0; (try dsimp only)
      rw [PhiS20_castSucc V c t, PhiS20_pos V c _ _ h0]
      iintro ⟨⟨⟨HS0, Hr⟩, Hg⟩, Ho, ⟨%d0, H0⟩, ⟨%d1, H1⟩, ⟨%d2, H2⟩⟩
      iapply ((kernelRun20_C c (grid20.coords t) _ _ _ _ _ _ _ _ (fun h => h0 ((hcond20_0 t).mp h)) ((hcond20_1 t).mpr h1) (iblk20 V c 0 t) (iblk20 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover20_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover20_C_2 c _ _ _ _ _ _ _ _ _ _ _ _ _ _)
    · rw [Dat.leavesExact_idle (dat20 V c) 2 t (idleAt20_2 t (fun h => h1 ((hcond20_1 t).mp h))) (noFlush20_2 t (fun h => h1 ((hcond20_1 t).mp h)))]
      rw [outsAt20_B V c t h0 h1]
      unfold sout20_B_0; (try dsimp only)
      rw [PhiS20_castSucc V c t, PhiS20_pos V c _ _ h0]
      iintro ⟨⟨⟨HS0, Hr⟩, Hg⟩, Ho, ⟨%d0, H0⟩, ⟨%d1, H1⟩, ⟨%d2, H2⟩⟩
      iapply ((kernelRun20_B c (grid20.coords t) _ _ _ _ _ _ _ _ (fun h => h0 ((hcond20_0 t).mp h)) (fun h => h1 ((hcond20_1 t).mp h)) (iblk20 V c 0 t) (iblk20 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover20_B_0 c _ _ _ _ _ _ _ _ _ _ _ _ _ _)
          iexact Hr
        iexact Hg
      isplitl [Ho]; · iexact Ho
      isplitl [H0]; · iexact H0
      isplitl [H1]; · iexact H1
      iexists _; iexact H2

theorem body_obligation20 (c : Dev nD) : BodyObligation (dat20 (F := F) V c) (defs₀ (F := F)) Variants.none () Set.univ := fun t => by
  rw [bigSep_W20, bigSep_W20]
  exact sound_body20 V c t

theorem hin20 (c : Dev nD) : Pipeline.ΦA spec20 c ⊢ (dat20 V c).Φ 0 := by
  rw [show (dat20 V c).Φ 0 = PhiS20 V c 0 (Nat.zero_le _) from rfl, PhiS20_zero V c 0 _ rfl]
  try exact Idealize.SL.BI.Entails.refl _

theorem Phi_out20 (c : Dev nD) (t : Fin (cfg20.N + 1)) (ht : t.val ≠ 0) : (dat20 V c).Φ t ⊢ Pipeline.ΦA spec20 c := by
  rw [show (dat20 V c).Φ t = PhiS20 V c t.val (Nat.le_of_lt_succ t.isLt) from rfl, PhiS20_pos V c _ _ ht, PhiA20_eq]
  iintro ⟨⟨HS0, Hr⟩, Hg⟩
  isplitl [HS0 Hr]
  · isplitl [HS0]
    · iexists _; iexact HS0
    iexact Hr
  iexact Hg

theorem hout20 (c : Dev nD) : (dat20 V c).Φ (Fin.last cfg20.N) ⊢ Pipeline.ΦA spec20 c :=
  Phi_out20 V c _ (by rw [Fin.val_last]; have : cfg20.N = 17 := N_20; omega)

end Cert.KernelIdeal.Reg

end
-- ==== Proof.KI.R21.lean ====
import proofs.«411449_j51797305589934_2_alg».proof.Proof.Gen.KernelIdeal.Launch
import proofs.«411449_j51797305589934_2_alg».proof.Proof.Gen.KernelIdeal.Points
import proofs.«411449_j51797305589934_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)

theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)

theorem before21_2_of {c : Dev nD} (dat : Dat τ (Elt F) Unit ℕ (UR sig nD τ) ℕ cfg21 c) (hA : dat.A 2 = V c (Pipeline.arrRef spec21 2))
    (hafter : ∀ t, dat.after 2 t = iblk21 V c 2 t) (t : Fin cfg21.N) (d) : dat.before 2 t d = iblk21 V c 2 t :=
  (dat.before_in_eq_fetched 2 rfl (fun _ => rfl) (fun _ _ _ => rfl) (fun t => by rw [hafter]; unfold Dat.blockOf iblk21; rw [hA]; try rfl) t d).trans
    (by unfold Dat.fetched Dat.blockOf iblk21; rw [hA]; try rfl)

theorem before21_3_of {c : Dev nD} (dat : Dat τ (Elt F) Unit ℕ (UR sig nD τ) ℕ cfg21 c) (hA : dat.A 3 = V c (Pipeline.arrRef spec21 3))
    (hafter : ∀ t, dat.after 3 t = iblk21 V c 3 t) (t : Fin cfg21.N) (d) : dat.before 3 t d = iblk21 V c 3 t :=
  (dat.before_in_eq_fetched 3 rfl (fun _ => rfl) (fun _ _ _ => rfl) (fun t => by rw [hafter]; unfold Dat.blockOf iblk21; rw [hA]; try rfl) t d).trans
    (by unfold Dat.fetched Dat.blockOf iblk21; rw [hA]; try rfl)

theorem before21_4_of {c : Dev nD} (dat : Dat τ (Elt F) Unit ℕ (UR sig nD τ) ℕ cfg21 c) (hA : dat.A 4 = V c (Pipeline.arrRef spec21 4))
    (hafter : ∀ t, dat.after 4 t = iblk21 V c 4 t) (t : Fin cfg21.N) (d) : dat.before 4 t d = iblk21 V c 4 t :=
  (dat.before_in_eq_fetched 4 rfl (fun _ => rfl) (fun _ _ _ => rfl) (fun t => by rw [hafter]; unfold Dat.blockOf iblk21; rw [hA]; try rfl) t d).trans
    (by unfold Dat.fetched Dat.blockOf iblk21; rw [hA]; try rfl)

abbrev r21_0 : Rect S512x256 := Rect.unit (s := S512x256) ![0, 0] S512x256.size inb_S512x256_S512x256_0_0
abbrev r21_1 : Rect S256x128 := Rect.unit (s := S256x128) ![0, 0] S256x128.size inb_S256x128_S256x128_0_0
abbrev r21_2 : Rect S1x128 := Rect.unit (s := S1x128) ![0, 0] S1x128.size inb_S1x128_S1x128_0_0
abbrev r21_3 : Rect S128x1 := Rect.unit (s := S128x1) ![0, 0] S128x1.size inb_S128x1_S128x1_0_0
abbrev r21_4 : Rect S1x1 := Rect.unit (s := S1x1) ![0, 0] S1x1.size inb_S1x1_S1x1_0_0
abbrev r21_5 : Rect S512x1 := Rect.unit (s := S512x1) ![0, 0] S512x1.size inb_S512x1_S512x1_0_0

def out21_5 (x0 : Vec F S512x256 .f32) (x1 : Vec F S256x128 .f32) (x2 : Vec F S1x128 .f32) (x3 : Vec F S128x1 .f32) (x4 : Vec F S1x1 .f32) : Vec F S512x1 .f32 :=
  View.canon [⟨r21_5, k21_pay1 (View.ld x0 r21_0) (View.ld x1 r21_1) (View.ld x2 r21_2) (View.ld x3 r21_3) (View.ld x4 r21_4)⟩]

theorem cover21_5 (p0 : Vec F S512x1 .f32) (y : S512x1.Idx) :
    ∃ pc ∈ ([⟨r21_5, p0⟩] : List (View.Piece (Elt F) S512x1 .f32)), y ∈ pc.1.set :=
  View.cover_of_tiled [⟨r21_5, p0⟩] S512x1.size (by rfl) y

set_option maxHeartbeats 1000000 in
theorem sound_kernel21 (c : Dev nD) (E : Set ℕ) (i : grid21.Coords) (arg1 : Memref sig .tc .vmem S512x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole)
    (x0 : Vec F S512x256 .f32) (x1 : Vec F S256x128 .f32) (x2 : Vec F S1x128 .f32) (x3 : Vec F S128x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out21_5 x0 x1 x2 x3 x4)) -∗ K ⟨⟩))
      ⊢ wp frame (wpE (defs₀ (F := F)) Variants.none c none) E (cc21__mlp_kernel i arg1 harg1 arg2 harg2 arg3 harg3 arg4 harg4 arg5 harg5 arg6 harg6) K := by
  simp only [cc21__mlp_kernel_eq_skeleton]; unfold cc21__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover21_5 _)

def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => iblk21 V c 2 t
    | ⟨3, _⟩ => iblk21 V c 3 t
    | ⟨4, _⟩ => iblk21 V c 4 t
    | ⟨5, _⟩ => out21_5 (iblk21 V c 0 t) (iblk21 V c 1 t) (iblk21 V c 2 t) (iblk21 V c 3 t) (iblk21 V c 4 t)
  Φ _ := Pipeline.ΦA spec21 c
  q _ := fullShare
  owed _ := 0

theorem A_eq21 (c : Dev nD) (w : Fin cfg21.W) : (dat21 V c).A w = V c (Pipeline.arrRef spec21 w) := by
  dsimp only [dat21]

theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = iblk21 V c 2 t := by dsimp only [dat21]
theorem after21_3 (c : Dev nD) (t : Fin cfg21.N) : (dat21 V c).after 3 t = iblk21 V c 3 t := by dsimp only [dat21]
theorem after21_4 (c : Dev nD) (t : Fin cfg21.N) : (dat21 V c).after 4 t = iblk21 V c 4 t := by dsimp only [dat21]
theorem after21_5 (c : Dev nD) (t : Fin cfg21.N) : (dat21 V c).after 5 t = out21_5 (iblk21 V c 0 t) (iblk21 V c 1 t) (iblk21 V c 2 t) (iblk21 V c 3 t) (iblk21 V c 4 t) := by dsimp only [dat21]

theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d
theorem before21_2 (c : Dev nD) (t : Fin cfg21.N) (d) : (dat21 V c).before 2 t d = iblk21 V c 2 t :=
  before21_2_of V (dat21 V c) (A_eq21 V c 2) (after21_2 V c) t d
theorem before21_3 (c : Dev nD) (t : Fin cfg21.N) (d) : (dat21 V c).before 3 t d = iblk21 V c 3 t :=
  before21_3_of V (dat21 V c) (A_eq21 V c 3) (after21_3 V c) t d
theorem before21_4 (c : Dev nD) (t : Fin cfg21.N) (d) : (dat21 V c).before 4 t d = iblk21 V c 4 t :=
  before21_4_of V (dat21 V c) (A_eq21 V c 4) (after21_4 V c) t d

theorem hin21 (c : Dev nD) : Pipeline.ΦA spec21 c ⊢ (dat21 V c).Φ 0 := by
  dsimp only [dat21]; exact .rfl
theorem hout21 (c : Dev nD) : (dat21 V c).Φ (Fin.last cfg21.N) ⊢ Pipeline.ΦA spec21 c := by
  dsimp only [dat21]; exact .rfl

def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d))
    ∗ (∃ d, owns (c : Thread nD τ) (st21_3 t) fullShare ((dat21 V c).before 3 t d))
    ∗ (∃ d, owns (c : Thread nD τ) (st21_4 t) fullShare ((dat21 V c).before 4 t d))
    ∗ (∃ d, owns (c : Thread nD τ) (st21_5 t) fullShare ((dat21 V c).before 5 t d)))

def bodyPost21 (c : Dev nD) (t : Fin cfg21.N) : sProp 𝕄 :=
  iprop((dat21 V c).Φ t.succ ∗ (dat21 V c).owesAt () t.succ
    ∗ owns (c : Thread nD τ) (st21_0 t) fullShare ((dat21 V c).after 0 t)
    ∗ owns (c : Thread nD τ) (st21_1 t) fullShare ((dat21 V c).after 1 t)
    ∗ owns (c : Thread nD τ) (st21_2 t) fullShare ((dat21 V c).after 2 t)
    ∗ owns (c : Thread nD τ) (st21_3 t) fullShare ((dat21 V c).after 3 t)
    ∗ owns (c : Thread nD τ) (st21_4 t) fullShare ((dat21 V c).after 4 t)
    ∗ owns (c : Thread nD τ) (st21_5 t) fullShare ((dat21 V c).after 5 t))

theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1, before21_2, before21_3, before21_4]
  rw [show (dat21 V c).Φ t.succ = (dat21 V c).Φ t.castSucc from rfl,
    show (dat21 V c).owesAt () t.succ = (dat21 V c).owesAt () t.castSucc from rfl,
    after21_0, after21_1, after21_2, after21_3, after21_4, after21_5]
  iintro ⟨HΦ, Ho, ⟨%d0, H0⟩, ⟨%d1, H1⟩, ⟨%d2, H2⟩, ⟨%d3, H3⟩, ⟨%d4, H4⟩, ⟨%d5, H5⟩⟩
  iapply (sound_kernel21 c Set.univ _ _ _ _ _ _ _ _ _ _ _ _ _ (iblk21 V c 0 t) (iblk21 V c 1 t) (iblk21 V c 2 t) (iblk21 V c 3 t) (iblk21 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation21 (c : Dev nD) : BodyObligation (dat21 (F := F) V c) (defs₀ (F := F)) Variants.none () Set.univ := fun t => by
  rw [bigSep_W21, bigSep_W21]
  exact sound_body21 V c t

end Cert.KernelIdeal.Reg
-- ==== Proof.KI.Chain.lean ====
import proofs.«411449_j51797305589934_2_alg».proof.Proof.KI.RegionsP
import proofs.«411449_j51797305589934_2_alg».proof.Proof.KI.R0
import proofs.«411449_j51797305589934_2_alg».proof.Proof.KI.R1
import proofs.«411449_j51797305589934_2_alg».proof.Proof.KI.R2
import proofs.«411449_j51797305589934_2_alg».proof.Proof.KI.R3
import proofs.«411449_j51797305589934_2_alg».proof.Proof.KI.R4
import proofs.«411449_j51797305589934_2_alg».proof.Proof.KI.R5
import proofs.«411449_j51797305589934_2_alg».proof.Proof.KI.R6
import proofs.«411449_j51797305589934_2_alg».proof.Proof.KI.R7
import proofs.«411449_j51797305589934_2_alg».proof.Proof.KI.R8
import proofs.«411449_j51797305589934_2_alg».proof.Proof.KI.R9
import proofs.«411449_j51797305589934_2_alg».proof.Proof.KI.R10
import proofs.«411449_j51797305589934_2_alg».proof.Proof.KI.R11
import proofs.«411449_j51797305589934_2_alg».proof.Proof.KI.R12
import proofs.«411449_j51797305589934_2_alg».proof.Proof.KI.R13
import proofs.«411449_j51797305589934_2_alg».proof.Proof.KI.R14
import proofs.«411449_j51797305589934_2_alg».proof.Proof.KI.R15
import proofs.«411449_j51797305589934_2_alg».proof.Proof.KI.R16
import proofs.«411449_j51797305589934_2_alg».proof.Proof.KI.R17
import proofs.«411449_j51797305589934_2_alg».proof.Proof.KI.R18
import proofs.«411449_j51797305589934_2_alg».proof.Proof.KI.R19
import proofs.«411449_j51797305589934_2_alg».proof.Proof.KI.R20
import proofs.«411449_j51797305589934_2_alg».proof.Proof.KI.R21
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

set_option maxHeartbeats 2000000

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ)

abbrev Y0 (c : Dev nD) : Valuation τ sig (Elt F) := fun b => m (c, b)

abbrev E0 : (c : Dev nD) → (b : Ref sig .tc) → Buf (Elt F) ((c : Thread nD τ).loc b) := fun c b => Y0 m c b

abbrev Y1 (c : Dev nD) : Valuation τ sig (Elt F) := StableHlo.after hostOps0 (Y0 m c)
abbrev E1 : (c : Dev nD) → (b : Ref sig .tc) → Buf (Elt F) ((c : Thread nD τ).loc b) := fun c b => Y1 m c b

abbrev Y2 (c : Dev nD) : Valuation τ sig (Elt F) := StableHlo.after hostOps0_1 (Y1 m c)
abbrev E2 : (c : Dev nD) → (b : Ref sig .tc) → Buf (Elt F) ((c : Thread nD τ).loc b) := fun c b => Y2 m c b

abbrev Y3 (c : Dev nD) : Valuation τ sig (Elt F) := StableHlo.after hostOps0_2 (Y2 m c)
abbrev E3 : (c : Dev nD) → (b : Ref sig .tc) → Buf (Elt F) ((c : Thread nD τ).loc b) := fun c b => Y3 m c b

def Y4 (c : Dev nD) : Valuation τ sig (Elt F) := Function.update (Y3 m c) main_v32 ((dat0 (E3 m) c).arrAt (2 : Fin cfg0.W) cfg0.N)
abbrev E4 : (c : Dev nD) → (b : Ref sig .tc) → Buf (Elt F) ((c : Thread nD τ).loc b) := fun c b => Y4 m c b

abbrev Y5 (c : Dev nD) : Valuation τ sig (Elt F) := StableHlo.after hostOps1 (Y4 m c)
abbrev E5 : (c : Dev nD) → (b : Ref sig .tc) → Buf (Elt F) ((c : Thread nD τ).loc b) := fun c b => Y5 m c b

def Y6 (c : Dev nD) : Valuation τ sig (Elt F) := Function.update (Function.update (Y5 m c) main_v48_0 ((dat1 (E5 m) c).arrAt (2 : Fin cfg1.W) cfg1.N)) main_v48_1 ((dat1 (E5 m) c).arrAt (3 : Fin cfg1.W) cfg1.N)
abbrev E6 : (c : Dev nD) → (b : Ref sig .tc) → Buf (Elt F) ((c : Thread nD τ).loc b) := fun c b => Y6 m c b

abbrev Y7 (c : Dev nD) : Valuation τ sig (Elt F) := StableHlo.after hostOps2 (Y6 m c)
abbrev E7 : (c : Dev nD) → (b : Ref sig .tc) → Buf (Elt F) ((c : Thread nD τ).loc b) := fun c b => Y7 m c b

def Y8 (c : Dev nD) : Valuation τ sig (Elt F) := Function.update (Y7 m c) main_v51 ((dat2 (E7 m) c).arrAt (2 : Fin cfg2.W) cfg2.N)
abbrev E8 : (c : Dev nD) → (b : Ref sig .tc) → Buf (Elt F) ((c : Thread nD τ).loc b) := fun c b => Y8 m c b

abbrev Y9 (c : Dev nD) : Valuation τ sig (Elt F) := StableHlo.after hostOps3 (Y8 m c)
abbrev E9 : (c : Dev nD) → (b : Ref sig .tc) → Buf (Elt F) ((c : Thread nD τ).loc b) := fun c b => Y9 m c b

def Y10 (c : Dev nD) : Valuation τ sig (Elt F) := Function.update (Y9 m c) main_v59 ((dat3 (E9 m) c).arrAt (5 : Fin cfg3.W) cfg3.N)
abbrev E10 : (c : Dev nD) → (b : Ref sig .tc) → Buf (Elt F) ((c : Thread nD τ).loc b) := fun c b => Y10 m c b

def Y11 (c : Dev nD) : Valuation τ sig (Elt F) := Function.update (Y10 m c) main_v60 ((dat4 (E10 m) c).arrAt (2 : Fin cfg4.W) cfg4.N)
abbrev E11 : (c : Dev nD) → (b : Ref sig .tc) → Buf (Elt F) ((c : Thread nD τ).loc b) := fun c b => Y11 m c b

abbrev Y12 (c : Dev nD) : Valuation τ sig (Elt F) := StableHlo.after hostOps5 (Y11 m c)
abbrev E12 : (c : Dev nD) → (b : Ref sig .tc) → Buf (Elt F) ((c : Thread nD τ).loc b) := fun c b => Y12 m c b

def Y13 (c : Dev nD) : Valuation τ sig (Elt F) := Function.update (Function.update (Y12 m c) main_v76_0 ((dat5 (E12 m) c).arrAt (2 : Fin cfg5.W) cfg5.N)) main_v76_1 ((dat5 (E12 m) c).arrAt (3 : Fin cfg5.W) cfg5.N)
abbrev E13 : (c : Dev nD) → (b : Ref sig .tc) → Buf (Elt F) ((c : Thread nD τ).loc b) := fun c b => Y13 m c b

abbrev Y14 (c : Dev nD) : Valuation τ sig (Elt F) := StableHlo.after hostOps6 (Y13 m c)
abbrev E14 : (c : Dev nD) → (b : Ref sig .tc) → Buf (Elt F) ((c : Thread nD τ).loc b) := fun c b => Y14 m c b

def Y15 (c : Dev nD) : Valuation τ sig (Elt F) := Function.update (Y14 m c) main_v79 ((dat6 (E14 m) c).arrAt (2 : Fin cfg6.W) cfg6.N)
abbrev E15 : (c : Dev nD) → (b : Ref sig .tc) → Buf (Elt F) ((c : Thread nD τ).loc b) := fun c b => Y15 m c b

abbrev Y16 (c : Dev nD) : Valuation τ sig (Elt F) := StableHlo.after hostOps7 (Y15 m c)
abbrev E16 : (c : Dev nD) → (b : Ref sig .tc) → Buf (Elt F) ((c : Thread nD τ).loc b) := fun c b => Y16 m c b

def Y17 (c : Dev nD) : Valuation τ sig (Elt F) := Function.update (Y16 m c) main_v87 ((dat7 (E16 m) c).arrAt (5 : Fin cfg7.W) cfg7.N)
abbrev E17 : (c : Dev nD) → (b : Ref sig .tc) → Buf (Elt F) ((c : Thread nD τ).loc b) := fun c b => Y17 m c b

def Y18 (c : Dev nD) : Valuation τ sig (Elt F) := Function.update (Y17 m c) main_v88 ((dat8 (E17 m) c).arrAt (2 : Fin cfg8.W) cfg8.N)
abbrev E18 : (c : Dev nD) → (b : Ref sig .tc) → Buf (Elt F) ((c : Thread nD τ).loc b) := fun c b => Y18 m c b

abbrev Y19 (c : Dev nD) : Valuation τ sig (Elt F) := StableHlo.after hostOps9 (Y18 m c)
abbrev E19 : (c : Dev nD) → (b : Ref sig .tc) → Buf (Elt F) ((c : Thread nD τ).loc b) := fun c b => Y19 m c b

def Y20 (c : Dev nD) : Valuation τ sig (Elt F) := Function.update (Function.update (Y19 m c) main_v104_0 ((dat9 (E19 m) c).arrAt (2 : Fin cfg9.W) cfg9.N)) main_v104_1 ((dat9 (E19 m) c).arrAt (3 : Fin cfg9.W) cfg9.N)
abbrev E20 : (c : Dev nD) → (b : Ref sig .tc) → Buf (Elt F) ((c : Thread nD τ).loc b) := fun c b => Y20 m c b

abbrev Y21 (c : Dev nD) : Valuation τ sig (Elt F) := StableHlo.after hostOps10 (Y20 m c)
abbrev E21 : (c : Dev nD) → (b : Ref sig .tc) → Buf (Elt F) ((c : Thread nD τ).loc b) := fun c b => Y21 m c b

def Y22 (c : Dev nD) : Valuation τ sig (Elt F) := Function.update (Y21 m c) main_v107 ((dat10 (E21 m) c).arrAt (2 : Fin cfg10.W) cfg10.N)
abbrev E22 : (c : Dev nD) → (b : Ref sig .tc) → Buf (Elt F) ((c : Thread nD τ).loc b) := fun c b => Y22 m c b

abbrev Y23 (c : Dev nD) : Valuation τ sig (Elt F) := StableHlo.after hostOps11 (Y22 m c)
abbrev E23 : (c : Dev nD) → (b : Ref sig .tc) → Buf (Elt F) ((c : Thread nD τ).loc b) := fun c b => Y23 m c b

def Y24 (c : Dev nD) : Valuation τ sig (Elt F) := Function.update (Y23 m c) main_v115 ((dat11 (E23 m) c).arrAt (5 : Fin cfg11.W) cfg11.N)
abbrev E24 : (c : Dev nD) → (b : Ref sig .tc) → Buf (Elt F) ((c : Thread nD τ).loc b) := fun c b => Y24 m c b

def Y25 (c : Dev nD) : Valuation τ sig (Elt F) := Function.update (Y24 m c) main_v116 ((dat12 (E24 m) c).arrAt (2 : Fin cfg12.W) cfg12.N)
abbrev E25 : (c : Dev nD) → (b : Ref sig .tc) → Buf (Elt F) ((c : Thread nD τ).loc b) := fun c b => Y25 m c b

abbrev Y26 (c : Dev nD) : Valuation τ sig (Elt F) := StableHlo.after hostOps13 (Y25 m c)
abbrev E26 : (c : Dev nD) → (b : Ref sig .tc) → Buf (Elt F) ((c : Thread nD τ).loc b) := fun c b => Y26 m c b

def Y27 (c : Dev nD) : Valuation τ sig (Elt F) := Function.update (Function.update (Y26 m c) main_v132_0 ((dat13 (E26 m) c).arrAt (2 : Fin cfg13.W) cfg13.N)) main_v132_1 ((dat13 (E26 m) c).arrAt (3 : Fin cfg13.W) cfg13.N)
abbrev E27 : (c : Dev nD) → (b : Ref sig .tc) → Buf (Elt F) ((c : Thread nD τ).loc b) := fun c b => Y27 m c b

abbrev Y28 (c : Dev nD) : Valuation τ sig (Elt F) := StableHlo.after hostOps14 (Y27 m c)
abbrev E28 : (c : Dev nD) → (b : Ref sig .tc) → Buf (Elt F) ((c : Thread nD τ).loc b) := fun c b => Y28 m c b

def Y29 (c : Dev nD) : Valuation τ sig (Elt F) := Function.update (Y28 m c) main_v135 ((dat14 (E28 m) c).arrAt (2 : Fin cfg14.W) cfg14.N)
abbrev E29 : (c : Dev nD) → (b : Ref sig .tc) → Buf (Elt F) ((c : Thread nD τ).loc b) := fun c b => Y29 m c b

abbrev Y30 (c : Dev nD) : Valuation τ sig (Elt F) := StableHlo.after hostOps15 (Y29 m c)
abbrev E30 : (c : Dev nD) → (b : Ref sig .tc) → Buf (Elt F) ((c : Thread nD τ).loc b) := fun c b => Y30 m c b

def Y31 (c : Dev nD) : Valuation τ sig (Elt F) := Function.update (Y30 m c) main_v143 ((dat15 (E30 m) c).arrAt (5 : Fin cfg15.W) cfg15.N)
abbrev E31 : (c : Dev nD) → (b : Ref sig .tc) → Buf (Elt F) ((c : Thread nD τ).loc b) := fun c b => Y31 m c b

def Y32 (c : Dev nD) : Valuation τ sig (Elt F) := Function.update (Y31 m c) main_v144 ((dat16 (E31 m) c).arrAt (2 : Fin cfg16.W) cfg16.N)
abbrev E32 : (c : Dev nD) → (b : Ref sig .tc) → Buf (Elt F) ((c : Thread nD τ).loc b) := fun c b => Y32 m c b

abbrev Y33 (c : Dev nD) : Valuation τ sig (Elt F) := StableHlo.after hostOps17 (Y32 m c)
abbrev E33 : (c : Dev nD) → (b : Ref sig .tc) → Buf (Elt F) ((c : Thread nD τ).loc b) := fun c b => Y33 m c b

def Y34 (c : Dev nD) : Valuation τ sig (Elt F) := Function.update (Function.update (Y33 m c) main_v160_0 ((dat17 (E33 m) c).arrAt (2 : Fin cfg17.W) cfg17.N)) main_v160_1 ((dat17 (E33 m) c).arrAt (3 : Fin cfg17.W) cfg17.N)
abbrev E34 : (c : Dev nD) → (b : Ref sig .tc) → Buf (Elt F) ((c : Thread nD τ).loc b) := fun c b => Y34 m c b

abbrev Y35 (c : Dev nD) : Valuation τ sig (Elt F) := StableHlo.after hostOps18 (Y34 m c)
abbrev E35 : (c : Dev nD) → (b : Ref sig .tc) → Buf (Elt F) ((c : Thread nD τ).loc b) := fun c b => Y35 m c b

def Y36 (c : Dev nD) : Valuation τ sig (Elt F) := Function.update (Y35 m c) main_v163 ((dat18 (E35 m) c).arrAt (2 : Fin cfg18.W) cfg18.N)
abbrev E36 : (c : Dev nD) → (b : Ref sig .tc) → Buf (Elt F) ((c : Thread nD τ).loc b) := fun c b => Y36 m c b

abbrev Y37 (c : Dev nD) : Valuation τ sig (Elt F) := StableHlo.after hostOps19 (Y36 m c)
abbrev E37 : (c : Dev nD) → (b : Ref sig .tc) → Buf (Elt F) ((c : Thread nD τ).loc b) := fun c b => Y37 m c b

def Y38 (c : Dev nD) : Valuation τ sig (Elt F) := Function.update (Y37 m c) main_v171 ((dat19 (E37 m) c).arrAt (5 : Fin cfg19.W) cfg19.N)
abbrev E38 : (c : Dev nD) → (b : Ref sig .tc) → Buf (Elt F) ((c : Thread nD τ).loc b) := fun c b => Y38 m c b

abbrev Y39 (c : Dev nD) : Valuation τ sig (Elt F) := StableHlo.after hostOps20 (Y38 m c)
abbrev E39 : (c : Dev nD) → (b : Ref sig .tc) → Buf (Elt F) ((c : Thread nD τ).loc b) := fun c b => Y39 m c b

abbrev Y40 (c : Dev nD) : Valuation τ sig (Elt F) := StableHlo.after hostOps20_1 (Y39 m c)
abbrev E40 : (c : Dev nD) → (b : Ref sig .tc) → Buf (Elt F) ((c : Thread nD τ).loc b) := fun c b => Y40 m c b

abbrev Y41 (c : Dev nD) : Valuation τ sig (Elt F) := StableHlo.after hostOps20_2 (Y40 m c)
abbrev E41 : (c : Dev nD) → (b : Ref sig .tc) → Buf (Elt F) ((c : Thread nD τ).loc b) := fun c b => Y41 m c b

abbrev Y42 (c : Dev nD) : Valuation τ sig (Elt F) := StableHlo.after hostOps20_3 (Y41 m c)
abbrev E42 : (c : Dev nD) → (b : Ref sig .tc) → Buf (Elt F) ((c : Thread nD τ).loc b) := fun c b => Y42 m c b

abbrev Y43 (c : Dev nD) : Valuation τ sig (Elt F) := StableHlo.after hostOps20_4 (Y42 m c)
abbrev E43 : (c : Dev nD) → (b : Ref sig .tc) → Buf (Elt F) ((c : Thread nD τ).loc b) := fun c b => Y43 m c b

def Y44 (c : Dev nD) : Valuation τ sig (Elt F) := Function.update (Y43 m c) main_v175 ((dat20 (E43 m) c).arrAt (2 : Fin cfg20.W) cfg20.N)
abbrev E44 : (c : Dev nD) → (b : Ref sig .tc) → Buf (Elt F) ((c : Thread nD τ).loc b) := fun c b => Y44 m c b

abbrev Y45 (c : Dev nD) : Valuation τ sig (Elt F) := StableHlo.after hostOps21 (Y44 m c)
abbrev E45 : (c : Dev nD) → (b : Ref sig .tc) → Buf (Elt F) ((c : Thread nD τ).loc b) := fun c b => Y45 m c b

def Y46 (c : Dev nD) : Valuation τ sig (Elt F) := Function.update (Y45 m c) main_v178 ((dat21 (E45 m) c).arrAt (5 : Fin cfg21.W) cfg21.N)
abbrev E46 : (c : Dev nD) → (b : Ref sig .tc) → Buf (Elt F) ((c : Thread nD τ).loc b) := fun c b => Y46 m c b

abbrev Y47 (c : Dev nD) : Valuation τ sig (Elt F) := StableHlo.after hostOps22 (Y46 m c)
abbrev E47 : (c : Dev nD) → (b : Ref sig .tc) → Buf (Elt F) ((c : Thread nD τ).loc b) := fun c b => Y47 m c b

def outs : GenP.Outs (F := F) := fun J r c => match J with
  | 4 => Y4 m c r
  | 6 => Y6 m c r
  | 8 => Y8 m c r
  | 10 => Y10 m c r
  | 11 => Y11 m c r
  | 13 => Y13 m c r
  | 15 => Y15 m c r
  | 17 => Y17 m c r
  | 18 => Y18 m c r
  | 20 => Y20 m c r
  | 22 => Y22 m c r
  | 24 => Y24 m c r
  | 25 => Y25 m c r
  | 27 => Y27 m c r
  | 29 => Y29 m c r
  | 31 => Y31 m c r
  | 32 => Y32 m c r
  | 34 => Y34 m c r
  | 36 => Y36 m c r
  | 38 => Y38 m c r
  | 44 => Y44 m c r
  | 46 => Y46 m c r
  | _ => Y0 m c r

theorem V0_eq (c : Dev nD) : GenP.V0 m c = Y0 m c := rfl
theorem V1_eq (c : Dev nD) : GenP.V1 m c = Y1 m c := by show StableHlo.after hostOps0 (GenP.V0 m c) = _; rw [V0_eq]
theorem V2_eq (c : Dev nD) : GenP.V2 m c = Y2 m c := by show StableHlo.after hostOps0_1 (GenP.V1 m c) = _; rw [V1_eq]
theorem V3_eq (c : Dev nD) : GenP.V3 m c = Y3 m c := by show StableHlo.after hostOps0_2 (GenP.V2 m c) = _; rw [V2_eq]
theorem V4_eq (c : Dev nD) : GenP.V4 m (outs m) c = Y4 m c := by
  show Function.update (GenP.V3 m c) main_v32 (Y4 m c main_v32) = _
  rw [V3_eq]
  have h0 : Y4 m c main_v32 = (dat0 (E3 m) c).arrAt (2 : Fin cfg0.W) cfg0.N := by
    unfold Y4; rw [Function.update_self]
  rw [h0]; rfl
theorem V5_eq (c : Dev nD) : GenP.V5 m (outs m) c = Y5 m c := by show StableHlo.after hostOps1 (GenP.V4 m (outs m) c) = _; rw [V4_eq]
theorem V6_eq (c : Dev nD) : GenP.V6 m (outs m) c = Y6 m c := by
  show Function.update (Function.update (GenP.V5 m (outs m) c) main_v48_0 (Y6 m c main_v48_0)) main_v48_1 (Y6 m c main_v48_1) = _
  rw [V5_eq]
  have h0 : Y6 m c main_v48_0 = (dat1 (E5 m) c).arrAt (2 : Fin cfg1.W) cfg1.N := by
    unfold Y6; rw [Function.update_of_ne (fun e => by cases Proc.devRef_injective _ e), Function.update_self]
  have h1 : Y6 m c main_v48_1 = (dat1 (E5 m) c).arrAt (3 : Fin cfg1.W) cfg1.N := by
    unfold Y6; rw [Function.update_self]
  rw [h0, h1]; rfl
theorem V7_eq (c : Dev nD) : GenP.V7 m (outs m) c = Y7 m c := by show StableHlo.after hostOps2 (GenP.V6 m (outs m) c) = _; rw [V6_eq]
theorem V8_eq (c : Dev nD) : GenP.V8 m (outs m) c = Y8 m c := by
  show Function.update (GenP.V7 m (outs m) c) main_v51 (Y8 m c main_v51) = _
  rw [V7_eq]
  have h0 : Y8 m c main_v51 = (dat2 (E7 m) c).arrAt (2 : Fin cfg2.W) cfg2.N := by
    unfold Y8; rw [Function.update_self]
  rw [h0]; rfl
theorem V9_eq (c : Dev nD) : GenP.V9 m (outs m) c = Y9 m c := by show StableHlo.after hostOps3 (GenP.V8 m (outs m) c) = _; rw [V8_eq]
theorem V10_eq (c : Dev nD) : GenP.V10 m (outs m) c = Y10 m c := by
  show Function.update (GenP.V9 m (outs m) c) main_v59 (Y10 m c main_v59) = _
  rw [V9_eq]
  have h0 : Y10 m c main_v59 = (dat3 (E9 m) c).arrAt (5 : Fin cfg3.W) cfg3.N := by
    unfold Y10; rw [Function.update_self]
  rw [h0]; rfl
theorem V11_eq (c : Dev nD) : GenP.V11 m (outs m) c = Y11 m c := by
  show Function.update (GenP.V10 m (outs m) c) main_v60 (Y11 m c main_v60) = _
  rw [V10_eq]
  have h0 : Y11 m c main_v60 = (dat4 (E10 m) c).arrAt (2 : Fin cfg4.W) cfg4.N := by
    unfold Y11; rw [Function.update_self]
  rw [h0]; rfl
theorem V12_eq (c : Dev nD) : GenP.V12 m (outs m) c = Y12 m c := by show StableHlo.after hostOps5 (GenP.V11 m (outs m) c) = _; rw [V11_eq]
theorem V13_eq (c : Dev nD) : GenP.V13 m (outs m) c = Y13 m c := by
  show Function.update (Function.update (GenP.V12 m (outs m) c) main_v76_0 (Y13 m c main_v76_0)) main_v76_1 (Y13 m c main_v76_1) = _
  rw [V12_eq]
  have h0 : Y13 m c main_v76_0 = (dat5 (E12 m) c).arrAt (2 : Fin cfg5.W) cfg5.N := by
    unfold Y13; rw [Function.update_of_ne (fun e => by cases Proc.devRef_injective _ e), Function.update_self]
  have h1 : Y13 m c main_v76_1 = (dat5 (E12 m) c).arrAt (3 : Fin cfg5.W) cfg5.N := by
    unfold Y13; rw [Function.update_self]
  rw [h0, h1]; rfl
theorem V14_eq (c : Dev nD) : GenP.V14 m (outs m) c = Y14 m c := by show StableHlo.after hostOps6 (GenP.V13 m (outs m) c) = _; rw [V13_eq]
theorem V15_eq (c : Dev nD) : GenP.V15 m (outs m) c = Y15 m c := by
  show Function.update (GenP.V14 m (outs m) c) main_v79 (Y15 m c main_v79) = _
  rw [V14_eq]
  have h0 : Y15 m c main_v79 = (dat6 (E14 m) c).arrAt (2 : Fin cfg6.W) cfg6.N := by
    unfold Y15; rw [Function.update_self]
  rw [h0]; rfl
theorem V16_eq (c : Dev nD) : GenP.V16 m (outs m) c = Y16 m c := by show StableHlo.after hostOps7 (GenP.V15 m (outs m) c) = _; rw [V15_eq]
theorem V17_eq (c : Dev nD) : GenP.V17 m (outs m) c = Y17 m c := by
  show Function.update (GenP.V16 m (outs m) c) main_v87 (Y17 m c main_v87) = _
  rw [V16_eq]
  have h0 : Y17 m c main_v87 = (dat7 (E16 m) c).arrAt (5 : Fin cfg7.W) cfg7.N := by
    unfold Y17; rw [Function.update_self]
  rw [h0]; rfl
theorem V18_eq (c : Dev nD) : GenP.V18 m (outs m) c = Y18 m c := by
  show Function.update (GenP.V17 m (outs m) c) main_v88 (Y18 m c main_v88) = _
  rw [V17_eq]
  have h0 : Y18 m c main_v88 = (dat8 (E17 m) c).arrAt (2 : Fin cfg8.W) cfg8.N := by
    unfold Y18; rw [Function.update_self]
  rw [h0]; rfl
theorem V19_eq (c : Dev nD) : GenP.V19 m (outs m) c = Y19 m c := by show StableHlo.after hostOps9 (GenP.V18 m (outs m) c) = _; rw [V18_eq]
theorem V20_eq (c : Dev nD) : GenP.V20 m (outs m) c = Y20 m c := by
  show Function.update (Function.update (GenP.V19 m (outs m) c) main_v104_0 (Y20 m c main_v104_0)) main_v104_1 (Y20 m c main_v104_1) = _
  rw [V19_eq]
  have h0 : Y20 m c main_v104_0 = (dat9 (E19 m) c).arrAt (2 : Fin cfg9.W) cfg9.N := by
    unfold Y20; rw [Function.update_of_ne (fun e => by cases Proc.devRef_injective _ e), Function.update_self]
  have h1 : Y20 m c main_v104_1 = (dat9 (E19 m) c).arrAt (3 : Fin cfg9.W) cfg9.N := by
    unfold Y20; rw [Function.update_self]
  rw [h0, h1]; rfl
theorem V21_eq (c : Dev nD) : GenP.V21 m (outs m) c = Y21 m c := by show StableHlo.after hostOps10 (GenP.V20 m (outs m) c) = _; rw [V20_eq]
theorem V22_eq (c : Dev nD) : GenP.V22 m (outs m) c = Y22 m c := by
  show Function.update (GenP.V21 m (outs m) c) main_v107 (Y22 m c main_v107) = _
  rw [V21_eq]
  have h0 : Y22 m c main_v107 = (dat10 (E21 m) c).arrAt (2 : Fin cfg10.W) cfg10.N := by
    unfold Y22; rw [Function.update_self]
  rw [h0]; rfl
theorem V23_eq (c : Dev nD) : GenP.V23 m (outs m) c = Y23 m c := by show StableHlo.after hostOps11 (GenP.V22 m (outs m) c) = _; rw [V22_eq]
theorem V24_eq (c : Dev nD) : GenP.V24 m (outs m) c = Y24 m c := by
  show Function.update (GenP.V23 m (outs m) c) main_v115 (Y24 m c main_v115) = _
  rw [V23_eq]
  have h0 : Y24 m c main_v115 = (dat11 (E23 m) c).arrAt (5 : Fin cfg11.W) cfg11.N := by
    unfold Y24; rw [Function.update_self]
  rw [h0]; rfl
theorem V25_eq (c : Dev nD) : GenP.V25 m (outs m) c = Y25 m c := by
  show Function.update (GenP.V24 m (outs m) c) main_v116 (Y25 m c main_v116) = _
  rw [V24_eq]
  have h0 : Y25 m c main_v116 = (dat12 (E24 m) c).arrAt (2 : Fin cfg12.W) cfg12.N := by
    unfold Y25; rw [Function.update_self]
  rw [h0]; rfl
theorem V26_eq (c : Dev nD) : GenP.V26 m (outs m) c = Y26 m c := by show StableHlo.after hostOps13 (GenP.V25 m (outs m) c) = _; rw [V25_eq]
theorem V27_eq (c : Dev nD) : GenP.V27 m (outs m) c = Y27 m c := by
  show Function.update (Function.update (GenP.V26 m (outs m) c) main_v132_0 (Y27 m c main_v132_0)) main_v132_1 (Y27 m c main_v132_1) = _
  rw [V26_eq]
  have h0 : Y27 m c main_v132_0 = (dat13 (E26 m) c).arrAt (2 : Fin cfg13.W) cfg13.N := by
    unfold Y27; rw [Function.update_of_ne (fun e => by cases Proc.devRef_injective _ e), Function.update_self]
  have h1 : Y27 m c main_v132_1 = (dat13 (E26 m) c).arrAt (3 : Fin cfg13.W) cfg13.N := by
    unfold Y27; rw [Function.update_self]
  rw [h0, h1]; rfl
theorem V28_eq (c : Dev nD) : GenP.V28 m (outs m) c = Y28 m c := by show StableHlo.after hostOps14 (GenP.V27 m (outs m) c) = _; rw [V27_eq]
theorem V29_eq (c : Dev nD) : GenP.V29 m (outs m) c = Y29 m c := by
  show Function.update (GenP.V28 m (outs m) c) main_v135 (Y29 m c main_v135) = _
  rw [V28_eq]
  have h0 : Y29 m c main_v135 = (dat14 (E28 m) c).arrAt (2 : Fin cfg14.W) cfg14.N := by
    unfold Y29; rw [Function.update_self]
  rw [h0]; rfl
theorem V30_eq (c : Dev nD) : GenP.V30 m (outs m) c = Y30 m c := by show StableHlo.after hostOps15 (GenP.V29 m (outs m) c) = _; rw [V29_eq]
theorem V31_eq (c : Dev nD) : GenP.V31 m (outs m) c = Y31 m c := by
  show Function.update (GenP.V30 m (outs m) c) main_v143 (Y31 m c main_v143) = _
  rw [V30_eq]
  have h0 : Y31 m c main_v143 = (dat15 (E30 m) c).arrAt (5 : Fin cfg15.W) cfg15.N := by
    unfold Y31; rw [Function.update_self]
  rw [h0]; rfl
theorem V32_eq (c : Dev nD) : GenP.V32 m (outs m) c = Y32 m c := by
  show Function.update (GenP.V31 m (outs m) c) main_v144 (Y32 m c main_v144) = _
  rw [V31_eq]
  have h0 : Y32 m c main_v144 = (dat16 (E31 m) c).arrAt (2 : Fin cfg16.W) cfg16.N := by
    unfold Y32; rw [Function.update_self]
  rw [h0]; rfl
theorem V33_eq (c : Dev nD) : GenP.V33 m (outs m) c = Y33 m c := by show StableHlo.after hostOps17 (GenP.V32 m (outs m) c) = _; rw [V32_eq]
theorem V34_eq (c : Dev nD) : GenP.V34 m (outs m) c = Y34 m c := by
  show Function.update (Function.update (GenP.V33 m (outs m) c) main_v160_0 (Y34 m c main_v160_0)) main_v160_1 (Y34 m c main_v160_1) = _
  rw [V33_eq]
  have h0 : Y34 m c main_v160_0 = (dat17 (E33 m) c).arrAt (2 : Fin cfg17.W) cfg17.N := by
    unfold Y34; rw [Function.update_of_ne (fun e => by cases Proc.devRef_injective _ e), Function.update_self]
  have h1 : Y34 m c main_v160_1 = (dat17 (E33 m) c).arrAt (3 : Fin cfg17.W) cfg17.N := by
    unfold Y34; rw [Function.update_self]
  rw [h0, h1]; rfl
theorem V35_eq (c : Dev nD) : GenP.V35 m (outs m) c = Y35 m c := by show StableHlo.after hostOps18 (GenP.V34 m (outs m) c) = _; rw [V34_eq]
theorem V36_eq (c : Dev nD) : GenP.V36 m (outs m) c = Y36 m c := by
  show Function.update (GenP.V35 m (outs m) c) main_v163 (Y36 m c main_v163) = _
  rw [V35_eq]
  have h0 : Y36 m c main_v163 = (dat18 (E35 m) c).arrAt (2 : Fin cfg18.W) cfg18.N := by
    unfold Y36; rw [Function.update_self]
  rw [h0]; rfl
theorem V37_eq (c : Dev nD) : GenP.V37 m (outs m) c = Y37 m c := by show StableHlo.after hostOps19 (GenP.V36 m (outs m) c) = _; rw [V36_eq]
theorem V38_eq (c : Dev nD) : GenP.V38 m (outs m) c = Y38 m c := by
  show Function.update (GenP.V37 m (outs m) c) main_v171 (Y38 m c main_v171) = _
  rw [V37_eq]
  have h0 : Y38 m c main_v171 = (dat19 (E37 m) c).arrAt (5 : Fin cfg19.W) cfg19.N := by
    unfold Y38; rw [Function.update_self]
  rw [h0]; rfl
theorem V39_eq (c : Dev nD) : GenP.V39 m (outs m) c = Y39 m c := by show StableHlo.after hostOps20 (GenP.V38 m (outs m) c) = _; rw [V38_eq]
theorem V40_eq (c : Dev nD) : GenP.V40 m (outs m) c = Y40 m c := by show StableHlo.after hostOps20_1 (GenP.V39 m (outs m) c) = _; rw [V39_eq]
theorem V41_eq (c : Dev nD) : GenP.V41 m (outs m) c = Y41 m c := by show StableHlo.after hostOps20_2 (GenP.V40 m (outs m) c) = _; rw [V40_eq]
theorem V42_eq (c : Dev nD) : GenP.V42 m (outs m) c = Y42 m c := by show StableHlo.after hostOps20_3 (GenP.V41 m (outs m) c) = _; rw [V41_eq]
theorem V43_eq (c : Dev nD) : GenP.V43 m (outs m) c = Y43 m c := by show StableHlo.after hostOps20_4 (GenP.V42 m (outs m) c) = _; rw [V42_eq]
theorem V44_eq (c : Dev nD) : GenP.V44 m (outs m) c = Y44 m c := by
  show Function.update (GenP.V43 m (outs m) c) main_v175 (Y44 m c main_v175) = _
  rw [V43_eq]
  have h0 : Y44 m c main_v175 = (dat20 (E43 m) c).arrAt (2 : Fin cfg20.W) cfg20.N := by
    unfold Y44; rw [Function.update_self]
  rw [h0]; rfl
theorem V45_eq (c : Dev nD) : GenP.V45 m (outs m) c = Y45 m c := by show StableHlo.after hostOps21 (GenP.V44 m (outs m) c) = _; rw [V44_eq]
theorem V46_eq (c : Dev nD) : GenP.V46 m (outs m) c = Y46 m c := by
  show Function.update (GenP.V45 m (outs m) c) main_v178 (Y46 m c main_v178) = _
  rw [V45_eq]
  have h0 : Y46 m c main_v178 = (dat21 (E45 m) c).arrAt (5 : Fin cfg21.W) cfg21.N := by
    unfold Y46; rw [Function.update_self]
  rw [h0]; rfl
theorem V47_eq (c : Dev nD) : GenP.V47 m (outs m) c = Y47 m c := by show StableHlo.after hostOps22 (GenP.V46 m (outs m) c) = _; rw [V46_eq]

theorem hF0 (c : Dev nD) (w : Fin cfg0.W) : (dat0 (E3 m) c).arrAt w cfg0.N = E4 m c (Pipeline.arrRef spec0 w) :=
  match w with
  | ⟨0, _⟩ | ⟨1, _⟩ => by
    refine ((dat0 (E3 m) c).arrAt_in _ (by rfl) _).trans ((A_eq0 (E3 m) c _).trans ?_)
    unfold E4 Y4; rw [Function.update_of_ne] <;> exact fun e => by cases Proc.devRef_injective _ e
  | ⟨2, _⟩ => by
    unfold E4 Y4
    show _ = (Function.update (Y3 m c) (Proc.tc.devRef main_v32) _) (Proc.tc.devRef main_v32)
    rw [Function.update_self]; rfl
  | ⟨_ + 3, h⟩ => absurd h (Nat.not_lt.2 (Nat.le_add_left _ _))
theorem hrest0 (c : Dev nD) : ∀ b, b ∉ Finset.univ.image (Pipeline.arrRef spec0) → E4 m c b = E3 m c b := fun b hb => by
  unfold E4 Y4
  rw [Function.update_of_ne (fun e => hb (Finset.mem_image.mpr ⟨(2 : Fin cfg0.W), Finset.mem_univ _, (Proc.devRef_injective _ e).symm⟩))]
theorem hF1 (c : Dev nD) (w : Fin cfg1.W) : (dat1 (E5 m) c).arrAt w cfg1.N = E6 m c (Pipeline.arrRef spec1 w) :=
  match w with
  | ⟨0, _⟩ | ⟨1, _⟩ => by
    refine ((dat1 (E5 m) c).arrAt_in _ (by rfl) _).trans ((A_eq1 (E5 m) c _).trans ?_)
    unfold E6 Y6; rw [Function.update_of_ne, Function.update_of_ne] <;> exact fun e => by cases Proc.devRef_injective _ e
  | ⟨2, _⟩ => by
    unfold E6 Y6
    show _ = (Function.update (Function.update (Y5 m c) (Proc.tc.devRef main_v48_0) _) (Proc.tc.devRef main_v48_1) _) (Proc.tc.devRef main_v48_0)
    rw [Function.update_of_ne (fun e => by cases Proc.devRef_injective _ e), Function.update_self]; rfl
  | ⟨3, _⟩ => by
    unfold E6 Y6
    show _ = (Function.update (Function.update (Y5 m c) (Proc.tc.devRef main_v48_0) _) (Proc.tc.devRef main_v48_1) _) (Proc.tc.devRef main_v48_1)
    rw [Function.update_self]; rfl
  | ⟨_ + 4, h⟩ => absurd h (Nat.not_lt.2 (Nat.le_add_left _ _))
theorem hrest1 (c : Dev nD) : ∀ b, b ∉ Finset.univ.image (Pipeline.arrRef spec1) → E6 m c b = E5 m c b := fun b hb => by
  unfold E6 Y6
  rw [Function.update_of_ne (fun e => hb (Finset.mem_image.mpr ⟨(3 : Fin cfg1.W), Finset.mem_univ _, (Proc.devRef_injective _ e).symm⟩))]
  rw [Function.update_of_ne (fun e => hb (Finset.mem_image.mpr ⟨(2 : Fin cfg1.W), Finset.mem_univ _, (Proc.devRef_injective _ e).symm⟩))]
theorem hF2 (c : Dev nD) (w : Fin cfg2.W) : (dat2 (E7 m) c).arrAt w cfg2.N = E8 m c (Pipeline.arrRef spec2 w) :=
  match w with
  | ⟨0, _⟩ | ⟨1, _⟩ => by
    refine ((dat2 (E7 m) c).arrAt_in _ (by rfl) _).trans ((A_eq2 (E7 m) c _).trans ?_)
    unfold E8 Y8; rw [Function.update_of_ne] <;> exact fun e => by cases Proc.devRef_injective _ e
  | ⟨2, _⟩ => by
    unfold E8 Y8
    show _ = (Function.update (Y7 m c) (Proc.tc.devRef main_v51) _) (Proc.tc.devRef main_v51)
    rw [Function.update_self]; rfl
  | ⟨_ + 3, h⟩ => absurd h (Nat.not_lt.2 (Nat.le_add_left _ _))
theorem hrest2 (c : Dev nD) : ∀ b, b ∉ Finset.univ.image (Pipeline.arrRef spec2) → E8 m c b = E7 m c b := fun b hb => by
  unfold E8 Y8
  rw [Function.update_of_ne (fun e => hb (Finset.mem_image.mpr ⟨(2 : Fin cfg2.W), Finset.mem_univ _, (Proc.devRef_injective _ e).symm⟩))]
theorem hF3 (c : Dev nD) (w : Fin cfg3.W) : (dat3 (E9 m) c).arrAt w cfg3.N = E10 m c (Pipeline.arrRef spec3 w) :=
  match w with
  | ⟨0, _⟩ | ⟨1, _⟩ | ⟨2, _⟩ | ⟨3, _⟩ | ⟨4, _⟩ => by
    refine ((dat3 (E9 m) c).arrAt_in _ (by rfl) _).trans ((A_eq3 (E9 m) c _).trans ?_)
    unfold E10 Y10; rw [Function.update_of_ne] <;> exact fun e => by cases Proc.devRef_injective _ e
  | ⟨5, _⟩ => by
    unfold E10 Y10
    show _ = (Function.update (Y9 m c) (Proc.tc.devRef main_v59) _) (Proc.tc.devRef main_v59)
    rw [Function.update_self]; rfl
  | ⟨_ + 6, h⟩ => absurd h (Nat.not_lt.2 (Nat.le_add_left _ _))
theorem hrest3 (c : Dev nD) : ∀ b, b ∉ Finset.univ.image (Pipeline.arrRef spec3) → E10 m c b = E9 m c b := fun b hb => by
  unfold E10 Y10
  rw [Function.update_of_ne (fun e => hb (Finset.mem_image.mpr ⟨(5 : Fin cfg3.W), Finset.mem_univ _, (Proc.devRef_injective _ e).symm⟩))]
theorem hF4 (c : Dev nD) (w : Fin cfg4.W) : (dat4 (E10 m) c).arrAt w cfg4.N = E11 m c (Pipeline.arrRef spec4 w) :=
  match w with
  | ⟨0, _⟩ | ⟨1, _⟩ => by
    refine ((dat4 (E10 m) c).arrAt_in _ (by rfl) _).trans ((A_eq4 (E10 m) c _).trans ?_)
    unfold E11 Y11; rw [Function.update_of_ne] <;> exact fun e => by cases Proc.devRef_injective _ e
  | ⟨2, _⟩ => by
    unfold E11 Y11
    show _ = (Function.update (Y10 m c) (Proc.tc.devRef main_v60) _) (Proc.tc.devRef main_v60)
    rw [Function.update_self]; rfl
  | ⟨_ + 3, h⟩ => absurd h (Nat.not_lt.2 (Nat.le_add_left _ _))
theorem hrest4 (c : Dev nD) : ∀ b, b ∉ Finset.univ.image (Pipeline.arrRef spec4) → E11 m c b = E10 m c b := fun b hb => by
  unfold E11 Y11
  rw [Function.update_of_ne (fun e => hb (Finset.mem_image.mpr ⟨(2 : Fin cfg4.W), Finset.mem_univ _, (Proc.devRef_injective _ e).symm⟩))]
theorem hF5 (c : Dev nD) (w : Fin cfg5.W) : (dat5 (E12 m) c).arrAt w cfg5.N = E13 m c (Pipeline.arrRef spec5 w) :=
  match w with
  | ⟨0, _⟩ | ⟨1, _⟩ => by
    refine ((dat5 (E12 m) c).arrAt_in _ (by rfl) _).trans ((A_eq5 (E12 m) c _).trans ?_)
    unfold E13 Y13; rw [Function.update_of_ne, Function.update_of_ne] <;> exact fun e => by cases Proc.devRef_injective _ e
  | ⟨2, _⟩ => by
    unfold E13 Y13
    show _ = (Function.update (Function.update (Y12 m c) (Proc.tc.devRef main_v76_0) _) (Proc.tc.devRef main_v76_1) _) (Proc.tc.devRef main_v76_0)
    rw [Function.update_of_ne (fun e => by cases Proc.devRef_injective _ e), Function.update_self]; rfl
  | ⟨3, _⟩ => by
    unfold E13 Y13
    show _ = (Function.update (Function.update (Y12 m c) (Proc.tc.devRef main_v76_0) _) (Proc.tc.devRef main_v76_1) _) (Proc.tc.devRef main_v76_1)
    rw [Function.update_self]; rfl
  | ⟨_ + 4, h⟩ => absurd h (Nat.not_lt.2 (Nat.le_add_left _ _))
theorem hrest5 (c : Dev nD) : ∀ b, b ∉ Finset.univ.image (Pipeline.arrRef spec5) → E13 m c b = E12 m c b := fun b hb => by
  unfold E13 Y13
  rw [Function.update_of_ne (fun e => hb (Finset.mem_image.mpr ⟨(3 : Fin cfg5.W), Finset.mem_univ _, (Proc.devRef_injective _ e).symm⟩))]
  rw [Function.update_of_ne (fun e => hb (Finset.mem_image.mpr ⟨(2 : Fin cfg5.W), Finset.mem_univ _, (Proc.devRef_injective _ e).symm⟩))]
theorem hF6 (c : Dev nD) (w : Fin cfg6.W) : (dat6 (E14 m) c).arrAt w cfg6.N = E15 m c (Pipeline.arrRef spec6 w) :=
  match w with
  | ⟨0, _⟩ | ⟨1, _⟩ => by
    refine ((dat6 (E14 m) c).arrAt_in _ (by rfl) _).trans ((A_eq6 (E14 m) c _).trans ?_)
    unfold E15 Y15; rw [Function.update_of_ne] <;> exact fun e => by cases Proc.devRef_injective _ e
  | ⟨2, _⟩ => by
    unfold E15 Y15
    show _ = (Function.update (Y14 m c) (Proc.tc.devRef main_v79) _) (Proc.tc.devRef main_v79)
    rw [Function.update_self]; rfl
  | ⟨_ + 3, h⟩ => absurd h (Nat.not_lt.2 (Nat.le_add_left _ _))
theorem hrest6 (c : Dev nD) : ∀ b, b ∉ Finset.univ.image (Pipeline.arrRef spec6) → E15 m c b = E14 m c b := fun b hb => by
  unfold E15 Y15
  rw [Function.update_of_ne (fun e => hb (Finset.mem_image.mpr ⟨(2 : Fin cfg6.W), Finset.mem_univ _, (Proc.devRef_injective _ e).symm⟩))]
theorem hF7 (c : Dev nD) (w : Fin cfg7.W) : (dat7 (E16 m) c).arrAt w cfg7.N = E17 m c (Pipeline.arrRef spec7 w) :=
  match w with
  | ⟨0, _⟩ | ⟨1, _⟩ | ⟨2, _⟩ | ⟨3, _⟩ | ⟨4, _⟩ => by
    refine ((dat7 (E16 m) c).arrAt_in _ (by rfl) _).trans ((A_eq7 (E16 m) c _).trans ?_)
    unfold E17 Y17; rw [Function.update_of_ne] <;> exact fun e => by cases Proc.devRef_injective _ e
  | ⟨5, _⟩ => by
    unfold E17 Y17
    show _ = (Function.update (Y16 m c) (Proc.tc.devRef main_v87) _) (Proc.tc.devRef main_v87)
    rw [Function.update_self]; rfl
  | ⟨_ + 6, h⟩ => absurd h (Nat.not_lt.2 (Nat.le_add_left _ _))
theorem hrest7 (c : Dev nD) : ∀ b, b ∉ Finset.univ.image (Pipeline.arrRef spec7) → E17 m c b = E16 m c b := fun b hb => by
  unfold E17 Y17
  rw [Function.update_of_ne (fun e => hb (Finset.mem_image.mpr ⟨(5 : Fin cfg7.W), Finset.mem_univ _, (Proc.devRef_injective _ e).symm⟩))]
theorem hF8 (c : Dev nD) (w : Fin cfg8.W) : (dat8 (E17 m) c).arrAt w cfg8.N = E18 m c (Pipeline.arrRef spec8 w) :=
  match w with
  | ⟨0, _⟩ | ⟨1, _⟩ => by
    refine ((dat8 (E17 m) c).arrAt_in _ (by rfl) _).trans ((A_eq8 (E17 m) c _).trans ?_)
    unfold E18 Y18; rw [Function.update_of_ne] <;> exact fun e => by cases Proc.devRef_injective _ e
  | ⟨2, _⟩ => by
    unfold E18 Y18
    show _ = (Function.update (Y17 m c) (Proc.tc.devRef main_v88) _) (Proc.tc.devRef main_v88)
    rw [Function.update_self]; rfl
  | ⟨_ + 3, h⟩ => absurd h (Nat.not_lt.2 (Nat.le_add_left _ _))
theorem hrest8 (c : Dev nD) : ∀ b, b ∉ Finset.univ.image (Pipeline.arrRef spec8) → E18 m c b = E17 m c b := fun b hb => by
  unfold E18 Y18
  rw [Function.update_of_ne (fun e => hb (Finset.mem_image.mpr ⟨(2 : Fin cfg8.W), Finset.mem_univ _, (Proc.devRef_injective _ e).symm⟩))]
theorem hF9 (c : Dev nD) (w : Fin cfg9.W) : (dat9 (E19 m) c).arrAt w cfg9.N = E20 m c (Pipeline.arrRef spec9 w) :=
  match w with
  | ⟨0, _⟩ | ⟨1, _⟩ => by
    refine ((dat9 (E19 m) c).arrAt_in _ (by rfl) _).trans ((A_eq9 (E19 m) c _).trans ?_)
    unfold E20 Y20; rw [Function.update_of_ne, Function.update_of_ne] <;> exact fun e => by cases Proc.devRef_injective _ e
  | ⟨2, _⟩ => by
    unfold E20 Y20
    show _ = (Function.update (Function.update (Y19 m c) (Proc.tc.devRef main_v104_0) _) (Proc.tc.devRef main_v104_1) _) (Proc.tc.devRef main_v104_0)
    rw [Function.update_of_ne (fun e => by cases Proc.devRef_injective _ e), Function.update_self]; rfl
  | ⟨3, _⟩ => by
    unfold E20 Y20
    show _ = (Function.update (Function.update (Y19 m c) (Proc.tc.devRef main_v104_0) _) (Proc.tc.devRef main_v104_1) _) (Proc.tc.devRef main_v104_1)
    rw [Function.update_self]; rfl
  | ⟨_ + 4, h⟩ => absurd h (Nat.not_lt.2 (Nat.le_add_left _ _))
theorem hrest9 (c : Dev nD) : ∀ b, b ∉ Finset.univ.image (Pipeline.arrRef spec9) → E20 m c b = E19 m c b := fun b hb => by
  unfold E20 Y20
  rw [Function.update_of_ne (fun e => hb (Finset.mem_image.mpr ⟨(3 : Fin cfg9.W), Finset.mem_univ _, (Proc.devRef_injective _ e).symm⟩))]
  rw [Function.update_of_ne (fun e => hb (Finset.mem_image.mpr ⟨(2 : Fin cfg9.W), Finset.mem_univ _, (Proc.devRef_injective _ e).symm⟩))]
theorem hF10 (c : Dev nD) (w : Fin cfg10.W) : (dat10 (E21 m) c).arrAt w cfg10.N = E22 m c (Pipeline.arrRef spec10 w) :=
  match w with
  | ⟨0, _⟩ | ⟨1, _⟩ => by
    refine ((dat10 (E21 m) c).arrAt_in _ (by rfl) _).trans ((A_eq10 (E21 m) c _).trans ?_)
    unfold E22 Y22; rw [Function.update_of_ne] <;> exact fun e => by cases Proc.devRef_injective _ e
  | ⟨2, _⟩ => by
    unfold E22 Y22
    show _ = (Function.update (Y21 m c) (Proc.tc.devRef main_v107) _) (Proc.tc.devRef main_v107)
    rw [Function.update_self]; rfl
  | ⟨_ + 3, h⟩ => absurd h (Nat.not_lt.2 (Nat.le_add_left _ _))
theorem hrest10 (c : Dev nD) : ∀ b, b ∉ Finset.univ.image (Pipeline.arrRef spec10) → E22 m c b = E21 m c b := fun b hb => by
  unfold E22 Y22
  rw [Function.update_of_ne (fun e => hb (Finset.mem_image.mpr ⟨(2 : Fin cfg10.W), Finset.mem_univ _, (Proc.devRef_injective _ e).symm⟩))]
theorem hF11 (c : Dev nD) (w : Fin cfg11.W) : (dat11 (E23 m) c).arrAt w cfg11.N = E24 m c (Pipeline.arrRef spec11 w) :=
  match w with
  | ⟨0, _⟩ | ⟨1, _⟩ | ⟨2, _⟩ | ⟨3, _⟩ | ⟨4, _⟩ => by
    refine ((dat11 (E23 m) c).arrAt_in _ (by rfl) _).trans ((A_eq11 (E23 m) c _).trans ?_)
    unfold E24 Y24; rw [Function.update_of_ne] <;> exact fun e => by cases Proc.devRef_injective _ e
  | ⟨5, _⟩ => by
    unfold E24 Y24
    show _ = (Function.update (Y23 m c) (Proc.tc.devRef main_v115) _) (Proc.tc.devRef main_v115)
    rw [Function.update_self]; rfl
  | ⟨_ + 6, h⟩ => absurd h (Nat.not_lt.2 (Nat.le_add_left _ _))
theorem hrest11 (c : Dev nD) : ∀ b, b ∉ Finset.univ.image (Pipeline.arrRef spec11) → E24 m c b = E23 m c b := fun b hb => by
  unfold E24 Y24
  rw [Function.update_of_ne (fun e => hb (Finset.mem_image.mpr ⟨(5 : Fin cfg11.W), Finset.mem_univ _, (Proc.devRef_injective _ e).symm⟩))]
theorem hF12 (c : Dev nD) (w : Fin cfg12.W) : (dat12 (E24 m) c).arrAt w cfg12.N = E25 m c (Pipeline.arrRef spec12 w) :=
  match w with
  | ⟨0, _⟩ | ⟨1, _⟩ => by
    refine ((dat12 (E24 m) c).arrAt_in _ (by rfl) _).trans ((A_eq12 (E24 m) c _).trans ?_)
    unfold E25 Y25; rw [Function.update_of_ne] <;> exact fun e => by cases Proc.devRef_injective _ e
  | ⟨2, _⟩ => by
    unfold E25 Y25
    show _ = (Function.update (Y24 m c) (Proc.tc.devRef main_v116) _) (Proc.tc.devRef main_v116)
    rw [Function.update_self]; rfl
  | ⟨_ + 3, h⟩ => absurd h (Nat.not_lt.2 (Nat.le_add_left _ _))
theorem hrest12 (c : Dev nD) : ∀ b, b ∉ Finset.univ.image (Pipeline.arrRef spec12) → E25 m c b = E24 m c b := fun b hb => by
  unfold E25 Y25
  rw [Function.update_of_ne (fun e => hb (Finset.mem_image.mpr ⟨(2 : Fin cfg12.W), Finset.mem_univ _, (Proc.devRef_injective _ e).symm⟩))]
theorem hF13 (c : Dev nD) (w : Fin cfg13.W) : (dat13 (E26 m) c).arrAt w cfg13.N = E27 m c (Pipeline.arrRef spec13 w) :=
  match w with
  | ⟨0, _⟩ | ⟨1, _⟩ => by
    refine ((dat13 (E26 m) c).arrAt_in _ (by rfl) _).trans ((A_eq13 (E26 m) c _).trans ?_)
    unfold E27 Y27; rw [Function.update_of_ne, Function.update_of_ne] <;> exact fun e => by cases Proc.devRef_injective _ e
  | ⟨2, _⟩ => by
    unfold E27 Y27
    show _ = (Function.update (Function.update (Y26 m c) (Proc.tc.devRef main_v132_0) _) (Proc.tc.devRef main_v132_1) _) (Proc.tc.devRef main_v132_0)
    rw [Function.update_of_ne (fun e => by cases Proc.devRef_injective _ e), Function.update_self]; rfl
  | ⟨3, _⟩ => by
    unfold E27 Y27
    show _ = (Function.update (Function.update (Y26 m c) (Proc.tc.devRef main_v132_0) _) (Proc.tc.devRef main_v132_1) _) (Proc.tc.devRef main_v132_1)
    rw [Function.update_self]; rfl
  | ⟨_ + 4, h⟩ => absurd h (Nat.not_lt.2 (Nat.le_add_left _ _))
theorem hrest13 (c : Dev nD) : ∀ b, b ∉ Finset.univ.image (Pipeline.arrRef spec13) → E27 m c b = E26 m c b := fun b hb => by
  unfold E27 Y27
  rw [Function.update_of_ne (fun e => hb (Finset.mem_image.mpr ⟨(3 : Fin cfg13.W), Finset.mem_univ _, (Proc.devRef_injective _ e).symm⟩))]
  rw [Function.update_of_ne (fun e => hb (Finset.mem_image.mpr ⟨(2 : Fin cfg13.W), Finset.mem_univ _, (Proc.devRef_injective _ e).symm⟩))]
theorem hF14 (c : Dev nD) (w : Fin cfg14.W) : (dat14 (E28 m) c).arrAt w cfg14.N = E29 m c (Pipeline.arrRef spec14 w) :=
  match w with
  | ⟨0, _⟩ | ⟨1, _⟩ => by
    refine ((dat14 (E28 m) c).arrAt_in _ (by rfl) _).trans ((A_eq14 (E28 m) c _).trans ?_)
    unfold E29 Y29; rw [Function.update_of_ne] <;> exact fun e => by cases Proc.devRef_injective _ e
  | ⟨2, _⟩ => by
    unfold E29 Y29
    show _ = (Function.update (Y28 m c) (Proc.tc.devRef main_v135) _) (Proc.tc.devRef main_v135)
    rw [Function.update_self]; rfl
  | ⟨_ + 3, h⟩ => absurd h (Nat.not_lt.2 (Nat.le_add_left _ _))
theorem hrest14 (c : Dev nD) : ∀ b, b ∉ Finset.univ.image (Pipeline.arrRef spec14) → E29 m c b = E28 m c b := fun b hb => by
  unfold E29 Y29
  rw [Function.update_of_ne (fun e => hb (Finset.mem_image.mpr ⟨(2 : Fin cfg14.W), Finset.mem_univ _, (Proc.devRef_injective _ e).symm⟩))]
theorem hF15 (c : Dev nD) (w : Fin cfg15.W) : (dat15 (E30 m) c).arrAt w cfg15.N = E31 m c (Pipeline.arrRef spec15 w) :=
  match w with
  | ⟨0, _⟩ | ⟨1, _⟩ | ⟨2, _⟩ | ⟨3, _⟩ | ⟨4, _⟩ => by
    refine ((dat15 (E30 m) c).arrAt_in _ (by rfl) _).trans ((A_eq15 (E30 m) c _).trans ?_)
    unfold E31 Y31; rw [Function.update_of_ne] <;> exact fun e => by cases Proc.devRef_injective _ e
  | ⟨5, _⟩ => by
    unfold E31 Y31
    show _ = (Function.update (Y30 m c) (Proc.tc.devRef main_v143) _) (Proc.tc.devRef main_v143)
    rw [Function.update_self]; rfl
  | ⟨_ + 6, h⟩ => absurd h (Nat.not_lt.2 (Nat.le_add_left _ _))
theorem hrest15 (c : Dev nD) : ∀ b, b ∉ Finset.univ.image (Pipeline.arrRef spec15) → E31 m c b = E30 m c b := fun b hb => by
  unfold E31 Y31
  rw [Function.update_of_ne (fun e => hb (Finset.mem_image.mpr ⟨(5 : Fin cfg15.W), Finset.mem_univ _, (Proc.devRef_injective _ e).symm⟩))]
theorem hF16 (c : Dev nD) (w : Fin cfg16.W) : (dat16 (E31 m) c).arrAt w cfg16.N = E32 m c (Pipeline.arrRef spec16 w) :=
  match w with
  | ⟨0, _⟩ | ⟨1, _⟩ => by
    refine ((dat16 (E31 m) c).arrAt_in _ (by rfl) _).trans ((A_eq16 (E31 m) c _).trans ?_)
    unfold E32 Y32; rw [Function.update_of_ne] <;> exact fun e => by cases Proc.devRef_injective _ e
  | ⟨2, _⟩ => by
    unfold E32 Y32
    show _ = (Function.update (Y31 m c) (Proc.tc.devRef main_v144) _) (Proc.tc.devRef main_v144)
    rw [Function.update_self]; rfl
  | ⟨_ + 3, h⟩ => absurd h (Nat.not_lt.2 (Nat.le_add_left _ _))
theorem hrest16 (c : Dev nD) : ∀ b, b ∉ Finset.univ.image (Pipeline.arrRef spec16) → E32 m c b = E31 m c b := fun b hb => by
  unfold E32 Y32
  rw [Function.update_of_ne (fun e => hb (Finset.mem_image.mpr ⟨(2 : Fin cfg16.W), Finset.mem_univ _, (Proc.devRef_injective _ e).symm⟩))]
theorem hF17 (c : Dev nD) (w : Fin cfg17.W) : (dat17 (E33 m) c).arrAt w cfg17.N = E34 m c (Pipeline.arrRef spec17 w) :=
  match w with
  | ⟨0, _⟩ | ⟨1, _⟩ => by
    refine ((dat17 (E33 m) c).arrAt_in _ (by rfl) _).trans ((A_eq17 (E33 m) c _).trans ?_)
    unfold E34 Y34; rw [Function.update_of_ne, Function.update_of_ne] <;> exact fun e => by cases Proc.devRef_injective _ e
  | ⟨2, _⟩ => by
    unfold E34 Y34
    show _ = (Function.update (Function.update (Y33 m c) (Proc.tc.devRef main_v160_0) _) (Proc.tc.devRef main_v160_1) _) (Proc.tc.devRef main_v160_0)
    rw [Function.update_of_ne (fun e => by cases Proc.devRef_injective _ e), Function.update_self]; rfl
  | ⟨3, _⟩ => by
    unfold E34 Y34
    show _ = (Function.update (Function.update (Y33 m c) (Proc.tc.devRef main_v160_0) _) (Proc.tc.devRef main_v160_1) _) (Proc.tc.devRef main_v160_1)
    rw [Function.update_self]; rfl
  | ⟨_ + 4, h⟩ => absurd h (Nat.not_lt.2 (Nat.le_add_left _ _))
theorem hrest17 (c : Dev nD) : ∀ b, b ∉ Finset.univ.image (Pipeline.arrRef spec17) → E34 m c b = E33 m c b := fun b hb => by
  unfold E34 Y34
  rw [Function.update_of_ne (fun e => hb (Finset.mem_image.mpr ⟨(3 : Fin cfg17.W), Finset.mem_univ _, (Proc.devRef_injective _ e).symm⟩))]
  rw [Function.update_of_ne (fun e => hb (Finset.mem_image.mpr ⟨(2 : Fin cfg17.W), Finset.mem_univ _, (Proc.devRef_injective _ e).symm⟩))]
theorem hF18 (c : Dev nD) (w : Fin cfg18.W) : (dat18 (E35 m) c).arrAt w cfg18.N = E36 m c (Pipeline.arrRef spec18 w) :=
  match w with
  | ⟨0, _⟩ | ⟨1, _⟩ => by
    refine ((dat18 (E35 m) c).arrAt_in _ (by rfl) _).trans ((A_eq18 (E35 m) c _).trans ?_)
    unfold E36 Y36; rw [Function.update_of_ne] <;> exact fun e => by cases Proc.devRef_injective _ e
  | ⟨2, _⟩ => by
    unfold E36 Y36
    show _ = (Function.update (Y35 m c) (Proc.tc.devRef main_v163) _) (Proc.tc.devRef main_v163)
    rw [Function.update_self]; rfl
  | ⟨_ + 3, h⟩ => absurd h (Nat.not_lt.2 (Nat.le_add_left _ _))
theorem hrest18 (c : Dev nD) : ∀ b, b ∉ Finset.univ.image (Pipeline.arrRef spec18) → E36 m c b = E35 m c b := fun b hb => by
  unfold E36 Y36
  rw [Function.update_of_ne (fun e => hb (Finset.mem_image.mpr ⟨(2 : Fin cfg18.W), Finset.mem_univ _, (Proc.devRef_injective _ e).symm⟩))]
theorem hF19 (c : Dev nD) (w : Fin cfg19.W) : (dat19 (E37 m) c).arrAt w cfg19.N = E38 m c (Pipeline.arrRef spec19 w) :=
  match w with
  | ⟨0, _⟩ | ⟨1, _⟩ | ⟨2, _⟩ | ⟨3, _⟩ | ⟨4, _⟩ => by
    refine ((dat19 (E37 m) c).arrAt_in _ (by rfl) _).trans ((A_eq19 (E37 m) c _).trans ?_)
    unfold E38 Y38; rw [Function.update_of_ne] <;> exact fun e => by cases Proc.devRef_injective _ e
  | ⟨5, _⟩ => by
    unfold E38 Y38
    show _ = (Function.update (Y37 m c) (Proc.tc.devRef main_v171) _) (Proc.tc.devRef main_v171)
    rw [Function.update_self]; rfl
  | ⟨_ + 6, h⟩ => absurd h (Nat.not_lt.2 (Nat.le_add_left _ _))
theorem hrest19 (c : Dev nD) : ∀ b, b ∉ Finset.univ.image (Pipeline.arrRef spec19) → E38 m c b = E37 m c b := fun b hb => by
  unfold E38 Y38
  rw [Function.update_of_ne (fun e => hb (Finset.mem_image.mpr ⟨(5 : Fin cfg19.W), Finset.mem_univ _, (Proc.devRef_injective _ e).symm⟩))]
theorem hF20 (c : Dev nD) (w : Fin cfg20.W) : (dat20 (E43 m) c).arrAt w cfg20.N = E44 m c (Pipeline.arrRef spec20 w) :=
  match w with
  | ⟨0, _⟩ | ⟨1, _⟩ => by
    refine ((dat20 (E43 m) c).arrAt_in _ (by rfl) _).trans ((A_eq20 (E43 m) c _).trans ?_)
    unfold E44 Y44; rw [Function.update_of_ne] <;> exact fun e => by cases Proc.devRef_injective _ e
  | ⟨2, _⟩ => by
    unfold E44 Y44
    show _ = (Function.update (Y43 m c) (Proc.tc.devRef main_v175) _) (Proc.tc.devRef main_v175)
    rw [Function.update_self]; rfl
  | ⟨_ + 3, h⟩ => absurd h (Nat.not_lt.2 (Nat.le_add_left _ _))
theorem hrest20 (c : Dev nD) : ∀ b, b ∉ Finset.univ.image (Pipeline.arrRef spec20) → E44 m c b = E43 m c b := fun b hb => by
  unfold E44 Y44
  rw [Function.update_of_ne (fun e => hb (Finset.mem_image.mpr ⟨(2 : Fin cfg20.W), Finset.mem_univ _, (Proc.devRef_injective _ e).symm⟩))]
theorem hF21 (c : Dev nD) (w : Fin cfg21.W) : (dat21 (E45 m) c).arrAt w cfg21.N = E46 m c (Pipeline.arrRef spec21 w) :=
  match w with
  | ⟨0, _⟩ | ⟨1, _⟩ | ⟨2, _⟩ | ⟨3, _⟩ | ⟨4, _⟩ => by
    refine ((dat21 (E45 m) c).arrAt_in _ (by rfl) _).trans ((A_eq21 (E45 m) c _).trans ?_)
    unfold E46 Y46; rw [Function.update_of_ne] <;> exact fun e => by cases Proc.devRef_injective _ e
  | ⟨5, _⟩ => by
    unfold E46 Y46
    show _ = (Function.update (Y45 m c) (Proc.tc.devRef main_v178) _) (Proc.tc.devRef main_v178)
    rw [Function.update_self]; rfl
  | ⟨_ + 6, h⟩ => absurd h (Nat.not_lt.2 (Nat.le_add_left _ _))
theorem hrest21 (c : Dev nD) : ∀ b, b ∉ Finset.univ.image (Pipeline.arrRef spec21) → E46 m c b = E45 m c b := fun b hb => by
  unfold E46 Y46
  rw [Function.update_of_ne (fun e => hb (Finset.mem_image.mpr ⟨(5 : Fin cfg21.W), Finset.mem_univ _, (Proc.devRef_injective _ e).symm⟩))]

def pdats : (p : Fin 22) → (c : Dev nD) → Dat τ (Elt F) Unit ℕ (UR sig nD τ) ℕ (Pipeline.pin (pcfgs (F := F)) GenP.adm p) c
  | ⟨0, _⟩ => fun c => dat0 (E3 m) c
  | ⟨1, _⟩ => fun c => dat1 (E5 m) c
  | ⟨2, _⟩ => fun c => dat2 (E7 m) c
  | ⟨3, _⟩ => fun c => dat3 (E9 m) c
  | ⟨4, _⟩ => fun c => dat4 (E10 m) c
  | ⟨5, _⟩ => fun c => dat5 (E12 m) c
  | ⟨6, _⟩ => fun c => dat6 (E14 m) c
  | ⟨7, _⟩ => fun c => dat7 (E16 m) c
  | ⟨8, _⟩ => fun c => dat8 (E17 m) c
  | ⟨9, _⟩ => fun c => dat9 (E19 m) c
  | ⟨10, _⟩ => fun c => dat10 (E21 m) c
  | ⟨11, _⟩ => fun c => dat11 (E23 m) c
  | ⟨12, _⟩ => fun c => dat12 (E24 m) c
  | ⟨13, _⟩ => fun c => dat13 (E26 m) c
  | ⟨14, _⟩ => fun c => dat14 (E28 m) c
  | ⟨15, _⟩ => fun c => dat15 (E30 m) c
  | ⟨16, _⟩ => fun c => dat16 (E31 m) c
  | ⟨17, _⟩ => fun c => dat17 (E33 m) c
  | ⟨18, _⟩ => fun c => dat18 (E35 m) c
  | ⟨19, _⟩ => fun c => dat19 (E37 m) c
  | ⟨20, _⟩ => fun c => dat20 (E43 m) c
  | ⟨21, _⟩ => fun c => dat21 (E45 m) c
  | ⟨_ + 22, h⟩ => absurd h (Nat.not_lt.2 (Nat.le_add_left _ _))

abbrev L : GSem nD τ sig → Finset Unit := fun _ => ∅
abbrev lv : GSem nD τ sig → Unit → ℕ := fun _ _ => 0

abbrev R (c : Dev nD) : Idealize.SL.BI.sProp (MT nD τ sig Unit (Elt F) ℕ (UR sig nD τ) ℕ) :=
  iprop((∃ r, prngReg c r) ∗ ∃ W, owes (c : Thread nD τ) (0 : CellTallies nD τ sig Unit) W)

end Cert.KernelIdeal.Reg

end
-- ==== Proof.KI.Seg.lean ====
import proofs.«411449_j51797305589934_2_alg».proof.Proof.KI.Chain

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (UR sig nD τ) ℕ
variable (m : (ℓ : Loc nD τ sig) → Buf (Elt F) ℓ)

set_option backward.isDefEq.respectTransparency.types false in
/-- One region of @main as a segment between two boundaries of the chain, from the facts of its proof data. -/
def regOf (p : Fin 22) (launch : Pipeline.LaunchFacts (nD := nD) (τ := τ) cfgs p) (Yin Yout : Dev nD → Valuation τ sig (Elt F))
    (hb : ∀ c, BodyObligation (pdats m p c) (defs₀ (F := F)) Variants.none () Set.univ)
    (howed : ∀ c t, (pdats m p c).owed t = 0) (hrec : ∀ c t, (pdats m p c).recorded t = Set.univ) (hq : ∀ c w, (pdats m p c).q w = fullShare)
    (hA : ∀ c w, (pdats m p c).A w = Yin c (Pipeline.arrRef (cfgs p).spec w))
    (hi : ∀ c, Pipeline.ΦA (cfgs p).spec c ⊢ (pdats m p c).Φ 0)
    (hx : ∀ c, (pdats m p c).Φ (Fin.last _) ⊢ Pipeline.ΦA (cfgs p).spec c)
    (hF : ∀ c w, (pdats m p c).arrAt w (cfgs p).N = Yout c (Pipeline.arrRef (cfgs p).spec w))
    (hrest : ∀ c b, b ∉ Finset.univ.image (Pipeline.arrRef (cfgs p).spec) → Yout c b = Yin c b) :
    Pipeline.RegionSeg (pcfgs (F := F)) GenP.adm (pdats m) () defs₀ Variants.none L lv p where
  win := launch.win.to₀
  block_pos := launch.block_pos
  stage_whole := launch.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Yin c) ∗ R c)
  post c := iprop(StableHlo.held (c : Thread nD τ) (Pipeline.ucRefs τ sig) (Yout c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) GenP.adm p).spec c (fun b => Yin c b)
  hentry c := by
    rw [Pipeline.ownSems0_none]
    have hsplit := Pipeline.arrays_of_unscopedBufs (p := p) (pcfgs (F := F)) GenP.adm (pdats m) launch.win launch.arr_whole c
      ((pdats m p c).share_full (hq c)) (fun b => Yin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec]; trivial)
      iexact HO
    isplitl [Hp]; · iexact Hp
    iexact Hrest
  hin c := by
    have h := hi c
    unfold Pipeline.ΦA at h
    iintro ⟨Hp, -, Hr⟩
    iapply h
    isplitl [Hr]; · iexact Hr
    iexact Hp
  hout c := by
    rw [Pipeline.ownSems0_none]
    have h := hx c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := p) (pcfgs (F := F)) GenP.adm (Ix := Unit) (Name := ℕ) (U := UR sig nD τ) (Lvl := ℕ)
      launch.win launch.arr_whole c (pdats m) ((pdats m p c).share_full (hq c))
      (fun b => Yin c b) (fun b => Yout c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

set_option backward.isDefEq.respectTransparency.types false in
def reg0 := regOf m 0 launch0 (Y3 m) (Y4 m) (body_obligation0 (E3 m)) (fun _ _ => rfl) (fun _ _ => rfl) (fun _ _ => rfl)
  (A_eq0 (E3 m)) (hin0 (E3 m)) (hout0 (E3 m)) (hF0 m) (hrest0 m)
set_option backward.isDefEq.respectTransparency.types false in
def reg1 := regOf m 1 launch1 (Y5 m) (Y6 m) (body_obligation1 (E5 m)) (fun _ _ => rfl) (fun _ _ => rfl) (fun _ _ => rfl)
  (A_eq1 (E5 m)) (hin1 (E5 m)) (hout1 (E5 m)) (hF1 m) (hrest1 m)
set_option backward.isDefEq.respectTransparency.types false in
def reg2 := regOf m 2 launch2 (Y7 m) (Y8 m) (body_obligation2 (E7 m)) (fun _ _ => rfl) (fun _ _ => rfl) (fun _ _ => rfl)
  (A_eq2 (E7 m)) (hin2 (E7 m)) (hout2 (E7 m)) (hF2 m) (hrest2 m)
set_option backward.isDefEq.respectTransparency.types false in
def reg3 := regOf m 3 launch3 (Y9 m) (Y10 m) (body_obligation3 (E9 m)) (fun _ _ => rfl) (fun _ _ => rfl) (fun _ _ => rfl)
  (A_eq3 (E9 m)) (hin3 (E9 m)) (hout3 (E9 m)) (hF3 m) (hrest3 m)
set_option backward.isDefEq.respectTransparency.types false in
def reg4 := regOf m 4 launch4 (Y10 m) (Y11 m) (body_obligation4 (E10 m)) (fun _ _ => rfl) (fun _ _ => rfl) (fun _ _ => rfl)
  (A_eq4 (E10 m)) (hin4 (E10 m)) (hout4 (E10 m)) (hF4 m) (hrest4 m)
set_option backward.isDefEq.respectTransparency.types false in
def reg5 := regOf m 5 launch5 (Y12 m) (Y13 m) (body_obligation5 (E12 m)) (fun _ _ => rfl) (fun _ _ => rfl) (fun _ _ => rfl)
  (A_eq5 (E12 m)) (hin5 (E12 m)) (hout5 (E12 m)) (hF5 m) (hrest5 m)
set_option backward.isDefEq.respectTransparency.types false in
def reg6 := regOf m 6 launch6 (Y14 m) (Y15 m) (body_obligation6 (E14 m)) (fun _ _ => rfl) (fun _ _ => rfl) (fun _ _ => rfl)
  (A_eq6 (E14 m)) (hin6 (E14 m)) (hout6 (E14 m)) (hF6 m) (hrest6 m)
set_option backward.isDefEq.respectTransparency.types false in
def reg7 := regOf m 7 launch7 (Y16 m) (Y17 m) (body_obligation7 (E16 m)) (fun _ _ => rfl) (fun _ _ => rfl) (fun _ _ => rfl)
  (A_eq7 (E16 m)) (hin7 (E16 m)) (hout7 (E16 m)) (hF7 m) (hrest7 m)
set_option backward.isDefEq.respectTransparency.types false in
def reg8 := regOf m 8 launch8 (Y17 m) (Y18 m) (body_obligation8 (E17 m)) (fun _ _ => rfl) (fun _ _ => rfl) (fun _ _ => rfl)
  (A_eq8 (E17 m)) (hin8 (E17 m)) (hout8 (E17 m)) (hF8 m) (hrest8 m)
set_option backward.isDefEq.respectTransparency.types false in
def reg9 := regOf m 9 launch9 (Y19 m) (Y20 m) (body_obligation9 (E19 m)) (fun _ _ => rfl) (fun _ _ => rfl) (fun _ _ => rfl)
  (A_eq9 (E19 m)) (hin9 (E19 m)) (hout9 (E19 m)) (hF9 m) (hrest9 m)
set_option backward.isDefEq.respectTransparency.types false in
def reg10 := regOf m 10 launch10 (Y21 m) (Y22 m) (body_obligation10 (E21 m)) (fun _ _ => rfl) (fun _ _ => rfl) (fun _ _ => rfl)
  (A_eq10 (E21 m)) (hin10 (E21 m)) (hout10 (E21 m)) (hF10 m) (hrest10 m)
set_option backward.isDefEq.respectTransparency.types false in
def reg11 := regOf m 11 launch11 (Y23 m) (Y24 m) (body_obligation11 (E23 m)) (fun _ _ => rfl) (fun _ _ => rfl) (fun _ _ => rfl)
  (A_eq11 (E23 m)) (hin11 (E23 m)) (hout11 (E23 m)) (hF11 m) (hrest11 m)
set_option backward.isDefEq.respectTransparency.types false in
def reg12 := regOf m 12 launch12 (Y24 m) (Y25 m) (body_obligation12 (E24 m)) (fun _ _ => rfl) (fun _ _ => rfl) (fun _ _ => rfl)
  (A_eq12 (E24 m)) (hin12 (E24 m)) (hout12 (E24 m)) (hF12 m) (hrest12 m)
set_option backward.isDefEq.respectTransparency.types false in
def reg13 := regOf m 13 launch13 (Y26 m) (Y27 m) (body_obligation13 (E26 m)) (fun _ _ => rfl) (fun _ _ => rfl) (fun _ _ => rfl)
  (A_eq13 (E26 m)) (hin13 (E26 m)) (hout13 (E26 m)) (hF13 m) (hrest13 m)
set_option backward.isDefEq.respectTransparency.types false in
def reg14 := regOf m 14 launch14 (Y28 m) (Y29 m) (body_obligation14 (E28 m)) (fun _ _ => rfl) (fun _ _ => rfl) (fun _ _ => rfl)
  (A_eq14 (E28 m)) (hin14 (E28 m)) (hout14 (E28 m)) (hF14 m) (hrest14 m)
set_option backward.isDefEq.respectTransparency.types false in
def reg15 := regOf m 15 launch15 (Y30 m) (Y31 m) (body_obligation15 (E30 m)) (fun _ _ => rfl) (fun _ _ => rfl) (fun _ _ => rfl)
  (A_eq15 (E30 m)) (hin15 (E30 m)) (hout15 (E30 m)) (hF15 m) (hrest15 m)
set_option backward.isDefEq.respectTransparency.types false in
def reg16 := regOf m 16 launch16 (Y31 m) (Y32 m) (body_obligation16 (E31 m)) (fun _ _ => rfl) (fun _ _ => rfl) (fun _ _ => rfl)
  (A_eq16 (E31 m)) (hin16 (E31 m)) (hout16 (E31 m)) (hF16 m) (hrest16 m)
set_option backward.isDefEq.respectTransparency.types false in
def reg17 := regOf m 17 launch17 (Y33 m) (Y34 m) (body_obligation17 (E33 m)) (fun _ _ => rfl) (fun _ _ => rfl) (fun _ _ => rfl)
  (A_eq17 (E33 m)) (hin17 (E33 m)) (hout17 (E33 m)) (hF17 m) (hrest17 m)
set_option backward.isDefEq.respectTransparency.types false in
def reg18 := regOf m 18 launch18 (Y35 m) (Y36 m) (body_obligation18 (E35 m)) (fun _ _ => rfl) (fun _ _ => rfl) (fun _ _ => rfl)
  (A_eq18 (E35 m)) (hin18 (E35 m)) (hout18 (E35 m)) (hF18 m) (hrest18 m)
set_option backward.isDefEq.respectTransparency.types false in
def reg19 := regOf m 19 launch19 (Y37 m) (Y38 m) (body_obligation19 (E37 m)) (fun _ _ => rfl) (fun _ _ => rfl) (fun _ _ => rfl)
  (A_eq19 (E37 m)) (hin19 (E37 m)) (hout19 (E37 m)) (hF19 m) (hrest19 m)
set_option backward.isDefEq.respectTransparency.types false in
def reg20 := regOf m 20 launch20 (Y43 m) (Y44 m) (body_obligation20 (E43 m)) (fun _ _ => rfl) (fun _ _ => rfl) (fun _ _ => rfl)
  (A_eq20 (E43 m)) (hin20 (E43 m)) (hout20 (E43 m)) (hF20 m) (hrest20 m)
set_option backward.isDefEq.respectTransparency.types false in
def reg21 := regOf m 21 launch21 (Y45 m) (Y46 m) (body_obligation21 (E45 m)) (fun _ _ => rfl) (fun _ _ => rfl) (fun _ _ => rfl)
  (A_eq21 (E45 m)) (hin21 (E45 m)) (hout21 (E45 m)) (hF21 m) (hrest21 m)

end Cert.KernelIdeal.Reg

end
-- ==== Proof.KI.Run.lean ====
import proofs.«411449_j51797305589934_2_alg».proof.Proof.KI.RunCond
import proofs.«411449_j51797305589934_2_alg».proof.Proof.KI.Seg

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28))
      ∧ r.2.mem ((c.tc : Thread nD τ).loc main_v179) = Y47 m c main_v179) := by
  have h := GenP.run_cond (F := F) m (Ix := Unit) (U := UR sig nD τ) (Lvl := ℕ) emb₁ () Variants.none L lv (fun _ _ => rfl) ρ (outs m) (pdats m)
      (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := fun _ c => R c)
      (hE0 := by
        refine Pipeline.initEach L lv fun c => ?_
        iintro ⟨⟨-, HO, -, Hp, -⟩, -⟩
        imodintro
        isplitl [Hp]; · iexists _; iexact Hp
        iexists ∅; iexact HO)
      (hE22 := fun c => by
        iintro ⟨-, HO⟩
        iexact HO)
      (reg0 m) (fun c => by rw [V3_eq]; exact .rfl) (fun c => by rw [V4_eq]; exact .rfl)
      (reg1 m) (fun c => by rw [V5_eq]; exact .rfl) (fun c => by rw [V6_eq]; exact .rfl)
      (reg2 m) (fun c => by rw [V7_eq]; exact .rfl) (fun c => by rw [V8_eq]; exact .rfl)
      (reg3 m) (fun c => by rw [V9_eq]; exact .rfl) (fun c => by rw [V10_eq]; exact .rfl)
      (reg4 m) (fun c => by rw [V10_eq]; exact .rfl) (fun c => by rw [V11_eq]; exact .rfl)
      (reg5 m) (fun c => by rw [V12_eq]; exact .rfl) (fun c => by rw [V13_eq]; exact .rfl)
      (reg6 m) (fun c => by rw [V14_eq]; exact .rfl) (fun c => by rw [V15_eq]; exact .rfl)
      (reg7 m) (fun c => by rw [V16_eq]; exact .rfl) (fun c => by rw [V17_eq]; exact .rfl)
      (reg8 m) (fun c => by rw [V17_eq]; exact .rfl) (fun c => by rw [V18_eq]; exact .rfl)
      (reg9 m) (fun c => by rw [V19_eq]; exact .rfl) (fun c => by rw [V20_eq]; exact .rfl)
      (reg10 m) (fun c => by rw [V21_eq]; exact .rfl) (fun c => by rw [V22_eq]; exact .rfl)
      (reg11 m) (fun c => by rw [V23_eq]; exact .rfl) (fun c => by rw [V24_eq]; exact .rfl)
      (reg12 m) (fun c => by rw [V24_eq]; exact .rfl) (fun c => by rw [V25_eq]; exact .rfl)
      (reg13 m) (fun c => by rw [V26_eq]; exact .rfl) (fun c => by rw [V27_eq]; exact .rfl)
      (reg14 m) (fun c => by rw [V28_eq]; exact .rfl) (fun c => by rw [V29_eq]; exact .rfl)
      (reg15 m) (fun c => by rw [V30_eq]; exact .rfl) (fun c => by rw [V31_eq]; exact .rfl)
      (reg16 m) (fun c => by rw [V31_eq]; exact .rfl) (fun c => by rw [V32_eq]; exact .rfl)
      (reg17 m) (fun c => by rw [V33_eq]; exact .rfl) (fun c => by rw [V34_eq]; exact .rfl)
      (reg18 m) (fun c => by rw [V35_eq]; exact .rfl) (fun c => by rw [V36_eq]; exact .rfl)
      (reg19 m) (fun c => by rw [V37_eq]; exact .rfl) (fun c => by rw [V38_eq]; exact .rfl)
      (reg20 m) (fun c => by rw [V43_eq]; exact .rfl) (fun c => by rw [V44_eq]; exact .rfl)
      (reg21 m) (fun c => by rw [V45_eq]; exact .rfl) (fun c => by rw [V46_eq]; exact .rfl)
  refine (θ_run _ _ _).mono (fun r hr c => ⟨(hr c).1, (hr c).2.trans ?_⟩) h
  exact congrFun (V47_eq m c) _

end Cert.KernelIdeal.Reg

end
-- ==== Proof.Ref.Terms.lean ====
import proofs.«411449_j51797305589934_2_alg».proof.Proof.Gen.ReferenceIdeal

noncomputable section

namespace Cert.ReferenceIdeal.RefRun

open Cert.ReferenceIdeal Cert.ReferenceIdeal.Gen Idealize.ShloMosaic

variable {F : FTy → Type} [FloatOps F]

def gIota : IVec S50000 32 := iotaInDim S50000 32 0

def gSrc (ei : IVec S2x800000 32) : IVec S850000 32 :=
  concatenate S850000 0
    [⟨S800000, shapeCast S800000 (extractStridedSlice S1x800000 ![0, 0] ei slices_S2x800000_S1x800000_0_0)
        shapeCasts_S1x800000_S800000⟩, ⟨S50000, gIota⟩] concatenates_S800000_S50000_S850000_d0

def gDst (ei : IVec S2x800000 32) : IVec S850000 32 :=
  concatenate S850000 0
    [⟨S800000, shapeCast S800000 (extractStridedSlice S1x800000 ![1, 0] ei slices_S2x800000_S1x800000_1_0)
        shapeCasts_S1x800000_S800000⟩, ⟨S50000, gIota⟩] concatenates_S800000_S50000_S850000_d0

def gOnes : FVec F S50000 .f32 := broadcastInDim S50000 ![] bcast_S_S50000 (constant (F := F) S_ .f32 0x3F800000#32)

def gEw (ew : FVec F S800000 .f32) : FVec F S850000 .f32 :=
  concatenate S850000 0 [⟨S800000, ew⟩, ⟨S50000, gOnes⟩] concatenates_S800000_S50000_S850000_d0

def gCol (v : IVec S850000 32) : IVec S850000x1 32 := broadcastInDim S850000x1 ![0] bcast_S850000_S850000x1_0 v

def gWrap (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

def gZeros : FVec F S50000 .f32 := broadcastInDim S50000 ![] bcast_S_S50000 (constant (F := F) S_ .f32 0x00000000#32)

def gDegOf (dst : IVec S850000 32) (w : FVec F S850000 .f32) : FVec F S50000 .f32 :=
  Host.scatterAdd scatter_S50000_S850000x1_S850000_n_0_0_1 gZeros (gCol dst) w

def gDisOf (deg : FVec F S50000 .f32) : FVec F S50000 .f32 := select (cmpf .ogt deg gZeros) (Host.rsqrt deg) gZeros

def gNormOf (dis : FVec F S50000 .f32) (src dst : IVec S850000 32) (w : FVec F S850000 .f32) : FVec F S850000 .f32 :=
  mulf (mulf (Host.gather gather_S50000_S850000x1_S850000_n_0_n_n_0_1_1 dis (gCol (gWrap src))) w)
    (Host.gather gather_S50000_S850000x1_S850000_n_0_n_n_0_1_1 dis (gCol (gWrap dst)))

def gNorm (src dst : IVec S850000 32) (w : FVec F S850000 .f32) : FVec F S850000 .f32 :=
  gNormOf (gDisOf (gDegOf dst w)) src dst w

def gAggG {sx sg sz : Shape} (gd : GatherDims sx S850000x1 sg) (sd : ScatterDims sz S850000x1 sg)
    (dims₂ : Fin S850000x1.rank → Fin sg.rank) (hb : S850000x1.BroadcastsInDim sg dims₂)
    (dims₀ : Fin S_.rank → Fin sz.rank) (hz : S_.BroadcastsInDim sz dims₀)
    (xw : FVec F sx .f32) (src dst : IVec S850000 32) (norm : FVec F S850000 .f32) : FVec F sz .f32 :=
  Host.scatterAdd sd (broadcastInDim sz dims₀ hz (constant (F := F) S_ .f32 0x00000000#32)) (gCol dst)
    (mulf (Host.gather gd xw (gCol (gWrap src)))
      (broadcastInDim sg dims₂ hb (broadcastInDim S850000x1 ![0] bcast_S850000_S850000x1_0 norm)))

def gRows32 (x : FVec F S32 .f32) : FVec F S50000x32 .f32 :=
  broadcastInDim S50000x32 ![0, 1] bcast_S1x32_S50000x32_0_1 (broadcastInDim S1x32 ![1] bcast_S32_S1x32_1 x)

def gZ32 : FVec F S50000x32 .f32 := broadcastInDim S50000x32 ![] bcast_S_S50000x32 (constant (F := F) S_ .f32 0x00000000#32)

def gMean32 (pre : FVec F S50000x32 .f32) : FVec F S32 .f32 :=
  Host.divf (Host.reduceAdd pre (constant (F := F) S_ .f32 0x00000000#32) reducesTo_S50000x32_S32_d0 h_S_)
    (broadcastInDim S32 ![] bcast_S_S32 (constant (F := F) S_ .f32 0x47435000#32))

def gCen32 (pre : FVec F S50000x32 .f32) : FVec F S50000x32 .f32 := subf pre (gRows32 (gMean32 pre))

def gVar32 (pre : FVec F S50000x32 .f32) : FVec F S32 .f32 :=
  Host.divf (Host.reduceAdd (mulf (gCen32 pre) (gCen32 pre)) (constant (F := F) S_ .f32 0x00000000#32) reducesTo_S50000x32_S32_d0 h_S_)
    (broadcastInDim S32 ![] bcast_S_S32 (constant (F := F) S_ .f32 0x47435000#32))

def gBN32 (pre : FVec F S50000x32 .f32) (g beta : FVec F S32 .f32) : FVec F S50000x32 .f32 :=
  addf (mulf (mulf (gRows32 g) (gCen32 pre))
      (gRows32 (Host.rsqrt (addf (gVar32 pre) (broadcastInDim S32 ![] bcast_S_S32 (constant (F := F) S_ .f32 0x3727C5AC#32))))))
    (gRows32 beta)

def gAgg32 (xw : FVec F S50000x32 .f32) (src dst : IVec S850000 32) (norm : FVec F S850000 .f32) : FVec F S50000x32 .f32 :=
  gAggG gather_S50000x32_S850000x1_S850000x32_1_0_n_n_0_1_132 scatter_S50000x32_S850000x1_S850000x32_1_0_0_1
    ![0, 1] bcast_S850000x1_S850000x32_0_1 ![] bcast_S_S50000x32 xw src dst norm

def gRows64 (x : FVec F S64 .f32) : FVec F S50000x64 .f32 :=
  broadcastInDim S50000x64 ![0, 1] bcast_S1x64_S50000x64_0_1 (broadcastInDim S1x64 ![1] bcast_S64_S1x64_1 x)

def gZ64 : FVec F S50000x64 .f32 := broadcastInDim S50000x64 ![] bcast_S_S50000x64 (constant (F := F) S_ .f32 0x00000000#32)

def gMean64 (pre : FVec F S50000x64 .f32) : FVec F S64 .f32 :=
  Host.divf (Host.reduceAdd pre (constant (F := F) S_ .f32 0x00000000#32) reducesTo_S50000x64_S64_d0 h_S_)
    (broadcastInDim S64 ![] bcast_S_S64 (constant (F := F) S_ .f32 0x47435000#32))

def gCen64 (pre : FVec F S50000x64 .f32) : FVec F S50000x64 .f32 := subf pre (gRows64 (gMean64 pre))

def gVar64 (pre : FVec F S50000x64 .f32) : FVec F S64 .f32 :=
  Host.divf (Host.reduceAdd (mulf (gCen64 pre) (gCen64 pre)) (constant (F := F) S_ .f32 0x00000000#32) reducesTo_S50000x64_S64_d0 h_S_)
    (broadcastInDim S64 ![] bcast_S_S64 (constant (F := F) S_ .f32 0x47435000#32))

def gBN64 (pre : FVec F S50000x64 .f32) (g beta : FVec F S64 .f32) : FVec F S50000x64 .f32 :=
  addf (mulf (mulf (gRows64 g) (gCen64 pre))
      (gRows64 (Host.rsqrt (addf (gVar64 pre) (broadcastInDim S64 ![] bcast_S_S64 (constant (F := F) S_ .f32 0x3727C5AC#32))))))
    (gRows64 beta)

def gAgg64 (xw : FVec F S50000x64 .f32) (src dst : IVec S850000 32) (norm : FVec F S850000 .f32) : FVec F S50000x64 .f32 :=
  gAggG gather_S50000x64_S850000x1_S850000x64_1_0_n_n_0_1_164 scatter_S50000x64_S850000x1_S850000x64_1_0_0_1
    ![0, 1] bcast_S850000x1_S850000x64_0_1 ![] bcast_S_S50000x64 xw src dst norm

def gRows128 (x : FVec F S128 .f32) : FVec F S50000x128 .f32 :=
  broadcastInDim S50000x128 ![0, 1] bcast_S1x128_S50000x128_0_1 (broadcastInDim S1x128 ![1] bcast_S128_S1x128_1 x)

def gZ128 : FVec F S50000x128 .f32 := broadcastInDim S50000x128 ![] bcast_S_S50000x128 (constant (F := F) S_ .f32 0x00000000#32)

def gMean128 (pre : FVec F S50000x128 .f32) : FVec F S128 .f32 :=
  Host.divf (Host.reduceAdd pre (constant (F := F) S_ .f32 0x00000000#32) reducesTo_S50000x128_S128_d0 h_S_)
    (broadcastInDim S128 ![] bcast_S_S128 (constant (F := F) S_ .f32 0x47435000#32))

def gCen128 (pre : FVec F S50000x128 .f32) : FVec F S50000x128 .f32 := subf pre (gRows128 (gMean128 pre))

def gVar128 (pre : FVec F S50000x128 .f32) : FVec F S128 .f32 :=
  Host.divf (Host.reduceAdd (mulf (gCen128 pre) (gCen128 pre)) (constant (F := F) S_ .f32 0x00000000#32) reducesTo_S50000x128_S128_d0 h_S_)
    (broadcastInDim S128 ![] bcast_S_S128 (constant (F := F) S_ .f32 0x47435000#32))

def gBN128 (pre : FVec F S50000x128 .f32) (g beta : FVec F S128 .f32) : FVec F S50000x128 .f32 :=
  addf (mulf (mulf (gRows128 g) (gCen128 pre))
      (gRows128 (Host.rsqrt (addf (gVar128 pre) (broadcastInDim S128 ![] bcast_S_S128 (constant (F := F) S_ .f32 0x3727C5AC#32))))))
    (gRows128 beta)

def gAgg128 (xw : FVec F S50000x128 .f32) (src dst : IVec S850000 32) (norm : FVec F S850000 .f32) : FVec F S50000x128 .f32 :=
  gAggG gather_S50000x128_S850000x1_S850000x128_1_0_n_n_0_1_1128 scatter_S50000x128_S850000x1_S850000x128_1_0_0_1
    ![0, 1] bcast_S850000x1_S850000x128_0_1 ![] bcast_S_S50000x128 xw src dst norm

def gRows256 (x : FVec F S256 .f32) : FVec F S50000x256 .f32 :=
  broadcastInDim S50000x256 ![0, 1] bcast_S1x256_S50000x256_0_1 (broadcastInDim S1x256 ![1] bcast_S256_S1x256_1 x)

def gZ256 : FVec F S50000x256 .f32 := broadcastInDim S50000x256 ![] bcast_S_S50000x256 (constant (F := F) S_ .f32 0x00000000#32)

def gMean256 (pre : FVec F S50000x256 .f32) : FVec F S256 .f32 :=
  Host.divf (Host.reduceAdd pre (constant (F := F) S_ .f32 0x00000000#32) reducesTo_S50000x256_S256_d0 h_S_)
    (broadcastInDim S256 ![] bcast_S_S256 (constant (F := F) S_ .f32 0x47435000#32))

def gCen256 (pre : FVec F S50000x256 .f32) : FVec F S50000x256 .f32 := subf pre (gRows256 (gMean256 pre))

def gVar256 (pre : FVec F S50000x256 .f32) : FVec F S256 .f32 :=
  Host.divf (Host.reduceAdd (mulf (gCen256 pre) (gCen256 pre)) (constant (F := F) S_ .f32 0x00000000#32) reducesTo_S50000x256_S256_d0 h_S_)
    (broadcastInDim S256 ![] bcast_S_S256 (constant (F := F) S_ .f32 0x47435000#32))

def gBN256 (pre : FVec F S50000x256 .f32) (g beta : FVec F S256 .f32) : FVec F S50000x256 .f32 :=
  addf (mulf (mulf (gRows256 g) (gCen256 pre))
      (gRows256 (Host.rsqrt (addf (gVar256 pre) (broadcastInDim S256 ![] bcast_S_S256 (constant (F := F) S_ .f32 0x3727C5AC#32))))))
    (gRows256 beta)

def gAgg256 (xw : FVec F S50000x256 .f32) (src dst : IVec S850000 32) (norm : FVec F S850000 .f32) : FVec F S50000x256 .f32 :=
  gAggG gather_S50000x256_S850000x1_S850000x256_1_0_n_n_0_1_1256 scatter_S50000x256_S850000x1_S850000x256_1_0_0_1
    ![0, 1] bcast_S850000x1_S850000x256_0_1 ![] bcast_S_S50000x256 xw src dst norm

def gPool (h : FVec F S50000x256 .f32) (batch : IVec S50000 32) : FVec F S512x256 .f32 :=
  Host.scatterAdd scatter_S512x256_S50000x1_S50000x256_1_0_0_1
    (broadcastInDim S512x256 ![] bcast_S_S512x256 (constant (F := F) S_ .f32 0x00000000#32))
    (broadcastInDim S50000x1 ![0] bcast_S50000_S50000x1_0 batch) h

def gPooled (h : FVec F S50000x256 .f32) (batch : IVec S50000 32) : FVec F S512x256 .f32 :=
  maximumf (gPool h batch) (broadcastInDim S512x256 ![] bcast_S_S512x256 (constant (F := F) S_ .f32 0x00000000#32))

def gTailOf (p : FVec F S512x128 .f32) (fc1b : FVec F S128 .f32) (fc2w : FVec F S128x1 .f32) (fc2b : FVec F S1 .f32) : FVec F S512 .f32 :=
  shapeCast S512
    (addf (Host.dotGeneral (φ₁ := .f32) (φ₂ := .f32) dot_S512x128_S128x1_S512x1_1_0_0_1_n_n none
        (maximumf (addf p (broadcastInDim S512x128 ![0, 1] bcast_S1x128_S512x128_0_1 (broadcastInDim S1x128 ![1] bcast_S128_S1x128_1 fc1b)))
          (broadcastInDim S512x128 ![] bcast_S_S512x128 (constant (F := F) S_ .f32 0x00000000#32))) fc2w)
      (broadcastInDim S512x1 ![0, 1] bcast_S1x1_S512x1_0_1 (broadcastInDim S1x1 ![1] bcast_S1_S1x1_1 fc2b)))
    shapeCasts_S512x1_S512

end Cert.ReferenceIdeal.RefRun

end
-- ==== Proof.Ref.Run.lean ====
import proofs.«411449_j51797305589934_2_alg».proof.Proof.Gen.ReferenceIdeal
import proofs.«411449_j51797305589934_2_alg».proof.Proof.Ref.W0
import proofs.«411449_j51797305589934_2_alg».proof.Proof.Ref.W1
import proofs.«411449_j51797305589934_2_alg».proof.Proof.Ref.W2
import proofs.«411449_j51797305589934_2_alg».proof.Proof.Ref.W3
import proofs.«411449_j51797305589934_2_alg».proof.Proof.Ref.W4
import proofs.«411449_j51797305589934_2_alg».proof.Proof.Ref.W5
import proofs.«411449_j51797305589934_2_alg».proof.Proof.Ref.W6
import proofs.«411449_j51797305589934_2_alg».proof.Proof.Ref.W7
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  ops0 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17)))))))))))))))))

set_option maxRecDepth 8192 in
set_option maxHeartbeats 4000000 in
theorem main_eq (c : Dev nD) : main (F := F) c = seq ops := by
  have h : main (F := F) c = (main_part0 c >>= fun _ => main_part1 c >>= fun _ => main_part2 c >>= fun _ => main_part3 c >>= fun _ => main_part4 c >>= fun _ => main_part5 c >>= fun _ => main_part6 c >>= fun _ => main_part7 c) := rfl
  rw [h, main_part0_eq, main_part1_eq, main_part2_eq, main_part3_eq, main_part4_eq, main_part5_eq, main_part6_eq, main_part7_eq]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h, List.forall_iff_forall_mem.mp ops10_sub op h, List.forall_iff_forall_mem.mp ops11_sub op h, List.forall_iff_forall_mem.mp ops12_sub op h, List.forall_iff_forall_mem.mp ops13_sub op h, List.forall_iff_forall_mem.mp ops14_sub op h, List.forall_iff_forall_mem.mp ops15_sub op h, List.forall_iff_forall_mem.mp ops16_sub op h, List.forall_iff_forall_mem.mp ops17_sub op h]

theorem ops_fresh : ∀ op ∈ (ops : List (HloOp τ sig (Elt F))), op.fresh = ∅ := by
  intro op h
  simp only [ops, List.mem_append] at h
  rcases h with h | h | h | h | h | h | h | h | h | h | h | h | h | h | h | h | h | h
  exacts [ops0_fresh op h, ops1_fresh op h, ops2_fresh op h, ops3_fresh op h, ops4_fresh op h, ops5_fresh op h, ops6_fresh op h, ops7_fresh op h, ops8_fresh op h, ops9_fresh op h, ops10_fresh op h, ops11_fresh op h, ops12_fresh op h, ops13_fresh op h, ops14_fresh op h, ops15_fresh op h, ops16_fresh op h, ops17_fresh op h]

theorem after_ops (W : Valuation τ sig (Elt F)) :
    after ops W = after ops17 (after ops16 (after ops15 (after ops14 (after ops13 (after ops12 (after ops11 (after ops10 (after ops9 (after ops8 (after ops7 (after ops6 (after ops5 (after ops4 (after ops3 (after ops2 (after ops1 (after ops0 (W)))))))))))))))))) := by
  simp only [ops, StableHlo.after_append]

theorem run_raw (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = StableHlo.after ops (StableHlo.launchContents m d) (Proc.devRef .tc b) :=
  run_seq scopedRefs_eq scopedSems_eq defs main (fun _ => ops) main_eq (fun _ => ops_sub) m ρ (fun _ => ops_fresh)

end Cert.ReferenceIdeal.RefRun

end
-- ==== Proof.Ref.Keep0.lean ====
import proofs.«411449_j51797305589934_2_alg».proof.Proof.Gen.ReferenceIdeal
import proofs.«411449_j51797305589934_2_alg».proof.Proof.Ref.W0
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops0_W : List (Ref sig .tc) := [main_v0, main_v1, main_v2]
set_option maxRecDepth 8192 in
theorem ops0_writes : (ops0 : List (HloOp τ sig (Elt F))).Forall fun op => op.writes ⊆ (ops0_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem ops0_keep (W : Valuation τ sig (Elt F)) (r : Ref sig .tc) (h : r ∉ ops0_W) :
    after ops0 W (Proc.devRef .tc r) = W (Proc.devRef .tc r) :=
  after_of_writes_sub ops0 _ ops0_writes h

abbrev ops1_W : List (Ref sig .tc) := [main_v3, main_v4, main_v5]
set_option maxRecDepth 8192 in
theorem ops1_writes : (ops1 : List (HloOp τ sig (Elt F))).Forall fun op => op.writes ⊆ (ops1_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem ops1_keep (W : Valuation τ sig (Elt F)) (r : Ref sig .tc) (h : r ∉ ops1_W) :
    after ops1 W (Proc.devRef .tc r) = W (Proc.devRef .tc r) :=
  after_of_writes_sub ops1 _ ops1_writes h

abbrev ops2_W : List (Ref sig .tc) := [main_v6, main_cst, main_v7]
set_option maxRecDepth 8192 in
theorem ops2_writes : (ops2 : List (HloOp τ sig (Elt F))).Forall fun op => op.writes ⊆ (ops2_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem ops2_keep (W : Valuation τ sig (Elt F)) (r : Ref sig .tc) (h : r ∉ ops2_W) :
    after ops2 W (Proc.devRef .tc r) = W (Proc.devRef .tc r) :=
  after_of_writes_sub ops2 _ ops2_writes h

abbrev ops3_W : List (Ref sig .tc) := [main_v8, main_v9, main_cst_0, main_v10, main_v11, main_v12, main_cst_1, main_v13, main_v14, main_v15, main_cst_2, main_call0_v0, main_call0_v1, main_v16, main_c, main_v17, main_v18, main_c_3, main_v19, main_v20, main_v21, main_v22, main_v23, main_v24]
set_option maxRecDepth 8192 in
theorem ops3_writes : (ops3 : List (HloOp τ sig (Elt F))).Forall fun op => op.writes ⊆ (ops3_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem ops3_keep (W : Valuation τ sig (Elt F)) (r : Ref sig .tc) (h : r ∉ ops3_W) :
    after ops3 W (Proc.devRef .tc r) = W (Proc.devRef .tc r) :=
  after_of_writes_sub ops3 _ ops3_writes h

abbrev ops4_W : List (Ref sig .tc) := [main_c_4, main_v25, main_v26, main_c_5, main_v27, main_v28, main_v29, main_v30, main_v31, main_v32, main_c_6, main_v33, main_v34, main_c_7, main_v35, main_v36, main_v37, main_v38, main_v39, main_v40, main_v41, main_v42, main_cst_8, main_v43, main_v44, main_v45, main_v46, main_v47, main_v48]
set_option maxRecDepth 8192 in
theorem ops4_writes : (ops4 : List (HloOp τ sig (Elt F))).Forall fun op => op.writes ⊆ (ops4_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem ops4_keep (W : Valuation τ sig (Elt F)) (r : Ref sig .tc) (h : r ∉ ops4_W) :
    after ops4 W (Proc.devRef .tc r) = W (Proc.devRef .tc r) :=
  after_of_writes_sub ops4 _ ops4_writes h

end Cert.ReferenceIdeal.RefRun

end
-- ==== Proof.Ref.Keep1.lean ====
import proofs.«411449_j51797305589934_2_alg».proof.Proof.Gen.ReferenceIdeal
import proofs.«411449_j51797305589934_2_alg».proof.Proof.Ref.W1
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops5_W : List (Ref sig .tc) := [main_call1_cst, main_call1_v0, main_v49, main_cst_9, main_v50, main_cst_10, main_v51, main_v52, main_v53, main_v54, main_v55, main_v56, main_cst_11, main_v57, main_cst_12, main_v58, main_v59, main_v60, main_v61, main_v62, main_v63, main_v64, main_v65, main_cst_13, main_v66, main_v67, main_v68, main_v69, main_v70, main_v71, main_v72, main_v73, main_v74]
set_option maxRecDepth 8192 in
theorem ops5_writes : (ops5 : List (HloOp τ sig (Elt F))).Forall fun op => op.writes ⊆ (ops5_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem ops5_keep (W : Valuation τ sig (Elt F)) (r : Ref sig .tc) (h : r ∉ ops5_W) :
    after ops5 W (Proc.devRef .tc r) = W (Proc.devRef .tc r) :=
  after_of_writes_sub ops5 _ ops5_writes h

abbrev ops6_W : List (Ref sig .tc) := [main_v75, main_cst_14, main_v76, main_v77, main_v78, main_cst_15, main_v79, main_v80, main_v81, main_cst_16, main_call2_v0, main_call2_v1, main_v82, main_c_17, main_v83, main_v84, main_c_18, main_v85, main_v86, main_v87, main_v88, main_v89, main_v90, main_c_19, main_v91, main_v92, main_c_20, main_v93, main_v94, main_v95, main_v96]
set_option maxRecDepth 8192 in
theorem ops6_writes : (ops6 : List (HloOp τ sig (Elt F))).Forall fun op => op.writes ⊆ (ops6_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem ops6_keep (W : Valuation τ sig (Elt F)) (r : Ref sig .tc) (h : r ∉ ops6_W) :
    after ops6 W (Proc.devRef .tc r) = W (Proc.devRef .tc r) :=
  after_of_writes_sub ops6 _ ops6_writes h

end Cert.ReferenceIdeal.RefRun

end
-- ==== Proof.Ref.Keep2.lean ====
import proofs.«411449_j51797305589934_2_alg».proof.Proof.Gen.ReferenceIdeal
import proofs.«411449_j51797305589934_2_alg».proof.Proof.Ref.W2
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops7_W : List (Ref sig .tc) := [main_v97, main_v98, main_c_21, main_v99, main_v100, main_c_22, main_v101, main_v102, main_v103, main_v104, main_v105, main_v106, main_v107, main_v108, main_cst_23, main_v109, main_v110, main_v111, main_v112, main_v113, main_v114]
set_option maxRecDepth 8192 in
theorem ops7_writes : (ops7 : List (HloOp τ sig (Elt F))).Forall fun op => op.writes ⊆ (ops7_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem ops7_keep (W : Valuation τ sig (Elt F)) (r : Ref sig .tc) (h : r ∉ ops7_W) :
    after ops7 W (Proc.devRef .tc r) = W (Proc.devRef .tc r) :=
  after_of_writes_sub ops7 _ ops7_writes h

abbrev ops8_W : List (Ref sig .tc) := [main_call3_cst, main_call3_v0, main_v115, main_cst_24, main_v116, main_cst_25, main_v117, main_v118, main_v119, main_v120, main_v121, main_v122, main_cst_26, main_v123, main_cst_27, main_v124, main_v125, main_v126, main_v127, main_v128, main_v129, main_v130, main_v131, main_cst_28, main_v132, main_v133, main_v134, main_v135, main_v136, main_v137, main_v138, main_v139, main_v140, main_v141, main_cst_29, main_v142, main_v143, main_v144, main_cst_30, main_v145, main_v146]
set_option maxRecDepth 8192 in
theorem ops8_writes : (ops8 : List (HloOp τ sig (Elt F))).Forall fun op => op.writes ⊆ (ops8_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem ops8_keep (W : Valuation τ sig (Elt F)) (r : Ref sig .tc) (h : r ∉ ops8_W) :
    after ops8 W (Proc.devRef .tc r) = W (Proc.devRef .tc r) :=
  after_of_writes_sub ops8 _ ops8_writes h

end Cert.ReferenceIdeal.RefRun

end
-- ==== Proof.Ref.Keep3.lean ====
import proofs.«411449_j51797305589934_2_alg».proof.Proof.Gen.ReferenceIdeal
import proofs.«411449_j51797305589934_2_alg».proof.Proof.Ref.W3
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops9_W : List (Ref sig .tc) := [main_v147, main_cst_31, main_call4_v0, main_call4_v1, main_v148, main_c_32, main_v149, main_v150, main_c_33, main_v151, main_v152, main_v153, main_v154, main_v155, main_v156, main_c_34, main_v157, main_v158, main_c_35, main_v159, main_v160, main_v161, main_v162, main_v163, main_v164, main_c_36, main_v165, main_v166, main_c_37, main_v167, main_v168, main_v169, main_v170, main_v171, main_v172, main_v173, main_v174, main_cst_38, main_v175, main_v176, main_v177, main_v178, main_v179, main_v180]
set_option maxRecDepth 8192 in
theorem ops9_writes : (ops9 : List (HloOp τ sig (Elt F))).Forall fun op => op.writes ⊆ (ops9_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem ops9_keep (W : Valuation τ sig (Elt F)) (r : Ref sig .tc) (h : r ∉ ops9_W) :
    after ops9 W (Proc.devRef .tc r) = W (Proc.devRef .tc r) :=
  after_of_writes_sub ops9 _ ops9_writes h

abbrev ops10_W : List (Ref sig .tc) := [main_call5_cst, main_call5_v0, main_v181, main_cst_39, main_v182, main_cst_40, main_v183, main_v184, main_v185, main_v186, main_v187, main_v188, main_cst_41, main_v189, main_cst_42, main_v190, main_v191, main_v192, main_v193, main_v194]
set_option maxRecDepth 8192 in
theorem ops10_writes : (ops10 : List (HloOp τ sig (Elt F))).Forall fun op => op.writes ⊆ (ops10_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem ops10_keep (W : Valuation τ sig (Elt F)) (r : Ref sig .tc) (h : r ∉ ops10_W) :
    after ops10 W (Proc.devRef .tc r) = W (Proc.devRef .tc r) :=
  after_of_writes_sub ops10 _ ops10_writes h

end Cert.ReferenceIdeal.RefRun

end
-- ==== Proof.Ref.Keep4.lean ====
import proofs.«411449_j51797305589934_2_alg».proof.Proof.Gen.ReferenceIdeal
import proofs.«411449_j51797305589934_2_alg».proof.Proof.Ref.W4
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops11_W : List (Ref sig .tc) := [main_v195, main_v196, main_v197, main_cst_43, main_v198, main_v199, main_v200, main_v201, main_v202, main_v203, main_v204, main_v205, main_v206]
set_option maxRecDepth 8192 in
theorem ops11_writes : (ops11 : List (HloOp τ sig (Elt F))).Forall fun op => op.writes ⊆ (ops11_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem ops11_keep (W : Valuation τ sig (Elt F)) (r : Ref sig .tc) (h : r ∉ ops11_W) :
    after ops11 W (Proc.devRef .tc r) = W (Proc.devRef .tc r) :=
  after_of_writes_sub ops11 _ ops11_writes h

abbrev ops12_W : List (Ref sig .tc) := [main_v207, main_cst_44, main_v208, main_v209, main_v210, main_cst_45, main_v211, main_v212, main_v213, main_cst_46, main_call6_v0, main_call6_v1, main_v214, main_c_47, main_v215, main_v216, main_c_48, main_v217, main_v218, main_v219, main_v220, main_v221, main_v222, main_c_49, main_v223, main_v224, main_c_50, main_v225, main_v226, main_v227, main_v228, main_v229, main_v230, main_c_51, main_v231, main_v232, main_c_52, main_v233, main_v234, main_v235, main_v236, main_v237, main_v238, main_v239, main_v240, main_cst_53, main_v241, main_v242, main_v243]
set_option maxRecDepth 8192 in
theorem ops12_writes : (ops12 : List (HloOp τ sig (Elt F))).Forall fun op => op.writes ⊆ (ops12_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem ops12_keep (W : Valuation τ sig (Elt F)) (r : Ref sig .tc) (h : r ∉ ops12_W) :
    after ops12 W (Proc.devRef .tc r) = W (Proc.devRef .tc r) :=
  after_of_writes_sub ops12 _ ops12_writes h

end Cert.ReferenceIdeal.RefRun

end
-- ==== Proof.Ref.Keep5.lean ====
import proofs.«411449_j51797305589934_2_alg».proof.Proof.Gen.ReferenceIdeal
import proofs.«411449_j51797305589934_2_alg».proof.Proof.Ref.W5
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops13_W : List (Ref sig .tc) := [main_v244, main_v245, main_v246, main_cst_54, main_v247, main_cst_55, main_v248, main_v249, main_v250, main_v251, main_v252, main_v253, main_cst_56, main_v254, main_cst_57, main_v255, main_v256, main_v257, main_v258, main_v259, main_v260, main_v261, main_v262, main_cst_58, main_v263, main_v264, main_v265, main_v266, main_v267, main_v268, main_v269, main_v270, main_v271]
set_option maxRecDepth 8192 in
theorem ops13_writes : (ops13 : List (HloOp τ sig (Elt F))).Forall fun op => op.writes ⊆ (ops13_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem ops13_keep (W : Valuation τ sig (Elt F)) (r : Ref sig .tc) (h : r ∉ ops13_W) :
    after ops13 W (Proc.devRef .tc r) = W (Proc.devRef .tc r) :=
  after_of_writes_sub ops13 _ ops13_writes h

abbrev ops14_W : List (Ref sig .tc) := [main_call7_cst, main_call7_v0, main_v272, main_v273, main_cst_59, main_v274, main_v275, main_v276, main_cst_60, main_v277, main_v278, main_v279, main_cst_61, main_call8_v0, main_call8_v1, main_v280, main_c_62, main_v281, main_v282, main_c_63, main_v283, main_v284, main_v285, main_v286, main_v287, main_v288, main_c_64, main_v289, main_v290, main_c_65, main_v291]
set_option maxRecDepth 8192 in
theorem ops14_writes : (ops14 : List (HloOp τ sig (Elt F))).Forall fun op => op.writes ⊆ (ops14_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem ops14_keep (W : Valuation τ sig (Elt F)) (r : Ref sig .tc) (h : r ∉ ops14_W) :
    after ops14 W (Proc.devRef .tc r) = W (Proc.devRef .tc r) :=
  after_of_writes_sub ops14 _ ops14_writes h

end Cert.ReferenceIdeal.RefRun

end
-- ==== Proof.Ref.Keep6.lean ====
import proofs.«411449_j51797305589934_2_alg».proof.Proof.Gen.ReferenceIdeal
import proofs.«411449_j51797305589934_2_alg».proof.Proof.Ref.W6
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops15_W : List (Ref sig .tc) := [main_v292, main_v293, main_v294, main_v295, main_v296, main_c_66, main_v297, main_v298, main_c_67, main_v299, main_v300, main_v301, main_v302, main_v303, main_v304, main_v305, main_v306, main_cst_68, main_v307, main_v308, main_v309]
set_option maxRecDepth 8192 in
theorem ops15_writes : (ops15 : List (HloOp τ sig (Elt F))).Forall fun op => op.writes ⊆ (ops15_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem ops15_keep (W : Valuation τ sig (Elt F)) (r : Ref sig .tc) (h : r ∉ ops15_W) :
    after ops15 W (Proc.devRef .tc r) = W (Proc.devRef .tc r) :=
  after_of_writes_sub ops15 _ ops15_writes h

abbrev ops16_W : List (Ref sig .tc) := [main_v310, main_v311, main_v312, main_cst_69, main_v313, main_cst_70, main_v314, main_v315, main_v316, main_v317, main_v318, main_v319, main_cst_71, main_v320, main_cst_72, main_v321, main_v322, main_v323, main_v324, main_v325, main_v326, main_v327, main_v328, main_cst_73, main_v329, main_v330, main_v331, main_v332, main_v333, main_v334, main_v335, main_v336, main_v337, main_cst_74, main_v338, main_v339, main_v340, main_call9_cst, main_call9_v0, main_v341, main_v342]
set_option maxRecDepth 8192 in
theorem ops16_writes : (ops16 : List (HloOp τ sig (Elt F))).Forall fun op => op.writes ⊆ (ops16_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem ops16_keep (W : Valuation τ sig (Elt F)) (r : Ref sig .tc) (h : r ∉ ops16_W) :
    after ops16 W (Proc.devRef .tc r) = W (Proc.devRef .tc r) :=
  after_of_writes_sub ops16 _ ops16_writes h

end Cert.ReferenceIdeal.RefRun

end
-- ==== Proof.Ref.Keep7.lean ====
import proofs.«411449_j51797305589934_2_alg».proof.Proof.Gen.ReferenceIdeal
import proofs.«411449_j51797305589934_2_alg».proof.Proof.Ref.W7
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops17_W : List (Ref sig .tc) := [main_v343, main_v344, main_v345, main_call10_cst, main_call10_v0, main_v346, main_v347, main_v348, main_v349, main_v350, main_v351]
set_option maxRecDepth 8192 in
theorem ops17_writes : (ops17 : List (HloOp τ sig (Elt F))).Forall fun op => op.writes ⊆ (ops17_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem ops17_keep (W : Valuation τ sig (Elt F)) (r : Ref sig .tc) (h : r ∉ ops17_W) :
    after ops17 W (Proc.devRef .tc r) = W (Proc.devRef .tc r) :=
  after_of_writes_sub ops17 _ ops17_writes h

end Cert.ReferenceIdeal.RefRun

end
-- ==== Proof.Ref.Vals.lean ====
import proofs.«411449_j51797305589934_2_alg».proof.Proof.Gen.ReferenceIdeal
import proofs.«411449_j51797305589934_2_alg».proof.Proof.Ref.Run
import proofs.«411449_j51797305589934_2_alg».proof.Proof.Ref.Keep0
import proofs.«411449_j51797305589934_2_alg».proof.Proof.Ref.Keep1
import proofs.«411449_j51797305589934_2_alg».proof.Proof.Ref.Keep2
import proofs.«411449_j51797305589934_2_alg».proof.Proof.Ref.Keep3
import proofs.«411449_j51797305589934_2_alg».proof.Proof.Ref.Keep4
import proofs.«411449_j51797305589934_2_alg».proof.Proof.Ref.Keep5
import proofs.«411449_j51797305589934_2_alg».proof.Proof.Ref.Keep6
import proofs.«411449_j51797305589934_2_alg».proof.Proof.Ref.Keep7
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def chunk : Nat → List (HloOp τ sig (Elt F))
  | 0 => ops0
  | 1 => ops1
  | 2 => ops2
  | 3 => ops3
  | 4 => ops4
  | 5 => ops5
  | 6 => ops6
  | 7 => ops7
  | 8 => ops8
  | 9 => ops9
  | 10 => ops10
  | 11 => ops11
  | 12 => ops12
  | 13 => ops13
  | 14 => ops14
  | 15 => ops15
  | 16 => ops16
  | 17 => ops17
  | _ => []

def chunkW : Nat → List (Ref sig .tc)
  | 0 => ops0_W
  | 1 => ops1_W
  | 2 => ops2_W
  | 3 => ops3_W
  | 4 => ops4_W
  | 5 => ops5_W
  | 6 => ops6_W
  | 7 => ops7_W
  | 8 => ops8_W
  | 9 => ops9_W
  | 10 => ops10_W
  | 11 => ops11_W
  | 12 => ops12_W
  | 13 => ops13_W
  | 14 => ops14_W
  | 15 => ops15_W
  | 16 => ops16_W
  | 17 => ops17_W
  | _ => []

def valN : Nat → Valuation τ sig (Elt F) → Valuation τ sig (Elt F)
  | 0, W => W
  | n + 1, W => after (chunk n) (valN n W)

theorem valN_succ (n : Nat) (W : Valuation τ sig (Elt F)) : valN (n + 1) W = after (chunk n) (valN n W) := rfl

theorem after_ops_valN (W : Valuation τ sig (Elt F)) : after ops W = valN 18 W := by
  rw [after_ops]; rfl

theorem chunk_keep (k : Nat) (X : Valuation τ sig (Elt F)) (r : Ref sig .tc) (h : r ∉ chunkW k) :
    after (chunk k) X (Proc.devRef .tc r) = X (Proc.devRef .tc r) :=
  match k with
  | 0 => ops0_keep X r h
  | 1 => ops1_keep X r h
  | 2 => ops2_keep X r h
  | 3 => ops3_keep X r h
  | 4 => ops4_keep X r h
  | 5 => ops5_keep X r h
  | 6 => ops6_keep X r h
  | 7 => ops7_keep X r h
  | 8 => ops8_keep X r h
  | 9 => ops9_keep X r h
  | 10 => ops10_keep X r h
  | 11 => ops11_keep X r h
  | 12 => ops12_keep X r h
  | 13 => ops13_keep X r h
  | 14 => ops14_keep X r h
  | 15 => ops15_keep X r h
  | 16 => ops16_keep X r h
  | 17 => ops17_keep X r h
  | _ + 18 => rfl

theorem valN_carry (W : Valuation τ sig (Elt F)) (r : Ref sig .tc) (i j : Nat) (hij : i ≤ j)
    (h : ∀ k, k < j → i ≤ k → r ∉ chunkW k) : valN j W (Proc.devRef .tc r) = valN i W (Proc.devRef .tc r) := by
  induction j, hij using Nat.le_induction with
  | base => rfl
  | succ j hj ih =>
    rw [valN_succ, chunk_keep j _ r (h j (Nat.lt_succ_self j) hj)]
    exact ih fun k hk hik => h k (Nat.lt_succ_of_lt hk) hik

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28]

set_option maxRecDepth 16384 in
theorem argRefs_unwritten : ∀ a ∈ argRefs, ∀ k, k < 18 → a ∉ chunkW k := by decide

theorem valN_arg (W : Valuation τ sig (Elt F)) (n : Nat) (hn : n ≤ 18) (a : Ref sig .tc) (ha : a ∈ argRefs) :
    valN n W (Proc.devRef .tc a) = W (Proc.devRef .tc a) :=
  valN_carry W a 0 n (Nat.zero_le n) fun k hk _ => argRefs_unwritten a ha k (Nat.lt_of_lt_of_le hk hn)

theorem after_ops_arg (W : Valuation τ sig (Elt F)) (a : Ref sig .tc) (ha : a ∈ argRefs) :
    after ops W (Proc.devRef .tc a) = W (Proc.devRef .tc a) := by
  rw [after_ops_valN]; exact valN_arg W 18 (Nat.le_refl 18) a ha

set_option maxRecDepth 8192 in
theorem ref_frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  (θ_run defs _ _).mono (fun _ h c => ⟨(h c main_arg0).trans (after_ops_arg _ main_arg0 (by decide)),
      (h c main_arg1).trans (after_ops_arg _ main_arg1 (by decide)),
      (h c main_arg2).trans (after_ops_arg _ main_arg2 (by decide)),
      (h c main_arg3).trans (after_ops_arg _ main_arg3 (by decide)),
      (h c main_arg4).trans (after_ops_arg _ main_arg4 (by decide)),
      (h c main_arg5).trans (after_ops_arg _ main_arg5 (by decide)),
      (h c main_arg6).trans (after_ops_arg _ main_arg6 (by decide)),
      (h c main_arg7).trans (after_ops_arg _ main_arg7 (by decide)),
      (h c main_arg8).trans (after_ops_arg _ main_arg8 (by decide)),
      (h c main_arg9).trans (after_ops_arg _ main_arg9 (by decide)),
      (h c main_arg10).trans (after_ops_arg _ main_arg10 (by decide)),
      (h c main_arg11).trans (after_ops_arg _ main_arg11 (by decide)),
      (h c main_arg12).trans (after_ops_arg _ main_arg12 (by decide)),
      (h c main_arg13).trans (after_ops_arg _ main_arg13 (by decide)),
      (h c main_arg14).trans (after_ops_arg _ main_arg14 (by decide)),
      (h c main_arg15).trans (after_ops_arg _ main_arg15 (by decide)),
      (h c main_arg16).trans (after_ops_arg _ main_arg16 (by decide)),
      (h c main_arg17).trans (after_ops_arg _ main_arg17 (by decide)),
      (h c main_arg18).trans (after_ops_arg _ main_arg18 (by decide)),
      (h c main_arg19).trans (after_ops_arg _ main_arg19 (by decide)),
      (h c main_arg20).trans (after_ops_arg _ main_arg20 (by decide)),
      (h c main_arg21).trans (after_ops_arg _ main_arg21 (by decide)),
      (h c main_arg22).trans (after_ops_arg _ main_arg22 (by decide)),
      (h c main_arg23).trans (after_ops_arg _ main_arg23 (by decide)),
      (h c main_arg24).trans (after_ops_arg _ main_arg24 (by decide)),
      (h c main_arg25).trans (after_ops_arg _ main_arg25 (by decide)),
      (h c main_arg26).trans (after_ops_arg _ main_arg26 (by decide)),
      (h c main_arg27).trans (after_ops_arg _ main_arg27 (by decide)),
      (h c main_arg28).trans (after_ops_arg _ main_arg28 (by decide))⟩)
    (run_raw m ρ)

end Cert.ReferenceIdeal.RefRun

end
-- ==== Proof.Ref.Read0.lean ====
import proofs.«411449_j51797305589934_2_alg».proof.Proof.Gen.ReferenceIdeal
import proofs.«411449_j51797305589934_2_alg».proof.Proof.Ref.Terms
import proofs.«411449_j51797305589934_2_alg».proof.Proof.Ref.W0
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

local notation:max X "⟪" r "⟫" => X (Proc.devRef Proc.tc r)

set_option maxRecDepth 16384 in
set_option maxHeartbeats 8000000 in
theorem pro_v3 (X : Valuation τ sig (Elt F)) :
    (after ops2 (after ops1 (after ops0 X)))⟪main_v3⟫
      = gSrc X⟪main_arg1⟫ := by
  simp only [ops0, ops1, ops2]
  after_results_simp
  rfl

set_option maxRecDepth 16384 in
set_option maxHeartbeats 8000000 in
theorem pro_v6 (X : Valuation τ sig (Elt F)) :
    (after ops2 (after ops1 (after ops0 X)))⟪main_v6⟫
      = gDst X⟪main_arg1⟫ := by
  simp only [ops0, ops1, ops2]
  after_results_simp
  rfl

set_option maxRecDepth 16384 in
set_option maxHeartbeats 8000000 in
theorem pro_v7 (X : Valuation τ sig (Elt F)) :
    (after ops2 (after ops1 (after ops0 X)))⟪main_v7⟫
      = (gOnes : FVec F S50000 .f32) := by
  simp only [ops0, ops1, ops2]
  after_results_simp
  rfl

set_option maxRecDepth 16384 in
set_option maxHeartbeats 8000000 in
theorem l1_v8 (X : Valuation τ sig (Elt F)) (h7 : X⟪main_v7⟫ = (gOnes : FVec F S50000 .f32)) :
    (after ops4 (after ops3 X))⟪main_v8⟫
      = gEw X⟪main_arg2⟫ := by
  simp only [ops3, ops4]
  after_results_simp
  rw [h7]
  rfl

set_option maxRecDepth 16384 in
set_option maxHeartbeats 8000000 in
theorem l1_v48 (X : Valuation τ sig (Elt F)) (h7 : X⟪main_v7⟫ = (gOnes : FVec F S50000 .f32)) :
    (after ops4 (after ops3 X))⟪main_v48⟫
      = addf (gAgg32 (Host.dotGeneral (φ₁ := .f32) (φ₂ := .f32) dot_S50000x20_S20x32_S50000x32_1_0_0_1_n_n none X⟪main_arg0⟫ X⟪main_arg5⟫) X⟪main_v3⟫ X⟪main_v6⟫
          (gNorm X⟪main_v3⟫ X⟪main_v6⟫ (gEw X⟪main_arg2⟫))) (gRows32 X⟪main_arg6⟫) := by
  simp only [ops3, ops4]
  after_results_simp
  rw [h7]
  rfl

end Cert.ReferenceIdeal.RefRun

end
-- ==== Proof.Ref.Read1.lean ====
import proofs.«411449_j51797305589934_2_alg».proof.Proof.Gen.ReferenceIdeal
import proofs.«411449_j51797305589934_2_alg».proof.Proof.Ref.Terms
import proofs.«411449_j51797305589934_2_alg».proof.Proof.Ref.W1
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

local notation:max X "⟪" r "⟫" => X (Proc.devRef Proc.tc r)

set_option maxRecDepth 16384 in
set_option maxHeartbeats 8000000 in
theorem ops5_v74 (X : Valuation τ sig (Elt F)) :
    (after ops5 X)⟪main_v74⟫
      = gBN32 (maximumf X⟪main_v48⟫ gZ32) X⟪main_arg7⟫ X⟪main_arg8⟫ := by
  simp only [ops5]
  after_results_simp
  rfl

end Cert.ReferenceIdeal.RefRun

end
-- ==== Proof.Ref.Read2.lean ====
import proofs.«411449_j51797305589934_2_alg».proof.Proof.Gen.ReferenceIdeal
import proofs.«411449_j51797305589934_2_alg».proof.Proof.Ref.Terms
import proofs.«411449_j51797305589934_2_alg».proof.Proof.Ref.W1
import proofs.«411449_j51797305589934_2_alg».proof.Proof.Ref.W2
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

local notation:max X "⟪" r "⟫" => X (Proc.devRef Proc.tc r)

set_option maxRecDepth 16384 in
set_option maxHeartbeats 8000000 in
theorem l2_v114 (X : Valuation τ sig (Elt F)) :
    (after ops7 (after ops6 X))⟪main_v114⟫
      = addf (gAgg64 (Host.dotGeneral (φ₁ := .f32) (φ₂ := .f32) dot_S50000x32_S32x64_S50000x64_1_0_0_1_n_n none X⟪main_v74⟫ X⟪main_arg9⟫) X⟪main_v3⟫ X⟪main_v6⟫ (gNorm X⟪main_v3⟫ X⟪main_v6⟫ X⟪main_v8⟫))
          (gRows64 X⟪main_arg10⟫) := by
  simp only [ops6, ops7]
  after_results_simp
  rfl

end Cert.ReferenceIdeal.RefRun

end
-- ==== Proof.Ref.Read3.lean ====
import proofs.«411449_j51797305589934_2_alg».proof.Proof.Gen.ReferenceIdeal
import proofs.«411449_j51797305589934_2_alg».proof.Proof.Ref.Terms
import proofs.«411449_j51797305589934_2_alg».proof.Proof.Ref.W2
import proofs.«411449_j51797305589934_2_alg».proof.Proof.Ref.W3
import proofs.«411449_j51797305589934_2_alg».proof.Proof.Ref.W4
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

local notation:max X "⟪" r "⟫" => X (Proc.devRef Proc.tc r)

set_option maxRecDepth 16384 in
set_option maxHeartbeats 8000000 in
theorem ops8_v141 (X : Valuation τ sig (Elt F)) :
    (after ops8 X)⟪main_v141⟫
      = (Host.dotGeneral (φ₁ := .f32) (φ₂ := .f32) dot_S50000x64_S64x128_S50000x128_1_0_0_1_n_n none (gBN64 (maximumf X⟪main_v114⟫ gZ64) X⟪main_arg11⟫ X⟪main_arg12⟫) X⟪main_arg13⟫) := by
  simp only [ops8]
  after_results_simp
  rfl

set_option maxRecDepth 16384 in
set_option maxHeartbeats 8000000 in
theorem ops8_v144 (X : Valuation τ sig (Elt F)) :
    (after ops8 X)⟪main_v144⟫
      = gDegOf X⟪main_v6⟫ X⟪main_v8⟫ := by
  simp only [ops8]
  after_results_simp
  rfl

set_option maxRecDepth 16384 in
set_option maxHeartbeats 8000000 in
theorem ops8_v146 (X : Valuation τ sig (Elt F)) :
    (after ops8 X)⟪main_v146⟫
      = cmpf .ogt (gDegOf X⟪main_v6⟫ X⟪main_v8⟫) gZeros := by
  simp only [ops8]
  after_results_simp
  rfl

set_option maxRecDepth 16384 in
set_option maxHeartbeats 8000000 in
theorem ops9_v180 (X : Valuation τ sig (Elt F)) :
    (after ops9 X)⟪main_v180⟫
      = addf (gAgg128 X⟪main_v141⟫ X⟪main_v3⟫ X⟪main_v6⟫
          (gNormOf (select X⟪main_v146⟫ (Host.rsqrt X⟪main_v144⟫) gZeros) X⟪main_v3⟫ X⟪main_v6⟫ X⟪main_v8⟫)) (gRows128 X⟪main_arg14⟫) := by
  simp only [ops9]
  after_results_simp
  rfl

set_option maxRecDepth 16384 in
set_option maxHeartbeats 8000000 in
theorem l3_v206 (X : Valuation τ sig (Elt F)) :
    (after ops11 (after ops10 X))⟪main_v206⟫
      = gBN128 (maximumf X⟪main_v180⟫ gZ128) X⟪main_arg15⟫ X⟪main_arg16⟫ := by
  simp only [ops10, ops11]
  after_results_simp
  rfl

end Cert.ReferenceIdeal.RefRun

end
-- ==== Proof.Ref.Read4.lean ====
import proofs.«411449_j51797305589934_2_alg».proof.Proof.Gen.ReferenceIdeal
import proofs.«411449_j51797305589934_2_alg».proof.Proof.Ref.Terms
import proofs.«411449_j51797305589934_2_alg».proof.Proof.Ref.W4
import proofs.«411449_j51797305589934_2_alg».proof.Proof.Ref.W5
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

local notation:max X "⟪" r "⟫" => X (Proc.devRef Proc.tc r)

set_option maxRecDepth 16384 in
set_option maxHeartbeats 8000000 in
theorem ops12_v243 (X : Valuation τ sig (Elt F)) :
    (after ops12 X)⟪main_v243⟫
      = gAgg128 (Host.dotGeneral (φ₁ := .f32) (φ₂ := .f32) dot_S50000x128_S128x128_S50000x128_1_0_0_1_n_n none X⟪main_v206⟫ X⟪main_arg17⟫) X⟪main_v3⟫ X⟪main_v6⟫ (gNorm X⟪main_v3⟫ X⟪main_v6⟫ X⟪main_v8⟫) := by
  simp only [ops12]
  after_results_simp
  rfl

set_option maxRecDepth 16384 in
set_option maxHeartbeats 8000000 in
theorem ops13_v271 (X : Valuation τ sig (Elt F)) :
    (after ops13 X)⟪main_v271⟫
      = gBN128 (addf X⟪main_v243⟫ (gRows128 X⟪main_arg18⟫)) X⟪main_arg19⟫ X⟪main_arg20⟫ := by
  simp only [ops13]
  after_results_simp
  rfl

end Cert.ReferenceIdeal.RefRun

end
-- ==== Proof.Ref.Read5.lean ====
import proofs.«411449_j51797305589934_2_alg».proof.Proof.Gen.ReferenceIdeal
import proofs.«411449_j51797305589934_2_alg».proof.Proof.Ref.Terms
import proofs.«411449_j51797305589934_2_alg».proof.Proof.Ref.W5
import proofs.«411449_j51797305589934_2_alg».proof.Proof.Ref.W6
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

local notation:max X "⟪" r "⟫" => X (Proc.devRef Proc.tc r)

set_option maxRecDepth 16384 in
set_option maxHeartbeats 8000000 in
theorem l5_v309 (X : Valuation τ sig (Elt F)) :
    (after ops15 (after ops14 X))⟪main_v309⟫
      = gAgg256 (Host.dotGeneral (φ₁ := .f32) (φ₂ := .f32) dot_S50000x128_S128x256_S50000x256_1_0_0_1_n_n none (maximumf X⟪main_v271⟫ gZ128) X⟪main_arg21⟫) X⟪main_v3⟫ X⟪main_v6⟫ (gNorm X⟪main_v3⟫ X⟪main_v6⟫ X⟪main_v8⟫) := by
  simp only [ops14, ops15]
  after_results_simp
  rfl

set_option maxRecDepth 16384 in
set_option maxHeartbeats 8000000 in
theorem ops16_v342 (X : Valuation τ sig (Elt F)) :
    (after ops16 X)⟪main_v342⟫
      = Host.dotGeneral (φ₁ := .f32) (φ₂ := .f32) dot_S512x256_S256x128_S512x128_1_0_0_1_n_n none
          (gPooled (gBN256 (addf X⟪main_v309⟫ (gRows256 X⟪main_arg22⟫)) X⟪main_arg23⟫ X⟪main_arg24⟫) X⟪main_arg3⟫) X⟪main_arg25⟫ := by
  simp only [ops16]
  after_results_simp
  rfl

end Cert.ReferenceIdeal.RefRun

end
-- ==== Proof.Ref.Read6.lean ====
import proofs.«411449_j51797305589934_2_alg».proof.Proof.Gen.ReferenceIdeal
import proofs.«411449_j51797305589934_2_alg».proof.Proof.Ref.Terms
import proofs.«411449_j51797305589934_2_alg».proof.Proof.Ref.W7
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

local notation:max X "⟪" r "⟫" => X (Proc.devRef Proc.tc r)

set_option maxRecDepth 16384 in
set_option maxHeartbeats 8000000 in
theorem ops17_v351 (X : Valuation τ sig (Elt F)) :
    (after ops17 X)⟪main_v351⟫
      = gTailOf X⟪main_v342⟫ X⟪main_arg26⟫ X⟪main_arg27⟫ X⟪main_arg28⟫ := by
  simp only [ops17]
  after_results_simp
  rfl

end Cert.ReferenceIdeal.RefRun

end
-- ==== Proof.Ref.Value.lean ====
import proofs.«411449_j51797305589934_2_alg».proof.Proof.Gen.ReferenceIdeal
import proofs.«411449_j51797305589934_2_alg».proof.Proof.Ref.Terms
import proofs.«411449_j51797305589934_2_alg».proof.Proof.Ref.Vals
import proofs.«411449_j51797305589934_2_alg».proof.Proof.Ref.Read0
import proofs.«411449_j51797305589934_2_alg».proof.Proof.Ref.Read1
import proofs.«411449_j51797305589934_2_alg».proof.Proof.Ref.Read2
import proofs.«411449_j51797305589934_2_alg».proof.Proof.Ref.Read3
import proofs.«411449_j51797305589934_2_alg».proof.Proof.Ref.Read4
import proofs.«411449_j51797305589934_2_alg».proof.Proof.Ref.Read5
import proofs.«411449_j51797305589934_2_alg».proof.Proof.Ref.Read6
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

local notation:max X "⟪" r "⟫" => X (Proc.devRef Proc.tc r)

def gS (W : Valuation τ sig (Elt F)) : IVec S850000 32 := gSrc W⟪main_arg1⟫

def gD (W : Valuation τ sig (Elt F)) : IVec S850000 32 := gDst W⟪main_arg1⟫

def gE (W : Valuation τ sig (Elt F)) : FVec F S850000 .f32 := gEw W⟪main_arg2⟫

def gN (W : Valuation τ sig (Elt F)) : FVec F S850000 .f32 := gNorm (gS W) (gD W) (gE W)

def gH1 (W : Valuation τ sig (Elt F)) : FVec F S50000x32 .f32 :=
  gBN32 (maximumf (addf (gAgg32 (Host.dotGeneral (φ₁ := .f32) (φ₂ := .f32) dot_S50000x20_S20x32_S50000x32_1_0_0_1_n_n none W⟪main_arg0⟫ W⟪main_arg5⟫) (gS W) (gD W) (gN W)) (gRows32 W⟪main_arg6⟫)) gZ32) W⟪main_arg7⟫ W⟪main_arg8⟫

def gH2 (W : Valuation τ sig (Elt F)) : FVec F S50000x64 .f32 :=
  gBN64 (maximumf (addf (gAgg64 (Host.dotGeneral (φ₁ := .f32) (φ₂ := .f32) dot_S50000x32_S32x64_S50000x64_1_0_0_1_n_n none (gH1 W) W⟪main_arg9⟫) (gS W) (gD W) (gN W)) (gRows64 W⟪main_arg10⟫)) gZ64) W⟪main_arg11⟫ W⟪main_arg12⟫

def gH3 (W : Valuation τ sig (Elt F)) : FVec F S50000x128 .f32 :=
  gBN128 (maximumf (addf (gAgg128 (Host.dotGeneral (φ₁ := .f32) (φ₂ := .f32) dot_S50000x64_S64x128_S50000x128_1_0_0_1_n_n none (gH2 W) W⟪main_arg13⟫) (gS W) (gD W) (gN W)) (gRows128 W⟪main_arg14⟫)) gZ128) W⟪main_arg15⟫ W⟪main_arg16⟫

def gA4 (W : Valuation τ sig (Elt F)) : FVec F S50000x128 .f32 := gAgg128 (Host.dotGeneral (φ₁ := .f32) (φ₂ := .f32) dot_S50000x128_S128x128_S50000x128_1_0_0_1_n_n none (gH3 W) W⟪main_arg17⟫) (gS W) (gD W) (gN W)

def gH4 (W : Valuation τ sig (Elt F)) : FVec F S50000x128 .f32 :=
  maximumf (gBN128 (addf (gA4 W) (gRows128 W⟪main_arg18⟫)) W⟪main_arg19⟫ W⟪main_arg20⟫) gZ128

def gH5 (W : Valuation τ sig (Elt F)) : FVec F S50000x256 .f32 :=
  gBN256 (addf (gAgg256 (Host.dotGeneral (φ₁ := .f32) (φ₂ := .f32) dot_S50000x128_S128x256_S50000x256_1_0_0_1_n_n none (gH4 W) W⟪main_arg21⟫) (gS W) (gD W) (gN W)) (gRows256 W⟪main_arg22⟫)) W⟪main_arg23⟫ W⟪main_arg24⟫

def gRes (W : Valuation τ sig (Elt F)) : FVec F S512 .f32 :=
  gTailOf (Host.dotGeneral (φ₁ := .f32) (φ₂ := .f32) dot_S512x256_S256x128_S512x128_1_0_0_1_n_n none (gPooled (gH5 W) W⟪main_arg3⟫) W⟪main_arg25⟫) W⟪main_arg26⟫ W⟪main_arg27⟫ W⟪main_arg28⟫

local macro "argAt" W:ident n:num a:ident : term => `(valN_arg $W $n (by decide) $a (by decide))

set_option maxRecDepth 16384 in
theorem v3_unwritten : ∀ k, k < 18 → 3 ≤ k → main_v3 ∉ chunkW k := by decide
set_option maxRecDepth 16384 in
theorem v6_unwritten : ∀ k, k < 18 → 3 ≤ k → main_v6 ∉ chunkW k := by decide
set_option maxRecDepth 16384 in
theorem v8_unwritten : ∀ k, k < 18 → 5 ≤ k → main_v8 ∉ chunkW k := by decide

theorem v3_at (W : Valuation τ sig (Elt F)) (n : Nat) (h : 3 ≤ n) (hn : n ≤ 18) : (valN n W)⟪main_v3⟫ = gS W :=
  (valN_carry W main_v3 3 n h fun k hk hik => v3_unwritten k (Nat.lt_of_lt_of_le hk hn) hik).trans (pro_v3 W)

theorem v6_at (W : Valuation τ sig (Elt F)) (n : Nat) (h : 3 ≤ n) (hn : n ≤ 18) : (valN n W)⟪main_v6⟫ = gD W :=
  (valN_carry W main_v6 3 n h fun k hk hik => v6_unwritten k (Nat.lt_of_lt_of_le hk hn) hik).trans (pro_v6 W)

theorem val5_v8 (W : Valuation τ sig (Elt F)) :
    (valN 5 W)⟪main_v8⟫ = gE W := by
  have h := l1_v8 (valN 3 W) (pro_v7 W)
  rw [argAt W 3 main_arg2] at h
  exact h

theorem v8_at (W : Valuation τ sig (Elt F)) (n : Nat) (h : 5 ≤ n) (hn : n ≤ 18) : (valN n W)⟪main_v8⟫ = gE W :=
  (valN_carry W main_v8 5 n h fun k hk hik => v8_unwritten k (Nat.lt_of_lt_of_le hk hn) hik).trans (val5_v8 W)

theorem val5_v48 (W : Valuation τ sig (Elt F)) :
    (valN 5 W)⟪main_v48⟫ = addf (gAgg32 (Host.dotGeneral (φ₁ := .f32) (φ₂ := .f32) dot_S50000x20_S20x32_S50000x32_1_0_0_1_n_n none W⟪main_arg0⟫ W⟪main_arg5⟫) (gS W) (gD W) (gN W)) (gRows32 W⟪main_arg6⟫) := by
  have h := l1_v48 (valN 3 W) (pro_v7 W)
  rw [v3_at W 3 (by decide) (by decide), v6_at W 3 (by decide) (by decide), argAt W 3 main_arg0, argAt W 3 main_arg5, argAt W 3 main_arg2, argAt W 3 main_arg6] at h
  exact h

theorem val6_v74 (W : Valuation τ sig (Elt F)) :
    (valN 6 W)⟪main_v74⟫ = gH1 W := by
  have h := ops5_v74 (valN 5 W)
  rw [val5_v48 W, argAt W 5 main_arg7, argAt W 5 main_arg8] at h
  exact h

theorem val8_v114 (W : Valuation τ sig (Elt F)) :
    (valN 8 W)⟪main_v114⟫ = addf (gAgg64 (Host.dotGeneral (φ₁ := .f32) (φ₂ := .f32) dot_S50000x32_S32x64_S50000x64_1_0_0_1_n_n none (gH1 W) W⟪main_arg9⟫) (gS W) (gD W) (gN W)) (gRows64 W⟪main_arg10⟫) := by
  have h := l2_v114 (valN 6 W)
  rw [val6_v74 W, v3_at W 6 (by decide) (by decide), v6_at W 6 (by decide) (by decide), v8_at W 6 (by decide) (by decide), argAt W 6 main_arg9, argAt W 6 main_arg10] at h
  exact h

theorem val9_v141 (W : Valuation τ sig (Elt F)) :
    (valN 9 W)⟪main_v141⟫ = (Host.dotGeneral (φ₁ := .f32) (φ₂ := .f32) dot_S50000x64_S64x128_S50000x128_1_0_0_1_n_n none (gH2 W) W⟪main_arg13⟫) := by
  have h := ops8_v141 (valN 8 W)
  rw [val8_v114 W, argAt W 8 main_arg11, argAt W 8 main_arg12, argAt W 8 main_arg13] at h
  exact h

theorem val9_v144 (W : Valuation τ sig (Elt F)) :
    (valN 9 W)⟪main_v144⟫ = gDegOf (gD W) (gE W) := by
  have h := ops8_v144 (valN 8 W)
  rw [v6_at W 8 (by decide) (by decide), v8_at W 8 (by decide) (by decide)] at h
  exact h

theorem val9_v146 (W : Valuation τ sig (Elt F)) :
    (valN 9 W)⟪main_v146⟫ = cmpf .ogt (gDegOf (gD W) (gE W)) gZeros := by
  have h := ops8_v146 (valN 8 W)
  rw [v6_at W 8 (by decide) (by decide), v8_at W 8 (by decide) (by decide)] at h
  exact h

theorem val10_v180 (W : Valuation τ sig (Elt F)) :
    (valN 10 W)⟪main_v180⟫ = addf (gAgg128 (Host.dotGeneral (φ₁ := .f32) (φ₂ := .f32) dot_S50000x64_S64x128_S50000x128_1_0_0_1_n_n none (gH2 W) W⟪main_arg13⟫) (gS W) (gD W) (gN W)) (gRows128 W⟪main_arg14⟫) := by
  have h := ops9_v180 (valN 9 W)
  rw [val9_v141 W, val9_v144 W, val9_v146 W, v3_at W 9 (by decide) (by decide), v6_at W 9 (by decide) (by decide), v8_at W 9 (by decide) (by decide), argAt W 9 main_arg14] at h
  exact h

theorem val12_v206 (W : Valuation τ sig (Elt F)) :
    (valN 12 W)⟪main_v206⟫ = gH3 W := by
  have h := l3_v206 (valN 10 W)
  rw [val10_v180 W, argAt W 10 main_arg15, argAt W 10 main_arg16] at h
  exact h

theorem val13_v243 (W : Valuation τ sig (Elt F)) :
    (valN 13 W)⟪main_v243⟫ = gA4 W := by
  have h := ops12_v243 (valN 12 W)
  rw [val12_v206 W, v3_at W 12 (by decide) (by decide), v6_at W 12 (by decide) (by decide), v8_at W 12 (by decide) (by decide), argAt W 12 main_arg17] at h
  exact h

theorem val14_v271 (W : Valuation τ sig (Elt F)) :
    (valN 14 W)⟪main_v271⟫ = gBN128 (addf (gA4 W) (gRows128 W⟪main_arg18⟫)) W⟪main_arg19⟫ W⟪main_arg20⟫ := by
  have h := ops13_v271 (valN 13 W)
  rw [val13_v243 W, argAt W 13 main_arg18, argAt W 13 main_arg19, argAt W 13 main_arg20] at h
  exact h

theorem val16_v309 (W : Valuation τ sig (Elt F)) :
    (valN 16 W)⟪main_v309⟫ = gAgg256 (Host.dotGeneral (φ₁ := .f32) (φ₂ := .f32) dot_S50000x128_S128x256_S50000x256_1_0_0_1_n_n none (gH4 W) W⟪main_arg21⟫) (gS W) (gD W) (gN W) := by
  have h := l5_v309 (valN 14 W)
  rw [val14_v271 W, v3_at W 14 (by decide) (by decide), v6_at W 14 (by decide) (by decide), v8_at W 14 (by decide) (by decide), argAt W 14 main_arg21] at h
  exact h

theorem val17_v342 (W : Valuation τ sig (Elt F)) :
    (valN 17 W)⟪main_v342⟫ = (Host.dotGeneral (φ₁ := .f32) (φ₂ := .f32) dot_S512x256_S256x128_S512x128_1_0_0_1_n_n none (gPooled (gH5 W) W⟪main_arg3⟫) W⟪main_arg25⟫) := by
  have h := ops16_v342 (valN 16 W)
  rw [val16_v309 W, argAt W 16 main_arg22, argAt W 16 main_arg23, argAt W 16 main_arg24, argAt W 16 main_arg3, argAt W 16 main_arg25] at h
  exact h

theorem val18_v351 (W : Valuation τ sig (Elt F)) :
    (valN 18 W)⟪main_v351⟫ = gRes W := by
  have h := ops17_v351 (valN 17 W)
  rw [val17_v342 W, argAt W 17 main_arg26, argAt W 17 main_arg27, argAt W 17 main_arg28] at h
  exact h

theorem ref_value (W : Valuation τ sig (Elt F)) : (after ops W)⟪main_v351⟫ = gRes W := by
  rw [after_ops_valN]; exact val18_v351 W

set_option maxRecDepth 8192 in
theorem ref_run_value (m' : (ℓ : Loc nD τ sig) → Buf (Elt F) ℓ) (ρ' : Dev nD → PrngReg) :
    θ_run defs (onTc (τ := τ) (main (F := F))) ⟨m', fun _ => 0, ρ'⟩ fun r => ∀ c : Dev nD,
      r.2.mem ((c.tc : Thread nD τ).loc main_v351) = gRes (StableHlo.launchContents m' c)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20)
      ∧ r.2.mem ((c.tc : Thread nD τ).loc main_arg21) = m' ((c.tc : Thread nD τ).loc main_arg21)
      ∧ r.2.mem ((c.tc : Thread nD τ).loc main_arg22) = m' ((c.tc : Thread nD τ).loc main_arg22)
      ∧ r.2.mem ((c.tc : Thread nD τ).loc main_arg23) = m' ((c.tc : Thread nD τ).loc main_arg23)
      ∧ r.2.mem ((c.tc : Thread nD τ).loc main_arg24) = m' ((c.tc : Thread nD τ).loc main_arg24)
      ∧ r.2.mem ((c.tc : Thread nD τ).loc main_arg25) = m' ((c.tc : Thread nD τ).loc main_arg25)
      ∧ r.2.mem ((c.tc : Thread nD τ).loc main_arg26) = m' ((c.tc : Thread nD τ).loc main_arg26)
      ∧ r.2.mem ((c.tc : Thread nD τ).loc main_arg27) = m' ((c.tc : Thread nD τ).loc main_arg27)
      ∧ r.2.mem ((c.tc : Thread nD τ).loc main_arg28) = m' ((c.tc : Thread nD τ).loc main_arg28) :=
  (θ_run defs _ _).mono (fun _ h c => ⟨(h c main_v351).trans (ref_value _),
      (h c main_arg0).trans (after_ops_arg _ main_arg0 (by decide)),
      (h c main_arg1).trans (after_ops_arg _ main_arg1 (by decide)),
      (h c main_arg2).trans (after_ops_arg _ main_arg2 (by decide)),
      (h c main_arg3).trans (after_ops_arg _ main_arg3 (by decide)),
      (h c main_arg4).trans (after_ops_arg _ main_arg4 (by decide)),
      (h c main_arg5).trans (after_ops_arg _ main_arg5 (by decide)),
      (h c main_arg6).trans (after_ops_arg _ main_arg6 (by decide)),
      (h c main_arg7).trans (after_ops_arg _ main_arg7 (by decide)),
      (h c main_arg8).trans (after_ops_arg _ main_arg8 (by decide)),
      (h c main_arg9).trans (after_ops_arg _ main_arg9 (by decide)),
      (h c main_arg10).trans (after_ops_arg _ main_arg10 (by decide)),
      (h c main_arg11).trans (after_ops_arg _ main_arg11 (by decide)),
      (h c main_arg12).trans (after_ops_arg _ main_arg12 (by decide)),
      (h c main_arg13).trans (after_ops_arg _ main_arg13 (by decide)),
      (h c main_arg14).trans (after_ops_arg _ main_arg14 (by decide)),
      (h c main_arg15).trans (after_ops_arg _ main_arg15 (by decide)),
      (h c main_arg16).trans (after_ops_arg _ main_arg16 (by decide)),
      (h c main_arg17).trans (after_ops_arg _ main_arg17 (by decide)),
      (h c main_arg18).trans (after_ops_arg _ main_arg18 (by decide)),
      (h c main_arg19).trans (after_ops_arg _ main_arg19 (by decide)),
      (h c main_arg20).trans (after_ops_arg _ main_arg20 (by decide)),
      (h c main_arg21).trans (after_ops_arg _ main_arg21 (by decide)),
      (h c main_arg22).trans (after_ops_arg _ main_arg22 (by decide)),
      (h c main_arg23).trans (after_ops_arg _ main_arg23 (by decide)),
      (h c main_arg24).trans (after_ops_arg _ main_arg24 (by decide)),
      (h c main_arg25).trans (after_ops_arg _ main_arg25 (by decide)),
      (h c main_arg26).trans (after_ops_arg _ main_arg26 (by decide)),
      (h c main_arg27).trans (after_ops_arg _ main_arg27 (by decide)),
      (h c main_arg28).trans (after_ops_arg _ main_arg28 (by decide))⟩)
    (run_raw m' ρ')

end Cert.ReferenceIdeal.RefRun

end
-- ==== Proof.Val.Fin.lean ====
import Idealize.ShloMosaic.PureOps.Ideal.Laws
import Idealize.ShloMosaic.Lib.IdealHost
import Idealize.ShloMosaic.Lib.ValueIdx

noncomputable section

namespace Cert.Val

open Idealize.ShloMosaic
open scoped BigOperators

def IsReal (x : EReal) : Prop := ∃ r : ℝ, x = (r : EReal)

def AllReal {s : Shape} (v : s.Idx → EReal) : Prop := ∀ i, IsReal (v i)

namespace IsReal

theorem coe (r : ℝ) : IsReal (r : EReal) := ⟨r, rfl⟩

theorem zero : IsReal 0 := ⟨0, EReal.coe_zero.symm⟩

theorem one : IsReal 1 := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem max {x y : EReal} (hx : IsReal x) (hy : IsReal y) : IsReal (max x y) := by
  rcases max_choice x y with h | h <;> rw [h] <;> assumption

theorem min {x y : EReal} (hx : IsReal x) (hy : IsReal y) : IsReal (min x y) := by
  rcases min_choice x y with h | h <;> rw [h] <;> assumption

theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

theorem div_coe {x : EReal} (hx : IsReal x) {y : ℝ} (hy : y ≠ 0) : IsReal (Ideal.div x (y : EReal)) := by
  rw [Ideal.div_coe hy]; exact hx.mul (coe _)

theorem rsqrt_coe_pos {r : ℝ} (hr : 0 < r) : IsReal (Ideal.rsqrt (r : EReal)) := by
  rw [Ideal.rsqrt_coe, if_neg (not_lt.2 hr.le), if_neg hr.ne']; exact coe _

theorem rsqrt_pos {x : EReal} (hx : IsReal x) (h0 : 0 < x) : IsReal (Ideal.rsqrt x) := by
  obtain ⟨r, rfl⟩ := hx; exact rsqrt_coe_pos (EReal.coe_pos.1 h0)

theorem select (c : BitVec 1) {x y : EReal} (hx : IsReal x) (hy : IsReal y) : IsReal (Scalar.select c x y) := by
  unfold Scalar.select; split <;> assumption

theorem ofBits_zero : IsReal (Ideal.ofBits .f32 0x00000000#32) := by rw [Ideal.ofBits_zero_f32]; exact zero

theorem ofBits_one : IsReal (Ideal.ofBits .f32 0x3F800000#32) := by rw [Ideal.ofBits_one_f32]; exact one

end IsReal

namespace AllReal

variable {s t : Shape}

theorem gather {si : Shape} {w : Nat} (d : GatherDims s si t) {x : s.Idx → EReal} (hx : AllReal x) (idx : IVec si w) :
    AllReal (Host.gather d x idx) := fun j => hx _

theorem broadcastInDim (dims : Fin s.rank → Fin t.rank) (h : s.BroadcastsInDim t dims) {x : s.Idx → EReal}
    (hx : AllReal x) : AllReal (broadcastInDim t dims h x) := fun j => hx _

theorem shapeCast (h : s.ShapeCasts t) {x : s.Idx → EReal} (hx : AllReal x) : AllReal (shapeCast t x h) := fun j => hx _

theorem concatenate (a : Fin t.rank) (xs : List ((s : Shape) × (s.Idx → EReal)))
    (h : Shape.Concatenates (xs.map (·.1)) t a) (hxs : ∀ p ∈ xs, ∀ i, IsReal (p.2 i)) :
    AllReal (concatenate t a xs h) := by
  intro j
  unfold Idealize.ShloMosaic.concatenate
  exact hxs _ (List.getElem_mem _) _

theorem concatenate₂ {s₁ s₂ : Shape} (a : Fin t.rank) {x : s₁.Idx → EReal} {y : s₂.Idx → EReal}
    (h : Shape.Concatenates [s₁, s₂] t a) (hx : AllReal x) (hy : AllReal y) :
    AllReal (Idealize.ShloMosaic.concatenate t a [⟨s₁, x⟩, ⟨s₂, y⟩] h) := by
  refine concatenate a [⟨s₁, x⟩, ⟨s₂, y⟩] h ?_
  intro p hp
  simp only [List.mem_cons, List.not_mem_nil, or_false] at hp
  rcases hp with rfl | rfl
  · exact hx
  · exact hy

theorem constant_zero : AllReal (constant (F := Ideal) s .f32 0x00000000#32) := fun _ => IsReal.ofBits_zero

theorem constant_one : AllReal (constant (F := Ideal) s .f32 0x3F800000#32) := fun _ => IsReal.ofBits_one

theorem mulf {φ : FTy} {x y : FVec Ideal s φ} (hx : AllReal x) (hy : AllReal y) : AllReal (mulf x y) :=
  fun i => (hx i).mul (hy i)

theorem addf {φ : FTy} {x y : FVec Ideal s φ} (hx : AllReal x) (hy : AllReal y) : AllReal (addf x y) :=
  fun i => (hx i).add (hy i)

theorem subf {φ : FTy} {x y : FVec Ideal s φ} (hx : AllReal x) (hy : AllReal y) : AllReal (subf x y) :=
  fun i => (hx i).sub (hy i)

theorem maximumf {φ : FTy} {x y : FVec Ideal s φ} (hx : AllReal x) (hy : AllReal y) : AllReal (maximumf x y) :=
  fun i => (hx i).max (hy i)

theorem extf {φ ψ : FTy} {x : FVec Ideal s φ} (hx : AllReal x) (h : φ.bits < ψ.bits) :
    AllReal (extf ψ x h : FVec Ideal s ψ) := fun i => hx i

theorem truncf {φ ψ : FTy} {x : FVec Ideal s φ} (hx : AllReal x) (h : ψ.bits < φ.bits) :
    AllReal (truncf ψ x h : FVec Ideal s ψ) := fun i => hx i

theorem select (c : IVec s 1) {x y : s.Idx → EReal} (hx : AllReal x) (hy : AllReal y) :
    AllReal (Idealize.ShloMosaic.select c x y) := fun i => IsReal.select (c i) (hx i) (hy i)

theorem scatterAdd {si u : Shape} {w : Nat} {φ : FTy} (d : ScatterDims s si u) {x : FVec Ideal s φ} (idx : IVec si w)
    {upd : FVec Ideal u φ} (hx : AllReal x) (hu : AllReal upd) : AllReal (Host.scatterAdd d x idx upd) := by
  intro i
  show IsReal (x i + ∑ j ∈ Finset.univ.filter (fun j => d.resultIdx? j idx = some i), upd j)
  exact (hx i).add (IsReal.sum _ _ fun j _ => hu j)

end AllReal

end Cert.Val

end
-- ==== Proof.Val.FinNorm.lean ====
import proofs.«411449_j51797305589934_2_alg».proof.KernelIdeal
import proofs.«411449_j51797305589934_2_alg».proof.Proof.Val.Fin

noncomputable section

namespace Cert.Val

open Idealize.ShloMosaic
open Cert.KernelIdeal Cert.KernelIdeal.Facts₀

variable [Cert.KernelIdeal.Facts₀]

def kIota : IVec S50000 32 := iotaInDim S50000 32 0

def kSrc (ei : IVec S2x800000 32) : IVec S850000 32 :=
  concatenate S850000 0
    [⟨S800000, shapeCast S800000 (extractStridedSlice S1x800000 ![0, 0] ei slices_S2x800000_S1x800000_0_0)
        shapeCasts_S1x800000_S800000⟩, ⟨S50000, kIota⟩] concatenates_S800000_S50000_S850000_d0

def kDst (ei : IVec S2x800000 32) : IVec S850000 32 :=
  concatenate S850000 0
    [⟨S800000, shapeCast S800000 (extractStridedSlice S1x800000 ![1, 0] ei slices_S2x800000_S1x800000_1_0)
        shapeCasts_S1x800000_S800000⟩, ⟨S50000, kIota⟩] concatenates_S800000_S50000_S850000_d0

def kEw (ew : FVec Ideal S800000 .f32) : FVec Ideal S850000 .f32 :=
  concatenate S850000 0
    [⟨S800000, ew⟩, ⟨S50000, broadcastInDim S50000 ![] bcast_S_S50000 (constant (F := Ideal) S_ .f32 0x3F800000#32)⟩]
    concatenates_S800000_S50000_S850000_d0

def kCol (v : IVec S850000 32) : IVec S850000x1 32 := broadcastInDim S850000x1 ![0] bcast_S850000_S850000x1_0 v

def kWrap (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

def kZeros : FVec Ideal S50000 .f32 :=
  broadcastInDim S50000 ![] bcast_S_S50000 (constant (F := Ideal) S_ .f32 0x00000000#32)

def kDeg (ei : IVec S2x800000 32) (ew : FVec Ideal S800000 .f32) : FVec Ideal S50000 .f32 :=
  Host.scatterAdd scatter_S50000_S850000x1_S850000_n_0_0_1 kZeros (kCol (kDst ei)) (kEw ew)

def kDis (ei : IVec S2x800000 32) (ew : FVec Ideal S800000 .f32) : FVec Ideal S50000 .f32 :=
  select (cmpf .ogt (kDeg ei ew) kZeros) (Host.rsqrt (kDeg ei ew)) kZeros

def kNorm (ei : IVec S2x800000 32) (ew : FVec Ideal S800000 .f32) : FVec Ideal S850000 .f32 :=
  mulf
    (mulf (Host.gather gather_S50000_S850000x1_S850000_n_0_n_n_0_1_1 (kDis ei ew) (kCol (kWrap (kSrc ei)))) (kEw ew))
    (Host.gather gather_S50000_S850000x1_S850000_n_0_n_n_0_1_1 (kDis ei ew) (kCol (kWrap (kDst ei))))

theorem kEw_real {ew : FVec Ideal S800000 .f32} (h : AllReal ew) : AllReal (kEw ew) :=
  AllReal.concatenate₂ _ _ h (AllReal.broadcastInDim _ _ AllReal.constant_one)

theorem kZeros_real : AllReal kZeros := AllReal.broadcastInDim _ _ AllReal.constant_zero

theorem kZeros_apply (i : S50000.Idx) : kZeros i = 0 := Ideal.ofBits_zero_f32

theorem kDeg_real (ei : IVec S2x800000 32) {ew : FVec Ideal S800000 .f32} (h : AllReal ew) : AllReal (kDeg ei ew) :=
  AllReal.scatterAdd _ _ kZeros_real (kEw_real h)

theorem IsReal.where_rsqrt {d z e : EReal} (hd : IsReal d) (hz : z = 0) (he : IsReal e) :
    IsReal (Scalar.select (Ideal.cmp .ogt d z) (Ideal.rsqrt d) e) := by
  unfold Scalar.select
  split
  · rename_i h
    have h' : BitVec.ofBool (decide (z < d)) = 1#1 := h
    have hlt : z < d := by
      by_contra hn
      rw [decide_eq_false hn] at h'
      exact absurd h' (by decide)
    exact hd.rsqrt_pos (hz ▸ hlt)
  · exact he

theorem hostRsqrt_apply {s : Shape} {φ : FTy} (x : FVec Ideal s φ) (i : s.Idx) : Host.rsqrt x i = Ideal.rsqrt (x i) := rfl

theorem kDis_real (ei : IVec S2x800000 32) {ew : FVec Ideal S800000 .f32} (h : AllReal ew) : AllReal (kDis ei ew) := by
  intro i
  have hd := kDeg_real ei h i
  have hz := kZeros_apply i
  have hzr := kZeros_real i
  unfold kDis
  rw [ValueIdx.select_apply, ValueIdx.cmpf_apply, Ideal.cmpf_def, hostRsqrt_apply]
  generalize kDeg ei ew i = d at hd ⊢
  generalize kZeros i = z at hz hzr ⊢
  exact IsReal.where_rsqrt hd hz hzr

theorem kNorm_real (ei : IVec S2x800000 32) {ew : FVec Ideal S800000 .f32} (h : AllReal ew) : AllReal (kNorm ei ew) :=
  AllReal.mulf (AllReal.mulf (AllReal.gather _ (kDis_real ei h) _) (kEw_real h)) (AllReal.gather _ (kDis_real ei h) _)

def kAggG {sx sg sz : Shape} (gd : GatherDims sx S850000x1 sg) (sd : ScatterDims sz S850000x1 sg)
    (dims₂ : Fin S850000x1.rank → Fin sg.rank) (hb : S850000x1.BroadcastsInDim sg dims₂)
    (dims₀ : Fin S_.rank → Fin sz.rank) (hz : S_.BroadcastsInDim sz dims₀)
    (xw : FVec Ideal sx .bf16) (src dst : IVec S850000 32) (norm : FVec Ideal S850000 .f32) : FVec Ideal sz .f32 :=
  Host.scatterAdd sd (broadcastInDim sz dims₀ hz (constant (F := Ideal) S_ .f32 0x00000000#32)) (kCol dst)
    (mulf (extf .f32 (Host.gather gd xw (kCol (kWrap src))) bitsLt_bf16_f32)
      (broadcastInDim sg dims₂ hb (broadcastInDim S850000x1 ![0] bcast_S850000_S850000x1_0 norm)))

def kAgg1 (xw : FVec Ideal S50000x32 .bf16) (src dst : IVec S850000 32) (norm : FVec Ideal S850000 .f32) :
    FVec Ideal S50000x32 .f32 :=
  kAggG gather_S50000x32_S850000x1_S850000x32_1_0_n_n_0_1_132 scatter_S50000x32_S850000x1_S850000x32_1_0_0_1
    ![0, 1] bcast_S850000x1_S850000x32_0_1 ![] bcast_S_S50000x32 xw src dst norm

def kAgg2 (xw : FVec Ideal S50000x64 .bf16) (src dst : IVec S850000 32) (norm : FVec Ideal S850000 .f32) :
    FVec Ideal S50000x64 .f32 :=
  kAggG gather_S50000x64_S850000x1_S850000x64_1_0_n_n_0_1_164 scatter_S50000x64_S850000x1_S850000x64_1_0_0_1
    ![0, 1] bcast_S850000x1_S850000x64_0_1 ![] bcast_S_S50000x64 xw src dst norm

def kAgg3 (xw : FVec Ideal S50000x128 .bf16) (src dst : IVec S850000 32) (norm : FVec Ideal S850000 .f32) :
    FVec Ideal S50000x128 .f32 :=
  kAggG gather_S50000x128_S850000x1_S850000x128_1_0_n_n_0_1_1128 scatter_S50000x128_S850000x1_S850000x128_1_0_0_1
    ![0, 1] bcast_S850000x1_S850000x128_0_1 ![] bcast_S_S50000x128 xw src dst norm

def kAgg5 (xw : FVec Ideal S50000x256 .bf16) (src dst : IVec S850000 32) (norm : FVec Ideal S850000 .f32) :
    FVec Ideal S50000x256 .f32 :=
  kAggG gather_S50000x256_S850000x1_S850000x256_1_0_n_n_0_1_1256 scatter_S50000x256_S850000x1_S850000x256_1_0_0_1
    ![0, 1] bcast_S850000x1_S850000x256_0_1 ![] bcast_S_S50000x256 xw src dst norm

def rAggG {sx sg sz : Shape} (gd : GatherDims sx S850000x1 sg) (sd : ScatterDims sz S850000x1 sg)
    (dims₂ : Fin S850000x1.rank → Fin sg.rank) (hb : S850000x1.BroadcastsInDim sg dims₂)
    (dims₀ : Fin S_.rank → Fin sz.rank) (hz : S_.BroadcastsInDim sz dims₀)
    (xw : FVec Ideal sx .f32) (src dst : IVec S850000 32) (norm : FVec Ideal S850000 .f32) : FVec Ideal sz .f32 :=
  Host.scatterAdd sd (broadcastInDim sz dims₀ hz (constant (F := Ideal) S_ .f32 0x00000000#32)) (kCol dst)
    (mulf (Host.gather gd xw (kCol (kWrap src)))
      (broadcastInDim sg dims₂ hb (broadcastInDim S850000x1 ![0] bcast_S850000_S850000x1_0 norm)))

theorem rAggG_real {sx sg sz : Shape} (gd : GatherDims sx S850000x1 sg) (sd : ScatterDims sz S850000x1 sg)
    (dims₂ : Fin S850000x1.rank → Fin sg.rank) (hb : S850000x1.BroadcastsInDim sg dims₂)
    (dims₀ : Fin S_.rank → Fin sz.rank) (hz : S_.BroadcastsInDim sz dims₀)
    {xw : FVec Ideal sx .f32} (src dst : IVec S850000 32) {norm : FVec Ideal S850000 .f32}
    (hxw : AllReal xw) (hn : AllReal norm) : AllReal (rAggG gd sd dims₂ hb dims₀ hz xw src dst norm) :=
  AllReal.scatterAdd sd _ (AllReal.broadcastInDim _ _ AllReal.constant_zero)
    (AllReal.mulf (AllReal.gather gd hxw _) (AllReal.broadcastInDim _ _ (AllReal.broadcastInDim _ _ hn)))

end Cert.Val

end
-- ==== Proof.Val.FinRef.lean ====
import proofs.«411449_j51797305589934_2_alg».proof.ReferenceIdeal
import proofs.«411449_j51797305589934_2_alg».proof.Proof.Val.FinNorm

noncomputable section

namespace Cert.Val

open Idealize.ShloMosaic
open Cert.KernelIdeal Cert.KernelIdeal.Facts₀

variable [Cert.KernelIdeal.Facts₀] [Cert.ReferenceIdeal.Facts₀]

def rAgg1 (xw : FVec Ideal S50000x32 .f32) (src dst : IVec S850000 32) (norm : FVec Ideal S850000 .f32) :
    FVec Ideal S50000x32 .f32 :=
  rAggG Cert.ReferenceIdeal.gather_S50000x32_S850000x1_S850000x32_1_0_n_n_0_1_132
    Cert.ReferenceIdeal.scatter_S50000x32_S850000x1_S850000x32_1_0_0_1
    ![0, 1] Cert.ReferenceIdeal.Facts₀.bcast_S850000x1_S850000x32_0_1 ![] Cert.ReferenceIdeal.Facts₀.bcast_S_S50000x32
    xw src dst norm

def rAgg2 (xw : FVec Ideal S50000x64 .f32) (src dst : IVec S850000 32) (norm : FVec Ideal S850000 .f32) :
    FVec Ideal S50000x64 .f32 :=
  rAggG Cert.ReferenceIdeal.gather_S50000x64_S850000x1_S850000x64_1_0_n_n_0_1_164
    Cert.ReferenceIdeal.scatter_S50000x64_S850000x1_S850000x64_1_0_0_1
    ![0, 1] Cert.ReferenceIdeal.Facts₀.bcast_S850000x1_S850000x64_0_1 ![] Cert.ReferenceIdeal.Facts₀.bcast_S_S50000x64
    xw src dst norm

def rAgg3 (xw : FVec Ideal S50000x128 .f32) (src dst : IVec S850000 32) (norm : FVec Ideal S850000 .f32) :
    FVec Ideal S50000x128 .f32 :=
  rAggG Cert.ReferenceIdeal.gather_S50000x128_S850000x1_S850000x128_1_0_n_n_0_1_1128
    Cert.ReferenceIdeal.scatter_S50000x128_S850000x1_S850000x128_1_0_0_1
    ![0, 1] Cert.ReferenceIdeal.Facts₀.bcast_S850000x1_S850000x128_0_1 ![] Cert.ReferenceIdeal.Facts₀.bcast_S_S50000x128
    xw src dst norm

def rAgg5 (xw : FVec Ideal S50000x256 .f32) (src dst : IVec S850000 32) (norm : FVec Ideal S850000 .f32) :
    FVec Ideal S50000x256 .f32 :=
  rAggG Cert.ReferenceIdeal.gather_S50000x256_S850000x1_S850000x256_1_0_n_n_0_1_1256
    Cert.ReferenceIdeal.scatter_S50000x256_S850000x1_S850000x256_1_0_0_1
    ![0, 1] Cert.ReferenceIdeal.Facts₀.bcast_S850000x1_S850000x256_0_1 ![] Cert.ReferenceIdeal.Facts₀.bcast_S_S50000x256
    xw src dst norm

theorem rAgg1_real {xw : FVec Ideal S50000x32 .f32} (src dst : IVec S850000 32) {norm : FVec Ideal S850000 .f32}
    (hxw : AllReal xw) (hn : AllReal norm) : AllReal (rAgg1 xw src dst norm) := rAggG_real _ _ _ _ _ _ src dst hxw hn

theorem rAgg2_real {xw : FVec Ideal S50000x64 .f32} (src dst : IVec S850000 32) {norm : FVec Ideal S850000 .f32}
    (hxw : AllReal xw) (hn : AllReal norm) : AllReal (rAgg2 xw src dst norm) := rAggG_real _ _ _ _ _ _ src dst hxw hn

theorem rAgg3_real {xw : FVec Ideal S50000x128 .f32} (src dst : IVec S850000 32) {norm : FVec Ideal S850000 .f32}
    (hxw : AllReal xw) (hn : AllReal norm) : AllReal (rAgg3 xw src dst norm) := rAggG_real _ _ _ _ _ _ src dst hxw hn

theorem rAgg5_real {xw : FVec Ideal S50000x256 .f32} (src dst : IVec S850000 32) {norm : FVec Ideal S850000 .f32}
    (hxw : AllReal xw) (hn : AllReal norm) : AllReal (rAgg5 xw src dst norm) := rAggG_real _ _ _ _ _ _ src dst hxw hn

theorem kAgg1_eq_rAgg1 (xw : S50000x32.Idx → EReal) (src dst : IVec S850000 32) (norm : FVec Ideal S850000 .f32) :
    kAgg1 xw src dst norm = rAgg1 xw src dst norm := rfl

theorem kAgg2_eq_rAgg2 (xw : S50000x64.Idx → EReal) (src dst : IVec S850000 32) (norm : FVec Ideal S850000 .f32) :
    kAgg2 xw src dst norm = rAgg2 xw src dst norm := rfl

theorem kAgg3_eq_rAgg3 (xw : S50000x128.Idx → EReal) (src dst : IVec S850000 32) (norm : FVec Ideal S850000 .f32) :
    kAgg3 xw src dst norm = rAgg3 xw src dst norm := rfl

theorem kAgg5_eq_rAgg5 (xw : S50000x256.Idx → EReal) (src dst : IVec S850000 32) (norm : FVec Ideal S850000 .f32) :
    kAgg5 xw src dst norm = rAgg5 xw src dst norm := rfl

end Cert.Val

end
-- ==== Proof.Val.RefBN1.lean ====
import proofs.«411449_j51797305589934_2_alg».proof.Proof.Gen.ReferenceIdeal
import Idealize.ShloMosaic.Lib.ValueIdx
import Idealize.ShloMosaic.Lib.IdealHost
import Idealize.ShloMosaic.Lib.Pipeline.Value
import Idealize.ShloMosaic.PureOps.Ideal.Laws

noncomputable section

namespace Cert.Val

open Idealize.ShloMosaic Idealize.ShloMosaic.ValueIdx Cert.ReferenceIdeal
open scoped BigOperators

open Facts₀

def rows1 (x : FVec Ideal S32 .f32) : FVec Ideal S50000x32 .f32 :=
  broadcastInDim S50000x32 ![0, 1] bcast_S1x32_S50000x32_0_1 (broadcastInDim S1x32 ![1] bcast_S32_S1x32_1 x)

def refRelu1 (agg : FVec Ideal S50000x32 .f32) (b : FVec Ideal S32 .f32) : FVec Ideal S50000x32 .f32 :=
  maximumf (addf agg (rows1 b))
    (broadcastInDim S50000x32 ![] bcast_S_S50000x32 (constant (F := Ideal) S_ .f32 0x00000000#32))

def refMean1 (agg : FVec Ideal S50000x32 .f32) (b : FVec Ideal S32 .f32) : FVec Ideal S32 .f32 :=
  Host.divf
    (Host.reduceAdd (refRelu1 agg b) (constant (F := Ideal) S_ .f32 0x00000000#32) reducesTo_S50000x32_S32_d0 h_S_)
    (broadcastInDim S32 ![] bcast_S_S32 (constant (F := Ideal) S_ .f32 0x47435000#32))

def refCen1 (agg : FVec Ideal S50000x32 .f32) (b : FVec Ideal S32 .f32) : FVec Ideal S50000x32 .f32 :=
  subf (refRelu1 agg b) (rows1 (refMean1 agg b))

def refVar1 (agg : FVec Ideal S50000x32 .f32) (b : FVec Ideal S32 .f32) : FVec Ideal S32 .f32 :=
  Host.divf
    (Host.reduceAdd (mulf (refCen1 agg b) (refCen1 agg b)) (constant (F := Ideal) S_ .f32 0x00000000#32)
      reducesTo_S50000x32_S32_d0 h_S_)
    (broadcastInDim S32 ![] bcast_S_S32 (constant (F := Ideal) S_ .f32 0x47435000#32))

def refBN1 (agg : FVec Ideal S50000x32 .f32) (b g beta : FVec Ideal S32 .f32) : FVec Ideal S50000x32 .f32 :=
  addf
    (mulf (mulf (rows1 g) (refCen1 agg b))
      (rows1 (Host.rsqrt (addf (refVar1 agg b)
        (broadcastInDim S32 ![] bcast_S_S32 (constant (F := Ideal) S_ .f32 0x3727C5AC#32))))))
    (rows1 beta)

theorem rows1_apply (x : FVec Ideal S32 .f32) (p : Fin 50000) (q : Fin 32) : rows1 x (ix2 p q) = x (ix1 q) := by
  unfold rows1
  rw [broadcastInDim_apply _ _ _ (ix2 p q) (ix2 (0 : Fin 1) q) (fun a => by
        match a with | ⟨0, _⟩ => rfl | ⟨1, _⟩ => rfl),
      broadcastInDim_apply _ _ _ (ix2 (0 : Fin 1) q) (ix1 q) (fun a => by
        match a with | ⟨0, _⟩ => rfl)]

theorem zeros1_apply (j : S50000x32.Idx) :
    broadcastInDim S50000x32 ![] bcast_S_S50000x32 (constant (F := Ideal) S_ .f32 0x00000000#32) j = 0 := by
  rw [broadcastInDim_scalar_apply, constant_apply, Ideal.ofBits_zero_f32]

theorem splat1_apply (w : BitVec 32) (j : S32.Idx) :
    broadcastInDim S32 ![] bcast_S_S32 (constant (F := Ideal) S_ .f32 w) j = Ideal.ofBits .f32 w := by
  rw [broadcastInDim_scalar_apply, constant_apply]

theorem hostRsqrt1_apply {s : Shape} {φ : FTy} (x : FVec Ideal s φ) (j : s.Idx) : Host.rsqrt x j = Ideal.rsqrt (x j) := rfl

theorem refRelu1_apply (agg : FVec Ideal S50000x32 .f32) (b : FVec Ideal S32 .f32) (p : Fin 50000) (q : Fin 32) :
    refRelu1 agg b (ix2 p q) = max (agg (ix2 p q) + b (ix1 q)) 0 := by
  unfold refRelu1
  rw [maximumf_apply, addf_apply, rows1_apply, zeros1_apply]

theorem colSum1_apply (x : FVec Ideal S50000x32 .f32) (q : Fin 32) :
    Host.reduceAdd x (constant (F := Ideal) S_ .f32 0x00000000#32) reducesTo_S50000x32_S32_d0 h_S_ (ix1 q)
      = 0 + ∑ p : Fin 50000, x (ix2 p q) := by
  rw [hostReduceAdd_apply, Ideal.hostReduceAdd_single reducesTo_S50000x32_S32_d0 (by decide), constant_apply,
    Ideal.ofBits_zero_f32]
  refine congrArg (_ + ·) (Finset.sum_congr rfl fun k _ => ?_)
  exact congrArg x (funext fun a => Fin.ext (by match a with | ⟨0, _⟩ => rfl | ⟨1, _⟩ => rfl))

theorem refMean1_apply (agg : FVec Ideal S50000x32 .f32) (b : FVec Ideal S32 .f32) (q : Fin 32) :
    refMean1 agg b (ix1 q)
      = Ideal.div (0 + ∑ p : Fin 50000, max (agg (ix2 p q) + b (ix1 q)) 0) (Ideal.ofBits .f32 0x47435000#32) := by
  unfold refMean1
  rw [hostDivf_apply, colSum1_apply, splat1_apply]
  simp only [refRelu1_apply]

theorem refCen1_apply (agg : FVec Ideal S50000x32 .f32) (b : FVec Ideal S32 .f32) (p : Fin 50000) (q : Fin 32) :
    refCen1 agg b (ix2 p q) = max (agg (ix2 p q) + b (ix1 q)) 0 - refMean1 agg b (ix1 q) := by
  unfold refCen1
  rw [subf_apply, rows1_apply, refRelu1_apply]

theorem refVar1_apply (agg : FVec Ideal S50000x32 .f32) (b : FVec Ideal S32 .f32) (q : Fin 32) :
    refVar1 agg b (ix1 q)
      = Ideal.div (0 + ∑ p : Fin 50000,
            (max (agg (ix2 p q) + b (ix1 q)) 0 - refMean1 agg b (ix1 q))
              * (max (agg (ix2 p q) + b (ix1 q)) 0 - refMean1 agg b (ix1 q)))
          (Ideal.ofBits .f32 0x47435000#32) := by
  unfold refVar1
  rw [hostDivf_apply, colSum1_apply, splat1_apply]
  simp only [mulf_apply, refCen1_apply]

theorem refBN1_apply (agg : FVec Ideal S50000x32 .f32) (b g beta : FVec Ideal S32 .f32) (p : Fin 50000) (q : Fin 32) :
    refBN1 agg b g beta (ix2 p q)
      = g (ix1 q) * (max (agg (ix2 p q) + b (ix1 q)) 0 - refMean1 agg b (ix1 q))
          * Ideal.rsqrt (refVar1 agg b (ix1 q) + Ideal.ofBits .f32 0x3727C5AC#32)
        + beta (ix1 q) := by
  unfold refBN1
  rw [addf_apply, mulf_apply, mulf_apply, rows1_apply, rows1_apply, rows1_apply, refCen1_apply]
  rw [hostRsqrt1_apply, addf_apply, splat1_apply]

theorem lhs_dot1_0 (i : S50000x32.Idx) (k : dot_S50000x20_S20x32_S50000x32_1_0_0_1_n_n.contr.Idx) :
    (dot_S50000x20_S20x32_S50000x32_1_0_0_1_n_n.lhsIdx i k 0).val = (i 0).val := by
  unfold DotDims.lhsIdx
  rw [dif_neg (show ¬(0 : Fin S50000x20.rank) ∈ dot_S50000x20_S20x32_S50000x32_1_0_0_1_n_n.lhsBatch by decide),
    dif_pos (show (0 : Fin S50000x20.rank) ∈ dot_S50000x20_S20x32_S50000x32_1_0_0_1_n_n.lhsNonContracting by decide)]
  rfl

theorem lhs_dot1_1 (i : S50000x32.Idx) (k : dot_S50000x20_S20x32_S50000x32_1_0_0_1_n_n.contr.Idx) :
    (dot_S50000x20_S20x32_S50000x32_1_0_0_1_n_n.lhsIdx i k 1).val = (k ⟨0, by decide⟩).val :=
  dot_S50000x20_S20x32_S50000x32_1_0_0_1_n_n.lhsIdx_val_of_single rfl i k

theorem rhs_dot1_0 (i : S50000x32.Idx) (k : dot_S50000x20_S20x32_S50000x32_1_0_0_1_n_n.contr.Idx) :
    (dot_S50000x20_S20x32_S50000x32_1_0_0_1_n_n.rhsIdx i k 0).val = (k ⟨0, by decide⟩).val :=
  dot_S50000x20_S20x32_S50000x32_1_0_0_1_n_n.rhsIdx_val_of_single rfl i k

theorem rhs_dot1_1 (i : S50000x32.Idx) (k : dot_S50000x20_S20x32_S50000x32_1_0_0_1_n_n.contr.Idx) :
    (dot_S50000x20_S20x32_S50000x32_1_0_0_1_n_n.rhsIdx i k 1).val = (i 1).val := by
  unfold DotDims.rhsIdx
  rw [dif_neg (show ¬(1 : Fin S20x32.rank) ∈ dot_S50000x20_S20x32_S50000x32_1_0_0_1_n_n.rhsBatch by decide),
    dif_pos (show (1 : Fin S20x32.rank) ∈ dot_S50000x20_S20x32_S50000x32_1_0_0_1_n_n.rhsNonContracting by decide)]
  rfl

theorem refDot1_apply (x : FVec Ideal S50000x20 .f32) (w : FVec Ideal S20x32 .f32) (p : Fin 50000) (q : Fin 32) :
    Host.dotGeneral dot_S50000x20_S20x32_S50000x32_1_0_0_1_n_n none x w (ix2 p q)
      = ∑ k : Fin 20, x (ix2 p k) * w (ix2 k q) := by
  simp only [Host.dotGeneral]
  rw [Ideal.dotGeneral_apply,
    ← Equiv.sum_comp (contrEquiv1 dot_S50000x20_S20x32_S50000x32_1_0_0_1_n_n 20 rfl rfl).symm]
  refine Finset.sum_congr rfl fun k _ => ?_
  have hk := contrEquiv1_symm_val dot_S50000x20_S20x32_S50000x32_1_0_0_1_n_n 20 rfl rfl k
  have el : dot_S50000x20_S20x32_S50000x32_1_0_0_1_n_n.lhsIdx (ix2 p q)
      ((contrEquiv1 dot_S50000x20_S20x32_S50000x32_1_0_0_1_n_n 20 rfl rfl).symm k) = ix2 p k :=
    funext fun a => Fin.ext (by
      match a with
      | ⟨0, _⟩ => exact lhs_dot1_0 _ _
      | ⟨1, _⟩ => exact (lhs_dot1_1 _ _).trans hk)
  have er : dot_S50000x20_S20x32_S50000x32_1_0_0_1_n_n.rhsIdx (ix2 p q)
      ((contrEquiv1 dot_S50000x20_S20x32_S50000x32_1_0_0_1_n_n 20 rfl rfl).symm k) = ix2 k q :=
    funext fun a => Fin.ext (by
      match a with
      | ⟨0, _⟩ => exact (rhs_dot1_0 _ _).trans hk
      | ⟨1, _⟩ => exact rhs_dot1_1 _ _)
  rw [el, er]

end Cert.Val
-- ==== Proof.Val.RefBN4.lean ====
import proofs.«411449_j51797305589934_2_alg».proof.Proof.Gen.ReferenceIdeal
import Idealize.ShloMosaic.Lib.ValueIdx
import Idealize.ShloMosaic.Lib.IdealHost
import Idealize.ShloMosaic.Lib.Pipeline.Value
import Idealize.ShloMosaic.PureOps.Ideal.Laws

noncomputable section

namespace Cert.Val

open Idealize.ShloMosaic Idealize.ShloMosaic.ValueIdx Cert.ReferenceIdeal
open scoped BigOperators

open Facts₀

def rows4 (x : FVec Ideal S128 .f32) : FVec Ideal S50000x128 .f32 :=
  broadcastInDim S50000x128 ![0, 1] bcast_S1x128_S50000x128_0_1 (broadcastInDim S1x128 ![1] bcast_S128_S1x128_1 x)

def refPre4 (agg : FVec Ideal S50000x128 .f32) (b : FVec Ideal S128 .f32) : FVec Ideal S50000x128 .f32 :=
  addf agg (rows4 b)

def refMean4 (agg : FVec Ideal S50000x128 .f32) (b : FVec Ideal S128 .f32) : FVec Ideal S128 .f32 :=
  Host.divf
    (Host.reduceAdd (refPre4 agg b) (constant (F := Ideal) S_ .f32 0x00000000#32) reducesTo_S50000x128_S128_d0 h_S_)
    (broadcastInDim S128 ![] bcast_S_S128 (constant (F := Ideal) S_ .f32 0x47435000#32))

def refCen4 (agg : FVec Ideal S50000x128 .f32) (b : FVec Ideal S128 .f32) : FVec Ideal S50000x128 .f32 :=
  subf (refPre4 agg b) (rows4 (refMean4 agg b))

def refVar4 (agg : FVec Ideal S50000x128 .f32) (b : FVec Ideal S128 .f32) : FVec Ideal S128 .f32 :=
  Host.divf
    (Host.reduceAdd (mulf (refCen4 agg b) (refCen4 agg b)) (constant (F := Ideal) S_ .f32 0x00000000#32)
      reducesTo_S50000x128_S128_d0 h_S_)
    (broadcastInDim S128 ![] bcast_S_S128 (constant (F := Ideal) S_ .f32 0x47435000#32))

def refBN4 (agg : FVec Ideal S50000x128 .f32) (b g beta : FVec Ideal S128 .f32) : FVec Ideal S50000x128 .f32 :=
  addf
    (mulf (mulf (rows4 g) (refCen4 agg b))
      (rows4 (Host.rsqrt (addf (refVar4 agg b)
        (broadcastInDim S128 ![] bcast_S_S128 (constant (F := Ideal) S_ .f32 0x3727C5AC#32))))))
    (rows4 beta)

def refAct4 (agg : FVec Ideal S50000x128 .f32) (b g beta : FVec Ideal S128 .f32) : FVec Ideal S50000x128 .f32 :=
  maximumf (refBN4 agg b g beta)
    (broadcastInDim S50000x128 ![] bcast_S_S50000x128 (constant (F := Ideal) S_ .f32 0x00000000#32))

theorem rows4_apply (x : FVec Ideal S128 .f32) (p : Fin 50000) (q : Fin 128) : rows4 x (ix2 p q) = x (ix1 q) := by
  unfold rows4
  rw [broadcastInDim_apply _ _ _ (ix2 p q) (ix2 (0 : Fin 1) q) (fun a => by
        match a with | ⟨0, _⟩ => rfl | ⟨1, _⟩ => rfl),
      broadcastInDim_apply _ _ _ (ix2 (0 : Fin 1) q) (ix1 q) (fun a => by
        match a with | ⟨0, _⟩ => rfl)]

theorem zeros4_apply (j : S50000x128.Idx) :
    broadcastInDim S50000x128 ![] bcast_S_S50000x128 (constant (F := Ideal) S_ .f32 0x00000000#32) j = 0 := by
  rw [broadcastInDim_scalar_apply, constant_apply, Ideal.ofBits_zero_f32]

theorem splat4_apply (w : BitVec 32) (j : S128.Idx) :
    broadcastInDim S128 ![] bcast_S_S128 (constant (F := Ideal) S_ .f32 w) j = Ideal.ofBits .f32 w := by
  rw [broadcastInDim_scalar_apply, constant_apply]

theorem hostRsqrt4_apply {s : Shape} {φ : FTy} (x : FVec Ideal s φ) (j : s.Idx) : Host.rsqrt x j = Ideal.rsqrt (x j) := rfl

theorem refPre4_apply (agg : FVec Ideal S50000x128 .f32) (b : FVec Ideal S128 .f32) (p : Fin 50000) (q : Fin 128) :
    refPre4 agg b (ix2 p q) = agg (ix2 p q) + b (ix1 q) := by
  unfold refPre4
  rw [addf_apply, rows4_apply]

theorem colSum4_apply (x : FVec Ideal S50000x128 .f32) (q : Fin 128) :
    Host.reduceAdd x (constant (F := Ideal) S_ .f32 0x00000000#32) reducesTo_S50000x128_S128_d0 h_S_ (ix1 q)
      = 0 + ∑ p : Fin 50000, x (ix2 p q) := by
  rw [hostReduceAdd_apply, Ideal.hostReduceAdd_single reducesTo_S50000x128_S128_d0 (by decide), constant_apply,
    Ideal.ofBits_zero_f32]
  refine congrArg (_ + ·) (Finset.sum_congr rfl fun k _ => ?_)
  exact congrArg x (funext fun a => Fin.ext (by match a with | ⟨0, _⟩ => rfl | ⟨1, _⟩ => rfl))

theorem refMean4_apply (agg : FVec Ideal S50000x128 .f32) (b : FVec Ideal S128 .f32) (q : Fin 128) :
    refMean4 agg b (ix1 q)
      = Ideal.div (0 + ∑ p : Fin 50000, (agg (ix2 p q) + b (ix1 q))) (Ideal.ofBits .f32 0x47435000#32) := by
  unfold refMean4
  rw [hostDivf_apply, colSum4_apply, splat4_apply]
  simp only [refPre4_apply]

theorem refCen4_apply (agg : FVec Ideal S50000x128 .f32) (b : FVec Ideal S128 .f32) (p : Fin 50000) (q : Fin 128) :
    refCen4 agg b (ix2 p q) = (agg (ix2 p q) + b (ix1 q)) - refMean4 agg b (ix1 q) := by
  unfold refCen4
  rw [subf_apply, rows4_apply, refPre4_apply]

theorem refVar4_apply (agg : FVec Ideal S50000x128 .f32) (b : FVec Ideal S128 .f32) (q : Fin 128) :
    refVar4 agg b (ix1 q)
      = Ideal.div (0 + ∑ p : Fin 50000,
            ((agg (ix2 p q) + b (ix1 q)) - refMean4 agg b (ix1 q))
              * ((agg (ix2 p q) + b (ix1 q)) - refMean4 agg b (ix1 q)))
          (Ideal.ofBits .f32 0x47435000#32) := by
  unfold refVar4
  rw [hostDivf_apply, colSum4_apply, splat4_apply]
  simp only [mulf_apply, refCen4_apply]

theorem refBN4_apply (agg : FVec Ideal S50000x128 .f32) (b g beta : FVec Ideal S128 .f32) (p : Fin 50000) (q : Fin 128) :
    refBN4 agg b g beta (ix2 p q)
      = g (ix1 q) * ((agg (ix2 p q) + b (ix1 q)) - refMean4 agg b (ix1 q))
          * Ideal.rsqrt (refVar4 agg b (ix1 q) + Ideal.ofBits .f32 0x3727C5AC#32)
        + beta (ix1 q) := by
  unfold refBN4
  rw [addf_apply, mulf_apply, mulf_apply, rows4_apply, rows4_apply, rows4_apply, refCen4_apply]
  rw [hostRsqrt4_apply, addf_apply, splat4_apply]

theorem refAct4_apply (agg : FVec Ideal S50000x128 .f32) (b g beta : FVec Ideal S128 .f32) (p : Fin 50000) (q : Fin 128) :
    refAct4 agg b g beta (ix2 p q)
      = max (g (ix1 q) * ((agg (ix2 p q) + b (ix1 q)) - refMean4 agg b (ix1 q))
          * Ideal.rsqrt (refVar4 agg b (ix1 q) + Ideal.ofBits .f32 0x3727C5AC#32)
        + beta (ix1 q)) 0 := by
  unfold refAct4
  rw [maximumf_apply, zeros4_apply, refBN4_apply]

theorem lhs_dot4_0 (i : S50000x128.Idx) (k : dot_S50000x128_S128x128_S50000x128_1_0_0_1_n_n.contr.Idx) :
    (dot_S50000x128_S128x128_S50000x128_1_0_0_1_n_n.lhsIdx i k 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl

theorem lhs_dot4_1 (i : S50000x128.Idx) (k : dot_S50000x128_S128x128_S50000x128_1_0_0_1_n_n.contr.Idx) :
    (dot_S50000x128_S128x128_S50000x128_1_0_0_1_n_n.lhsIdx i k 1).val = (k ⟨0, by decide⟩).val :=
  dot_S50000x128_S128x128_S50000x128_1_0_0_1_n_n.lhsIdx_val_of_single rfl i k

theorem rhs_dot4_0 (i : S50000x128.Idx) (k : dot_S50000x128_S128x128_S50000x128_1_0_0_1_n_n.contr.Idx) :
    (dot_S50000x128_S128x128_S50000x128_1_0_0_1_n_n.rhsIdx i k 0).val = (k ⟨0, by decide⟩).val :=
  dot_S50000x128_S128x128_S50000x128_1_0_0_1_n_n.rhsIdx_val_of_single rfl i k

theorem rhs_dot4_1 (i : S50000x128.Idx) (k : dot_S50000x128_S128x128_S50000x128_1_0_0_1_n_n.contr.Idx) :
    (dot_S50000x128_S128x128_S50000x128_1_0_0_1_n_n.rhsIdx i k 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

theorem refDot4_apply (x : FVec Ideal S50000x128 .f32) (w : FVec Ideal S128x128 .f32) (p : Fin 50000) (q : Fin 128) :
    Host.dotGeneral dot_S50000x128_S128x128_S50000x128_1_0_0_1_n_n none x w (ix2 p q)
      = ∑ k : Fin 128, x (ix2 p k) * w (ix2 k q) := by
  simp only [Host.dotGeneral]
  rw [Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 p q)
      ((contrEquiv1 dot_S50000x128_S128x128_S50000x128_1_0_0_1_n_n 128 rfl rfl).symm k) = ix2 p k :=
    funext fun a => Fin.ext (by
      match a with
      | ⟨0, _⟩ => exact lhs_dot4_0 _ _
      | ⟨1, _⟩ => exact (lhs_dot4_1 _ _).trans hk)
  have er : dot_S50000x128_S128x128_S50000x128_1_0_0_1_n_n.rhsIdx (ix2 p q)
      ((contrEquiv1 dot_S50000x128_S128x128_S50000x128_1_0_0_1_n_n 128 rfl rfl).symm k) = ix2 k q :=
    funext fun a => Fin.ext (by
      match a with
      | ⟨0, _⟩ => exact (rhs_dot4_0 _ _).trans hk
      | ⟨1, _⟩ => exact rhs_dot4_1 _ _)
  rw [el, er]

end Cert.Val
-- ==== Proof.Val.RefBN5.lean ====
import proofs.«411449_j51797305589934_2_alg».proof.Proof.Gen.ReferenceIdeal
import Idealize.ShloMosaic.Lib.ValueIdx
import Idealize.ShloMosaic.Lib.IdealHost
import Idealize.ShloMosaic.Lib.Pipeline.Value
import Idealize.ShloMosaic.PureOps.Ideal.Laws

noncomputable section

namespace Cert.Val

open Idealize.ShloMosaic Idealize.ShloMosaic.ValueIdx Cert.ReferenceIdeal
open scoped BigOperators

open Facts₀

def rows5 (x : FVec Ideal S256 .f32) : FVec Ideal S50000x256 .f32 :=
  broadcastInDim S50000x256 ![0, 1] bcast_S1x256_S50000x256_0_1 (broadcastInDim S1x256 ![1] bcast_S256_S1x256_1 x)

def refPre5 (agg : FVec Ideal S50000x256 .f32) (b : FVec Ideal S256 .f32) : FVec Ideal S50000x256 .f32 :=
  addf agg (rows5 b)

def refMean5 (agg : FVec Ideal S50000x256 .f32) (b : FVec Ideal S256 .f32) : FVec Ideal S256 .f32 :=
  Host.divf
    (Host.reduceAdd (refPre5 agg b) (constant (F := Ideal) S_ .f32 0x00000000#32) reducesTo_S50000x256_S256_d0 h_S_)
    (broadcastInDim S256 ![] bcast_S_S256 (constant (F := Ideal) S_ .f32 0x47435000#32))

def refCen5 (agg : FVec Ideal S50000x256 .f32) (b : FVec Ideal S256 .f32) : FVec Ideal S50000x256 .f32 :=
  subf (refPre5 agg b) (rows5 (refMean5 agg b))

def refVar5 (agg : FVec Ideal S50000x256 .f32) (b : FVec Ideal S256 .f32) : FVec Ideal S256 .f32 :=
  Host.divf
    (Host.reduceAdd (mulf (refCen5 agg b) (refCen5 agg b)) (constant (F := Ideal) S_ .f32 0x00000000#32)
      reducesTo_S50000x256_S256_d0 h_S_)
    (broadcastInDim S256 ![] bcast_S_S256 (constant (F := Ideal) S_ .f32 0x47435000#32))

def refBN5 (agg : FVec Ideal S50000x256 .f32) (b g beta : FVec Ideal S256 .f32) : FVec Ideal S50000x256 .f32 :=
  addf
    (mulf (mulf (rows5 g) (refCen5 agg b))
      (rows5 (Host.rsqrt (addf (refVar5 agg b)
        (broadcastInDim S256 ![] bcast_S_S256 (constant (F := Ideal) S_ .f32 0x3727C5AC#32))))))
    (rows5 beta)

theorem rows5_apply (x : FVec Ideal S256 .f32) (p : Fin 50000) (q : Fin 256) : rows5 x (ix2 p q) = x (ix1 q) := by
  unfold rows5
  rw [broadcastInDim_apply _ _ _ (ix2 p q) (ix2 (0 : Fin 1) q) (fun a => by
        match a with | ⟨0, _⟩ => rfl | ⟨1, _⟩ => rfl),
      broadcastInDim_apply _ _ _ (ix2 (0 : Fin 1) q) (ix1 q) (fun a => by
        match a with | ⟨0, _⟩ => rfl)]

theorem splat5_apply (w : BitVec 32) (j : S256.Idx) :
    broadcastInDim S256 ![] bcast_S_S256 (constant (F := Ideal) S_ .f32 w) j = Ideal.ofBits .f32 w := by
  rw [broadcastInDim_scalar_apply, constant_apply]

theorem hostRsqrt5_apply {s : Shape} {φ : FTy} (x : FVec Ideal s φ) (j : s.Idx) : Host.rsqrt x j = Ideal.rsqrt (x j) := rfl

theorem refPre5_apply (agg : FVec Ideal S50000x256 .f32) (b : FVec Ideal S256 .f32) (p : Fin 50000) (q : Fin 256) :
    refPre5 agg b (ix2 p q) = agg (ix2 p q) + b (ix1 q) := by
  unfold refPre5
  rw [addf_apply, rows5_apply]

theorem colSum5_apply (x : FVec Ideal S50000x256 .f32) (q : Fin 256) :
    Host.reduceAdd x (constant (F := Ideal) S_ .f32 0x00000000#32) reducesTo_S50000x256_S256_d0 h_S_ (ix1 q)
      = 0 + ∑ p : Fin 50000, x (ix2 p q) := by
  rw [hostReduceAdd_apply, Ideal.hostReduceAdd_single reducesTo_S50000x256_S256_d0 (by decide), constant_apply,
    Ideal.ofBits_zero_f32]
  refine congrArg (_ + ·) (Finset.sum_congr rfl fun k _ => ?_)
  exact congrArg x (funext fun a => Fin.ext (by match a with | ⟨0, _⟩ => rfl | ⟨1, _⟩ => rfl))

theorem refMean5_apply (agg : FVec Ideal S50000x256 .f32) (b : FVec Ideal S256 .f32) (q : Fin 256) :
    refMean5 agg b (ix1 q)
      = Ideal.div (0 + ∑ p : Fin 50000, (agg (ix2 p q) + b (ix1 q))) (Ideal.ofBits .f32 0x47435000#32) := by
  unfold refMean5
  rw [hostDivf_apply, colSum5_apply, splat5_apply]
  simp only [refPre5_apply]

theorem refCen5_apply (agg : FVec Ideal S50000x256 .f32) (b : FVec Ideal S256 .f32) (p : Fin 50000) (q : Fin 256) :
    refCen5 agg b (ix2 p q) = (agg (ix2 p q) + b (ix1 q)) - refMean5 agg b (ix1 q) := by
  unfold refCen5
  rw [subf_apply, rows5_apply, refPre5_apply]

theorem refVar5_apply (agg : FVec Ideal S50000x256 .f32) (b : FVec Ideal S256 .f32) (q : Fin 256) :
    refVar5 agg b (ix1 q)
      = Ideal.div (0 + ∑ p : Fin 50000,
            ((agg (ix2 p q) + b (ix1 q)) - refMean5 agg b (ix1 q))
              * ((agg (ix2 p q) + b (ix1 q)) - refMean5 agg b (ix1 q)))
          (Ideal.ofBits .f32 0x47435000#32) := by
  unfold refVar5
  rw [hostDivf_apply, colSum5_apply, splat5_apply]
  simp only [mulf_apply, refCen5_apply]

theorem refBN5_apply (agg : FVec Ideal S50000x256 .f32) (b g beta : FVec Ideal S256 .f32) (p : Fin 50000) (q : Fin 256) :
    refBN5 agg b g beta (ix2 p q)
      = g (ix1 q) * ((agg (ix2 p q) + b (ix1 q)) - refMean5 agg b (ix1 q))
          * Ideal.rsqrt (refVar5 agg b (ix1 q) + Ideal.ofBits .f32 0x3727C5AC#32)
        + beta (ix1 q) := by
  unfold refBN5
  rw [addf_apply, mulf_apply, mulf_apply, rows5_apply, rows5_apply, rows5_apply, refCen5_apply]
  rw [hostRsqrt5_apply, addf_apply, splat5_apply]

theorem lhs_dot5_0 (i : S50000x256.Idx) (k : dot_S50000x128_S128x256_S50000x256_1_0_0_1_n_n.contr.Idx) :
    (dot_S50000x128_S128x256_S50000x256_1_0_0_1_n_n.lhsIdx i k 0).val = (i 0).val := by
  unfold DotDims.lhsIdx
  rw [dif_neg (show ¬(0 : Fin S50000x128.rank) ∈ dot_S50000x128_S128x256_S50000x256_1_0_0_1_n_n.lhsBatch by decide),
    dif_pos (show (0 : Fin S50000x128.rank) ∈ dot_S50000x128_S128x256_S50000x256_1_0_0_1_n_n.lhsNonContracting by decide)]
  rfl

theorem lhs_dot5_1 (i : S50000x256.Idx) (k : dot_S50000x128_S128x256_S50000x256_1_0_0_1_n_n.contr.Idx) :
    (dot_S50000x128_S128x256_S50000x256_1_0_0_1_n_n.lhsIdx i k 1).val = (k ⟨0, by decide⟩).val :=
  dot_S50000x128_S128x256_S50000x256_1_0_0_1_n_n.lhsIdx_val_of_single rfl i k

theorem rhs_dot5_0 (i : S50000x256.Idx) (k : dot_S50000x128_S128x256_S50000x256_1_0_0_1_n_n.contr.Idx) :
    (dot_S50000x128_S128x256_S50000x256_1_0_0_1_n_n.rhsIdx i k 0).val = (k ⟨0, by decide⟩).val :=
  dot_S50000x128_S128x256_S50000x256_1_0_0_1_n_n.rhsIdx_val_of_single rfl i k

theorem rhs_dot5_1 (i : S50000x256.Idx) (k : dot_S50000x128_S128x256_S50000x256_1_0_0_1_n_n.contr.Idx) :
    (dot_S50000x128_S128x256_S50000x256_1_0_0_1_n_n.rhsIdx i k 1).val = (i 1).val := by
  unfold DotDims.rhsIdx
  rw [dif_neg (show ¬(1 : Fin S128x256.rank) ∈ dot_S50000x128_S128x256_S50000x256_1_0_0_1_n_n.rhsBatch by decide),
    dif_pos (show (1 : Fin S128x256.rank) ∈ dot_S50000x128_S128x256_S50000x256_1_0_0_1_n_n.rhsNonContracting by decide)]
  rfl

theorem refDot5_apply (x : FVec Ideal S50000x128 .f32) (w : FVec Ideal S128x256 .f32) (p : Fin 50000) (q : Fin 256) :
    Host.dotGeneral dot_S50000x128_S128x256_S50000x256_1_0_0_1_n_n none x w (ix2 p q)
      = ∑ k : Fin 128, x (ix2 p k) * w (ix2 k q) := by
  simp only [Host.dotGeneral]
  rw [Ideal.dotGeneral_apply,
    ← Equiv.sum_comp (contrEquiv1 dot_S50000x128_S128x256_S50000x256_1_0_0_1_n_n 128 rfl rfl).symm]
  refine Finset.sum_congr rfl fun k _ => ?_
  have hk := contrEquiv1_symm_val dot_S50000x128_S128x256_S50000x256_1_0_0_1_n_n 128 rfl rfl k
  have el : dot_S50000x128_S128x256_S50000x256_1_0_0_1_n_n.lhsIdx (ix2 p q)
      ((contrEquiv1 dot_S50000x128_S128x256_S50000x256_1_0_0_1_n_n 128 rfl rfl).symm k) = ix2 p k :=
    funext fun a => Fin.ext (by
      match a with
      | ⟨0, _⟩ => exact lhs_dot5_0 _ _
      | ⟨1, _⟩ => exact (lhs_dot5_1 _ _).trans hk)
  have er : dot_S50000x128_S128x256_S50000x256_1_0_0_1_n_n.rhsIdx (ix2 p q)
      ((contrEquiv1 dot_S50000x128_S128x256_S50000x256_1_0_0_1_n_n 128 rfl rfl).symm k) = ix2 k q :=
    funext fun a => Fin.ext (by
      match a with
      | ⟨0, _⟩ => exact (rhs_dot5_0 _ _).trans hk
      | ⟨1, _⟩ => exact rhs_dot5_1 _ _)
  rw [el, er]

end Cert.Val
-- ==== Proof.Val.RefTail.lean ====
import proofs.«411449_j51797305589934_2_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws

noncomputable section

namespace Cert.Val

open Cert.ReferenceIdeal Cert.ReferenceIdeal.Gen Idealize.ShloMosaic Idealize.ShloMosaic.ValueIdx
open scoped BigOperators

abbrev refScat := scatter_S512x256_S50000x1_S50000x256_1_0_0_1

theorem refScat_siIdx (k : Fin 50000) (f' : Fin 256) (c : Fin refScat.scatterDimsToOperandDims.length) :
    refScat.siIdx (ix2 k f') c = ix2 k 0 := by
  funext b
  match b with
  | ⟨0, _⟩ => rfl
  | ⟨1, _⟩ => exact Fin.ext (Nat.lt_one_iff.mp c.isLt)

theorem refScat_start0 (idx : IVec S50000x1 32) (k : Fin 50000) (f' : Fin 256) :
    refScat.start (ix2 k f') idx 0 = (idx (ix2 k 0)).toInt := by
  show (idx (refScat.siIdx (ix2 k f') ⟨0, Nat.one_pos⟩)).toInt = _
  rw [refScat_siIdx]

theorem refScat_start1 (idx : IVec S50000x1 32) (k : Fin 50000) (f' : Fin 256) :
    refScat.start (ix2 k f') idx 1 = 0 := rfl

theorem refScat_window0 (k : Fin 50000) (f' : Fin 256) : refScat.window (ix2 k f') 0 = 0 := rfl

theorem refScat_window1 (k : Fin 50000) (f' : Fin 256) : refScat.window (ix2 k f') 1 = f'.val := rfl

theorem refScat_resultIdx_iff (idx : IVec S50000x1 32) (k : Fin 50000) (f' : Fin 256) (g : Fin 512) (f : Fin 256) :
    refScat.resultIdx? (ix2 k f') idx = some (ix2 g f) ↔ ((idx (ix2 k 0)).toInt = (g.val : ℤ) ∧ f' = f) := by
  have hs0 := refScat_start0 idx k f'
  have hs1 := refScat_start1 idx k f'
  have hw0 := refScat_window0 k f'
  have hw1 := refScat_window1 k f'
  unfold ScatterDims.resultIdx?
  split_ifs with h
  · rw [Option.some.injEq]
    constructor
    · intro e
      have e0 : (refScat.start (ix2 k f') idx 0 + refScat.window (ix2 k f') 0).toNat = g.val := congrArg Fin.val (congrFun e 0)
      have e1 : (refScat.start (ix2 k f') idx 1 + refScat.window (ix2 k f') 1).toNat = f.val := congrArg Fin.val (congrFun e 1)
      have h0 := (h 0).1
      rw [hs0, hw0] at e0 h0
      rw [hs1, hw1] at e1
      exact ⟨by omega, Fin.ext (by omega)⟩
    · rintro ⟨e, rfl⟩
      funext a
      match a with
      | ⟨0, _⟩ => exact Fin.ext (by show (refScat.start (ix2 k f') idx 0 + refScat.window (ix2 k f') 0).toNat = g.val; rw [hs0, hw0]; omega)
      | ⟨1, _⟩ => exact Fin.ext (by show (refScat.start (ix2 k f') idx 1 + refScat.window (ix2 k f') 1).toNat = f'.val; rw [hs1, hw1]; omega)
  · constructor
    · intro e; cases e
    · rintro ⟨e, rfl⟩
      exfalso; apply h
      intro a
      match a with
      | ⟨0, _⟩ =>
        show 0 ≤ refScat.start (ix2 k f') idx 0 + refScat.window (ix2 k f') 0 ∧ refScat.start (ix2 k f') idx 0 + refScat.window (ix2 k f') 0 < 512
        rw [hs0, hw0]; have := g.isLt; omega
      | ⟨1, _⟩ =>
        show 0 ≤ refScat.start (ix2 k f') idx 1 + refScat.window (ix2 k f') 1 ∧ refScat.start (ix2 k f') idx 1 + refScat.window (ix2 k f') 1 < 256
        rw [hs1, hw1]; have := f'.isLt; omega

def refPool0 (h : FVec Ideal S50000x256 .f32) (batch : IVec S50000 32) : FVec Ideal S512x256 .f32 :=
  Host.scatterAdd (F := Ideal) refScat
    (broadcastInDim S512x256 ![] bcast_S_S512x256 (constant (F := Ideal) S_ .f32 0x00000000#32))
    (broadcastInDim S50000x1 ![0] bcast_S50000_S50000x1_0 batch) h

theorem refPool_apply (h : FVec Ideal S50000x256 .f32) (batch : IVec S50000 32) (g : Fin 512) (f : Fin 256) :
    refPool0 h batch (ix2 g f)
      = 0 + ∑ k : Fin 50000, (if (batch (ix1 k)).toInt = (g.val : ℤ) then h (ix2 k f) else 0) := by
  have hidx : ∀ k : Fin 50000,
      broadcastInDim S50000x1 ![0] bcast_S50000_S50000x1_0 batch (ix2 k 0) = batch (ix1 k) :=
    fun k => broadcastInDim_apply _ _ batch _ (ix1 k) (fun a => by match a with | ⟨0, _⟩ => rfl)
  show Ideal.ofBits .f32 0x00000000#32
      + ∑ j ∈ Finset.univ.filter (fun j => refScat.resultIdx? j
          (broadcastInDim S50000x1 ![0] bcast_S50000_S50000x1_0 batch) = some (ix2 g f)), h j = _
  rw [Ideal.ofBits_zero_f32, Finset.sum_filter, sum_idx2]
  refine congrArg (fun s : EReal => 0 + s) (Finset.sum_congr rfl fun k _ => ?_)
  simp only [refScat_resultIdx_iff, hidx]
  by_cases hc : (batch (ix1 k)).toInt = (g.val : ℤ)
  · simp only [hc, true_and, if_true, Finset.sum_ite_eq', Finset.mem_univ]
  · simp only [hc, false_and, if_false, Finset.sum_const_zero]

abbrev refFc1 := dot_S512x256_S256x128_S512x128_1_0_0_1_n_n
abbrev refFc2 := dot_S512x128_S128x1_S512x1_1_0_0_1_n_n

theorem refFc1_lhsIdx (g : Fin 512) (j : Fin 128) (f : Fin 256) :
    refFc1.lhsIdx (ix2 g j) ((contrEquiv1 refFc1 256 rfl rfl).symm f) = ix2 g f := by
  funext a
  match a with
  | ⟨0, _⟩ => exact Fin.ext rfl
  | ⟨1, _⟩ => exact Fin.ext rfl

theorem refFc1_rhsIdx (g : Fin 512) (j : Fin 128) (f : Fin 256) :
    refFc1.rhsIdx (ix2 g j) ((contrEquiv1 refFc1 256 rfl rfl).symm f) = ix2 f j := by
  funext a
  match a with
  | ⟨0, _⟩ => exact Fin.ext rfl
  | ⟨1, _⟩ => exact Fin.ext rfl

theorem refFc2_lhsIdx (g : Fin 512) (j : Fin 128) :
    refFc2.lhsIdx (ix2 g 0) ((contrEquiv1 refFc2 128 rfl rfl).symm j) = ix2 g j := by
  funext a
  match a with
  | ⟨0, _⟩ => exact Fin.ext rfl
  | ⟨1, _⟩ => exact Fin.ext rfl

theorem refFc2_rhsIdx (g : Fin 512) (j : Fin 128) :
    refFc2.rhsIdx (ix2 g 0) ((contrEquiv1 refFc2 128 rfl rfl).symm j) = ix2 j 0 := by
  funext a
  match a with
  | ⟨0, _⟩ => exact Fin.ext rfl
  | ⟨1, _⟩ => exact Fin.ext rfl

theorem refFc1_apply (l : FVec Ideal S512x256 .f32) (r : FVec Ideal S256x128 .f32) (g : Fin 512) (j : Fin 128) :
    Host.dotGeneral (F := Ideal) refFc1 none l r (ix2 g j) = ∑ f : Fin 256, l (ix2 g f) * r (ix2 f j) := by
  show FloatOps.dotGeneral refFc1 none .single l r (ix2 g j) = _
  rw [Ideal.dotGeneral_apply, ← Equiv.sum_comp (contrEquiv1 refFc1 256 rfl rfl).symm]
  exact Finset.sum_congr rfl fun f _ => by rw [refFc1_lhsIdx, refFc1_rhsIdx]

theorem refFc2_apply (l : FVec Ideal S512x128 .f32) (r : FVec Ideal S128x1 .f32) (g : Fin 512) :
    Host.dotGeneral (F := Ideal) refFc2 none l r (ix2 g 0) = ∑ j : Fin 128, l (ix2 g j) * r (ix2 j 0) := by
  show FloatOps.dotGeneral refFc2 none .single l r (ix2 g 0) = _
  rw [Ideal.dotGeneral_apply, ← Equiv.sum_comp (contrEquiv1 refFc2 128 rfl rfl).symm]
  exact Finset.sum_congr rfl fun j _ => by rw [refFc2_lhsIdx, refFc2_rhsIdx]

theorem refBias1_apply (b : FVec Ideal S128 .f32) (g : Fin 512) (j : Fin 128) :
    broadcastInDim S512x128 ![0, 1] bcast_S1x128_S512x128_0_1 (broadcastInDim S1x128 ![1] bcast_S128_S1x128_1 b) (ix2 g j)
      = b (ix1 j) := by
  rw [broadcastInDim_apply _ _ _ _ (ix2 0 j) (fun a => by match a with | ⟨0, _⟩ => rfl | ⟨1, _⟩ => rfl)]
  exact broadcastInDim_apply _ _ b _ (ix1 j) (fun a => by match a with | ⟨0, _⟩ => rfl)

theorem refBias2_apply (b : FVec Ideal S1 .f32) (g : Fin 512) :
    broadcastInDim S512x1 ![0, 1] bcast_S1x1_S512x1_0_1 (broadcastInDim S1x1 ![1] bcast_S1_S1x1_1 b) (ix2 g 0)
      = b (ix1 0) := by
  rw [broadcastInDim_apply _ _ _ _ (ix2 0 0) (fun a => by match a with | ⟨0, _⟩ => rfl | ⟨1, _⟩ => rfl)]
  exact broadcastInDim_apply _ _ b _ (ix1 0) (fun a => by match a with | ⟨0, _⟩ => rfl)

def refPooled (h : FVec Ideal S50000x256 .f32) (batch : IVec S50000 32) : FVec Ideal S512x256 .f32 :=
  maximumf (refPool0 h batch)
    (broadcastInDim S512x256 ![] bcast_S_S512x256 (constant (F := Ideal) S_ .f32 0x00000000#32))

def refHid (h : FVec Ideal S50000x256 .f32) (batch : IVec S50000 32) (fc1w : FVec Ideal S256x128 .f32)
    (fc1b : FVec Ideal S128 .f32) : FVec Ideal S512x128 .f32 :=
  maximumf
    (addf (Host.dotGeneral (F := Ideal) refFc1 none (refPooled h batch) fc1w)
      (broadcastInDim S512x128 ![0, 1] bcast_S1x128_S512x128_0_1 (broadcastInDim S1x128 ![1] bcast_S128_S1x128_1 fc1b)))
    (broadcastInDim S512x128 ![] bcast_S_S512x128 (constant (F := Ideal) S_ .f32 0x00000000#32))

def refOut (h : FVec Ideal S50000x256 .f32) (batch : IVec S50000 32) (fc1w : FVec Ideal S256x128 .f32)
    (fc1b : FVec Ideal S128 .f32) (fc2w : FVec Ideal S128x1 .f32) (fc2b : FVec Ideal S1 .f32) : FVec Ideal S512x1 .f32 :=
  addf (Host.dotGeneral (F := Ideal) refFc2 none (refHid h batch fc1w fc1b) fc2w)
    (broadcastInDim S512x1 ![0, 1] bcast_S1x1_S512x1_0_1 (broadcastInDim S1x1 ![1] bcast_S1_S1x1_1 fc2b))

def refTail (h : FVec Ideal S50000x256 .f32) (batch : IVec S50000 32) (fc1w : FVec Ideal S256x128 .f32)
    (fc1b : FVec Ideal S128 .f32) (fc2w : FVec Ideal S128x1 .f32) (fc2b : FVec Ideal S1 .f32) : FVec Ideal S512 .f32 :=
  shapeCast S512 (refOut h batch fc1w fc1b fc2w fc2b) shapeCasts_S512x1_S512

theorem refPooled_apply (h : FVec Ideal S50000x256 .f32) (batch : IVec S50000 32) (g : Fin 512) (f : Fin 256) :
    refPooled h batch (ix2 g f) = max (refPool0 h batch (ix2 g f)) 0 := by
  show max (refPool0 h batch (ix2 g f)) (Ideal.ofBits .f32 0x00000000#32) = _
  rw [Ideal.ofBits_zero_f32]

theorem refHid_apply (h : FVec Ideal S50000x256 .f32) (batch : IVec S50000 32) (fc1w : FVec Ideal S256x128 .f32)
    (fc1b : FVec Ideal S128 .f32) (g : Fin 512) (j : Fin 128) :
    refHid h batch fc1w fc1b (ix2 g j)
      = max ((∑ f : Fin 256, max (refPool0 h batch (ix2 g f)) 0 * fc1w (ix2 f j)) + fc1b (ix1 j)) 0 := by
  show max (Host.dotGeneral (F := Ideal) refFc1 none (refPooled h batch) fc1w (ix2 g j)
      + broadcastInDim S512x128 ![0, 1] bcast_S1x128_S512x128_0_1 (broadcastInDim S1x128 ![1] bcast_S128_S1x128_1 fc1b) (ix2 g j))
      (Ideal.ofBits .f32 0x00000000#32) = _
  rw [Ideal.ofBits_zero_f32, refFc1_apply, refBias1_apply]
  simp only [refPooled_apply]

theorem refTail_apply (h : FVec Ideal S50000x256 .f32) (batch : IVec S50000 32) (fc1w : FVec Ideal S256x128 .f32)
    (fc1b : FVec Ideal S128 .f32) (fc2w : FVec Ideal S128x1 .f32) (fc2b : FVec Ideal S1 .f32) (g : Fin 512) :
    refTail h batch fc1w fc1b fc2w fc2b (ix1 g)
      = (∑ j : Fin 128,
          max ((∑ f : Fin 256, max (refPool0 h batch (ix2 g f)) 0 * fc1w (ix2 f j)) + fc1b (ix1 j)) 0 * fc2w (ix2 j 0))
        + fc2b (ix1 0) := by
  unfold refTail
  rw [shapeCast_apply _ _ (ix1 g) (ix2 g 0) (by
    rw [Shape.rowMajor_val_two, Shape.rowMajor_val_one]; show g.val * 1 + 0 = g.val; omega)]
  show Host.dotGeneral (F := Ideal) refFc2 none (refHid h batch fc1w fc1b) fc2w (ix2 g 0)
      + broadcastInDim S512x1 ![0, 1] bcast_S1x1_S512x1_0_1 (broadcastInDim S1x1 ![1] bcast_S1_S1x1_1 fc2b) (ix2 g 0) = _
  rw [refFc2_apply, refBias2_apply]
  simp only [refHid_apply]

end Cert.Val

end
-- ==== Proof.Val.RefNet.lean ====
import proofs.«411449_j51797305589934_2_alg».proof.Proof.Gen.KernelIdeal
import proofs.«411449_j51797305589934_2_alg».proof.Proof.Val.FinRef
import proofs.«411449_j51797305589934_2_alg».proof.Proof.Val.RefBN1
import proofs.«411449_j51797305589934_2_alg».proof.Proof.Val.RefBN2
import proofs.«411449_j51797305589934_2_alg».proof.Proof.Val.RefBN3
import proofs.«411449_j51797305589934_2_alg».proof.Proof.Val.RefBN4
import proofs.«411449_j51797305589934_2_alg».proof.Proof.Val.RefBN5
import proofs.«411449_j51797305589934_2_alg».proof.Proof.Val.RefTail

noncomputable section

namespace Cert.Val

open Idealize.ShloMosaic Cert.ReferenceIdeal

def refL1 (x : FVec Ideal S50000x20 .f32) (W : FVec Ideal S20x32 .f32) (b g be : FVec Ideal S32 .f32)
    (ei : IVec S2x800000 32) (ew : FVec Ideal S800000 .f32) : FVec Ideal S50000x32 .f32 :=
  refBN1 (rAgg1 (Host.dotGeneral dot_S50000x20_S20x32_S50000x32_1_0_0_1_n_n none x W) (kSrc ei) (kDst ei) (kNorm ei ew))
    b g be

def refL2 (h : FVec Ideal S50000x32 .f32) (W : FVec Ideal S32x64 .f32) (b g be : FVec Ideal S64 .f32)
    (ei : IVec S2x800000 32) (ew : FVec Ideal S800000 .f32) : FVec Ideal S50000x64 .f32 :=
  refBN2 (rAgg2 (Host.dotGeneral dot_S50000x32_S32x64_S50000x64_1_0_0_1_n_n none h W) (kSrc ei) (kDst ei) (kNorm ei ew))
    b g be

def refL3 (h : FVec Ideal S50000x64 .f32) (W : FVec Ideal S64x128 .f32) (b g be : FVec Ideal S128 .f32)
    (ei : IVec S2x800000 32) (ew : FVec Ideal S800000 .f32) : FVec Ideal S50000x128 .f32 :=
  refBN3 (rAgg3 (Host.dotGeneral dot_S50000x64_S64x128_S50000x128_1_0_0_1_n_n none h W) (kSrc ei) (kDst ei) (kNorm ei ew))
    b g be

def refL4 (h : FVec Ideal S50000x128 .f32) (W : FVec Ideal S128x128 .f32) (b g be : FVec Ideal S128 .f32)
    (ei : IVec S2x800000 32) (ew : FVec Ideal S800000 .f32) : FVec Ideal S50000x128 .f32 :=
  refAct4 (rAgg3 (Host.dotGeneral dot_S50000x128_S128x128_S50000x128_1_0_0_1_n_n none h W) (kSrc ei) (kDst ei) (kNorm ei ew))
    b g be

def refL5 (h : FVec Ideal S50000x128 .f32) (W : FVec Ideal S128x256 .f32) (b g be : FVec Ideal S256 .f32)
    (ei : IVec S2x800000 32) (ew : FVec Ideal S800000 .f32) : FVec Ideal S50000x256 .f32 :=
  refBN5 (rAgg5 (Host.dotGeneral dot_S50000x128_S128x256_S50000x256_1_0_0_1_n_n none h W) (kSrc ei) (kDst ei) (kNorm ei ew))
    b g be

def refH5 (x : FVec Ideal S50000x20 .f32) (ei : IVec S2x800000 32) (ew : FVec Ideal S800000 .f32)
    (W1 : FVec Ideal S20x32 .f32) (b1 g1 be1 : FVec Ideal S32 .f32)
    (W2 : FVec Ideal S32x64 .f32) (b2 g2 be2 : FVec Ideal S64 .f32)
    (W3 : FVec Ideal S64x128 .f32) (b3 g3 be3 : FVec Ideal S128 .f32)
    (W4 : FVec Ideal S128x128 .f32) (b4 g4 be4 : FVec Ideal S128 .f32)
    (W5 : FVec Ideal S128x256 .f32) (b5 g5 be5 : FVec Ideal S256 .f32) : FVec Ideal S50000x256 .f32 :=
  refL5 (refL4 (refL3 (refL2 (refL1 x W1 b1 g1 be1 ei ew) W2 b2 g2 be2 ei ew) W3 b3 g3 be3 ei ew) W4 b4 g4 be4 ei ew)
    W5 b5 g5 be5 ei ew

def refNet (x : FVec Ideal S50000x20 .f32) (ei : IVec S2x800000 32) (ew : FVec Ideal S800000 .f32) (batch : IVec S50000 32)
    (W1 : FVec Ideal S20x32 .f32) (b1 g1 be1 : FVec Ideal S32 .f32)
    (W2 : FVec Ideal S32x64 .f32) (b2 g2 be2 : FVec Ideal S64 .f32)
    (W3 : FVec Ideal S64x128 .f32) (b3 g3 be3 : FVec Ideal S128 .f32)
    (W4 : FVec Ideal S128x128 .f32) (b4 g4 be4 : FVec Ideal S128 .f32)
    (W5 : FVec Ideal S128x256 .f32) (b5 g5 be5 : FVec Ideal S256 .f32)
    (fc1w : FVec Ideal S256x128 .f32) (fc1b : FVec Ideal S128 .f32) (fc2w : FVec Ideal S128x1 .f32)
    (fc2b : FVec Ideal S1 .f32) : FVec Ideal S512 .f32 :=
  refTail (refH5 x ei ew W1 b1 g1 be1 W2 b2 g2 be2 W3 b3 g3 be3 W4 b4 g4 be4 W5 b5 g5 be5) batch fc1w fc1b fc2w fc2b

end Cert.Val

end
-- ==== Proof.Ref.Bridge.lean ====
import proofs.«411449_j51797305589934_2_alg».proof.Proof.Gen.ReferenceIdeal
import proofs.«411449_j51797305589934_2_alg».proof.Proof.Gen.KernelIdeal
import proofs.«411449_j51797305589934_2_alg».proof.Proof.Ref.Terms
import proofs.«411449_j51797305589934_2_alg».proof.Proof.Ref.Vals
import proofs.«411449_j51797305589934_2_alg».proof.Proof.Ref.Value
import proofs.«411449_j51797305589934_2_alg».proof.Proof.Val.FinNorm
import proofs.«411449_j51797305589934_2_alg».proof.Proof.Val.FinRef
import proofs.«411449_j51797305589934_2_alg».proof.Proof.Val.RefBN1
import proofs.«411449_j51797305589934_2_alg».proof.Proof.Val.RefBN2
import proofs.«411449_j51797305589934_2_alg».proof.Proof.Val.RefBN3
import proofs.«411449_j51797305589934_2_alg».proof.Proof.Val.RefBN4
import proofs.«411449_j51797305589934_2_alg».proof.Proof.Val.RefBN5
import proofs.«411449_j51797305589934_2_alg».proof.Proof.Val.RefTail
import proofs.«411449_j51797305589934_2_alg».proof.Proof.Val.RefNet
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Val

local notation:max X "⟪" r "⟫" => X (Proc.devRef Proc.tc r)

theorem gSrc_eq (ei : IVec S2x800000 32) : gSrc ei = kSrc ei := rfl
theorem gDst_eq (ei : IVec S2x800000 32) : gDst ei = kDst ei := rfl
theorem gEw_eq (ew : FVec Ideal S800000 .f32) : gEw ew = kEw ew := rfl
theorem gDegOf_eq (ei : IVec S2x800000 32) (ew : FVec Ideal S800000 .f32) : gDegOf (kDst ei) (kEw ew) = kDeg ei ew := rfl
theorem gDisOf_eq (ei : IVec S2x800000 32) (ew : FVec Ideal S800000 .f32) : gDisOf (kDeg ei ew) = kDis ei ew := rfl
theorem gNorm_eq (ei : IVec S2x800000 32) (ew : FVec Ideal S800000 .f32) : gNorm (kSrc ei) (kDst ei) (kEw ew) = kNorm ei ew := by
  unfold gNorm gNormOf kNorm
  rw [gDegOf_eq, gDisOf_eq]
  rfl

theorem gAgg32_eq (xw : FVec Ideal S50000x32 .f32) (src dst : IVec S850000 32) (norm : FVec Ideal S850000 .f32) :
    gAgg32 xw src dst norm = rAgg1 xw src dst norm := rfl
theorem gAgg64_eq (xw : FVec Ideal S50000x64 .f32) (src dst : IVec S850000 32) (norm : FVec Ideal S850000 .f32) :
    gAgg64 xw src dst norm = rAgg2 xw src dst norm := rfl
theorem gAgg128_eq (xw : FVec Ideal S50000x128 .f32) (src dst : IVec S850000 32) (norm : FVec Ideal S850000 .f32) :
    gAgg128 xw src dst norm = rAgg3 xw src dst norm := rfl
theorem gAgg256_eq (xw : FVec Ideal S50000x256 .f32) (src dst : IVec S850000 32) (norm : FVec Ideal S850000 .f32) :
    gAgg256 xw src dst norm = rAgg5 xw src dst norm := rfl

theorem gBN32_eq (agg : FVec Ideal S50000x32 .f32) (b g be : FVec Ideal S32 .f32) :
    gBN32 (maximumf (addf agg (gRows32 b)) gZ32) g be = refBN1 agg b g be := rfl
theorem gBN64_eq (agg : FVec Ideal S50000x64 .f32) (b g be : FVec Ideal S64 .f32) :
    gBN64 (maximumf (addf agg (gRows64 b)) gZ64) g be = refBN2 agg b g be := rfl
theorem gBN128_eq3 (agg : FVec Ideal S50000x128 .f32) (b g be : FVec Ideal S128 .f32) :
    gBN128 (maximumf (addf agg (gRows128 b)) gZ128) g be = refBN3 agg b g be := rfl
theorem gBN128_eq4 (agg : FVec Ideal S50000x128 .f32) (b g be : FVec Ideal S128 .f32) :
    gBN128 (addf agg (gRows128 b)) g be = refBN4 agg b g be := rfl
theorem gAct4_eq (agg : FVec Ideal S50000x128 .f32) (b g be : FVec Ideal S128 .f32) :
    maximumf (gBN128 (addf agg (gRows128 b)) g be) gZ128 = refAct4 agg b g be := by
  rw [gBN128_eq4]; rfl
theorem gBN256_eq (agg : FVec Ideal S50000x256 .f32) (b g be : FVec Ideal S256 .f32) :
    gBN256 (addf agg (gRows256 b)) g be = refBN5 agg b g be := rfl

theorem gTail_eq (h : FVec Ideal S50000x256 .f32) (batch : IVec S50000 32) (fc1w : FVec Ideal S256x128 .f32)
    (fc1b : FVec Ideal S128 .f32) (fc2w : FVec Ideal S128x1 .f32) (fc2b : FVec Ideal S1 .f32) :
    gTailOf (Host.dotGeneral (F := Ideal) (φ₁ := .f32) (φ₂ := .f32) dot_S512x256_S256x128_S512x128_1_0_0_1_n_n none (gPooled h batch) fc1w) fc1b fc2w fc2b
      = refTail h batch fc1w fc1b fc2w fc2b := rfl

def nL1 (W : Valuation τ sig (Elt Ideal)) : FVec Ideal S50000x32 .f32 := refL1 W⟪main_arg0⟫ W⟪main_arg5⟫ W⟪main_arg6⟫ W⟪main_arg7⟫ W⟪main_arg8⟫ W⟪main_arg1⟫ W⟪main_arg2⟫

def nL2 (W : Valuation τ sig (Elt Ideal)) : FVec Ideal S50000x64 .f32 := refL2 (nL1 W) W⟪main_arg9⟫ W⟪main_arg10⟫ W⟪main_arg11⟫ W⟪main_arg12⟫ W⟪main_arg1⟫ W⟪main_arg2⟫

def nL3 (W : Valuation τ sig (Elt Ideal)) : FVec Ideal S50000x128 .f32 := refL3 (nL2 W) W⟪main_arg13⟫ W⟪main_arg14⟫ W⟪main_arg15⟫ W⟪main_arg16⟫ W⟪main_arg1⟫ W⟪main_arg2⟫

def nL4 (W : Valuation τ sig (Elt Ideal)) : FVec Ideal S50000x128 .f32 := refL4 (nL3 W) W⟪main_arg17⟫ W⟪main_arg18⟫ W⟪main_arg19⟫ W⟪main_arg20⟫ W⟪main_arg1⟫ W⟪main_arg2⟫

def nL5 (W : Valuation τ sig (Elt Ideal)) : FVec Ideal S50000x256 .f32 := refL5 (nL4 W) W⟪main_arg21⟫ W⟪main_arg22⟫ W⟪main_arg23⟫ W⟪main_arg24⟫ W⟪main_arg1⟫ W⟪main_arg2⟫

def nNet (W : Valuation τ sig (Elt Ideal)) : FVec Ideal S512 .f32 :=
  refNet W⟪main_arg0⟫ W⟪main_arg1⟫ W⟪main_arg2⟫ W⟪main_arg3⟫ W⟪main_arg5⟫ W⟪main_arg6⟫ W⟪main_arg7⟫ W⟪main_arg8⟫ W⟪main_arg9⟫ W⟪main_arg10⟫ W⟪main_arg11⟫ W⟪main_arg12⟫ W⟪main_arg13⟫ W⟪main_arg14⟫ W⟪main_arg15⟫ W⟪main_arg16⟫ W⟪main_arg17⟫ W⟪main_arg18⟫ W⟪main_arg19⟫ W⟪main_arg20⟫ W⟪main_arg21⟫ W⟪main_arg22⟫ W⟪main_arg23⟫ W⟪main_arg24⟫ W⟪main_arg25⟫ W⟪main_arg26⟫ W⟪main_arg27⟫ W⟪main_arg28⟫

theorem nNet_eq (W : Valuation τ sig (Elt Ideal)) : nNet W = refTail (nL5 W) W⟪main_arg3⟫ W⟪main_arg25⟫ W⟪main_arg26⟫ W⟪main_arg27⟫ W⟪main_arg28⟫ := rfl

theorem gS_eq (W : Valuation τ sig (Elt Ideal)) : gS W = kSrc W⟪main_arg1⟫ := rfl
theorem gD_eq (W : Valuation τ sig (Elt Ideal)) : gD W = kDst W⟪main_arg1⟫ := rfl
theorem gN_eq (W : Valuation τ sig (Elt Ideal)) : gN W = kNorm W⟪main_arg1⟫ W⟪main_arg2⟫ := by
  unfold gN gS gD gE
  rw [gSrc_eq, gDst_eq, gEw_eq, gNorm_eq]
theorem gH1_eq (W : Valuation τ sig (Elt Ideal)) : gH1 W = nL1 W := by
  unfold gH1 nL1 refL1
  rw [gBN32_eq, gAgg32_eq, gS_eq, gD_eq, gN_eq]
theorem gH2_eq (W : Valuation τ sig (Elt Ideal)) : gH2 W = nL2 W := by
  unfold gH2 nL2 refL2
  rw [gBN64_eq, gAgg64_eq, gH1_eq, gS_eq, gD_eq, gN_eq]
theorem gH3_eq (W : Valuation τ sig (Elt Ideal)) : gH3 W = nL3 W := by
  unfold gH3 nL3 refL3
  rw [gBN128_eq3, gAgg128_eq, gH2_eq, gS_eq, gD_eq, gN_eq]
theorem gH4_eq (W : Valuation τ sig (Elt Ideal)) : gH4 W = nL4 W := by
  unfold gH4 gA4 nL4 refL4
  rw [gAct4_eq, gAgg128_eq, gH3_eq, gS_eq, gD_eq, gN_eq]
theorem gH5_eq (W : Valuation τ sig (Elt Ideal)) : gH5 W = nL5 W := by
  unfold gH5 nL5 refL5
  rw [gBN256_eq, gAgg256_eq, gH4_eq, gS_eq, gD_eq, gN_eq]
theorem gRes_eq (W : Valuation τ sig (Elt Ideal)) : gRes W = nNet W := by
  unfold gRes
  rw [gH5_eq, gTail_eq, nNet_eq]

theorem ref_value_ideal (W : Valuation τ sig (Elt Ideal)) : (after (ops (F := Ideal)) W)⟪main_v351⟫ = nNet W :=
  (ref_value W).trans (gRes_eq W)

set_option maxRecDepth 8192 in
theorem ref_run_value_net (m' : (ℓ : Loc nD τ sig) → Buf (Elt Ideal) ℓ) (ρ' : Dev nD → PrngReg) :
    θ_run defs (onTc (τ := τ) (main (F := Ideal))) ⟨m', fun _ => 0, ρ'⟩ fun r => ∀ c : Dev nD,
      r.2.mem ((c.tc : Thread nD τ).loc main_v351)
        = Cert.Val.refNet (m' ((c.tc : Thread nD τ).loc main_arg0))
            (m' ((c.tc : Thread nD τ).loc main_arg1))
            (m' ((c.tc : Thread nD τ).loc main_arg2))
            (m' ((c.tc : Thread nD τ).loc main_arg3))
            (m' ((c.tc : Thread nD τ).loc main_arg5))
            (m' ((c.tc : Thread nD τ).loc main_arg6))
            (m' ((c.tc : Thread nD τ).loc main_arg7))
            (m' ((c.tc : Thread nD τ).loc main_arg8))
            (m' ((c.tc : Thread nD τ).loc main_arg9))
            (m' ((c.tc : Thread nD τ).loc main_arg10))
            (m' ((c.tc : Thread nD τ).loc main_arg11))
            (m' ((c.tc : Thread nD τ).loc main_arg12))
            (m' ((c.tc : Thread nD τ).loc main_arg13))
            (m' ((c.tc : Thread nD τ).loc main_arg14))
            (m' ((c.tc : Thread nD τ).loc main_arg15))
            (m' ((c.tc : Thread nD τ).loc main_arg16))
            (m' ((c.tc : Thread nD τ).loc main_arg17))
            (m' ((c.tc : Thread nD τ).loc main_arg18))
            (m' ((c.tc : Thread nD τ).loc main_arg19))
            (m' ((c.tc : Thread nD τ).loc main_arg20))
            (m' ((c.tc : Thread nD τ).loc main_arg21))
            (m' ((c.tc : Thread nD τ).loc main_arg22))
            (m' ((c.tc : Thread nD τ).loc main_arg23))
            (m' ((c.tc : Thread nD τ).loc main_arg24))
            (m' ((c.tc : Thread nD τ).loc main_arg25))
            (m' ((c.tc : Thread nD τ).loc main_arg26))
            (m' ((c.tc : Thread nD τ).loc main_arg27))
            (m' ((c.tc : Thread nD τ).loc main_arg28))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20)
      ∧ r.2.mem ((c.tc : Thread nD τ).loc main_arg21) = m' ((c.tc : Thread nD τ).loc main_arg21)
      ∧ r.2.mem ((c.tc : Thread nD τ).loc main_arg22) = m' ((c.tc : Thread nD τ).loc main_arg22)
      ∧ r.2.mem ((c.tc : Thread nD τ).loc main_arg23) = m' ((c.tc : Thread nD τ).loc main_arg23)
      ∧ r.2.mem ((c.tc : Thread nD τ).loc main_arg24) = m' ((c.tc : Thread nD τ).loc main_arg24)
      ∧ r.2.mem ((c.tc : Thread nD τ).loc main_arg25) = m' ((c.tc : Thread nD τ).loc main_arg25)
      ∧ r.2.mem ((c.tc : Thread nD τ).loc main_arg26) = m' ((c.tc : Thread nD τ).loc main_arg26)
      ∧ r.2.mem ((c.tc : Thread nD τ).loc main_arg27) = m' ((c.tc : Thread nD τ).loc main_arg27)
      ∧ r.2.mem ((c.tc : Thread nD τ).loc main_arg28) = m' ((c.tc : Thread nD τ).loc main_arg28) :=
  (θ_run defs _ _).mono (fun _ h c => ⟨(h c).1.trans (gRes_eq _), (h c).2⟩) (ref_run_value m' ρ')

end Cert.ReferenceIdeal.RefRun

end
-- ==== Proof.Val.KHostPro.lean ====
import proofs.«411449_j51797305589934_2_alg».proof.Proof.KI.Keep
import proofs.«411449_j51797305589934_2_alg».proof.Proof.Val.FinNorm
import Idealize.ShloMosaic.Lib.StableHlo.Run

set_option maxRecDepth 16384

noncomputable section

namespace Cert.Val

open Idealize.ShloMosaic Idealize.ShloMosaic.TcCoe
open Cert.KernelIdeal Cert.KernelIdeal.Gen Cert.KernelIdeal.Reg
open Idealize.ShloMosaic.StableHlo

section Stretches
variable (V : Valuation τ sig (Elt Ideal))

theorem pro0_v3 : (StableHlo.after hostOps0 V main_v3 : IVec S850000 32) = kSrc (V main_arg1) := by
  dsimp only [hostOps0]; after_results; rfl

theorem pro0_v6 : (StableHlo.after hostOps0 V main_v6 : IVec S850000 32) = kDst (V main_arg1) := by
  dsimp only [hostOps0]; after_results; rfl

theorem pro0_v8 : (StableHlo.after hostOps0 V main_v8 : FVec Ideal S850000 .f32) = kEw (V main_arg2) := by
  dsimp only [hostOps0]; after_results; rfl

theorem pro0_v13 : (StableHlo.after hostOps0 V main_v13 : IVec S50000 1)
    = cmpf .ogt (kDeg (V main_arg1) (V main_arg2)) kZeros := by
  dsimp only [hostOps0]; after_results; rfl

theorem pro0_v14 : (StableHlo.after hostOps0 V main_v14 : FVec Ideal S50000 .f32)
    = Host.rsqrt (kDeg (V main_arg1) (V main_arg2)) := by
  dsimp only [hostOps0]; after_results; rfl

theorem pro0_cst2 : (StableHlo.after hostOps0 V main_cst_2 : FVec Ideal S_ .f32)
    = constant (F := Ideal) S_ .f32 0x00000000#32 := by
  dsimp only [hostOps0]; after_results

theorem pro1_v15 : (StableHlo.after hostOps0_1 V main_v15 : FVec Ideal S50000 .f32) =
    select (V main_v13) (V main_v14) (broadcastInDim S50000 ![] bcast_S_S50000 (V main_cst_2)) := rfl

theorem pro2_v31 : StableHlo.after hostOps0_2 V main_v31 =
    (mulf (mulf (Host.gather gather_S50000_S850000x1_S850000_n_0_n_n_0_1_1 (V main_v15) (kCol (kWrap (V main_v3)))) (V main_v8))
      (Host.gather gather_S50000_S850000x1_S850000_n_0_n_n_0_1_1 (V main_v15) (kCol (kWrap (V main_v6)))) :
        FVec Ideal S850000 .f32) := by
  dsimp only [hostOps0_2]; after_results_simp; rfl

end Stretches

variable (m : (ℓ : Loc nD τ sig) → Buf (Elt Ideal) ℓ)

theorem Y3_v3 (c : Dev nD) : Y3 m c main_v3 = kSrc (m (c, main_arg1)) :=
  (Y3_keep m c main_v3 (by decide)).trans ((Y2_keep m c main_v3 (by decide)).trans (pro0_v3 (Y0 m c)))

theorem Y3_v6 (c : Dev nD) : Y3 m c main_v6 = kDst (m (c, main_arg1)) :=
  (Y3_keep m c main_v6 (by decide)).trans ((Y2_keep m c main_v6 (by decide)).trans (pro0_v6 (Y0 m c)))

theorem Y2_v15 (c : Dev nD) : Y2 m c main_v15 = kDis (m (c, main_arg1)) (m (c, main_arg2)) := by
  have e13 : Y1 m c main_v13 = _ := pro0_v13 (Y0 m c)
  have e14 : Y1 m c main_v14 = _ := pro0_v14 (Y0 m c)
  have e2 : Y1 m c main_cst_2 = _ := pro0_cst2 (Y0 m c)
  refine (pro1_v15 (Y1 m c)).trans ?_
  rw [e13, e14, e2]
  rfl

theorem Y3_v31 (c : Dev nD) : Y3 m c main_v31 = kNorm (m (c, main_arg1)) (m (c, main_arg2)) := by
  have e15 : Y2 m c main_v15 = _ := Y2_v15 m c
  have e3 : Y2 m c main_v3 = _ := (Y2_keep m c main_v3 (by decide)).trans (pro0_v3 (Y0 m c))
  have e6 : Y2 m c main_v6 = _ := (Y2_keep m c main_v6 (by decide)).trans (pro0_v6 (Y0 m c))
  have e8 : Y2 m c main_v8 = _ := (Y2_keep m c main_v8 (by decide)).trans (pro0_v8 (Y0 m c))
  refine (pro2_v31 (Y2 m c)).trans ?_
  rw [e15, e3, e6, e8]
  rfl

end Cert.Val

end
-- ==== Proof.Val.KHostCarry.lean ====
import proofs.«411449_j51797305589934_2_alg».proof.Proof.KI.Keep

set_option maxRecDepth 8192

noncomputable section

namespace Cert.Val

open Idealize.ShloMosaic Idealize.ShloMosaic.TcCoe Idealize.SL.Sem
open Cert.KernelIdeal Cert.KernelIdeal.Gen Cert.KernelIdeal.Reg

variable {F : FTy → Type} [FloatOps F]
variable (m : (ℓ : Loc nD τ sig) → Buf (Elt F) ℓ)

abbrev refKey (r : Ref sig .tc) : Nat := r.idx.val

theorem not_mem_of_refKey {W : List (Ref sig .tc)} {r : Ref sig .tc} (h : refKey r ∉ W.map refKey) : r ∉ W :=
  fun hm => h (List.mem_map_of_mem hm)

theorem forall_not_mem_of_refKey {A W : List (Ref sig .tc)} (h : ∀ k ∈ A.map refKey, k ∉ W.map refKey) :
    ∀ r ∈ A, r ∉ W :=
  fun r hr => not_mem_of_refKey (h _ (List.mem_map_of_mem hr))

abbrev kArgs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28]

abbrev kPro : List (Ref sig .tc) := [main_v3, main_v6, main_v31]

theorem kArgs_notW1 : ∀ r ∈ kArgs, r ∉ GenP.hostOps0_W := forall_not_mem_of_refKey (by decide)
theorem kArgs_notW2 : ∀ r ∈ kArgs, r ∉ GenP.hostOps0_1_W := forall_not_mem_of_refKey (by decide)
theorem kArgs_notW3 : ∀ r ∈ kArgs, r ∉ GenP.hostOps0_2_W := forall_not_mem_of_refKey (by decide)
theorem kArgs_notW4 : ∀ r ∈ kArgs, r ∉ ([main_v32] : List (Ref sig .tc)) := forall_not_mem_of_refKey (by decide)
theorem kArgs_notW5 : ∀ r ∈ kArgs, r ∉ GenP.hostOps1_W := forall_not_mem_of_refKey (by decide)
theorem kArgs_notW6 : ∀ r ∈ kArgs, r ∉ ([main_v48_0, main_v48_1] : List (Ref sig .tc)) := forall_not_mem_of_refKey (by decide)
theorem kArgs_notW7 : ∀ r ∈ kArgs, r ∉ GenP.hostOps2_W := forall_not_mem_of_refKey (by decide)
theorem kArgs_notW8 : ∀ r ∈ kArgs, r ∉ ([main_v51] : List (Ref sig .tc)) := forall_not_mem_of_refKey (by decide)
theorem kArgs_notW9 : ∀ r ∈ kArgs, r ∉ GenP.hostOps3_W := forall_not_mem_of_refKey (by decide)
theorem kArgs_notW10 : ∀ r ∈ kArgs, r ∉ ([main_v59] : List (Ref sig .tc)) := forall_not_mem_of_refKey (by decide)
theorem kArgs_notW11 : ∀ r ∈ kArgs, r ∉ ([main_v60] : List (Ref sig .tc)) := forall_not_mem_of_refKey (by decide)
theorem kArgs_notW12 : ∀ r ∈ kArgs, r ∉ GenP.hostOps5_W := forall_not_mem_of_refKey (by decide)
theorem kArgs_notW13 : ∀ r ∈ kArgs, r ∉ ([main_v76_0, main_v76_1] : List (Ref sig .tc)) := forall_not_mem_of_refKey (by decide)
theorem kArgs_notW14 : ∀ r ∈ kArgs, r ∉ GenP.hostOps6_W := forall_not_mem_of_refKey (by decide)
theorem kArgs_notW15 : ∀ r ∈ kArgs, r ∉ ([main_v79] : List (Ref sig .tc)) := forall_not_mem_of_refKey (by decide)
theorem kArgs_notW16 : ∀ r ∈ kArgs, r ∉ GenP.hostOps7_W := forall_not_mem_of_refKey (by decide)
theorem kArgs_notW17 : ∀ r ∈ kArgs, r ∉ ([main_v87] : List (Ref sig .tc)) := forall_not_mem_of_refKey (by decide)
theorem kArgs_notW18 : ∀ r ∈ kArgs, r ∉ ([main_v88] : List (Ref sig .tc)) := forall_not_mem_of_refKey (by decide)
theorem kArgs_notW19 : ∀ r ∈ kArgs, r ∉ GenP.hostOps9_W := forall_not_mem_of_refKey (by decide)
theorem kArgs_notW20 : ∀ r ∈ kArgs, r ∉ ([main_v104_0, main_v104_1] : List (Ref sig .tc)) := forall_not_mem_of_refKey (by decide)
theorem kArgs_notW21 : ∀ r ∈ kArgs, r ∉ GenP.hostOps10_W := forall_not_mem_of_refKey (by decide)
theorem kArgs_notW22 : ∀ r ∈ kArgs, r ∉ ([main_v107] : List (Ref sig .tc)) := forall_not_mem_of_refKey (by decide)
theorem kArgs_notW23 : ∀ r ∈ kArgs, r ∉ GenP.hostOps11_W := forall_not_mem_of_refKey (by decide)
theorem kArgs_notW24 : ∀ r ∈ kArgs, r ∉ ([main_v115] : List (Ref sig .tc)) := forall_not_mem_of_refKey (by decide)
theorem kArgs_notW25 : ∀ r ∈ kArgs, r ∉ ([main_v116] : List (Ref sig .tc)) := forall_not_mem_of_refKey (by decide)
theorem kArgs_notW26 : ∀ r ∈ kArgs, r ∉ GenP.hostOps13_W := forall_not_mem_of_refKey (by decide)
theorem kArgs_notW27 : ∀ r ∈ kArgs, r ∉ ([main_v132_0, main_v132_1] : List (Ref sig .tc)) := forall_not_mem_of_refKey (by decide)
theorem kArgs_notW28 : ∀ r ∈ kArgs, r ∉ GenP.hostOps14_W := forall_not_mem_of_refKey (by decide)
theorem kArgs_notW29 : ∀ r ∈ kArgs, r ∉ ([main_v135] : List (Ref sig .tc)) := forall_not_mem_of_refKey (by decide)
theorem kArgs_notW30 : ∀ r ∈ kArgs, r ∉ GenP.hostOps15_W := forall_not_mem_of_refKey (by decide)
theorem kArgs_notW31 : ∀ r ∈ kArgs, r ∉ ([main_v143] : List (Ref sig .tc)) := forall_not_mem_of_refKey (by decide)
theorem kArgs_notW32 : ∀ r ∈ kArgs, r ∉ ([main_v144] : List (Ref sig .tc)) := forall_not_mem_of_refKey (by decide)
theorem kArgs_notW33 : ∀ r ∈ kArgs, r ∉ GenP.hostOps17_W := forall_not_mem_of_refKey (by decide)
theorem kArgs_notW34 : ∀ r ∈ kArgs, r ∉ ([main_v160_0, main_v160_1] : List (Ref sig .tc)) := forall_not_mem_of_refKey (by decide)
theorem kArgs_notW35 : ∀ r ∈ kArgs, r ∉ GenP.hostOps18_W := forall_not_mem_of_refKey (by decide)
theorem kArgs_notW36 : ∀ r ∈ kArgs, r ∉ ([main_v163] : List (Ref sig .tc)) := forall_not_mem_of_refKey (by decide)
theorem kArgs_notW37 : ∀ r ∈ kArgs, r ∉ GenP.hostOps19_W := forall_not_mem_of_refKey (by decide)
theorem kArgs_notW38 : ∀ r ∈ kArgs, r ∉ ([main_v171] : List (Ref sig .tc)) := forall_not_mem_of_refKey (by decide)
theorem kArgs_notW39 : ∀ r ∈ kArgs, r ∉ GenP.hostOps20_W := forall_not_mem_of_refKey (by decide)
theorem kArgs_notW40 : ∀ r ∈ kArgs, r ∉ GenP.hostOps20_1_W := forall_not_mem_of_refKey (by decide)
theorem kPro_notW4 : ∀ r ∈ kPro, r ∉ ([main_v32] : List (Ref sig .tc)) := forall_not_mem_of_refKey (by decide)
theorem kPro_notW5 : ∀ r ∈ kPro, r ∉ GenP.hostOps1_W := forall_not_mem_of_refKey (by decide)
theorem kPro_notW6 : ∀ r ∈ kPro, r ∉ ([main_v48_0, main_v48_1] : List (Ref sig .tc)) := forall_not_mem_of_refKey (by decide)
theorem kPro_notW7 : ∀ r ∈ kPro, r ∉ GenP.hostOps2_W := forall_not_mem_of_refKey (by decide)
theorem kPro_notW8 : ∀ r ∈ kPro, r ∉ ([main_v51] : List (Ref sig .tc)) := forall_not_mem_of_refKey (by decide)
theorem kPro_notW9 : ∀ r ∈ kPro, r ∉ GenP.hostOps3_W := forall_not_mem_of_refKey (by decide)
theorem kPro_notW10 : ∀ r ∈ kPro, r ∉ ([main_v59] : List (Ref sig .tc)) := forall_not_mem_of_refKey (by decide)
theorem kPro_notW11 : ∀ r ∈ kPro, r ∉ ([main_v60] : List (Ref sig .tc)) := forall_not_mem_of_refKey (by decide)
theorem kPro_notW12 : ∀ r ∈ kPro, r ∉ GenP.hostOps5_W := forall_not_mem_of_refKey (by decide)
theorem kPro_notW13 : ∀ r ∈ kPro, r ∉ ([main_v76_0, main_v76_1] : List (Ref sig .tc)) := forall_not_mem_of_refKey (by decide)
theorem kPro_notW14 : ∀ r ∈ kPro, r ∉ GenP.hostOps6_W := forall_not_mem_of_refKey (by decide)
theorem kPro_notW15 : ∀ r ∈ kPro, r ∉ ([main_v79] : List (Ref sig .tc)) := forall_not_mem_of_refKey (by decide)
theorem kPro_notW16 : ∀ r ∈ kPro, r ∉ GenP.hostOps7_W := forall_not_mem_of_refKey (by decide)
theorem kPro_notW17 : ∀ r ∈ kPro, r ∉ ([main_v87] : List (Ref sig .tc)) := forall_not_mem_of_refKey (by decide)
theorem kPro_notW18 : ∀ r ∈ kPro, r ∉ ([main_v88] : List (Ref sig .tc)) := forall_not_mem_of_refKey (by decide)
theorem kPro_notW19 : ∀ r ∈ kPro, r ∉ GenP.hostOps9_W := forall_not_mem_of_refKey (by decide)
theorem kPro_notW20 : ∀ r ∈ kPro, r ∉ ([main_v104_0, main_v104_1] : List (Ref sig .tc)) := forall_not_mem_of_refKey (by decide)
theorem kPro_notW21 : ∀ r ∈ kPro, r ∉ GenP.hostOps10_W := forall_not_mem_of_refKey (by decide)
theorem kPro_notW22 : ∀ r ∈ kPro, r ∉ ([main_v107] : List (Ref sig .tc)) := forall_not_mem_of_refKey (by decide)
theorem kPro_notW23 : ∀ r ∈ kPro, r ∉ GenP.hostOps11_W := forall_not_mem_of_refKey (by decide)
theorem kPro_notW24 : ∀ r ∈ kPro, r ∉ ([main_v115] : List (Ref sig .tc)) := forall_not_mem_of_refKey (by decide)
theorem kPro_notW25 : ∀ r ∈ kPro, r ∉ ([main_v116] : List (Ref sig .tc)) := forall_not_mem_of_refKey (by decide)
theorem kPro_notW26 : ∀ r ∈ kPro, r ∉ GenP.hostOps13_W := forall_not_mem_of_refKey (by decide)
theorem kPro_notW27 : ∀ r ∈ kPro, r ∉ ([main_v132_0, main_v132_1] : List (Ref sig .tc)) := forall_not_mem_of_refKey (by decide)
theorem kPro_notW28 : ∀ r ∈ kPro, r ∉ GenP.hostOps14_W := forall_not_mem_of_refKey (by decide)
theorem kPro_notW29 : ∀ r ∈ kPro, r ∉ ([main_v135] : List (Ref sig .tc)) := forall_not_mem_of_refKey (by decide)
theorem kPro_notW30 : ∀ r ∈ kPro, r ∉ GenP.hostOps15_W := forall_not_mem_of_refKey (by decide)
theorem kPro_notW31 : ∀ r ∈ kPro, r ∉ ([main_v143] : List (Ref sig .tc)) := forall_not_mem_of_refKey (by decide)
theorem kPro_notW32 : ∀ r ∈ kPro, r ∉ ([main_v144] : List (Ref sig .tc)) := forall_not_mem_of_refKey (by decide)
theorem kPro_notW33 : ∀ r ∈ kPro, r ∉ GenP.hostOps17_W := forall_not_mem_of_refKey (by decide)
theorem kPro_notW34 : ∀ r ∈ kPro, r ∉ ([main_v160_0, main_v160_1] : List (Ref sig .tc)) := forall_not_mem_of_refKey (by decide)
theorem kPro_notW35 : ∀ r ∈ kPro, r ∉ GenP.hostOps18_W := forall_not_mem_of_refKey (by decide)
theorem kPro_notW36 : ∀ r ∈ kPro, r ∉ ([main_v163] : List (Ref sig .tc)) := forall_not_mem_of_refKey (by decide)
theorem kPro_notW37 : ∀ r ∈ kPro, r ∉ GenP.hostOps19_W := forall_not_mem_of_refKey (by decide)
theorem kPro_notW38 : ∀ r ∈ kPro, r ∉ ([main_v171] : List (Ref sig .tc)) := forall_not_mem_of_refKey (by decide)
theorem kPro_notW39 : ∀ r ∈ kPro, r ∉ GenP.hostOps20_W := forall_not_mem_of_refKey (by decide)
theorem kPro_notW40 : ∀ r ∈ kPro, r ∉ GenP.hostOps20_1_W := forall_not_mem_of_refKey (by decide)
theorem kPro_notW41 : ∀ r ∈ kPro, r ∉ GenP.hostOps20_2_W := forall_not_mem_of_refKey (by decide)
theorem Y0_arg (c : Dev nD) (r : Ref sig .tc) (h : r ∈ kArgs) : Y0 m c r = m (c, r) := rfl
theorem Y1_arg (c : Dev nD) (r : Ref sig .tc) (h : r ∈ kArgs) : Y1 m c r = m (c, r) :=
  (Y1_keep m c r (kArgs_notW1 r h)).trans (Y0_arg m c r h)
theorem Y2_arg (c : Dev nD) (r : Ref sig .tc) (h : r ∈ kArgs) : Y2 m c r = m (c, r) :=
  (Y2_keep m c r (kArgs_notW2 r h)).trans (Y1_arg m c r h)
theorem Y3_arg (c : Dev nD) (r : Ref sig .tc) (h : r ∈ kArgs) : Y3 m c r = m (c, r) :=
  (Y3_keep m c r (kArgs_notW3 r h)).trans (Y2_arg m c r h)
theorem Y4_arg (c : Dev nD) (r : Ref sig .tc) (h : r ∈ kArgs) : Y4 m c r = m (c, r) :=
  (Y4_keep m c r (kArgs_notW4 r h)).trans (Y3_arg m c r h)
theorem Y5_arg (c : Dev nD) (r : Ref sig .tc) (h : r ∈ kArgs) : Y5 m c r = m (c, r) :=
  (Y5_keep m c r (kArgs_notW5 r h)).trans (Y4_arg m c r h)
theorem Y6_arg (c : Dev nD) (r : Ref sig .tc) (h : r ∈ kArgs) : Y6 m c r = m (c, r) :=
  (Y6_keep m c r (kArgs_notW6 r h)).trans (Y5_arg m c r h)
theorem Y7_arg (c : Dev nD) (r : Ref sig .tc) (h : r ∈ kArgs) : Y7 m c r = m (c, r) :=
  (Y7_keep m c r (kArgs_notW7 r h)).trans (Y6_arg m c r h)
theorem Y8_arg (c : Dev nD) (r : Ref sig .tc) (h : r ∈ kArgs) : Y8 m c r = m (c, r) :=
  (Y8_keep m c r (kArgs_notW8 r h)).trans (Y7_arg m c r h)
theorem Y9_arg (c : Dev nD) (r : Ref sig .tc) (h : r ∈ kArgs) : Y9 m c r = m (c, r) :=
  (Y9_keep m c r (kArgs_notW9 r h)).trans (Y8_arg m c r h)
theorem Y10_arg (c : Dev nD) (r : Ref sig .tc) (h : r ∈ kArgs) : Y10 m c r = m (c, r) :=
  (Y10_keep m c r (kArgs_notW10 r h)).trans (Y9_arg m c r h)
theorem Y11_arg (c : Dev nD) (r : Ref sig .tc) (h : r ∈ kArgs) : Y11 m c r = m (c, r) :=
  (Y11_keep m c r (kArgs_notW11 r h)).trans (Y10_arg m c r h)
theorem Y12_arg (c : Dev nD) (r : Ref sig .tc) (h : r ∈ kArgs) : Y12 m c r = m (c, r) :=
  (Y12_keep m c r (kArgs_notW12 r h)).trans (Y11_arg m c r h)
theorem Y13_arg (c : Dev nD) (r : Ref sig .tc) (h : r ∈ kArgs) : Y13 m c r = m (c, r) :=
  (Y13_keep m c r (kArgs_notW13 r h)).trans (Y12_arg m c r h)
theorem Y14_arg (c : Dev nD) (r : Ref sig .tc) (h : r ∈ kArgs) : Y14 m c r = m (c, r) :=
  (Y14_keep m c r (kArgs_notW14 r h)).trans (Y13_arg m c r h)
theorem Y15_arg (c : Dev nD) (r : Ref sig .tc) (h : r ∈ kArgs) : Y15 m c r = m (c, r) :=
  (Y15_keep m c r (kArgs_notW15 r h)).trans (Y14_arg m c r h)
theorem Y16_arg (c : Dev nD) (r : Ref sig .tc) (h : r ∈ kArgs) : Y16 m c r = m (c, r) :=
  (Y16_keep m c r (kArgs_notW16 r h)).trans (Y15_arg m c r h)
theorem Y17_arg (c : Dev nD) (r : Ref sig .tc) (h : r ∈ kArgs) : Y17 m c r = m (c, r) :=
  (Y17_keep m c r (kArgs_notW17 r h)).trans (Y16_arg m c r h)
theorem Y18_arg (c : Dev nD) (r : Ref sig .tc) (h : r ∈ kArgs) : Y18 m c r = m (c, r) :=
  (Y18_keep m c r (kArgs_notW18 r h)).trans (Y17_arg m c r h)
theorem Y19_arg (c : Dev nD) (r : Ref sig .tc) (h : r ∈ kArgs) : Y19 m c r = m (c, r) :=
  (Y19_keep m c r (kArgs_notW19 r h)).trans (Y18_arg m c r h)
theorem Y20_arg (c : Dev nD) (r : Ref sig .tc) (h : r ∈ kArgs) : Y20 m c r = m (c, r) :=
  (Y20_keep m c r (kArgs_notW20 r h)).trans (Y19_arg m c r h)
theorem Y21_arg (c : Dev nD) (r : Ref sig .tc) (h : r ∈ kArgs) : Y21 m c r = m (c, r) :=
  (Y21_keep m c r (kArgs_notW21 r h)).trans (Y20_arg m c r h)
theorem Y22_arg (c : Dev nD) (r : Ref sig .tc) (h : r ∈ kArgs) : Y22 m c r = m (c, r) :=
  (Y22_keep m c r (kArgs_notW22 r h)).trans (Y21_arg m c r h)
theorem Y23_arg (c : Dev nD) (r : Ref sig .tc) (h : r ∈ kArgs) : Y23 m c r = m (c, r) :=
  (Y23_keep m c r (kArgs_notW23 r h)).trans (Y22_arg m c r h)
theorem Y24_arg (c : Dev nD) (r : Ref sig .tc) (h : r ∈ kArgs) : Y24 m c r = m (c, r) :=
  (Y24_keep m c r (kArgs_notW24 r h)).trans (Y23_arg m c r h)
theorem Y25_arg (c : Dev nD) (r : Ref sig .tc) (h : r ∈ kArgs) : Y25 m c r = m (c, r) :=
  (Y25_keep m c r (kArgs_notW25 r h)).trans (Y24_arg m c r h)
theorem Y26_arg (c : Dev nD) (r : Ref sig .tc) (h : r ∈ kArgs) : Y26 m c r = m (c, r) :=
  (Y26_keep m c r (kArgs_notW26 r h)).trans (Y25_arg m c r h)
theorem Y27_arg (c : Dev nD) (r : Ref sig .tc) (h : r ∈ kArgs) : Y27 m c r = m (c, r) :=
  (Y27_keep m c r (kArgs_notW27 r h)).trans (Y26_arg m c r h)
theorem Y28_arg (c : Dev nD) (r : Ref sig .tc) (h : r ∈ kArgs) : Y28 m c r = m (c, r) :=
  (Y28_keep m c r (kArgs_notW28 r h)).trans (Y27_arg m c r h)
theorem Y29_arg (c : Dev nD) (r : Ref sig .tc) (h : r ∈ kArgs) : Y29 m c r = m (c, r) :=
  (Y29_keep m c r (kArgs_notW29 r h)).trans (Y28_arg m c r h)
theorem Y30_arg (c : Dev nD) (r : Ref sig .tc) (h : r ∈ kArgs) : Y30 m c r = m (c, r) :=
  (Y30_keep m c r (kArgs_notW30 r h)).trans (Y29_arg m c r h)
theorem Y31_arg (c : Dev nD) (r : Ref sig .tc) (h : r ∈ kArgs) : Y31 m c r = m (c, r) :=
  (Y31_keep m c r (kArgs_notW31 r h)).trans (Y30_arg m c r h)
theorem Y32_arg (c : Dev nD) (r : Ref sig .tc) (h : r ∈ kArgs) : Y32 m c r = m (c, r) :=
  (Y32_keep m c r (kArgs_notW32 r h)).trans (Y31_arg m c r h)
theorem Y33_arg (c : Dev nD) (r : Ref sig .tc) (h : r ∈ kArgs) : Y33 m c r = m (c, r) :=
  (Y33_keep m c r (kArgs_notW33 r h)).trans (Y32_arg m c r h)
theorem Y34_arg (c : Dev nD) (r : Ref sig .tc) (h : r ∈ kArgs) : Y34 m c r = m (c, r) :=
  (Y34_keep m c r (kArgs_notW34 r h)).trans (Y33_arg m c r h)
theorem Y35_arg (c : Dev nD) (r : Ref sig .tc) (h : r ∈ kArgs) : Y35 m c r = m (c, r) :=
  (Y35_keep m c r (kArgs_notW35 r h)).trans (Y34_arg m c r h)
theorem Y36_arg (c : Dev nD) (r : Ref sig .tc) (h : r ∈ kArgs) : Y36 m c r = m (c, r) :=
  (Y36_keep m c r (kArgs_notW36 r h)).trans (Y35_arg m c r h)
theorem Y37_arg (c : Dev nD) (r : Ref sig .tc) (h : r ∈ kArgs) : Y37 m c r = m (c, r) :=
  (Y37_keep m c r (kArgs_notW37 r h)).trans (Y36_arg m c r h)
theorem Y38_arg (c : Dev nD) (r : Ref sig .tc) (h : r ∈ kArgs) : Y38 m c r = m (c, r) :=
  (Y38_keep m c r (kArgs_notW38 r h)).trans (Y37_arg m c r h)
theorem Y39_arg (c : Dev nD) (r : Ref sig .tc) (h : r ∈ kArgs) : Y39 m c r = m (c, r) :=
  (Y39_keep m c r (kArgs_notW39 r h)).trans (Y38_arg m c r h)
theorem Y4_pro (c : Dev nD) (r : Ref sig .tc) (h : r ∈ kPro) : Y4 m c r = Y3 m c r :=
  Y4_keep m c r (kPro_notW4 r h)
theorem Y5_pro (c : Dev nD) (r : Ref sig .tc) (h : r ∈ kPro) : Y5 m c r = Y3 m c r :=
  (Y5_keep m c r (kPro_notW5 r h)).trans (Y4_pro m c r h)
theorem Y6_pro (c : Dev nD) (r : Ref sig .tc) (h : r ∈ kPro) : Y6 m c r = Y3 m c r :=
  (Y6_keep m c r (kPro_notW6 r h)).trans (Y5_pro m c r h)
theorem Y7_pro (c : Dev nD) (r : Ref sig .tc) (h : r ∈ kPro) : Y7 m c r = Y3 m c r :=
  (Y7_keep m c r (kPro_notW7 r h)).trans (Y6_pro m c r h)
theorem Y8_pro (c : Dev nD) (r : Ref sig .tc) (h : r ∈ kPro) : Y8 m c r = Y3 m c r :=
  (Y8_keep m c r (kPro_notW8 r h)).trans (Y7_pro m c r h)
theorem Y9_pro (c : Dev nD) (r : Ref sig .tc) (h : r ∈ kPro) : Y9 m c r = Y3 m c r :=
  (Y9_keep m c r (kPro_notW9 r h)).trans (Y8_pro m c r h)
theorem Y10_pro (c : Dev nD) (r : Ref sig .tc) (h : r ∈ kPro) : Y10 m c r = Y3 m c r :=
  (Y10_keep m c r (kPro_notW10 r h)).trans (Y9_pro m c r h)
theorem Y11_pro (c : Dev nD) (r : Ref sig .tc) (h : r ∈ kPro) : Y11 m c r = Y3 m c r :=
  (Y11_keep m c r (kPro_notW11 r h)).trans (Y10_pro m c r h)
theorem Y12_pro (c : Dev nD) (r : Ref sig .tc) (h : r ∈ kPro) : Y12 m c r = Y3 m c r :=
  (Y12_keep m c r (kPro_notW12 r h)).trans (Y11_pro m c r h)
theorem Y13_pro (c : Dev nD) (r : Ref sig .tc) (h : r ∈ kPro) : Y13 m c r = Y3 m c r :=
  (Y13_keep m c r (kPro_notW13 r h)).trans (Y12_pro m c r h)
theorem Y14_pro (c : Dev nD) (r : Ref sig .tc) (h : r ∈ kPro) : Y14 m c r = Y3 m c r :=
  (Y14_keep m c r (kPro_notW14 r h)).trans (Y13_pro m c r h)
theorem Y15_pro (c : Dev nD) (r : Ref sig .tc) (h : r ∈ kPro) : Y15 m c r = Y3 m c r :=
  (Y15_keep m c r (kPro_notW15 r h)).trans (Y14_pro m c r h)
theorem Y16_pro (c : Dev nD) (r : Ref sig .tc) (h : r ∈ kPro) : Y16 m c r = Y3 m c r :=
  (Y16_keep m c r (kPro_notW16 r h)).trans (Y15_pro m c r h)
theorem Y17_pro (c : Dev nD) (r : Ref sig .tc) (h : r ∈ kPro) : Y17 m c r = Y3 m c r :=
  (Y17_keep m c r (kPro_notW17 r h)).trans (Y16_pro m c r h)
theorem Y18_pro (c : Dev nD) (r : Ref sig .tc) (h : r ∈ kPro) : Y18 m c r = Y3 m c r :=
  (Y18_keep m c r (kPro_notW18 r h)).trans (Y17_pro m c r h)
theorem Y19_pro (c : Dev nD) (r : Ref sig .tc) (h : r ∈ kPro) : Y19 m c r = Y3 m c r :=
  (Y19_keep m c r (kPro_notW19 r h)).trans (Y18_pro m c r h)
theorem Y20_pro (c : Dev nD) (r : Ref sig .tc) (h : r ∈ kPro) : Y20 m c r = Y3 m c r :=
  (Y20_keep m c r (kPro_notW20 r h)).trans (Y19_pro m c r h)
theorem Y21_pro (c : Dev nD) (r : Ref sig .tc) (h : r ∈ kPro) : Y21 m c r = Y3 m c r :=
  (Y21_keep m c r (kPro_notW21 r h)).trans (Y20_pro m c r h)
theorem Y22_pro (c : Dev nD) (r : Ref sig .tc) (h : r ∈ kPro) : Y22 m c r = Y3 m c r :=
  (Y22_keep m c r (kPro_notW22 r h)).trans (Y21_pro m c r h)
theorem Y23_pro (c : Dev nD) (r : Ref sig .tc) (h : r ∈ kPro) : Y23 m c r = Y3 m c r :=
  (Y23_keep m c r (kPro_notW23 r h)).trans (Y22_pro m c r h)
theorem Y24_pro (c : Dev nD) (r : Ref sig .tc) (h : r ∈ kPro) : Y24 m c r = Y3 m c r :=
  (Y24_keep m c r (kPro_notW24 r h)).trans (Y23_pro m c r h)
theorem Y25_pro (c : Dev nD) (r : Ref sig .tc) (h : r ∈ kPro) : Y25 m c r = Y3 m c r :=
  (Y25_keep m c r (kPro_notW25 r h)).trans (Y24_pro m c r h)
theorem Y26_pro (c : Dev nD) (r : Ref sig .tc) (h : r ∈ kPro) : Y26 m c r = Y3 m c r :=
  (Y26_keep m c r (kPro_notW26 r h)).trans (Y25_pro m c r h)
theorem Y27_pro (c : Dev nD) (r : Ref sig .tc) (h : r ∈ kPro) : Y27 m c r = Y3 m c r :=
  (Y27_keep m c r (kPro_notW27 r h)).trans (Y26_pro m c r h)
theorem Y28_pro (c : Dev nD) (r : Ref sig .tc) (h : r ∈ kPro) : Y28 m c r = Y3 m c r :=
  (Y28_keep m c r (kPro_notW28 r h)).trans (Y27_pro m c r h)
theorem Y29_pro (c : Dev nD) (r : Ref sig .tc) (h : r ∈ kPro) : Y29 m c r = Y3 m c r :=
  (Y29_keep m c r (kPro_notW29 r h)).trans (Y28_pro m c r h)
theorem Y30_pro (c : Dev nD) (r : Ref sig .tc) (h : r ∈ kPro) : Y30 m c r = Y3 m c r :=
  (Y30_keep m c r (kPro_notW30 r h)).trans (Y29_pro m c r h)
theorem Y31_pro (c : Dev nD) (r : Ref sig .tc) (h : r ∈ kPro) : Y31 m c r = Y3 m c r :=
  (Y31_keep m c r (kPro_notW31 r h)).trans (Y30_pro m c r h)
theorem Y32_pro (c : Dev nD) (r : Ref sig .tc) (h : r ∈ kPro) : Y32 m c r = Y3 m c r :=
  (Y32_keep m c r (kPro_notW32 r h)).trans (Y31_pro m c r h)
theorem Y33_pro (c : Dev nD) (r : Ref sig .tc) (h : r ∈ kPro) : Y33 m c r = Y3 m c r :=
  (Y33_keep m c r (kPro_notW33 r h)).trans (Y32_pro m c r h)
theorem Y34_pro (c : Dev nD) (r : Ref sig .tc) (h : r ∈ kPro) : Y34 m c r = Y3 m c r :=
  (Y34_keep m c r (kPro_notW34 r h)).trans (Y33_pro m c r h)
theorem Y35_pro (c : Dev nD) (r : Ref sig .tc) (h : r ∈ kPro) : Y35 m c r = Y3 m c r :=
  (Y35_keep m c r (kPro_notW35 r h)).trans (Y34_pro m c r h)
theorem Y36_pro (c : Dev nD) (r : Ref sig .tc) (h : r ∈ kPro) : Y36 m c r = Y3 m c r :=
  (Y36_keep m c r (kPro_notW36 r h)).trans (Y35_pro m c r h)
theorem Y37_pro (c : Dev nD) (r : Ref sig .tc) (h : r ∈ kPro) : Y37 m c r = Y3 m c r :=
  (Y37_keep m c r (kPro_notW37 r h)).trans (Y36_pro m c r h)
theorem Y38_pro (c : Dev nD) (r : Ref sig .tc) (h : r ∈ kPro) : Y38 m c r = Y3 m c r :=
  (Y38_keep m c r (kPro_notW38 r h)).trans (Y37_pro m c r h)
theorem Y39_pro (c : Dev nD) (r : Ref sig .tc) (h : r ∈ kPro) : Y39 m c r = Y3 m c r :=
  (Y39_keep m c r (kPro_notW39 r h)).trans (Y38_pro m c r h)
theorem Y40_pro (c : Dev nD) (r : Ref sig .tc) (h : r ∈ kPro) : Y40 m c r = Y3 m c r :=
  (Y40_keep m c r (kPro_notW40 r h)).trans (Y39_pro m c r h)
theorem Y4_v3 (c : Dev nD) : Y4 m c main_v3 = Y3 m c main_v3 := Y4_pro m c main_v3 (by decide)
theorem Y4_v6 (c : Dev nD) : Y4 m c main_v6 = Y3 m c main_v6 := Y4_pro m c main_v6 (by decide)
theorem Y4_v31 (c : Dev nD) : Y4 m c main_v31 = Y3 m c main_v31 := Y4_pro m c main_v31 (by decide)
theorem Y11_v3 (c : Dev nD) : Y11 m c main_v3 = Y3 m c main_v3 := Y11_pro m c main_v3 (by decide)
theorem Y11_v6 (c : Dev nD) : Y11 m c main_v6 = Y3 m c main_v6 := Y11_pro m c main_v6 (by decide)
theorem Y11_v31 (c : Dev nD) : Y11 m c main_v31 = Y3 m c main_v31 := Y11_pro m c main_v31 (by decide)
theorem Y18_v3 (c : Dev nD) : Y18 m c main_v3 = Y3 m c main_v3 := Y18_pro m c main_v3 (by decide)
theorem Y18_v6 (c : Dev nD) : Y18 m c main_v6 = Y3 m c main_v6 := Y18_pro m c main_v6 (by decide)
theorem Y18_v31 (c : Dev nD) : Y18 m c main_v31 = Y3 m c main_v31 := Y18_pro m c main_v31 (by decide)
theorem Y25_v3 (c : Dev nD) : Y25 m c main_v3 = Y3 m c main_v3 := Y25_pro m c main_v3 (by decide)
theorem Y25_v6 (c : Dev nD) : Y25 m c main_v6 = Y3 m c main_v6 := Y25_pro m c main_v6 (by decide)
theorem Y25_v31 (c : Dev nD) : Y25 m c main_v31 = Y3 m c main_v31 := Y25_pro m c main_v31 (by decide)
theorem Y32_v3 (c : Dev nD) : Y32 m c main_v3 = Y3 m c main_v3 := Y32_pro m c main_v3 (by decide)
theorem Y32_v6 (c : Dev nD) : Y32 m c main_v6 = Y3 m c main_v6 := Y32_pro m c main_v6 (by decide)
theorem Y32_v31 (c : Dev nD) : Y32 m c main_v31 = Y3 m c main_v31 := Y32_pro m c main_v31 (by decide)
theorem Y3_arg0 (c : Dev nD) : Y3 m c main_arg0 = m (c, main_arg0) := Y3_arg m c main_arg0 (by decide)
theorem Y3_arg5 (c : Dev nD) : Y3 m c main_arg5 = m (c, main_arg5) := Y3_arg m c main_arg5 (by decide)
theorem Y10_arg9 (c : Dev nD) : Y10 m c main_arg9 = m (c, main_arg9) := Y10_arg m c main_arg9 (by decide)
theorem Y17_arg13 (c : Dev nD) : Y17 m c main_arg13 = m (c, main_arg13) := Y17_arg m c main_arg13 (by decide)
theorem Y24_arg17 (c : Dev nD) : Y24 m c main_arg17 = m (c, main_arg17) := Y24_arg m c main_arg17 (by decide)
theorem Y31_arg21 (c : Dev nD) : Y31 m c main_arg21 = m (c, main_arg21) := Y31_arg m c main_arg21 (by decide)
theorem Y4_arg6 (c : Dev nD) : Y4 m c main_arg6 = m (c, main_arg6) := Y4_arg m c main_arg6 (by decide)
theorem Y8_arg7 (c : Dev nD) : Y8 m c main_arg7 = m (c, main_arg7) := Y8_arg m c main_arg7 (by decide)
theorem Y8_arg8 (c : Dev nD) : Y8 m c main_arg8 = m (c, main_arg8) := Y8_arg m c main_arg8 (by decide)
theorem Y11_arg10 (c : Dev nD) : Y11 m c main_arg10 = m (c, main_arg10) := Y11_arg m c main_arg10 (by decide)
theorem Y15_arg11 (c : Dev nD) : Y15 m c main_arg11 = m (c, main_arg11) := Y15_arg m c main_arg11 (by decide)
theorem Y15_arg12 (c : Dev nD) : Y15 m c main_arg12 = m (c, main_arg12) := Y15_arg m c main_arg12 (by decide)
theorem Y18_arg14 (c : Dev nD) : Y18 m c main_arg14 = m (c, main_arg14) := Y18_arg m c main_arg14 (by decide)
theorem Y22_arg15 (c : Dev nD) : Y22 m c main_arg15 = m (c, main_arg15) := Y22_arg m c main_arg15 (by decide)
theorem Y22_arg16 (c : Dev nD) : Y22 m c main_arg16 = m (c, main_arg16) := Y22_arg m c main_arg16 (by decide)
theorem Y25_arg18 (c : Dev nD) : Y25 m c main_arg18 = m (c, main_arg18) := Y25_arg m c main_arg18 (by decide)
theorem Y29_arg19 (c : Dev nD) : Y29 m c main_arg19 = m (c, main_arg19) := Y29_arg m c main_arg19 (by decide)
theorem Y29_arg20 (c : Dev nD) : Y29 m c main_arg20 = m (c, main_arg20) := Y29_arg m c main_arg20 (by decide)
theorem Y32_arg22 (c : Dev nD) : Y32 m c main_arg22 = m (c, main_arg22) := Y32_arg m c main_arg22 (by decide)
theorem Y36_arg23 (c : Dev nD) : Y36 m c main_arg23 = m (c, main_arg23) := Y36_arg m c main_arg23 (by decide)
theorem Y36_arg24 (c : Dev nD) : Y36 m c main_arg24 = m (c, main_arg24) := Y36_arg m c main_arg24 (by decide)
end Cert.Val

end
-- ==== Proof.Val.KHostC.lean ====
import Idealize.ShloMosaic.PureOps.Ideal.Laws

noncomputable section

namespace Cert.Val

open Idealize.ShloMosaic

abbrev nodesN : EReal := Ideal.ofBits .f32 0x47435000#32
abbrev epsBN : EReal := Ideal.ofBits .f32 0x3727C5AC#32

end Cert.Val
-- ==== Proof.Val.KHostL1.lean ====
import proofs.«411449_j51797305589934_2_alg».proof.Proof.KI.Chain
import proofs.«411449_j51797305589934_2_alg».proof.Proof.Val.FinNorm
import proofs.«411449_j51797305589934_2_alg».proof.Proof.Val.KHostC
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.Val

open Cert.KernelIdeal Cert.KernelIdeal.Gen Cert.KernelIdeal.Reg
open Idealize.ShloMosaic Idealize.ShloMosaic.TcCoe Idealize.SL.Sem Idealize.ShloMosaic.ValueIdx
open scoped BigOperators

abbrev rowAt1 (v : S1x32.Idx → EReal) (q : Fin 32) : EReal := v (ix2 (0 : Fin 1) q)

section Stretch

variable (W : Valuation τ sig (Elt Ideal))

set_option maxHeartbeats 2000000 in
theorem agg1_after : StableHlo.after (hostOps1 (F := Ideal)) W main_v46
    = kAgg1 (W main_v32) (W main_v3) (W main_v6) (W main_v31) := by
  dsimp only [hostOps1]
  after_results_simp
  rfl

theorem bias1_fun_after : StableHlo.after (hostOps1 (F := Ideal)) W main_v47
    = shapeCast S1x32 (W main_arg6 : S32.Idx → EReal) shapeCasts_S32_S1x32 := by
  dsimp only [hostOps1]
  after_results
  rfl
theorem bias1_after (q : Fin 32) :
    rowAt1 (StableHlo.after (hostOps1 (F := Ideal)) W main_v47) q
      = (W main_arg6 : S32.Idx → EReal) (ix1 q) := by
  rw [bias1_fun_after]
  exact shapeCast_apply _ _ (ix2 (0 : Fin 1) q) (ix1 q) (by
    rw [Shape.rowMajor_val_two, Shape.rowMajor_val_one]; show q.val = 0 * 32 + q.val; omega)

theorem mean1_fun_after : StableHlo.after (hostOps2 (F := Ideal)) W main_v50
    = Host.divf (W main_v48_1 : FVec Ideal S1x32 .f32)
        (broadcastInDim S1x32 ![] bcast_S_S1x32 (constant (F := Ideal) S_ .f32 0x47435000#32)) := by
  dsimp only [hostOps2]
  after_results
theorem mean1_after (q : Fin 32) :
    rowAt1 (StableHlo.after (hostOps2 (F := Ideal)) W main_v50) q
      = Ideal.div (rowAt1 (W main_v48_1) q) nodesN := by
  rw [mean1_fun_after]
  rfl

theorem var1_fun_after : StableHlo.after (hostOps3 (F := Ideal)) W main_v53
    = Host.divf (W main_v51 : FVec Ideal S1x32 .f32)
        (broadcastInDim S1x32 ![] bcast_S_S1x32 (constant (F := Ideal) S_ .f32 0x47435000#32)) := by
  dsimp only [hostOps3]
  after_results
theorem var1_after (q : Fin 32) :
    rowAt1 (StableHlo.after (hostOps3 (F := Ideal)) W main_v53) q
      = Ideal.div (rowAt1 (W main_v51) q) nodesN := by
  rw [var1_fun_after]
  rfl

theorem inv1_fun_after : StableHlo.after (hostOps3 (F := Ideal)) W main_v56
    = Host.rsqrt (addf (Host.divf (W main_v51 : FVec Ideal S1x32 .f32)
          (broadcastInDim S1x32 ![] bcast_S_S1x32 (constant (F := Ideal) S_ .f32 0x47435000#32)))
        (broadcastInDim S1x32 ![] bcast_S_S1x32 (constant (F := Ideal) S_ .f32 0x3727C5AC#32))) := by
  dsimp only [hostOps3]
  after_results
theorem inv1_after (q : Fin 32) :
    rowAt1 (StableHlo.after (hostOps3 (F := Ideal)) W main_v56) q
      = Ideal.rsqrt (rowAt1 (StableHlo.after (hostOps3 (F := Ideal)) W main_v53) q + epsBN) := by
  rw [inv1_fun_after, var1_fun_after]
  rfl

theorem scale1_fun_after : StableHlo.after (hostOps3 (F := Ideal)) W main_v57
    = shapeCast S1x32 (W main_arg7 : S32.Idx → EReal) shapeCasts_S32_S1x32 := by
  dsimp only [hostOps3]
  after_results
  rfl
theorem scale1_after (q : Fin 32) :
    rowAt1 (StableHlo.after (hostOps3 (F := Ideal)) W main_v57) q
      = (W main_arg7 : S32.Idx → EReal) (ix1 q) := by
  rw [scale1_fun_after]
  exact shapeCast_apply _ _ (ix2 (0 : Fin 1) q) (ix1 q) (by
    rw [Shape.rowMajor_val_two, Shape.rowMajor_val_one]; show q.val = 0 * 32 + q.val; omega)
theorem shift1_fun_after : StableHlo.after (hostOps3 (F := Ideal)) W main_v58
    = shapeCast S1x32 (W main_arg8 : S32.Idx → EReal) shapeCasts_S32_S1x32 := by
  dsimp only [hostOps3]
  after_results
  rfl
theorem shift1_after (q : Fin 32) :
    rowAt1 (StableHlo.after (hostOps3 (F := Ideal)) W main_v58) q
      = (W main_arg8 : S32.Idx → EReal) (ix1 q) := by
  rw [shift1_fun_after]
  exact shapeCast_apply _ _ (ix2 (0 : Fin 1) q) (ix1 q) (by
    rw [Shape.rowMajor_val_two, Shape.rowMajor_val_one]; show q.val = 0 * 32 + q.val; omega)

end Stretch

section Chain

variable (m : (ℓ : Loc nD τ sig) → Buf (Elt Ideal) ℓ)

theorem hagg1 (c : Dev nD) :
    Y5 m c main_v46 = kAgg1 (Y4 m c main_v32) (Y4 m c main_v3) (Y4 m c main_v6) (Y4 m c main_v31) :=
  agg1_after (Y4 m c)
theorem hb2_1 (c : Dev nD) (q : Fin 32) :
    rowAt1 (Y5 m c main_v47) q = (Y4 m c main_arg6 : S32.Idx → EReal) (ix1 q) :=
  bias1_after (Y4 m c) q
theorem hmean1 (c : Dev nD) (q : Fin 32) :
    rowAt1 (Y7 m c main_v50) q = Ideal.div (rowAt1 (Y6 m c main_v48_1) q) nodesN :=
  mean1_after (Y6 m c) q
theorem hvar1 (c : Dev nD) (q : Fin 32) :
    rowAt1 (Y9 m c main_v53) q = Ideal.div (rowAt1 (Y8 m c main_v51) q) nodesN :=
  var1_after (Y8 m c) q
theorem hinv1 (c : Dev nD) (q : Fin 32) :
    rowAt1 (Y9 m c main_v56) q = Ideal.rsqrt (rowAt1 (Y9 m c main_v53) q + epsBN) :=
  inv1_after (Y8 m c) q
theorem hg2_1 (c : Dev nD) (q : Fin 32) :
    rowAt1 (Y9 m c main_v57) q = (Y8 m c main_arg7 : S32.Idx → EReal) (ix1 q) :=
  scale1_after (Y8 m c) q
theorem hbe2_1 (c : Dev nD) (q : Fin 32) :
    rowAt1 (Y9 m c main_v58) q = (Y8 m c main_arg8 : S32.Idx → EReal) (ix1 q) :=
  shift1_after (Y8 m c) q

end Chain

end Cert.Val
-- ==== Proof.Val.KHostTail.lean ====
import proofs.«411449_j51797305589934_2_alg».proof.Proof.KI.Chain
import proofs.«411449_j51797305589934_2_alg».proof.Proof.KI.Keep
import Idealize.ShloMosaic.Lib.StableHlo.Run
import Idealize.ShloMosaic.Lib.KernelVsHost
import Idealize.ShloMosaic.Lib.ValueIdx
import Idealize.ShloMosaic.Lib.Pipeline.Value
import Idealize.ShloMosaic.PureOps.Ideal.Laws

noncomputable section

namespace Cert.Val

open Idealize.ShloMosaic Idealize.ShloMosaic.TcCoe Idealize.SL.Sem Idealize.ShloMosaic.ValueIdx Idealize.ShloMosaic.StableHlo
open Cert.KernelIdeal Cert.KernelIdeal.Gen

section Stretches
variable (W : Valuation τ sig (Elt Ideal))

theorem tail20_v172 :
    StableHlo.after hostOps20_4 (StableHlo.after hostOps20_3 (StableHlo.after hostOps20_2 (StableHlo.after hostOps20_1 (StableHlo.after hostOps20 W)))) main_v172
      = pad S50048x256 ![0, 0] ![48, 0] ![0, 0] (W main_v171) (sitofp (F := Ideal) .f32 (constantI S_ 32 0#32)) pads_S50000x256_S50048x256_0480_000 h_S_ := by
  after_results
  (try simp only [TRef.ofBuf, TRef.toBuf, cast_eq]) <;> rfl

theorem tail20_v174 :
    StableHlo.after hostOps20_4 (StableHlo.after hostOps20_3 (StableHlo.after hostOps20_2 (StableHlo.after hostOps20_1 (StableHlo.after hostOps20 W)))) main_v174
      = shapeCast S1x50048 (pad S50048 ![0] ![48] ![0] (W main_arg3) (constantI S_ 32 512#32) pads_S50000_S50048_0480 h_S_) shapeCasts_S50048_S1x50048 := by
  after_results
  (try simp only [TRef.ofBuf, TRef.toBuf, cast_eq]) <;> rfl

theorem tail21_v176 : StableHlo.after hostOps21 W main_v176 = shapeCast S1x128 (W main_arg26) shapeCasts_S128_S1x128 := by
  after_results; rfl
theorem tail21_v177 : StableHlo.after hostOps21 W main_v177 = shapeCast S1x1 (W main_arg28) shapeCasts_S1_S1x1 := by
  after_results; rfl
theorem tail21_arg25 : StableHlo.after hostOps21 W main_arg25 = W main_arg25 := by after_results
theorem tail21_arg27 : StableHlo.after hostOps21 W main_arg27 = W main_arg27 := by after_results

theorem tail22_v179 : StableHlo.after hostOps22 W main_v179 = shapeCast S512 (W main_v178) shapeCasts_S512x1_S512 := by
  after_results; rfl

end Stretches

theorem pad_rows_apply (X : S50000x256.Idx → EReal) (k : Fin 50048) (f : Fin 256) :
    pad S50048x256 ![0, 0] ![48, 0] ![0, 0] X (sitofp (F := Ideal) .f32 (constantI S_ 32 0#32)) pads_S50000x256_S50048x256_0480_000 h_S_ (ix2 k f)
      = if h : k.val < 50000 then X (ix2 ⟨k.val, h⟩ f) else 0 := by
  by_cases h : k.val < 50000
  · rw [dif_pos h]
    exact pad_apply_of_inside _ _ _ X _ pads_S50000x256_S50048x256_0480_000 h_S_ (ix2 k f) (ix2 ⟨k.val, h⟩ f) (fun a => by
      match a with
      | ⟨0, _⟩ => show k.val = 0 + k.val * (0 + 1); omega
      | ⟨1, _⟩ => show f.val = 0 + f.val * (0 + 1); omega)
  · rw [dif_neg h, pad_apply_of_not_inside _ _ _ X _ pads_S50000x256_S50048x256_0480_000 h_S_ (ix2 k f) (0 : Fin 2) (by
      show ¬((0 : ℕ) ≤ k.val ∧ (k.val - 0) % (0 + 1) = 0 ∧ (k.val - 0) / (0 + 1) < 50000); omega)]
    show ((((0#32 : BitVec 32).toInt : ℤ) : ℝ) : EReal) = 0
    simp

theorem pad_ids_apply (X : S50000.Idx → BitVec 32) (k : Fin 50048) :
    shapeCast S1x50048 (pad S50048 ![0] ![48] ![0] X (constantI S_ 32 512#32) pads_S50000_S50048_0480 h_S_) shapeCasts_S50048_S1x50048 (ix2 0 k)
      = if h : k.val < 50000 then X (ix1 ⟨k.val, h⟩) else 512#32 := by
  rw [shapeCast_apply _ shapeCasts_S50048_S1x50048 (ix2 0 k) (ix1 k) (by
    rw [Shape.rowMajor_val_one, Shape.rowMajor_val_two]; show k.val = 0 * 50048 + k.val; omega)]
  by_cases h : k.val < 50000
  · rw [dif_pos h]
    exact pad_apply_of_inside _ _ _ X _ pads_S50000_S50048_0480 h_S_ (ix1 k) (ix1 ⟨k.val, h⟩) (fun a => by
      match a with
      | ⟨0, _⟩ => show k.val = 0 + k.val * (0 + 1); omega)
  · rw [dif_neg h, pad_apply_of_not_inside _ _ _ X _ pads_S50000_S50048_0480 h_S_ (ix1 k) (0 : Fin 1) (by
      show ¬((0 : ℕ) ≤ k.val ∧ (k.val - 0) % (0 + 1) = 0 ∧ (k.val - 0) / (0 + 1) < 50000); omega)]
    rfl

theorem row128_apply {α : Type} (X : S128.Idx → α) (j : Fin 128) :
    shapeCast S1x128 X shapeCasts_S128_S1x128 (ix2 0 j) = X (ix1 j) :=
  shapeCast_apply _ shapeCasts_S128_S1x128 (ix2 0 j) (ix1 j) (by
    rw [Shape.rowMajor_val_one, Shape.rowMajor_val_two]; show j.val = 0 * 128 + j.val; omega)
theorem row1_apply {α : Type} (X : S1.Idx → α) :
    shapeCast S1x1 X shapeCasts_S1_S1x1 (ix2 0 0) = X (ix1 0) :=
  shapeCast_apply _ shapeCasts_S1_S1x1 (ix2 0 0) (ix1 0) (by
    rw [Shape.rowMajor_val_one, Shape.rowMajor_val_two]; rfl)

theorem col512_apply {α : Type} (X : S512x1.Idx → α) (g : Fin 512) :
    shapeCast S512 X shapeCasts_S512x1_S512 (ix1 g) = X (ix2 g 0) :=
  shapeCast_apply _ shapeCasts_S512x1_S512 (ix1 g) (ix2 g 0) (by
    rw [Shape.rowMajor_val_one, Shape.rowMajor_val_two]; show g.val * 1 + 0 = g.val; omega)

section Chain
open Cert.KernelIdeal.Reg
variable (m : (ℓ : Loc nD τ sig) → Buf (Elt Ideal) ℓ)

theorem tail_Y38_arg3 (c : Dev nD) : Y38 m c main_arg3 = m (c, main_arg3) :=
  (Y38_keep m c main_arg3 (by decide)).trans ((Y37_keep m c main_arg3 (by decide)).trans ((Y36_keep m c main_arg3 (by decide)).trans ((Y35_keep m c main_arg3 (by decide)).trans ((Y34_keep m c main_arg3 (by decide)).trans ((Y33_keep m c main_arg3 (by decide)).trans ((Y32_keep m c main_arg3 (by decide)).trans ((Y31_keep m c main_arg3 (by decide)).trans ((Y30_keep m c main_arg3 (by decide)).trans ((Y29_keep m c main_arg3 (by decide)).trans ((Y28_keep m c main_arg3 (by decide)).trans ((Y27_keep m c main_arg3 (by decide)).trans ((Y26_keep m c main_arg3 (by decide)).trans ((Y25_keep m c main_arg3 (by decide)).trans ((Y24_keep m c main_arg3 (by decide)).trans ((Y23_keep m c main_arg3 (by decide)).trans ((Y22_keep m c main_arg3 (by decide)).trans ((Y21_keep m c main_arg3 (by decide)).trans ((Y20_keep m c main_arg3 (by decide)).trans ((Y19_keep m c main_arg3 (by decide)).trans ((Y18_keep m c main_arg3 (by decide)).trans ((Y17_keep m c main_arg3 (by decide)).trans ((Y16_keep m c main_arg3 (by decide)).trans ((Y15_keep m c main_arg3 (by decide)).trans ((Y14_keep m c main_arg3 (by decide)).trans ((Y13_keep m c main_arg3 (by decide)).trans ((Y12_keep m c main_arg3 (by decide)).trans ((Y11_keep m c main_arg3 (by decide)).trans ((Y10_keep m c main_arg3 (by decide)).trans ((Y9_keep m c main_arg3 (by decide)).trans ((Y8_keep m c main_arg3 (by decide)).trans ((Y7_keep m c main_arg3 (by decide)).trans ((Y6_keep m c main_arg3 (by decide)).trans ((Y5_keep m c main_arg3 (by decide)).trans ((Y4_keep m c main_arg3 (by decide)).trans ((Y3_keep m c main_arg3 (by decide)).trans ((Y2_keep m c main_arg3 (by decide)).trans (Y1_keep m c main_arg3 (by decide))))))))))))))))))))))))))))))))))))))

theorem tail_Y44_arg26 (c : Dev nD) : Y44 m c main_arg26 = m (c, main_arg26) :=
  (Y44_keep m c main_arg26 (by decide)).trans ((Y43_keep m c main_arg26 (by decide)).trans ((Y42_keep m c main_arg26 (by decide)).trans ((Y41_keep m c main_arg26 (by decide)).trans ((Y40_keep m c main_arg26 (by decide)).trans ((Y39_keep m c main_arg26 (by decide)).trans ((Y38_keep m c main_arg26 (by decide)).trans ((Y37_keep m c main_arg26 (by decide)).trans ((Y36_keep m c main_arg26 (by decide)).trans ((Y35_keep m c main_arg26 (by decide)).trans ((Y34_keep m c main_arg26 (by decide)).trans ((Y33_keep m c main_arg26 (by decide)).trans ((Y32_keep m c main_arg26 (by decide)).trans ((Y31_keep m c main_arg26 (by decide)).trans ((Y30_keep m c main_arg26 (by decide)).trans ((Y29_keep m c main_arg26 (by decide)).trans ((Y28_keep m c main_arg26 (by decide)).trans ((Y27_keep m c main_arg26 (by decide)).trans ((Y26_keep m c main_arg26 (by decide)).trans ((Y25_keep m c main_arg26 (by decide)).trans ((Y24_keep m c main_arg26 (by decide)).trans ((Y23_keep m c main_arg26 (by decide)).trans ((Y22_keep m c main_arg26 (by decide)).trans ((Y21_keep m c main_arg26 (by decide)).trans ((Y20_keep m c main_arg26 (by decide)).trans ((Y19_keep m c main_arg26 (by decide)).trans ((Y18_keep m c main_arg26 (by decide)).trans ((Y17_keep m c main_arg26 (by decide)).trans ((Y16_keep m c main_arg26 (by decide)).trans ((Y15_keep m c main_arg26 (by decide)).trans ((Y14_keep m c main_arg26 (by decide)).trans ((Y13_keep m c main_arg26 (by decide)).trans ((Y12_keep m c main_arg26 (by decide)).trans ((Y11_keep m c main_arg26 (by decide)).trans ((Y10_keep m c main_arg26 (by decide)).trans ((Y9_keep m c main_arg26 (by decide)).trans ((Y8_keep m c main_arg26 (by decide)).trans ((Y7_keep m c main_arg26 (by decide)).trans ((Y6_keep m c main_arg26 (by decide)).trans ((Y5_keep m c main_arg26 (by decide)).trans ((Y4_keep m c main_arg26 (by decide)).trans ((Y3_keep m c main_arg26 (by decide)).trans ((Y2_keep m c main_arg26 (by decide)).trans (Y1_keep m c main_arg26 (by decide))))))))))))))))))))))))))))))))))))))))))))

theorem tail_Y44_arg28 (c : Dev nD) : Y44 m c main_arg28 = m (c, main_arg28) :=
  (Y44_keep m c main_arg28 (by decide)).trans ((Y43_keep m c main_arg28 (by decide)).trans ((Y42_keep m c main_arg28 (by decide)).trans ((Y41_keep m c main_arg28 (by decide)).trans ((Y40_keep m c main_arg28 (by decide)).trans ((Y39_keep m c main_arg28 (by decide)).trans ((Y38_keep m c main_arg28 (by decide)).trans ((Y37_keep m c main_arg28 (by decide)).trans ((Y36_keep m c main_arg28 (by decide)).trans ((Y35_keep m c main_arg28 (by decide)).trans ((Y34_keep m c main_arg28 (by decide)).trans ((Y33_keep m c main_arg28 (by decide)).trans ((Y32_keep m c main_arg28 (by decide)).trans ((Y31_keep m c main_arg28 (by decide)).trans ((Y30_keep m c main_arg28 (by decide)).trans ((Y29_keep m c main_arg28 (by decide)).trans ((Y28_keep m c main_arg28 (by decide)).trans ((Y27_keep m c main_arg28 (by decide)).trans ((Y26_keep m c main_arg28 (by decide)).trans ((Y25_keep m c main_arg28 (by decide)).trans ((Y24_keep m c main_arg28 (by decide)).trans ((Y23_keep m c main_arg28 (by decide)).trans ((Y22_keep m c main_arg28 (by decide)).trans ((Y21_keep m c main_arg28 (by decide)).trans ((Y20_keep m c main_arg28 (by decide)).trans ((Y19_keep m c main_arg28 (by decide)).trans ((Y18_keep m c main_arg28 (by decide)).trans ((Y17_keep m c main_arg28 (by decide)).trans ((Y16_keep m c main_arg28 (by decide)).trans ((Y15_keep m c main_arg28 (by decide)).trans ((Y14_keep m c main_arg28 (by decide)).trans ((Y13_keep m c main_arg28 (by decide)).trans ((Y12_keep m c main_arg28 (by decide)).trans ((Y11_keep m c main_arg28 (by decide)).trans ((Y10_keep m c main_arg28 (by decide)).trans ((Y9_keep m c main_arg28 (by decide)).trans ((Y8_keep m c main_arg28 (by decide)).trans ((Y7_keep m c main_arg28 (by decide)).trans ((Y6_keep m c main_arg28 (by decide)).trans ((Y5_keep m c main_arg28 (by decide)).trans ((Y4_keep m c main_arg28 (by decide)).trans ((Y3_keep m c main_arg28 (by decide)).trans ((Y2_keep m c main_arg28 (by decide)).trans (Y1_keep m c main_arg28 (by decide))))))))))))))))))))))))))))))))))))))))))))

theorem tail_Y44_arg25 (c : Dev nD) : Y44 m c main_arg25 = m (c, main_arg25) :=
  (Y44_keep m c main_arg25 (by decide)).trans ((Y43_keep m c main_arg25 (by decide)).trans ((Y42_keep m c main_arg25 (by decide)).trans ((Y41_keep m c main_arg25 (by decide)).trans ((Y40_keep m c main_arg25 (by decide)).trans ((Y39_keep m c main_arg25 (by decide)).trans ((Y38_keep m c main_arg25 (by decide)).trans ((Y37_keep m c main_arg25 (by decide)).trans ((Y36_keep m c main_arg25 (by decide)).trans ((Y35_keep m c main_arg25 (by decide)).trans ((Y34_keep m c main_arg25 (by decide)).trans ((Y33_keep m c main_arg25 (by decide)).trans ((Y32_keep m c main_arg25 (by decide)).trans ((Y31_keep m c main_arg25 (by decide)).trans ((Y30_keep m c main_arg25 (by decide)).trans ((Y29_keep m c main_arg25 (by decide)).trans ((Y28_keep m c main_arg25 (by decide)).trans ((Y27_keep m c main_arg25 (by decide)).trans ((Y26_keep m c main_arg25 (by decide)).trans ((Y25_keep m c main_arg25 (by decide)).trans ((Y24_keep m c main_arg25 (by decide)).trans ((Y23_keep m c main_arg25 (by decide)).trans ((Y22_keep m c main_arg25 (by decide)).trans ((Y21_keep m c main_arg25 (by decide)).trans ((Y20_keep m c main_arg25 (by decide)).trans ((Y19_keep m c main_arg25 (by decide)).trans ((Y18_keep m c main_arg25 (by decide)).trans ((Y17_keep m c main_arg25 (by decide)).trans ((Y16_keep m c main_arg25 (by decide)).trans ((Y15_keep m c main_arg25 (by decide)).trans ((Y14_keep m c main_arg25 (by decide)).trans ((Y13_keep m c main_arg25 (by decide)).trans ((Y12_keep m c main_arg25 (by decide)).trans ((Y11_keep m c main_arg25 (by decide)).trans ((Y10_keep m c main_arg25 (by decide)).trans ((Y9_keep m c main_arg25 (by decide)).trans ((Y8_keep m c main_arg25 (by decide)).trans ((Y7_keep m c main_arg25 (by decide)).trans ((Y6_keep m c main_arg25 (by decide)).trans ((Y5_keep m c main_arg25 (by decide)).trans ((Y4_keep m c main_arg25 (by decide)).trans ((Y3_keep m c main_arg25 (by decide)).trans ((Y2_keep m c main_arg25 (by decide)).trans (Y1_keep m c main_arg25 (by decide))))))))))))))))))))))))))))))))))))))))))))

theorem tail_Y44_arg27 (c : Dev nD) : Y44 m c main_arg27 = m (c, main_arg27) :=
  (Y44_keep m c main_arg27 (by decide)).trans ((Y43_keep m c main_arg27 (by decide)).trans ((Y42_keep m c main_arg27 (by decide)).trans ((Y41_keep m c main_arg27 (by decide)).trans ((Y40_keep m c main_arg27 (by decide)).trans ((Y39_keep m c main_arg27 (by decide)).trans ((Y38_keep m c main_arg27 (by decide)).trans ((Y37_keep m c main_arg27 (by decide)).trans ((Y36_keep m c main_arg27 (by decide)).trans ((Y35_keep m c main_arg27 (by decide)).trans ((Y34_keep m c main_arg27 (by decide)).trans ((Y33_keep m c main_arg27 (by decide)).trans ((Y32_keep m c main_arg27 (by decide)).trans ((Y31_keep m c main_arg27 (by decide)).trans ((Y30_keep m c main_arg27 (by decide)).trans ((Y29_keep m c main_arg27 (by decide)).trans ((Y28_keep m c main_arg27 (by decide)).trans ((Y27_keep m c main_arg27 (by decide)).trans ((Y26_keep m c main_arg27 (by decide)).trans ((Y25_keep m c main_arg27 (by decide)).trans ((Y24_keep m c main_arg27 (by decide)).trans ((Y23_keep m c main_arg27 (by decide)).trans ((Y22_keep m c main_arg27 (by decide)).trans ((Y21_keep m c main_arg27 (by decide)).trans ((Y20_keep m c main_arg27 (by decide)).trans ((Y19_keep m c main_arg27 (by decide)).trans ((Y18_keep m c main_arg27 (by decide)).trans ((Y17_keep m c main_arg27 (by decide)).trans ((Y16_keep m c main_arg27 (by decide)).trans ((Y15_keep m c main_arg27 (by decide)).trans ((Y14_keep m c main_arg27 (by decide)).trans ((Y13_keep m c main_arg27 (by decide)).trans ((Y12_keep m c main_arg27 (by decide)).trans ((Y11_keep m c main_arg27 (by decide)).trans ((Y10_keep m c main_arg27 (by decide)).trans ((Y9_keep m c main_arg27 (by decide)).trans ((Y8_keep m c main_arg27 (by decide)).trans ((Y7_keep m c main_arg27 (by decide)).trans ((Y6_keep m c main_arg27 (by decide)).trans ((Y5_keep m c main_arg27 (by decide)).trans ((Y4_keep m c main_arg27 (by decide)).trans ((Y3_keep m c main_arg27 (by decide)).trans ((Y2_keep m c main_arg27 (by decide)).trans (Y1_keep m c main_arg27 (by decide))))))))))))))))))))))))))))))))))))))))))))

abbrev tl_h5 (c : Dev nD) : S50000x256.Idx → EReal := Y38 m c main_v171
abbrev tl_batch (c : Dev nD) : S50000.Idx → BitVec 32 := m (c, main_arg3)
abbrev tl_v172 (c : Dev nD) : S50048x256.Idx → EReal := Y43 m c main_v172
abbrev tl_v174 (c : Dev nD) : S1x50048.Idx → BitVec 32 := Y43 m c main_v174
abbrev tl_v176 (c : Dev nD) : S1x128.Idx → EReal := Y45 m c main_v176
abbrev tl_v177 (c : Dev nD) : S1x1.Idx → EReal := Y45 m c main_v177
abbrev tl_b1 (c : Dev nD) : S128.Idx → EReal := m (c, main_arg26)
abbrev tl_b2 (c : Dev nD) : S1.Idx → EReal := m (c, main_arg28)
abbrev tl_v178 (c : Dev nD) : S512x1.Idx → EReal := Y46 m c main_v178
abbrev tl_v179 (c : Dev nD) : S512.Idx → EReal := Y47 m c main_v179

theorem hpad (c : Dev nD) (k : Fin 50048) (f : Fin 256) :
    tl_v172 m c (ix2 k f) = if h : k.val < 50000 then tl_h5 m c (ix2 ⟨k.val, h⟩ f) else 0 := by
  have e : tl_v172 m c
      = pad S50048x256 ![0, 0] ![48, 0] ![0, 0] (Y38 m c main_v171) (sitofp (F := Ideal) .f32 (constantI S_ 32 0#32)) pads_S50000x256_S50048x256_0480_000 h_S_ :=
    tail20_v172 (Y38 m c)
  rw [e]
  exact pad_rows_apply _ k f

theorem bpad (c : Dev nD) (k : Fin 50048) :
    tl_v174 m c (ix2 0 k) = if h : k.val < 50000 then tl_batch m c (ix1 ⟨k.val, h⟩) else 512#32 := by
  have e : tl_v174 m c
      = shapeCast S1x50048 (pad S50048 ![0] ![48] ![0] (Y38 m c main_arg3) (constantI S_ 32 512#32) pads_S50000_S50048_0480 h_S_) shapeCasts_S50048_S1x50048 :=
    tail20_v174 (Y38 m c)
  rw [e, tail_Y38_arg3 m c]
  exact pad_ids_apply _ k

theorem hb1 (c : Dev nD) (j : Fin 128) :
    tl_v176 m c (ix2 0 j) = tl_b1 m c (ix1 j) := by
  have e : tl_v176 m c = shapeCast S1x128 (Y44 m c main_arg26) shapeCasts_S128_S1x128 := tail21_v176 (Y44 m c)
  rw [e, tail_Y44_arg26 m c]
  exact row128_apply _ j

theorem hb2 (c : Dev nD) :
    tl_v177 m c (ix2 0 0) = tl_b2 m c (ix1 0) := by
  have e : tl_v177 m c = shapeCast S1x1 (Y44 m c main_arg28) shapeCasts_S1_S1x1 := tail21_v177 (Y44 m c)
  rw [e, tail_Y44_arg28 m c]
  exact row1_apply _

theorem hw1 (c : Dev nD) : Y45 m c main_arg25 = m (c, main_arg25) := (tail21_arg25 (Y44 m c)).trans (tail_Y44_arg25 m c)
theorem hw2 (c : Dev nD) : Y45 m c main_arg27 = m (c, main_arg27) := (tail21_arg27 (Y44 m c)).trans (tail_Y44_arg27 m c)

theorem hres (c : Dev nD) (g : Fin 512) :
    tl_v179 m c (ix1 g) = tl_v178 m c (ix2 g 0) := by
  have e : tl_v179 m c = shapeCast S512 (Y46 m c main_v178) shapeCasts_S512x1_S512 := tail22_v179 (Y46 m c)
  rw [e]
  exact col512_apply _ g

end Chain

end Cert.Val

end
-- ==== Proof.Val.PoolSpec.lean ====
import Mathlib.Data.EReal.Inv
import Mathlib.Algebra.BigOperators.Group.Finset.Basic

noncomputable section

namespace Cert.Val

open BigOperators

def poolAcc (oh : Fin 512 → ℕ → EReal) (hp : ℕ → Fin 256 → EReal) : ℕ → Fin 512 → Fin 256 → EReal
  | 0, _, _ => 0
  | n + 1, g, f =>
    (poolAcc oh hp n g f + ∑ k : Fin 2944, oh g (2944 * n + k.val) * hp (2944 * n + k.val) f)
      + ∑ k : Fin 2944, oh g (2944 * n + k.val) * (hp (2944 * n + k.val) f - hp (2944 * n + k.val) f)

end Cert.Val

end
-- ==== Proof.Val.Pool20Pay.lean ====
import proofs.«411449_j51797305589934_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.Val

open Idealize.ShloMosaic Idealize.ShloMosaic.ValueIdx
open Cert.KernelIdeal Cert.KernelIdeal.Gen
open scoped BigOperators

def HP20 (hp : S50048x256.Idx → EReal) : ℕ → Fin 256 → EReal :=
  fun k f => if h : k < 50048 then hp (ix2 ⟨k, h⟩ f) else 0

def OH20 (bp : S1x50048.Idx → BitVec 32) : Fin 512 → ℕ → EReal :=
  fun g k => if h : k < 50048 then (if BitVec.ofNat 32 g.val = bp (ix2 0 ⟨k, h⟩) then 1 else 0) else 0

theorem lhs20_0 (j : S512x256.Idx) (k : dot_S512x2944_S2944x256_S512x256_1_0_0_1_n_n.contr.Idx) : (dot_S512x2944_S2944x256_S512x256_1_0_0_1_n_n.lhsIdx j k 0 : ℕ) = j 0 := by
  simp [DotDims.lhsIdx, dot_S512x2944_S2944x256_S512x256_1_0_0_1_n_n]; rfl
theorem lhs20_1 (j : S512x256.Idx) (k : dot_S512x2944_S2944x256_S512x256_1_0_0_1_n_n.contr.Idx) : (dot_S512x2944_S2944x256_S512x256_1_0_0_1_n_n.lhsIdx j k 1 : ℕ) = k ⟨0, by decide⟩ := by
  simp [DotDims.lhsIdx, dot_S512x2944_S2944x256_S512x256_1_0_0_1_n_n]; rfl
theorem rhs20_0 (j : S512x256.Idx) (k : dot_S512x2944_S2944x256_S512x256_1_0_0_1_n_n.contr.Idx) : (dot_S512x2944_S2944x256_S512x256_1_0_0_1_n_n.rhsIdx j k 0 : ℕ) = k ⟨0, by decide⟩ := by
  simp [DotDims.rhsIdx, dot_S512x2944_S2944x256_S512x256_1_0_0_1_n_n]; rfl
theorem rhs20_1 (j : S512x256.Idx) (k : dot_S512x2944_S2944x256_S512x256_1_0_0_1_n_n.contr.Idx) : (dot_S512x2944_S2944x256_S512x256_1_0_0_1_n_n.rhsIdx j k 1 : ℕ) = j 1 := by
  simp [DotDims.rhsIdx, dot_S512x2944_S2944x256_S512x256_1_0_0_1_n_n]; rfl

theorem matmul20_apply (A : FVec Ideal S512x2944 .bf16) (B : FVec Ideal S2944x256 .bf16) (g : Fin 512) (f : Fin 256) :
    matmul dot_S512x2944_S2944x256_S512x256_1_0_0_1_n_n none A B (constant S512x256 .f32 0x00000000#32) (ix2 g f)
      = ∑ k : Fin 2944, A (ix2 g k) * B (ix2 k f) := by
  simp only [matmul]
  rw [Ideal.matmul_constant_zero_apply, ← Equiv.sum_comp (contrEquiv1 dot_S512x2944_S2944x256_S512x256_1_0_0_1_n_n 2944 rfl rfl).symm]
  refine Finset.sum_congr rfl fun k _ => ?_
  have eL : dot_S512x2944_S2944x256_S512x256_1_0_0_1_n_n.lhsIdx (ix2 g f) ((contrEquiv1 dot_S512x2944_S2944x256_S512x256_1_0_0_1_n_n 2944 rfl rfl).symm k) = ix2 g k :=
    Shape.idx_ext₂ (lhs20_0 _ _) ((lhs20_1 _ _).trans (contrEquiv1_symm_val dot_S512x2944_S2944x256_S512x256_1_0_0_1_n_n 2944 rfl rfl k))
  have eR : dot_S512x2944_S2944x256_S512x256_1_0_0_1_n_n.rhsIdx (ix2 g f) ((contrEquiv1 dot_S512x2944_S2944x256_S512x256_1_0_0_1_n_n 2944 rfl rfl).symm k) = ix2 k f :=
    Shape.idx_ext₂ ((rhs20_0 _ _).trans (contrEquiv1_symm_val dot_S512x2944_S2944x256_S512x256_1_0_0_1_n_n 2944 rfl rfl k)) (rhs20_1 _ _)
  rw [eL, eR]

theorem pay1_apply (g : Fin 512) (f : Fin 256) : k20_pay1 (F := Ideal) (ix2 g f) = 0 := by
  have e : k20_pay1 (F := Ideal) = broadcast S512x256 (Scalar.ofBits .f32 0x00000000#32) := shapeCast_self _ _
  rw [e]
  exact Ideal.ofBits_zero_f32

theorem pay2_apply (v4 : Vec Ideal S1x2944 .i32) (g : Fin 512) (k : Fin 2944) :
    k20_pay2 (F := Ideal) v4 (ix2 g k) = if BitVec.ofNat 32 g.val = v4 (ix2 0 k) then 1 else 0 := by
  show FloatOps.sitofp (F := Ideal) .f32
      ((IntOp.cmpi .eq (iota .tc S512x2944 32 [0] iota_S512x2944_d0_w32 (ix2 g k))
        (broadcastTo S512x2944 (shapeCast S1x2944 v4 shapeCasts_S1x2944_S1x2944) broadcasts_S1x2944_S512x2944 (ix2 g k))).setWidth 32) = _
  rw [iota_single_apply, shapeCast_self,
    broadcastTo_apply v4 broadcasts_S1x2944_S512x2944 (ix2 g k) (ix2 0 k) (fun a => by match a with | ⟨0, _⟩ => rfl | ⟨1, _⟩ => rfl)]
  show ((((((IntOp.cmpi .eq (BitVec.ofNat 32 g.val) (v4 (ix2 0 k))).setWidth 32).toInt : ℤ) : ℝ) : EReal)) = _
  by_cases h : BitVec.ofNat 32 g.val = v4 (ix2 0 k)
  · rw [if_pos h, show IntOp.cmpi .eq (BitVec.ofNat 32 g.val) (v4 (ix2 0 k)) = 1#1 from by simp [IntOp.cmpi, h],
      show ((1#1 : BitVec 1).setWidth 32).toInt = 1 from by decide]
    norm_num
  · rw [if_neg h, show IntOp.cmpi .eq (BitVec.ofNat 32 g.val) (v4 (ix2 0 k)) = 0#1 from by
        show BitVec.ofBool (BitVec.ofNat 32 g.val == v4 (ix2 0 k)) = 0#1
        rw [beq_eq_false_iff_ne.mpr h]; rfl,
      show ((0#1 : BitVec 1).setWidth 32).toInt = 0 from by decide]
    norm_num

theorem pay3_eq {F : FTy → Type} [FloatOps F] (v11 : Vec F S2944x256 .f32) : k20_pay3 (F := F) v11 = v11 := shapeCast_self _ _

theorem pool_pay4_apply (v4 : Vec Ideal S1x2944 .i32) (v11 : Vec Ideal S2944x256 .f32) (v17 : Vec Ideal S512x256 .f32)
    (g : Fin 512) (f : Fin 256) :
    k20_pay4 (F := Ideal) v4 v11 v17 (ix2 g f)
      = v17 (ix2 g f) + ∑ k : Fin 2944, k20_pay2 (F := Ideal) v4 (ix2 g k) * v11 (ix2 k f) := by
  have e : k20_pay4 (F := Ideal) v4 v11 v17
      = addf v17 (matmul dot_S512x2944_S2944x256_S512x256_1_0_0_1_n_n none (k20_pay2 (F := Ideal) v4)
          (truncf .bf16 (k20_pay3 (F := Ideal) v11) bitsLt_bf16_f32) (constant S512x256 .f32 0x00000000#32)) := shapeCast_self _ _
  rw [e, pay3_eq]
  show v17 (ix2 g f) + matmul dot_S512x2944_S2944x256_S512x256_1_0_0_1_n_n none (k20_pay2 (F := Ideal) v4) (truncf .bf16 v11 bitsLt_bf16_f32) (constant S512x256 .f32 0x00000000#32) (ix2 g f) = _
  rw [matmul20_apply]
  rfl

theorem pay5_apply (v4 : Vec Ideal S1x2944 .i32) (v11 : Vec Ideal S2944x256 .f32) (v23 : Vec Ideal S512x256 .f32)
    (g : Fin 512) (f : Fin 256) :
    k20_pay5 (F := Ideal) v4 v11 v23 (ix2 g f)
      = v23 (ix2 g f) + ∑ k : Fin 2944, k20_pay2 (F := Ideal) v4 (ix2 g k) * (v11 (ix2 k f) - v11 (ix2 k f)) := by
  have e : k20_pay5 (F := Ideal) v4 v11 v23
      = addf v23 (matmul dot_S512x2944_S2944x256_S512x256_1_0_0_1_n_n none (k20_pay2 (F := Ideal) v4)
          (truncf .bf16 (subf (k20_pay3 (F := Ideal) v11) (k20_pay3 (F := Ideal) v11)) bitsLt_bf16_f32) (constant S512x256 .f32 0x00000000#32)) := shapeCast_self _ _
  rw [e, pay3_eq]
  show v23 (ix2 g f) + matmul dot_S512x2944_S2944x256_S512x256_1_0_0_1_n_n none (k20_pay2 (F := Ideal) v4) (truncf .bf16 (subf v11 v11) bitsLt_bf16_f32) (constant S512x256 .f32 0x00000000#32) (ix2 g f) = _
  rw [matmul20_apply]
  rfl

theorem pay6_apply (v32 : Vec Ideal S512x256 .f32) (g : Fin 512) (f : Fin 256) :
    k20_pay6 (F := Ideal) v32 (ix2 g f) = max (v32 (ix2 g f)) 0 := by
  show max (v32 (ix2 g f)) (Ideal.ofBits .f32 0x00000000#32) = _
  rw [Ideal.ofBits_zero_f32]

end Cert.Val

end
-- ==== Proof.Val.Pool20.lean ====
import proofs.«411449_j51797305589934_2_alg».proof.Proof.KI.R20
import proofs.«411449_j51797305589934_2_alg».proof.Proof.Val.PoolSpec
import proofs.«411449_j51797305589934_2_alg».proof.Proof.Val.Pool20Pay
import Idealize.ShloMosaic.Lib.ValueIdx
import Idealize.ShloMosaic.Lib.Pipeline.Value
import Idealize.ShloMosaic.PureOps.Ideal.Laws
import Idealize.ShloMosaic.Lib.Tactic

set_option maxRecDepth 16384

noncomputable section

namespace Cert.Val

open Idealize.ShloMosaic Idealize.ShloMosaic.ValueIdx
open Idealize.ShloMosaic.TcCoe Idealize.SL.Sem Idealize.ShloMosaic.Tactic
open Idealize.ShloMosaic.Pipeline (Dat)
open Cert.KernelIdeal Cert.KernelIdeal.Gen Cert.KernelIdeal.Reg
open scoped BigOperators

variable (V : (c : Dev nD) → (b : Ref sig .tc) → Buf (Elt Ideal) ((c : Thread nD τ).loc b))

theorem hz : (![0, 0] : Fin 2 → Nat) = fun _ => 0 := funext fun a => by fin_cases a <;> rfl

theorem readCov_cons_unit_zero {Val : EltTy → Type} [∀ e, Nonempty (Val e)] {sg : RefSig} {κ : Kind} {sp : Space}
    {S : Shape} {e : EltTy} (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

section Pieces
variable {F : FTy → Type} [FloatOps F]

theorem sout_A (c : Dev nD) (i : grid20.Coords) (arg1 : Memref sig .tc .vmem S1x2944 .i32) (harg1 : arg1.IsWhole) (arg2 : Memref sig .tc .vmem S2944x256 .f32) (harg2 : arg2.IsWhole) (arg3 : Memref sig .tc .vmem S512x256 .f32) (harg3 : arg3.IsWhole) (arg4 : Memref sig .tc .vmem S512x256 .f32) (harg4 : arg4.IsWhole) (hc0 : cond20_0 i) (hc1 : ¬cond20_1 i)
    (x0 : Vec F S1x2944 .i32) (x1 : Vec F S2944x256 .f32) :
    sout20_A_0 c i arg1 harg1 arg2 harg2 arg3 harg3 arg4 harg4 hc0 hc1 x0 x1 = k20_pay5 x0 x1 (k20_pay4 x0 x1 k20_pay1) := by
  unfold sout20_A_0
  rw [View.read_writes_eq_canon _ _ _ (scover20_A_0 c i arg1 harg1 arg2 harg2 arg3 harg3 arg4 harg4 hc0 hc1 x0 x1)]
  unfold kernelRun20_A
  dsimp only
  sl_unfold_words
  simp only [View.canon_cons_unit_zero (S := S512x256) hz, readCov_cons_unit_zero (S := S512x256) _ hz,
    View.readAt_eq_ld, harg1.read_unread, harg2.read_unread, harg4.read_unread,
    View.ld_unit_zero (S := S1x2944) hz, View.ld_unit_zero (S := S2944x256) hz, View.ld_unit_zero (S := S512x256) hz]

theorem sout_B (c : Dev nD) (i : grid20.Coords) (arg1 : Memref sig .tc .vmem S1x2944 .i32) (harg1 : arg1.IsWhole) (arg2 : Memref sig .tc .vmem S2944x256 .f32) (harg2 : arg2.IsWhole) (arg3 : Memref sig .tc .vmem S512x256 .f32) (harg3 : arg3.IsWhole) (arg4 : Memref sig .tc .vmem S512x256 .f32) (harg4 : arg4.IsWhole) (hc0 : ¬cond20_0 i) (hc1 : ¬cond20_1 i)
    (x0 : Vec F S1x2944 .i32) (x1 : Vec F S2944x256 .f32) (xs0 : Vec F S512x256 .f32) :
    sout20_B_0 c i arg1 harg1 arg2 harg2 arg3 harg3 arg4 harg4 hc0 hc1 x0 x1 xs0 = k20_pay5 x0 x1 (k20_pay4 x0 x1 xs0) := by
  unfold sout20_B_0
  rw [View.read_writes_eq_canon _ _ _ (scover20_B_0 c i arg1 harg1 arg2 harg2 arg3 harg3 arg4 harg4 hc0 hc1 x0 x1 xs0)]
  unfold kernelRun20_B
  dsimp only
  sl_unfold_words
  simp only [View.canon_cons_unit_zero (S := S512x256) hz, readCov_cons_unit_zero (S := S512x256) _ hz,
    View.readAt_eq_ld, harg1.read_unread, harg2.read_unread, harg4.read_unread,
    View.ld_unit_zero (S := S1x2944) hz, View.ld_unit_zero (S := S2944x256) hz, View.ld_unit_zero (S := S512x256) hz]

theorem sout_C (c : Dev nD) (i : grid20.Coords) (arg1 : Memref sig .tc .vmem S1x2944 .i32) (harg1 : arg1.IsWhole) (arg2 : Memref sig .tc .vmem S2944x256 .f32) (harg2 : arg2.IsWhole) (arg3 : Memref sig .tc .vmem S512x256 .f32) (harg3 : arg3.IsWhole) (arg4 : Memref sig .tc .vmem S512x256 .f32) (harg4 : arg4.IsWhole) (hc0 : ¬cond20_0 i) (hc1 : cond20_1 i)
    (x0 : Vec F S1x2944 .i32) (x1 : Vec F S2944x256 .f32) (xs0 : Vec F S512x256 .f32) :
    sout20_C_0 c i arg1 harg1 arg2 harg2 arg3 harg3 arg4 harg4 hc0 hc1 x0 x1 xs0 = k20_pay5 x0 x1 (k20_pay4 x0 x1 xs0) := by
  unfold sout20_C_0
  rw [View.read_writes_eq_canon _ _ _ (scover20_C_0 c i arg1 harg1 arg2 harg2 arg3 harg3 arg4 harg4 hc0 hc1 x0 x1 xs0)]
  unfold kernelRun20_C
  dsimp only
  sl_unfold_words
  simp only [View.canon_cons_unit_zero (S := S512x256) hz, readCov_cons_unit_zero (S := S512x256) _ hz,
    View.readAt_eq_ld, harg1.read_unread, harg2.read_unread, harg4.read_unread,
    View.ld_unit_zero (S := S1x2944) hz, View.ld_unit_zero (S := S2944x256) hz, View.ld_unit_zero (S := S512x256) hz]

theorem out_C (c : Dev nD) (i : grid20.Coords) (arg1 : Memref sig .tc .vmem S1x2944 .i32) (harg1 : arg1.IsWhole) (arg2 : Memref sig .tc .vmem S2944x256 .f32) (harg2 : arg2.IsWhole) (arg3 : Memref sig .tc .vmem S512x256 .f32) (harg3 : arg3.IsWhole) (arg4 : Memref sig .tc .vmem S512x256 .f32) (harg4 : arg4.IsWhole) (hc0 : ¬cond20_0 i) (hc1 : cond20_1 i)
    (x0 : Vec F S1x2944 .i32) (x1 : Vec F S2944x256 .f32) (xs0 : Vec F S512x256 .f32) :
    out20_C_2 c i arg1 harg1 arg2 harg2 arg3 harg3 arg4 harg4 hc0 hc1 x0 x1 xs0 = k20_pay6 (k20_pay5 x0 x1 (k20_pay4 x0 x1 xs0)) := by
  unfold out20_C_2
  rw [View.read_writes_eq_canon _ _ _ (cover20_C_2 c i arg1 harg1 arg2 harg2 arg3 harg3 arg4 harg4 hc0 hc1 x0 x1 xs0)]
  unfold kernelRun20_C
  dsimp only
  sl_unfold_words
  simp only [View.canon_cons_unit_zero (S := S512x256) hz, readCov_cons_unit_zero (S := S512x256) _ hz,
    View.readAt_eq_ld, harg1.read_unread, harg2.read_unread, harg4.read_unread,
    View.ld_unit_zero (S := S1x2944) hz, View.ld_unit_zero (S := S2944x256) hz, View.ld_unit_zero (S := S512x256) hz]

end Pieces

abbrev bp20 (c : Dev nD) : Vec Ideal S1x50048 .i32 := V c (Pipeline.arrRef spec20 0)
abbrev hp20 (c : Dev nD) : Vec Ideal S50048x256 .f32 := V c (Pipeline.arrRef spec20 1)

abbrev idblk (c : Dev nD) (t : Fin cfg20.N) : Vec Ideal S1x2944 .i32 := iblk20 V c 0 t
abbrev hblk (c : Dev nD) (t : Fin cfg20.N) : Vec Ideal S2944x256 .f32 := iblk20 V c 1 t

theorem idx_facts20 : ∀ t : Fin cfg20.N, win20_0.index t 0 = 0 ∧ win20_0.index t 1 = t.val ∧ win20_1.index t 0 = t.val ∧ win20_1.index t 1 = 0 :=
  (by decide +kernel : ∀ t : Fin grid20.N, win20_0.index t 0 = 0 ∧ win20_0.index t 1 = t.val ∧ win20_1.index t 0 = t.val ∧ win20_1.index t 1 = 0)

theorem lt_rows (t : Fin cfg20.N) (k : Fin 2944) : 2944 * t.val + k.val < 50048 := by
  have hN : t.val < 17 := lt_of_lt_of_eq t.isLt (show cfg20.N = 17 from N_20)
  have := k.isLt
  omega

theorem idblk_apply (c : Dev nD) (t : Fin cfg20.N) (k : Fin 2944) :
    idblk V c t (ix2 0 k) = bp20 V c (ix2 0 ⟨2944 * t.val + k.val, lt_rows t k⟩) := by
  show ((cfg20.win 0).blk t).view.read (Elt Ideal) (V c (Pipeline.arrRef spec20 0)) (ix2 0 k) = _
  rw [View.read_apply]
  show V c (Pipeline.arrRef spec20 0) _ = V c (Pipeline.arrRef spec20 0) _
  congr 1
  funext a
  apply Fin.ext
  match a with
  | ⟨0, _⟩ => show win20_0.index t 0 * 1 + 1 * 0 = 0; rw [(idx_facts20 t).1]
  | ⟨1, _⟩ => show win20_0.index t 1 * 2944 + 1 * k.val = 2944 * t.val + k.val; rw [(idx_facts20 t).2.1]; omega

theorem hblk_apply (c : Dev nD) (t : Fin cfg20.N) (k : Fin 2944) (f : Fin 256) :
    hblk V c t (ix2 k f) = hp20 V c (ix2 ⟨2944 * t.val + k.val, lt_rows t k⟩ f) := by
  show ((cfg20.win 1).blk t).view.read (Elt Ideal) (V c (Pipeline.arrRef spec20 1)) (ix2 k f) = _
  rw [View.read_apply]
  show V c (Pipeline.arrRef spec20 1) _ = V c (Pipeline.arrRef spec20 1) _
  congr 1
  funext a
  apply Fin.ext
  match a with
  | ⟨0, _⟩ => show win20_1.index t 0 * 2944 + 1 * k.val = 2944 * t.val + k.val; rw [(idx_facts20 t).2.2.1]; omega
  | ⟨1, _⟩ => show win20_1.index t 1 * 256 + 1 * f.val = f.val; rw [(idx_facts20 t).2.2.2]; omega

theorem oh_eq (c : Dev nD) (t : Fin cfg20.N) (g : Fin 512) (k : Fin 2944) :
    k20_pay2 (F := Ideal) (idblk V c t) (ix2 g k) = OH20 (bp20 V c) g (2944 * t.val + k.val) := by
  rw [pay2_apply, idblk_apply]
  unfold OH20
  rw [dif_pos (lt_rows t k)]

theorem hp_eq (c : Dev nD) (t : Fin cfg20.N) (k : Fin 2944) (f : Fin 256) :
    hblk V c t (ix2 k f) = HP20 (hp20 V c) (2944 * t.val + k.val) f := by
  rw [hblk_apply]
  unfold HP20
  rw [dif_pos (lt_rows t k)]

theorem step20 (c : Dev nD) (t : Fin cfg20.N) (acc : Vec Ideal S512x256 .f32)
    (hacc : ∀ g f, acc (ix2 g f) = poolAcc (OH20 (bp20 V c)) (HP20 (hp20 V c)) t.val g f) (g : Fin 512) (f : Fin 256) :
    k20_pay5 (F := Ideal) (idblk V c t) (hblk V c t) (k20_pay4 (F := Ideal) (idblk V c t) (hblk V c t) acc) (ix2 g f)
      = poolAcc (OH20 (bp20 V c)) (HP20 (hp20 V c)) (t.val + 1) g f := by
  rw [pay5_apply, pool_pay4_apply, hacc]
  show _ = (poolAcc (OH20 (bp20 V c)) (HP20 (hp20 V c)) t.val g f
      + ∑ k : Fin 2944, OH20 (bp20 V c) g (2944 * t.val + k.val) * HP20 (hp20 V c) (2944 * t.val + k.val) f)
      + ∑ k : Fin 2944, OH20 (bp20 V c) g (2944 * t.val + k.val) * (HP20 (hp20 V c) (2944 * t.val + k.val) f - HP20 (hp20 V c) (2944 * t.val + k.val) f)
  congr 1
  · congr 1
    exact Finset.sum_congr rfl fun k _ => by rw [oh_eq V c t g k, hp_eq V c t k f]
  · exact Finset.sum_congr rfl fun k _ => by rw [oh_eq V c t g k, hp_eq V c t k f]

theorem acc_eq (c : Dev nD) : ∀ (n : ℕ) (hn : n < cfg20.N) (g : Fin 512) (f : Fin 256),
    (outsAt20 V c n hn).2 (ix2 g f) = poolAcc (OH20 (bp20 V c)) (HP20 (hp20 V c)) (n + 1) g f
  | 0, hn, g, f => by
    have h1 : ¬(⟨0, hn⟩ : Fin cfg20.N).val = 16 := by dsimp only; omega
    rw [outsAt20_A V c ⟨0, hn⟩ rfl h1]
    dsimp only
    refine (congrFun (sout_A (F := Ideal) c (grid20.coords ⟨0, hn⟩) (ms20_0 ⟨0, hn⟩) (hs20_0 ⟨0, hn⟩) (ms20_1 ⟨0, hn⟩) (hs20_1 ⟨0, hn⟩) (ms20_2 ⟨0, hn⟩) (hs20_2 ⟨0, hn⟩) scM20_0 (Memref.isWhole_whole _) ((hcond20_0 ⟨0, hn⟩).mpr rfl) (fun h => h1 ((hcond20_1 ⟨0, hn⟩).mp h)) (idblk V c ⟨0, hn⟩) (hblk V c ⟨0, hn⟩)) (ix2 g f)).trans ?_
    exact step20 V c ⟨0, hn⟩ (k20_pay1 (F := Ideal)) (fun g f => pay1_apply g f) g f
  | n + 1, hn, g, f => by
    have h0 : ¬(⟨n + 1, hn⟩ : Fin cfg20.N).val = 0 := Nat.succ_ne_zero n
    by_cases h1 : (⟨n + 1, hn⟩ : Fin cfg20.N).val = 16
    · rw [outsAt20_C V c ⟨n + 1, hn⟩ h0 h1]
      dsimp only
      refine (congrFun (sout_C (F := Ideal) c (grid20.coords ⟨n + 1, hn⟩) (ms20_0 ⟨n + 1, hn⟩) (hs20_0 ⟨n + 1, hn⟩) (ms20_1 ⟨n + 1, hn⟩) (hs20_1 ⟨n + 1, hn⟩) (ms20_2 ⟨n + 1, hn⟩) (hs20_2 ⟨n + 1, hn⟩) scM20_0 (Memref.isWhole_whole _) (fun h => h0 ((hcond20_0 ⟨n + 1, hn⟩).mp h)) ((hcond20_1 ⟨n + 1, hn⟩).mpr h1) (idblk V c ⟨n + 1, hn⟩) (hblk V c ⟨n + 1, hn⟩) (outsAt20 V c n (Nat.lt_of_succ_lt hn)).2) (ix2 g f)).trans ?_
      exact step20 V c ⟨n + 1, hn⟩ (outsAt20 V c n (Nat.lt_of_succ_lt hn)).2 (fun g f => acc_eq c n (Nat.lt_of_succ_lt hn) g f) g f
    · rw [outsAt20_B V c ⟨n + 1, hn⟩ h0 h1]
      dsimp only
      refine (congrFun (sout_B (F := Ideal) c (grid20.coords ⟨n + 1, hn⟩) (ms20_0 ⟨n + 1, hn⟩) (hs20_0 ⟨n + 1, hn⟩) (ms20_1 ⟨n + 1, hn⟩) (hs20_1 ⟨n + 1, hn⟩) (ms20_2 ⟨n + 1, hn⟩) (hs20_2 ⟨n + 1, hn⟩) scM20_0 (Memref.isWhole_whole _) (fun h => h0 ((hcond20_0 ⟨n + 1, hn⟩).mp h)) (fun h => h1 ((hcond20_1 ⟨n + 1, hn⟩).mp h)) (idblk V c ⟨n + 1, hn⟩) (hblk V c ⟨n + 1, hn⟩) (outsAt20 V c n (Nat.lt_of_succ_lt hn)).2) (ix2 g f)).trans ?_
      exact step20 V c ⟨n + 1, hn⟩ (outsAt20 V c n (Nat.lt_of_succ_lt hn)).2 (fun g f => acc_eq c n (Nat.lt_of_succ_lt hn) g f) g f

abbrev t16 : Fin cfg20.N := ⟨16, by rw [show cfg20.N = 17 from N_20]; decide⟩

abbrev result20 (c : Dev nD) : Buf (Elt Ideal) ((c : Thread nD τ).loc main_v175) := (outsAt20 V c 16 t16.isLt).1

theorem flushed_eq20 (c : Dev nD) (t : Fin cfg20.N) (hf : (cfg20.win 2).flush t = true) :
    (dat20 V c).flushed 2 t = ((cfg20.win 2).blk t).view.read (Elt Ideal) (result20 V c) := by
  have hN : cfg20.N = 17 := N_20
  have h16 : t.val = 16 := by have := (flush20_2 t).mp hf; have := t.isLt; omega
  obtain rfl : t = t16 := Fin.ext h16
  show (cfg20.win 2).cut (grid20.coords t16) ((dat20 V c).after 2 t16) = _
  rw [after20_2]
  have hz' : (fun a => win20_2.index t16 a * main_v175.ty.shape.size a) = fun _ => 0 := funext fun a => by fin_cases a <;> decide +kernel
  exact (Memref.read_access_unit_zero (Elt Ideal) main_v175 hz' (fun a => by rw [congrFun hz' a]; simp) (result20 V c)).symm

theorem final20 (c : Dev nD) : (dat20 V c).arrAt 2 cfg20.N = result20 V c :=
  (dat20 V c).arrAt_eq_of_cover 2 (result20 V c) (flushed_eq20 V c) fun i =>
    ⟨t16, (flush20_2 t16).mpr rfl, by
      show i ∈ ((View.whole main_v175).slice (win20_2.rect t16)).set
      rw [View.set_slice_whole, Rect.mem_set_unit]
      intro a
      have h0 : (i 0 : Nat) < 512 := (i 0).isLt
      have h1 : (i 1 : Nat) < 256 := (i 1).isLt
      match a with
      | ⟨0, _⟩ => show win20_2.index t16 0 * win20_2.size 0 ≤ (i 0 : Nat) ∧ (i 0 : Nat) < win20_2.index t16 0 * win20_2.size 0 + win20_2.xsize (grid20.coords t16) 0
                  rw [show win20_2.index t16 0 * win20_2.size 0 = 0 from by decide +kernel, show win20_2.xsize (grid20.coords t16) 0 = 512 from by decide +kernel]; omega
      | ⟨1, _⟩ => show win20_2.index t16 1 * win20_2.size 1 ≤ (i 1 : Nat) ∧ (i 1 : Nat) < win20_2.index t16 1 * win20_2.size 1 + win20_2.xsize (grid20.coords t16) 1
                  rw [show win20_2.index t16 1 * win20_2.size 1 = 0 from by decide +kernel, show win20_2.xsize (grid20.coords t16) 1 = 256 from by decide +kernel]; omega⟩

theorem result20_apply (c : Dev nD) (g : Fin 512) (f : Fin 256) :
    result20 V c (ix2 g f) = max (poolAcc (OH20 (bp20 V c)) (HP20 (hp20 V c)) 17 g f) 0 := by
  have h0 : ¬t16.val = 0 := by show ¬(16 = 0); decide
  have h1 : t16.val = 16 := rfl
  show (outsAt20 V c t16.val t16.isLt).1 (ix2 g f) = _
  rw [outsAt20_C V c t16 h0 h1]
  dsimp only
  refine (congrFun (out_C (F := Ideal) c (grid20.coords t16) (ms20_0 t16) (hs20_0 t16) (ms20_1 t16) (hs20_1 t16) (ms20_2 t16) (hs20_2 t16) scM20_0 (Memref.isWhole_whole _) (fun h => h0 ((hcond20_0 t16).mp h)) ((hcond20_1 t16).mpr h1) (idblk V c t16) (hblk V c t16) (outsAt20 V c (t16.val - 1) (Nat.lt_of_le_of_lt (Nat.sub_le _ _) t16.isLt)).2) (ix2 g f)).trans ?_
  refine (pay6_apply _ g f).trans ?_
  exact congrArg (fun x => max x 0) (step20 V c t16 (outsAt20 V c (t16.val - 1) (Nat.lt_of_le_of_lt (Nat.sub_le _ _) t16.isLt)).2
    (fun g f => acc_eq V c (t16.val - 1) (Nat.lt_of_le_of_lt (Nat.sub_le _ _) t16.isLt) g f) g f)

theorem val20 (c : Dev nD) (g : Fin 512) (f : Fin 256) :
    ((dat20 (F := Ideal) V c).arrAt 2 cfg20.N : Vec Ideal S512x256 .f32) (ix2 g f)
      = max (poolAcc (OH20 (bp20 V c)) (HP20 (hp20 V c)) 17 g f) 0 := by
  rw [final20]
  exact result20_apply V c g f

end Cert.Val

end
-- ==== Proof.Val.PoolMath.lean ====
import proofs.«411449_j51797305589934_2_alg».proof.Proof.Val.PoolSpec
import Mathlib.Data.EReal.Operations
import Mathlib.Algebra.BigOperators.Fin

noncomputable section

namespace Cert.Val

open BigOperators

theorem sub_self_of_real {x : EReal} (hx : ∃ r : ℝ, x = (r : EReal)) : x - x = 0 := by
  obtain ⟨r, rfl⟩ := hx
  exact EReal.sub_self (EReal.coe_ne_top r) (EReal.coe_ne_bot r)

theorem poolAcc_eq_sum_range (oh : Fin 512 → ℕ → EReal) (hp : ℕ → Fin 256 → EReal)
    (hreal : ∀ k f, ∃ r : ℝ, hp k f = (r : EReal)) (n : ℕ) (g : Fin 512) (f : Fin 256) :
    poolAcc oh hp n g f = ∑ k ∈ Finset.range (2944 * n), oh g k * hp k f := by
  induction n with
  | zero => simp [poolAcc]
  | succ n ih =>
    rw [poolAcc, ih, Finset.sum_range (fun k => oh g (2944 * n + k) * hp (2944 * n + k) f) |>.symm]
    rw [show (∑ k : Fin 2944, oh g (2944 * n + k.val) * (hp (2944 * n + k.val) f - hp (2944 * n + k.val) f)) = 0 from
      Finset.sum_eq_zero fun k _ => by rw [sub_self_of_real (hreal _ f), mul_zero]]
    rw [add_zero, show 2944 * (n + 1) = 2944 * n + 2944 by ring, Finset.sum_range_add]

theorem poolAcc_eq_segment_sum (oh : Fin 512 → ℕ → EReal) (hp : ℕ → Fin 256 → EReal)
    (hreal : ∀ k f, ∃ r : ℝ, hp k f = (r : EReal)) (g : Fin 512) (f : Fin 256)
    (P : Fin 50000 → Prop) [DecidablePred P] (x : Fin 50000 → EReal)
    (hoh : ∀ k : Fin 50000, oh g k.val = if P k then 1 else 0)
    (hx : ∀ k : Fin 50000, hp k.val f = x k)
    (hpad : ∀ k : ℕ, 50000 ≤ k → k < 50048 → oh g k * hp k f = 0) :
    poolAcc oh hp 17 g f = ∑ k : Fin 50000, if P k then x k else 0 := by
  rw [poolAcc_eq_sum_range oh hp hreal, show 2944 * 17 = 50000 + 48 by norm_num, Finset.sum_range_add]
  rw [show (∑ k ∈ Finset.range 48, oh g (50000 + k) * hp (50000 + k) f) = 0 from
    Finset.sum_eq_zero fun k hk => hpad _ (by omega) (by have := Finset.mem_range.mp hk; omega)]
  rw [add_zero, Finset.sum_range]
  exact Finset.sum_congr rfl fun k _ => by
    rw [hoh k, hx k]
    by_cases h : P k
    · rw [if_pos h, if_pos h, one_mul]
    · rw [if_neg h, if_neg h, zero_mul]

end Cert.Val

end
-- ==== Proof.Val.PoolMeet.lean ====
import proofs.«411449_j51797305589934_2_alg».proof.Proof.Val.RefTail
import proofs.«411449_j51797305589934_2_alg».proof.Proof.Val.PoolMath

noncomputable section

namespace Cert.Val

open Cert.ReferenceIdeal Cert.ReferenceIdeal.Gen Idealize.ShloMosaic Idealize.ShloMosaic.ValueIdx
open scoped BigOperators

theorem toInt_ofNat_lt512 (g : Fin 512) : (BitVec.ofNat 32 g.val).toInt = (g.val : ℤ) := by
  have hg := g.isLt
  unfold BitVec.toInt
  rw [BitVec.toNat_ofNat]
  have hm : g.val % 2 ^ 32 = g.val := Nat.mod_eq_of_lt (by omega)
  rw [hm, if_pos (by omega)]

theorem eq_ofNat_iff_toInt (b : BitVec 32) (g : Fin 512) :
    b = BitVec.ofNat 32 g.val ↔ b.toInt = (g.val : ℤ) := by
  constructor
  · rintro rfl; exact toInt_ofNat_lt512 g
  · intro e; exact BitVec.eq_of_toInt_eq (e.trans (toInt_ofNat_lt512 g).symm)

theorem refPool_eq_poolAcc (h : FVec Ideal S50000x256 .f32) (batch : IVec S50000 32)
    (oh : Fin 512 → ℕ → EReal) (hp : ℕ → Fin 256 → EReal)
    (hreal : ∀ k f, ∃ r : ℝ, hp k f = (r : EReal)) (g : Fin 512) (f : Fin 256)
    (hoh : ∀ k : Fin 50000, oh g k.val = if batch (ix1 k) = BitVec.ofNat 32 g.val then 1 else 0)
    (hx : ∀ k : Fin 50000, hp k.val f = h (ix2 k f))
    (hpad : ∀ k : ℕ, 50000 ≤ k → k < 50048 → oh g k * hp k f = 0) :
    refPool0 h batch (ix2 g f) = poolAcc oh hp 17 g f := by
  rw [refPool_apply, zero_add]
  refine (poolAcc_eq_segment_sum oh hp hreal g f (fun k => (batch (ix1 k)).toInt = (g.val : ℤ))
    (fun k => h (ix2 k f)) (fun k => ?_) hx hpad).symm
  rw [hoh k]
  by_cases hc : (batch (ix1 k)).toInt = (g.val : ℤ)
  · rw [if_pos ((eq_ofNat_iff_toInt _ g).mpr hc), if_pos hc]
  · rw [if_neg (fun e => hc ((eq_ofNat_iff_toInt _ g).mp e)), if_neg hc]

end Cert.Val

end
-- ==== Proof.Val.PoolFinal.lean ====
import proofs.«411449_j51797305589934_2_alg».proof.Proof.Val.PoolMeet
import proofs.«411449_j51797305589934_2_alg».proof.Proof.Val.Pool20Pay

noncomputable section

namespace Cert.Val

open Cert.ReferenceIdeal Cert.ReferenceIdeal.Gen Idealize.ShloMosaic Idealize.ShloMosaic.ValueIdx
open scoped BigOperators

theorem pool_final (h5 : S50000x256.Idx → EReal) (batch : S50000.Idx → BitVec 32)
    (hp : Cert.KernelIdeal.S50048x256.Idx → EReal) (bp : Cert.KernelIdeal.S1x50048.Idx → BitVec 32)
    (hpad : ∀ (k : Fin 50048) (f : Fin 256),
      hp (ix2 k f) = if h : k.val < 50000 then h5 (ix2 ⟨k.val, h⟩ f) else 0)
    (bpad : ∀ k : Fin 50048,
      bp (ix2 0 k) = if h : k.val < 50000 then batch (ix1 ⟨k.val, h⟩) else 512#32)
    (hreal : ∀ i, ∃ r : ℝ, h5 i = (r : EReal)) (g : Fin 512) (f : Fin 256) :
    max (poolAcc (OH20 bp) (HP20 hp) 17 g f) 0 = refPooled h5 batch (ix2 g f) := by
  have hrealHP : ∀ k f', ∃ r : ℝ, HP20 hp k f' = (r : EReal) := by
    intro k f'
    unfold HP20
    by_cases hk : k < 50048
    · rw [dif_pos hk, hpad]
      by_cases hk' : k < 50000
      · rw [dif_pos hk']; exact hreal _
      · rw [dif_neg hk']; exact ⟨0, EReal.coe_zero.symm⟩
    · rw [dif_neg hk]; exact ⟨0, EReal.coe_zero.symm⟩
  have hoh : ∀ k : Fin 50000,
      OH20 bp g k.val = if batch (ix1 k) = BitVec.ofNat 32 g.val then 1 else 0 := by
    intro k
    unfold OH20
    rw [dif_pos (show k.val < 50048 by have := k.isLt; omega), bpad, dif_pos k.isLt]
    by_cases hc : batch (ix1 k) = BitVec.ofNat 32 g.val
    · rw [if_pos hc, if_pos hc.symm]
    · rw [if_neg hc, if_neg (fun e => hc e.symm)]
  have hx : ∀ k : Fin 50000, HP20 hp k.val f = h5 (ix2 k f) := by
    intro k
    unfold HP20
    rw [dif_pos (show k.val < 50048 by have := k.isLt; omega), hpad, dif_pos k.isLt]
  have hz : ∀ k : ℕ, 50000 ≤ k → k < 50048 → OH20 bp g k * HP20 hp k f = 0 := by
    intro k hk1 hk2
    have : HP20 hp k f = 0 := by
      unfold HP20
      rw [dif_pos hk2, hpad, dif_neg (show ¬ k < 50000 by omega)]
    rw [this, mul_zero]
  rw [refPooled_apply, refPool_eq_poolAcc h5 batch (OH20 bp) (HP20 hp) hrealHP g f hoh hx hz]

end Cert.Val

end
-- ==== Proof.Val.Mlp21.lean ====
import proofs.«411449_j51797305589934_2_alg».proof.Proof.KI.R21
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Val

open Cert.KernelIdeal Cert.KernelIdeal.Gen Cert.KernelIdeal.Reg
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

abbrev pooled21 (c : Dev nD) : S512x256.Idx → EReal := V c (Pipeline.arrRef spec21 0)
abbrev w1_21 (c : Dev nD) : S256x128.Idx → EReal := V c (Pipeline.arrRef spec21 1)
abbrev b1_21 (c : Dev nD) : S1x128.Idx → EReal := V c (Pipeline.arrRef spec21 2)
abbrev w2_21 (c : Dev nD) : S128x1.Idx → EReal := V c (Pipeline.arrRef spec21 3)
abbrev b2_21 (c : Dev nD) : S1x1.Idx → EReal := V c (Pipeline.arrRef spec21 4)
abbrev res21 (c : Dev nD) : S512x1.Idx → EReal := (dat21 (F := Ideal) V c).arrAt 5 cfg21.N

def G21 (x : S512x256.Idx → EReal) (w1 : S256x128.Idx → EReal) (b1 : S1x128.Idx → EReal)
    (w2 : S128x1.Idx → EReal) (b2 : S1x1.Idx → EReal) : S512x1.Idx → EReal :=
  fun i => (∑ j : Fin 128, max ((∑ f : Fin 256, x (ix2 (i 0) f) * w1 (ix2 f j)) + b1 (ix2 (0 : Fin 1) j)) 0 * w2 (ix2 j (i 1)))
    + b2 (ix2 (0 : Fin 1) (0 : Fin 1))

theorem hz21 : (![0, 0] : Fin 2 → Nat) = fun _ => 0 :=
  funext fun a => by match a with | ⟨0, _⟩ => rfl | ⟨1, _⟩ => rfl

theorem hidden21_lhs_axis0 (j : S512x128.Idx) (k : dot_S512x256_S256x128_S512x128_1_0_0_1_n_n.contr.Idx) :
    (dot_S512x256_S256x128_S512x128_1_0_0_1_n_n.lhsIdx j k (0 : Fin 2)).val = (j (0 : Fin 2)).val := by
  simp [DotDims.lhsIdx, dot_S512x256_S256x128_S512x128_1_0_0_1_n_n]; rfl
theorem hidden21_lhs_axis1 (j : S512x128.Idx) (k : dot_S512x256_S256x128_S512x128_1_0_0_1_n_n.contr.Idx) :
    (dot_S512x256_S256x128_S512x128_1_0_0_1_n_n.lhsIdx j k (1 : Fin 2)).val = (k ⟨0, by decide⟩).val :=
  dot_S512x256_S256x128_S512x128_1_0_0_1_n_n.lhsIdx_val_of_single (cl := (1 : Fin 2)) rfl j k
theorem hidden21_rhs_axis0 (j : S512x128.Idx) (k : dot_S512x256_S256x128_S512x128_1_0_0_1_n_n.contr.Idx) :
    (dot_S512x256_S256x128_S512x128_1_0_0_1_n_n.rhsIdx j k (0 : Fin 2)).val = (k ⟨0, by decide⟩).val :=
  dot_S512x256_S256x128_S512x128_1_0_0_1_n_n.rhsIdx_val_of_single (cr := (0 : Fin 2)) rfl j k
theorem hidden21_rhs_axis1 (j : S512x128.Idx) (k : dot_S512x256_S256x128_S512x128_1_0_0_1_n_n.contr.Idx) :
    (dot_S512x256_S256x128_S512x128_1_0_0_1_n_n.rhsIdx j k (1 : Fin 2)).val = (j (1 : Fin 2)).val := by
  simp [DotDims.rhsIdx, dot_S512x256_S256x128_S512x128_1_0_0_1_n_n]; rfl

theorem hidden21_apply (a : FVec Ideal S512x256 .bf16) (b : FVec Ideal S256x128 .bf16) (g : Fin 512) (j : Fin 128) :
    FloatOps.matmul (F := Ideal) dot_S512x256_S256x128_S512x128_1_0_0_1_n_n none a b (constant S512x128 .f32 0x00000000#32) (ix2 g j)
      = ∑ f : Fin 256, a (ix2 g f) * b (ix2 f j) := by
  rw [Ideal.matmul_constant_zero_apply, ← Equiv.sum_comp (contrEquiv1 dot_S512x256_S256x128_S512x128_1_0_0_1_n_n 256 rfl rfl).symm]
  refine Finset.sum_congr rfl fun f _ => ?_
  have hf := contrEquiv1_symm_val dot_S512x256_S256x128_S512x128_1_0_0_1_n_n 256 rfl rfl f
  have hl : dot_S512x256_S256x128_S512x128_1_0_0_1_n_n.lhsIdx (ix2 g j) ((contrEquiv1 dot_S512x256_S256x128_S512x128_1_0_0_1_n_n 256 rfl rfl).symm f) = ix2 g f := by
    funext ax; apply Fin.ext
    match ax with
    | ⟨0, _⟩ => exact hidden21_lhs_axis0 _ _
    | ⟨1, _⟩ => exact (hidden21_lhs_axis1 _ _).trans hf
  have hr : dot_S512x256_S256x128_S512x128_1_0_0_1_n_n.rhsIdx (ix2 g j) ((contrEquiv1 dot_S512x256_S256x128_S512x128_1_0_0_1_n_n 256 rfl rfl).symm f) = ix2 f j := by
    funext ax; apply Fin.ext
    match ax with
    | ⟨0, _⟩ => exact (hidden21_rhs_axis0 _ _).trans hf
    | ⟨1, _⟩ => exact hidden21_rhs_axis1 _ _
  rw [hl, hr]

theorem head21_lhs_axis0 (j : S512x1.Idx) (k : dot_S512x128_S128x1_S512x1_1_0_0_1_n_n.contr.Idx) :
    (dot_S512x128_S128x1_S512x1_1_0_0_1_n_n.lhsIdx j k (0 : Fin 2)).val = (j (0 : Fin 2)).val := by
  simp [DotDims.lhsIdx, dot_S512x128_S128x1_S512x1_1_0_0_1_n_n]; rfl
theorem head21_lhs_axis1 (j : S512x1.Idx) (k : dot_S512x128_S128x1_S512x1_1_0_0_1_n_n.contr.Idx) :
    (dot_S512x128_S128x1_S512x1_1_0_0_1_n_n.lhsIdx j k (1 : Fin 2)).val = (k ⟨0, by decide⟩).val :=
  dot_S512x128_S128x1_S512x1_1_0_0_1_n_n.lhsIdx_val_of_single (cl := (1 : Fin 2)) rfl j k
theorem head21_rhs_axis0 (j : S512x1.Idx) (k : dot_S512x128_S128x1_S512x1_1_0_0_1_n_n.contr.Idx) :
    (dot_S512x128_S128x1_S512x1_1_0_0_1_n_n.rhsIdx j k (0 : Fin 2)).val = (k ⟨0, by decide⟩).val :=
  dot_S512x128_S128x1_S512x1_1_0_0_1_n_n.rhsIdx_val_of_single (cr := (0 : Fin 2)) rfl j k
theorem head21_rhs_axis1 (j : S512x1.Idx) (k : dot_S512x128_S128x1_S512x1_1_0_0_1_n_n.contr.Idx) :
    (dot_S512x128_S128x1_S512x1_1_0_0_1_n_n.rhsIdx j k (1 : Fin 2)).val = (j (1 : Fin 2)).val := by
  have hj : (j (1 : Fin 2)).val < 1 := (j (1 : Fin 2)).isLt
  simp [DotDims.rhsIdx, dot_S512x128_S128x1_S512x1_1_0_0_1_n_n]; omega

theorem head21_apply (a : FVec Ideal S512x128 .bf16) (b : FVec Ideal S128x1 .bf16) (g : Fin 512) (j : Fin 1) :
    FloatOps.matmul (F := Ideal) dot_S512x128_S128x1_S512x1_1_0_0_1_n_n none a b (constant S512x1 .f32 0x00000000#32) (ix2 g j)
      = ∑ f : Fin 128, a (ix2 g f) * b (ix2 f j) := by
  rw [Ideal.matmul_constant_zero_apply, ← Equiv.sum_comp (contrEquiv1 dot_S512x128_S128x1_S512x1_1_0_0_1_n_n 128 rfl rfl).symm]
  refine Finset.sum_congr rfl fun f _ => ?_
  have hf := contrEquiv1_symm_val dot_S512x128_S128x1_S512x1_1_0_0_1_n_n 128 rfl rfl f
  have hl : dot_S512x128_S128x1_S512x1_1_0_0_1_n_n.lhsIdx (ix2 g j) ((contrEquiv1 dot_S512x128_S128x1_S512x1_1_0_0_1_n_n 128 rfl rfl).symm f) = ix2 g f := by
    funext ax; apply Fin.ext
    match ax with
    | ⟨0, _⟩ => exact head21_lhs_axis0 _ _
    | ⟨1, _⟩ => exact (head21_lhs_axis1 _ _).trans hf
  have hr : dot_S512x128_S128x1_S512x1_1_0_0_1_n_n.rhsIdx (ix2 g j) ((contrEquiv1 dot_S512x128_S128x1_S512x1_1_0_0_1_n_n 128 rfl rfl).symm f) = ix2 f j := by
    funext ax; apply Fin.ext
    match ax with
    | ⟨0, _⟩ => exact (head21_rhs_axis0 _ _).trans hf
    | ⟨1, _⟩ => exact head21_rhs_axis1 _ _
  rw [hl, hr]

theorem bias1_21_apply (v : FVec Ideal S1x128 .f32) (g : Fin 512) (j : Fin 128) :
    broadcastTo S512x128 v broadcasts_S1x128_S512x128 (ix2 g j) = v (ix2 (0 : Fin 1) j) :=
  broadcastTo_apply v _ (ix2 g j) (ix2 (0 : Fin 1) j) (fun a => by match a with | ⟨0, _⟩ => rfl | ⟨1, _⟩ => rfl)

theorem bias2_21_apply (v : FVec Ideal S1x1 .f32) (g : Fin 512) (z : Fin 1) :
    broadcastTo S512x1 v broadcasts_S1x1_S512x1 (ix2 g z) = v (ix2 (0 : Fin 1) (0 : Fin 1)) :=
  broadcastTo_apply v _ (ix2 g z) (ix2 (0 : Fin 1) (0 : Fin 1)) (fun a => by match a with | ⟨0, _⟩ => rfl | ⟨1, _⟩ => rfl)

theorem zero21 : (Scalar.ofBits (F := Ideal) .f32 0x00000000#32 : EReal) = 0 := Ideal.ofBits_zero_f32

theorem pay21_apply (v0 : Vec Ideal S512x256 .f32) (v3 : Vec Ideal S256x128 .f32) (v6 : Vec Ideal S1x128 .f32)
    (v12 : Vec Ideal S128x1 .f32) (v16 : Vec Ideal S1x1 .f32) (g : Fin 512) (z : Fin 1) :
    k21_pay1 v0 v3 v6 v12 v16 (ix2 g z)
      = (∑ j : Fin 128, max ((∑ f : Fin 256, v0 (ix2 g f) * v3 (ix2 f j)) + v6 (ix2 (0 : Fin 1) j)) 0 * v12 (ix2 j z))
        + v16 (ix2 (0 : Fin 1) (0 : Fin 1)) := by
  unfold k21_pay1
  simp only [shapeCast_self, addf_apply, head21_apply, bias2_21_apply, truncf_apply, maximumf_apply, hidden21_apply,
    bias1_21_apply, broadcast_apply, zero21]

theorem idx_facts21 : ∀ t : Fin cfg21.N,
    win21_0.index t (0 : Fin 2) = 0 ∧ win21_0.index t (1 : Fin 2) = 0
    ∧ win21_1.index t (0 : Fin 2) = 0 ∧ win21_1.index t (1 : Fin 2) = 0
    ∧ win21_2.index t (0 : Fin 2) = 0 ∧ win21_2.index t (1 : Fin 2) = 0
    ∧ win21_3.index t (0 : Fin 2) = 0 ∧ win21_3.index t (1 : Fin 2) = 0
    ∧ win21_4.index t (0 : Fin 2) = 0 ∧ win21_4.index t (1 : Fin 2) = 0
    ∧ win21_5.index t (0 : Fin 2) = 0 ∧ win21_5.index t (1 : Fin 2) = 0 :=
  (by decide +kernel : ∀ t : Fin grid21.N, _)

theorem blk21_0 (c : Dev nD) (t : Fin cfg21.N) : iblk21 V c 0 t = pooled21 V c := by
  obtain ⟨a0, a1, b0, b1, c0, c1, d0, d1, e0, e1, f0, f1⟩ := idx_facts21 t
  funext y
  show V c (Pipeline.arrRef spec21 0) (((cfg21.win 0).blk t).view.emb y) = V c (Pipeline.arrRef spec21 0) y
  refine congrArg _ (funext fun a => Fin.ext ?_)
  match a with
  | ⟨0, _⟩ => show win21_0.index t (0 : Fin 2) * 512 + 1 * (y 0).val = (y 0).val; omega
  | ⟨1, _⟩ => show win21_0.index t (1 : Fin 2) * 256 + 1 * (y 1).val = (y 1).val; omega
theorem blk21_1 (c : Dev nD) (t : Fin cfg21.N) : iblk21 V c 1 t = w1_21 V c := by
  obtain ⟨a0, a1, b0, b1, c0, c1, d0, d1, e0, e1, f0, f1⟩ := idx_facts21 t
  funext y
  show V c (Pipeline.arrRef spec21 1) (((cfg21.win 1).blk t).view.emb y) = V c (Pipeline.arrRef spec21 1) y
  refine congrArg _ (funext fun a => Fin.ext ?_)
  match a with
  | ⟨0, _⟩ => show win21_1.index t (0 : Fin 2) * 256 + 1 * (y 0).val = (y 0).val; omega
  | ⟨1, _⟩ => show win21_1.index t (1 : Fin 2) * 128 + 1 * (y 1).val = (y 1).val; omega
theorem blk21_2 (c : Dev nD) (t : Fin cfg21.N) : iblk21 V c 2 t = b1_21 V c := by
  obtain ⟨a0, a1, b0, b1, c0, c1, d0, d1, e0, e1, f0, f1⟩ := idx_facts21 t
  funext y
  show V c (Pipeline.arrRef spec21 2) (((cfg21.win 2).blk t).view.emb y) = V c (Pipeline.arrRef spec21 2) y
  refine congrArg _ (funext fun a => Fin.ext ?_)
  match a with
  | ⟨0, _⟩ => show win21_2.index t (0 : Fin 2) * 1 + 1 * (y 0).val = (y 0).val; omega
  | ⟨1, _⟩ => show win21_2.index t (1 : Fin 2) * 128 + 1 * (y 1).val = (y 1).val; omega
theorem blk21_3 (c : Dev nD) (t : Fin cfg21.N) : iblk21 V c 3 t = w2_21 V c := by
  obtain ⟨a0, a1, b0, b1, c0, c1, d0, d1, e0, e1, f0, f1⟩ := idx_facts21 t
  funext y
  show V c (Pipeline.arrRef spec21 3) (((cfg21.win 3).blk t).view.emb y) = V c (Pipeline.arrRef spec21 3) y
  refine congrArg _ (funext fun a => Fin.ext ?_)
  match a with
  | ⟨0, _⟩ => show win21_3.index t (0 : Fin 2) * 128 + 1 * (y 0).val = (y 0).val; omega
  | ⟨1, _⟩ => show win21_3.index t (1 : Fin 2) * 1 + 1 * (y 1).val = (y 1).val; omega
theorem blk21_4 (c : Dev nD) (t : Fin cfg21.N) : iblk21 V c 4 t = b2_21 V c := by
  obtain ⟨a0, a1, b0, b1, c0, c1, d0, d1, e0, e1, f0, f1⟩ := idx_facts21 t
  funext y
  show V c (Pipeline.arrRef spec21 4) (((cfg21.win 4).blk t).view.emb y) = V c (Pipeline.arrRef spec21 4) y
  refine congrArg _ (funext fun a => Fin.ext ?_)
  match a with
  | ⟨0, _⟩ => show win21_4.index t (0 : Fin 2) * 1 + 1 * (y 0).val = (y 0).val; omega
  | ⟨1, _⟩ => show win21_4.index t (1 : Fin 2) * 1 + 1 * (y 1).val = (y 1).val; omega

theorem flushed21_eq (c : Dev nD) (t : Fin cfg21.N) :
    (dat21 (F := Ideal) V c).flushed 5 t
      = ((cfg21.win 5).blk t).view.read (Elt Ideal) (G21 (pooled21 V c) (w1_21 V c) (b1_21 V c) (w2_21 V c) (b2_21 V c)) := by
  show (cfg21.win 5).cut (grid21.coords t) ((dat21 (F := Ideal) V c).after 5 t) = _
  rw [after21_5]
  unfold out21_5
  rw [View.canon_unit_zero hz21]
  simp only [View.ld_unit_zero (S := S512x256) hz21, View.ld_unit_zero (S := S256x128) hz21,
    View.ld_unit_zero (S := S1x128) hz21, View.ld_unit_zero (S := S128x1) hz21, View.ld_unit_zero (S := S1x1) hz21]
  obtain ⟨a0, a1, b0, b1, c0, c1, d0, d1, e0, e1, f0, f1⟩ := idx_facts21 t
  funext j
  obtain ⟨g, z, rfl⟩ : ∃ (g : Fin 512) (z : Fin 1), j = ix2 g z := ⟨j 0, j 1, eq_ix2 j⟩
  show k21_pay1 (iblk21 V c 0 t) (iblk21 V c 1 t) (iblk21 V c 2 t) (iblk21 V c 3 t) (iblk21 V c 4 t) (ix2 g z)
    = G21 (pooled21 V c) (w1_21 V c) (b1_21 V c) (w2_21 V c) (b2_21 V c) (((cfg21.win 5).blk t).view.emb (ix2 g z))
  have he : ((cfg21.win 5).blk t).view.emb (ix2 g z) = ix2 g z := by
    funext a; apply Fin.ext
    match a with
    | ⟨0, _⟩ => show win21_5.index t (0 : Fin 2) * 512 + 1 * g.val = g.val; omega
    | ⟨1, _⟩ => show win21_5.index t (1 : Fin 2) * 1 + 1 * z.val = z.val; omega
  rw [he, blk21_0 V c t, blk21_1 V c t, blk21_2 V c t, blk21_3 V c t, blk21_4 V c t]
  exact pay21_apply _ _ _ _ _ g z

theorem mem_blk21 (t : Fin cfg21.N) (i : S512x1.Idx) :
    i ∈ ((cfg21.win 5).blk t).view.set ↔ ∀ a : Fin 2, win21_5.index t a * S512x1.size a ≤ (i a).val
      ∧ (i a).val < win21_5.index t a * S512x1.size a + S512x1.size a := by
  show i ∈ ((View.whole main_v178).slice (win21_5.rect t)).set ↔ _
  rw [View.set_slice_whole, Rect.mem_set_unit]
  exact Iff.rfl

theorem cover21 (i : S512x1.Idx) :
    ∃ t : Fin cfg21.N, (cfg21.win 5).flush t = true ∧ i ∈ ((cfg21.win 5).blk t).view.set := by
  have hi0 : (i 0).val < 512 := (i 0).isLt
  have hi1 : (i 1).val < 1 := (i 1).isLt
  obtain ⟨a0, a1, b0, b1, c0, c1, d0, d1, e0, e1, f0, f1⟩ := idx_facts21 t21_0
  refine ⟨t21_0, flush21_5 t21_0, ?_⟩
  rw [mem_blk21]
  intro a
  match a with
  | ⟨0, _⟩ => show win21_5.index t21_0 (0 : Fin 2) * 512 ≤ (i 0).val ∧ (i 0).val < win21_5.index t21_0 (0 : Fin 2) * 512 + 512; omega
  | ⟨1, _⟩ => show win21_5.index t21_0 (1 : Fin 2) * 1 ≤ (i 1).val ∧ (i 1).val < win21_5.index t21_0 (1 : Fin 2) * 1 + 1; omega

theorem final21 (c : Dev nD) : res21 V c = G21 (pooled21 V c) (w1_21 V c) (b1_21 V c) (w2_21 V c) (b2_21 V c) :=
  (dat21 (F := Ideal) V c).arrAt_eq_of_cover 5 (G21 (pooled21 V c) (w1_21 V c) (b1_21 V c) (w2_21 V c) (b2_21 V c)) (fun t _ => flushed21_eq V c t) cover21

theorem val21 (c : Dev nD) (g : Fin 512) :
    res21 V c (ix2 g (0 : Fin 1))
      = (∑ j : Fin 128, max ((∑ f : Fin 256, pooled21 V c (ix2 g f) * w1_21 V c (ix2 f j)) + b1_21 V c (ix2 (0 : Fin 1) j)) 0
            * w2_21 V c (ix2 j (0 : Fin 1)))
        + b2_21 V c (ix2 (0 : Fin 1) (0 : Fin 1)) := by
  rw [final21]; rfl

end Cert.Val
-- ==== Proof.Val.KTail.lean ====
import proofs.«411449_j51797305589934_2_alg».proof.Proof.KI.Keep
import proofs.«411449_j51797305589934_2_alg».proof.Proof.Val.Fin
import proofs.«411449_j51797305589934_2_alg».proof.Proof.Val.Pool20
import proofs.«411449_j51797305589934_2_alg».proof.Proof.Val.PoolFinal
import proofs.«411449_j51797305589934_2_alg».proof.Proof.Val.Mlp21

set_option maxRecDepth 16384

noncomputable section

namespace Cert.Val

section Pure

open Cert.ReferenceIdeal Cert.ReferenceIdeal.Gen Idealize.ShloMosaic Idealize.ShloMosaic.ValueIdx
open scoped BigOperators

theorem tail_pure (h5 : S50000x256.Idx → EReal) (batch : S50000.Idx → BitVec 32)
    (fc1w : S256x128.Idx → EReal) (fc1b : S128.Idx → EReal) (fc2w : S128x1.Idx → EReal) (fc2b : S1.Idx → EReal)
    (hp : Cert.KernelIdeal.S50048x256.Idx → EReal) (bp : Cert.KernelIdeal.S1x50048.Idx → BitVec 32)
    (pooled : S512x256.Idx → EReal) (w1 : S256x128.Idx → EReal) (b1 : S1x128.Idx → EReal)
    (w2 : S128x1.Idx → EReal) (b2 : S1x1.Idx → EReal) (res : S512x1.Idx → EReal) (out : S512.Idx → EReal)
    (hreal : ∀ i, ∃ r : ℝ, h5 i = (r : EReal))
    (hpad : ∀ (k : Fin 50048) (f : Fin 256),
      hp (ix2 k f) = if h : k.val < 50000 then h5 (ix2 ⟨k.val, h⟩ f) else 0)
    (bpad : ∀ k : Fin 50048,
      bp (ix2 (0 : Fin 1) k) = if h : k.val < 50000 then batch (ix1 ⟨k.val, h⟩) else 512#32)
    (hpool : ∀ (g : Fin 512) (f : Fin 256), pooled (ix2 g f) = max (poolAcc (OH20 bp) (HP20 hp) 17 g f) 0)
    (hw1 : w1 = fc1w) (hb1 : ∀ j : Fin 128, b1 (ix2 (0 : Fin 1) j) = fc1b (ix1 j))
    (hw2 : w2 = fc2w) (hb2 : b2 (ix2 (0 : Fin 1) (0 : Fin 1)) = fc2b (ix1 (0 : Fin 1)))
    (hmlp : ∀ g : Fin 512, res (ix2 g (0 : Fin 1))
      = (∑ j : Fin 128, max ((∑ f : Fin 256, pooled (ix2 g f) * w1 (ix2 f j)) + b1 (ix2 (0 : Fin 1) j)) 0
            * w2 (ix2 j (0 : Fin 1)))
        + b2 (ix2 (0 : Fin 1) (0 : Fin 1)))
    (hres : ∀ g : Fin 512, out (ix1 g) = res (ix2 g (0 : Fin 1))) :
    out = refTail h5 batch fc1w fc1b fc2w fc2b := by
  subst hw1 hw2
  funext i
  obtain ⟨g, rfl⟩ : ∃ g : Fin 512, i = ix1 g := ⟨i 0, eq_ix1 i⟩
  rw [hres, hmlp, refTail_apply, hb2]
  simp only [hpool, hb1, pool_final h5 batch hp bp hpad bpad hreal, refPooled_apply]

end Pure

section Chain

open Cert.KernelIdeal Cert.KernelIdeal.Gen Cert.KernelIdeal.Reg
open Idealize.ShloMosaic Idealize.ShloMosaic.TcCoe Idealize.SL.Sem Idealize.ShloMosaic.ValueIdx
open scoped BigOperators

variable (m : (ℓ : Loc nD τ sig) → Buf (Elt Ideal) ℓ)

abbrev hp43 (c : Dev nD) : S50048x256.Idx → EReal := Y43 m c main_v172
abbrev bp43 (c : Dev nD) : S1x50048.Idx → BitVec 32 := Y43 m c main_v174

abbrev pooled44 (c : Dev nD) : S512x256.Idx → EReal := Y44 m c main_v175
abbrev pooled45 (c : Dev nD) : S512x256.Idx → EReal := Y45 m c main_v175

abbrev w1_45 (c : Dev nD) : S256x128.Idx → EReal := Y45 m c main_arg25
abbrev b1_45 (c : Dev nD) : S1x128.Idx → EReal := Y45 m c main_v176
abbrev w2_45 (c : Dev nD) : S128x1.Idx → EReal := Y45 m c main_arg27
abbrev b2_45 (c : Dev nD) : S1x1.Idx → EReal := Y45 m c main_v177

abbrev res46 (c : Dev nD) : S512x1.Idx → EReal := Y46 m c main_v178
abbrev out47 (c : Dev nD) : S512.Idx → EReal := Y47 m c main_v179

theorem pooled44_apply (c : Dev nD) (g : Fin 512) (f : Fin 256) :
    pooled44 m c (ix2 g f) = max (poolAcc (OH20 (bp43 m c)) (HP20 (hp43 m c)) 17 g f) 0 := by
  have e : pooled44 m c = (dat20 (F := Ideal) (E43 m) c).arrAt (2 : Fin cfg20.W) cfg20.N := by
    unfold pooled44 Y44; rw [Function.update_self]
  rw [e]
  exact val20 (E43 m) c g f

theorem pooled45_eq (c : Dev nD) : pooled45 m c = pooled44 m c := Y45_keep m c main_v175 (by decide)

theorem res46_apply (c : Dev nD) (g : Fin 512) :
    res46 m c (ix2 g (0 : Fin 1))
      = (∑ j : Fin 128, max ((∑ f : Fin 256, pooled45 m c (ix2 g f) * w1_45 m c (ix2 f j))
            + b1_45 m c (ix2 (0 : Fin 1) j)) 0 * w2_45 m c (ix2 j (0 : Fin 1)))
        + b2_45 m c (ix2 (0 : Fin 1) (0 : Fin 1)) := by
  have e : res46 m c = res21 (E45 m) c := by
    unfold res46 Y46; rw [Function.update_self]
  rw [e]
  exact val21 (E45 m) c g

theorem ktail (c : Dev nD) (h5 : S50000x256.Idx → EReal) (batch : S50000.Idx → BitVec 32)
    (fc1w : S256x128.Idx → EReal) (fc1b : S128.Idx → EReal) (fc2w : S128x1.Idx → EReal) (fc2b : S1.Idx → EReal)
    (hreal : AllReal h5)
    (hpad : ∀ (k : Fin 50048) (f : Fin 256),
      hp43 m c (ix2 k f) = if h : k.val < 50000 then h5 (ix2 ⟨k.val, h⟩ f) else 0)
    (bpad : ∀ k : Fin 50048,
      bp43 m c (ix2 (0 : Fin 1) k) = if h : k.val < 50000 then batch (ix1 ⟨k.val, h⟩) else 512#32)
    (hw1 : w1_45 m c = fc1w) (hb1 : ∀ j : Fin 128, b1_45 m c (ix2 (0 : Fin 1) j) = fc1b (ix1 j))
    (hw2 : w2_45 m c = fc2w) (hb2 : b2_45 m c (ix2 (0 : Fin 1) (0 : Fin 1)) = fc2b (ix1 (0 : Fin 1)))
    (hres : ∀ g : Fin 512, out47 m c (ix1 g) = res46 m c (ix2 g (0 : Fin 1))) :
    out47 m c = refTail h5 batch fc1w fc1b fc2w fc2b :=
  tail_pure h5 batch fc1w fc1b fc2w fc2b (hp43 m c) (bp43 m c) (pooled45 m c) (w1_45 m c) (b1_45 m c) (w2_45 m c)
    (b2_45 m c) (res46 m c) (out47 m c) (fun i => hreal i) hpad bpad
    (fun g f => by rw [pooled45_eq]; exact pooled44_apply m c g f) hw1 hb1 hw2 hb2 (res46_apply m c) hres

end Chain

end Cert.Val
-- ==== Proof.Val.Mm0.lean ====
import proofs.«411449_j51797305589934_2_alg».proof.Proof.KI.R0
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Val

open Cert.KernelIdeal Cert.KernelIdeal.Gen Cert.KernelIdeal.Reg
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

abbrev lhs0 (c : Dev nD) : S50000x20.Idx → EReal := V c (Pipeline.arrRef spec0 0)
abbrev rhs0 (c : Dev nD) : S20x32.Idx → EReal := V c (Pipeline.arrRef spec0 1)
abbrev res0 (c : Dev nD) : S50000x32.Idx → EReal := (dat0 (F := Ideal) V c).arrAt 2 cfg0.N

def G0 (x : S50000x20.Idx → EReal) (w : S20x32.Idx → EReal) : S50000x32.Idx → EReal :=
  fun i => ∑ k : Fin 20, x (ix2 (i 0) k) * w (ix2 k (i 1))

theorem hz0 : (![0, 0] : Fin 2 → Nat) = fun _ => 0 :=
  funext fun a => by match a with | ⟨0, _⟩ => rfl | ⟨1, _⟩ => rfl

theorem lhs0_axis0 (j : S5000x32.Idx) (k : dot_S5000x20_S20x32_S5000x32_1_0_0_1_n_n.contr.Idx) :
    (dot_S5000x20_S20x32_S5000x32_1_0_0_1_n_n.lhsIdx j k (0 : Fin 2)).val = (j (0 : Fin 2)).val := by
  simp [DotDims.lhsIdx, dot_S5000x20_S20x32_S5000x32_1_0_0_1_n_n]; rfl
theorem lhs0_axis1 (j : S5000x32.Idx) (k : dot_S5000x20_S20x32_S5000x32_1_0_0_1_n_n.contr.Idx) :
    (dot_S5000x20_S20x32_S5000x32_1_0_0_1_n_n.lhsIdx j k (1 : Fin 2)).val = (k ⟨0, by decide⟩).val :=
  dot_S5000x20_S20x32_S5000x32_1_0_0_1_n_n.lhsIdx_val_of_single (cl := (1 : Fin 2)) rfl j k

theorem rhs0_axis0 (j : S5000x32.Idx) (k : dot_S5000x20_S20x32_S5000x32_1_0_0_1_n_n.contr.Idx) :
    (dot_S5000x20_S20x32_S5000x32_1_0_0_1_n_n.rhsIdx j k (0 : Fin 2)).val = (k ⟨0, by decide⟩).val :=
  dot_S5000x20_S20x32_S5000x32_1_0_0_1_n_n.rhsIdx_val_of_single (cr := (0 : Fin 2)) rfl j k
theorem rhs0_axis1 (j : S5000x32.Idx) (k : dot_S5000x20_S20x32_S5000x32_1_0_0_1_n_n.contr.Idx) :
    (dot_S5000x20_S20x32_S5000x32_1_0_0_1_n_n.rhsIdx j k (1 : Fin 2)).val = (j (1 : Fin 2)).val := by
  simp [DotDims.rhsIdx, dot_S5000x20_S20x32_S5000x32_1_0_0_1_n_n]; rfl

theorem pay0_apply (x0 : Vec Ideal S5000x20 .f32) (x1 : Vec Ideal S20x32 .f32) (r : Fin 5000) (q : Fin 32) :
    k0_pay1 x0 x1 (ix2 r q) = ∑ k : Fin 20, x0 (ix2 r k) * x1 (ix2 k q) := by
  unfold k0_pay1
  simp only [shapeCast_self, truncf_apply]
  show FloatOps.matmul (F := Ideal) (φ₁ := .bf16) (φ₂ := .bf16) dot_S5000x20_S20x32_S5000x32_1_0_0_1_n_n none
      x0 x1 _ (ix2 r q) = _
  rw [Ideal.matmul_constant_zero_apply,
    ← Equiv.sum_comp (contrEquiv1 dot_S5000x20_S20x32_S5000x32_1_0_0_1_n_n 20 rfl rfl).symm]
  refine Finset.sum_congr rfl fun k _ => ?_
  have hk := contrEquiv1_symm_val dot_S5000x20_S20x32_S5000x32_1_0_0_1_n_n 20 rfl rfl k
  have hl : dot_S5000x20_S20x32_S5000x32_1_0_0_1_n_n.lhsIdx (ix2 r q)
      ((contrEquiv1 dot_S5000x20_S20x32_S5000x32_1_0_0_1_n_n 20 rfl rfl).symm k) = ix2 r k := by
    funext ax; apply Fin.ext
    match ax with
    | ⟨0, _⟩ => exact lhs0_axis0 _ _
    | ⟨1, _⟩ => exact (lhs0_axis1 _ _).trans hk
  have hr : dot_S5000x20_S20x32_S5000x32_1_0_0_1_n_n.rhsIdx (ix2 r q)
      ((contrEquiv1 dot_S5000x20_S20x32_S5000x32_1_0_0_1_n_n 20 rfl rfl).symm k) = ix2 k q := by
    funext ax; apply Fin.ext
    match ax with
    | ⟨0, _⟩ => exact (rhs0_axis0 _ _).trans hk
    | ⟨1, _⟩ => exact rhs0_axis1 _ _
  rw [hl, hr]

theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

theorem idx_onto0 : ∀ b : Fin 10, ∃ t : Fin cfg0.N, win0_2.index t = ![b.val, 0] :=
  (by decide +kernel : ∀ b : Fin 10, ∃ t : Fin grid0.N, win0_2.index t = ![b.val, 0])

theorem flushed0_eq (c : Dev nD) (t : Fin cfg0.N) :
    (dat0 (F := Ideal) V c).flushed 2 t = ((cfg0.win 2).blk t).view.read (Elt Ideal) (G0 (lhs0 V c) (rhs0 V c)) := by
  show (cfg0.win 2).cut (grid0.coords t) ((dat0 (F := Ideal) V c).after 2 t) = _
  rw [after0_2]
  unfold out0_2
  rw [View.canon_unit_zero hz0]
  simp only [View.ld_unit_zero (S := S5000x20) hz0, View.ld_unit_zero (S := S20x32) hz0]
  obtain ⟨e0, e1, e2, e3, e4, e5⟩ := idx_facts0 t
  funext j
  obtain ⟨r, q, rfl⟩ : ∃ (r : Fin 5000) (q : Fin 32), j = ix2 r q := ⟨j 0, j 1, eq_ix2 j⟩
  show k0_pay1 (iblk0 V c 0 t) (iblk0 V c 1 t) (ix2 r q)
    = G0 (lhs0 V c) (rhs0 V c) (((cfg0.win 2).blk t).view.emb (ix2 r q))
  refine (pay0_apply _ _ r q).trans ?_
  unfold G0
  refine Finset.sum_congr rfl fun k _ => ?_
  have hx : ((cfg0.win 0).blk t).view.emb (ix2 r k)
      = ix2 ((((cfg0.win 2).blk t).view.emb (ix2 r q)) 0) k := by
    funext a; apply Fin.ext
    match a with
    | ⟨0, _⟩ => show win0_0.index t (0 : Fin 2) * 5000 + 1 * r.val = win0_2.index t (0 : Fin 2) * 5000 + 1 * r.val; omega
    | ⟨1, _⟩ => show win0_0.index t (1 : Fin 2) * 20 + 1 * k.val = k.val; omega
  have hw : ((cfg0.win 1).blk t).view.emb (ix2 k q)
      = ix2 k ((((cfg0.win 2).blk t).view.emb (ix2 r q)) 1) := by
    funext a; apply Fin.ext
    match a with
    | ⟨0, _⟩ => show win0_1.index t (0 : Fin 2) * 20 + 1 * k.val = k.val; omega
    | ⟨1, _⟩ => show win0_1.index t (1 : Fin 2) * 32 + 1 * q.val = win0_2.index t (1 : Fin 2) * 32 + 1 * q.val; omega
  show lhs0 V c (((cfg0.win 0).blk t).view.emb (ix2 r k)) * rhs0 V c (((cfg0.win 1).blk t).view.emb (ix2 k q)) = _
  exact congrArg₂ (fun a b => lhs0 V c a * rhs0 V c b) hx hw

theorem mem_blk0 (t : Fin cfg0.N) (i : S50000x32.Idx) :
    i ∈ ((cfg0.win 2).blk t).view.set ↔ ∀ a : Fin 2, win0_2.index t a * S5000x32.size a ≤ (i a).val
      ∧ (i a).val < win0_2.index t a * S5000x32.size a + S5000x32.size a := by
  show i ∈ ((View.whole main_v32).slice (win0_2.rect t)).set ↔ _
  rw [View.set_slice_whole, Rect.mem_set_unit]
  exact Iff.rfl

theorem cover0 (i : S50000x32.Idx) :
    ∃ t : Fin cfg0.N, (cfg0.win 2).flush t = true ∧ i ∈ ((cfg0.win 2).blk t).view.set := by
  have hi0 : (i 0).val < 50000 := (i 0).isLt
  have hi1 : (i 1).val < 32 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

theorem final0 (c : Dev nD) : res0 V c = G0 (lhs0 V c) (rhs0 V c) :=
  (dat0 (F := Ideal) V c).arrAt_eq_of_cover 2 (G0 (lhs0 V c) (rhs0 V c)) (fun t _ => flushed0_eq V c t) cover0

theorem val0 (c : Dev nD) (p : Fin 50000) (q : Fin 32) :
    res0 V c (ix2 p q) = ∑ k : Fin 20, lhs0 V c (ix2 p k) * rhs0 V c (ix2 k q) := by
  rw [final0]; rfl

end Cert.Val
-- ==== Proof.Val.St_2.lean ====
import proofs.«411449_j51797305589934_2_alg».proof.Proof.KI.R2
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Val

open Cert.KernelIdeal Cert.KernelIdeal.Gen Cert.KernelIdeal.Reg
open Idealize.ShloMosaic Idealize.ShloMosaic.TcCoe Idealize.ShloMosaic.Tactic Idealize.ShloMosaic.ValueIdx
open Idealize.SL Idealize.SL.Sem
open Idealize.ShloMosaic.Pipeline (Dat)
open scoped BigOperators

section AnyF
variable {F : FTy → Type} [FloatOps F]

theorem stats2_zoff : (![0, 0] : Fin 2 → Nat) = fun _ => 0 := funext fun a => by fin_cases a <;> rfl

theorem stats2_sout_B (c : Dev nD) (i : grid2.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond2_0 i) (hc1 : ¬cond2_1 i)
    (x0 : Vec F S5000x32 .f32) (x1 : Vec F S1x32 .f32) (xs0 : Vec F S1x32 .f32) :
    sout2_B_0 c i arg1 harg1 arg2 harg2 arg3 harg3 arg4 harg4 hc0 hc1 x0 x1 xs0 = k2_pay2 x0 x1 xs0 := by
  unfold sout2_B_0
  rw [View.read_writes_eq_canon _ _ _ (scover2_B_0 c i arg1 harg1 arg2 harg2 arg3 harg3 arg4 harg4 hc0 hc1 x0 x1 xs0)]
  unfold kernelRun2_B
  dsimp only
  sl_unfold_words
  rw [View.canon_unit_zero stats2_zoff]
  simp only [View.readAt_eq_ld, harg1.read_unread, harg2.read_unread, harg4.read_unread, View.ld_unit_zero (S := S5000x32) stats2_zoff, View.ld_unit_zero (S := S1x32) stats2_zoff]

theorem stats2_sout_C (c : Dev nD) (i : grid2.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond2_0 i) (hc1 : cond2_1 i)
    (x0 : Vec F S5000x32 .f32) (x1 : Vec F S1x32 .f32) (xs0 : Vec F S1x32 .f32) :
    sout2_C_0 c i arg1 harg1 arg2 harg2 arg3 harg3 arg4 harg4 hc0 hc1 x0 x1 xs0 = k2_pay2 x0 x1 xs0 := by
  unfold sout2_C_0
  rw [View.read_writes_eq_canon _ _ _ (scover2_C_0 c i arg1 harg1 arg2 harg2 arg3 harg3 arg4 harg4 hc0 hc1 x0 x1 xs0)]
  unfold kernelRun2_C
  dsimp only
  sl_unfold_words
  rw [View.canon_unit_zero stats2_zoff]
  simp only [View.readAt_eq_ld, harg1.read_unread, harg2.read_unread, harg4.read_unread, View.ld_unit_zero (S := S5000x32) stats2_zoff, View.ld_unit_zero (S := S1x32) stats2_zoff]

theorem stats2_out_C (c : Dev nD) (i : grid2.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond2_0 i) (hc1 : cond2_1 i)
    (x0 : Vec F S5000x32 .f32) (x1 : Vec F S1x32 .f32) (xs0 : Vec F S1x32 .f32) :
    out2_C_2 c i arg1 harg1 arg2 harg2 arg3 harg3 arg4 harg4 hc0 hc1 x0 x1 xs0 = k2_pay2 x0 x1 xs0 := by
  unfold out2_C_2
  rw [View.read_writes_eq_canon _ _ _ (cover2_C_2 c i arg1 harg1 arg2 harg2 arg3 harg3 arg4 harg4 hc0 hc1 x0 x1 xs0)]
  unfold kernelRun2_C
  dsimp only
  sl_unfold_words
  rw [View.canon_unit_zero stats2_zoff]
  simp only [View.readAt_eq_ld, harg1.read_unread, harg2.read_unread, harg4.read_unread, View.ld_unit_zero (S := S5000x32) stats2_zoff, View.ld_unit_zero (S := S1x32) stats2_zoff, View.readCov_unit_zero (S := S1x32) _ stats2_zoff]

theorem stats2_sout_A (c : Dev nD) (i : grid2.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : cond2_0 i) (hc1 : ¬cond2_1 i)
    (x0 : Vec F S5000x32 .f32) (x1 : Vec F S1x32 .f32) :
    sout2_A_0 c i arg1 harg1 arg2 harg2 arg3 harg3 arg4 harg4 hc0 hc1 x0 x1 = k2_pay2 x0 x1 (k2_pay1 (F := F)) := by
  unfold sout2_A_0
  rw [View.read_writes_eq_canon _ _ _ (scover2_A_0 c i arg1 harg1 arg2 harg2 arg3 harg3 arg4 harg4 hc0 hc1 x0 x1)]
  unfold kernelRun2_A
  dsimp only
  sl_unfold_words
  rw [View.canon_cons_unit_zero (S := S1x32) stats2_zoff, View.readCov_unit_zero (S := S1x32) _ stats2_zoff]
  simp only [View.readAt_eq_ld, harg1.read_unread, harg2.read_unread, View.ld_unit_zero (S := S5000x32) stats2_zoff, View.ld_unit_zero (S := S1x32) stats2_zoff]

end AnyF

theorem stats2_pay1_apply (q : Fin 32) : (k2_pay1 (F := Ideal)) (ix2 (0 : Fin 1) q) = 0 := by
  unfold k2_pay1
  refine (congrFun (shapeCast_self _ _) _).trans ?_
  exact Ideal.ofBits_zero_f32

theorem stats2_lift (q : Fin 32) (r : Fin 5000) : reduces_S5000x32_S32.lift (ix1 q) r = ix2 r q :=
  funext fun a => Fin.ext (by match a with | ⟨0, _⟩ => rfl | ⟨1, _⟩ => rfl)

theorem stats2_pay2_apply (x0 : FVec Ideal S5000x32 .f32) (x1 xs0 : FVec Ideal S1x32 .f32) (q : Fin 32) :
    k2_pay2 x0 x1 xs0 (ix2 (0 : Fin 1) q)
      = xs0 (ix2 (0 : Fin 1) q) + ∑ r : Fin 5000, (x0 (ix2 r q) - x1 (ix2 (0 : Fin 1) q)) * (x0 (ix2 r q) - x1 (ix2 (0 : Fin 1) q)) := by
  unfold k2_pay2
  refine (congrFun (shapeCast_self _ _) _).trans ?_
  refine congrArg (fun z => xs0 (ix2 (0 : Fin 1) q) + z) ?_
  refine (shapeCast_a_1a_apply _ _ (0 : Fin 1) q).trans ?_
  refine (Ideal.multiReduction_add_single _ _ reduces_S5000x32_S32 _ _ (ix1 q)).trans ?_
  refine Finset.sum_congr rfl fun (r : Fin 5000) _ => ?_
  rw [stats2_lift q r]
  show (shapeCast S5000x32 x0 _ (ix2 r q) - broadcastTo S5000x32 (shapeCast S1x32 x1 _) _ (ix2 r q))
      * (shapeCast S5000x32 x0 _ (ix2 r q) - broadcastTo S5000x32 (shapeCast S1x32 x1 _) _ (ix2 r q)) = _
  rw [shapeCast_self, shapeCast_self]
  have hb : broadcastTo S5000x32 x1 broadcasts_S1x32_S5000x32 (ix2 r q) = x1 (ix2 (0 : Fin 1) q) := broadcastTo_1b_ab_apply x1 _ r q
  rw [hb]

section AnyF
variable {F : FTy → Type} [FloatOps F]
variable (V : (c : Dev nD) → (b : Ref sig .tc) → Buf (Elt F) ((c : Thread nD τ).loc b))

abbrev stats2_x (c : Dev nD) : Vec F S50000x32 .f32 := V c (Pipeline.arrRef spec2 0)

abbrev stats2_mean (c : Dev nD) : Vec F S1x32 .f32 := V c (Pipeline.arrRef spec2 1)

abbrev stats2_xblk (c : Dev nD) (t : Fin cfg2.N) : Vec F S5000x32 .f32 := iblk2 V c 0 t

abbrev stats2_mblk (c : Dev nD) (t : Fin cfg2.N) : Vec F S1x32 .f32 := iblk2 V c 1 t

theorem stats2_idx : ∀ t : Fin cfg2.N, win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

theorem stats2_xblk_apply (c : Dev nD) (t : Fin cfg2.N) (r : Fin 5000) (q : Fin 32) (p : Fin 50000) (hp : p.val = 5000 * t.val + r.val) :
    stats2_xblk V c t (ix2 r q) = stats2_x V c (ix2 p q) := by
  unfold stats2_xblk stats2_x iblk2
  rw [View.read_apply]
  show V c main_v48_0 _ = V c main_v48_0 _
  congr 1
  funext a
  apply Fin.ext
  match a with
  | ⟨0, _⟩ => show win2_0.index t 0 * 5000 + 1 * r.val = p.val; rw [(stats2_idx t).1]; omega
  | ⟨1, _⟩ => show win2_0.index t 1 * (32 : ℕ) + 1 * q.val = q.val; rw [(stats2_idx t).2.1]; omega

theorem stats2_mblk_apply (c : Dev nD) (t : Fin cfg2.N) (q : Fin 32) :
    stats2_mblk V c t (ix2 (0 : Fin 1) q) = stats2_mean V c (ix2 (0 : Fin 1) q) := by
  unfold stats2_mblk stats2_mean iblk2
  rw [View.read_apply]
  show V c main_v50 _ = V c main_v50 _
  congr 1
  funext a
  apply Fin.ext
  match a with
  | ⟨0, _⟩ => show win2_1.index t 0 * 1 + 1 * 0 = 0; rw [(stats2_idx t).2.2.1]
  | ⟨1, _⟩ => show win2_1.index t 1 * (32 : ℕ) + 1 * q.val = q.val; rw [(stats2_idx t).2.2.2]; omega

end AnyF

section AnyF
variable {F : FTy → Type} [FloatOps F]
variable (V : (c : Dev nD) → (b : Ref sig .tc) → Buf (Elt F) ((c : Thread nD τ).loc b))

theorem stats2_at_first (c : Dev nD) (t : Fin cfg2.N) (h0 : t.val = 0) :
    (outsAt2 V c t.val t.isLt).2 = k2_pay2 (stats2_xblk V c t) (stats2_mblk V c t) (k2_pay1 (F := F)) := by
  have h1 : ¬t.val = 9 := by omega
  rw [outsAt2_A V c t h0 h1]
  dsimp only
  exact stats2_sout_A (F := F) c (grid2.coords t) (ms2_0 t) (hs2_0 t) (ms2_1 t) (hs2_1 t) (ms2_2 t) (hs2_2 t) scM2_0 (Memref.isWhole_whole _) _ _ (iblk2 V c 0 t) (iblk2 V c 1 t)

theorem stats2_at_later (c : Dev nD) (t : Fin cfg2.N) (h0 : ¬t.val = 0) :
    (outsAt2 V c t.val t.isLt).2 = k2_pay2 (stats2_xblk V c t) (stats2_mblk V c t) (outsAt2 V c (t.val - 1) (Nat.lt_of_le_of_lt (Nat.sub_le _ _) t.isLt)).2 := by
  by_cases h1 : t.val = 9
  · rw [outsAt2_C V c t h0 h1]
    dsimp only
    exact stats2_sout_C (F := F) c (grid2.coords t) (ms2_0 t) (hs2_0 t) (ms2_1 t) (hs2_1 t) (ms2_2 t) (hs2_2 t) scM2_0 (Memref.isWhole_whole _) _ _ (iblk2 V c 0 t) (iblk2 V c 1 t) (outsAt2 V c (t.val - 1) (Nat.lt_of_le_of_lt (Nat.sub_le _ _) t.isLt)).2
  · rw [outsAt2_B V c t h0 h1]
    dsimp only
    exact stats2_sout_B (F := F) c (grid2.coords t) (ms2_0 t) (hs2_0 t) (ms2_1 t) (hs2_1 t) (ms2_2 t) (hs2_2 t) scM2_0 (Memref.isWhole_whole _) _ _ (iblk2 V c 0 t) (iblk2 V c 1 t) (outsAt2 V c (t.val - 1) (Nat.lt_of_le_of_lt (Nat.sub_le _ _) t.isLt)).2

theorem stats2_at_last (c : Dev nD) (t : Fin cfg2.N) (h1 : t.val = 9) :
    (outsAt2 V c t.val t.isLt).1 = (outsAt2 V c t.val t.isLt).2 := by
  have h0 : ¬t.val = 0 := by omega
  rw [outsAt2_C V c t h0 h1]
  dsimp only
  exact (stats2_out_C (F := F) c (grid2.coords t) (ms2_0 t) (hs2_0 t) (ms2_1 t) (hs2_1 t) (ms2_2 t) (hs2_2 t) scM2_0 (Memref.isWhole_whole _) _ _ (iblk2 V c 0 t) (iblk2 V c 1 t) (outsAt2 V c (t.val - 1) (Nat.lt_of_le_of_lt (Nat.sub_le _ _) t.isLt)).2).trans
    (stats2_sout_C (F := F) c (grid2.coords t) (ms2_0 t) (hs2_0 t) (ms2_1 t) (hs2_1 t) (ms2_2 t) (hs2_2 t) scM2_0 (Memref.isWhole_whole _) _ _ (iblk2 V c 0 t) (iblk2 V c 1 t) (outsAt2 V c (t.val - 1) (Nat.lt_of_le_of_lt (Nat.sub_le _ _) t.isLt)).2).symm

end AnyF

section AtIdeal
variable (V : (c : Dev nD) → (b : Ref sig .tc) → Buf (Elt Ideal) ((c : Thread nD τ).loc b))

def stats2_sq (c : Dev nD) (q : Fin 32) (j : ℕ) : EReal :=
  if h : j < 50000 then
    (stats2_x V c (ix2 (⟨j, h⟩ : Fin 50000) q) - stats2_mean V c (ix2 (0 : Fin 1) q))
      * (stats2_x V c (ix2 (⟨j, h⟩ : Fin 50000) q) - stats2_mean V c (ix2 (0 : Fin 1) q))
  else 0

theorem stats2_step (c : Dev nD) (t : Fin cfg2.N) (xs0 : FVec Ideal S1x32 .f32) (q : Fin 32) :
    k2_pay2 (stats2_xblk V c t) (stats2_mblk V c t) xs0 (ix2 (0 : Fin 1) q)
      = xs0 (ix2 (0 : Fin 1) q) + ∑ r ∈ Finset.range 5000, stats2_sq V c q (5000 * t.val + r) := by
  refine (stats2_pay2_apply (stats2_xblk V c t) (stats2_mblk V c t) xs0 q).trans ?_
  refine congrArg (fun z => xs0 (ix2 (0 : Fin 1) q) + z) ?_
  rw [Finset.sum_range]
  refine Finset.sum_congr rfl fun (r : Fin 5000) _ => ?_
  have ht : t.val < 10 := lt_of_lt_of_eq t.isLt (show cfg2.N = 10 from N_2)
  have hlt : 5000 * t.val + r.val < 50000 := by have := r.isLt; omega
  unfold stats2_sq
  rw [dif_pos hlt, stats2_xblk_apply V c t r q ⟨5000 * t.val + r.val, hlt⟩ rfl, stats2_mblk_apply V c t q]

theorem stats2_scratch (c : Dev nD) (q : Fin 32) : ∀ (n : ℕ) (h : n < cfg2.N),
    (outsAt2 V c n h).2 (ix2 (0 : Fin 1) q) = ∑ j ∈ Finset.range (5000 * (n + 1)), stats2_sq V c q j
  | 0, h => by
    have e := (congrFun (stats2_at_first V c ⟨0, h⟩ rfl) (ix2 (0 : Fin 1) q)).trans
      (stats2_step V c ⟨0, h⟩ (k2_pay1 (F := Ideal)) q)
    rw [stats2_pay1_apply, zero_add] at e
    refine e.trans ?_
    show ∑ r ∈ Finset.range 5000, stats2_sq V c q (5000 * 0 + r) = ∑ j ∈ Finset.range (5000 * (0 + 1)), stats2_sq V c q j
    simp only [Nat.mul_zero, Nat.zero_add, Nat.mul_one]
  | n + 1, h => by
    have e := (congrFun (stats2_at_later V c ⟨n + 1, h⟩ (Nat.succ_ne_zero n)) (ix2 (0 : Fin 1) q)).trans
      (stats2_step V c ⟨n + 1, h⟩ _ q)
    refine e.trans ?_
    show (outsAt2 V c n _).2 (ix2 (0 : Fin 1) q) + ∑ r ∈ Finset.range 5000, stats2_sq V c q (5000 * (n + 1) + r) = _
    rw [stats2_scratch c q n (Nat.lt_of_succ_lt h), show 5000 * (n + 1 + 1) = 5000 * (n + 1) + 5000 from by omega,
      Finset.sum_range_add]

theorem stats2_total (c : Dev nD) (q : Fin 32) :
    ∑ j ∈ Finset.range 50000, stats2_sq V c q j
      = ∑ p : Fin 50000, (stats2_x V c (ix2 p q) - stats2_mean V c (ix2 (0 : Fin 1) q)) * (stats2_x V c (ix2 p q) - stats2_mean V c (ix2 (0 : Fin 1) q)) := by
  rw [Finset.sum_range]
  refine Finset.sum_congr rfl fun p _ => ?_
  unfold stats2_sq
  rw [dif_pos p.isLt]

end AtIdeal

section AnyF
variable {F : FTy → Type} [FloatOps F]
variable (V : (c : Dev nD) → (b : Ref sig .tc) → Buf (Elt F) ((c : Thread nD τ).loc b))

abbrev stats2_result (c : Dev nD) : Buf (Elt F) ((c : Thread nD τ).loc main_v51) :=
  (outsAt2 V c 9 (by rw [show cfg2.N = 10 from N_2]; decide)).1

theorem stats2_flushed (c : Dev nD) (t : Fin cfg2.N) (hf : (cfg2.win 2).flush t = true) :
    (dat2 V c).flushed 2 t = ((cfg2.win 2).blk t).view.read (Elt F) (stats2_result V c) := by
  have hN : cfg2.N = 10 := N_2
  have h9 : t.val = 9 := by have := (flush2_2 t).mp hf; have := t.isLt; omega
  obtain rfl : t = t2_9 := Fin.ext h9
  show (cfg2.win 2).cut (grid2.coords t2_9) ((dat2 V c).after 2 t2_9) = _
  rw [after2_2]
  have hz' : (fun a => win2_2.index t2_9 a * main_v51.ty.shape.size a) = fun _ => 0 := funext fun a => by fin_cases a <;> decide +kernel
  exact (Memref.read_access_unit_zero (Elt F) main_v51 hz' (fun a => by rw [congrFun hz' a]; simp) (stats2_result V c)).symm

theorem stats2_final (c : Dev nD) : (dat2 V c).arrAt 2 cfg2.N = stats2_result V c :=
  (dat2 V c).arrAt_eq_of_cover 2 (stats2_result V c) (stats2_flushed V c) fun i =>
    ⟨t2_9, (flush2_2 t2_9).mpr rfl, by
      show i ∈ ((View.whole main_v51).slice (win2_2.rect t2_9)).set
      rw [View.set_slice_whole, Rect.mem_set_unit]
      intro a
      have h0 : (i 0 : Nat) < 1 := (i 0).isLt
      have h1 : (i 1 : Nat) < (32 : ℕ) := (i 1).isLt
      match a with
      | ⟨0, _⟩ => show win2_2.index t2_9 0 * win2_2.size 0 ≤ (i 0 : Nat) ∧ (i 0 : Nat) < win2_2.index t2_9 0 * win2_2.size 0 + win2_2.xsize (grid2.coords t2_9) 0
                  rw [show win2_2.index t2_9 0 * win2_2.size 0 = 0 from by decide +kernel, show win2_2.xsize (grid2.coords t2_9) 0 = 1 from by decide +kernel]; omega
      | ⟨1, _⟩ => show win2_2.index t2_9 1 * win2_2.size 1 ≤ (i 1 : Nat) ∧ (i 1 : Nat) < win2_2.index t2_9 1 * win2_2.size 1 + win2_2.xsize (grid2.coords t2_9) 1
                  rw [show win2_2.index t2_9 1 * win2_2.size 1 = 0 from by decide +kernel, show win2_2.xsize (grid2.coords t2_9) 1 = (32 : ℕ) from by decide +kernel]; omega⟩

end AnyF

section AtIdeal
variable (V : (c : Dev nD) → (b : Ref sig .tc) → Buf (Elt Ideal) ((c : Thread nD τ).loc b))

theorem val2 (c : Dev nD) (q : Fin 32) :
    ((dat2 (F := Ideal) V c).arrAt 2 cfg2.N) (ix2 (0 : Fin 1) q)
      = ∑ p : Fin 50000, (stats2_x V c (ix2 p q) - stats2_mean V c (ix2 (0 : Fin 1) q))
          * (stats2_x V c (ix2 p q) - stats2_mean V c (ix2 (0 : Fin 1) q)) := by
  rw [stats2_final V c]
  refine (congrFun (stats2_at_last V c t2_9 rfl) (ix2 (0 : Fin 1) q)).trans ?_
  refine (stats2_scratch V c q 9 t2_9.isLt).trans ?_
  exact stats2_total V c q

end AtIdeal

end Cert.Val

end
-- ==== Proof.Val.P1Pieces_1.lean ====
import proofs.«411449_j51797305589934_2_alg».proof.Proof.KI.R1
import Idealize.ShloMosaic.Lib.Pipeline.Value

set_option maxRecDepth 16384

noncomputable section

namespace Cert.Val

open Cert.KernelIdeal Cert.KernelIdeal.Gen Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

theorem zeroOff1 : (![0, 0] : Fin 2 → Nat) = fun _ => 0 := funext fun a => by fin_cases a <;> rfl

section Values

variable (c : Dev nD) (i : grid1.Coords)
  (arg1 : Memref sig .tc .vmem S5000x32 .f32) (harg1 : arg1.IsWhole) (arg2 : Memref sig .tc .vmem S1x32 .f32) (harg2 : arg2.IsWhole)
  (arg3 : Memref sig .tc .vmem S5000x32 .f32) (harg3 : arg3.IsWhole) (arg4 : Memref sig .tc .vmem S1x32 .f32) (harg4 : arg4.IsWhole)
  (arg5 : Memref sig .tc .vmem S1x32 .f32) (harg5 : arg5.IsWhole)

theorem out1_A_2_eq (hc0 : cond1_0 i) (hc1 : ¬cond1_1 i) (x0 : Vec F S5000x32 .f32) (x1 : Vec F S1x32 .f32) :
    out1_A_2 c i arg1 harg1 arg2 harg2 arg3 harg3 arg4 harg4 arg5 harg5 hc0 hc1 x0 x1 = k1_pay2 x0 x1 := by
  unfold out1_A_2
  rw [View.read_writes_eq_canon _ _ _ (cover1_A_2 c i arg1 harg1 arg2 harg2 arg3 harg3 arg4 harg4 arg5 harg5 hc0 hc1 x0 x1)]
  unfold kernelRun1_A
  dsimp only
  (try sl_unfold_words)
  rw [View.canon_unit_zero zeroOff1]
  simp only [View.readAt_eq_ld, harg1.read_unread, harg2.read_unread, View.ld_unit_zero (S := S5000x32) zeroOff1, View.ld_unit_zero (S := S1x32) zeroOff1]

theorem sout1_A_0_eq (hc0 : cond1_0 i) (hc1 : ¬cond1_1 i) (x0 : Vec F S5000x32 .f32) (x1 : Vec F S1x32 .f32) :
    sout1_A_0 c i arg1 harg1 arg2 harg2 arg3 harg3 arg4 harg4 arg5 harg5 hc0 hc1 x0 x1 = k1_pay3 x0 x1 (k1_pay1 (F := F)) := by
  unfold sout1_A_0
  rw [View.read_writes_eq_canon _ _ _ (scover1_A_0 c i arg1 harg1 arg2 harg2 arg3 harg3 arg4 harg4 arg5 harg5 hc0 hc1 x0 x1)]
  unfold kernelRun1_A
  dsimp only
  sl_unfold_words
  rw [View.canon_cons_unit_zero (S := S1x32) zeroOff1, View.readCov_unit_zero (S := S1x32) _ zeroOff1]
  simp only [View.readAt_eq_ld, harg1.read_unread, harg2.read_unread, View.ld_unit_zero (S := S5000x32) zeroOff1, View.ld_unit_zero (S := S1x32) zeroOff1]

theorem out1_B_2_eq (hc0 : ¬cond1_0 i) (hc1 : ¬cond1_1 i) (x0 : Vec F S5000x32 .f32) (x1 : Vec F S1x32 .f32) (xs0 : Vec F S1x32 .f32) :
    out1_B_2 c i arg1 harg1 arg2 harg2 arg3 harg3 arg4 harg4 arg5 harg5 hc0 hc1 x0 x1 xs0 = k1_pay2 x0 x1 := by
  unfold out1_B_2
  rw [View.read_writes_eq_canon _ _ _ (cover1_B_2 c i arg1 harg1 arg2 harg2 arg3 harg3 arg4 harg4 arg5 harg5 hc0 hc1 x0 x1 xs0)]
  unfold kernelRun1_B
  dsimp only
  (try sl_unfold_words)
  rw [View.canon_unit_zero zeroOff1]
  simp only [View.readAt_eq_ld, harg1.read_unread, harg2.read_unread, View.ld_unit_zero (S := S5000x32) zeroOff1, View.ld_unit_zero (S := S1x32) zeroOff1]

theorem sout1_B_0_eq (hc0 : ¬cond1_0 i) (hc1 : ¬cond1_1 i) (x0 : Vec F S5000x32 .f32) (x1 : Vec F S1x32 .f32) (xs0 : Vec F S1x32 .f32) :
    sout1_B_0 c i arg1 harg1 arg2 harg2 arg3 harg3 arg4 harg4 arg5 harg5 hc0 hc1 x0 x1 xs0 = k1_pay3 x0 x1 xs0 := by
  unfold sout1_B_0
  rw [View.read_writes_eq_canon _ _ _ (scover1_B_0 c i arg1 harg1 arg2 harg2 arg3 harg3 arg4 harg4 arg5 harg5 hc0 hc1 x0 x1 xs0)]
  unfold kernelRun1_B
  dsimp only
  (try sl_unfold_words)
  rw [View.canon_unit_zero zeroOff1]
  simp only [View.readAt_eq_ld, harg1.read_unread, harg2.read_unread, harg5.read_unread, View.ld_unit_zero (S := S5000x32) zeroOff1, View.ld_unit_zero (S := S1x32) zeroOff1]

theorem out1_C_2_eq (hc0 : ¬cond1_0 i) (hc1 : cond1_1 i) (x0 : Vec F S5000x32 .f32) (x1 : Vec F S1x32 .f32) (xs0 : Vec F S1x32 .f32) :
    out1_C_2 c i arg1 harg1 arg2 harg2 arg3 harg3 arg4 harg4 arg5 harg5 hc0 hc1 x0 x1 xs0 = k1_pay2 x0 x1 := by
  unfold out1_C_2
  rw [View.read_writes_eq_canon _ _ _ (cover1_C_2 c i arg1 harg1 arg2 harg2 arg3 harg3 arg4 harg4 arg5 harg5 hc0 hc1 x0 x1 xs0)]
  unfold kernelRun1_C
  dsimp only
  (try sl_unfold_words)
  rw [View.canon_unit_zero zeroOff1]
  simp only [View.readAt_eq_ld, harg1.read_unread, harg2.read_unread, View.ld_unit_zero (S := S5000x32) zeroOff1, View.ld_unit_zero (S := S1x32) zeroOff1]

theorem sout1_C_0_eq (hc0 : ¬cond1_0 i) (hc1 : cond1_1 i) (x0 : Vec F S5000x32 .f32) (x1 : Vec F S1x32 .f32) (xs0 : Vec F S1x32 .f32) :
    sout1_C_0 c i arg1 harg1 arg2 harg2 arg3 harg3 arg4 harg4 arg5 harg5 hc0 hc1 x0 x1 xs0 = k1_pay3 x0 x1 xs0 := by
  unfold sout1_C_0
  rw [View.read_writes_eq_canon _ _ _ (scover1_C_0 c i arg1 harg1 arg2 harg2 arg3 harg3 arg4 harg4 arg5 harg5 hc0 hc1 x0 x1 xs0)]
  unfold kernelRun1_C
  dsimp only
  (try sl_unfold_words)
  rw [View.canon_unit_zero zeroOff1]
  simp only [View.readAt_eq_ld, harg1.read_unread, harg2.read_unread, harg5.read_unread, View.ld_unit_zero (S := S5000x32) zeroOff1, View.ld_unit_zero (S := S1x32) zeroOff1]

theorem out1_C_3_eq (hc0 : ¬cond1_0 i) (hc1 : cond1_1 i) (x0 : Vec F S5000x32 .f32) (x1 : Vec F S1x32 .f32) (xs0 : Vec F S1x32 .f32) :
    out1_C_3 c i arg1 harg1 arg2 harg2 arg3 harg3 arg4 harg4 arg5 harg5 hc0 hc1 x0 x1 xs0 = k1_pay3 x0 x1 xs0 := by
  unfold out1_C_3
  rw [View.read_writes_eq_canon _ _ _ (cover1_C_3 c i arg1 harg1 arg2 harg2 arg3 harg3 arg4 harg4 arg5 harg5 hc0 hc1 x0 x1 xs0)]
  unfold kernelRun1_C
  dsimp only
  sl_unfold_words
  rw [View.canon_unit_zero zeroOff1, View.readCov_unit_zero (S := S1x32) _ zeroOff1]
  simp only [View.readAt_eq_ld, harg1.read_unread, harg2.read_unread, harg5.read_unread, View.ld_unit_zero (S := S5000x32) zeroOff1, View.ld_unit_zero (S := S1x32) zeroOff1]

end Values

theorem outsAt1_block (c : Dev nD) (t : Fin cfg1.N) :
    (outsAt1 V c t.val t.isLt).1 = k1_pay2 (iblk1 V c 0 t) (iblk1 V c 1 t) := by
  have hN : t.val < 10 := lt_of_lt_of_eq t.isLt (show cfg1.N = 10 from N_1)
  by_cases h0 : t.val = 0
  · have h1 : ¬t.val = 9 := by omega
    rw [outsAt1_A V c t h0 h1]; dsimp only
    exact out1_A_2_eq c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t)
  · by_cases h1 : t.val = 9
    · rw [outsAt1_C V c t h0 h1]; dsimp only
      exact out1_C_2_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2
    · rw [outsAt1_B V c t h0 h1]; dsimp only
      exact out1_B_2_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2

theorem outsAt1_scr_first (c : Dev nD) (t : Fin cfg1.N) (h0 : t.val = 0) :
    (outsAt1 V c t.val t.isLt).2.2 = k1_pay3 (iblk1 V c 0 t) (iblk1 V c 1 t) (k1_pay1 (F := F)) := by
  have h1 : ¬t.val = 9 := by omega
  rw [outsAt1_A V c t h0 h1]; dsimp only
  exact sout1_A_0_eq c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t)

theorem outsAt1_scr_next (c : Dev nD) (t : Fin cfg1.N) (h0 : ¬t.val = 0) :
    (outsAt1 V c t.val t.isLt).2.2
      = k1_pay3 (iblk1 V c 0 t) (iblk1 V c 1 t) (outsAt1 V c (t.val - 1) (Nat.lt_of_le_of_lt (Nat.sub_le _ _) t.isLt)).2.2 := by
  by_cases h1 : t.val = 9
  · rw [outsAt1_C V c t h0 h1]; dsimp only
    exact sout1_C_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2
  · rw [outsAt1_B V c t h0 h1]; dsimp only
    exact sout1_B_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2

theorem outsAt1_sum_last (c : Dev nD) (t : Fin cfg1.N) (h1 : t.val = 9) :
    (outsAt1 V c t.val t.isLt).2.1 = (outsAt1 V c t.val t.isLt).2.2 := by
  have h0 : ¬t.val = 0 := by omega
  rw [outsAt1_C V c t h0 h1]; dsimp only
  exact (out1_C_3_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2).trans
    (sout1_C_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2).symm

end Cert.Val

end
-- ==== Proof.Val.P1_1.lean ====
import proofs.«411449_j51797305589934_2_alg».proof.Proof.Val.P1Pieces_1
import Idealize.ShloMosaic.Lib.ValueIdx
import Idealize.ShloMosaic.Lib.ValueLayout
import Idealize.ShloMosaic.Lib.Pipeline.Value
import Idealize.ShloMosaic.PureOps.Ideal.Laws
import Mathlib.Data.Fintype.BigOperators
import Mathlib.Algebra.BigOperators.Group.Finset.Basic

set_option maxRecDepth 16384

noncomputable section

open scoped BigOperators

namespace Cert.Val

open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

abbrev agg1 (c : Dev nD) : FVec Ideal S50000x32 .f32 := V c (Pipeline.arrRef spec1 0)
abbrev bias1 (c : Dev nD) : FVec Ideal S1x32 .f32 := V c (Pipeline.arrRef spec1 1)
abbrev xblk1 (c : Dev nD) (t : Fin cfg1.N) : FVec Ideal S5000x32 .f32 := iblk1 V c 0 t
abbrev bblk1 (c : Dev nD) (t : Fin cfg1.N) : FVec Ideal S1x32 .f32 := iblk1 V c 1 t

def act1 (c : Dev nD) (p : Fin 50000) (q : Fin 32) : EReal :=
  max (agg1 V c (ix2 p q) + bias1 V c (ix2 (0 : Fin 1) q)) 0

def actN1 (c : Dev nD) (q : Fin 32) (n : ℕ) : EReal := if h : n < 50000 then act1 V c ⟨n, h⟩ q else 0

theorem pay1_apply1 (q : Fin 32) : (k1_pay1 (F := Ideal)) (ix2 (0 : Fin 1) q) = 0 := by
  unfold k1_pay1
  refine (congrFun (shapeCast_self _ _) (ix2 (0 : Fin 1) q)).trans ?_
  exact Ideal.ofBits_zero_f32

theorem pay2_apply1 (x0 : FVec Ideal S5000x32 .f32) (x1 : FVec Ideal S1x32 .f32) (a : Fin 5000) (q : Fin 32) :
    k1_pay2 x0 x1 (ix2 a q) = max (x0 (ix2 a q) + x1 (ix2 (0 : Fin 1) q)) 0 := by
  unfold k1_pay2
  show max (shapeCast S5000x32 x0 shapeCasts_S5000x32_S5000x32 (ix2 a q)
      + broadcastTo S5000x32 (shapeCast S1x32 x1 shapeCasts_S1x32_S1x32) broadcasts_S1x32_S5000x32 (ix2 a q))
    (Ideal.ofBits .f32 0x00000000#32) = _
  rw [shapeCast_self, shapeCast_self, broadcastTo_1b_ab_apply, Ideal.ofBits_zero_f32]

theorem colsum_apply1 (v : FVec Ideal S5000x32 .f32) (h : S5000x32.Reduces [0] S32) (hφ : FKind.Formats .f32)
    (hacc : (0x00000000#32 : BitVec 32) = FKind.add.neutral .f32 hφ) (q : Fin 32) :
    multiReduction .add [0] S32 v 0x00000000#32 h hφ hacc (ix1 q) = ∑ a : Fin 5000, v (ix2 a q) := by
  refine (Ideal.multiReduction_add_single v 0x00000000#32 h hφ hacc (ix1 q)).trans ?_
  exact Finset.sum_congr rfl fun a _ => congrArg v (funext fun d => match d with | ⟨0, _⟩ => rfl | ⟨1, _⟩ => rfl)

theorem pay3_apply1 (x0 : FVec Ideal S5000x32 .f32) (x1 : FVec Ideal S1x32 .f32) (s : FVec Ideal S1x32 .f32) (q : Fin 32) :
    k1_pay3 x0 x1 s (ix2 (0 : Fin 1) q) = s (ix2 (0 : Fin 1) q) + ∑ a : Fin 5000, k1_pay2 x0 x1 (ix2 a q) := by
  unfold k1_pay3
  refine (congrFun (shapeCast_self _ _) (ix2 (0 : Fin 1) q)).trans ?_
  refine congrArg (s (ix2 (0 : Fin 1) q) + ·) ?_
  refine (shapeCast_a_1a_apply _ _ (0 : Fin 1) q).trans ?_
  exact colsum_apply1 _ _ _ _ q

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)

theorem xblk1_apply (c : Dev nD) (t : Fin cfg1.N) (a : Fin 5000) (q : Fin 32) (p : Fin 50000) (hp : p.val = 5000 * t.val + a.val) :
    xblk1 V c t (ix2 a q) = agg1 V c (ix2 p q) := by
  show V c (Pipeline.arrRef spec1 0) (((cfg1.win 0).blk t).view.emb (ix2 a q)) = V c (Pipeline.arrRef spec1 0) (ix2 p q)
  refine congrArg _ (funext fun d => Fin.ext ?_)
  obtain ⟨e0, e1, -⟩ := idx_facts1 t
  match d with
  | ⟨0, _⟩ => show win1_0.index t (0 : Fin 2) * 5000 + 1 * a.val = p.val; omega
  | ⟨1, _⟩ => show win1_0.index t (1 : Fin 2) * 32 + 1 * q.val = q.val; omega

theorem bblk1_apply (c : Dev nD) (t : Fin cfg1.N) (q : Fin 32) :
    bblk1 V c t (ix2 (0 : Fin 1) q) = bias1 V c (ix2 (0 : Fin 1) q) := by
  show V c (Pipeline.arrRef spec1 1) (((cfg1.win 1).blk t).view.emb (ix2 (0 : Fin 1) q)) = V c (Pipeline.arrRef spec1 1) (ix2 (0 : Fin 1) q)
  refine congrArg _ (funext fun d => Fin.ext ?_)
  obtain ⟨-, -, e2, e3, -⟩ := idx_facts1 t
  match d with
  | ⟨0, _⟩ => show win1_1.index t (0 : Fin 2) * 1 + 1 * 0 = 0; omega
  | ⟨1, _⟩ => show win1_1.index t (1 : Fin 2) * 32 + 1 * q.val = q.val; omega

theorem blockval1 (c : Dev nD) (t : Fin cfg1.N) (a : Fin 5000) (q : Fin 32) (p : Fin 50000) (hp : p.val = 5000 * t.val + a.val) :
    k1_pay2 (F := Ideal) (xblk1 V c t) (bblk1 V c t) (ix2 a q) = act1 V c p q := by
  refine (pay2_apply1 (xblk1 V c t) (bblk1 V c t) a q).trans ?_
  unfold act1
  rw [xblk1_apply V c t a q p hp, bblk1_apply V c t q]

abbrev scr1 (c : Dev nD) (n : ℕ) (hn : n < cfg1.N) : FVec Ideal S1x32 .f32 := (outsAt1 V c n hn).2.2

theorem blocksum1 (c : Dev nD) (t : Fin cfg1.N) (q : Fin 32) :
    ∑ a : Fin 5000, k1_pay2 (F := Ideal) (xblk1 V c t) (bblk1 V c t) (ix2 a q)
      = ∑ i ∈ Finset.range 5000, actN1 V c q (5000 * t.val + i) := by
  rw [← Fin.sum_univ_eq_sum_range (fun i => actN1 V c q (5000 * t.val + i)) 5000]
  refine Finset.sum_congr rfl fun a _ => ?_
  have hN : t.val < 10 := lt_of_lt_of_eq t.isLt (show cfg1.N = 10 from N_1)
  have hp : 5000 * t.val + a.val < 50000 := by have := a.isLt; omega
  rw [blockval1 V c t a q ⟨5000 * t.val + a.val, hp⟩ rfl]
  unfold actN1; rw [dif_pos hp]

theorem scr1_eq (c : Dev nD) (q : Fin 32) : ∀ (n : ℕ) (hn : n < cfg1.N),
    scr1 V c n hn (ix2 (0 : Fin 1) q) = ∑ i ∈ Finset.range (5000 * (n + 1)), actN1 V c q i
  | 0, hn => by
    refine (congrFun (outsAt1_scr_first V c ⟨0, hn⟩ rfl) (ix2 (0 : Fin 1) q)).trans ?_
    refine (pay3_apply1 (xblk1 V c ⟨0, hn⟩) (bblk1 V c ⟨0, hn⟩) (k1_pay1 (F := Ideal)) q).trans ?_
    rw [pay1_apply1, zero_add, blocksum1 V c ⟨0, hn⟩ q]
    exact Finset.sum_congr rfl fun i _ => by rw [show 5000 * (⟨0, hn⟩ : Fin cfg1.N).val + i = i from by simp]
  | n + 1, hn => by
    refine (congrFun (outsAt1_scr_next V c ⟨n + 1, hn⟩ (Nat.succ_ne_zero n)) (ix2 (0 : Fin 1) q)).trans ?_
    refine (pay3_apply1 (xblk1 V c ⟨n + 1, hn⟩) (bblk1 V c ⟨n + 1, hn⟩) (scr1 V c n (Nat.lt_of_succ_lt hn)) q).trans ?_
    rw [scr1_eq c q n (Nat.lt_of_succ_lt hn), blocksum1 V c ⟨n + 1, hn⟩ q,
      show 5000 * (n + 1 + 1) = 5000 * (n + 1) + 5000 from by omega, Finset.sum_range_add]

theorem total1 (c : Dev nD) (q : Fin 32) : ∑ i ∈ Finset.range 50000, actN1 V c q i = ∑ p : Fin 50000, act1 V c p q := by
  rw [← Fin.sum_univ_eq_sum_range (fun i => actN1 V c q i) 50000]
  exact Finset.sum_congr rfl fun p _ => by unfold actN1; rw [dif_pos p.isLt]

abbrev G1_2 (c : Dev nD) : FVec Ideal S50000x32 .f32 := fun i => act1 V c ⟨(i 0).val, idx2_lt0 i⟩ ⟨(i 1).val, idx2_lt1 i⟩

theorem stored1_2 (c : Dev nD) (t : Fin cfg1.N) (j : S5000x32.Idx) :
    k1_pay2 (F := Ideal) (xblk1 V c t) (bblk1 V c t) j = G1_2 V c (((cfg1.win 2).blk t).view.emb j) := by
  obtain ⟨a, q, rfl⟩ : ∃ (a : Fin 5000) (q : Fin 32), j = ix2 a q := ⟨j 0, j 1, eq_ix2 j⟩
  have hN : t.val < 10 := lt_of_lt_of_eq t.isLt (show cfg1.N = 10 from N_1)
  have hp : 5000 * t.val + a.val < 50000 := by have := a.isLt; omega
  obtain ⟨-, -, -, -, e4, e5, -⟩ := idx_facts1 t
  refine (blockval1 V c t a q ⟨5000 * t.val + a.val, hp⟩ rfl).trans ?_
  show act1 V c _ _ = act1 V c _ _
  congr 1 <;> apply Fin.ext
  · show 5000 * t.val + a.val = win1_2.index t (0 : Fin 2) * 5000 + 1 * a.val; omega
  · show q.val = win1_2.index t (1 : Fin 2) * 32 + 1 * q.val; omega

theorem flushed1_2_eq (c : Dev nD) (t : Fin cfg1.N) :
    (dat1 V c).flushed 2 t = ((cfg1.win 2).blk t).view.read (Elt Ideal) (G1_2 V c) := by
  show (cfg1.win 2).cut (grid1.coords t) ((dat1 V c).after 2 t) = _
  rw [after1_2, outsAt1_block]
  funext j
  exact stored1_2 V c t j

theorem mem_blk1_2 (t : Fin cfg1.N) (i : S50000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole (Pipeline.arrRef spec1 2)).slice (win1_2.rect t)).set ↔ _
  rw [View.set_slice_whole, Rect.mem_set_unit]
  exact Iff.rfl

theorem idx_onto1 : ∀ k : Fin 10, ∃ t : Fin cfg1.N, t.val = k.val :=
  fun k => ⟨⟨k.val, lt_of_lt_of_eq k.isLt N_1.symm⟩, rfl⟩

theorem cover1_2 (i : S50000x32.Idx) : ∃ t : Fin cfg1.N, (cfg1.win 2).flush t = true ∧ i ∈ ((cfg1.win 2).blk t).view.set := by
  have h0 : (i 0).val < 50000 := idx2_lt0 i
  have h1 : (i 1).val < 32 := idx2_lt1 i
  obtain ⟨t, ht⟩ := idx_onto1 ⟨(i 0).val / 5000, by omega⟩
  have ht' : t.val = (i 0).val / 5000 := ht
  obtain ⟨-, -, -, -, e4, e5, -⟩ := idx_facts1 t
  refine ⟨t, flush1_2 t, ?_⟩
  rw [mem_blk1_2]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 32 ≤ (i 1).val ∧ (i 1).val < win1_2.index t (1 : Fin 2) * 32 + 32; omega

theorem val1_bnin (c : Dev nD) (p : Fin 50000) (q : Fin 32) :
    ((dat1 (F := Ideal) V c).arrAt 2 cfg1.N) (ix2 p q) = act1 V c p q :=
  congrFun ((dat1 V c).arrAt_eq_of_cover 2 (G1_2 V c) (fun t _ => flushed1_2_eq V c t) cover1_2) (ix2 p q)

abbrev G1_3 (c : Dev nD) : FVec Ideal S1x32 .f32 := fun i => ∑ p : Fin 50000, act1 V c p ⟨(i 1).val, idx2_lt1 i⟩

theorem read_blk1_3 (G : FVec Ideal S1x32 .f32) (t : Fin cfg1.N) (j : S1x32.Idx) :
    ((cfg1.win 3).blk t).view.read (Elt Ideal) G j = G (((cfg1.win 3).blk t).view.emb j) := rfl

theorem flushed1_3_eq (c : Dev nD) (t : Fin cfg1.N) (hf : (cfg1.win 3).flush t = true) :
    (dat1 V c).flushed 3 t = ((cfg1.win 3).blk t).view.read (Elt Ideal) (G1_3 V c) := by
  have hN : t.val < 10 := lt_of_lt_of_eq t.isLt (show cfg1.N = 10 from N_1)
  have h9 : t.val = 9 := by have := (flush1_3 t).mp hf; omega
  obtain ⟨-, -, -, -, -, -, e6, e7⟩ := idx_facts1 t
  show (cfg1.win 3).cut (grid1.coords t) ((dat1 V c).after 3 t) = _
  rw [after1_3, outsAt1_sum_last V c t h9]
  funext j
  obtain ⟨u, q, rfl⟩ : ∃ (u : Fin 1) (q : Fin 32), j = ix2 u q := ⟨j 0, j 1, eq_ix2 j⟩
  obtain rfl : u = 0 := Subsingleton.elim _ _
  refine (scr1_eq V c q t.val t.isLt).trans ?_
  rw [h9, total1, read_blk1_3]
  simp only [G1_3]
  refine Finset.sum_congr rfl fun p _ => congrArg (act1 V c p) (Fin.ext ?_)
  show q.val = win1_3.index t (1 : Fin 2) * 32 + 1 * q.val; omega

theorem mem_blk1_3 (t : Fin cfg1.N) (i : S1x32.Idx) :
    i ∈ ((cfg1.win 3).blk t).view.set ↔ ∀ a : Fin 2, win1_3.index t a * S1x32.size a ≤ (i a).val ∧ (i a).val < win1_3.index t a * S1x32.size a + S1x32.size a := by
  show i ∈ ((View.whole (Pipeline.arrRef spec1 3)).slice (win1_3.rect t)).set ↔ _
  rw [View.set_slice_whole, Rect.mem_set_unit]
  exact Iff.rfl

theorem cover1_3 (i : S1x32.Idx) : ∃ t : Fin cfg1.N, (cfg1.win 3).flush t = true ∧ i ∈ ((cfg1.win 3).blk t).view.set := by
  have h0 : (i 0).val < 1 := idx2_lt0 i
  have h1 : (i 1).val < 32 := idx2_lt1 i
  obtain ⟨-, -, -, -, -, -, e6, e7⟩ := idx_facts1 t1_9
  refine ⟨t1_9, (flush1_3 t1_9).mpr rfl, ?_⟩
  rw [mem_blk1_3]
  intro a
  match a with
  | ⟨0, _⟩ => show win1_3.index t1_9 (0 : Fin 2) * 1 ≤ (i 0).val ∧ (i 0).val < win1_3.index t1_9 (0 : Fin 2) * 1 + 1; omega
  | ⟨1, _⟩ => show win1_3.index t1_9 (1 : Fin 2) * 32 ≤ (i 1).val ∧ (i 1).val < win1_3.index t1_9 (1 : Fin 2) * 32 + 32; omega

theorem val1_sum (c : Dev nD) (q : Fin 32) :
    ((dat1 (F := Ideal) V c).arrAt 3 cfg1.N) (ix2 (0 : Fin 1) q) = ∑ p : Fin 50000, act1 V c p q :=
  congrFun ((dat1 V c).arrAt_eq_of_cover 3 (G1_3 V c) (fun t hf => flushed1_3_eq V c t hf) cover1_3) (ix2 (0 : Fin 1) q)

end Cert.Val

end
-- ==== Proof.Val.P2_3.lean ====
import proofs.«411449_j51797305589934_2_alg».proof.Proof.KI.R3
import Idealize.ShloMosaic.Lib.Pipeline.Value
import Idealize.ShloMosaic.Lib.ValueIdx
import Idealize.ShloMosaic.Lib.ValueLayout

noncomputable section

namespace Cert.Val

open Cert.KernelIdeal Cert.KernelIdeal.Gen Cert.KernelIdeal.Reg
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

abbrev x3 (c : Dev nD) : Vec Ideal S50000x32 .f32 := V c (Pipeline.arrRef spec3 0)

abbrev mean3 (c : Dev nD) : Vec Ideal S1x32 .f32 := V c (Pipeline.arrRef spec3 1)

abbrev invstd3 (c : Dev nD) : Vec Ideal S1x32 .f32 := V c (Pipeline.arrRef spec3 2)

abbrev g3 (c : Dev nD) : Vec Ideal S1x32 .f32 := V c (Pipeline.arrRef spec3 3)

abbrev beta3 (c : Dev nD) : Vec Ideal S1x32 .f32 := V c (Pipeline.arrRef spec3 4)

def norm3 (X : Vec Ideal S50000x32 .f32) (M I G B : Vec Ideal S1x32 .f32) : Vec Ideal S50000x32 .f32 :=
  fun i => ((X i - M (ix2 0 (i 1))) * I (ix2 0 (i 1))) * G (ix2 0 (i 1)) + B (ix2 0 (i 1))

theorem hz3 : (![0, 0] : Fin 2 → Nat) = fun _ => 0 := funext fun a => by fin_cases a <;> rfl

theorem row3_apply (v : Vec Ideal S1x32 .f32) (r : Fin 5000) (q : Fin 32) :
    broadcastTo S5000x32 v broadcasts_S1x32_S5000x32 (ix2 r q) = v (ix2 0 q) :=
  broadcastTo_apply _ _ _ _ (fun a => by match a with | ⟨0, _⟩ => rfl | ⟨1, _⟩ => rfl)

theorem pay3_apply (b0 : Vec Ideal S5000x32 .f32) (b1 b2 b3 b4 : Vec Ideal S1x32 .f32) (r : Fin 5000) (q : Fin 32) :
    k3_pay1 b0 b1 b2 b3 b4 (ix2 r q)
      = ((b0 (ix2 r q) - b1 (ix2 0 q)) * b2 (ix2 0 q)) * b3 (ix2 0 q) + b4 (ix2 0 q) := by
  unfold k3_pay1
  simp only [addf_apply, mulf_apply, subf_apply, shapeCast_self]
  rw [row3_apply b1 r q, row3_apply b2 r q, row3_apply b3 r q, row3_apply b4 r q]

theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem lt3 (t : Fin cfg3.N) : t.val < 10 := Nat.lt_of_lt_of_eq t.isLt N_3

theorem iblk3_0_apply (c : Dev nD) (t : Fin cfg3.N) (r : Fin 5000) (q : Fin 32) :
    (iblk3 V c 0 t : Vec Ideal S5000x32 .f32) (ix2 r q)
      = x3 V c (ix2 ⟨5000 * t.val + r.val, by have := lt3 t; omega⟩ q) := by
  obtain ⟨e0, e1, -⟩ := idx3 t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * r.val = 5000 * t.val + r.val; rw [e0]; omega
  | ⟨1, _⟩ => show win3_0.index t (1 : Fin 2) * 32 + 1 * q.val = q.val; rw [e1]; omega

theorem iblk3_1_apply (c : Dev nD) (t : Fin cfg3.N) (q : Fin 32) :
    (iblk3 V c 1 t : Vec Ideal S1x32 .f32) (ix2 0 q) = mean3 V c (ix2 0 q) := by
  obtain ⟨-, -, e0, e1, -⟩ := idx3 t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 1 + 1 * 0 = 0; rw [e0]
  | ⟨1, _⟩ => show win3_1.index t (1 : Fin 2) * 32 + 1 * q.val = q.val; rw [e1]; omega

theorem iblk3_2_apply (c : Dev nD) (t : Fin cfg3.N) (q : Fin 32) :
    (iblk3 V c 2 t : Vec Ideal S1x32 .f32) (ix2 0 q) = invstd3 V c (ix2 0 q) := by
  obtain ⟨-, -, -, -, e0, e1, -⟩ := idx3 t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 1 + 1 * 0 = 0; rw [e0]
  | ⟨1, _⟩ => show win3_2.index t (1 : Fin 2) * 32 + 1 * q.val = q.val; rw [e1]; omega

theorem iblk3_3_apply (c : Dev nD) (t : Fin cfg3.N) (q : Fin 32) :
    (iblk3 V c 3 t : Vec Ideal S1x32 .f32) (ix2 0 q) = g3 V c (ix2 0 q) := by
  obtain ⟨-, -, -, -, -, -, e0, e1, -⟩ := idx3 t
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 1 + 1 * 0 = 0; rw [e0]
  | ⟨1, _⟩ => show win3_3.index t (1 : Fin 2) * 32 + 1 * q.val = q.val; rw [e1]; omega

theorem iblk3_4_apply (c : Dev nD) (t : Fin cfg3.N) (q : Fin 32) :
    (iblk3 V c 4 t : Vec Ideal S1x32 .f32) (ix2 0 q) = beta3 V c (ix2 0 q) := by
  obtain ⟨-, -, -, -, -, -, -, -, e0, e1, -⟩ := idx3 t
  unfold iblk3
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * 0 = 0; rw [e0]
  | ⟨1, _⟩ => show win3_4.index t (1 : Fin 2) * 32 + 1 * q.val = q.val; rw [e1]; omega

theorem read_blk3_5 (G : Vec Ideal S50000x32 .f32) (t : Fin cfg3.N) (r : Fin 5000) (q : Fin 32) :
    (((cfg3.win 5).blk t).view.read (Elt Ideal) G : Vec Ideal S5000x32 .f32) (ix2 r q)
      = G (ix2 ⟨5000 * t.val + r.val, by have := lt3 t; omega⟩ q) := by
  obtain ⟨-, -, -, -, -, -, -, -, -, -, e0, e1⟩ := idx3 t
  rw [View.read_apply]
  show G _ = G _
  congr 1
  funext a
  apply Fin.ext
  match a with
  | ⟨0, _⟩ => show win3_5.index t (0 : Fin 2) * 5000 + 1 * r.val = 5000 * t.val + r.val; rw [e0]; omega
  | ⟨1, _⟩ => show win3_5.index t (1 : Fin 2) * 32 + 1 * q.val = q.val; rw [e1]; omega

theorem flushed3_eq (c : Dev nD) (t : Fin cfg3.N) :
    (dat3 V c).flushed 5 t
      = ((cfg3.win 5).blk t).view.read (Elt Ideal) (norm3 (x3 V c) (mean3 V c) (invstd3 V c) (g3 V c) (beta3 V c)) := by
  show (cfg3.win 5).cut (grid3.coords t) ((dat3 V c).after 5 t) = _
  rw [after3_5]
  unfold out3_5
  rw [View.canon_unit_zero hz3]
  simp only [View.ld_unit_zero (S := S5000x32) hz3, View.ld_unit_zero (S := S1x32) hz3]
  have key : (k3_pay1 (iblk3 V c 0 t) (iblk3 V c 1 t) (iblk3 V c 2 t) (iblk3 V c 3 t) (iblk3 V c 4 t) : Vec Ideal S5000x32 .f32)
      = (((cfg3.win 5).blk t).view.read (Elt Ideal) (norm3 (x3 V c) (mean3 V c) (invstd3 V c) (g3 V c) (beta3 V c)) : Vec Ideal S5000x32 .f32) := by
    funext j
    obtain ⟨r, q, rfl⟩ : ∃ (r : Fin 5000) (q : Fin 32), j = ix2 r q := ⟨j 0, j 1, eq_ix2 j⟩
    rw [pay3_apply, read_blk3_5, iblk3_0_apply, iblk3_1_apply, iblk3_2_apply, iblk3_3_apply, iblk3_4_apply]
    rfl
  exact key

theorem mem_blk3_5 (t : Fin cfg3.N) (i : S50000x32.Idx) :
    i ∈ ((cfg3.win 5).blk t).view.set ↔ ∀ a : Fin 2, win3_5.index t a * S5000x32.size a ≤ (i a).val ∧ (i a).val < win3_5.index t a * S5000x32.size a + S5000x32.size a := by
  show i ∈ ((View.whole (Pipeline.arrRef spec3 5)).slice (win3_5.rect t)).set ↔ _
  rw [View.set_slice_whole, Rect.mem_set_unit]
  exact Iff.rfl

theorem rows_covered3 (i : S50000x32.Idx) :
    ∃ t : Fin cfg3.N, (cfg3.win 5).flush t = true ∧ i ∈ ((cfg3.win 5).blk t).view.set := by
  have hi0 : (i 0).val < 50000 := (i 0).isLt
  have hi1 : (i 1).val < 32 := (i 1).isLt
  have hN : cfg3.N = 10 := N_3
  refine ⟨⟨(i 0).val / 5000, by rw [hN]; omega⟩, flush3_5 _, ?_⟩
  obtain ⟨-, -, -, -, -, -, -, -, -, -, e0, e1⟩ := idx3 ⟨(i 0).val / 5000, by rw [hN]; omega⟩
  rw [mem_blk3_5]
  intro a
  match a with
  | ⟨0, _⟩ =>
    show win3_5.index _ (0 : Fin 2) * 5000 ≤ (i 0).val ∧ (i 0).val < win3_5.index _ (0 : Fin 2) * 5000 + 5000
    rw [e0]; show (i 0).val / 5000 * 5000 ≤ (i 0).val ∧ (i 0).val < (i 0).val / 5000 * 5000 + 5000; omega
  | ⟨1, _⟩ =>
    show win3_5.index _ (1 : Fin 2) * 32 ≤ (i 1).val ∧ (i 1).val < win3_5.index _ (1 : Fin 2) * 32 + 32
    rw [e1]; omega

theorem arr3_5 (c : Dev nD) :
    (dat3 (F := Ideal) V c).arrAt 5 cfg3.N = norm3 (x3 V c) (mean3 V c) (invstd3 V c) (g3 V c) (beta3 V c) :=
  (dat3 V c).arrAt_eq_of_cover 5 _ (fun t _ => flushed3_eq V c t) rows_covered3

theorem val3 (c : Dev nD) (p : Fin 50000) (q : Fin 32) :
    ((dat3 (F := Ideal) V c).arrAt 5 cfg3.N : Vec Ideal S50000x32 .f32) (ix2 p q)
      = ((x3 V c (ix2 p q) - mean3 V c (ix2 0 q)) * invstd3 V c (ix2 0 q)) * g3 V c (ix2 0 q) + beta3 V c (ix2 0 q) := by
  rw [arr3_5]
  rfl

end Cert.Val
-- ==== Proof.Val.Bridge1.lean ====
import proofs.«411449_j51797305589934_2_alg».proof.Proof.Val.RefBN1

noncomputable section

namespace Cert.Val

open Idealize.ShloMosaic Idealize.ShloMosaic.ValueIdx Cert.ReferenceIdeal
open scoped BigOperators

theorem bridge1_rot (x i g : EReal) : x * i * g = g * x * i := by
  rw [mul_comm (x * i) g, mul_assoc]

theorem bridge1_mean (agg : S50000x32.Idx → EReal) (b : S32.Idx → EReal) (b2 sum mean : S1x32.Idx → EReal)
    (bnin : S50000x32.Idx → EReal)
    (hb : ∀ q : Fin 32, b2 (ix2 (0 : Fin 1) q) = b (ix1 q))
    (h1 : ∀ (p : Fin 50000) (q : Fin 32), bnin (ix2 p q) = max (agg (ix2 p q) + b2 (ix2 (0 : Fin 1) q)) 0)
    (h2 : ∀ q : Fin 32, sum (ix2 (0 : Fin 1) q) = ∑ p : Fin 50000, bnin (ix2 p q))
    (h3 : ∀ q : Fin 32, mean (ix2 (0 : Fin 1) q) = Ideal.div (sum (ix2 (0 : Fin 1) q)) (Ideal.ofBits .f32 0x47435000#32))
    (q : Fin 32) : mean (ix2 (0 : Fin 1) q) = refMean1 agg b (ix1 q) := by
  rw [h3, h2, refMean1_apply, zero_add]
  simp only [h1, hb]

theorem bridge1_var (agg : S50000x32.Idx → EReal) (b : S32.Idx → EReal) (b2 mean sumsq var : S1x32.Idx → EReal)
    (bnin : S50000x32.Idx → EReal)
    (hb : ∀ q : Fin 32, b2 (ix2 (0 : Fin 1) q) = b (ix1 q))
    (h1 : ∀ (p : Fin 50000) (q : Fin 32), bnin (ix2 p q) = max (agg (ix2 p q) + b2 (ix2 (0 : Fin 1) q)) 0)
    (hm : ∀ q : Fin 32, mean (ix2 (0 : Fin 1) q) = refMean1 agg b (ix1 q))
    (h4 : ∀ q : Fin 32, sumsq (ix2 (0 : Fin 1) q)
      = ∑ p : Fin 50000, (bnin (ix2 p q) - mean (ix2 (0 : Fin 1) q)) * (bnin (ix2 p q) - mean (ix2 (0 : Fin 1) q)))
    (h5 : ∀ q : Fin 32, var (ix2 (0 : Fin 1) q) = Ideal.div (sumsq (ix2 (0 : Fin 1) q)) (Ideal.ofBits .f32 0x47435000#32))
    (q : Fin 32) : var (ix2 (0 : Fin 1) q) = refVar1 agg b (ix1 q) := by
  rw [h5, h4, refVar1_apply, zero_add]
  simp only [h1, hb, hm]

theorem bridge1 (agg : S50000x32.Idx → EReal) (b g beta : S32.Idx → EReal)
    (b2 g2 beta2 sum mean sumsq var invstd : S1x32.Idx → EReal) (bnin hout : S50000x32.Idx → EReal)
    (hb : ∀ q : Fin 32, b2 (ix2 (0 : Fin 1) q) = b (ix1 q))
    (hg : ∀ q : Fin 32, g2 (ix2 (0 : Fin 1) q) = g (ix1 q))
    (hbe : ∀ q : Fin 32, beta2 (ix2 (0 : Fin 1) q) = beta (ix1 q))
    (h1 : ∀ (p : Fin 50000) (q : Fin 32), bnin (ix2 p q) = max (agg (ix2 p q) + b2 (ix2 (0 : Fin 1) q)) 0)
    (h2 : ∀ q : Fin 32, sum (ix2 (0 : Fin 1) q) = ∑ p : Fin 50000, bnin (ix2 p q))
    (h3 : ∀ q : Fin 32, mean (ix2 (0 : Fin 1) q) = Ideal.div (sum (ix2 (0 : Fin 1) q)) (Ideal.ofBits .f32 0x47435000#32))
    (h4 : ∀ q : Fin 32, sumsq (ix2 (0 : Fin 1) q)
      = ∑ p : Fin 50000, (bnin (ix2 p q) - mean (ix2 (0 : Fin 1) q)) * (bnin (ix2 p q) - mean (ix2 (0 : Fin 1) q)))
    (h5 : ∀ q : Fin 32, var (ix2 (0 : Fin 1) q) = Ideal.div (sumsq (ix2 (0 : Fin 1) q)) (Ideal.ofBits .f32 0x47435000#32))
    (h6 : ∀ q : Fin 32, invstd (ix2 (0 : Fin 1) q)
      = Ideal.rsqrt (var (ix2 (0 : Fin 1) q) + Ideal.ofBits .f32 0x3727C5AC#32))
    (h7 : ∀ (p : Fin 50000) (q : Fin 32), hout (ix2 p q)
      = ((bnin (ix2 p q) - mean (ix2 (0 : Fin 1) q)) * invstd (ix2 (0 : Fin 1) q)) * g2 (ix2 (0 : Fin 1) q)
        + beta2 (ix2 (0 : Fin 1) q)) :
    hout = refBN1 agg b g beta := by
  have hm := bridge1_mean agg b b2 sum mean bnin hb h1 h2 h3
  have hv := bridge1_var agg b b2 mean sumsq var bnin hb h1 hm h4 h5
  funext j
  obtain ⟨p, q, rfl⟩ : ∃ (p : Fin 50000) (q : Fin 32), j = ix2 p q := ⟨j 0, j 1, eq_ix2 j⟩
  rw [h7, refBN1_apply, h6, hv, hm, h1, hb, hg, hbe, bridge1_rot _ _ (g (ix1 q))]

end Cert.Val
-- ==== Proof.Val.KL1Core.lean ====
import proofs.«411449_j51797305589934_2_alg».proof.Proof.Val.RefNet
import proofs.«411449_j51797305589934_2_alg».proof.Proof.Val.Bridge1

noncomputable section

namespace Cert.Val

open Idealize.ShloMosaic Idealize.ShloMosaic.ValueIdx Cert.ReferenceIdeal
open scoped BigOperators

theorem dot1_of_entries (x : FVec Ideal S50000x20 .f32) (W : FVec Ideal S20x32 .f32) (xw : S50000x32.Idx → EReal)
    (hxw : ∀ (p : Fin 50000) (q : Fin 32), xw (ix2 p q) = ∑ k : Fin 20, x (ix2 p k) * W (ix2 k q)) :
    xw = Host.dotGeneral dot_S50000x20_S20x32_S50000x32_1_0_0_1_n_n none x W := by
  funext j
  obtain ⟨p, q, rfl⟩ : ∃ (p : Fin 50000) (q : Fin 32), j = ix2 p q := ⟨j 0, j 1, eq_ix2 j⟩
  rw [hxw, refDot1_apply]

theorem kl1_core (x : FVec Ideal S50000x20 .f32) (W : FVec Ideal S20x32 .f32) (b g be : FVec Ideal S32 .f32)
    (ei : IVec S2x800000 32) (ew : FVec Ideal S800000 .f32)
    (xw agg bnin hout : S50000x32.Idx → EReal) (b2 g2 be2 sum mean sumsq var invstd : S1x32.Idx → EReal)
    (hxw : ∀ (p : Fin 50000) (q : Fin 32), xw (ix2 p q) = ∑ k : Fin 20, x (ix2 p k) * W (ix2 k q))
    (hagg : agg = kAgg1 xw (kSrc ei) (kDst ei) (kNorm ei ew))
    (hb : ∀ q : Fin 32, b2 (ix2 (0 : Fin 1) q) = b (ix1 q))
    (hg : ∀ q : Fin 32, g2 (ix2 (0 : Fin 1) q) = g (ix1 q))
    (hbe : ∀ q : Fin 32, be2 (ix2 (0 : Fin 1) q) = be (ix1 q))
    (h1 : ∀ (p : Fin 50000) (q : Fin 32), bnin (ix2 p q) = max (agg (ix2 p q) + b2 (ix2 (0 : Fin 1) q)) 0)
    (h2 : ∀ q : Fin 32, sum (ix2 (0 : Fin 1) q) = ∑ p : Fin 50000, bnin (ix2 p q))
    (h3 : ∀ q : Fin 32, mean (ix2 (0 : Fin 1) q) = Ideal.div (sum (ix2 (0 : Fin 1) q)) (Ideal.ofBits .f32 0x47435000#32))
    (h4 : ∀ q : Fin 32, sumsq (ix2 (0 : Fin 1) q)
      = ∑ p : Fin 50000, (bnin (ix2 p q) - mean (ix2 (0 : Fin 1) q)) * (bnin (ix2 p q) - mean (ix2 (0 : Fin 1) q)))
    (h5 : ∀ q : Fin 32, var (ix2 (0 : Fin 1) q) = Ideal.div (sumsq (ix2 (0 : Fin 1) q)) (Ideal.ofBits .f32 0x47435000#32))
    (h6 : ∀ q : Fin 32, invstd (ix2 (0 : Fin 1) q)
      = Ideal.rsqrt (var (ix2 (0 : Fin 1) q) + Ideal.ofBits .f32 0x3727C5AC#32))
    (h7 : ∀ (p : Fin 50000) (q : Fin 32), hout (ix2 p q)
      = ((bnin (ix2 p q) - mean (ix2 (0 : Fin 1) q)) * invstd (ix2 (0 : Fin 1) q)) * g2 (ix2 (0 : Fin 1) q)
        + be2 (ix2 (0 : Fin 1) q)) :
    hout = refL1 x W b g be ei ew := by
  have e2 : agg = rAgg1 (Host.dotGeneral dot_S50000x20_S20x32_S50000x32_1_0_0_1_n_n none x W) (kSrc ei) (kDst ei)
      (kNorm ei ew) := by
    rw [hagg, kAgg1_eq_rAgg1, dot1_of_entries x W xw hxw]
  unfold refL1
  rw [← e2]
  exact bridge1 agg b g be b2 g2 be2 sum mean sumsq var invstd bnin hout hb hg hbe h1 h2 h3 h4 h5 h6 h7

end Cert.Val

end
-- ==== Proof.Val.KL1.lean ====
import proofs.«411449_j51797305589934_2_alg».proof.Proof.KI.Keep
import proofs.«411449_j51797305589934_2_alg».proof.Proof.Val.Mm0
import proofs.«411449_j51797305589934_2_alg».proof.Proof.Val.St_2
import proofs.«411449_j51797305589934_2_alg».proof.Proof.Val.P1_1
import proofs.«411449_j51797305589934_2_alg».proof.Proof.Val.P2_3
import proofs.«411449_j51797305589934_2_alg».proof.Proof.Val.KL1Core

noncomputable section

namespace Cert.Val

open Cert.KernelIdeal Cert.KernelIdeal.Gen Cert.KernelIdeal.Reg
open Idealize.ShloMosaic Idealize.ShloMosaic.TcCoe Idealize.SL.Sem Idealize.ShloMosaic.ValueIdx
open scoped BigOperators

variable (m : (ℓ : Loc nD τ sig) → Buf (Elt Ideal) ℓ) (c : Dev nD)

abbrev l1_x : S50000x20.Idx → EReal := Y3 m c main_arg0
abbrev l1_W : S20x32.Idx → EReal := Y3 m c main_arg5
abbrev l1_xw : S50000x32.Idx → EReal := Y4 m c main_v32
abbrev l1_src : IVec S850000 32 := Y4 m c main_v3
abbrev l1_dst : IVec S850000 32 := Y4 m c main_v6
abbrev l1_norm : S850000.Idx → EReal := Y4 m c main_v31
abbrev l1_agg : S50000x32.Idx → EReal := Y5 m c main_v46
abbrev l1_b2 : S1x32.Idx → EReal := Y5 m c main_v47
abbrev l1_bnin : S50000x32.Idx → EReal := Y6 m c main_v48_0
abbrev l1_sum : S1x32.Idx → EReal := Y6 m c main_v48_1
abbrev l1_mean : S1x32.Idx → EReal := Y7 m c main_v50
abbrev l1_sumsq : S1x32.Idx → EReal := Y8 m c main_v51
abbrev l1_var : S1x32.Idx → EReal := Y9 m c main_v53
abbrev l1_inv : S1x32.Idx → EReal := Y9 m c main_v56
abbrev l1_g2 : S1x32.Idx → EReal := Y9 m c main_v57
abbrev l1_be2 : S1x32.Idx → EReal := Y9 m c main_v58
abbrev l1_out : S50000x32.Idx → EReal := Y10 m c main_v59

abbrev l1_bnin_s : S50000x32.Idx → EReal := Y7 m c main_v48_0
abbrev l1_bnin_n : S50000x32.Idx → EReal := Y9 m c main_v48_0
abbrev l1_mean_n : S1x32.Idx → EReal := Y9 m c main_v50

theorem l1_bnin_at_stats : l1_bnin_s m c = l1_bnin m c := Y7_keep m c main_v48_0 (by decide)

theorem l1_bnin_at_norm : l1_bnin_n m c = l1_bnin m c :=
  (Y9_keep m c main_v48_0 (by decide)).trans ((Y8_keep m c main_v48_0 (by decide)).trans (Y7_keep m c main_v48_0 (by decide)))

theorem l1_mean_at_norm : l1_mean_n m c = l1_mean m c :=
  (Y9_keep m c main_v50 (by decide)).trans (Y8_keep m c main_v50 (by decide))

theorem l1_xw_eq : l1_xw m c = res0 (E3 m) c := (hF0 m c 2).symm

theorem l1_bnin_eq : l1_bnin m c = ((dat1 (F := Ideal) (E5 m) c).arrAt 2 cfg1.N : S50000x32.Idx → EReal) := (hF1 m c 2).symm

theorem l1_sum_eq : l1_sum m c = ((dat1 (F := Ideal) (E5 m) c).arrAt 3 cfg1.N : S1x32.Idx → EReal) := (hF1 m c 3).symm

theorem l1_sumsq_eq : l1_sumsq m c = ((dat2 (F := Ideal) (E7 m) c).arrAt 2 cfg2.N : S1x32.Idx → EReal) := (hF2 m c 2).symm

theorem l1_out_eq : l1_out m c = ((dat3 (F := Ideal) (E9 m) c).arrAt 5 cfg3.N : S50000x32.Idx → EReal) := (hF3 m c 5).symm

theorem l1_xw_apply (p : Fin 50000) (q : Fin 32) :
    l1_xw m c (ix2 p q) = ∑ k : Fin 20, l1_x m c (ix2 p k) * l1_W m c (ix2 k q) := by
  rw [l1_xw_eq]
  exact val0 (E3 m) c p q

theorem l1_sumsq_apply (q : Fin 32) :
    l1_sumsq m c (ix2 (0 : Fin 1) q)
      = ∑ p : Fin 50000, (l1_bnin m c (ix2 p q) - l1_mean m c (ix2 (0 : Fin 1) q))
          * (l1_bnin m c (ix2 p q) - l1_mean m c (ix2 (0 : Fin 1) q)) := by
  rw [l1_sumsq_eq, ← l1_bnin_at_stats]
  exact val2 (E7 m) c q

theorem kl1_of (x : S50000x20.Idx → EReal) (W : S20x32.Idx → EReal) (b g be : S32.Idx → EReal)
    (ei : IVec S2x800000 32) (ew : S800000.Idx → EReal)
    (hx : l1_x m c = x) (hW : l1_W m c = W)
    (hsrc : l1_src m c = kSrc ei) (hdst : l1_dst m c = kDst ei) (hnorm : l1_norm m c = kNorm ei ew)
    (hagg : l1_agg m c = kAgg1 (l1_xw m c) (l1_src m c) (l1_dst m c) (l1_norm m c))
    (hb2 : ∀ q : Fin 32, l1_b2 m c (ix2 (0 : Fin 1) q) = b (ix1 q))
    (hmean : ∀ q : Fin 32, l1_mean m c (ix2 (0 : Fin 1) q)
      = Ideal.div (l1_sum m c (ix2 (0 : Fin 1) q)) (Ideal.ofBits .f32 0x47435000#32))
    (hvar : ∀ q : Fin 32, l1_var m c (ix2 (0 : Fin 1) q)
      = Ideal.div (l1_sumsq m c (ix2 (0 : Fin 1) q)) (Ideal.ofBits .f32 0x47435000#32))
    (hinv : ∀ q : Fin 32, l1_inv m c (ix2 (0 : Fin 1) q)
      = Ideal.rsqrt (l1_var m c (ix2 (0 : Fin 1) q) + Ideal.ofBits .f32 0x3727C5AC#32))
    (hg2 : ∀ q : Fin 32, l1_g2 m c (ix2 (0 : Fin 1) q) = g (ix1 q))
    (hbe2 : ∀ q : Fin 32, l1_be2 m c (ix2 (0 : Fin 1) q) = be (ix1 q))
    (hv1b : ∀ (p : Fin 50000) (q : Fin 32),
      ((dat1 (F := Ideal) (E5 m) c).arrAt 2 cfg1.N : S50000x32.Idx → EReal) (ix2 p q)
        = max (l1_agg m c (ix2 p q) + l1_b2 m c (ix2 (0 : Fin 1) q)) 0)
    (hv1s : ∀ q : Fin 32,
      ((dat1 (F := Ideal) (E5 m) c).arrAt 3 cfg1.N : S1x32.Idx → EReal) (ix2 (0 : Fin 1) q)
        = ∑ p : Fin 50000, max (l1_agg m c (ix2 p q) + l1_b2 m c (ix2 (0 : Fin 1) q)) 0)
    (hv3 : ∀ (p : Fin 50000) (q : Fin 32),
      ((dat3 (F := Ideal) (E9 m) c).arrAt 5 cfg3.N : S50000x32.Idx → EReal) (ix2 p q)
        = ((l1_bnin_n m c (ix2 p q) - l1_mean_n m c (ix2 (0 : Fin 1) q))
            * l1_inv m c (ix2 (0 : Fin 1) q)) * l1_g2 m c (ix2 (0 : Fin 1) q) + l1_be2 m c (ix2 (0 : Fin 1) q)) :
    l1_out m c = refL1 x W b g be ei ew := by
  have h1 : ∀ (p : Fin 50000) (q : Fin 32),
      l1_bnin m c (ix2 p q) = max (l1_agg m c (ix2 p q) + l1_b2 m c (ix2 (0 : Fin 1) q)) 0 := fun p q => by
    rw [l1_bnin_eq]; exact hv1b p q
  have h2 : ∀ q : Fin 32, l1_sum m c (ix2 (0 : Fin 1) q) = ∑ p : Fin 50000, l1_bnin m c (ix2 p q) := fun q => by
    rw [l1_sum_eq, hv1s q]
    exact Finset.sum_congr rfl fun p _ => (h1 p q).symm
  have h7 : ∀ (p : Fin 50000) (q : Fin 32), l1_out m c (ix2 p q)
      = ((l1_bnin m c (ix2 p q) - l1_mean m c (ix2 (0 : Fin 1) q)) * l1_inv m c (ix2 (0 : Fin 1) q))
          * l1_g2 m c (ix2 (0 : Fin 1) q) + l1_be2 m c (ix2 (0 : Fin 1) q) := fun p q => by
    rw [l1_out_eq, hv3 p q, l1_bnin_at_norm, l1_mean_at_norm]
  refine kl1_core x W b g be ei ew (l1_xw m c) (l1_agg m c) (l1_bnin m c) (l1_out m c) (l1_b2 m c) (l1_g2 m c)
    (l1_be2 m c) (l1_sum m c) (l1_mean m c) (l1_sumsq m c) (l1_var m c) (l1_inv m c) ?_ ?_ hb2 hg2 hbe2 h1 h2 hmean
    (l1_sumsq_apply m c) hvar hinv h7
  · intro p q
    rw [l1_xw_apply, hx, hW]
  · rw [hagg, hsrc, hdst, hnorm]

theorem kl1 (x : S50000x20.Idx → EReal) (W : S20x32.Idx → EReal) (b g be : S32.Idx → EReal)
    (ei : IVec S2x800000 32) (ew : S800000.Idx → EReal)
    (hx : l1_x m c = x) (hW : l1_W m c = W)
    (hsrc : l1_src m c = kSrc ei) (hdst : l1_dst m c = kDst ei) (hnorm : l1_norm m c = kNorm ei ew)
    (hagg : l1_agg m c = kAgg1 (l1_xw m c) (l1_src m c) (l1_dst m c) (l1_norm m c))
    (hb2 : ∀ q : Fin 32, l1_b2 m c (ix2 (0 : Fin 1) q) = b (ix1 q))
    (hmean : ∀ q : Fin 32, l1_mean m c (ix2 (0 : Fin 1) q)
      = Ideal.div (l1_sum m c (ix2 (0 : Fin 1) q)) (Ideal.ofBits .f32 0x47435000#32))
    (hvar : ∀ q : Fin 32, l1_var m c (ix2 (0 : Fin 1) q)
      = Ideal.div (l1_sumsq m c (ix2 (0 : Fin 1) q)) (Ideal.ofBits .f32 0x47435000#32))
    (hinv : ∀ q : Fin 32, l1_inv m c (ix2 (0 : Fin 1) q)
      = Ideal.rsqrt (l1_var m c (ix2 (0 : Fin 1) q) + Ideal.ofBits .f32 0x3727C5AC#32))
    (hg2 : ∀ q : Fin 32, l1_g2 m c (ix2 (0 : Fin 1) q) = g (ix1 q))
    (hbe2 : ∀ q : Fin 32, l1_be2 m c (ix2 (0 : Fin 1) q) = be (ix1 q)) :
    l1_out m c = refL1 x W b g be ei ew :=
  kl1_of m c x W b g be ei ew hx hW hsrc hdst hnorm hagg hb2 hmean hvar hinv hg2 hbe2
    (fun p q => val1_bnin (E5 m) c p q) (fun q => val1_sum (E5 m) c q) (fun p q => val3 (E9 m) c p q)

end Cert.Val

end
-- ==== Proof.Val.Bridge2.lean ====
import proofs.«411449_j51797305589934_2_alg».proof.Proof.Val.RefBN2

noncomputable section

namespace Cert.Val

open Idealize.ShloMosaic Idealize.ShloMosaic.ValueIdx Cert.ReferenceIdeal
open scoped BigOperators

theorem bridge2_rot (x i g : EReal) : x * i * g = g * x * i := by
  rw [mul_comm (x * i) g, mul_assoc]

theorem bridge2_mean (agg : S50000x64.Idx → EReal) (b : S64.Idx → EReal) (b2 sum mean : S1x64.Idx → EReal)
    (bnin : S50000x64.Idx → EReal)
    (hb : ∀ q : Fin 64, b2 (ix2 (0 : Fin 1) q) = b (ix1 q))
    (h1 : ∀ (p : Fin 50000) (q : Fin 64), bnin (ix2 p q) = max (agg (ix2 p q) + b2 (ix2 (0 : Fin 1) q)) 0)
    (h2 : ∀ q : Fin 64, sum (ix2 (0 : Fin 1) q) = ∑ p : Fin 50000, bnin (ix2 p q))
    (h3 : ∀ q : Fin 64, mean (ix2 (0 : Fin 1) q) = Ideal.div (sum (ix2 (0 : Fin 1) q)) (Ideal.ofBits .f32 0x47435000#32))
    (q : Fin 64) : mean (ix2 (0 : Fin 1) q) = refMean2 agg b (ix1 q) := by
  rw [h3, h2, refMean2_apply, zero_add]
  simp only [h1, hb]

theorem bridge2_var (agg : S50000x64.Idx → EReal) (b : S64.Idx → EReal) (b2 mean sumsq var : S1x64.Idx → EReal)
    (bnin : S50000x64.Idx → EReal)
    (hb : ∀ q : Fin 64, b2 (ix2 (0 : Fin 1) q) = b (ix1 q))
    (h1 : ∀ (p : Fin 50000) (q : Fin 64), bnin (ix2 p q) = max (agg (ix2 p q) + b2 (ix2 (0 : Fin 1) q)) 0)
    (hm : ∀ q : Fin 64, mean (ix2 (0 : Fin 1) q) = refMean2 agg b (ix1 q))
    (h4 : ∀ q : Fin 64, sumsq (ix2 (0 : Fin 1) q)
      = ∑ p : Fin 50000, (bnin (ix2 p q) - mean (ix2 (0 : Fin 1) q)) * (bnin (ix2 p q) - mean (ix2 (0 : Fin 1) q)))
    (h5 : ∀ q : Fin 64, var (ix2 (0 : Fin 1) q) = Ideal.div (sumsq (ix2 (0 : Fin 1) q)) (Ideal.ofBits .f32 0x47435000#32))
    (q : Fin 64) : var (ix2 (0 : Fin 1) q) = refVar2 agg b (ix1 q) := by
  rw [h5, h4, refVar2_apply, zero_add]
  simp only [h1, hb, hm]

theorem bridge2 (agg : S50000x64.Idx → EReal) (b g beta : S64.Idx → EReal)
    (b2 g2 beta2 sum mean sumsq var invstd : S1x64.Idx → EReal) (bnin hout : S50000x64.Idx → EReal)
    (hb : ∀ q : Fin 64, b2 (ix2 (0 : Fin 1) q) = b (ix1 q))
    (hg : ∀ q : Fin 64, g2 (ix2 (0 : Fin 1) q) = g (ix1 q))
    (hbe : ∀ q : Fin 64, beta2 (ix2 (0 : Fin 1) q) = beta (ix1 q))
    (h1 : ∀ (p : Fin 50000) (q : Fin 64), bnin (ix2 p q) = max (agg (ix2 p q) + b2 (ix2 (0 : Fin 1) q)) 0)
    (h2 : ∀ q : Fin 64, sum (ix2 (0 : Fin 1) q) = ∑ p : Fin 50000, bnin (ix2 p q))
    (h3 : ∀ q : Fin 64, mean (ix2 (0 : Fin 1) q) = Ideal.div (sum (ix2 (0 : Fin 1) q)) (Ideal.ofBits .f32 0x47435000#32))
    (h4 : ∀ q : Fin 64, sumsq (ix2 (0 : Fin 1) q)
      = ∑ p : Fin 50000, (bnin (ix2 p q) - mean (ix2 (0 : Fin 1) q)) * (bnin (ix2 p q) - mean (ix2 (0 : Fin 1) q)))
    (h5 : ∀ q : Fin 64, var (ix2 (0 : Fin 1) q) = Ideal.div (sumsq (ix2 (0 : Fin 1) q)) (Ideal.ofBits .f32 0x47435000#32))
    (h6 : ∀ q : Fin 64, invstd (ix2 (0 : Fin 1) q)
      = Ideal.rsqrt (var (ix2 (0 : Fin 1) q) + Ideal.ofBits .f32 0x3727C5AC#32))
    (h7 : ∀ (p : Fin 50000) (q : Fin 64), hout (ix2 p q)
      = ((bnin (ix2 p q) - mean (ix2 (0 : Fin 1) q)) * invstd (ix2 (0 : Fin 1) q)) * g2 (ix2 (0 : Fin 1) q)
        + beta2 (ix2 (0 : Fin 1) q)) :
    hout = refBN2 agg b g beta := by
  have hm := bridge2_mean agg b b2 sum mean bnin hb h1 h2 h3
  have hv := bridge2_var agg b b2 mean sumsq var bnin hb h1 hm h4 h5
  funext j
  obtain ⟨p, q, rfl⟩ : ∃ (p : Fin 50000) (q : Fin 64), j = ix2 p q := ⟨j 0, j 1, eq_ix2 j⟩
  rw [h7, refBN2_apply, h6, hv, hm, h1, hb, hg, hbe, bridge2_rot _ _ (g (ix1 q))]

end Cert.Val
-- ==== Proof.Val.Bridge3.lean ====
import proofs.«411449_j51797305589934_2_alg».proof.Proof.Val.RefBN3

noncomputable section

namespace Cert.Val

open Idealize.ShloMosaic Idealize.ShloMosaic.ValueIdx Cert.ReferenceIdeal
open scoped BigOperators

theorem bridge3_rot (x i g : EReal) : x * i * g = g * x * i := by
  rw [mul_comm (x * i) g, mul_assoc]

theorem bridge3_mean (agg : S50000x128.Idx → EReal) (b : S128.Idx → EReal) (b2 sum mean : S1x128.Idx → EReal)
    (bnin : S50000x128.Idx → EReal)
    (hb : ∀ q : Fin 128, b2 (ix2 (0 : Fin 1) q) = b (ix1 q))
    (h1 : ∀ (p : Fin 50000) (q : Fin 128), bnin (ix2 p q) = max (agg (ix2 p q) + b2 (ix2 (0 : Fin 1) q)) 0)
    (h2 : ∀ q : Fin 128, sum (ix2 (0 : Fin 1) q) = ∑ p : Fin 50000, bnin (ix2 p q))
    (h3 : ∀ q : Fin 128, mean (ix2 (0 : Fin 1) q) = Ideal.div (sum (ix2 (0 : Fin 1) q)) (Ideal.ofBits .f32 0x47435000#32))
    (q : Fin 128) : mean (ix2 (0 : Fin 1) q) = refMean3 agg b (ix1 q) := by
  rw [h3, h2, refMean3_apply, zero_add]
  simp only [h1, hb]

theorem bridge3_var (agg : S50000x128.Idx → EReal) (b : S128.Idx → EReal) (b2 mean sumsq var : S1x128.Idx → EReal)
    (bnin : S50000x128.Idx → EReal)
    (hb : ∀ q : Fin 128, b2 (ix2 (0 : Fin 1) q) = b (ix1 q))
    (h1 : ∀ (p : Fin 50000) (q : Fin 128), bnin (ix2 p q) = max (agg (ix2 p q) + b2 (ix2 (0 : Fin 1) q)) 0)
    (hm : ∀ q : Fin 128, mean (ix2 (0 : Fin 1) q) = refMean3 agg b (ix1 q))
    (h4 : ∀ q : Fin 128, sumsq (ix2 (0 : Fin 1) q)
      = ∑ p : Fin 50000, (bnin (ix2 p q) - mean (ix2 (0 : Fin 1) q)) * (bnin (ix2 p q) - mean (ix2 (0 : Fin 1) q)))
    (h5 : ∀ q : Fin 128, var (ix2 (0 : Fin 1) q) = Ideal.div (sumsq (ix2 (0 : Fin 1) q)) (Ideal.ofBits .f32 0x47435000#32))
    (q : Fin 128) : var (ix2 (0 : Fin 1) q) = refVar3 agg b (ix1 q) := by
  rw [h5, h4, refVar3_apply, zero_add]
  simp only [h1, hb, hm]

theorem bridge3 (agg : S50000x128.Idx → EReal) (b g beta : S128.Idx → EReal)
    (b2 g2 beta2 sum mean sumsq var invstd : S1x128.Idx → EReal) (bnin hout : S50000x128.Idx → EReal)
    (hb : ∀ q : Fin 128, b2 (ix2 (0 : Fin 1) q) = b (ix1 q))
    (hg : ∀ q : Fin 128, g2 (ix2 (0 : Fin 1) q) = g (ix1 q))
    (hbe : ∀ q : Fin 128, beta2 (ix2 (0 : Fin 1) q) = beta (ix1 q))
    (h1 : ∀ (p : Fin 50000) (q : Fin 128), bnin (ix2 p q) = max (agg (ix2 p q) + b2 (ix2 (0 : Fin 1) q)) 0)
    (h2 : ∀ q : Fin 128, sum (ix2 (0 : Fin 1) q) = ∑ p : Fin 50000, bnin (ix2 p q))
    (h3 : ∀ q : Fin 128, mean (ix2 (0 : Fin 1) q) = Ideal.div (sum (ix2 (0 : Fin 1) q)) (Ideal.ofBits .f32 0x47435000#32))
    (h4 : ∀ q : Fin 128, sumsq (ix2 (0 : Fin 1) q)
      = ∑ p : Fin 50000, (bnin (ix2 p q) - mean (ix2 (0 : Fin 1) q)) * (bnin (ix2 p q) - mean (ix2 (0 : Fin 1) q)))
    (h5 : ∀ q : Fin 128, var (ix2 (0 : Fin 1) q) = Ideal.div (sumsq (ix2 (0 : Fin 1) q)) (Ideal.ofBits .f32 0x47435000#32))
    (h6 : ∀ q : Fin 128, invstd (ix2 (0 : Fin 1) q)
      = Ideal.rsqrt (var (ix2 (0 : Fin 1) q) + Ideal.ofBits .f32 0x3727C5AC#32))
    (h7 : ∀ (p : Fin 50000) (q : Fin 128), hout (ix2 p q)
      = ((bnin (ix2 p q) - mean (ix2 (0 : Fin 1) q)) * invstd (ix2 (0 : Fin 1) q)) * g2 (ix2 (0 : Fin 1) q)
        + beta2 (ix2 (0 : Fin 1) q)) :
    hout = refBN3 agg b g beta := by
  have hm := bridge3_mean agg b b2 sum mean bnin hb h1 h2 h3
  have hv := bridge3_var agg b b2 mean sumsq var bnin hb h1 hm h4 h5
  funext j
  obtain ⟨p, q, rfl⟩ : ∃ (p : Fin 50000) (q : Fin 128), j = ix2 p q := ⟨j 0, j 1, eq_ix2 j⟩
  rw [h7, refBN3_apply, h6, hv, hm, h1, hb, hg, hbe, bridge3_rot _ _ (g (ix1 q))]

end Cert.Val
-- ==== Proof.Val.P1_13.lean ====
import proofs.«411449_j51797305589934_2_alg».proof.Proof.Val.P1Pieces_13
import Idealize.ShloMosaic.Lib.ValueIdx
import Idealize.ShloMosaic.Lib.ValueLayout
import Idealize.ShloMosaic.Lib.Pipeline.Value
import Idealize.ShloMosaic.PureOps.Ideal.Laws
import Mathlib.Data.Fintype.BigOperators
import Mathlib.Algebra.BigOperators.Group.Finset.Basic

set_option maxRecDepth 16384

noncomputable section

open scoped BigOperators

namespace Cert.Val

open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

abbrev agg13 (c : Dev nD) : FVec Ideal S50000x128 .f32 := V c (Pipeline.arrRef spec13 0)
abbrev bias13 (c : Dev nD) : FVec Ideal S1x128 .f32 := V c (Pipeline.arrRef spec13 1)
abbrev xblk13 (c : Dev nD) (t : Fin cfg13.N) : FVec Ideal S5000x128 .f32 := iblk13 V c 0 t
abbrev bblk13 (c : Dev nD) (t : Fin cfg13.N) : FVec Ideal S1x128 .f32 := iblk13 V c 1 t

def act13 (c : Dev nD) (p : Fin 50000) (q : Fin 128) : EReal :=
  agg13 V c (ix2 p q) + bias13 V c (ix2 (0 : Fin 1) q)

def actN13 (c : Dev nD) (q : Fin 128) (n : ℕ) : EReal := if h : n < 50000 then act13 V c ⟨n, h⟩ q else 0

theorem pay1_apply13 (q : Fin 128) : (k13_pay1 (F := Ideal)) (ix2 (0 : Fin 1) q) = 0 := by
  unfold k13_pay1
  refine (congrFun (shapeCast_self _ _) (ix2 (0 : Fin 1) q)).trans ?_
  exact Ideal.ofBits_zero_f32

theorem pay2_apply13 (x0 : FVec Ideal S5000x128 .f32) (x1 : FVec Ideal S1x128 .f32) (a : Fin 5000) (q : Fin 128) :
    k13_pay2 x0 x1 (ix2 a q) = x0 (ix2 a q) + x1 (ix2 (0 : Fin 1) q) := by
  unfold k13_pay2
  show shapeCast S5000x128 x0 shapeCasts_S5000x128_S5000x128 (ix2 a q)
      + broadcastTo S5000x128 (shapeCast S1x128 x1 shapeCasts_S1x128_S1x128) broadcasts_S1x128_S5000x128 (ix2 a q) = _
  rw [shapeCast_self, shapeCast_self, broadcastTo_1b_ab_apply]

theorem colsum_apply13 (v : FVec Ideal S5000x128 .f32) (h : S5000x128.Reduces [0] S128) (hφ : FKind.Formats .f32)
    (hacc : (0x00000000#32 : BitVec 32) = FKind.add.neutral .f32 hφ) (q : Fin 128) :
    multiReduction .add [0] S128 v 0x00000000#32 h hφ hacc (ix1 q) = ∑ a : Fin 5000, v (ix2 a q) := by
  refine (Ideal.multiReduction_add_single v 0x00000000#32 h hφ hacc (ix1 q)).trans ?_
  exact Finset.sum_congr rfl fun a _ => congrArg v (funext fun d => match d with | ⟨0, _⟩ => rfl | ⟨1, _⟩ => rfl)

theorem pay3_apply13 (x0 : FVec Ideal S5000x128 .f32) (x1 : FVec Ideal S1x128 .f32) (s : FVec Ideal S1x128 .f32) (q : Fin 128) :
    k13_pay3 x0 x1 s (ix2 (0 : Fin 1) q) = s (ix2 (0 : Fin 1) q) + ∑ a : Fin 5000, k13_pay2 x0 x1 (ix2 a q) := by
  unfold k13_pay3
  refine (congrFun (shapeCast_self _ _) (ix2 (0 : Fin 1) q)).trans ?_
  refine congrArg (s (ix2 (0 : Fin 1) q) + ·) ?_
  refine (shapeCast_a_1a_apply _ _ (0 : Fin 1) q).trans ?_
  exact colsum_apply13 _ _ _ _ q

theorem idx_facts13 : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0
    ∧ win13_3.index t (0 : Fin 2) = 0 ∧ win13_3.index t (1 : Fin 2) = 0 :=
  (by decide +kernel : ∀ t : Fin grid13.N, _)

theorem xblk13_apply (c : Dev nD) (t : Fin cfg13.N) (a : Fin 5000) (q : Fin 128) (p : Fin 50000) (hp : p.val = 5000 * t.val + a.val) :
    xblk13 V c t (ix2 a q) = agg13 V c (ix2 p q) := by
  show V c (Pipeline.arrRef spec13 0) (((cfg13.win 0).blk t).view.emb (ix2 a q)) = V c (Pipeline.arrRef spec13 0) (ix2 p q)
  refine congrArg _ (funext fun d => Fin.ext ?_)
  obtain ⟨e0, e1, -⟩ := idx_facts13 t
  match d with
  | ⟨0, _⟩ => show win13_0.index t (0 : Fin 2) * 5000 + 1 * a.val = p.val; omega
  | ⟨1, _⟩ => show win13_0.index t (1 : Fin 2) * 128 + 1 * q.val = q.val; omega

theorem bblk13_apply (c : Dev nD) (t : Fin cfg13.N) (q : Fin 128) :
    bblk13 V c t (ix2 (0 : Fin 1) q) = bias13 V c (ix2 (0 : Fin 1) q) := by
  show V c (Pipeline.arrRef spec13 1) (((cfg13.win 1).blk t).view.emb (ix2 (0 : Fin 1) q)) = V c (Pipeline.arrRef spec13 1) (ix2 (0 : Fin 1) q)
  refine congrArg _ (funext fun d => Fin.ext ?_)
  obtain ⟨-, -, e2, e3, -⟩ := idx_facts13 t
  match d with
  | ⟨0, _⟩ => show win13_1.index t (0 : Fin 2) * 1 + 1 * 0 = 0; omega
  | ⟨1, _⟩ => show win13_1.index t (1 : Fin 2) * 128 + 1 * q.val = q.val; omega

theorem blockval13 (c : Dev nD) (t : Fin cfg13.N) (a : Fin 5000) (q : Fin 128) (p : Fin 50000) (hp : p.val = 5000 * t.val + a.val) :
    k13_pay2 (F := Ideal) (xblk13 V c t) (bblk13 V c t) (ix2 a q) = act13 V c p q := by
  refine (pay2_apply13 (xblk13 V c t) (bblk13 V c t) a q).trans ?_
  unfold act13
  rw [xblk13_apply V c t a q p hp, bblk13_apply V c t q]

abbrev scr13 (c : Dev nD) (n : ℕ) (hn : n < cfg13.N) : FVec Ideal S1x128 .f32 := (outsAt13 V c n hn).2.2

theorem blocksum13 (c : Dev nD) (t : Fin cfg13.N) (q : Fin 128) :
    ∑ a : Fin 5000, k13_pay2 (F := Ideal) (xblk13 V c t) (bblk13 V c t) (ix2 a q)
      = ∑ i ∈ Finset.range 5000, actN13 V c q (5000 * t.val + i) := by
  rw [← Fin.sum_univ_eq_sum_range (fun i => actN13 V c q (5000 * t.val + i)) 5000]
  refine Finset.sum_congr rfl fun a _ => ?_
  have hN : t.val < 10 := lt_of_lt_of_eq t.isLt (show cfg13.N = 10 from N_13)
  have hp : 5000 * t.val + a.val < 50000 := by have := a.isLt; omega
  rw [blockval13 V c t a q ⟨5000 * t.val + a.val, hp⟩ rfl]
  unfold actN13; rw [dif_pos hp]

theorem scr13_eq (c : Dev nD) (q : Fin 128) : ∀ (n : ℕ) (hn : n < cfg13.N),
    scr13 V c n hn (ix2 (0 : Fin 1) q) = ∑ i ∈ Finset.range (5000 * (n + 1)), actN13 V c q i
  | 0, hn => by
    refine (congrFun (outsAt13_scr_first V c ⟨0, hn⟩ rfl) (ix2 (0 : Fin 1) q)).trans ?_
    refine (pay3_apply13 (xblk13 V c ⟨0, hn⟩) (bblk13 V c ⟨0, hn⟩) (k13_pay1 (F := Ideal)) q).trans ?_
    rw [pay1_apply13, zero_add, blocksum13 V c ⟨0, hn⟩ q]
    exact Finset.sum_congr rfl fun i _ => by rw [show 5000 * (⟨0, hn⟩ : Fin cfg13.N).val + i = i from by simp]
  | n + 1, hn => by
    refine (congrFun (outsAt13_scr_next V c ⟨n + 1, hn⟩ (Nat.succ_ne_zero n)) (ix2 (0 : Fin 1) q)).trans ?_
    refine (pay3_apply13 (xblk13 V c ⟨n + 1, hn⟩) (bblk13 V c ⟨n + 1, hn⟩) (scr13 V c n (Nat.lt_of_succ_lt hn)) q).trans ?_
    rw [scr13_eq c q n (Nat.lt_of_succ_lt hn), blocksum13 V c ⟨n + 1, hn⟩ q,
      show 5000 * (n + 1 + 1) = 5000 * (n + 1) + 5000 from by omega, Finset.sum_range_add]

theorem total13 (c : Dev nD) (q : Fin 128) : ∑ i ∈ Finset.range 50000, actN13 V c q i = ∑ p : Fin 50000, act13 V c p q := by
  rw [← Fin.sum_univ_eq_sum_range (fun i => actN13 V c q i) 50000]
  exact Finset.sum_congr rfl fun p _ => by unfold actN13; rw [dif_pos p.isLt]

abbrev G13_2 (c : Dev nD) : FVec Ideal S50000x128 .f32 := fun i => act13 V c ⟨(i 0).val, idx2_lt0 i⟩ ⟨(i 1).val, idx2_lt1 i⟩

theorem stored13_2 (c : Dev nD) (t : Fin cfg13.N) (j : S5000x128.Idx) :
    k13_pay2 (F := Ideal) (xblk13 V c t) (bblk13 V c t) j = G13_2 V c (((cfg13.win 2).blk t).view.emb j) := by
  obtain ⟨a, q, rfl⟩ : ∃ (a : Fin 5000) (q : Fin 128), j = ix2 a q := ⟨j 0, j 1, eq_ix2 j⟩
  have hN : t.val < 10 := lt_of_lt_of_eq t.isLt (show cfg13.N = 10 from N_13)
  have hp : 5000 * t.val + a.val < 50000 := by have := a.isLt; omega
  obtain ⟨-, -, -, -, e4, e5, -⟩ := idx_facts13 t
  refine (blockval13 V c t a q ⟨5000 * t.val + a.val, hp⟩ rfl).trans ?_
  show act13 V c _ _ = act13 V c _ _
  congr 1 <;> apply Fin.ext
  · show 5000 * t.val + a.val = win13_2.index t (0 : Fin 2) * 5000 + 1 * a.val; omega
  · show q.val = win13_2.index t (1 : Fin 2) * 128 + 1 * q.val; omega

theorem flushed13_2_eq (c : Dev nD) (t : Fin cfg13.N) :
    (dat13 V c).flushed 2 t = ((cfg13.win 2).blk t).view.read (Elt Ideal) (G13_2 V c) := by
  show (cfg13.win 2).cut (grid13.coords t) ((dat13 V c).after 2 t) = _
  rw [after13_2, outsAt13_block]
  funext j
  exact stored13_2 V c t j

theorem mem_blk13_2 (t : Fin cfg13.N) (i : S50000x128.Idx) :
    i ∈ ((cfg13.win 2).blk t).view.set ↔ ∀ a : Fin 2, win13_2.index t a * S5000x128.size a ≤ (i a).val ∧ (i a).val < win13_2.index t a * S5000x128.size a + S5000x128.size a := by
  show i ∈ ((View.whole (Pipeline.arrRef spec13 2)).slice (win13_2.rect t)).set ↔ _
  rw [View.set_slice_whole, Rect.mem_set_unit]
  exact Iff.rfl

theorem idx_onto13 : ∀ k : Fin 10, ∃ t : Fin cfg13.N, t.val = k.val :=
  fun k => ⟨⟨k.val, lt_of_lt_of_eq k.isLt N_13.symm⟩, rfl⟩

theorem cover13_2 (i : S50000x128.Idx) : ∃ t : Fin cfg13.N, (cfg13.win 2).flush t = true ∧ i ∈ ((cfg13.win 2).blk t).view.set := by
  have h0 : (i 0).val < 50000 := idx2_lt0 i
  have h1 : (i 1).val < 128 := idx2_lt1 i
  obtain ⟨t, ht⟩ := idx_onto13 ⟨(i 0).val / 5000, by omega⟩
  have ht' : t.val = (i 0).val / 5000 := ht
  obtain ⟨-, -, -, -, e4, e5, -⟩ := idx_facts13 t
  refine ⟨t, flush13_2 t, ?_⟩
  rw [mem_blk13_2]
  intro a
  match a with
  | ⟨0, _⟩ => show win13_2.index t (0 : Fin 2) * 5000 ≤ (i 0).val ∧ (i 0).val < win13_2.index t (0 : Fin 2) * 5000 + 5000; omega
  | ⟨1, _⟩ => show win13_2.index t (1 : Fin 2) * 128 ≤ (i 1).val ∧ (i 1).val < win13_2.index t (1 : Fin 2) * 128 + 128; omega

theorem val13_bnin (c : Dev nD) (p : Fin 50000) (q : Fin 128) :
    ((dat13 (F := Ideal) V c).arrAt 2 cfg13.N) (ix2 p q) = act13 V c p q :=
  congrFun ((dat13 V c).arrAt_eq_of_cover 2 (G13_2 V c) (fun t _ => flushed13_2_eq V c t) cover13_2) (ix2 p q)

abbrev G13_3 (c : Dev nD) : FVec Ideal S1x128 .f32 := fun i => ∑ p : Fin 50000, act13 V c p ⟨(i 1).val, idx2_lt1 i⟩

theorem read_blk13_3 (G : FVec Ideal S1x128 .f32) (t : Fin cfg13.N) (j : S1x128.Idx) :
    ((cfg13.win 3).blk t).view.read (Elt Ideal) G j = G (((cfg13.win 3).blk t).view.emb j) := rfl

theorem flushed13_3_eq (c : Dev nD) (t : Fin cfg13.N) (hf : (cfg13.win 3).flush t = true) :
    (dat13 V c).flushed 3 t = ((cfg13.win 3).blk t).view.read (Elt Ideal) (G13_3 V c) := by
  have hN : t.val < 10 := lt_of_lt_of_eq t.isLt (show cfg13.N = 10 from N_13)
  have h9 : t.val = 9 := by have := (flush13_3 t).mp hf; omega
  obtain ⟨-, -, -, -, -, -, e6, e7⟩ := idx_facts13 t
  show (cfg13.win 3).cut (grid13.coords t) ((dat13 V c).after 3 t) = _
  rw [after13_3, outsAt13_sum_last V c t h9]
  funext j
  obtain ⟨u, q, rfl⟩ : ∃ (u : Fin 1) (q : Fin 128), j = ix2 u q := ⟨j 0, j 1, eq_ix2 j⟩
  obtain rfl : u = 0 := Subsingleton.elim _ _
  refine (scr13_eq V c q t.val t.isLt).trans ?_
  rw [h9, total13, read_blk13_3]
  simp only [G13_3]
  refine Finset.sum_congr rfl fun p _ => congrArg (act13 V c p) (Fin.ext ?_)
  show q.val = win13_3.index t (1 : Fin 2) * 128 + 1 * q.val; omega

theorem mem_blk13_3 (t : Fin cfg13.N) (i : S1x128.Idx) :
    i ∈ ((cfg13.win 3).blk t).view.set ↔ ∀ a : Fin 2, win13_3.index t a * S1x128.size a ≤ (i a).val ∧ (i a).val < win13_3.index t a * S1x128.size a + S1x128.size a := by
  show i ∈ ((View.whole (Pipeline.arrRef spec13 3)).slice (win13_3.rect t)).set ↔ _
  rw [View.set_slice_whole, Rect.mem_set_unit]
  exact Iff.rfl

theorem cover13_3 (i : S1x128.Idx) : ∃ t : Fin cfg13.N, (cfg13.win 3).flush t = true ∧ i ∈ ((cfg13.win 3).blk t).view.set := by
  have h0 : (i 0).val < 1 := idx2_lt0 i
  have h1 : (i 1).val < 128 := idx2_lt1 i
  obtain ⟨-, -, -, -, -, -, e6, e7⟩ := idx_facts13 t13_9
  refine ⟨t13_9, (flush13_3 t13_9).mpr rfl, ?_⟩
  rw [mem_blk13_3]
  intro a
  match a with
  | ⟨0, _⟩ => show win13_3.index t13_9 (0 : Fin 2) * 1 ≤ (i 0).val ∧ (i 0).val < win13_3.index t13_9 (0 : Fin 2) * 1 + 1; omega
  | ⟨1, _⟩ => show win13_3.index t13_9 (1 : Fin 2) * 128 ≤ (i 1).val ∧ (i 1).val < win13_3.index t13_9 (1 : Fin 2) * 128 + 128; omega

theorem val13_sum (c : Dev nD) (q : Fin 128) :
    ((dat13 (F := Ideal) V c).arrAt 3 cfg13.N) (ix2 (0 : Fin 1) q) = ∑ p : Fin 50000, act13 V c p q :=
  congrFun ((dat13 V c).arrAt_eq_of_cover 3 (G13_3 V c) (fun t hf => flushed13_3_eq V c t hf) cover13_3) (ix2 (0 : Fin 1) q)

end Cert.Val

end
-- ==== Proof.Val.P2_15.lean ====
import proofs.«411449_j51797305589934_2_alg».proof.Proof.KI.R15
import Idealize.ShloMosaic.Lib.Pipeline.Value
import Idealize.ShloMosaic.Lib.ValueIdx
import Idealize.ShloMosaic.Lib.ValueLayout
import Idealize.ShloMosaic.PureOps.Ideal.Laws

noncomputable section

namespace Cert.Val

open Cert.KernelIdeal Cert.KernelIdeal.Gen Cert.KernelIdeal.Reg
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

abbrev x15 (c : Dev nD) : Vec Ideal S50000x128 .f32 := V c (Pipeline.arrRef spec15 0)

abbrev mean15 (c : Dev nD) : Vec Ideal S1x128 .f32 := V c (Pipeline.arrRef spec15 1)

abbrev invstd15 (c : Dev nD) : Vec Ideal S1x128 .f32 := V c (Pipeline.arrRef spec15 2)

abbrev g15 (c : Dev nD) : Vec Ideal S1x128 .f32 := V c (Pipeline.arrRef spec15 3)

abbrev beta15 (c : Dev nD) : Vec Ideal S1x128 .f32 := V c (Pipeline.arrRef spec15 4)

def norm15 (X : Vec Ideal S50000x128 .f32) (M I G B : Vec Ideal S1x128 .f32) : Vec Ideal S50000x128 .f32 :=
  fun i => max (((X i - M (ix2 0 (i 1))) * I (ix2 0 (i 1))) * G (ix2 0 (i 1)) + B (ix2 0 (i 1))) 0

theorem hz15 : (![0, 0] : Fin 2 → Nat) = fun _ => 0 := funext fun a => by fin_cases a <;> rfl

theorem row15_apply (v : Vec Ideal S1x128 .f32) (r : Fin 5000) (q : Fin 128) :
    broadcastTo S5000x128 v broadcasts_S1x128_S5000x128 (ix2 r q) = v (ix2 0 q) :=
  broadcastTo_apply _ _ _ _ (fun a => by match a with | ⟨0, _⟩ => rfl | ⟨1, _⟩ => rfl)

theorem pay15_apply (b0 : Vec Ideal S5000x128 .f32) (b1 b2 b3 b4 : Vec Ideal S1x128 .f32) (r : Fin 5000) (q : Fin 128) :
    k15_pay1 b0 b1 b2 b3 b4 (ix2 r q)
      = max (((b0 (ix2 r q) - b1 (ix2 0 q)) * b2 (ix2 0 q)) * b3 (ix2 0 q) + b4 (ix2 0 q)) 0 := by
  unfold k15_pay1
  simp only [maximumf_apply, broadcast_apply, addf_apply, mulf_apply, subf_apply, shapeCast_self]
  rw [row15_apply b1 r q, row15_apply b2 r q, row15_apply b3 r q, row15_apply b4 r q]

  show max _ (Ideal.ofBits .f32 0x00000000#32) = _
  rw [Ideal.ofBits_zero_f32]

theorem idx15 : ∀ t : Fin cfg15.N,
    win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0
    ∧ win15_5.index t (0 : Fin 2) = t.val ∧ win15_5.index t (1 : Fin 2) = 0 :=
  (by decide +kernel : ∀ t : Fin grid15.N, _)

theorem lt15 (t : Fin cfg15.N) : t.val < 10 := Nat.lt_of_lt_of_eq t.isLt N_15

theorem iblk15_0_apply (c : Dev nD) (t : Fin cfg15.N) (r : Fin 5000) (q : Fin 128) :
    (iblk15 V c 0 t : Vec Ideal S5000x128 .f32) (ix2 r q)
      = x15 V c (ix2 ⟨5000 * t.val + r.val, by have := lt15 t; omega⟩ q) := by
  obtain ⟨e0, e1, -⟩ := idx15 t
  unfold iblk15
  rw [View.read_apply]
  show V c (Pipeline.arrRef spec15 0) _ = V c (Pipeline.arrRef spec15 0) _
  congr 1
  funext a
  apply Fin.ext
  match a with
  | ⟨0, _⟩ => show win15_0.index t (0 : Fin 2) * 5000 + 1 * r.val = 5000 * t.val + r.val; rw [e0]; omega
  | ⟨1, _⟩ => show win15_0.index t (1 : Fin 2) * 128 + 1 * q.val = q.val; rw [e1]; omega

theorem iblk15_1_apply (c : Dev nD) (t : Fin cfg15.N) (q : Fin 128) :
    (iblk15 V c 1 t : Vec Ideal S1x128 .f32) (ix2 0 q) = mean15 V c (ix2 0 q) := by
  obtain ⟨-, -, e0, e1, -⟩ := idx15 t
  unfold iblk15
  rw [View.read_apply]
  show V c (Pipeline.arrRef spec15 1) _ = V c (Pipeline.arrRef spec15 1) _
  congr 1
  funext a
  apply Fin.ext
  match a with
  | ⟨0, _⟩ => show win15_1.index t (0 : Fin 2) * 1 + 1 * 0 = 0; rw [e0]
  | ⟨1, _⟩ => show win15_1.index t (1 : Fin 2) * 128 + 1 * q.val = q.val; rw [e1]; omega

theorem iblk15_2_apply (c : Dev nD) (t : Fin cfg15.N) (q : Fin 128) :
    (iblk15 V c 2 t : Vec Ideal S1x128 .f32) (ix2 0 q) = invstd15 V c (ix2 0 q) := by
  obtain ⟨-, -, -, -, e0, e1, -⟩ := idx15 t
  unfold iblk15
  rw [View.read_apply]
  show V c (Pipeline.arrRef spec15 2) _ = V c (Pipeline.arrRef spec15 2) _
  congr 1
  funext a
  apply Fin.ext
  match a with
  | ⟨0, _⟩ => show win15_2.index t (0 : Fin 2) * 1 + 1 * 0 = 0; rw [e0]
  | ⟨1, _⟩ => show win15_2.index t (1 : Fin 2) * 128 + 1 * q.val = q.val; rw [e1]; omega

theorem iblk15_3_apply (c : Dev nD) (t : Fin cfg15.N) (q : Fin 128) :
    (iblk15 V c 3 t : Vec Ideal S1x128 .f32) (ix2 0 q) = g15 V c (ix2 0 q) := by
  obtain ⟨-, -, -, -, -, -, e0, e1, -⟩ := idx15 t
  unfold iblk15
  rw [View.read_apply]
  show V c (Pipeline.arrRef spec15 3) _ = V c (Pipeline.arrRef spec15 3) _
  congr 1
  funext a
  apply Fin.ext
  match a with
  | ⟨0, _⟩ => show win15_3.index t (0 : Fin 2) * 1 + 1 * 0 = 0; rw [e0]
  | ⟨1, _⟩ => show win15_3.index t (1 : Fin 2) * 128 + 1 * q.val = q.val; rw [e1]; omega

theorem iblk15_4_apply (c : Dev nD) (t : Fin cfg15.N) (q : Fin 128) :
    (iblk15 V c 4 t : Vec Ideal S1x128 .f32) (ix2 0 q) = beta15 V c (ix2 0 q) := by
  obtain ⟨-, -, -, -, -, -, -, -, e0, e1, -⟩ := idx15 t
  unfold iblk15
  rw [View.read_apply]
  show V c (Pipeline.arrRef spec15 4) _ = V c (Pipeline.arrRef spec15 4) _
  congr 1
  funext a
  apply Fin.ext
  match a with
  | ⟨0, _⟩ => show win15_4.index t (0 : Fin 2) * 1 + 1 * 0 = 0; rw [e0]
  | ⟨1, _⟩ => show win15_4.index t (1 : Fin 2) * 128 + 1 * q.val = q.val; rw [e1]; omega

theorem read_blk15_5 (G : Vec Ideal S50000x128 .f32) (t : Fin cfg15.N) (r : Fin 5000) (q : Fin 128) :
    (((cfg15.win 5).blk t).view.read (Elt Ideal) G : Vec Ideal S5000x128 .f32) (ix2 r q)
      = G (ix2 ⟨5000 * t.val + r.val, by have := lt15 t; omega⟩ q) := by
  obtain ⟨-, -, -, -, -, -, -, -, -, -, e0, e1⟩ := idx15 t
  rw [View.read_apply]
  show G _ = G _
  congr 1
  funext a
  apply Fin.ext
  match a with
  | ⟨0, _⟩ => show win15_5.index t (0 : Fin 2) * 5000 + 1 * r.val = 5000 * t.val + r.val; rw [e0]; omega
  | ⟨1, _⟩ => show win15_5.index t (1 : Fin 2) * 128 + 1 * q.val = q.val; rw [e1]; omega

theorem flushed15_eq (c : Dev nD) (t : Fin cfg15.N) :
    (dat15 V c).flushed 5 t
      = ((cfg15.win 5).blk t).view.read (Elt Ideal) (norm15 (x15 V c) (mean15 V c) (invstd15 V c) (g15 V c) (beta15 V c)) := by
  show (cfg15.win 5).cut (grid15.coords t) ((dat15 V c).after 5 t) = _
  rw [after15_5]
  unfold out15_5
  rw [View.canon_unit_zero hz15]
  simp only [View.ld_unit_zero (S := S5000x128) hz15, View.ld_unit_zero (S := S1x128) hz15]
  have key : (k15_pay1 (iblk15 V c 0 t) (iblk15 V c 1 t) (iblk15 V c 2 t) (iblk15 V c 3 t) (iblk15 V c 4 t) : Vec Ideal S5000x128 .f32)
      = (((cfg15.win 5).blk t).view.read (Elt Ideal) (norm15 (x15 V c) (mean15 V c) (invstd15 V c) (g15 V c) (beta15 V c)) : Vec Ideal S5000x128 .f32) := by
    funext j
    obtain ⟨r, q, rfl⟩ : ∃ (r : Fin 5000) (q : Fin 128), j = ix2 r q := ⟨j 0, j 1, eq_ix2 j⟩
    rw [pay15_apply, read_blk15_5, iblk15_0_apply, iblk15_1_apply, iblk15_2_apply, iblk15_3_apply, iblk15_4_apply]
    rfl
  exact key

theorem mem_blk15_5 (t : Fin cfg15.N) (i : S50000x128.Idx) :
    i ∈ ((cfg15.win 5).blk t).view.set ↔ ∀ a : Fin 2, win15_5.index t a * S5000x128.size a ≤ (i a).val ∧ (i a).val < win15_5.index t a * S5000x128.size a + S5000x128.size a := by
  show i ∈ ((View.whole (Pipeline.arrRef spec15 5)).slice (win15_5.rect t)).set ↔ _
  rw [View.set_slice_whole, Rect.mem_set_unit]
  exact Iff.rfl

theorem rows_covered15 (i : S50000x128.Idx) :
    ∃ t : Fin cfg15.N, (cfg15.win 5).flush t = true ∧ i ∈ ((cfg15.win 5).blk t).view.set := by
  have hi0 : (i 0).val < 50000 := (i 0).isLt
  have hi1 : (i 1).val < 128 := (i 1).isLt
  have hN : cfg15.N = 10 := N_15
  refine ⟨⟨(i 0).val / 5000, by rw [hN]; omega⟩, flush15_5 _, ?_⟩
  obtain ⟨-, -, -, -, -, -, -, -, -, -, e0, e1⟩ := idx15 ⟨(i 0).val / 5000, by rw [hN]; omega⟩
  rw [mem_blk15_5]
  intro a
  match a with
  | ⟨0, _⟩ =>
    show win15_5.index _ (0 : Fin 2) * 5000 ≤ (i 0).val ∧ (i 0).val < win15_5.index _ (0 : Fin 2) * 5000 + 5000
    rw [e0]; show (i 0).val / 5000 * 5000 ≤ (i 0).val ∧ (i 0).val < (i 0).val / 5000 * 5000 + 5000; omega
  | ⟨1, _⟩ =>
    show win15_5.index _ (1 : Fin 2) * 128 ≤ (i 1).val ∧ (i 1).val < win15_5.index _ (1 : Fin 2) * 128 + 128
    rw [e1]; omega

theorem arr15_5 (c : Dev nD) :
    (dat15 (F := Ideal) V c).arrAt 5 cfg15.N = norm15 (x15 V c) (mean15 V c) (invstd15 V c) (g15 V c) (beta15 V c) :=
  (dat15 V c).arrAt_eq_of_cover 5 _ (fun t _ => flushed15_eq V c t) rows_covered15

theorem val15 (c : Dev nD) (p : Fin 50000) (q : Fin 128) :
    ((dat15 (F := Ideal) V c).arrAt 5 cfg15.N : Vec Ideal S50000x128 .f32) (ix2 p q)
      = max (((x15 V c (ix2 p q) - mean15 V c (ix2 0 q)) * invstd15 V c (ix2 0 q)) * g15 V c (ix2 0 q) + beta15 V c (ix2 0 q)) 0 := by
  rw [arr15_5]
  rfl

end Cert.Val
-- ==== Proof.Val.Bridge4.lean ====
import proofs.«411449_j51797305589934_2_alg».proof.Proof.Val.RefBN4

noncomputable section

namespace Cert.Val

open Idealize.ShloMosaic Idealize.ShloMosaic.ValueIdx Cert.ReferenceIdeal
open scoped BigOperators

theorem bridge4_rot (x i g : EReal) : x * i * g = g * x * i := by
  rw [mul_comm (x * i) g, mul_assoc]

theorem bridge4_mean (agg : S50000x128.Idx → EReal) (b : S128.Idx → EReal) (b2 sum mean : S1x128.Idx → EReal)
    (bnin : S50000x128.Idx → EReal)
    (hb : ∀ q : Fin 128, b2 (ix2 (0 : Fin 1) q) = b (ix1 q))
    (h1 : ∀ (p : Fin 50000) (q : Fin 128), bnin (ix2 p q) = agg (ix2 p q) + b2 (ix2 (0 : Fin 1) q))
    (h2 : ∀ q : Fin 128, sum (ix2 (0 : Fin 1) q) = ∑ p : Fin 50000, bnin (ix2 p q))
    (h3 : ∀ q : Fin 128, mean (ix2 (0 : Fin 1) q) = Ideal.div (sum (ix2 (0 : Fin 1) q)) (Ideal.ofBits .f32 0x47435000#32))
    (q : Fin 128) : mean (ix2 (0 : Fin 1) q) = refMean4 agg b (ix1 q) := by
  rw [h3, h2, refMean4_apply, zero_add]
  simp only [h1, hb]

theorem bridge4_var (agg : S50000x128.Idx → EReal) (b : S128.Idx → EReal) (b2 mean sumsq var : S1x128.Idx → EReal)
    (bnin : S50000x128.Idx → EReal)
    (hb : ∀ q : Fin 128, b2 (ix2 (0 : Fin 1) q) = b (ix1 q))
    (h1 : ∀ (p : Fin 50000) (q : Fin 128), bnin (ix2 p q) = agg (ix2 p q) + b2 (ix2 (0 : Fin 1) q))
    (hm : ∀ q : Fin 128, mean (ix2 (0 : Fin 1) q) = refMean4 agg b (ix1 q))
    (h4 : ∀ q : Fin 128, sumsq (ix2 (0 : Fin 1) q)
      = ∑ p : Fin 50000, (bnin (ix2 p q) - mean (ix2 (0 : Fin 1) q)) * (bnin (ix2 p q) - mean (ix2 (0 : Fin 1) q)))
    (h5 : ∀ q : Fin 128, var (ix2 (0 : Fin 1) q) = Ideal.div (sumsq (ix2 (0 : Fin 1) q)) (Ideal.ofBits .f32 0x47435000#32))
    (q : Fin 128) : var (ix2 (0 : Fin 1) q) = refVar4 agg b (ix1 q) := by
  rw [h5, h4, refVar4_apply, zero_add]
  simp only [h1, hb, hm]

theorem bridge4 (agg : S50000x128.Idx → EReal) (b g beta : S128.Idx → EReal)
    (b2 g2 beta2 sum mean sumsq var invstd : S1x128.Idx → EReal) (bnin hout : S50000x128.Idx → EReal)
    (hb : ∀ q : Fin 128, b2 (ix2 (0 : Fin 1) q) = b (ix1 q))
    (hg : ∀ q : Fin 128, g2 (ix2 (0 : Fin 1) q) = g (ix1 q))
    (hbe : ∀ q : Fin 128, beta2 (ix2 (0 : Fin 1) q) = beta (ix1 q))
    (h1 : ∀ (p : Fin 50000) (q : Fin 128), bnin (ix2 p q) = agg (ix2 p q) + b2 (ix2 (0 : Fin 1) q))
    (h2 : ∀ q : Fin 128, sum (ix2 (0 : Fin 1) q) = ∑ p : Fin 50000, bnin (ix2 p q))
    (h3 : ∀ q : Fin 128, mean (ix2 (0 : Fin 1) q) = Ideal.div (sum (ix2 (0 : Fin 1) q)) (Ideal.ofBits .f32 0x47435000#32))
    (h4 : ∀ q : Fin 128, sumsq (ix2 (0 : Fin 1) q)
      = ∑ p : Fin 50000, (bnin (ix2 p q) - mean (ix2 (0 : Fin 1) q)) * (bnin (ix2 p q) - mean (ix2 (0 : Fin 1) q)))
    (h5 : ∀ q : Fin 128, var (ix2 (0 : Fin 1) q) = Ideal.div (sumsq (ix2 (0 : Fin 1) q)) (Ideal.ofBits .f32 0x47435000#32))
    (h6 : ∀ q : Fin 128, invstd (ix2 (0 : Fin 1) q)
      = Ideal.rsqrt (var (ix2 (0 : Fin 1) q) + Ideal.ofBits .f32 0x3727C5AC#32))
    (h7 : ∀ (p : Fin 50000) (q : Fin 128), hout (ix2 p q)
      = max (((bnin (ix2 p q) - mean (ix2 (0 : Fin 1) q)) * invstd (ix2 (0 : Fin 1) q)) * g2 (ix2 (0 : Fin 1) q)
        + beta2 (ix2 (0 : Fin 1) q)) 0) :
    hout = refAct4 agg b g beta := by
  have hm := bridge4_mean agg b b2 sum mean bnin hb h1 h2 h3
  have hv := bridge4_var agg b b2 mean sumsq var bnin hb h1 hm h4 h5
  funext j
  obtain ⟨p, q, rfl⟩ : ∃ (p : Fin 50000) (q : Fin 128), j = ix2 p q := ⟨j 0, j 1, eq_ix2 j⟩
  rw [h7, refAct4_apply, h6, hv, hm, h1, hb, hg, hbe, bridge4_rot _ _ (g (ix1 q))]

end Cert.Val
-- ==== Proof.Val.KL4Core.lean ====
import proofs.«411449_j51797305589934_2_alg».proof.Proof.Val.RefNet
import proofs.«411449_j51797305589934_2_alg».proof.Proof.Val.Bridge4

noncomputable section

namespace Cert.Val

open Idealize.ShloMosaic Idealize.ShloMosaic.ValueIdx Cert.ReferenceIdeal
open scoped BigOperators

theorem dot4_of_entries (x : FVec Ideal S50000x128 .f32) (W : FVec Ideal S128x128 .f32) (xw : S50000x128.Idx → EReal)
    (hxw : ∀ (p : Fin 50000) (q : Fin 128), xw (ix2 p q) = ∑ k : Fin 128, x (ix2 p k) * W (ix2 k q)) :
    xw = Host.dotGeneral dot_S50000x128_S128x128_S50000x128_1_0_0_1_n_n none x W := by
  funext j
  obtain ⟨p, q, rfl⟩ : ∃ (p : Fin 50000) (q : Fin 128), j = ix2 p q := ⟨j 0, j 1, eq_ix2 j⟩
  rw [hxw, refDot4_apply]

theorem kl4_core (x : FVec Ideal S50000x128 .f32) (W : FVec Ideal S128x128 .f32) (b g be : FVec Ideal S128 .f32)
    (ei : IVec S2x800000 32) (ew : FVec Ideal S800000 .f32)
    (xw agg bnin hout : S50000x128.Idx → EReal) (b2 g2 be2 sum mean sumsq var invstd : S1x128.Idx → EReal)
    (hxw : ∀ (p : Fin 50000) (q : Fin 128), xw (ix2 p q) = ∑ k : Fin 128, x (ix2 p k) * W (ix2 k q))
    (hagg : agg = kAgg3 xw (kSrc ei) (kDst ei) (kNorm ei ew))
    (hb : ∀ q : Fin 128, b2 (ix2 (0 : Fin 1) q) = b (ix1 q))
    (hg : ∀ q : Fin 128, g2 (ix2 (0 : Fin 1) q) = g (ix1 q))
    (hbe : ∀ q : Fin 128, be2 (ix2 (0 : Fin 1) q) = be (ix1 q))
    (h1 : ∀ (p : Fin 50000) (q : Fin 128), bnin (ix2 p q) = agg (ix2 p q) + b2 (ix2 (0 : Fin 1) q))
    (h2 : ∀ q : Fin 128, sum (ix2 (0 : Fin 1) q) = ∑ p : Fin 50000, bnin (ix2 p q))
    (h3 : ∀ q : Fin 128, mean (ix2 (0 : Fin 1) q) = Ideal.div (sum (ix2 (0 : Fin 1) q)) (Ideal.ofBits .f32 0x47435000#32))
    (h4 : ∀ q : Fin 128, sumsq (ix2 (0 : Fin 1) q)
      = ∑ p : Fin 50000, (bnin (ix2 p q) - mean (ix2 (0 : Fin 1) q)) * (bnin (ix2 p q) - mean (ix2 (0 : Fin 1) q)))
    (h5 : ∀ q : Fin 128, var (ix2 (0 : Fin 1) q) = Ideal.div (sumsq (ix2 (0 : Fin 1) q)) (Ideal.ofBits .f32 0x47435000#32))
    (h6 : ∀ q : Fin 128, invstd (ix2 (0 : Fin 1) q)
      = Ideal.rsqrt (var (ix2 (0 : Fin 1) q) + Ideal.ofBits .f32 0x3727C5AC#32))
    (h7 : ∀ (p : Fin 50000) (q : Fin 128), hout (ix2 p q)
      = max (((bnin (ix2 p q) - mean (ix2 (0 : Fin 1) q)) * invstd (ix2 (0 : Fin 1) q)) * g2 (ix2 (0 : Fin 1) q)
        + be2 (ix2 (0 : Fin 1) q)) 0) :
    hout = refL4 x W b g be ei ew := by
  have e2 : agg = rAgg3 (Host.dotGeneral dot_S50000x128_S128x128_S50000x128_1_0_0_1_n_n none x W) (kSrc ei) (kDst ei)
      (kNorm ei ew) := by
    rw [hagg, kAgg3_eq_rAgg3, dot4_of_entries x W xw hxw]
  unfold refL4
  rw [← e2]
  exact bridge4 agg b g be b2 g2 be2 sum mean sumsq var invstd bnin hout hb hg hbe h1 h2 h3 h4 h5 h6 h7

end Cert.Val

end
-- ==== Proof.Val.KL4.lean ====
import proofs.«411449_j51797305589934_2_alg».proof.Proof.KI.Keep
import proofs.«411449_j51797305589934_2_alg».proof.Proof.Val.Mm12
import proofs.«411449_j51797305589934_2_alg».proof.Proof.Val.St_14
import proofs.«411449_j51797305589934_2_alg».proof.Proof.Val.P1_13
import proofs.«411449_j51797305589934_2_alg».proof.Proof.Val.P2_15
import proofs.«411449_j51797305589934_2_alg».proof.Proof.Val.KL4Core

noncomputable section

namespace Cert.Val

open Cert.KernelIdeal Cert.KernelIdeal.Gen Cert.KernelIdeal.Reg
open Idealize.ShloMosaic Idealize.ShloMosaic.TcCoe Idealize.SL.Sem Idealize.ShloMosaic.ValueIdx
open scoped BigOperators

variable (m : (ℓ : Loc nD τ sig) → Buf (Elt Ideal) ℓ) (c : Dev nD)

abbrev l4_x : S50000x128.Idx → EReal := Y24 m c main_v115
abbrev l4_W : S128x128.Idx → EReal := Y24 m c main_arg17
abbrev l4_xw : S50000x128.Idx → EReal := Y25 m c main_v116
abbrev l4_src : IVec S850000 32 := Y25 m c main_v3
abbrev l4_dst : IVec S850000 32 := Y25 m c main_v6
abbrev l4_norm : S850000.Idx → EReal := Y25 m c main_v31
abbrev l4_agg : S50000x128.Idx → EReal := Y26 m c main_v130
abbrev l4_b2 : S1x128.Idx → EReal := Y26 m c main_v131
abbrev l4_bnin : S50000x128.Idx → EReal := Y27 m c main_v132_0
abbrev l4_sum : S1x128.Idx → EReal := Y27 m c main_v132_1
abbrev l4_mean : S1x128.Idx → EReal := Y28 m c main_v134
abbrev l4_sumsq : S1x128.Idx → EReal := Y29 m c main_v135
abbrev l4_var : S1x128.Idx → EReal := Y30 m c main_v137
abbrev l4_inv : S1x128.Idx → EReal := Y30 m c main_v140
abbrev l4_g2 : S1x128.Idx → EReal := Y30 m c main_v141
abbrev l4_be2 : S1x128.Idx → EReal := Y30 m c main_v142
abbrev l4_out : S50000x128.Idx → EReal := Y31 m c main_v143

abbrev l4_bnin_s : S50000x128.Idx → EReal := Y28 m c main_v132_0
abbrev l4_bnin_n : S50000x128.Idx → EReal := Y30 m c main_v132_0
abbrev l4_mean_n : S1x128.Idx → EReal := Y30 m c main_v134

theorem l4_bnin_at_stats : l4_bnin_s m c = l4_bnin m c := Y28_keep m c main_v132_0 (by decide)

theorem l4_bnin_at_norm : l4_bnin_n m c = l4_bnin m c :=
  (Y30_keep m c main_v132_0 (by decide)).trans ((Y29_keep m c main_v132_0 (by decide)).trans (Y28_keep m c main_v132_0 (by decide)))

theorem l4_mean_at_norm : l4_mean_n m c = l4_mean m c :=
  (Y30_keep m c main_v134 (by decide)).trans (Y29_keep m c main_v134 (by decide))

theorem l4_xw_eq : l4_xw m c = res12 (E24 m) c := (hF12 m c 2).symm

theorem l4_bnin_eq : l4_bnin m c = ((dat13 (F := Ideal) (E26 m) c).arrAt 2 cfg13.N : S50000x128.Idx → EReal) := (hF13 m c 2).symm

theorem l4_sum_eq : l4_sum m c = ((dat13 (F := Ideal) (E26 m) c).arrAt 3 cfg13.N : S1x128.Idx → EReal) := (hF13 m c 3).symm

theorem l4_sumsq_eq : l4_sumsq m c = ((dat14 (F := Ideal) (E28 m) c).arrAt 2 cfg14.N : S1x128.Idx → EReal) := (hF14 m c 2).symm

theorem l4_out_eq : l4_out m c = ((dat15 (F := Ideal) (E30 m) c).arrAt 5 cfg15.N : S50000x128.Idx → EReal) := (hF15 m c 5).symm

theorem l4_xw_apply (p : Fin 50000) (q : Fin 128) :
    l4_xw m c (ix2 p q) = ∑ k : Fin 128, l4_x m c (ix2 p k) * l4_W m c (ix2 k q) := by
  rw [l4_xw_eq]
  exact val12 (E24 m) c p q

theorem l4_sumsq_apply (q : Fin 128) :
    l4_sumsq m c (ix2 (0 : Fin 1) q)
      = ∑ p : Fin 50000, (l4_bnin m c (ix2 p q) - l4_mean m c (ix2 (0 : Fin 1) q))
          * (l4_bnin m c (ix2 p q) - l4_mean m c (ix2 (0 : Fin 1) q)) := by
  rw [l4_sumsq_eq, ← l4_bnin_at_stats]
  exact val14 (E28 m) c q

theorem kl4_of (x : S50000x128.Idx → EReal) (W : S128x128.Idx → EReal) (b g be : S128.Idx → EReal)
    (ei : IVec S2x800000 32) (ew : S800000.Idx → EReal)
    (hx : l4_x m c = x) (hW : l4_W m c = W)
    (hsrc : l4_src m c = kSrc ei) (hdst : l4_dst m c = kDst ei) (hnorm : l4_norm m c = kNorm ei ew)
    (hagg : l4_agg m c = kAgg3 (l4_xw m c) (l4_src m c) (l4_dst m c) (l4_norm m c))
    (hb2 : ∀ q : Fin 128, l4_b2 m c (ix2 (0 : Fin 1) q) = b (ix1 q))
    (hmean : ∀ q : Fin 128, l4_mean m c (ix2 (0 : Fin 1) q)
      = Ideal.div (l4_sum m c (ix2 (0 : Fin 1) q)) (Ideal.ofBits .f32 0x47435000#32))
    (hvar : ∀ q : Fin 128, l4_var m c (ix2 (0 : Fin 1) q)
      = Ideal.div (l4_sumsq m c (ix2 (0 : Fin 1) q)) (Ideal.ofBits .f32 0x47435000#32))
    (hinv : ∀ q : Fin 128, l4_inv m c (ix2 (0 : Fin 1) q)
      = Ideal.rsqrt (l4_var m c (ix2 (0 : Fin 1) q) + Ideal.ofBits .f32 0x3727C5AC#32))
    (hg2 : ∀ q : Fin 128, l4_g2 m c (ix2 (0 : Fin 1) q) = g (ix1 q))
    (hbe2 : ∀ q : Fin 128, l4_be2 m c (ix2 (0 : Fin 1) q) = be (ix1 q))
    (hv1b : ∀ (p : Fin 50000) (q : Fin 128),
      ((dat13 (F := Ideal) (E26 m) c).arrAt 2 cfg13.N : S50000x128.Idx → EReal) (ix2 p q)
        = l4_agg m c (ix2 p q) + l4_b2 m c (ix2 (0 : Fin 1) q))
    (hv1s : ∀ q : Fin 128,
      ((dat13 (F := Ideal) (E26 m) c).arrAt 3 cfg13.N : S1x128.Idx → EReal) (ix2 (0 : Fin 1) q)
        = ∑ p : Fin 50000, (l4_agg m c (ix2 p q) + l4_b2 m c (ix2 (0 : Fin 1) q)))
    (hv3 : ∀ (p : Fin 50000) (q : Fin 128),
      ((dat15 (F := Ideal) (E30 m) c).arrAt 5 cfg15.N : S50000x128.Idx → EReal) (ix2 p q)
        = max (((l4_bnin_n m c (ix2 p q) - l4_mean_n m c (ix2 (0 : Fin 1) q))
            * l4_inv m c (ix2 (0 : Fin 1) q)) * l4_g2 m c (ix2 (0 : Fin 1) q) + l4_be2 m c (ix2 (0 : Fin 1) q)) 0) :
    l4_out m c = refL4 x W b g be ei ew := by
  have h1 : ∀ (p : Fin 50000) (q : Fin 128),
      l4_bnin m c (ix2 p q) = l4_agg m c (ix2 p q) + l4_b2 m c (ix2 (0 : Fin 1) q) := fun p q => by
    rw [l4_bnin_eq]; exact hv1b p q
  have h2 : ∀ q : Fin 128, l4_sum m c (ix2 (0 : Fin 1) q) = ∑ p : Fin 50000, l4_bnin m c (ix2 p q) := fun q => by
    rw [l4_sum_eq, hv1s q]
    exact Finset.sum_congr rfl fun p _ => (h1 p q).symm
  have h7 : ∀ (p : Fin 50000) (q : Fin 128), l4_out m c (ix2 p q)
      = max (((l4_bnin m c (ix2 p q) - l4_mean m c (ix2 (0 : Fin 1) q)) * l4_inv m c (ix2 (0 : Fin 1) q))
          * l4_g2 m c (ix2 (0 : Fin 1) q) + l4_be2 m c (ix2 (0 : Fin 1) q)) 0 := fun p q => by
    rw [l4_out_eq, hv3 p q, l4_bnin_at_norm, l4_mean_at_norm]
  refine kl4_core x W b g be ei ew (l4_xw m c) (l4_agg m c) (l4_bnin m c) (l4_out m c) (l4_b2 m c) (l4_g2 m c)
    (l4_be2 m c) (l4_sum m c) (l4_mean m c) (l4_sumsq m c) (l4_var m c) (l4_inv m c) ?_ ?_ hb2 hg2 hbe2 h1 h2 hmean
    (l4_sumsq_apply m c) hvar hinv h7
  · intro p q
    rw [l4_xw_apply, hx, hW]
  · rw [hagg, hsrc, hdst, hnorm]

theorem kl4 (x : S50000x128.Idx → EReal) (W : S128x128.Idx → EReal) (b g be : S128.Idx → EReal)
    (ei : IVec S2x800000 32) (ew : S800000.Idx → EReal)
    (hx : l4_x m c = x) (hW : l4_W m c = W)
    (hsrc : l4_src m c = kSrc ei) (hdst : l4_dst m c = kDst ei) (hnorm : l4_norm m c = kNorm ei ew)
    (hagg : l4_agg m c = kAgg3 (l4_xw m c) (l4_src m c) (l4_dst m c) (l4_norm m c))
    (hb2 : ∀ q : Fin 128, l4_b2 m c (ix2 (0 : Fin 1) q) = b (ix1 q))
    (hmean : ∀ q : Fin 128, l4_mean m c (ix2 (0 : Fin 1) q)
      = Ideal.div (l4_sum m c (ix2 (0 : Fin 1) q)) (Ideal.ofBits .f32 0x47435000#32))
    (hvar : ∀ q : Fin 128, l4_var m c (ix2 (0 : Fin 1) q)
      = Ideal.div (l4_sumsq m c (ix2 (0 : Fin 1) q)) (Ideal.ofBits .f32 0x47435000#32))
    (hinv : ∀ q : Fin 128, l4_inv m c (ix2 (0 : Fin 1) q)
      = Ideal.rsqrt (l4_var m c (ix2 (0 : Fin 1) q) + Ideal.ofBits .f32 0x3727C5AC#32))
    (hg2 : ∀ q : Fin 128, l4_g2 m c (ix2 (0 : Fin 1) q) = g (ix1 q))
    (hbe2 : ∀ q : Fin 128, l4_be2 m c (ix2 (0 : Fin 1) q) = be (ix1 q)) :
    l4_out m c = refL4 x W b g be ei ew :=
  kl4_of m c x W b g be ei ew hx hW hsrc hdst hnorm hagg hb2 hmean hvar hinv hg2 hbe2
    (fun p q => val13_bnin (E26 m) c p q) (fun q => val13_sum (E26 m) c q) (fun p q => val15 (E30 m) c p q)

end Cert.Val

end
-- ==== Proof.Val.Bridge5.lean ====
import proofs.«411449_j51797305589934_2_alg».proof.Proof.Val.RefBN5

noncomputable section

namespace Cert.Val

open Idealize.ShloMosaic Idealize.ShloMosaic.ValueIdx Cert.ReferenceIdeal
open scoped BigOperators

theorem bridge5_rot (x i g : EReal) : x * i * g = g * x * i := by
  rw [mul_comm (x * i) g, mul_assoc]

theorem bridge5_mean (agg : S50000x256.Idx → EReal) (b : S256.Idx → EReal) (b2 sum mean : S1x256.Idx → EReal)
    (bnin : S50000x256.Idx → EReal)
    (hb : ∀ q : Fin 256, b2 (ix2 (0 : Fin 1) q) = b (ix1 q))
    (h1 : ∀ (p : Fin 50000) (q : Fin 256), bnin (ix2 p q) = agg (ix2 p q) + b2 (ix2 (0 : Fin 1) q))
    (h2 : ∀ q : Fin 256, sum (ix2 (0 : Fin 1) q) = ∑ p : Fin 50000, bnin (ix2 p q))
    (h3 : ∀ q : Fin 256, mean (ix2 (0 : Fin 1) q) = Ideal.div (sum (ix2 (0 : Fin 1) q)) (Ideal.ofBits .f32 0x47435000#32))
    (q : Fin 256) : mean (ix2 (0 : Fin 1) q) = refMean5 agg b (ix1 q) := by
  rw [h3, h2, refMean5_apply, zero_add]
  simp only [h1, hb]

theorem bridge5_var (agg : S50000x256.Idx → EReal) (b : S256.Idx → EReal) (b2 mean sumsq var : S1x256.Idx → EReal)
    (bnin : S50000x256.Idx → EReal)
    (hb : ∀ q : Fin 256, b2 (ix2 (0 : Fin 1) q) = b (ix1 q))
    (h1 : ∀ (p : Fin 50000) (q : Fin 256), bnin (ix2 p q) = agg (ix2 p q) + b2 (ix2 (0 : Fin 1) q))
    (hm : ∀ q : Fin 256, mean (ix2 (0 : Fin 1) q) = refMean5 agg b (ix1 q))
    (h4 : ∀ q : Fin 256, sumsq (ix2 (0 : Fin 1) q)
      = ∑ p : Fin 50000, (bnin (ix2 p q) - mean (ix2 (0 : Fin 1) q)) * (bnin (ix2 p q) - mean (ix2 (0 : Fin 1) q)))
    (h5 : ∀ q : Fin 256, var (ix2 (0 : Fin 1) q) = Ideal.div (sumsq (ix2 (0 : Fin 1) q)) (Ideal.ofBits .f32 0x47435000#32))
    (q : Fin 256) : var (ix2 (0 : Fin 1) q) = refVar5 agg b (ix1 q) := by
  rw [h5, h4, refVar5_apply, zero_add]
  simp only [h1, hb, hm]

theorem bridge5 (agg : S50000x256.Idx → EReal) (b g beta : S256.Idx → EReal)
    (b2 g2 beta2 sum mean sumsq var invstd : S1x256.Idx → EReal) (bnin hout : S50000x256.Idx → EReal)
    (hb : ∀ q : Fin 256, b2 (ix2 (0 : Fin 1) q) = b (ix1 q))
    (hg : ∀ q : Fin 256, g2 (ix2 (0 : Fin 1) q) = g (ix1 q))
    (hbe : ∀ q : Fin 256, beta2 (ix2 (0 : Fin 1) q) = beta (ix1 q))
    (h1 : ∀ (p : Fin 50000) (q : Fin 256), bnin (ix2 p q) = agg (ix2 p q) + b2 (ix2 (0 : Fin 1) q))
    (h2 : ∀ q : Fin 256, sum (ix2 (0 : Fin 1) q) = ∑ p : Fin 50000, bnin (ix2 p q))
    (h3 : ∀ q : Fin 256, mean (ix2 (0 : Fin 1) q) = Ideal.div (sum (ix2 (0 : Fin 1) q)) (Ideal.ofBits .f32 0x47435000#32))
    (h4 : ∀ q : Fin 256, sumsq (ix2 (0 : Fin 1) q)
      = ∑ p : Fin 50000, (bnin (ix2 p q) - mean (ix2 (0 : Fin 1) q)) * (bnin (ix2 p q) - mean (ix2 (0 : Fin 1) q)))
    (h5 : ∀ q : Fin 256, var (ix2 (0 : Fin 1) q) = Ideal.div (sumsq (ix2 (0 : Fin 1) q)) (Ideal.ofBits .f32 0x47435000#32))
    (h6 : ∀ q : Fin 256, invstd (ix2 (0 : Fin 1) q)
      = Ideal.rsqrt (var (ix2 (0 : Fin 1) q) + Ideal.ofBits .f32 0x3727C5AC#32))
    (h7 : ∀ (p : Fin 50000) (q : Fin 256), hout (ix2 p q)
      = ((bnin (ix2 p q) - mean (ix2 (0 : Fin 1) q)) * invstd (ix2 (0 : Fin 1) q)) * g2 (ix2 (0 : Fin 1) q)
        + beta2 (ix2 (0 : Fin 1) q)) :
    hout = refBN5 agg b g beta := by
  have hm := bridge5_mean agg b b2 sum mean bnin hb h1 h2 h3
  have hv := bridge5_var agg b b2 mean sumsq var bnin hb h1 hm h4 h5
  funext j
  obtain ⟨p, q, rfl⟩ : ∃ (p : Fin 50000) (q : Fin 256), j = ix2 p q := ⟨j 0, j 1, eq_ix2 j⟩
  rw [h7, refBN5_apply, h6, hv, hm, h1, hb, hg, hbe, bridge5_rot _ _ (g (ix1 q))]

end Cert.Val
-- ==== Proof.Val.KL5Core.lean ====
import proofs.«411449_j51797305589934_2_alg».proof.Proof.Val.RefNet
import proofs.«411449_j51797305589934_2_alg».proof.Proof.Val.Bridge5

noncomputable section

namespace Cert.Val

open Idealize.ShloMosaic Idealize.ShloMosaic.ValueIdx Cert.ReferenceIdeal
open scoped BigOperators

theorem dot5_of_entries (x : FVec Ideal S50000x128 .f32) (W : FVec Ideal S128x256 .f32) (xw : S50000x256.Idx → EReal)
    (hxw : ∀ (p : Fin 50000) (q : Fin 256), xw (ix2 p q) = ∑ k : Fin 128, x (ix2 p k) * W (ix2 k q)) :
    xw = Host.dotGeneral dot_S50000x128_S128x256_S50000x256_1_0_0_1_n_n none x W := by
  funext j
  obtain ⟨p, q, rfl⟩ : ∃ (p : Fin 50000) (q : Fin 256), j = ix2 p q := ⟨j 0, j 1, eq_ix2 j⟩
  rw [hxw, refDot5_apply]

theorem kl5_core (x : FVec Ideal S50000x128 .f32) (W : FVec Ideal S128x256 .f32) (b g be : FVec Ideal S256 .f32)
    (ei : IVec S2x800000 32) (ew : FVec Ideal S800000 .f32)
    (xw agg bnin hout : S50000x256.Idx → EReal) (b2 g2 be2 sum mean sumsq var invstd : S1x256.Idx → EReal)
    (hxw : ∀ (p : Fin 50000) (q : Fin 256), xw (ix2 p q) = ∑ k : Fin 128, x (ix2 p k) * W (ix2 k q))
    (hagg : agg = kAgg5 xw (kSrc ei) (kDst ei) (kNorm ei ew))
    (hb : ∀ q : Fin 256, b2 (ix2 (0 : Fin 1) q) = b (ix1 q))
    (hg : ∀ q : Fin 256, g2 (ix2 (0 : Fin 1) q) = g (ix1 q))
    (hbe : ∀ q : Fin 256, be2 (ix2 (0 : Fin 1) q) = be (ix1 q))
    (h1 : ∀ (p : Fin 50000) (q : Fin 256), bnin (ix2 p q) = agg (ix2 p q) + b2 (ix2 (0 : Fin 1) q))
    (h2 : ∀ q : Fin 256, sum (ix2 (0 : Fin 1) q) = ∑ p : Fin 50000, bnin (ix2 p q))
    (h3 : ∀ q : Fin 256, mean (ix2 (0 : Fin 1) q) = Ideal.div (sum (ix2 (0 : Fin 1) q)) (Ideal.ofBits .f32 0x47435000#32))
    (h4 : ∀ q : Fin 256, sumsq (ix2 (0 : Fin 1) q)
      = ∑ p : Fin 50000, (bnin (ix2 p q) - mean (ix2 (0 : Fin 1) q)) * (bnin (ix2 p q) - mean (ix2 (0 : Fin 1) q)))
    (h5 : ∀ q : Fin 256, var (ix2 (0 : Fin 1) q) = Ideal.div (sumsq (ix2 (0 : Fin 1) q)) (Ideal.ofBits .f32 0x47435000#32))
    (h6 : ∀ q : Fin 256, invstd (ix2 (0 : Fin 1) q)
      = Ideal.rsqrt (var (ix2 (0 : Fin 1) q) + Ideal.ofBits .f32 0x3727C5AC#32))
    (h7 : ∀ (p : Fin 50000) (q : Fin 256), hout (ix2 p q)
      = ((bnin (ix2 p q) - mean (ix2 (0 : Fin 1) q)) * invstd (ix2 (0 : Fin 1) q)) * g2 (ix2 (0 : Fin 1) q)
        + be2 (ix2 (0 : Fin 1) q)) :
    hout = refL5 x W b g be ei ew := by
  have e2 : agg = rAgg5 (Host.dotGeneral dot_S50000x128_S128x256_S50000x256_1_0_0_1_n_n none x W) (kSrc ei) (kDst ei)
      (kNorm ei ew) := by
    rw [hagg, kAgg5_eq_rAgg5, dot5_of_entries x W xw hxw]
  unfold refL5
  rw [← e2]
  exact bridge5 agg b g be b2 g2 be2 sum mean sumsq var invstd bnin hout hb hg hbe h1 h2 h3 h4 h5 h6 h7

end Cert.Val

end
-- ==== Proof.Val.KL5.lean ====
import proofs.«411449_j51797305589934_2_alg».proof.Proof.KI.Keep
import proofs.«411449_j51797305589934_2_alg».proof.Proof.Val.Mm16
import proofs.«411449_j51797305589934_2_alg».proof.Proof.Val.St_18
import proofs.«411449_j51797305589934_2_alg».proof.Proof.Val.P1_17
import proofs.«411449_j51797305589934_2_alg».proof.Proof.Val.P2_19
import proofs.«411449_j51797305589934_2_alg».proof.Proof.Val.KL5Core

noncomputable section

namespace Cert.Val

open Cert.KernelIdeal Cert.KernelIdeal.Gen Cert.KernelIdeal.Reg
open Idealize.ShloMosaic Idealize.ShloMosaic.TcCoe Idealize.SL.Sem Idealize.ShloMosaic.ValueIdx
open scoped BigOperators

variable (m : (ℓ : Loc nD τ sig) → Buf (Elt Ideal) ℓ) (c : Dev nD)

abbrev l5_x : S50000x128.Idx → EReal := Y31 m c main_v143
abbrev l5_W : S128x256.Idx → EReal := Y31 m c main_arg21
abbrev l5_xw : S50000x256.Idx → EReal := Y32 m c main_v144
abbrev l5_src : IVec S850000 32 := Y32 m c main_v3
abbrev l5_dst : IVec S850000 32 := Y32 m c main_v6
abbrev l5_norm : S850000.Idx → EReal := Y32 m c main_v31
abbrev l5_agg : S50000x256.Idx → EReal := Y33 m c main_v158
abbrev l5_b2 : S1x256.Idx → EReal := Y33 m c main_v159
abbrev l5_bnin : S50000x256.Idx → EReal := Y34 m c main_v160_0
abbrev l5_sum : S1x256.Idx → EReal := Y34 m c main_v160_1
abbrev l5_mean : S1x256.Idx → EReal := Y35 m c main_v162
abbrev l5_sumsq : S1x256.Idx → EReal := Y36 m c main_v163
abbrev l5_var : S1x256.Idx → EReal := Y37 m c main_v165
abbrev l5_inv : S1x256.Idx → EReal := Y37 m c main_v168
abbrev l5_g2 : S1x256.Idx → EReal := Y37 m c main_v169
abbrev l5_be2 : S1x256.Idx → EReal := Y37 m c main_v170
abbrev l5_out : S50000x256.Idx → EReal := Y38 m c main_v171

abbrev l5_bnin_s : S50000x256.Idx → EReal := Y35 m c main_v160_0
abbrev l5_bnin_n : S50000x256.Idx → EReal := Y37 m c main_v160_0
abbrev l5_mean_n : S1x256.Idx → EReal := Y37 m c main_v162

theorem l5_bnin_at_stats : l5_bnin_s m c = l5_bnin m c := Y35_keep m c main_v160_0 (by decide)

theorem l5_bnin_at_norm : l5_bnin_n m c = l5_bnin m c :=
  (Y37_keep m c main_v160_0 (by decide)).trans ((Y36_keep m c main_v160_0 (by decide)).trans (Y35_keep m c main_v160_0 (by decide)))

theorem l5_mean_at_norm : l5_mean_n m c = l5_mean m c :=
  (Y37_keep m c main_v162 (by decide)).trans (Y36_keep m c main_v162 (by decide))

theorem l5_xw_eq : l5_xw m c = res16 (E31 m) c := (hF16 m c 2).symm

theorem l5_bnin_eq : l5_bnin m c = ((dat17 (F := Ideal) (E33 m) c).arrAt 2 cfg17.N : S50000x256.Idx → EReal) := (hF17 m c 2).symm

theorem l5_sum_eq : l5_sum m c = ((dat17 (F := Ideal) (E33 m) c).arrAt 3 cfg17.N : S1x256.Idx → EReal) := (hF17 m c 3).symm

theorem l5_sumsq_eq : l5_sumsq m c = ((dat18 (F := Ideal) (E35 m) c).arrAt 2 cfg18.N : S1x256.Idx → EReal) := (hF18 m c 2).symm

theorem l5_out_eq : l5_out m c = ((dat19 (F := Ideal) (E37 m) c).arrAt 5 cfg19.N : S50000x256.Idx → EReal) := (hF19 m c 5).symm

theorem l5_xw_apply (p : Fin 50000) (q : Fin 256) :
    l5_xw m c (ix2 p q) = ∑ k : Fin 128, l5_x m c (ix2 p k) * l5_W m c (ix2 k q) := by
  rw [l5_xw_eq]
  exact val16 (E31 m) c p q

theorem l5_sumsq_apply (q : Fin 256) :
    l5_sumsq m c (ix2 (0 : Fin 1) q)
      = ∑ p : Fin 50000, (l5_bnin m c (ix2 p q) - l5_mean m c (ix2 (0 : Fin 1) q))
          * (l5_bnin m c (ix2 p q) - l5_mean m c (ix2 (0 : Fin 1) q)) := by
  rw [l5_sumsq_eq, ← l5_bnin_at_stats]
  exact val18 (E35 m) c q

theorem kl5_of (x : S50000x128.Idx → EReal) (W : S128x256.Idx → EReal) (b g be : S256.Idx → EReal)
    (ei : IVec S2x800000 32) (ew : S800000.Idx → EReal)
    (hx : l5_x m c = x) (hW : l5_W m c = W)
    (hsrc : l5_src m c = kSrc ei) (hdst : l5_dst m c = kDst ei) (hnorm : l5_norm m c = kNorm ei ew)
    (hagg : l5_agg m c = kAgg5 (l5_xw m c) (l5_src m c) (l5_dst m c) (l5_norm m c))
    (hb2 : ∀ q : Fin 256, l5_b2 m c (ix2 (0 : Fin 1) q) = b (ix1 q))
    (hmean : ∀ q : Fin 256, l5_mean m c (ix2 (0 : Fin 1) q)
      = Ideal.div (l5_sum m c (ix2 (0 : Fin 1) q)) (Ideal.ofBits .f32 0x47435000#32))
    (hvar : ∀ q : Fin 256, l5_var m c (ix2 (0 : Fin 1) q)
      = Ideal.div (l5_sumsq m c (ix2 (0 : Fin 1) q)) (Ideal.ofBits .f32 0x47435000#32))
    (hinv : ∀ q : Fin 256, l5_inv m c (ix2 (0 : Fin 1) q)
      = Ideal.rsqrt (l5_var m c (ix2 (0 : Fin 1) q) + Ideal.ofBits .f32 0x3727C5AC#32))
    (hg2 : ∀ q : Fin 256, l5_g2 m c (ix2 (0 : Fin 1) q) = g (ix1 q))
    (hbe2 : ∀ q : Fin 256, l5_be2 m c (ix2 (0 : Fin 1) q) = be (ix1 q))
    (hv1b : ∀ (p : Fin 50000) (q : Fin 256),
      ((dat17 (F := Ideal) (E33 m) c).arrAt 2 cfg17.N : S50000x256.Idx → EReal) (ix2 p q)
        = l5_agg m c (ix2 p q) + l5_b2 m c (ix2 (0 : Fin 1) q))
    (hv1s : ∀ q : Fin 256,
      ((dat17 (F := Ideal) (E33 m) c).arrAt 3 cfg17.N : S1x256.Idx → EReal) (ix2 (0 : Fin 1) q)
        = ∑ p : Fin 50000, (l5_agg m c (ix2 p q) + l5_b2 m c (ix2 (0 : Fin 1) q)))
    (hv3 : ∀ (p : Fin 50000) (q : Fin 256),
      ((dat19 (F := Ideal) (E37 m) c).arrAt 5 cfg19.N : S50000x256.Idx → EReal) (ix2 p q)
        = ((l5_bnin_n m c (ix2 p q) - l5_mean_n m c (ix2 (0 : Fin 1) q))
            * l5_inv m c (ix2 (0 : Fin 1) q)) * l5_g2 m c (ix2 (0 : Fin 1) q) + l5_be2 m c (ix2 (0 : Fin 1) q)) :
    l5_out m c = refL5 x W b g be ei ew := by
  have h1 : ∀ (p : Fin 50000) (q : Fin 256),
      l5_bnin m c (ix2 p q) = l5_agg m c (ix2 p q) + l5_b2 m c (ix2 (0 : Fin 1) q) := fun p q => by
    rw [l5_bnin_eq]; exact hv1b p q
  have h2 : ∀ q : Fin 256, l5_sum m c (ix2 (0 : Fin 1) q) = ∑ p : Fin 50000, l5_bnin m c (ix2 p q) := fun q => by
    rw [l5_sum_eq, hv1s q]
    exact Finset.sum_congr rfl fun p _ => (h1 p q).symm
  have h7 : ∀ (p : Fin 50000) (q : Fin 256), l5_out m c (ix2 p q)
      = ((l5_bnin m c (ix2 p q) - l5_mean m c (ix2 (0 : Fin 1) q)) * l5_inv m c (ix2 (0 : Fin 1) q))
          * l5_g2 m c (ix2 (0 : Fin 1) q) + l5_be2 m c (ix2 (0 : Fin 1) q) := fun p q => by
    rw [l5_out_eq, hv3 p q, l5_bnin_at_norm, l5_mean_at_norm]
  refine kl5_core x W b g be ei ew (l5_xw m c) (l5_agg m c) (l5_bnin m c) (l5_out m c) (l5_b2 m c) (l5_g2 m c)
    (l5_be2 m c) (l5_sum m c) (l5_mean m c) (l5_sumsq m c) (l5_var m c) (l5_inv m c) ?_ ?_ hb2 hg2 hbe2 h1 h2 hmean
    (l5_sumsq_apply m c) hvar hinv h7
  · intro p q
    rw [l5_xw_apply, hx, hW]
  · rw [hagg, hsrc, hdst, hnorm]

theorem kl5 (x : S50000x128.Idx → EReal) (W : S128x256.Idx → EReal) (b g be : S256.Idx → EReal)
    (ei : IVec S2x800000 32) (ew : S800000.Idx → EReal)
    (hx : l5_x m c = x) (hW : l5_W m c = W)
    (hsrc : l5_src m c = kSrc ei) (hdst : l5_dst m c = kDst ei) (hnorm : l5_norm m c = kNorm ei ew)
    (hagg : l5_agg m c = kAgg5 (l5_xw m c) (l5_src m c) (l5_dst m c) (l5_norm m c))
    (hb2 : ∀ q : Fin 256, l5_b2 m c (ix2 (0 : Fin 1) q) = b (ix1 q))
    (hmean : ∀ q : Fin 256, l5_mean m c (ix2 (0 : Fin 1) q)
      = Ideal.div (l5_sum m c (ix2 (0 : Fin 1) q)) (Ideal.ofBits .f32 0x47435000#32))
    (hvar : ∀ q : Fin 256, l5_var m c (ix2 (0 : Fin 1) q)
      = Ideal.div (l5_sumsq m c (ix2 (0 : Fin 1) q)) (Ideal.ofBits .f32 0x47435000#32))
    (hinv : ∀ q : Fin 256, l5_inv m c (ix2 (0 : Fin 1) q)
      = Ideal.rsqrt (l5_var m c (ix2 (0 : Fin 1) q) + Ideal.ofBits .f32 0x3727C5AC#32))
    (hg2 : ∀ q : Fin 256, l5_g2 m c (ix2 (0 : Fin 1) q) = g (ix1 q))
    (hbe2 : ∀ q : Fin 256, l5_be2 m c (ix2 (0 : Fin 1) q) = be (ix1 q)) :
    l5_out m c = refL5 x W b g be ei ew :=
  kl5_of m c x W b g be ei ew hx hW hsrc hdst hnorm hagg hb2 hmean hvar hinv hg2 hbe2
    (fun p q => val17_bnin (E33 m) c p q) (fun q => val17_sum (E33 m) c q) (fun p q => val19 (E37 m) c p q)

end Cert.Val

end
-- ==== Proof.Val.FinDot.lean ====
import proofs.«411449_j51797305589934_2_alg».proof.Proof.Val.Fin

noncomputable section

namespace Cert.Val

open Idealize.ShloMosaic
open scoped BigOperators

theorem AllReal.dotGeneral {sl sr so : Shape} {φ₁ φ₂ : FTy} (d : DotDims sl sr so) (prec : Option ContractPrecision)
    {x : FVec Ideal sl φ₁} {w : FVec Ideal sr φ₂} (hx : AllReal x) (hw : AllReal w) :
    AllReal (Host.dotGeneral d prec x w) := by
  intro j
  have e : Host.dotGeneral d prec x w j = ∑ k : d.contr.Idx, x (d.lhsIdx j k) * w (d.rhsIdx j k) :=
    Ideal.dotGeneral_apply d prec .single x w j
  rw [e]
  exact IsReal.sum _ _ fun k _ => (hx _).mul (hw _)

theorem AllReal.matmul {sl sr so : Shape} {φ₁ φ₂ : FTy} (d : DotDims sl sr so) (prec : Option ContractPrecision)
    {x : FVec Ideal sl φ₁} {w : FVec Ideal sr φ₂} {acc : FVec Ideal so .f32} (hx : AllReal x) (hw : AllReal w)
    (ha : AllReal acc) : AllReal (Idealize.ShloMosaic.matmul d prec x w acc) := by
  intro j
  have e : Idealize.ShloMosaic.matmul d prec x w acc j = acc j + ∑ k : d.contr.Idx, x (d.lhsIdx j k) * w (d.rhsIdx j k) :=
    Ideal.matmul_apply d prec x w acc j
  rw [e]
  exact (ha j).add (IsReal.sum _ _ fun k _ => (hx _).mul (hw _))

end Cert.Val

end
-- ==== Proof.Val.FinDense.lean ====
import proofs.«411449_j51797305589934_2_alg».proof.Proof.Val.Fin

noncomputable section

namespace Cert.Val

open Idealize.ShloMosaic
open scoped BigOperators

theorem ofBits_count_eq : Ideal.ofBits .f32 0x47435000#32 = ((50000 : ℝ) : EReal) := by
  simp [Ideal.ofBits, Ideal.ieee, -EReal.coe_mul]; norm_num

def epsR : ℝ := 10995116 * (2 : ℝ) ^ (-40 : ℤ)

theorem epsR_pos : 0 < epsR := by unfold epsR; positivity

theorem ofBits_eps_eq : Ideal.ofBits .f32 0x3727C5AC#32 = (epsR : EReal) := by
  unfold epsR
  simp [Ideal.ofBits, Ideal.ieee, -EReal.coe_mul]

theorem IsReal.div_count {x : EReal} (hx : IsReal x) : IsReal (Ideal.div x (Ideal.ofBits .f32 0x47435000#32)) := by
  rw [ofBits_count_eq]; exact hx.div_coe (by norm_num)

theorem div_count_nonneg {x : EReal} (hx : IsReal x) (h0 : 0 ≤ x) :
    0 ≤ Ideal.div x (Ideal.ofBits .f32 0x47435000#32) := by
  obtain ⟨a, rfl⟩ := hx
  rw [ofBits_count_eq, Ideal.div_coe (by norm_num), ← EReal.coe_mul]
  exact EReal.coe_nonneg.2 (mul_nonneg (EReal.coe_nonneg.1 h0) (by norm_num))

theorem mean_real {ι : Type*} (s : Finset ι) {r : ι → EReal} (hr : ∀ p ∈ s, IsReal (r p)) {z : EReal} (hz : IsReal z) :
    IsReal (Ideal.div (z + ∑ p ∈ s, r p) (Ideal.ofBits .f32 0x47435000#32)) :=
  (hz.add (IsReal.sum s r hr)).div_count

theorem cenSq_real {a m : EReal} (ha : IsReal a) (hm : IsReal m) : IsReal ((a - m) * (a - m)) := (ha.sub hm).mul (ha.sub hm)

theorem cenSq_nonneg {a m : EReal} (ha : IsReal a) (hm : IsReal m) : 0 ≤ (a - m) * (a - m) := by
  obtain ⟨x, rfl⟩ := ha; obtain ⟨y, rfl⟩ := hm
  rw [← EReal.coe_sub, ← EReal.coe_mul]
  exact EReal.coe_nonneg.2 (mul_self_nonneg _)

theorem sumsq_real {ι : Type*} (s : Finset ι) {r : ι → EReal} (hr : ∀ p ∈ s, IsReal (r p)) {m : EReal} (hm : IsReal m) :
    IsReal (∑ p ∈ s, (r p - m) * (r p - m)) := IsReal.sum s _ fun p hp => cenSq_real (hr p hp) hm

theorem sumsq_nonneg {ι : Type*} (s : Finset ι) {r : ι → EReal} (hr : ∀ p ∈ s, IsReal (r p)) {m : EReal} (hm : IsReal m) :
    0 ≤ ∑ p ∈ s, (r p - m) * (r p - m) := Finset.sum_nonneg fun p hp => cenSq_nonneg (hr p hp) hm

theorem var_real {ι : Type*} (s : Finset ι) {r : ι → EReal} (hr : ∀ p ∈ s, IsReal (r p)) {m : EReal} (hm : IsReal m)
    {z : EReal} (hz : IsReal z) :
    IsReal (Ideal.div (z + ∑ p ∈ s, (r p - m) * (r p - m)) (Ideal.ofBits .f32 0x47435000#32)) :=
  (hz.add (sumsq_real s hr hm)).div_count

theorem var_nonneg {ι : Type*} (s : Finset ι) {r : ι → EReal} (hr : ∀ p ∈ s, IsReal (r p)) {m : EReal} (hm : IsReal m)
    {z : EReal} (hz : IsReal z) (hz0 : 0 ≤ z) :
    0 ≤ Ideal.div (z + ∑ p ∈ s, (r p - m) * (r p - m)) (Ideal.ofBits .f32 0x47435000#32) :=
  div_count_nonneg (hz.add (sumsq_real s hr hm)) (add_nonneg hz0 (sumsq_nonneg s hr hm))

theorem invstd_real {v : EReal} (hv : IsReal v) (h0 : 0 ≤ v) :
    IsReal (Ideal.rsqrt (v + Ideal.ofBits .f32 0x3727C5AC#32)) := by
  obtain ⟨a, rfl⟩ := hv
  rw [ofBits_eps_eq, ← EReal.coe_add]
  exact IsReal.rsqrt_coe_pos (add_pos_of_nonneg_of_pos (EReal.coe_nonneg.1 h0) epsR_pos)

end Cert.Val

end
-- ==== Proof.Val.RealBN1.lean ====
import proofs.«411449_j51797305589934_2_alg».proof.Proof.Val.RefBN1
import proofs.«411449_j51797305589934_2_alg».proof.Proof.Val.FinDense

noncomputable section

namespace Cert.Val

open Idealize.ShloMosaic Idealize.ShloMosaic.ValueIdx Cert.ReferenceIdeal
open scoped BigOperators

theorem refMean1_real {agg : FVec Ideal S50000x32 .f32} {b : FVec Ideal S32 .f32} (ha : AllReal agg) (hb : AllReal b) :
    AllReal (refMean1 agg b) := by
  intro j
  obtain ⟨q, rfl⟩ : ∃ q : Fin 32, j = ix1 q := ⟨j 0, eq_ix1 j⟩
  rw [refMean1_apply]
  exact mean_real Finset.univ (fun p _ => ((ha (ix2 p q)).add (hb (ix1 q))).max IsReal.zero) IsReal.zero

theorem refVar1_real {agg : FVec Ideal S50000x32 .f32} {b : FVec Ideal S32 .f32} (ha : AllReal agg) (hb : AllReal b) :
    AllReal (refVar1 agg b) := by
  intro j
  obtain ⟨q, rfl⟩ : ∃ q : Fin 32, j = ix1 q := ⟨j 0, eq_ix1 j⟩
  rw [refVar1_apply]
  exact var_real Finset.univ (fun p _ => ((ha (ix2 p q)).add (hb (ix1 q))).max IsReal.zero)
    (refMean1_real ha hb (ix1 q)) IsReal.zero

theorem refVar1_nonneg {agg : FVec Ideal S50000x32 .f32} {b : FVec Ideal S32 .f32} (ha : AllReal agg) (hb : AllReal b)
    (q : Fin 32) : 0 ≤ refVar1 agg b (ix1 q) := by
  rw [refVar1_apply]
  exact var_nonneg Finset.univ (fun p _ => ((ha (ix2 p q)).add (hb (ix1 q))).max IsReal.zero)
    (refMean1_real ha hb (ix1 q)) IsReal.zero le_rfl

theorem refBN1_real {agg : FVec Ideal S50000x32 .f32} {b g beta : FVec Ideal S32 .f32} (ha : AllReal agg) (hb : AllReal b)
    (hg : AllReal g) (hbeta : AllReal beta) : AllReal (refBN1 agg b g beta) := by
  intro j
  obtain ⟨p, q, rfl⟩ : ∃ (p : Fin 50000) (q : Fin 32), j = ix2 p q := ⟨j 0, j 1, eq_ix2 j⟩
  rw [refBN1_apply]
  exact (((hg (ix1 q)).mul ((((ha (ix2 p q)).add (hb (ix1 q))).max IsReal.zero).sub (refMean1_real ha hb (ix1 q)))).mul
    (invstd_real (refVar1_real ha hb (ix1 q)) (refVar1_nonneg ha hb q))).add (hbeta (ix1 q))

end Cert.Val
-- ==== Proof.Val.RealBN4.lean ====
import proofs.«411449_j51797305589934_2_alg».proof.Proof.Val.RefBN4
import proofs.«411449_j51797305589934_2_alg».proof.Proof.Val.FinDense

noncomputable section

namespace Cert.Val

open Idealize.ShloMosaic Idealize.ShloMosaic.ValueIdx Cert.ReferenceIdeal
open scoped BigOperators

theorem refMean4_real {agg : FVec Ideal S50000x128 .f32} {b : FVec Ideal S128 .f32} (ha : AllReal agg) (hb : AllReal b) :
    AllReal (refMean4 agg b) := by
  intro j
  obtain ⟨q, rfl⟩ : ∃ q : Fin 128, j = ix1 q := ⟨j 0, eq_ix1 j⟩
  rw [refMean4_apply]
  exact mean_real Finset.univ (fun p _ => (ha (ix2 p q)).add (hb (ix1 q))) IsReal.zero

theorem refVar4_real {agg : FVec Ideal S50000x128 .f32} {b : FVec Ideal S128 .f32} (ha : AllReal agg) (hb : AllReal b) :
    AllReal (refVar4 agg b) := by
  intro j
  obtain ⟨q, rfl⟩ : ∃ q : Fin 128, j = ix1 q := ⟨j 0, eq_ix1 j⟩
  rw [refVar4_apply]
  exact var_real Finset.univ (fun p _ => (ha (ix2 p q)).add (hb (ix1 q)))
    (refMean4_real ha hb (ix1 q)) IsReal.zero

theorem refVar4_nonneg {agg : FVec Ideal S50000x128 .f32} {b : FVec Ideal S128 .f32} (ha : AllReal agg) (hb : AllReal b)
    (q : Fin 128) : 0 ≤ refVar4 agg b (ix1 q) := by
  rw [refVar4_apply]
  exact var_nonneg Finset.univ (fun p _ => (ha (ix2 p q)).add (hb (ix1 q)))
    (refMean4_real ha hb (ix1 q)) IsReal.zero le_rfl

theorem refBN4_real {agg : FVec Ideal S50000x128 .f32} {b g beta : FVec Ideal S128 .f32} (ha : AllReal agg) (hb : AllReal b)
    (hg : AllReal g) (hbeta : AllReal beta) : AllReal (refBN4 agg b g beta) := by
  intro j
  obtain ⟨p, q, rfl⟩ : ∃ (p : Fin 50000) (q : Fin 128), j = ix2 p q := ⟨j 0, j 1, eq_ix2 j⟩
  rw [refBN4_apply]
  exact (((hg (ix1 q)).mul (((ha (ix2 p q)).add (hb (ix1 q))).sub (refMean4_real ha hb (ix1 q)))).mul
    (invstd_real (refVar4_real ha hb (ix1 q)) (refVar4_nonneg ha hb q))).add (hbeta (ix1 q))

theorem refAct4_real {agg : FVec Ideal S50000x128 .f32} {b g beta : FVec Ideal S128 .f32} (ha : AllReal agg) (hb : AllReal b)
    (hg : AllReal g) (hbeta : AllReal beta) : AllReal (refAct4 agg b g beta) := by
  unfold refAct4
  exact AllReal.maximumf (refBN4_real ha hb hg hbeta) (AllReal.broadcastInDim _ _ AllReal.constant_zero)

end Cert.Val
-- ==== Proof.Val.RealBN5.lean ====
import proofs.«411449_j51797305589934_2_alg».proof.Proof.Val.RefBN5
import proofs.«411449_j51797305589934_2_alg».proof.Proof.Val.FinDense

noncomputable section

namespace Cert.Val

open Idealize.ShloMosaic Idealize.ShloMosaic.ValueIdx Cert.ReferenceIdeal
open scoped BigOperators

theorem refMean5_real {agg : FVec Ideal S50000x256 .f32} {b : FVec Ideal S256 .f32} (ha : AllReal agg) (hb : AllReal b) :
    AllReal (refMean5 agg b) := by
  intro j
  obtain ⟨q, rfl⟩ : ∃ q : Fin 256, j = ix1 q := ⟨j 0, eq_ix1 j⟩
  rw [refMean5_apply]
  exact mean_real Finset.univ (fun p _ => (ha (ix2 p q)).add (hb (ix1 q))) IsReal.zero

theorem refVar5_real {agg : FVec Ideal S50000x256 .f32} {b : FVec Ideal S256 .f32} (ha : AllReal agg) (hb : AllReal b) :
    AllReal (refVar5 agg b) := by
  intro j
  obtain ⟨q, rfl⟩ : ∃ q : Fin 256, j = ix1 q := ⟨j 0, eq_ix1 j⟩
  rw [refVar5_apply]
  exact var_real Finset.univ (fun p _ => (ha (ix2 p q)).add (hb (ix1 q)))
    (refMean5_real ha hb (ix1 q)) IsReal.zero

theorem refVar5_nonneg {agg : FVec Ideal S50000x256 .f32} {b : FVec Ideal S256 .f32} (ha : AllReal agg) (hb : AllReal b)
    (q : Fin 256) : 0 ≤ refVar5 agg b (ix1 q) := by
  rw [refVar5_apply]
  exact var_nonneg Finset.univ (fun p _ => (ha (ix2 p q)).add (hb (ix1 q)))
    (refMean5_real ha hb (ix1 q)) IsReal.zero le_rfl

theorem refBN5_real {agg : FVec Ideal S50000x256 .f32} {b g beta : FVec Ideal S256 .f32} (ha : AllReal agg) (hb : AllReal b)
    (hg : AllReal g) (hbeta : AllReal beta) : AllReal (refBN5 agg b g beta) := by
  intro j
  obtain ⟨p, q, rfl⟩ : ∃ (p : Fin 50000) (q : Fin 256), j = ix2 p q := ⟨j 0, j 1, eq_ix2 j⟩
  rw [refBN5_apply]
  exact (((hg (ix1 q)).mul (((ha (ix2 p q)).add (hb (ix1 q))).sub (refMean5_real ha hb (ix1 q)))).mul
    (invstd_real (refVar5_real ha hb (ix1 q)) (refVar5_nonneg ha hb q))).add (hbeta (ix1 q))

end Cert.Val
-- ==== Proof.Val.RefNetReal.lean ====
import proofs.«411449_j51797305589934_2_alg».proof.Proof.Val.RefNet
import proofs.«411449_j51797305589934_2_alg».proof.Proof.Val.FinDot
import proofs.«411449_j51797305589934_2_alg».proof.Proof.Val.RealBN1
import proofs.«411449_j51797305589934_2_alg».proof.Proof.Val.RealBN2
import proofs.«411449_j51797305589934_2_alg».proof.Proof.Val.RealBN3
import proofs.«411449_j51797305589934_2_alg».proof.Proof.Val.RealBN4
import proofs.«411449_j51797305589934_2_alg».proof.Proof.Val.RealBN5

noncomputable section

namespace Cert.Val

open Idealize.ShloMosaic Cert.ReferenceIdeal

theorem refL1_real {x : FVec Ideal S50000x20 .f32} {W : FVec Ideal S20x32 .f32} {b g be : FVec Ideal S32 .f32}
    (ei : IVec S2x800000 32) {ew : FVec Ideal S800000 .f32} (hx : AllReal x) (hW : AllReal W) (hb : AllReal b)
    (hg : AllReal g) (hbe : AllReal be) (hew : AllReal ew) : AllReal (refL1 x W b g be ei ew) :=
  refBN1_real (rAgg1_real _ _ (AllReal.dotGeneral _ _ hx hW) (kNorm_real ei hew)) hb hg hbe

theorem refL2_real {h : FVec Ideal S50000x32 .f32} {W : FVec Ideal S32x64 .f32} {b g be : FVec Ideal S64 .f32}
    (ei : IVec S2x800000 32) {ew : FVec Ideal S800000 .f32} (hh : AllReal h) (hW : AllReal W) (hb : AllReal b)
    (hg : AllReal g) (hbe : AllReal be) (hew : AllReal ew) : AllReal (refL2 h W b g be ei ew) :=
  refBN2_real (rAgg2_real _ _ (AllReal.dotGeneral _ _ hh hW) (kNorm_real ei hew)) hb hg hbe

theorem refL3_real {h : FVec Ideal S50000x64 .f32} {W : FVec Ideal S64x128 .f32} {b g be : FVec Ideal S128 .f32}
    (ei : IVec S2x800000 32) {ew : FVec Ideal S800000 .f32} (hh : AllReal h) (hW : AllReal W) (hb : AllReal b)
    (hg : AllReal g) (hbe : AllReal be) (hew : AllReal ew) : AllReal (refL3 h W b g be ei ew) :=
  refBN3_real (rAgg3_real _ _ (AllReal.dotGeneral _ _ hh hW) (kNorm_real ei hew)) hb hg hbe

theorem refL4_real {h : FVec Ideal S50000x128 .f32} {W : FVec Ideal S128x128 .f32} {b g be : FVec Ideal S128 .f32}
    (ei : IVec S2x800000 32) {ew : FVec Ideal S800000 .f32} (hh : AllReal h) (hW : AllReal W) (hb : AllReal b)
    (hg : AllReal g) (hbe : AllReal be) (hew : AllReal ew) : AllReal (refL4 h W b g be ei ew) :=
  refAct4_real (rAgg3_real _ _ (AllReal.dotGeneral _ _ hh hW) (kNorm_real ei hew)) hb hg hbe

theorem refL5_real {h : FVec Ideal S50000x128 .f32} {W : FVec Ideal S128x256 .f32} {b g be : FVec Ideal S256 .f32}
    (ei : IVec S2x800000 32) {ew : FVec Ideal S800000 .f32} (hh : AllReal h) (hW : AllReal W) (hb : AllReal b)
    (hg : AllReal g) (hbe : AllReal be) (hew : AllReal ew) : AllReal (refL5 h W b g be ei ew) :=
  refBN5_real (rAgg5_real _ _ (AllReal.dotGeneral _ _ hh hW) (kNorm_real ei hew)) hb hg hbe

theorem h5_real {x : FVec Ideal S50000x20 .f32} (ei : IVec S2x800000 32) {ew : FVec Ideal S800000 .f32}
    {W1 : FVec Ideal S20x32 .f32} {b1 g1 be1 : FVec Ideal S32 .f32}
    {W2 : FVec Ideal S32x64 .f32} {b2 g2 be2 : FVec Ideal S64 .f32}
    {W3 : FVec Ideal S64x128 .f32} {b3 g3 be3 : FVec Ideal S128 .f32}
    {W4 : FVec Ideal S128x128 .f32} {b4 g4 be4 : FVec Ideal S128 .f32}
    {W5 : FVec Ideal S128x256 .f32} {b5 g5 be5 : FVec Ideal S256 .f32}
    (hx : AllReal x) (hew : AllReal ew)
    (hW1 : AllReal W1) (hb1 : AllReal b1) (hg1 : AllReal g1) (hbe1 : AllReal be1)
    (hW2 : AllReal W2) (hb2 : AllReal b2) (hg2 : AllReal g2) (hbe2 : AllReal be2)
    (hW3 : AllReal W3) (hb3 : AllReal b3) (hg3 : AllReal g3) (hbe3 : AllReal be3)
    (hW4 : AllReal W4) (hb4 : AllReal b4) (hg4 : AllReal g4) (hbe4 : AllReal be4)
    (hW5 : AllReal W5) (hb5 : AllReal b5) (hg5 : AllReal g5) (hbe5 : AllReal be5) :
    AllReal (refH5 x ei ew W1 b1 g1 be1 W2 b2 g2 be2 W3 b3 g3 be3 W4 b4 g4 be4 W5 b5 g5 be5) :=
  refL5_real ei
    (refL4_real ei
      (refL3_real ei
        (refL2_real ei (refL1_real ei hx hW1 hb1 hg1 hbe1 hew) hW2 hb2 hg2 hbe2 hew)
        hW3 hb3 hg3 hbe3 hew)
      hW4 hb4 hg4 hbe4 hew)
    hW5 hb5 hg5 hbe5 hew

end Cert.Val

end
-- ==== Proof.Val.PreReal.lean ====
import proofs.«411449_j51797305589934_2_alg».proof.Defs
import proofs.«411449_j51797305589934_2_alg».proof.Proof.Val.Fin
import Idealize.ShloMosaic.Lib.ReduceAll
import Idealize.ShloMosaic.Lib.StableHlo.Predicate

noncomputable section

namespace Cert.Val

open Idealize.ShloMosaic Idealize.ShloMosaic.ValueIdx

instance : Subsingleton (⟨0, ![]⟩ : Shape).Idx := ⟨fun _ _ => funext fun d => d.elim0⟩

theorem ofBits_inf_eq : Ideal.ofBits .f32 0x7F800000#32 = ⊤ := by simp [Ideal.ofBits, Ideal.ieee]

theorem isReal_of_abs_lt_top {x : EReal} (h : max x (-x) < ⊤) : IsReal x := by
  induction x using EReal.rec with
  | bot => exact absurd h (by simp)
  | coe r => exact ⟨r, rfl⟩
  | top => exact absurd h (by simp)

theorem andi_apply_eq_one {s : Shape} {a b : IVec s 1} {i : s.Idx} (h : andi a b i = 1#1) : a i = 1#1 ∧ b i = 1#1 :=
  IntOp.andi_eq_one.1 h

theorem allReal_of_all {s : Shape} {axes : List (Fin s.rank)} {dims : Fin (⟨0, ![]⟩ : Shape).rank → Fin s.rank}
    (x : FVec Ideal s .f32) (hb : (⟨0, ![]⟩ : Shape).BroadcastsInDim s dims) (hr : s.ReducesTo axes (⟨0, ![]⟩ : Shape))
    (hu : 0 < (⟨0, ![]⟩ : Shape).numel)
    (e : Host.reduce IntOp.andi
          (cmpf .olt (Host.absf x) (broadcastInDim s dims hb (constant (F := Ideal) (⟨0, ![]⟩ : Shape) .f32 0x7F800000#32)))
          (constantI (⟨0, ![]⟩ : Shape) 1 1#1) hr hu ix0 = 1#1) : AllReal x := by
  intro i
  have hi := Host.reduce_andi_all _ _ hr hu ix0 e i
  have hi' : Ideal.cmp .olt (max (x i) (-(x i))) (Ideal.ofBits .f32 0x7F800000#32) = 1#1 := hi
  generalize x i = y at hi'
  simp only [Ideal.cmp, StableHlo.Predicate.ofBool_eq_one_iff, decide_eq_true_eq, ofBits_inf_eq] at hi'
  exact isReal_of_abs_lt_top hi'

section
open Cert.Pre_finite_inputs
variable [Cert.Pre_finite_inputs.Facts]

theorem fn_real (a0 : FVec Ideal S50000x20 .f32) (a1 : IVec S2x800000 32) (a2 : FVec Ideal S800000 .f32) (a3 : IVec S50000 32) (a4 : FVec Ideal S512 .f32) (a5 : FVec Ideal S20x32 .f32) (a6 : FVec Ideal S32 .f32) (a7 : FVec Ideal S32 .f32) (a8 : FVec Ideal S32 .f32) (a9 : FVec Ideal S32x64 .f32) (a10 : FVec Ideal S64 .f32) (a11 : FVec Ideal S64 .f32) (a12 : FVec Ideal S64 .f32) (a13 : FVec Ideal S64x128 .f32) (a14 : FVec Ideal S128 .f32) (a15 : FVec Ideal S128 .f32) (a16 : FVec Ideal S128 .f32) (a17 : FVec Ideal S128x128 .f32) (a18 : FVec Ideal S128 .f32) (a19 : FVec Ideal S128 .f32) (a20 : FVec Ideal S128 .f32) (a21 : FVec Ideal S128x256 .f32) (a22 : FVec Ideal S256 .f32) (a23 : FVec Ideal S256 .f32) (a24 : FVec Ideal S256 .f32) (a25 : FVec Ideal S256x128 .f32) (a26 : FVec Ideal S128 .f32) (a27 : FVec Ideal S128x1 .f32) (a28 : FVec Ideal S1 .f32)
    (h : Cert.Pre_finite_inputs.fn (F := Ideal) a0 a1 a2 a3 a4 a5 a6 a7 a8 a9 a10 a11 a12 a13 a14 a15 a16 a17 a18 a19 a20 a21 a22 a23 a24 a25 a26 a27 a28 = fun _ => 1#1) :
    AllReal a0 ∧ AllReal a2 ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ AllReal a22 ∧ AllReal a23 ∧ AllReal a24 ∧ AllReal a25 ∧ AllReal a26 ∧ AllReal a27 ∧ AllReal a28 := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7] at h0
  obtain ⟨h0, e28⟩ := andi_apply_eq_one h0
  obtain ⟨h0, e27⟩ := andi_apply_eq_one h0
  obtain ⟨h0, e26⟩ := andi_apply_eq_one h0
  obtain ⟨h0, e25⟩ := andi_apply_eq_one h0
  obtain ⟨h0, e24⟩ := andi_apply_eq_one h0
  obtain ⟨h0, e23⟩ := andi_apply_eq_one h0
  obtain ⟨h0, e22⟩ := andi_apply_eq_one h0
  obtain ⟨h0, e21⟩ := andi_apply_eq_one h0
  obtain ⟨h0, e20⟩ := andi_apply_eq_one h0
  obtain ⟨h0, e19⟩ := andi_apply_eq_one h0
  obtain ⟨h0, e18⟩ := andi_apply_eq_one h0
  obtain ⟨h0, e17⟩ := andi_apply_eq_one h0
  obtain ⟨h0, e16⟩ := andi_apply_eq_one h0
  obtain ⟨h0, e15⟩ := andi_apply_eq_one h0
  obtain ⟨h0, e14⟩ := andi_apply_eq_one h0
  obtain ⟨h0, e13⟩ := andi_apply_eq_one h0
  obtain ⟨h0, e12⟩ := andi_apply_eq_one h0
  obtain ⟨h0, e11⟩ := andi_apply_eq_one h0
  obtain ⟨h0, e10⟩ := andi_apply_eq_one h0
  obtain ⟨h0, e9⟩ := andi_apply_eq_one h0
  obtain ⟨h0, e8⟩ := andi_apply_eq_one h0
  obtain ⟨h0, e7⟩ := andi_apply_eq_one h0
  obtain ⟨h0, e6⟩ := andi_apply_eq_one h0
  obtain ⟨h0, e5⟩ := andi_apply_eq_one h0
  obtain ⟨h0, e4⟩ := andi_apply_eq_one h0
  obtain ⟨e0, e2⟩ := andi_apply_eq_one h0
  exact ⟨allReal_of_all _ _ _ _ e0, allReal_of_all _ _ _ _ e2, allReal_of_all _ _ _ _ e4, allReal_of_all _ _ _ _ e5, allReal_of_all _ _ _ _ e6, allReal_of_all _ _ _ _ e7, allReal_of_all _ _ _ _ e8, allReal_of_all _ _ _ _ e9, allReal_of_all _ _ _ _ e10, allReal_of_all _ _ _ _ e11, allReal_of_all _ _ _ _ e12, allReal_of_all _ _ _ _ e13, allReal_of_all _ _ _ _ e14, allReal_of_all _ _ _ _ e15, allReal_of_all _ _ _ _ e16, allReal_of_all _ _ _ _ e17, allReal_of_all _ _ _ _ e18, allReal_of_all _ _ _ _ e19, allReal_of_all _ _ _ _ e20, allReal_of_all _ _ _ _ e21, allReal_of_all _ _ _ _ e22, allReal_of_all _ _ _ _ e23, allReal_of_all _ _ _ _ e24, allReal_of_all _ _ _ _ e25, allReal_of_all _ _ _ _ e26, allReal_of_all _ _ _ _ e27, allReal_of_all _ _ _ _ e28⟩

theorem pre_real (m : (ℓ : Loc Cert.KernelIdeal.nD Cert.KernelIdeal.τ Cert.KernelIdeal.sig) → Buf (Elt Ideal) ℓ)
    (hpre : Cert.Pre_KernelIdeal m) (c : Dev Cert.KernelIdeal.nD) :
    AllReal (s := S50000x20) (m ((c.tc : Thread Cert.KernelIdeal.nD Cert.KernelIdeal.τ).loc Cert.KernelIdeal.main_arg0))
      ∧ AllReal (s := S800000) (m ((c.tc : Thread Cert.KernelIdeal.nD Cert.KernelIdeal.τ).loc Cert.KernelIdeal.main_arg2))
      ∧ AllReal (s := S512) (m ((c.tc : Thread Cert.KernelIdeal.nD Cert.KernelIdeal.τ).loc Cert.KernelIdeal.main_arg4))
      ∧ AllReal (s := S20x32) (m ((c.tc : Thread Cert.KernelIdeal.nD Cert.KernelIdeal.τ).loc Cert.KernelIdeal.main_arg5))
      ∧ AllReal (s := S32) (m ((c.tc : Thread Cert.KernelIdeal.nD Cert.KernelIdeal.τ).loc Cert.KernelIdeal.main_arg6))
      ∧ AllReal (s := S32) (m ((c.tc : Thread Cert.KernelIdeal.nD Cert.KernelIdeal.τ).loc Cert.KernelIdeal.main_arg7))
      ∧ AllReal (s := S32) (m ((c.tc : Thread Cert.KernelIdeal.nD Cert.KernelIdeal.τ).loc Cert.KernelIdeal.main_arg8))
      ∧ AllReal (s := S32x64) (m ((c.tc : Thread Cert.KernelIdeal.nD Cert.KernelIdeal.τ).loc Cert.KernelIdeal.main_arg9))
      ∧ AllReal (s := S64) (m ((c.tc : Thread Cert.KernelIdeal.nD Cert.KernelIdeal.τ).loc Cert.KernelIdeal.main_arg10))
      ∧ AllReal (s := S64) (m ((c.tc : Thread Cert.KernelIdeal.nD Cert.KernelIdeal.τ).loc Cert.KernelIdeal.main_arg11))
      ∧ AllReal (s := S64) (m ((c.tc : Thread Cert.KernelIdeal.nD Cert.KernelIdeal.τ).loc Cert.KernelIdeal.main_arg12))
      ∧ AllReal (s := S64x128) (m ((c.tc : Thread Cert.KernelIdeal.nD Cert.KernelIdeal.τ).loc Cert.KernelIdeal.main_arg13))
      ∧ AllReal (s := S128) (m ((c.tc : Thread Cert.KernelIdeal.nD Cert.KernelIdeal.τ).loc Cert.KernelIdeal.main_arg14))
      ∧ AllReal (s := S128) (m ((c.tc : Thread Cert.KernelIdeal.nD Cert.KernelIdeal.τ).loc Cert.KernelIdeal.main_arg15))
      ∧ AllReal (s := S128) (m ((c.tc : Thread Cert.KernelIdeal.nD Cert.KernelIdeal.τ).loc Cert.KernelIdeal.main_arg16))
      ∧ AllReal (s := S128x128) (m ((c.tc : Thread Cert.KernelIdeal.nD Cert.KernelIdeal.τ).loc Cert.KernelIdeal.main_arg17))
      ∧ AllReal (s := S128) (m ((c.tc : Thread Cert.KernelIdeal.nD Cert.KernelIdeal.τ).loc Cert.KernelIdeal.main_arg18))
      ∧ AllReal (s := S128) (m ((c.tc : Thread Cert.KernelIdeal.nD Cert.KernelIdeal.τ).loc Cert.KernelIdeal.main_arg19))
      ∧ AllReal (s := S128) (m ((c.tc : Thread Cert.KernelIdeal.nD Cert.KernelIdeal.τ).loc Cert.KernelIdeal.main_arg20))
      ∧ AllReal (s := S128x256) (m ((c.tc : Thread Cert.KernelIdeal.nD Cert.KernelIdeal.τ).loc Cert.KernelIdeal.main_arg21))
      ∧ AllReal (s := S256) (m ((c.tc : Thread Cert.KernelIdeal.nD Cert.KernelIdeal.τ).loc Cert.KernelIdeal.main_arg22))
      ∧ AllReal (s := S256) (m ((c.tc : Thread Cert.KernelIdeal.nD Cert.KernelIdeal.τ).loc Cert.KernelIdeal.main_arg23))
      ∧ AllReal (s := S256) (m ((c.tc : Thread Cert.KernelIdeal.nD Cert.KernelIdeal.τ).loc Cert.KernelIdeal.main_arg24))
      ∧ AllReal (s := S256x128) (m ((c.tc : Thread Cert.KernelIdeal.nD Cert.KernelIdeal.τ).loc Cert.KernelIdeal.main_arg25))
      ∧ AllReal (s := S128) (m ((c.tc : Thread Cert.KernelIdeal.nD Cert.KernelIdeal.τ).loc Cert.KernelIdeal.main_arg26))
      ∧ AllReal (s := S128x1) (m ((c.tc : Thread Cert.KernelIdeal.nD Cert.KernelIdeal.τ).loc Cert.KernelIdeal.main_arg27))
      ∧ AllReal (s := S1) (m ((c.tc : Thread Cert.KernelIdeal.nD Cert.KernelIdeal.τ).loc Cert.KernelIdeal.main_arg28)) :=
  fn_real _ _ _ _ _ _ _ _ _ _ _ _ _ _ _ _ _ _ _ _ _ _ _ _ _ _ _ _ _ (hpre c)

end

end Cert.Val

end
-- ==== Proof.Val.Final.lean ====
import proofs.«411449_j51797305589934_2_alg».proof.Proof.Val.KHostPro
import proofs.«411449_j51797305589934_2_alg».proof.Proof.Val.KHostCarry
import proofs.«411449_j51797305589934_2_alg».proof.Proof.Val.KHostL1
import proofs.«411449_j51797305589934_2_alg».proof.Proof.Val.KHostL2
import proofs.«411449_j51797305589934_2_alg».proof.Proof.Val.KHostL3
import proofs.«411449_j51797305589934_2_alg».proof.Proof.Val.KHostL4
import proofs.«411449_j51797305589934_2_alg».proof.Proof.Val.KHostL5
import proofs.«411449_j51797305589934_2_alg».proof.Proof.Val.KHostTail
import proofs.«411449_j51797305589934_2_alg».proof.Proof.Val.KTail
import proofs.«411449_j51797305589934_2_alg».proof.Proof.Val.KL1
import proofs.«411449_j51797305589934_2_alg».proof.Proof.Val.KL2
import proofs.«411449_j51797305589934_2_alg».proof.Proof.Val.KL3
import proofs.«411449_j51797305589934_2_alg».proof.Proof.Val.KL4
import proofs.«411449_j51797305589934_2_alg».proof.Proof.Val.KL5
import proofs.«411449_j51797305589934_2_alg».proof.Proof.Val.RefNetReal
import proofs.«411449_j51797305589934_2_alg».proof.Proof.Val.PreReal

noncomputable section

namespace Cert.Val

open Cert.KernelIdeal Cert.KernelIdeal.Gen Cert.KernelIdeal.Reg
open Idealize.ShloMosaic Idealize.ShloMosaic.TcCoe Idealize.SL.Sem Idealize.ShloMosaic.ValueIdx
open scoped BigOperators

variable [Cert.Pre_finite_inputs.Facts]
variable (m : (ℓ : Loc nD τ sig) → Buf (Elt Ideal) ℓ) (c : Dev nD)

abbrev ka0 : S50000x20.Idx → EReal := m (c, main_arg0)
abbrev ka1 : IVec S2x800000 32 := m (c, main_arg1)
abbrev ka2 : S800000.Idx → EReal := m (c, main_arg2)
abbrev ka3 : IVec S50000 32 := m (c, main_arg3)
abbrev ka4 : S512.Idx → EReal := m (c, main_arg4)
abbrev ka5 : S20x32.Idx → EReal := m (c, main_arg5)
abbrev ka6 : S32.Idx → EReal := m (c, main_arg6)
abbrev ka7 : S32.Idx → EReal := m (c, main_arg7)
abbrev ka8 : S32.Idx → EReal := m (c, main_arg8)
abbrev ka9 : S32x64.Idx → EReal := m (c, main_arg9)
abbrev ka10 : S64.Idx → EReal := m (c, main_arg10)
abbrev ka11 : S64.Idx → EReal := m (c, main_arg11)
abbrev ka12 : S64.Idx → EReal := m (c, main_arg12)
abbrev ka13 : S64x128.Idx → EReal := m (c, main_arg13)
abbrev ka14 : S128.Idx → EReal := m (c, main_arg14)
abbrev ka15 : S128.Idx → EReal := m (c, main_arg15)
abbrev ka16 : S128.Idx → EReal := m (c, main_arg16)
abbrev ka17 : S128x128.Idx → EReal := m (c, main_arg17)
abbrev ka18 : S128.Idx → EReal := m (c, main_arg18)
abbrev ka19 : S128.Idx → EReal := m (c, main_arg19)
abbrev ka20 : S128.Idx → EReal := m (c, main_arg20)
abbrev ka21 : S128x256.Idx → EReal := m (c, main_arg21)
abbrev ka22 : S256.Idx → EReal := m (c, main_arg22)
abbrev ka23 : S256.Idx → EReal := m (c, main_arg23)
abbrev ka24 : S256.Idx → EReal := m (c, main_arg24)
abbrev ka25 : S256x128.Idx → EReal := m (c, main_arg25)
abbrev ka26 : S128.Idx → EReal := m (c, main_arg26)
abbrev ka27 : S128x1.Idx → EReal := m (c, main_arg27)
abbrev ka28 : S1.Idx → EReal := m (c, main_arg28)

theorem kfin1 : l1_out m c = refL1 (ka0 m c) (ka5 m c) (ka6 m c) (ka7 m c) (ka8 m c) (ka1 m c) (ka2 m c) :=
  kl1 m c (ka0 m c) (ka5 m c) (ka6 m c) (ka7 m c) (ka8 m c) (ka1 m c) (ka2 m c)
    (Y3_arg0 m c) (Y3_arg5 m c)
    ((Y4_v3 m c).trans (Y3_v3 m c)) ((Y4_v6 m c).trans (Y3_v6 m c)) ((Y4_v31 m c).trans (Y3_v31 m c))
    (hagg1 m c)
    (fun q => (hb2_1 m c q).trans (congrFun (Y4_arg6 m c) (ix1 q)))
    (hmean1 m c) (hvar1 m c) (hinv1 m c)
    (fun q => (hg2_1 m c q).trans (congrFun (Y8_arg7 m c) (ix1 q)))
    (fun q => (hbe2_1 m c q).trans (congrFun (Y8_arg8 m c) (ix1 q)))

theorem kfin2 : l2_out m c = refL2 (refL1 (ka0 m c) (ka5 m c) (ka6 m c) (ka7 m c) (ka8 m c) (ka1 m c) (ka2 m c)) (ka9 m c) (ka10 m c) (ka11 m c) (ka12 m c) (ka1 m c) (ka2 m c) :=
  kl2 m c (refL1 (ka0 m c) (ka5 m c) (ka6 m c) (ka7 m c) (ka8 m c) (ka1 m c) (ka2 m c)) (ka9 m c) (ka10 m c) (ka11 m c) (ka12 m c) (ka1 m c) (ka2 m c)
    (kfin1 m c) (Y10_arg9 m c)
    ((Y11_v3 m c).trans (Y3_v3 m c)) ((Y11_v6 m c).trans (Y3_v6 m c)) ((Y11_v31 m c).trans (Y3_v31 m c))
    (hagg2 m c)
    (fun q => (hb2_2 m c q).trans (congrFun (Y11_arg10 m c) (ix1 q)))
    (hmean2 m c) (hvar2 m c) (hinv2 m c)
    (fun q => (hg2_2 m c q).trans (congrFun (Y15_arg11 m c) (ix1 q)))
    (fun q => (hbe2_2 m c q).trans (congrFun (Y15_arg12 m c) (ix1 q)))

theorem kfin3 : l3_out m c = refL3 (refL2 (refL1 (ka0 m c) (ka5 m c) (ka6 m c) (ka7 m c) (ka8 m c) (ka1 m c) (ka2 m c)) (ka9 m c) (ka10 m c) (ka11 m c) (ka12 m c) (ka1 m c) (ka2 m c)) (ka13 m c) (ka14 m c) (ka15 m c) (ka16 m c) (ka1 m c) (ka2 m c) :=
  kl3 m c (refL2 (refL1 (ka0 m c) (ka5 m c) (ka6 m c) (ka7 m c) (ka8 m c) (ka1 m c) (ka2 m c)) (ka9 m c) (ka10 m c) (ka11 m c) (ka12 m c) (ka1 m c) (ka2 m c)) (ka13 m c) (ka14 m c) (ka15 m c) (ka16 m c) (ka1 m c) (ka2 m c)
    (kfin2 m c) (Y17_arg13 m c)
    ((Y18_v3 m c).trans (Y3_v3 m c)) ((Y18_v6 m c).trans (Y3_v6 m c)) ((Y18_v31 m c).trans (Y3_v31 m c))
    (hagg3 m c)
    (fun q => (hb2_3 m c q).trans (congrFun (Y18_arg14 m c) (ix1 q)))
    (hmean3 m c) (hvar3 m c) (hinv3 m c)
    (fun q => (hg2_3 m c q).trans (congrFun (Y22_arg15 m c) (ix1 q)))
    (fun q => (hbe2_3 m c q).trans (congrFun (Y22_arg16 m c) (ix1 q)))

theorem kfin4 : l4_out m c = refL4 (refL3 (refL2 (refL1 (ka0 m c) (ka5 m c) (ka6 m c) (ka7 m c) (ka8 m c) (ka1 m c) (ka2 m c)) (ka9 m c) (ka10 m c) (ka11 m c) (ka12 m c) (ka1 m c) (ka2 m c)) (ka13 m c) (ka14 m c) (ka15 m c) (ka16 m c) (ka1 m c) (ka2 m c)) (ka17 m c) (ka18 m c) (ka19 m c) (ka20 m c) (ka1 m c) (ka2 m c) :=
  kl4 m c (refL3 (refL2 (refL1 (ka0 m c) (ka5 m c) (ka6 m c) (ka7 m c) (ka8 m c) (ka1 m c) (ka2 m c)) (ka9 m c) (ka10 m c) (ka11 m c) (ka12 m c) (ka1 m c) (ka2 m c)) (ka13 m c) (ka14 m c) (ka15 m c) (ka16 m c) (ka1 m c) (ka2 m c)) (ka17 m c) (ka18 m c) (ka19 m c) (ka20 m c) (ka1 m c) (ka2 m c)
    (kfin3 m c) (Y24_arg17 m c)
    ((Y25_v3 m c).trans (Y3_v3 m c)) ((Y25_v6 m c).trans (Y3_v6 m c)) ((Y25_v31 m c).trans (Y3_v31 m c))
    (hagg4 m c)
    (fun q => (hb2_4 m c q).trans (congrFun (Y25_arg18 m c) (ix1 q)))
    (hmean4 m c) (hvar4 m c) (hinv4 m c)
    (fun q => (hg2_4 m c q).trans (congrFun (Y29_arg19 m c) (ix1 q)))
    (fun q => (hbe2_4 m c q).trans (congrFun (Y29_arg20 m c) (ix1 q)))

theorem kfin5 : l5_out m c = refL5 (refL4 (refL3 (refL2 (refL1 (ka0 m c) (ka5 m c) (ka6 m c) (ka7 m c) (ka8 m c) (ka1 m c) (ka2 m c)) (ka9 m c) (ka10 m c) (ka11 m c) (ka12 m c) (ka1 m c) (ka2 m c)) (ka13 m c) (ka14 m c) (ka15 m c) (ka16 m c) (ka1 m c) (ka2 m c)) (ka17 m c) (ka18 m c) (ka19 m c) (ka20 m c) (ka1 m c) (ka2 m c)) (ka21 m c) (ka22 m c) (ka23 m c) (ka24 m c) (ka1 m c) (ka2 m c) :=
  kl5 m c (refL4 (refL3 (refL2 (refL1 (ka0 m c) (ka5 m c) (ka6 m c) (ka7 m c) (ka8 m c) (ka1 m c) (ka2 m c)) (ka9 m c) (ka10 m c) (ka11 m c) (ka12 m c) (ka1 m c) (ka2 m c)) (ka13 m c) (ka14 m c) (ka15 m c) (ka16 m c) (ka1 m c) (ka2 m c)) (ka17 m c) (ka18 m c) (ka19 m c) (ka20 m c) (ka1 m c) (ka2 m c)) (ka21 m c) (ka22 m c) (ka23 m c) (ka24 m c) (ka1 m c) (ka2 m c)
    (kfin4 m c) (Y31_arg21 m c)
    ((Y32_v3 m c).trans (Y3_v3 m c)) ((Y32_v6 m c).trans (Y3_v6 m c)) ((Y32_v31 m c).trans (Y3_v31 m c))
    (hagg5 m c)
    (fun q => (hb2_5 m c q).trans (congrFun (Y32_arg22 m c) (ix1 q)))
    (hmean5 m c) (hvar5 m c) (hinv5 m c)
    (fun q => (hg2_5 m c q).trans (congrFun (Y36_arg23 m c) (ix1 q)))
    (fun q => (hbe2_5 m c q).trans (congrFun (Y36_arg24 m c) (ix1 q)))

theorem kfin_h5 : l5_out m c = refH5 (ka0 m c) (ka1 m c) (ka2 m c) (ka5 m c) (ka6 m c) (ka7 m c) (ka8 m c) (ka9 m c) (ka10 m c) (ka11 m c) (ka12 m c) (ka13 m c) (ka14 m c) (ka15 m c) (ka16 m c) (ka17 m c) (ka18 m c) (ka19 m c) (ka20 m c) (ka21 m c) (ka22 m c) (ka23 m c) (ka24 m c) := kfin5 m c

theorem kargs_real (hpre : Cert.Pre_KernelIdeal m) :
    AllReal (ka0 m c) ∧ AllReal (ka2 m c) ∧ AllReal (ka4 m c) ∧ AllReal (ka5 m c) ∧ AllReal (ka6 m c) ∧ AllReal (ka7 m c) ∧ AllReal (ka8 m c) ∧ AllReal (ka9 m c) ∧ AllReal (ka10 m c) ∧ AllReal (ka11 m c) ∧ AllReal (ka12 m c) ∧ AllReal (ka13 m c) ∧ AllReal (ka14 m c) ∧ AllReal (ka15 m c) ∧ AllReal (ka16 m c) ∧ AllReal (ka17 m c) ∧ AllReal (ka18 m c) ∧ AllReal (ka19 m c) ∧ AllReal (ka20 m c) ∧ AllReal (ka21 m c) ∧ AllReal (ka22 m c) ∧ AllReal (ka23 m c) ∧ AllReal (ka24 m c) ∧ AllReal (ka25 m c) ∧ AllReal (ka26 m c) ∧ AllReal (ka27 m c) ∧ AllReal (ka28 m c) :=
  pre_real m hpre c

theorem kh5_real (hpre : Cert.Pre_KernelIdeal m) : AllReal (l5_out m c) := by
  obtain ⟨r0, r2, _, r5, r6, r7, r8, r9, r10, r11, r12, r13, r14, r15, r16, r17, r18, r19, r20, r21, r22, r23, r24, _, _, _, _⟩ :=
    kargs_real m c hpre
  rw [kfin_h5]
  exact h5_real (ka1 m c) r0 r2 r5 r6 r7 r8 r9 r10 r11 r12 r13 r14 r15 r16 r17 r18 r19 r20 r21 r22 r23 r24

theorem kernel_value (hpre : Cert.Pre_KernelIdeal m) :
    out47 m c = refNet (ka0 m c) (ka1 m c) (ka2 m c) (ka3 m c) (ka5 m c) (ka6 m c) (ka7 m c) (ka8 m c) (ka9 m c) (ka10 m c) (ka11 m c) (ka12 m c) (ka13 m c) (ka14 m c) (ka15 m c) (ka16 m c) (ka17 m c) (ka18 m c) (ka19 m c) (ka20 m c) (ka21 m c) (ka22 m c) (ka23 m c) (ka24 m c) (ka25 m c) (ka26 m c) (ka27 m c) (ka28 m c) := by
  have e := ktail m c (l5_out m c) (ka3 m c) (ka25 m c) (ka26 m c) (ka27 m c) (ka28 m c) (kh5_real m c hpre)
    (hpad m c) (bpad m c) (hw1 m c) (hb1 m c) (hw2 m c) (hb2 m c) (hres m c)
  rw [kfin_h5] at e
  exact e

end Cert.Val

end
-- ==== Proof.lean ====
import proofs.«411449_j51797305589934_2_alg».proof.Defs
import proofs.«411449_j51797305589934_2_alg».proof.Proof.Gen.Kernel
import proofs.«411449_j51797305589934_2_alg».proof.Proof.Gen.KernelIdeal
import proofs.«411449_j51797305589934_2_alg».proof.Proof.Gen.ReferenceIdeal
import proofs.«411449_j51797305589934_2_alg».proof.Proof.Gen.Pre_finite_inputs
import proofs.«411449_j51797305589934_2_alg».proof.Proof.K.Run
import proofs.«411449_j51797305589934_2_alg».proof.Proof.KI.Run
import proofs.«411449_j51797305589934_2_alg».proof.Proof.Ref.Bridge
import proofs.«411449_j51797305589934_2_alg».proof.Proof.Ref.Vals
import proofs.«411449_j51797305589934_2_alg».proof.Proof.Val.Final
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts := fun m ρ _ =>
  (θ_run _ _ _).mono (fun _ h c => (h c).1) (Cert.Kernel.Reg.run (F := Bits) m ρ)

theorem frame_ki : @Cert.frame_KernelIdeal Cert.KernelIdeal.Gen.facts Cert.Pre_finite_inputs.Gen.facts := fun m ρ _ =>
  (θ_run _ _ _).mono (fun _ h c => (h c).1) (Cert.KernelIdeal.Reg.run (F := Ideal) m ρ)

theorem frame_ri : @Cert.frame_ReferenceIdeal Cert.ReferenceIdeal.Gen.facts Cert.Pre_finite_inputs.Gen.facts := fun m ρ _ =>
  Cert.ReferenceIdeal.RefRun.ref_frame (F := Ideal) m ρ

theorem preserves : Cert.preserves_Kernel_KernelIdeal :=
  IdealRules.truncf_extf.statement Cert.KernelIdeal.S2944x256 .f32 .bf16

theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Reg.Y47 m c Cert.KernelIdeal.main_v179, ?_, ?_⟩
  · exact (θ_run _ _ _).mono (fun _ h c => ⟨(h c).2, (h c).1⟩) (Cert.KernelIdeal.Reg.run (F := Ideal) m ρ)
  · refine (θ_run _ _ _).mono (fun _ h c => ⟨(h c).1.trans ?_, (h c).2⟩) (Cert.ReferenceIdeal.RefRun.ref_run_value_net m' ρ')
    obtain ⟨e0, e1, e2, e3, e4, e5, e6, e7, e8, e9, e10, e11, e12, e13, e14, e15, e16, e17, e18, e19, e20, e21, e22, e23, e24, e25, e26, e27, e28⟩ := hagree c
    rw [e0, e1, e2, e3, e5, e6, e7, e8, e9, e10, e11, e12, e13, e14, e15, e16, e17, e18, e19, e20, e21, e22, e23, e24, e25, e26, e27, e28]
    exact (Cert.Val.kernel_value m c hpre).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
